-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.truncf_extf.Statement Cert.KernelIdeal.S2000x2048 .f32 .bf16
  ∧ IdealRules.truncf_extf.Statement Cert.KernelIdeal.S2000x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part5 {F : FTy → Type} [FloatOps F] (main_arg3 : IVec S2x600000 32) (main_v80 : IVec S_ 1) (main_v85 : IVec S_ 1) : IVec S_ 1 :=
  let main_v86 : IVec S_ 1 := andi main_v80 main_v85
  let main_v87 : IVec S1x600000 32 := (extractStridedSlice S1x600000 ![0, 0] · slices_S2x600000_S1x600000_0_0) main_arg3
  let main_v88 : IVec S600000 32 := shapeCast S600000 main_v87 shapeCasts_S1x600000_S600000
  let main_c_32 : IVec S_ 32 := constantI S_ 32 100000#32
  let main_v89 : IVec S600000 32 := broadcastInDim S600000 ![] bcast_S_S600000 main_c_32
  let main_v90 : IVec S600000 1 := cmpi .slt main_v88 main_v89
  let main_c_33 : IVec S_ 1 := constantI S_ 1 1#1
  let main_v91 : IVec S_ 1 := (fun x v => Host.reduce IntOp.andi x v reducesTo_S600000_S_d0 h_S_) main_v90 main_c_33
  let main_v92 : IVec S_ 1 := andi main_v86 main_v91
  main_v92

def fn_part4 {F : FTy → Type} [FloatOps F] (main_arg2 : IVec S2x600000 32) (main_arg3 : IVec S2x600000 32) (main_v63 : IVec S_ 1) (main_v67 : IVec S_ 1) : IVec S_ 1 :=
  let main_v68 : IVec S_ 1 := andi main_v63 main_v67
  let main_v69 : IVec S1x600000 32 := (extractStridedSlice S1x600000 ![0, 0] · slices_S2x600000_S1x600000_0_0) main_arg2
  let main_v70 : IVec S600000 32 := shapeCast S600000 main_v69 shapeCasts_S1x600000_S600000
  let main_c_26 : IVec S_ 32 := constantI S_ 32 0#32
  let main_v71 : IVec S600000 32 := broadcastInDim S600000 ![] bcast_S_S600000 main_c_26
  let main_v72 : IVec S600000 1 := cmpi .sge main_v70 main_v71
  let main_c_27 : IVec S_ 1 := constantI S_ 1 1#1
  let main_v73 : IVec S_ 1 := (fun x v => Host.reduce IntOp.andi x v reducesTo_S600000_S_d0 h_S_) main_v72 main_c_27
  let main_v74 : IVec S_ 1 := andi main_v68 main_v73
  let main_v75 : IVec S1x600000 32 := (extractStridedSlice S1x600000 ![0, 0] · slices_S2x600000_S1x600000_0_0) main_arg2
  let main_v76 : IVec S600000 32 := shapeCast S600000 main_v75 shapeCasts_S1x600000_S600000
  let main_c_28 : IVec S_ 32 := constantI S_ 32 100000#32
  let main_v77 : IVec S600000 32 := broadcastInDim S600000 ![] bcast_S_S600000 main_c_28
  let main_v78 : IVec S600000 1 := cmpi .slt main_v76 main_v77
  let main_c_29 : IVec S_ 1 := constantI S_ 1 1#1
  let main_v79 : IVec S_ 1 := (fun x v => Host.reduce IntOp.andi x v reducesTo_S600000_S_d0 h_S_) main_v78 main_c_29
  let main_v80 : IVec S_ 1 := andi main_v74 main_v79
  let main_v81 : IVec S1x600000 32 := (extractStridedSlice S1x600000 ![0, 0] · slices_S2x600000_S1x600000_0_0) main_arg3
  let main_v82 : IVec S600000 32 := shapeCast S600000 main_v81 shapeCasts_S1x600000_S600000
  let main_c_30 : IVec S_ 32 := constantI S_ 32 0#32
  let main_v83 : IVec S600000 32 := broadcastInDim S600000 ![] bcast_S_S600000 main_c_30
  let main_v84 : IVec S600000 1 := cmpi .sge main_v82 main_v83
  let main_c_31 : IVec S_ 1 := constantI S_ 1 1#1
  let main_v85 : IVec S_ 1 := (fun x v => Host.reduce IntOp.andi x v reducesTo_S600000_S_d0 h_S_) main_v84 main_c_31
  fn_part5 (F := F) main_arg3 main_v80 main_v85

def fn_part3 {F : FTy → Type} [FloatOps F] (main_arg2 : IVec S2x600000 32) (main_arg3 : IVec S2x600000 32) (main_arg13 : FVec F S128x128 .f32) (main_arg14 : FVec F S128 .f32) (main_arg15 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg2 main_arg3 main_v63 main_v67

def fn_part2 {F : FTy → Type} [FloatOps F] (main_arg2 : IVec S2x600000 32) (main_arg3 : IVec S2x600000 32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_v48 main_v49 main_v50

def fn_part1 {F : FTy → Type} [FloatOps F] (main_arg2 : IVec S2x600000 32) (main_arg3 : IVec S2x600000 32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S100000x128 .f32) (main_arg1 : FVec F S100000x128 .f32) (main_arg2 : IVec S2x600000 32) (main_arg3 : IVec S2x600000 32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600064 : Shape := ⟨1, ![600064]⟩
abbrev S600064x1 : Shape := ⟨2, ![600064, 1]⟩
abbrev S293x2048 : Shape := ⟨2, ![293, 2048]⟩
abbrev S293x1 : Shape := ⟨2, ![293, 1]⟩
abbrev S293 : Shape := ⟨1, ![293]⟩
abbrev S1x600064 : Shape := ⟨2, ![1, 600064]⟩
abbrev S600064x128 : Shape := ⟨2, ![600064, 128]⟩
abbrev S1x2048 : Shape := ⟨2, ![1, 2048]⟩
abbrev S2048x128 : Shape := ⟨2, ![2048, 128]⟩
abbrev S2000x1 : Shape := ⟨2, ![2000, 1]⟩
abbrev S2000x2048 : Shape := ⟨2, ![2000, 2048]⟩
abbrev S2000x128 : Shape := ⟨2, ![2000, 128]⟩
abbrev S102000x128 : Shape := ⟨2, ![102000, 128]⟩
abbrev S102000x1 : Shape := ⟨2, ![102000, 1]⟩
abbrev S1 : Shape := ⟨1, ![1]⟩
abbrev S2000 : Shape := ⟨1, ![2000]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 178
  | .vmem => 102
  | .smem => 4
  | _ => 0

abbrev hbmTy0_0 (i : Nat) : BufTy := match i % 128 with
  | 0 => ⟨S100000x128, .f32⟩
  | 1 => ⟨S100000x128, .f32⟩
  | 2 => ⟨S2x600000, .i32⟩
  | 3 => ⟨S2x600000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S1x600000, .i32⟩
  | 17 => ⟨S600000, .i32⟩
  | 18 => ⟨S1x600000, .i32⟩
  | 19 => ⟨S600000, .i32⟩
  | 20 => ⟨S_, .i32⟩
  | 21 => ⟨S_, .i32⟩
  | 22 => ⟨S600064, .i32⟩
  | 23 => ⟨S_, .i32⟩
  | 24 => ⟨S_, .i32⟩
  | 25 => ⟨S600064, .i32⟩
  | 26 => ⟨S600064, .i32⟩
  | 27 => ⟨S600064, .i32⟩
  | 28 => ⟨S600064, .i32⟩
  | 29 => ⟨S_, .i32⟩
  | 30 => ⟨S600064, .i32⟩
  | 31 => ⟨S600064, .i1⟩
  | 32 => ⟨S_, .i32⟩
  | 33 => ⟨S600064, .i32⟩
  | 34 => ⟨S600064, .i32⟩
  | 35 => ⟨S600064, .i32⟩
  | 36 => ⟨S600064x1, .i32⟩
  | 37 => ⟨S600064, .i32⟩
  | 38 => ⟨S_, .i32⟩
  | 39 => ⟨S600064, .i32⟩
  | 40 => ⟨S600064, .i1⟩
  | 41 => ⟨S_, .i32⟩
  | 42 => ⟨S600064, .i32⟩
  | 43 => ⟨S600064, .i32⟩
  | 44 => ⟨S600064, .i32⟩
  | 45 => ⟨S600064x1, .i32⟩
  | 46 => ⟨S600064, .i32⟩
  | 47 => ⟨S293x2048, .i32⟩
  | 48 => ⟨S293x1, .i32⟩
  | 49 => ⟨S293, .i32⟩
  | 50 => ⟨S_, .i32⟩
  | 51 => ⟨S_, .i32⟩
  | 52 => ⟨S293, .i32⟩
  | 53 => ⟨S293, .i32⟩
  | 54 => ⟨S293, .i32⟩
  | 55 => ⟨S_, .i32⟩
  | 56 => ⟨S293, .i32⟩
  | 57 => ⟨S293, .i1⟩
  | 58 => ⟨S293, .i32⟩
  | 59 => ⟨S293, .i32⟩
  | 60 => ⟨S_, .i32⟩
  | 61 => ⟨S293, .i32⟩
  | 62 => ⟨S293, .i1⟩
  | 63 => ⟨S293, .i1⟩
  | 64 => ⟨S_, .i32⟩
  | 65 => ⟨S293, .i32⟩
  | 66 => ⟨S293, .i32⟩
  | 67 => ⟨S293x1, .i32⟩
  | 68 => ⟨S293, .i32⟩
  | 69 => ⟨S_, .i32⟩
  | 70 => ⟨S_, .i32⟩
  | 71 => ⟨S293, .i32⟩
  | 72 => ⟨S293, .i32⟩
  | 73 => ⟨S293, .i32⟩
  | 74 => ⟨S_, .i32⟩
  | 75 => ⟨S293, .i32⟩
  | 76 => ⟨S293, .i1⟩
  | 77 => ⟨S293, .i32⟩
  | 78 => ⟨S293, .i32⟩
  | 79 => ⟨S_, .i32⟩
  | 80 => ⟨S293, .i32⟩
  | 81 => ⟨S293, .i1⟩
  | 82 => ⟨S293, .i1⟩
  | 83 => ⟨S_, .i32⟩
  | 84 => ⟨S293, .i32⟩
  | 85 => ⟨S293, .i32⟩
  | 86 => ⟨S1x600064, .i32⟩
  | 87 => ⟨S1x600064, .i32⟩
  | 88 => ⟨S1x600000, .i32⟩
  | 89 => ⟨S600000, .i32⟩
  | 90 => ⟨S1x600000, .i32⟩
  | 91 => ⟨S600000, .i32⟩
  | 92 => ⟨S_, .i32⟩
  | 93 => ⟨S_, .i32⟩
  | 94 => ⟨S600064, .i32⟩
  | 95 => ⟨S_, .i32⟩
  | 96 => ⟨S_, .i32⟩
  | 97 => ⟨S600064, .i32⟩
  | 98 => ⟨S600064, .i32⟩
  | 99 => ⟨S600064, .i32⟩
  | 100 => ⟨S600064, .i32⟩
  | 101 => ⟨S_, .i32⟩
  | 102 => ⟨S600064, .i32⟩
  | 103 => ⟨S600064, .i1⟩
  | 104 => ⟨S_, .i32⟩
  | 105 => ⟨S600064, .i32⟩
  | 106 => ⟨S600064, .i32⟩
  | 107 => ⟨S600064, .i32⟩
  | 108 => ⟨S600064x1, .i32⟩
  | 109 => ⟨S600064, .i32⟩
  | 110 => ⟨S_, .i32⟩
  | 111 => ⟨S600064, .i32⟩
  | 112 => ⟨S600064, .i1⟩
  | 113 => ⟨S_, .i32⟩
  | 114 => ⟨S600064, .i32⟩
  | 115 => ⟨S600064, .i32⟩
  | 116 => ⟨S600064, .i32⟩
  | 117 => ⟨S600064x1, .i32⟩
  | 118 => ⟨S600064, .i32⟩
  | 119 => ⟨S293x2048, .i32⟩
  | 120 => ⟨S293x1, .i32⟩
  | 121 => ⟨S293, .i32⟩
  | 122 => ⟨S_, .i32⟩
  | 123 => ⟨S_, .i32⟩
  | 124 => ⟨S293, .i32⟩
  | 125 => ⟨S293, .i32⟩
  | 126 => ⟨S293, .i32⟩
  | 127 => ⟨S_, .i32⟩
  | _ => ⟨S100000x128, .f32⟩

abbrev hbmTy0_1 (i : Nat) : BufTy := match i % 128 with
  | 0 => ⟨S293, .i32⟩
  | 1 => ⟨S293, .i1⟩
  | 2 => ⟨S293, .i32⟩
  | 3 => ⟨S293, .i32⟩
  | 4 => ⟨S_, .i32⟩
  | 5 => ⟨S293, .i32⟩
  | 6 => ⟨S293, .i1⟩
  | 7 => ⟨S293, .i1⟩
  | 8 => ⟨S_, .i32⟩
  | 9 => ⟨S293, .i32⟩
  | 10 => ⟨S293, .i32⟩
  | 11 => ⟨S293x1, .i32⟩
  | 12 => ⟨S293, .i32⟩
  | 13 => ⟨S_, .i32⟩
  | 14 => ⟨S_, .i32⟩
  | 15 => ⟨S293, .i32⟩
  | 16 => ⟨S293, .i32⟩
  | 17 => ⟨S293, .i32⟩
  | 18 => ⟨S_, .i32⟩
  | 19 => ⟨S293, .i32⟩
  | 20 => ⟨S293, .i1⟩
  | 21 => ⟨S293, .i32⟩
  | 22 => ⟨S293, .i32⟩
  | 23 => ⟨S_, .i32⟩
  | 24 => ⟨S293, .i32⟩
  | 25 => ⟨S293, .i1⟩
  | 26 => ⟨S293, .i1⟩
  | 27 => ⟨S_, .i32⟩
  | 28 => ⟨S293, .i32⟩
  | 29 => ⟨S293, .i32⟩
  | 30 => ⟨S1x600064, .i32⟩
  | 31 => ⟨S1x600064, .i32⟩
  | 32 => ⟨S100000x128, .bf16⟩
  | 33 => ⟨S600064x128, .bf16⟩
  | 34 => ⟨S102000x128, .f32⟩
  | 35 => ⟨S102000x1, .f32⟩
  | 36 => ⟨S100000x128, .f32⟩
  | 37 => ⟨S100000x128, .bf16⟩
  | 38 => ⟨S600064x128, .bf16⟩
  | 39 => ⟨S102000x128, .f32⟩
  | 40 => ⟨S102000x1, .f32⟩
  | 41 => ⟨S100000x128, .f32⟩
  | 42 => ⟨S100000x128, .bf16⟩
  | 43 => ⟨S600064x128, .bf16⟩
  | 44 => ⟨S102000x128, .f32⟩
  | 45 => ⟨S100000x128, .f32⟩
  | 46 => ⟨S100000x128, .bf16⟩
  | 47 => ⟨S600064x128, .bf16⟩
  | 48 => ⟨S102000x128, .f32⟩
  | 49 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S100000x128, .bf16⟩
  | .local _ .vmem, ⟨1, _⟩ => ⟨S1x2048, .i32⟩
  | .local _ .vmem, ⟨2, _⟩ => ⟨S1x2048, .i32⟩
  | .local _ .vmem, ⟨3, _⟩ => ⟨S2048x128, .bf16⟩
  | .local _ .vmem, ⟨4, _⟩ => ⟨S2048x128, .bf16⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S1x2048, .i32⟩
  | .local _ .vmem, ⟨9, _⟩ => ⟨S1x2048, .i32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x128, .f32⟩
  | .local _ .vmem, ⟨15, _⟩ => ⟨S2000x1, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S100000x128, .bf16⟩
  | .local _ .vmem, ⟨28, _⟩ => ⟨S1x2048, .i32⟩
  | .local _ .vmem, ⟨29, _⟩ => ⟨S1x2048, .i32⟩
  | .local _ .vmem, ⟨30, _⟩ => ⟨S2048x128, .bf16⟩
  | .local _ .vmem, ⟨31, _⟩ => ⟨S2048x128, .bf16⟩
  | .local _ .vmem, ⟨32, _⟩ => ⟨S2048x128, .f32⟩
  | .local _ .vmem, ⟨33, _⟩ => ⟨S2048x128, .bf16⟩
  | .local _ .vmem, ⟨34, _⟩ => ⟨S2048x128, .bf16⟩
  | .local _ .vmem, ⟨35, _⟩ => ⟨S1x2048, .i32⟩
  | .local _ .vmem, ⟨36, _⟩ => ⟨S1x2048, .i32⟩
  | .local _ .vmem, ⟨37, _⟩ => ⟨S2000x128, .f32⟩
  | .local _ .vmem, ⟨38, _⟩ => ⟨S2000x128, .f32⟩
  | .local _ .vmem, ⟨39, _⟩ => ⟨S2000x1, .f32⟩
  | .local _ .vmem, ⟨40, _⟩ => ⟨S2000x1, .f32⟩
  | .local _ .vmem, ⟨41, _⟩ => ⟨S2000x128, .f32⟩
  | .local _ .vmem, ⟨42, _⟩ => ⟨S2000x1, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128, .f32⟩
  | .local _ .vmem, ⟨51, _⟩ => ⟨S128x128, .f32⟩
  | .local _ .vmem, ⟨52, _⟩ => ⟨S5000x128, .f32⟩
  | .local _ .vmem, ⟨53, _⟩ => ⟨S5000x128, .f32⟩
  | .local _ .vmem, ⟨54, _⟩ => ⟨S100000x128, .bf16⟩
  | .local _ .vmem, ⟨55, _⟩ => ⟨S1x2048, .i32⟩
  | .local _ .vmem, ⟨56, _⟩ => ⟨S1x2048, .i32⟩
  | .local _ .vmem, ⟨57, _⟩ => ⟨S2048x128, .bf16⟩
  | .local _ .vmem, ⟨58, _⟩ => ⟨S2048x128, .bf16⟩
  | .local _ .vmem, ⟨59, _⟩ => ⟨S2048x128, .f32⟩
  | .local _ .vmem, ⟨60, _⟩ => ⟨S2048x128, .bf16⟩
  | .local _ .vmem, ⟨61, _⟩ => ⟨S2048x128, .bf16⟩
  | .local _ .vmem, ⟨62, _⟩ => ⟨S1x2048, .i32⟩
  | .local _ .vmem, ⟨63, _⟩ => ⟨S1x2048, .i32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S5000x128, .f32⟩
  | .local _ .vmem, ⟨68, _⟩ => ⟨S5000x128, .f32⟩
  | .local _ .vmem, ⟨69, _⟩ => ⟨S5000x1, .f32⟩
  | .local _ .vmem, ⟨70, _⟩ => ⟨S5000x1, .f32⟩
  | .local _ .vmem, ⟨71, _⟩ => ⟨S5000x128, .f32⟩
  | .local _ .vmem, ⟨72, _⟩ => ⟨S5000x128, .f32⟩
  | .local _ .vmem, ⟨73, _⟩ => ⟨S128x128, .f32⟩
  | .local _ .vmem, ⟨74, _⟩ => ⟨S128, .f32⟩
  | .local _ .vmem, ⟨75, _⟩ => ⟨S128x128, .f32⟩
  | .local _ .vmem, ⟨76, _⟩ => ⟨S5000x128, .f32⟩
  | .local _ .vmem, ⟨77, _⟩ => ⟨S5000x128, .f32⟩
  | .local _ .vmem, ⟨78, _⟩ => ⟨S100000x128, .bf16⟩
  | .local _ .vmem, ⟨79, _⟩ => ⟨S1x2048, .i32⟩
  | .local _ .vmem, ⟨80, _⟩ => ⟨S1x2048, .i32⟩
  | .local _ .vmem, ⟨81, _⟩ => ⟨S2048x128, .bf16⟩
  | .local _ .vmem, ⟨82, _⟩ => ⟨S2048x128, .bf16⟩
  | .local _ .vmem, ⟨83, _⟩ => ⟨S2048x128, .f32⟩
  | .local _ .vmem, ⟨84, _⟩ => ⟨S2048x128, .bf16⟩
  | .local _ .vmem, ⟨85, _⟩ => ⟨S2048x128, .bf16⟩
  | .local _ .vmem, ⟨86, _⟩ => ⟨S1x2048, .i32⟩
  | .local _ .vmem, ⟨87, _⟩ => ⟨S1x2048, .i32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S5000x128, .f32⟩
  | .local _ .vmem, ⟨92, _⟩ => ⟨S5000x128, .f32⟩
  | .local _ .vmem, ⟨93, _⟩ => ⟨S5000x1, .f32⟩
  | .local _ .vmem, ⟨94, _⟩ => ⟨S5000x1, .f32⟩
  | .local _ .vmem, ⟨95, _⟩ => ⟨S5000x128, .f32⟩
  | .local _ .vmem, ⟨96, _⟩ => ⟨S5000x128, .f32⟩
  | .local _ .vmem, ⟨97, _⟩ => ⟨S128x128, .f32⟩
  | .local _ .vmem, ⟨98, _⟩ => ⟨S128, .f32⟩
  | .local _ .vmem, ⟨99, _⟩ => ⟨S128x128, .f32⟩
  | .local _ .vmem, ⟨100, _⟩ => ⟨S5000x128, .f32⟩
  | .local _ .vmem, ⟨101, _⟩ => ⟨S5000x128, .f32⟩
  | .local _ .smem, ⟨0, _⟩ => ⟨S293, .i32⟩
  | .local _ .smem, ⟨1, _⟩ => ⟨S293, .i32⟩
  | .local _ .smem, ⟨2, _⟩ => ⟨S293, .i32⟩
  | .local _ .smem, ⟨3, _⟩ => ⟨S293, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_v0 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_v5 : Ref sig .tc := ⟨.hbm, 25, rfl⟩
abbrev main_call2_v0 : Ref sig .tc := ⟨.hbm, 26, rfl⟩
abbrev main_call2_v1_0 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_0 : Ref sig .tc := ⟨.hbm, 64, rfl⟩
abbrev main_call3_v12 : Ref sig .tc := ⟨.hbm, 65, rfl⟩
abbrev main_call3_v13 : Ref sig .tc := ⟨.hbm, 66, rfl⟩
abbrev main_v25 : Ref sig .tc := ⟨.hbm, 67, rfl⟩
abbrev main_v26 : Ref sig .tc := ⟨.hbm, 68, rfl⟩
abbrev main_c_6 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_c : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_0 : Ref sig .tc := ⟨.hbm, 83, rfl⟩
abbrev main_call4_v12 : Ref sig .tc := ⟨.hbm, 84, rfl⟩
abbrev main_call4_v13 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_c_7 : Ref sig .tc := ⟨.hbm, 92, rfl⟩
abbrev main_call5_v0 : Ref sig .tc := ⟨.hbm, 93, rfl⟩
abbrev main_v34 : Ref sig .tc := ⟨.hbm, 94, rfl⟩
abbrev main_c_8 : Ref sig .tc := ⟨.hbm, 95, rfl⟩
abbrev main_call6_v0 : Ref sig .tc := ⟨.hbm, 96, rfl⟩
abbrev main_v35 : Ref sig .tc := ⟨.hbm, 97, rfl⟩
abbrev main_call7_v0 : Ref sig .tc := ⟨.hbm, 98, rfl⟩
abbrev main_call7_v1_0 : Ref sig .tc := ⟨.hbm, 99, rfl⟩
abbrev main_v36 : Ref sig .tc := ⟨.hbm, 100, rfl⟩
abbrev main_c_9 : Ref sig .tc := ⟨.hbm, 101, rfl⟩
abbrev main_v37 : Ref sig .tc := ⟨.hbm, 102, rfl⟩
abbrev main_v38 : Ref sig .tc := ⟨.hbm, 103, rfl⟩
abbrev main_c_10 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_c_11 : Ref sig .tc := ⟨.hbm, 110, rfl⟩
abbrev main_v44 : Ref sig .tc := ⟨.hbm, 111, rfl⟩
abbrev main_v45 : Ref sig .tc := ⟨.hbm, 112, rfl⟩
abbrev main_c_12 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_c_13 : Ref sig .tc := ⟨.hbm, 122, rfl⟩
abbrev main_call8_v0 : Ref sig .tc := ⟨.hbm, 123, rfl⟩
abbrev main_call8_v1 : Ref sig .tc := ⟨.hbm, 124, rfl⟩
abbrev main_call8_v2 : Ref sig .tc := ⟨.hbm, 125, rfl⟩
abbrev main_call8_v3 : Ref sig .tc := ⟨.hbm, 126, rfl⟩
abbrev main_call8_v4 : Ref sig .tc := ⟨.hbm, 127, rfl⟩
abbrev main_call8_v5 : Ref sig .tc := ⟨.hbm, 128, rfl⟩
abbrev main_call8_v6 : Ref sig .tc := ⟨.hbm, 129, rfl⟩
abbrev main_call8_v7 : Ref sig .tc := ⟨.hbm, 130, rfl⟩
abbrev main_call8_v8 : Ref sig .tc := ⟨.hbm, 131, rfl⟩
abbrev main_call8_c : Ref sig .tc := ⟨.hbm, 132, rfl⟩
abbrev main_call8_v9 : Ref sig .tc := ⟨.hbm, 133, rfl⟩
abbrev main_call8_v10 : Ref sig .tc := ⟨.hbm, 134, rfl⟩
abbrev main_call8_v11 : Ref sig .tc := ⟨.hbm, 135, rfl⟩
abbrev main_call8_c_0 : Ref sig .tc := ⟨.hbm, 136, rfl⟩
abbrev main_call8_v12 : Ref sig .tc := ⟨.hbm, 137, rfl⟩
abbrev main_call8_v13 : Ref sig .tc := ⟨.hbm, 138, rfl⟩
abbrev main_v55 : Ref sig .tc := ⟨.hbm, 139, rfl⟩
abbrev main_v56 : Ref sig .tc := ⟨.hbm, 140, rfl⟩
abbrev main_c_14 : Ref sig .tc := ⟨.hbm, 141, rfl⟩
abbrev main_call9_v0 : Ref sig .tc := ⟨.hbm, 142, rfl⟩
abbrev main_call9_v1 : Ref sig .tc := ⟨.hbm, 143, rfl⟩
abbrev main_call9_v2 : Ref sig .tc := ⟨.hbm, 144, rfl⟩
abbrev main_call9_v3 : Ref sig .tc := ⟨.hbm, 145, rfl⟩
abbrev main_call9_v4 : Ref sig .tc := ⟨.hbm, 146, rfl⟩
abbrev main_call9_v5 : Ref sig .tc := ⟨.hbm, 147, rfl⟩
abbrev main_call9_v6 : Ref sig .tc := ⟨.hbm, 148, rfl⟩
abbrev main_call9_v7 : Ref sig .tc := ⟨.hbm, 149, rfl⟩
abbrev main_call9_v8 : Ref sig .tc := ⟨.hbm, 150, rfl⟩
abbrev main_call9_c : Ref sig .tc := ⟨.hbm, 151, rfl⟩
abbrev main_call9_v9 : Ref sig .tc := ⟨.hbm, 152, rfl⟩
abbrev main_call9_v10 : Ref sig .tc := ⟨.hbm, 153, rfl⟩
abbrev main_call9_v11 : Ref sig .tc := ⟨.hbm, 154, rfl⟩
abbrev main_call9_c_0 : Ref sig .tc := ⟨.hbm, 155, rfl⟩
abbrev main_call9_v12 : Ref sig .tc := ⟨.hbm, 156, rfl⟩
abbrev main_call9_v13 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62_0 : Ref sig .tc := ⟨.hbm, 162, rfl⟩
abbrev main_v62_1 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66_0 : Ref sig .tc := ⟨.hbm, 167, rfl⟩
abbrev main_v66_1 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v24 : Ref sig .tc := ⟨.smem, 0, rfl⟩
abbrev main_v27 : Ref sig .tc := ⟨.smem, 1, rfl⟩
abbrev main_v54 : Ref sig .tc := ⟨.smem, 2, rfl⟩
abbrev main_v57 : Ref sig .tc := ⟨.smem, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_scratch0 : Ref sig .tc := ⟨.vmem, 41, rfl⟩
abbrev cc4_scratch1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_scratch0 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_scratch0 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg1_1 : Ref sig .tc := ⟨.vmem, 70, rfl⟩
abbrev cc8_stg2_0 : Ref sig .tc := ⟨.vmem, 71, rfl⟩
abbrev cc8_stg2_1 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg6_0 : Ref sig .tc := ⟨.vmem, 76, rfl⟩
abbrev cc8_stg6_1 : Ref sig .tc := ⟨.vmem, 77, rfl⟩
abbrev cc9_stg0_0 : Ref sig .tc := ⟨.vmem, 78, rfl⟩
abbrev cc9_stg1_0 : Ref sig .tc := ⟨.vmem, 79, rfl⟩
abbrev cc9_stg1_1 : Ref sig .tc := ⟨.vmem, 80, rfl⟩
abbrev cc9_stg2_0 : Ref sig .tc := ⟨.vmem, 81, rfl⟩
abbrev cc9_stg2_1 : Ref sig .tc := ⟨.vmem, 82, rfl⟩
abbrev cc9_scratch0 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg2_1 : Ref sig .tc := ⟨.vmem, 89, rfl⟩
abbrev cc10_scratch0 : Ref sig .tc := ⟨.vmem, 90, rfl⟩
abbrev cc11_stg0_0 : Ref sig .tc := ⟨.vmem, 91, rfl⟩
abbrev cc11_stg0_1 : Ref sig .tc := ⟨.vmem, 92, rfl⟩
abbrev cc11_stg1_0 : Ref sig .tc := ⟨.vmem, 93, rfl⟩
abbrev cc11_stg1_1 : Ref sig .tc := ⟨.vmem, 94, rfl⟩
abbrev cc11_stg2_0 : Ref sig .tc := ⟨.vmem, 95, rfl⟩
abbrev cc11_stg2_1 : Ref sig .tc := ⟨.vmem, 96, rfl⟩
abbrev cc11_stg3_0 : Ref sig .tc := ⟨.vmem, 97, rfl⟩
abbrev cc11_stg4_0 : Ref sig .tc := ⟨.vmem, 98, rfl⟩
abbrev cc11_stg5_0 : Ref sig .tc := ⟨.vmem, 99, rfl⟩
abbrev cc11_stg6_0 : Ref sig .tc := ⟨.vmem, 100, rfl⟩
abbrev cc11_stg6_1 : Ref sig .tc := ⟨.vmem, 101, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem1_0 : DmaSem sig := 49
abbrev cc6_sem1_1 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem2_1 : DmaSem sig := 64
abbrev cc8_sem3_0 : DmaSem sig := 65
abbrev cc8_sem4_0 : DmaSem sig := 66
abbrev cc8_sem5_0 : DmaSem sig := 67
abbrev cc8_sem6_0 : DmaSem sig := 68
abbrev cc8_sem6_1 : DmaSem sig := 69
abbrev cc9_sem0_0 : DmaSem sig := 70
abbrev cc9_sem1_0 : DmaSem sig := 71
abbrev cc9_sem1_1 : DmaSem sig := 72
abbrev cc9_sem2_0 : DmaSem sig := 73
abbrev cc9_sem2_1 : DmaSem sig := 74
abbrev cc10_sem0_0 : DmaSem sig := 75
abbrev cc10_sem0_1 : DmaSem sig := 76
abbrev cc10_sem1_0 : DmaSem sig := 77
abbrev cc10_sem1_1 : DmaSem sig := 78
abbrev cc10_sem2_0 : DmaSem sig := 79
abbrev cc10_sem2_1 : DmaSem sig := 80
abbrev cc11_sem0_0 : DmaSem sig := 81
abbrev cc11_sem0_1 : DmaSem sig := 82
abbrev cc11_sem1_0 : DmaSem sig := 83
abbrev cc11_sem1_1 : DmaSem sig := 84
abbrev cc11_sem2_0 : DmaSem sig := 85
abbrev cc11_sem2_1 : DmaSem sig := 86
abbrev cc11_sem3_0 : DmaSem sig := 87
abbrev cc11_sem4_0 : DmaSem sig := 88
abbrev cc11_sem5_0 : DmaSem sig := 89
abbrev cc11_sem6_0 : DmaSem sig := 90
abbrev cc11_sem6_1 : DmaSem sig := 91

abbrev nD : Nat := 1
abbrev τ : Topo := Topo.v7x

variable {F : FTy → Type} [FloatOps F]

abbrev grid0 : Pipeline.Grid := ⟨1, ![293], ![false]⟩

@[reducible] def k0_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2000_i32 : BitVec 32 := 2000#32
  let v10 : BitVec 32 := Scalar.muli arg5 c2000_i32
  v10
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2000_i32 : BitVec 32 := 2000#32
  let v10 : BitVec 32 := Scalar.muli arg5 c2000_i32
  let v11 : BitVec 32 := v10
  let v21 : Index := Scalar.indexCast v11
  let c0_8 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S100000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![51, 293], ![false, false]⟩

abbrev pre1 : Pipeline.Prefetch sig := ⟨2, ![main_v24.idx, main_v27.idx], fun | 0 => main_v24.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v3 : Index := Scalar.indexCast arg1
  ![v3.toNat]
def k1_cond3 (i : grid1.Coords) : BitVec 1 :=
  let arg1 : BitVec 32 := BitVec.ofNat 32 (i 1).val
  let c292_i32 : BitVec 32 := 292#32
  let v12 : BitVec 1 := Scalar.cmpi .eq arg1 c292_i32
  let v13 : BitVec 32 := Scalar.extui v12
  let c0_i32_2 : BitVec 32 := 0#32
  let v14 : BitVec 1 := Scalar.cmpi .ne v13 c0_i32_2
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![293], ![false]⟩

@[reducible] def k3_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def k3_mult1 (k3_t1 : Fin k3_t1_loop.trips) : BitVec 32 :=
  let c0_i32 : BitVec 32 := 0#32
  let c1_i32 : BitVec 32 := 1#32
  let arg5 : BitVec 32 := Scf.iv c0_i32 c1_i32 k3_t1
  let c2000_i32 : BitVec 32 := 2000#32
  let v10 : BitVec 32 := Scalar.muli arg5 c2000_i32
  v10
def k3_off1 (k3_t1 : Fin k3_t1_loop.trips) : Fin 2 → Nat :=
  let c0_i32 : BitVec 32 := 0#32
  let c1_i32 : BitVec 32 := 1#32
  let arg5 : BitVec 32 := Scf.iv c0_i32 c1_i32 k3_t1
  let c2000_i32 : BitVec 32 := 2000#32
  let v10 : BitVec 32 := Scalar.muli arg5 c2000_i32
  let v11 : BitVec 32 := v10
  let v21 : Index := Scalar.indexCast v11
  let c0_8 : Index := 0#32
  ![v21.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S100000x128 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![51, 293], ![false, false]⟩

abbrev pre4 : Pipeline.Prefetch sig := ⟨2, ![main_v54.idx, main_v57.idx], fun | 0 => main_v54.names | 1 => main_v57.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg1 : BitVec 32 := BitVec.ofNat 32 (i 1).val
  let v3 : Index := Scalar.indexCast arg1
  ![v3.toNat]
def k4_cond3 (i : grid4.Coords) : BitVec 1 :=
  let arg1 : BitVec 32 := BitVec.ofNat 32 (i 1).val
  let c292_i32 : BitVec 32 := 292#32
  let v12 : BitVec 1 := Scalar.cmpi .eq arg1 c292_i32
  let v13 : BitVec 32 := Scalar.extui v12
  let c0_i32_2 : BitVec 32 := 0#32
  let v14 : BitVec 1 := Scalar.cmpi .ne v13 c0_i32_2
  v14

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![293], ![false]⟩

@[reducible] def k6_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def k6_mult1 (k6_t1 : Fin k6_t1_loop.trips) : BitVec 32 :=
  let c0_i32 : BitVec 32 := 0#32
  let c1_i32 : BitVec 32 := 1#32
  let arg5 : BitVec 32 := Scf.iv c0_i32 c1_i32 k6_t1
  let c2000_i32 : BitVec 32 := 2000#32
  let v10 : BitVec 32 := Scalar.muli arg5 c2000_i32
  v10
def k6_off1 (k6_t1 : Fin k6_t1_loop.trips) : Fin 2 → Nat :=
  let c0_i32 : BitVec 32 := 0#32
  let c1_i32 : BitVec 32 := 1#32
  let arg5 : BitVec 32 := Scf.iv c0_i32 c1_i32 k6_t1
  let c2000_i32 : BitVec 32 := 2000#32
  let v10 : BitVec 32 := Scalar.muli arg5 c2000_i32
  let v11 : BitVec 32 := v10
  let v21 : Index := Scalar.indexCast v11
  let c0_8 : Index := 0#32
  ![v21.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S100000x128 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S1x2048 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![51, 293], ![false, false]⟩

abbrev pre7 : Pipeline.Prefetch sig := ⟨2, ![main_v24.idx, main_v27.idx], fun | 0 => main_v24.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg1 : BitVec 32 := BitVec.ofNat 32 (i 1).val
  let v3 : Index := Scalar.indexCast arg1
  ![v3.toNat]
def k7_cond3 (i : grid7.Coords) : BitVec 1 :=
  let arg1 : BitVec 32 := BitVec.ofNat 32 (i 1).val
  let c292_i32 : BitVec 32 := 292#32
  let v12 : BitVec 1 := Scalar.cmpi .eq arg1 c292_i32
  let v13 : BitVec 32 := Scalar.extui v12
  let c0_i32_2 : BitVec 32 := 0#32
  let v14 : BitVec 1 := Scalar.cmpi .ne v13 c0_i32_2
  v14

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1x2048 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![293], ![false]⟩

@[reducible] def k9_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def k9_mult1 (k9_t1 : Fin k9_t1_loop.trips) : BitVec 32 :=
  let c0_i32 : BitVec 32 := 0#32
  let c1_i32 : BitVec 32 := 1#32
  let arg5 : BitVec 32 := Scf.iv c0_i32 c1_i32 k9_t1
  let c2000_i32 : BitVec 32 := 2000#32
  let v10 : BitVec 32 := Scalar.muli arg5 c2000_i32
  v10
def k9_off1 (k9_t1 : Fin k9_t1_loop.trips) : Fin 2 → Nat :=
  let c0_i32 : BitVec 32 := 0#32
  let c1_i32 : BitVec 32 := 1#32
  let arg5 : BitVec 32 := Scf.iv c0_i32 c1_i32 k9_t1
  let c2000_i32 : BitVec 32 := 2000#32
  let v10 : BitVec 32 := Scalar.muli arg5 c2000_i32
  let v11 : BitVec 32 := v10
  let v21 : Index := Scalar.indexCast v11
  let c0_8 : Index := 0#32
  ![v21.toNat, 0]
def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S100000x128 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S1x2048 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2048x128 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![51, 293], ![false, false]⟩

abbrev pre10 : Pipeline.Prefetch sig := ⟨2, ![main_v54.idx, main_v57.idx], fun | 0 => main_v54.names | 1 => main_v57.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg1 : BitVec 32 := BitVec.ofNat 32 (i 1).val
  let v3 : Index := Scalar.indexCast arg1
  ![v3.toNat]
def k10_cond3 (i : grid10.Coords) : BitVec 1 :=
  let arg1 : BitVec 32 := BitVec.ofNat 32 (i 1).val
  let c292_i32 : BitVec 32 := 292#32
  let v12 : BitVec 1 := Scalar.cmpi .eq arg1 c292_i32
  let v13 : BitVec 32 := Scalar.extui v12
  let c0_i32_2 : BitVec 32 := 0#32
  let v14 : BitVec 1 := Scalar.cmpi .ne v13 c0_i32_2
  v14

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 2 → Memref sig .tc .vmem S1x2048 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S5000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S600064_0640 : S600000.Pads (![0] : Fin 1 → Nat) ![64] ![0] S600064
  h_S_ : 0 < S_.numel
  bcast_S_S600064 : S_.BroadcastsInDim S600064 (![] : Fin 0 → Fin S600064.rank)
  bcast_S600064_S600064x1_0 : S600064.BroadcastsInDim S600064x1 (![0] : Fin 1 → Fin S600064x1.rank)
  shapeCasts_S600064_S293x2048 : S600064.ShapeCasts S293x2048
  slices_S293x2048_S293x1_0_0 : S293x2048.Slices ![0, 0] S293x1
  shapeCasts_S293x1_S293 : S293x1.ShapeCasts S293
  bcast_S_S293 : S_.BroadcastsInDim S293 (![] : Fin 0 → Fin S293.rank)
  slices_S293x2048_S293x1_0_2047 : S293x2048.Slices ![0, 2047] S293x1
  shapeCasts_S600064_S1x600064 : S600064.ShapeCasts S1x600064
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S2000x1_d0_w32 : S2000x1.Iotas .tc 32 [0]
  broadcasts_S2000x1_S2000x2048 : S2000x1.Broadcasts S2000x2048
  broadcasts_S1x2048_S2000x2048 : S1x2048.Broadcasts S2000x2048
  natLt_1_32 : 1 < 32
  h_S2000x128 : 0 < S2000x128.numel
  shapeCasts_S2000x128_S2000x128 : S2000x128.ShapeCasts S2000x128
  packedbf16_S2048x128_S2048x128_0_0 : (Rect.unit (s := S2048x128) ![0, 0] S2048x128.size inb_S2048x128_S2048x128_0_0).PackedRows (EltTy.packing .bf16)
  inb_S2000x128_S2000x128_0_0 : ∀ a, (![0, 0] : Fin 2 → Nat) a + S2000x128.size a ≤ S2000x128.size a
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  numel1_S1 : S1.numel = 1
  reduces_S2000x2048_S2000 : S2000x2048.Reduces [1] S2000
  shapeCasts_S2000_S2000x1 : S2000.ShapeCasts S2000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S600064_S600064x1_S600064_n_0_n_n_0_1_1_wf : GatherDims.WF S600064 S600064x1 S600064 [] [0] [] [0] [] 1 ![1]
  dot_S2000x2048_S2000x128_S2048x128_0_0_1_1_n_n_wf : DotDims.WF S2000x2048 S2000x128 S2048x128 [0] [0] [1] [1] [] []
  dot_S2000x2048_S2048x128_S2000x128_1_0_0_1_n_n_wf : DotDims.WF S2000x2048 S2048x128 S2000x128 [1] [0] [0] [1] [] []
  dot_S5000x128_S128x128_S5000x128_1_0_0_1_n_n_wf : DotDims.WF S5000x128 S128x128 S5000x128 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S2000x128.size a ≤ S100000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100000x128.size a ≤ S100000x128.size a
  hwx0_0 : ∀ i : grid0.Coords, EltTy.bits .bf16 = 32 ∨ (Rect.block (s := S100000x128) S100000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x600064.size a
  hwx0_1 : ∀ i : grid0.Coords, EltTy.bits .i32 = 32 ∨ (Rect.block (s := S1x600064) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S600064x128.size a
  hwx0_2 : ∀ i : grid0.Coords, EltTy.bits .bf16 = 32 ∨ (Rect.block (s := S600064x128) S2048x128.size (cc0_transform_2 i) (hinb0_2 i)).WholeWords (EltTy.packing .bf16)
  hrank1 : 0 < grid1.rank
  k1_off1_inb : ∀ i : grid1.Coords, ∀ a, (k1_off1 i) a + S1.size a ≤ S293.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S600064x128.size a
  hwx1_0 : ∀ i : grid1.Coords, EltTy.bits .bf16 = 32 ∨ (Rect.block (s := S600064x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x600064.size a
  hwx1_1 : ∀ i : grid1.Coords, EltTy.bits .i32 = 32 ∨ (Rect.block (s := S1x600064) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S102000x128.size a
  hwx1_2 : ∀ i : grid1.Coords, EltTy.bits .f32 = 32 ∨ (Rect.block (s := S102000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S102000x1.size a
  hwx1_3 : ∀ i : grid1.Coords, EltTy.bits .f32 = 32 ∨ (Rect.block (s := S102000x1) S2000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S5000x128.size a < S102000x128.size a
  hwx2_0 : ∀ i : grid2.Coords, EltTy.bits .f32 = 32 ∨ (Rect.unit (s := S102000x128) (fun a => cc2_transform_0 i a * S5000x128.size a) (fun a => (Pipeline.Clip.of (cc2_transform_0 i a) (S5000x128.size a) (S102000x128.size a)).extent (S5000x128.size a)) fun a => Pipeline.Clip.inb (Pipeline.Clip.ok_of (hstart2_0 i a))).WholeWords (EltTy.packing .f32)
  hwxs2_0 : ∀ i : grid2.Coords, EltTy.bits .f32 = 32 ∨ (Rect.unit (s := S5000x128) (fun _ => 0) (fun a => (Pipeline.Clip.of (cc2_transform_0 i a) (S5000x128.size a) (S102000x128.size a)).extent (S5000x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S5000x1.size a < S102000x1.size a
  hwx2_1 : ∀ i : grid2.Coords, EltTy.bits .f32 = 32 ∨ (Rect.unit (s := S102000x1) (fun a => cc2_transform_1 i a * S5000x1.size a) (fun a => (Pipeline.Clip.of (cc2_transform_1 i a) (S5000x1.size a) (S102000x1.size a)).extent (S5000x1.size a)) fun a => Pipeline.Clip.inb (Pipeline.Clip.ok_of (hstart2_1 i a))).WholeWords (EltTy.packing .f32)
  hwxs2_1 : ∀ i : grid2.Coords, EltTy.bits .f32 = 32 ∨ (Rect.unit (s := S5000x1) (fun _ => 0) (fun a => (Pipeline.Clip.of (cc2_transform_1 i a) (S5000x1.size a) (S102000x1.size a)).extent (S5000x1.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  k3_t1_ok : k3_t1_loop.OK
  k3_mult1_dvd : ∀ k3_t1 : Fin k3_t1_loop.trips, 16 ∣ (k3_mult1 k3_t1).toNat
  k3_off1_inb : ∀ k3_t1 : Fin k3_t1_loop.trips, ∀ a, (k3_off1 k3_t1) a + S2000x128.size a ≤ S100000x128.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S100000x128.size a ≤ S100000x128.size a
  hwx3_0 : ∀ i : grid3.Coords, EltTy.bits .bf16 = 32 ∨ (Rect.block (s := S100000x128) S100000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x600064.size a
  hwx3_1 : ∀ i : grid3.Coords, EltTy.bits .i32 = 32 ∨ (Rect.block (s := S1x600064) S1x2048.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S600064x128.size a
  hwx3_2 : ∀ i : grid3.Coords, EltTy.bits .bf16 = 32 ∨ (Rect.block (s := S600064x128) S2048x128.size (cc3_transform_2 i) (hinb3_2 i)).WholeWords (EltTy.packing .bf16)
  hrank4 : 0 < grid4.rank
  k4_off1_inb : ∀ i : grid4.Coords, ∀ a, (k4_off1 i) a + S1.size a ≤ S293.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S600064x128.size a
  hwx4_0 : ∀ i : grid4.Coords, EltTy.bits .bf16 = 32 ∨ (Rect.block (s := S600064x128) S2048x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x600064.size a
  hwx4_1 : ∀ i : grid4.Coords, EltTy.bits .i32 = 32 ∨ (Rect.block (s := S1x600064) S1x2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S102000x128.size a
  hwx4_2 : ∀ i : grid4.Coords, EltTy.bits .f32 = 32 ∨ (Rect.block (s := S102000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S102000x1.size a
  hwx4_3 : ∀ i : grid4.Coords, EltTy.bits .f32 = 32 ∨ (Rect.block (s := S102000x1) S2000x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S5000x128.size a < S102000x128.size a
  hwx5_0 : ∀ i : grid5.Coords, EltTy.bits .f32 = 32 ∨ (Rect.unit (s := S102000x128) (fun a => cc5_transform_0 i a * S5000x128.size a) (fun a => (Pipeline.Clip.of (cc5_transform_0 i a) (S5000x128.size a) (S102000x128.size a)).extent (S5000x128.size a)) fun a => Pipeline.Clip.inb (Pipeline.Clip.ok_of (hstart5_0 i a))).WholeWords (EltTy.packing .f32)
  hwxs5_0 : ∀ i : grid5.Coords, EltTy.bits .f32 = 32 ∨ (Rect.unit (s := S5000x128) (fun _ => 0) (fun a => (Pipeline.Clip.of (cc5_transform_0 i a) (S5000x128.size a) (S102000x128.size a)).extent (S5000x128.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S5000x1.size a < S102000x1.size a
  hwx5_1 : ∀ i : grid5.Coords, EltTy.bits .f32 = 32 ∨ (Rect.unit (s := S102000x1) (fun a => cc5_transform_1 i a * S5000x1.size a) (fun a => (Pipeline.Clip.of (cc5_transform_1 i a) (S5000x1.size a) (S102000x1.size a)).extent (S5000x1.size a)) fun a => Pipeline.Clip.inb (Pipeline.Clip.ok_of (hstart5_1 i a))).WholeWords (EltTy.packing .f32)
  hwxs5_1 : ∀ i : grid5.Coords, EltTy.bits .f32 = 32 ∨ (Rect.unit (s := S5000x1) (fun _ => 0) (fun a => (Pipeline.Clip.of (cc5_transform_1 i a) (S5000x1.size a) (S102000x1.size a)).extent (S5000x1.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  k6_t1_ok : k6_t1_loop.OK
  k6_mult1_dvd : ∀ k6_t1 : Fin k6_t1_loop.trips, 16 ∣ (k6_mult1 k6_t1).toNat
  k6_off1_inb : ∀ k6_t1 : Fin k6_t1_loop.trips, ∀ a, (k6_off1 k6_t1) a + S2000x128.size a ≤ S100000x128.size a
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S100000x128.size a ≤ S100000x128.size a
  hwx6_0 : ∀ i : grid6.Coords, EltTy.bits .bf16 = 32 ∨ (Rect.block (s := S100000x128) S100000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x2048.size a ≤ S1x600064.size a
  hwx6_1 : ∀ i : grid6.Coords, EltTy.bits .i32 = 32 ∨ (Rect.block (s := S1x600064) S1x2048.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x128.size a ≤ S600064x128.size a
  hwx6_2 : ∀ i : grid6.Coords, EltTy.bits .bf16 = 32 ∨ (Rect.block (s := S600064x128) S2048x128.size (cc6_transform_2 i) (hinb6_2 i)).WholeWords (EltTy.packing .bf16)
  hrank7 : 0 < grid7.rank
  k7_off1_inb : ∀ i : grid7.Coords, ∀ a, (k7_off1 i) a + S1.size a ≤ S293.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S600064x128.size a
  hwx7_0 : ∀ i : grid7.Coords, EltTy.bits .bf16 = 32 ∨ (Rect.block (s := S600064x128) S2048x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x2048.size a ≤ S1x600064.size a
  hwx7_1 : ∀ i : grid7.Coords, EltTy.bits .i32 = 32 ∨ (Rect.block (s := S1x600064) S1x2048.size (cc7_transform_1 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S102000x128.size a
  hwx7_2 : ∀ i : grid7.Coords, EltTy.bits .f32 = 32 ∨ (Rect.block (s := S102000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hstart8_0 : ∀ (i : grid8.Coords) a, cc8_transform_0 i a * S5000x128.size a < S102000x128.size a
  hwx8_0 : ∀ i : grid8.Coords, EltTy.bits .f32 = 32 ∨ (Rect.unit (s := S102000x128) (fun a => cc8_transform_0 i a * S5000x128.size a) (fun a => (Pipeline.Clip.of (cc8_transform_0 i a) (S5000x128.size a) (S102000x128.size a)).extent (S5000x128.size a)) fun a => Pipeline.Clip.inb (Pipeline.Clip.ok_of (hstart8_0 i a))).WholeWords (EltTy.packing .f32)
  hwxs8_0 : ∀ i : grid8.Coords, EltTy.bits .f32 = 32 ∨ (Rect.unit (s := S5000x128) (fun _ => 0) (fun a => (Pipeline.Clip.of (cc8_transform_0 i a) (S5000x128.size a) (S102000x128.size a)).extent (S5000x128.size a)) fun a => (Nat.zero_add _).trans_le (Pipeline.Clip.extent_le (Pipeline.Clip.ok_of (hstart8_0 i a)))).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hstart8_1 : ∀ (i : grid8.Coords) a, cc8_transform_1 i a * S5000x1.size a < S102000x1.size a
  hwx8_1 : ∀ i : grid8.Coords, EltTy.bits .f32 = 32 ∨ (Rect.unit (s := S102000x1) (fun a => cc8_transform_1 i a * S5000x1.size a) (fun a => (Pipeline.Clip.of (cc8_transform_1 i a) (S5000x1.size a) (S102000x1.size a)).extent (S5000x1.size a)) fun a => Pipeline.Clip.inb (Pipeline.Clip.ok_of (hstart8_1 i a))).WholeWords (EltTy.packing .f32)
  hwxs8_1 : ∀ i : grid8.Coords, EltTy.bits .f32 = 32 ∨ (Rect.unit (s := S5000x1) (fun _ => 0) (fun a => (Pipeline.Clip.of (cc8_transform_1 i a) (S5000x1.size a) (S102000x1.size a)).extent (S5000x1.size a)) fun a => (Nat.zero_add _).trans_le (Pipeline.Clip.extent_le (Pipeline.Clip.ok_of (hstart8_1 i a)))).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S100000x128.size a
  hwx8_6 : ∀ i : grid8.Coords, EltTy.bits .f32 = 32 ∨ (Rect.block (s := S100000x128) S5000x128.size (cc8_transform_6 i) (hinb8_6 i)).WholeWords (EltTy.packing .f32)
  hrank9 : 0 < grid9.rank
  k9_t1_ok : k9_t1_loop.OK
  k9_mult1_dvd : ∀ k9_t1 : Fin k9_t1_loop.trips, 16 ∣ (k9_mult1 k9_t1).toNat
  k9_off1_inb : ∀ k9_t1 : Fin k9_t1_loop.trips, ∀ a, (k9_off1 k9_t1) a + S2000x128.size a ≤ S100000x128.size a
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S100000x128.size a ≤ S100000x128.size a
  hwx9_0 : ∀ i : grid9.Coords, EltTy.bits .bf16 = 32 ∨ (Rect.block (s := S100000x128) S100000x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x2048.size a ≤ S1x600064.size a
  hwx9_1 : ∀ i : grid9.Coords, EltTy.bits .i32 = 32 ∨ (Rect.block (s := S1x600064) S1x2048.size (cc9_transform_1 i) (hinb9_1 i)).WholeWords (EltTy.packing .i32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x128.size a ≤ S600064x128.size a
  hwx9_2 : ∀ i : grid9.Coords, EltTy.bits .bf16 = 32 ∨ (Rect.block (s := S600064x128) S2048x128.size (cc9_transform_2 i) (hinb9_2 i)).WholeWords (EltTy.packing .bf16)
  hrank10 : 0 < grid10.rank
  k10_off1_inb : ∀ i : grid10.Coords, ∀ a, (k10_off1 i) a + S1.size a ≤ S293.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S600064x128.size a
  hwx10_0 : ∀ i : grid10.Coords, EltTy.bits .bf16 = 32 ∨ (Rect.block (s := S600064x128) S2048x128.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x2048.size a ≤ S1x600064.size a
  hwx10_1 : ∀ i : grid10.Coords, EltTy.bits .i32 = 32 ∨ (Rect.block (s := S1x600064) S1x2048.size (cc10_transform_1 i) (hinb10_1 i)).WholeWords (EltTy.packing .i32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S102000x128.size a
  hwx10_2 : ∀ i : grid10.Coords, EltTy.bits .f32 = 32 ∨ (Rect.block (s := S102000x128) S2000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hstart11_0 : ∀ (i : grid11.Coords) a, cc11_transform_0 i a * S5000x128.size a < S102000x128.size a
  hwx11_0 : ∀ i : grid11.Coords, EltTy.bits .f32 = 32 ∨ (Rect.unit (s := S102000x128) (fun a => cc11_transform_0 i a * S5000x128.size a) (fun a => (Pipeline.Clip.of (cc11_transform_0 i a) (S5000x128.size a) (S102000x128.size a)).extent (S5000x128.size a)) fun a => Pipeline.Clip.inb (Pipeline.Clip.ok_of (hstart11_0 i a))).WholeWords (EltTy.packing .f32)
  hwxs11_0 : ∀ i : grid11.Coords, EltTy.bits .f32 = 32 ∨ (Rect.unit (s := S5000x128) (fun _ => 0) (fun a => (Pipeline.Clip.of (cc11_transform_0 i a) (S5000x128.size a) (S102000x128.size a)).extent (S5000x128.size a)) fun a => (Nat.zero_add _).trans_le (Pipeline.Clip.extent_le (Pipeline.Clip.ok_of (hstart11_0 i a)))).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hstart11_1 : ∀ (i : grid11.Coords) a, cc11_transform_1 i a * S5000x1.size a < S102000x1.size a
  hwx11_1 : ∀ i : grid11.Coords, EltTy.bits .f32 = 32 ∨ (Rect.unit (s := S102000x1) (fun a => cc11_transform_1 i a * S5000x1.size a) (fun a => (Pipeline.Clip.of (cc11_transform_1 i a) (S5000x1.size a) (S102000x1.size a)).extent (S5000x1.size a)) fun a => Pipeline.Clip.inb (Pipeline.Clip.ok_of (hstart11_1 i a))).WholeWords (EltTy.packing .f32)
  hwxs11_1 : ∀ i : grid11.Coords, EltTy.bits .f32 = 32 ∨ (Rect.unit (s := S5000x1) (fun _ => 0) (fun a => (Pipeline.Clip.of (cc11_transform_1 i a) (S5000x1.size a) (S102000x1.size a)).extent (S5000x1.size a)) fun a => (Nat.zero_add _).trans_le (Pipeline.Clip.extent_le (Pipeline.Clip.ok_of (hstart11_1 i a)))).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S100000x128.size a
  hwx11_2 : ∀ i : grid11.Coords, EltTy.bits .f32 = 32 ∨ (Rect.block (s := S100000x128) S5000x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128.size a ≤ S128.size a
  hwx11_4 : ∀ i : grid11.Coords, EltTy.bits .f32 = 32 ∨ (Rect.block (s := S128) S128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x128.size a ≤ S100000x128.size a
  hwx11_6 : ∀ i : grid11.Coords, EltTy.bits .f32 = 32 ∨ (Rect.block (s := S100000x128) S5000x128.size (cc11_transform_6 i) (hinb11_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S600064_S600064x1_S600064_n_0_n_n_0_1_1 : GatherDims S600064 S600064x1 S600064 where
  offsetDims := []
  collapsedSliceDims := [0]
  operandBatchingDims := []
  startIndicesBatchingDims := []
  startIndexMap := [0]
  indexVectorDim := 1
  sliceSizes := ![1]
  wf := gather_S600064_S600064x1_S600064_n_0_n_n_0_1_1_wf
def dot_S2000x2048_S2000x128_S2048x128_0_0_1_1_n_n : DotDims S2000x2048 S2000x128 S2048x128 where
  lhsContracting := [0]
  rhsContracting := [0]
  lhsNonContracting := [1]
  rhsNonContracting := [1]
  lhsBatch := []
  rhsBatch := []
  wf := dot_S2000x2048_S2000x128_S2048x128_0_0_1_1_n_n_wf
def dot_S2000x2048_S2048x128_S2000x128_1_0_0_1_n_n : DotDims S2000x2048 S2048x128 S2000x128 where
  lhsContracting := [1]
  rhsContracting := [0]
  lhsNonContracting := [0]
  rhsNonContracting := [1]
  lhsBatch := []
  rhsBatch := []
  wf := dot_S2000x2048_S2048x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v60) S100000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v61) S2048x128.size reads1_0 false false 2 stage1_0 sem1_0 nbuf1_0 hstage1_0

abbrev spec1_1 : Pipeline.WinSpec sig grid1.rank :=
  Pipeline.WinSpec.ofSpec (Memref.whole main_v29) S1x2048.size reads1_1 false false 2 stage1_1 sem1_1 nbuf1_1 hstage1_1

abbrev spec1_2 : Pipeline.WinSpec sig grid1.rank :=
  Pipeline.WinSpec.ofSpec (Memref.whole main_v62_0) S2000x128.size reads1_2 true false 2 stage1_2 sem1_2 nbuf1_2 hstage1_2

abbrev spec1_3 : Pipeline.WinSpec sig grid1.rank :=
  Pipeline.WinSpec.ofSpec (Memref.whole main_v62_1) S2000x1.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | ⟨_ + 4, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | ⟨_ + 4, h⟩ => absurd h (Nat.not_lt.2 (Nat.le_add_left _ _))
abbrev idle1 : Fin 4 → grid1.Coords → Bool := fun | 0 => fun _ => false | 1 => fun _ => false | 2 => fun i => !(k1_cond3 i == 1#1) | 3 => fun i => !(k1_cond3 i == 1#1) | ⟨_ + 4, h⟩ => absurd h (Nat.not_lt.2 (Nat.le_add_left _ _))

abbrev win2_0 : Pipeline.Window sig grid2 :=
  Pipeline.Window.ofSpecClip (Memref.whole main_v62_0) S5000x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v62_1) S5000x1.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_arg1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S100000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev spec4_0 : Pipeline.WinSpec sig grid4.rank :=
  Pipeline.WinSpec.ofSpec (Memref.whole main_v65) S2048x128.size reads4_0 false false 2 stage4_0 sem4_0 nbuf4_0 hstage4_0

abbrev spec4_1 : Pipeline.WinSpec sig grid4.rank :=
  Pipeline.WinSpec.ofSpec (Memref.whole main_v59) S1x2048.size reads4_1 false false 2 stage4_1 sem4_1 nbuf4_1 hstage4_1

abbrev spec4_2 : Pipeline.WinSpec sig grid4.rank :=
  Pipeline.WinSpec.ofSpec (Memref.whole main_v66_0) S2000x128.size reads4_2 true false 2 stage4_2 sem4_2 nbuf4_2 hstage4_2

abbrev spec4_3 : Pipeline.WinSpec sig grid4.rank :=
  Pipeline.WinSpec.ofSpec (Memref.whole main_v66_1) S2000x1.size reads4_3 true false 2 stage4_3 sem4_3 nbuf4_3 hstage4_3

abbrev spec4 : Fin 4 → Pipeline.WinSpec sig grid4.rank := fun | 0 => spec4_0 | 1 => spec4_1 | 2 => spec4_2 | 3 => spec4_3 | ⟨_ + 4, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | ⟨_ + 4, h⟩ => absurd h (Nat.not_lt.2 (Nat.le_add_left _ _))
abbrev ix4 (pf : pre4.Contents (Elt F)) : (w : Fin 4) → grid4.Coords → Fin (spec4 w).shape.rank → Nat := fun | 0 => cc4_transform_0 | 1 => cc4_transform_1 | 2 => cc4_transform_2 | 3 => cc4_transform_3 | ⟨_ + 4, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | 3 => hreads4_3 | ⟨_ + 4, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | 2 => hinb4_2 | 3 => hinb4_3 | ⟨_ + 4, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | 2 => hwx4_2 | 3 => hwx4_3 | ⟨_ + 4, h⟩ => absurd h (Nat.not_lt.2 (Nat.le_add_left _ _))
abbrev idle4 : Fin 4 → grid4.Coords → Bool := fun | 0 => fun _ => false | 1 => fun _ => false | 2 => fun i => !(k4_cond3 i == 1#1) | 3 => fun i => !(k4_cond3 i == 1#1) | ⟨_ + 4, h⟩ => absurd h (Nat.not_lt.2 (Nat.le_add_left _ _))

abbrev win5_0 : Pipeline.Window sig grid5 :=
  Pipeline.Window.ofSpecClip (Memref.whole main_v66_0) S5000x128.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_v66_1) S5000x1.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpec (Memref.whole main_arg0) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg8) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg9) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v67) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v68) S100000x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v28) S1x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v69) S2048x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev spec7_0 : Pipeline.WinSpec sig grid7.rank :=
  Pipeline.WinSpec.ofSpec (Memref.whole main_v69) S2048x128.size reads7_0 false false 2 stage7_0 sem7_0 nbuf7_0 hstage7_0

abbrev spec7_1 : Pipeline.WinSpec sig grid7.rank :=
  Pipeline.WinSpec.ofSpec (Memref.whole main_v29) S1x2048.size reads7_1 false false 2 stage7_1 sem7_1 nbuf7_1 hstage7_1

abbrev spec7_2 : Pipeline.WinSpec sig grid7.rank :=
  Pipeline.WinSpec.ofSpec (Memref.whole main_v70) S2000x128.size reads7_2 true false 2 stage7_2 sem7_2 nbuf7_2 hstage7_2

abbrev spec7 : Fin 3 → Pipeline.WinSpec sig grid7.rank := fun | 0 => spec7_0 | 1 => spec7_1 | 2 => spec7_2 | ⟨_ + 3, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | ⟨_ + 3, h⟩ => absurd h (Nat.not_lt.2 (Nat.le_add_left _ _))
abbrev ix7 (pf : pre7.Contents (Elt F)) : (w : Fin 3) → grid7.Coords → Fin (spec7 w).shape.rank → Nat := fun | 0 => cc7_transform_0 | 1 => cc7_transform_1 | 2 => cc7_transform_2 | ⟨_ + 3, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | 2 => hreads7_2 | ⟨_ + 3, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | 2 => hinb7_2 | ⟨_ + 3, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | 2 => hwx7_2 | ⟨_ + 3, h⟩ => absurd h (Nat.not_lt.2 (Nat.le_add_left _ _))
abbrev idle7 : Fin 3 → grid7.Coords → Bool := fun | 0 => fun _ => false | 1 => fun _ => false | 2 => fun i => !(k7_cond3 i == 1#1) | ⟨_ + 3, h⟩ => absurd h (Nat.not_lt.2 (Nat.le_add_left _ _))

abbrev win8_0 : Pipeline.Window sig grid8 :=
  Pipeline.Window.ofSpecClip (Memref.whole main_v70) S5000x128.size cc8_transform_0 reads8_0 false false 2 stage8_0 sem8_0
    hrank8 hreads8_0 hstart8_0 nbuf8_0 (Memref.isWhole_whole _) hwx8_0 hwxs8_0 hstage8_0

abbrev win8_1 : Pipeline.Window sig grid8 :=
  Pipeline.Window.ofSpecClip (Memref.whole main_v62_1) S5000x1.size cc8_transform_1 reads8_1 false false 2 stage8_1 sem8_1
    hrank8 hreads8_1 hstart8_1 nbuf8_1 (Memref.isWhole_whole _) hwx8_1 hwxs8_1 hstage8_1

abbrev win8_2 : Pipeline.Window sig grid8 :=
  Pipeline.Window.ofSpec (Memref.whole main_v63) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg10) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg11) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg12) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v71) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v72) S100000x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v58) S1x2048.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v73) S2048x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev spec10_0 : Pipeline.WinSpec sig grid10.rank :=
  Pipeline.WinSpec.ofSpec (Memref.whole main_v73) S2048x128.size reads10_0 false false 2 stage10_0 sem10_0 nbuf10_0 hstage10_0

abbrev spec10_1 : Pipeline.WinSpec sig grid10.rank :=
  Pipeline.WinSpec.ofSpec (Memref.whole main_v59) S1x2048.size reads10_1 false false 2 stage10_1 sem10_1 nbuf10_1 hstage10_1

abbrev spec10_2 : Pipeline.WinSpec sig grid10.rank :=
  Pipeline.WinSpec.ofSpec (Memref.whole main_v74) S2000x128.size reads10_2 true false 2 stage10_2 sem10_2 nbuf10_2 hstage10_2

abbrev spec10 : Fin 3 → Pipeline.WinSpec sig grid10.rank := fun | 0 => spec10_0 | 1 => spec10_1 | 2 => spec10_2 | ⟨_ + 3, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | ⟨_ + 3, h⟩ => absurd h (Nat.not_lt.2 (Nat.le_add_left _ _))
abbrev ix10 (pf : pre10.Contents (Elt F)) : (w : Fin 3) → grid10.Coords → Fin (spec10 w).shape.rank → Nat := fun | 0 => cc10_transform_0 | 1 => cc10_transform_1 | 2 => cc10_transform_2 | ⟨_ + 3, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 | 2 => hreads10_2 | ⟨_ + 3, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | 1 => hinb10_1 | 2 => hinb10_2 | ⟨_ + 3, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | 1 => hwx10_1 | 2 => hwx10_2 | ⟨_ + 3, h⟩ => absurd h (Nat.not_lt.2 (Nat.le_add_left _ _))
abbrev idle10 : Fin 3 → grid10.Coords → Bool := fun | 0 => fun _ => false | 1 => fun _ => false | 2 => fun i => !(k10_cond3 i == 1#1) | ⟨_ + 3, h⟩ => absurd h (Nat.not_lt.2 (Nat.le_add_left _ _))

abbrev win11_0 : Pipeline.Window sig grid11 :=
  Pipeline.Window.ofSpecClip (Memref.whole main_v74) S5000x128.size cc11_transform_0 reads11_0 false false 2 stage11_0 sem11_0
    hrank11 hreads11_0 hstart11_0 nbuf11_0 (Memref.isWhole_whole _) hwx11_0 hwxs11_0 hstage11_0

abbrev win11_1 : Pipeline.Window sig grid11 :=
  Pipeline.Window.ofSpecClip (Memref.whole main_v66_1) S5000x1.size cc11_transform_1 reads11_1 false false 2 stage11_1 sem11_1
    hrank11 hreads11_1 hstart11_1 nbuf11_1 (Memref.isWhole_whole _) hwx11_1 hwxs11_1 hstage11_1

abbrev win11_2 : Pipeline.Window sig grid11 :=
  Pipeline.Window.ofSpec (Memref.whole main_v67) S5000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_arg13) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg14) S128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg15) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v75) S5000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where
  harr1 : ∀ w, (spec1 w).arr.IsWhole
  harr4 : ∀ w, (spec4 w).arr.IsWhole
  harr7 : ∀ w, (spec7 w).arr.IsWhole
  harr10 : ∀ w, (spec10 w).arr.IsWhole

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S100000x128, .f32⟩
  | 2 => ⟨S2x600000, .i32⟩
  | 3 => ⟨S2x600000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S1x600000, .i32⟩
  | 17 => ⟨S600000, .i32⟩
  | 18 => ⟨S1x600000, .i32⟩
  | 19 => ⟨S600000, .i32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S_, .f32⟩
  | 34 => ⟨S600000x1, .f32⟩
  | 35 => ⟨S_, .f32⟩
  | 36 => ⟨S100000x1, .f32⟩
  | 37 => ⟨S600000x1, .i32⟩
  | 38 => ⟨S100000x1, .f32⟩
  | 39 => ⟨S_, .f32⟩
  | 40 => ⟨S100000x1, .f32⟩
  | 41 => ⟨S100000x1, .f32⟩
  | 42 => ⟨S100000x128, .f32⟩
  | 43 => ⟨S100000x128, .f32⟩
  | 44 => ⟨S128x128, .f32⟩
  | 45 => ⟨S100000x128, .f32⟩
  | 46 => ⟨S1x128, .f32⟩
  | 47 => ⟨S100000x128, .f32⟩
  | 48 => ⟨S100000x128, .f32⟩
  | 49 => ⟨S128x128, .f32⟩
  | 50 => ⟨S100000x128, .f32⟩
  | 51 => ⟨S100000x128, .f32⟩
  | 52 => ⟨S1x600000, .i32⟩
  | 53 => ⟨S600000, .i32⟩
  | 54 => ⟨S1x600000, .i32⟩
  | 55 => ⟨S600000, .i32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S_, .f32⟩
  | 70 => ⟨S600000x1, .f32⟩
  | 71 => ⟨S_, .f32⟩
  | 72 => ⟨S100000x1, .f32⟩
  | 73 => ⟨S600000x1, .i32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S128x128, .f32⟩
  | 81 => ⟨S100000x128, .f32⟩
  | 82 => ⟨S1x128, .f32⟩
  | 83 => ⟨S100000x128, .f32⟩
  | 84 => ⟨S100000x128, .f32⟩
  | 85 => ⟨S128x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1x600000, .i32⟩
  | 95 => ⟨S600000, .i32⟩
  | 96 => ⟨S1x600000, .i32⟩
  | 97 => ⟨S600000, .i32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S100000x128, .f32⟩
  | 109 => ⟨S600000x1, .i32⟩
  | 110 => ⟨S100000x128, .f32⟩
  | 111 => ⟨S_, .f32⟩
  | 112 => ⟨S600000x1, .f32⟩
  | 113 => ⟨S_, .f32⟩
  | 114 => ⟨S100000x1, .f32⟩
  | 115 => ⟨S600000x1, .i32⟩
  | 116 => ⟨S100000x1, .f32⟩
  | 117 => ⟨S_, .f32⟩
  | 118 => ⟨S100000x1, .f32⟩
  | 119 => ⟨S100000x1, .f32⟩
  | 120 => ⟨S100000x128, .f32⟩
  | 121 => ⟨S100000x128, .f32⟩
  | 122 => ⟨S128x128, .f32⟩
  | 123 => ⟨S100000x128, .f32⟩
  | 124 => ⟨S1x128, .f32⟩
  | 125 => ⟨S100000x128, .f32⟩
  | 126 => ⟨S100000x128, .f32⟩
  | 127 => ⟨S128x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x600000, .i32⟩
  | 3 => ⟨S600000, .i32⟩
  | 4 => ⟨S1x600000, .i32⟩
  | 5 => ⟨S600000, .i32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S_, .f32⟩
  | 16 => ⟨S100000x128, .f32⟩
  | 17 => ⟨S600000x1, .i32⟩
  | 18 => ⟨S100000x128, .f32⟩
  | 19 => ⟨S_, .f32⟩
  | 20 => ⟨S600000x1, .f32⟩
  | 21 => ⟨S_, .f32⟩
  | 22 => ⟨S100000x1, .f32⟩
  | 23 => ⟨S600000x1, .i32⟩
  | 24 => ⟨S100000x1, .f32⟩
  | 25 => ⟨S_, .f32⟩
  | 26 => ⟨S100000x1, .f32⟩
  | 27 => ⟨S100000x1, .f32⟩
  | 28 => ⟨S100000x128, .f32⟩
  | 29 => ⟨S100000x128, .f32⟩
  | 30 => ⟨S128x128, .f32⟩
  | 31 => ⟨S100000x128, .f32⟩
  | 32 => ⟨S1x128, .f32⟩
  | 33 => ⟨S100000x128, .f32⟩
  | 34 => ⟨S100000x128, .f32⟩
  | 35 => ⟨S128x128, .f32⟩
  | 36 => ⟨S100000x128, .f32⟩
  | 37 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call0_cst : Ref sig .tc := ⟨.hbm, 88, rfl⟩
abbrev main_call0_v0 : Ref sig .tc := ⟨.hbm, 89, rfl⟩
abbrev main_v60 : Ref sig .tc := ⟨.hbm, 90, rfl⟩
abbrev main_call1_cst : Ref sig .tc := ⟨.hbm, 91, rfl⟩
abbrev main_call1_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_10 : Ref sig .tc := ⟨.hbm, 98, rfl⟩
abbrev main_v66 : Ref sig .tc := ⟨.hbm, 99, rfl⟩
abbrev main_v67 : Ref sig .tc := ⟨.hbm, 100, rfl⟩
abbrev main_c_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_13 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_16 : Ref sig .tc := ⟨.hbm, 134, rfl⟩
abbrev main_v96 : Ref sig .tc := ⟨.hbm, 135, rfl⟩
abbrev main_v97 : Ref sig .tc := ⟨.hbm, 136, rfl⟩
abbrev main_c_17 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_18 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_19 : Ref sig .tc := ⟨.hbm, 147, rfl⟩
abbrev main_v106 : Ref sig .tc := ⟨.hbm, 148, rfl⟩
abbrev main_cst_20 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.RunTables.lean ====
import proofs.«411563_j39152921870698_3_alg».proof.Proof.RegionsK

set_option maxRecDepth 1648

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ve (W : Dev nD → Valuation τ sig (Elt F)) : (c : Dev nD) → (b : Ref sig .tc) → Buf (Elt F) ((c : Thread nD τ).loc b) :=
  fun c b => W c b

abbrev c₀ : Dev nD := ⟨0, Nat.one_pos⟩

theorem dev_eq (c : Dev nD) : c = c₀ := Subsingleton.elim _ _

def tbl1 : (pcfg1 (F := F)).Adm := ⟨fun k => Ve (V19 m) c₀ (pre1.ref k), trivial⟩
theorem tbl1_val : (tbl1 m).1 = fun k => Ve (V19 m) c₀ (pre1.ref k) := rfl
attribute [irreducible] tbl1

def tbl4 : (pcfg4 (F := F)).Adm := ⟨fun k => Ve (V19 m) c₀ (pre4.ref k), trivial⟩
theorem tbl4_val : (tbl4 m).1 = fun k => Ve (V19 m) c₀ (pre4.ref k) := rfl
attribute [irreducible] tbl4

def tbl7 : (pcfg7 (F := F)).Adm := ⟨fun k => Ve (V19 m) c₀ (pre7.ref k), trivial⟩
theorem tbl7_val : (tbl7 m).1 = fun k => Ve (V19 m) c₀ (pre7.ref k) := rfl
attribute [irreducible] tbl7

def tbl10 : (pcfg10 (F := F)).Adm := ⟨fun k => Ve (V19 m) c₀ (pre10.ref k), trivial⟩
theorem tbl10_val : (tbl10 m).1 = fun k => Ve (V19 m) c₀ (pre10.ref k) := rfl
attribute [irreducible] tbl10

@[reducible] def adm : (p : Fin 12) → (pcfgs (F := F) p).Adm
  | ⟨0, _⟩ => cfg0.toPCfg_adm
  | ⟨1, _⟩ => tbl1 m
  | ⟨2, _⟩ => cfg2.toPCfg_adm
  | ⟨3, _⟩ => cfg3.toPCfg_adm
  | ⟨4, _⟩ => tbl4 m
  | ⟨5, _⟩ => cfg5.toPCfg_adm
  | ⟨6, _⟩ => cfg6.toPCfg_adm
  | ⟨7, _⟩ => tbl7 m
  | ⟨8, _⟩ => cfg8.toPCfg_adm
  | ⟨9, _⟩ => cfg9.toPCfg_adm
  | ⟨10, _⟩ => tbl10 m
  | ⟨11, _⟩ => cfg11.toPCfg_adm
  | ⟨_ + 12, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ER : Fin 13 → Dev nD → sProp 𝕄 := fun _ => R

end Cert.Kernel.Hand

end
-- ==== Proof.LibGather.lean ====
import Idealize.ShloMosaic.Lib.Pipeline.Value

namespace Cert.Lib

open Idealize.ShloMosaic

theorem zeroOff2 : (![0, 0] : Fin 2 → Nat) = fun _ => 0 := funext fun a => by fin_cases a <;> rfl

-- One store through the whole-shape rectangle covers every index of the shape.
theorem coverWhole {Val : EltTy → Type} {S : Shape} {e : EltTy} {off : Fin S.rank → Nat} (h : off = fun _ => 0)
    (inb : ∀ a, off a + S.size a ≤ S.size a) (p : S.Idx → Val e) (y : S.Idx) :
    ∃ pc ∈ ([⟨Rect.unit (s := S) off S.size inb, p⟩] : List (View.Piece Val S e)), y ∈ pc.1.set :=
  ⟨_, List.mem_singleton_self _, View.mem_set_unit_zero h inb y⟩

-- What n steps carry: step k applied to what the steps before k left, from g.
def accOf {β : Type} (n : ℕ) (step : Fin n → β → β) (g : β) : ℕ → β
  | 0 => g
  | k + 1 => if h : k < n then step ⟨k, h⟩ (accOf n step g k) else accOf n step g k

theorem accOf_succ {β : Type} (n : ℕ) (step : Fin n → β → β) (g : β) (k : Fin n) :
    accOf n step g (k.val + 1) = step k (accOf n step g k.val) := by
  rw [accOf.eq_2]; exact dif_pos k.isLt

end Cert.Lib
-- ==== Proof.K.GatherKernel.lean ====
import proofs.«411563_j39152921870698_3_alg».proof.Proof.Gen.Kernel.Launch
import proofs.«411563_j39152921870698_3_alg».proof.Proof.Gen.Kernel.Skeleton
import proofs.«411563_j39152921870698_3_alg».proof.Proof.Gen.Kernel.Points
import proofs.«411563_j39152921870698_3_alg».proof.Proof.Gen.Kernel.Loops
import proofs.«411563_j39152921870698_3_alg».proof.Proof.LibGather
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev gatherAccRect : Rect S2048x128 := Rect.unit (s := S2048x128) ![0, 0] S2048x128.size inb_S2048x128_S2048x128_0_0
abbrev gatherSlab (k : Fin k0_t1_loop.trips) : Rect S100000x128 :=
  Rect.unit (s := S100000x128) (k0_off1 k) S2000x128.size (k0_off1_inb k)

-- The accumulator before slab k: each slab's payload adds its product to what the slabs before left.
def gatherAcc (x0 : Vec F S100000x128 .bf16) (x1 : Vec F S1x2048 .i32) : Vec F S2048x128 .f32 → ℕ → Vec F S2048x128 .f32 :=
  accOf k0_t1_loop.trips fun k => k0_pay2 x1 k (View.ld x0 (gatherSlab k))

-- The output block: the accumulator after the last slab, started from the zero block, narrowed.
def gatherOut (x0 : Vec F S100000x128 .bf16) (x1 : Vec F S1x2048 .i32) : Vec F S2048x128 .bf16 :=
  k0_pay3 (gatherAcc x0 x1 (k0_pay1 (F := F)) k0_t1_loop.trips)

section Trips
variable (𝒱 : Variants) (c : Dev nD) (bd : Option 𝒱.V) (i : grid0.Coords)
    (arg1 : Memref sig .tc .vmem S100000x128 .bf16) (harg1 : arg1.IsWhole)
    (arg2 : Memref sig .tc .vmem S1x2048 .i32) (harg2 : arg2.IsWhole)
    (arg3 : Memref sig .tc .vmem S2048x128 .bf16) (harg3 : arg3.IsWhole)
    (arg4 : Memref sig .tc .vmem S2048x128 .f32) (harg4 : arg4.IsWhole)
    (v4 : Vec F S1x2048 .i32) (X : BufTy.Contents (Elt F) arg1.view.ty)

theorem gatherTrip_eq (k : Fin k0_t1_loop.trips) (f : BufTy.Contents (Elt F) arg4.view.ty) :
    tripL_k0_t1 (F := F) 𝒱 c bd i arg1 harg1 arg2 harg2 arg3 harg3 arg4 harg4 v4 X k f
      = [⟨gatherAccRect, k0_pay2 v4 k (View.ld (arg1.view.read (Elt F) X) (gatherSlab k)) (View.ld (arg4.view.read (Elt F) f) gatherAccRect)⟩] := by
  unfold tripL_k0_t1 trip_k0_t1
  dsimp only
  sl_unfold_words
  simp only [View.readAt_eq_ld]
  rfl

-- The accumulator after the trips before k, read back, follows the recurrence from its entry contents.
theorem gatherTrips_read (G : BufTy.Contents (Elt F) arg4.view.ty) :
    ∀ k, k ≤ k0_t1_loop.trips →
      arg4.view.read (Elt F) (arg4.view.writes (Elt F) G
          (pb_k0_t1 (F := F) 𝒱 c bd i arg1 harg1 arg2 harg2 arg3 harg3 arg4 harg4 v4 X G k))
        = gatherAcc (arg1.view.read (Elt F) X) v4 (arg4.view.read (Elt F) G) k
  | 0, _ => rfl
  | k + 1, hk => by
    rw [pb_k0_t1_succ (F := F) 𝒱 c bd i arg1 harg1 arg2 harg2 arg3 harg3 arg4 harg4 v4 X G ⟨k, hk⟩,
      View.writes_append, gatherTrip_eq, View.read_writes_eq_canon _ _ _ (coverWhole zeroOff2 _ _),
      View.canon_unit_zero zeroOff2, View.ld_unit_zero (S := S2048x128) zeroOff2, gatherTrips_read G k (Nat.le_of_lt hk)]
    exact (accOf_succ _ _ _ ⟨k, hk⟩).symm

-- The gather kernel function on its four memrefs (every gather region runs it).
abbrev gatherBody : Prog (TpuEff nD τ sig (Elt F) Λ₀ .tc) PUnit :=
  cc0__gather_kernel (F := F) i arg1 harg1 arg2 harg2 arg3 harg3 arg4 harg4

-- The kernel body runs to a continuation holding the inputs as they were and the output at gatherOut of them.
set_option maxHeartbeats 4000000 in
theorem sound_gather (E : Set ℕ) (x0 : Vec F S100000x128 .bf16) (x1 : Vec F S1x2048 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (gatherOut x0 x1) ∗ (∃ d, owns (c : Thread nD τ) arg4 fullShare d)) -∗ K ⟨⟩))
      ⊢ wp frame (wpE (defs₀ (F := F)) Variants.none c none) E (gatherBody (F := F) i arg1 harg1 arg2 harg2 arg3 harg3 arg4 harg4) K := by
  unfold gatherBody; simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (coverWhole zeroOff2 _ _)).trans ?_
    refine (View.canon_unit_zero zeroOff2 _ _).trans ?_
    unfold gatherOut
    refine congrArg k0_pay3 ?_
    sl_unfold_words
    simp only [View.readAt_eq_ld, View.ld_unit_zero (S := S2048x128) zeroOff2, View.ld_unit_zero (S := S1x2048) zeroOff2]
    rw [View.writes_append]
    refine (gatherTrips_read Variants.none c none i arg1 harg1 arg2 harg2 arg3 harg3 arg4 harg4 _ f0 _ k0_t1_loop.trips le_rfl).trans ?_
    rw [View.read_writes_eq_canon _ _ _ (coverWhole zeroOff2 _ _), View.canon_unit_zero zeroOff2]
  iexists _; iexists _; isplitr
  swap; · iexact H3
  ipureintro; rfl

end Trips

end Cert.Kernel.Hand

end
-- ==== Proof.K.Gather0.lean ====
import proofs.«411563_j39152921870698_3_alg».proof.Proof.K.GatherKernel

set_option maxRecDepth 16384

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr0 : Memref sig .tc .vmem S2048x128 .f32 := Memref.whole cc0_scratch0

section Region
variable (V : (c : Dev nD) → (b : Ref sig .tc) → Buf (Elt F) ((c : Thread nD τ).loc b))

-- Window w's block at point t, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The region's proof data: every input block is kept, the output block is gatherOut of the two input blocks.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => gatherOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem after0_2 (c : Dev nD) (t : Fin cfg0.N) : (dat0 V c).after 2 t = gatherOut (iblk0 V c 0 t) (iblk0 V c 1 t) := by dsimp only [dat0]

-- At every point an input's block is its block of the array as the region found it.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

-- The class invariant with the accumulator owned at some contents, the other scoped buffers unopened.
theorem PhiA0_eq (c : Dev nD) :
    (Pipeline.ΦA spec0 c : sProp 𝕄)
      = iprop(iprop(iprop((∃ d, owns (c : Thread nD τ) scr0 fullShare d))
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scr0, owns_whole]; try rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

-- The body at any point: the invariant lends the accumulator and takes it back at whatever the body left in it.
theorem sound_body0 (c : Dev nD) (t : Fin cfg0.N) :
    bodyPre0 V c t ⊢ wp frame (wpE (defs₀ (F := F)) Variants.none c none) Set.univ
      (gatherBody (grid0.coords t) (st0_0 t) (stage_whole0 0 _) (st0_1 t) (stage_whole0 1 _) (st0_2 t) (stage_whole0 2 _) scr0 (Memref.isWhole_whole _))
      (fun _ => bodyPost0 V c t) := by
  unfold bodyPre0 bodyPost0
  simp only [before0_0, before0_1]
  rw [show (dat0 V c).Φ t.succ = Pipeline.ΦA spec0 c from rfl,
    show (dat0 V c).Φ t.castSucc = Pipeline.ΦA spec0 c from rfl,
    show (dat0 V c).owesAt () t.succ = (dat0 V c).owesAt () t.castSucc from rfl,
    show (dat0 V c).after 0 t = iblk0 V c 0 t from rfl, show (dat0 V c).after 1 t = iblk0 V c 1 t from rfl, after0_2, PhiA0_eq]
  iintro ⟨⟨⟨HS, Hrest⟩, Hg⟩, Ho, ⟨%d0, H0⟩, ⟨%d1, H1⟩, ⟨%d2, H2⟩⟩
  iapply (sound_gather c _ _ _ _ _ _ _ _ _ Set.univ (iblk0 V c 0 t) (iblk0 V c 1 t) _)
  iframe H0 H1 HS
  isplitl [H2]; · iexists _; iexact H2
  iintro ⟨H0, H1, H2, HS⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 := sep_comm.1

theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := sep_comm.1

end Region

end Cert.Kernel.Hand

end
-- ==== Proof.K.ScatterCnt1Sched.lean ====
import proofs.«411563_j39152921870698_3_alg».proof.Proof.Gen.Kernel.Launch
import Idealize.ShloMosaic.Lib.Pipeline.Kit
import Idealize.ShloMosaic.Lib.Affine

noncomputable section

namespace Cert.Kernel.Hand.ScatterCnt1

open Cert.Kernel Cert.Kernel.Gen
open Idealize.ShloMosaic Idealize.ShloMosaic.TcCoe

variable {F : FTy → Type} [FloatOps F]

theorem coords_node (t : Fin grid1.N) : ((grid1.coords t) 0).val = t.val / 293 := by
  have hN : t.val < 14943 := lt_of_lt_of_eq t.isLt N_1
  show t.val / grid1.stride 0 % 51 = t.val / 293
  rw [show grid1.stride 0 = 293 from by decide]; omega

theorem coords_edge (t : Fin grid1.N) : ((grid1.coords t) 1).val = t.val % 293 := by
  show t.val / grid1.stride 1 % 293 = t.val % 293
  rw [show grid1.stride 1 = 1 from by decide, Nat.div_one]

abbrev condFirst (i : grid1.Coords) : Prop :=
  (Scalar.cmpi .ne (Scalar.extui (Scalar.cmpi .eq (BitVec.ofNat 32 (i 1).val) 0#32)) 0#32) = 1#1

abbrev condLast (i : grid1.Coords) : Prop := k1_cond3 i = 1#1

-- Both sides are below 2³², so the edge coordinate equals a constant as a word exactly when it does as a number.
theorem edge_const_iff (t : Fin grid1.N) (k : ℕ) (hk : k < 2 ^ 32) :
    Scalar.cmpi .ne (Scalar.extui (Scalar.cmpi .eq (BitVec.ofNat 32 ((grid1.coords t) 1).val) (BitVec.ofNat 32 k))) 0#32 = 1#1
      ↔ t.val % 293 = k := by
  rw [Scalar.guard_iff, Scalar.cmpi, IntOp.cmpi_eq, coords_edge]
  have hn : t.val % 293 < 2 ^ 32 := Nat.lt_of_lt_of_le (Nat.mod_lt _ (by decide)) (by decide)
  refine ⟨fun h => ?_, fun h => congrArg (BitVec.ofNat 32) h⟩
  have := congrArg BitVec.toNat h
  rwa [BitVec.toNat_ofNat, BitVec.toNat_ofNat, Nat.mod_eq_of_lt hn, Nat.mod_eq_of_lt hk] at this

theorem condFirst_iff (t : Fin grid1.N) : condFirst (grid1.coords t) ↔ t.val % 293 = 0 := edge_const_iff t 0 (by decide)

theorem condLast_iff (t : Fin grid1.N) : condLast (grid1.coords t) ↔ t.val % 293 = 292 := edge_const_iff t 292 (by decide)

theorem condFirst_zero (t : Fin grid1.N) (h : t.val = 0) : condFirst (grid1.coords t) :=
  (condFirst_iff t).mpr (by rw [h])

-- Before a node block's last edge step the next point has the same node coordinate, so an index map that reads only it does not move.
theorem noFlush (ix : grid1.Coords → Fin 2 → ℕ) (hix : ∀ i, ix i = ![(BitVec.ofNat 32 (i 0).val).toNat, 0]) (t : Fin grid1.N)
    (h : ¬ condLast (grid1.coords t)) : Pipeline.Window.flushOf grid1 true ix t = false := by
  have hN : t.val < 14943 := lt_of_lt_of_eq t.isLt N_1
  have hl : t.val % 293 ≠ 292 := fun e => h ((condLast_iff t).mpr e)
  have hc : ∀ h₁ : t.val + 1 < grid1.N, grid1.coords ⟨t.val + 1, h₁⟩ 0 = grid1.coords t 0 := fun h₁ =>
    Fin.ext (by rw [coords_node, coords_node]; show (t.val + 1) / 293 = t.val / 293; omega)
  rw [Bool.eq_false_iff]
  intro hb
  simp only [Pipeline.Window.flushOf, Bool.true_and, Bool.or_eq_true, decide_eq_true_eq] at hb
  rcases hb with hb | ⟨h₁, hne⟩
  · have := hb.trans N_1; omega
  · exact hne (by rw [hix, hix, hc h₁])

-- A one-bit guard is set or not: the negated test of it is true exactly when it is clear.
theorem idle_iff (x : BitVec 1) : ((!(x == 1#1)) = true ↔ ¬ x = 1#1) ∧ ((!(x == 1#1)) = false ↔ x = 1#1) := by
  revert x; decide

variable (a : (pcfg1 (F := F)).Adm)

theorem noFlush_out0 (t : Fin (cfg1 a).N) (h : ¬ condLast (grid1.coords t)) : ((cfg1 a).win 2).flush t = false :=
  noFlush cc1_transform_2 (fun _ => rfl) t h
theorem noFlush_out1 (t : Fin (cfg1 a).N) (h : ¬ condLast (grid1.coords t)) : ((cfg1 a).win 3).flush t = false :=
  noFlush cc1_transform_3 (fun _ => rfl) t h

theorem live_in0 (t : Fin (cfg1 a).N) : (cfg1 a).idle 0 (grid1.coords t) = false := rfl
theorem live_in1 (t : Fin (cfg1 a).N) : (cfg1 a).idle 1 (grid1.coords t) = false := rfl
theorem idle_out0 (t : Fin (cfg1 a).N) (h : ¬ condLast (grid1.coords t)) : (cfg1 a).idle 2 (grid1.coords t) = true :=
  (idle_iff (k1_cond3 (grid1.coords t))).1.mpr h
theorem idle_out1 (t : Fin (cfg1 a).N) (h : ¬ condLast (grid1.coords t)) : (cfg1 a).idle 3 (grid1.coords t) = true :=
  (idle_iff (k1_cond3 (grid1.coords t))).1.mpr h
theorem live_out0 (t : Fin (cfg1 a).N) (h : condLast (grid1.coords t)) : (cfg1 a).idle 2 (grid1.coords t) = false :=
  (idle_iff (k1_cond3 (grid1.coords t))).2.mpr h
theorem live_out1 (t : Fin (cfg1 a).N) (h : condLast (grid1.coords t)) : (cfg1 a).idle 3 (grid1.coords t) = false :=
  (idle_iff (k1_cond3 (grid1.coords t))).2.mpr h

end Cert.Kernel.Hand.ScatterCnt1

end
-- ==== Proof.K.ScatterCnt1Step.lean ====
import proofs.«411563_j39152921870698_3_alg».proof.Proof.K.ScatterCnt1Sched
import proofs.«411563_j39152921870698_3_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand.ScatterCnt1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbLo : Memref sig .tc .smem S293 .i32 := Memref.whole main_v24
abbrev tbHi : Memref sig .tc .smem S293 .i32 := Memref.whole main_v27
abbrev scAgg : Memref sig .tc .vmem S2000x128 .f32 := Memref.whole cc1_scratch0
abbrev scCnt : Memref sig .tc .vmem S2000x1 .f32 := Memref.whole cc1_scratch1

abbrev TbBuf (c : Dev nD) (M : Memref sig .tc .smem S293 .i32) : Type := Buf (Elt F) (M.view.loc (c : Thread nD τ))
abbrev tbPt (c : Dev nD) (M : Memref sig .tc .smem S293 .i32) (f : TbBuf (F := F) c M) : sProp 𝕄 :=
  M.view.loc (c : Thread nD τ) ↦{fullShare} f

abbrev wordOf (c : Dev nD) (M : Memref sig .tc .smem S293 .i32) (xt : TbBuf (F := F) c M) (i : grid1.Coords) : Elt F .i32 :=
  M.view.readAt (Elt F) (Rect.unit (s := S293) (k1_off1 i) S1.size (k1_off1_inb i)).toLoadRect xt (Shape.Idx.first (numel1_S1.symm ▸ Nat.one_pos))

abbrev guardW (i : grid1.Coords) (lo hi : BitVec 32) : Prop :=
  Scalar.cmpi .ne (Scalar.extui (Scalar.andi (Scalar.cmpi .sge (BitVec.ofNat 32 (i 0).val) lo) (Scalar.cmpi .sle (BitVec.ofNat 32 (i 0).val) hi))) 0#32 = 1#1

def stepAcc (i : grid1.Coords) (lo hi : BitVec 32) (x4 : Vec F S2048x128 .bf16) (x5 : Vec F S1x2048 .i32)
    (s : Vec F S2000x128 .f32 × Vec F S2000x1 .f32) : Vec F S2000x128 .f32 × Vec F S2000x1 .f32 :=
  if guardW i lo hi then
    (k1_pay4 i x5 x4 (if condFirst i then (k1_pay1 (F := F)) else s.1), k1_pay5 i x5 (if condFirst i then (k1_pay2 (F := F)) else s.2))
  else
    (if condFirst i then (k1_pay1 (F := F)) else s.1, if condFirst i then (k1_pay2 (F := F)) else s.2)

theorem stepAcc_first {i : grid1.Coords} (h : condFirst i) (lo hi : BitVec 32) (x4 : Vec F S2048x128 .bf16) (x5 : Vec F S1x2048 .i32)
    (s s' : Vec F S2000x128 .f32 × Vec F S2000x1 .f32) : stepAcc i lo hi x4 x5 s = stepAcc i lo hi x4 x5 s' := by
  unfold stepAcc; simp only [if_pos h]

end Cert.Kernel.Hand.ScatterCnt1

end
-- ==== Proof.LibScatterCnt.lean ====
import Idealize.ShloMosaic.Lib.Pipeline.FrameBody
import Idealize.ShloMosaic.Lib.Pipeline.Value

namespace Cert.LibScatterCnt

open Idealize.ShloMosaic

variable {sig : RefSig} {Val : EltTy → Type} [∀ e, Nonempty (Val e)] {κ : Kind} {sp : Space} {S : Shape} {e : EltTy}

-- A store through the whole-shape rectangle, made last, leaves its payload: its one piece covers every index.
theorem read_store_whole (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.Mem.head _, View.mem_set_unit_zero h inb y⟩)).trans
    (View.canon_cons_unit_zero h inb w L)

-- A load through the whole-shape rectangle of a whole memref reads the contents it is held at.
theorem load_whole {M : Memref sig κ sp S e} (hM : M.IsWhole) {off : Fin S.rank → Nat} (h : off = fun _ => 0)
    (inb : ∀ a, off a + S.size a ≤ S.size a) (X : S.Idx → Val e) :
    M.view.readAt Val (Rect.unit off S.size inb).toLoadRect (hM.unread X) = X := by
  rw [View.readAt_eq_ld, hM.read_unread, View.ld_unit_zero h inb]

theorem zero2 : (![0, 0] : Fin 2 → Nat) = fun _ => 0 := funext fun a => by fin_cases a <;> rfl

end Cert.LibScatterCnt
-- ==== Proof.K.ScatterCnt1Run.lean ====
import proofs.«411563_j39152921870698_3_alg».proof.Proof.K.ScatterCnt1Step
import proofs.«411563_j39152921870698_3_alg».proof.Proof.LibScatterCnt

set_option maxRecDepth 16384

noncomputable section

namespace Cert.Kernel.Hand.ScatterCnt1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibScatterCnt

variable {F : FTy → Type} [FloatOps F]

local notation "𝕄" => MT nD τ sig Unit (Elt F) ℕ (UR sig nD τ) ℕ

-- Everything the body touches on core `c`: the two input blocks, the output blocks at `o`, the accumulators at `s`, the two tables.
def held (c : Dev nD) (arg4 : Memref sig .tc .vmem S2048x128 .bf16) (arg5 : Memref sig .tc .vmem S1x2048 .i32)
    (arg6 : Memref sig .tc .vmem S2000x128 .f32) (arg7 : Memref sig .tc .vmem S2000x1 .f32)
    (x4 : Vec F S2048x128 .bf16) (x5 : Vec F S1x2048 .i32) (xa : TbBuf (F := F) c tbLo) (xb : TbBuf (F := F) c tbHi)
    (o s : Vec F S2000x128 .f32 × Vec F S2000x1 .f32) : sProp 𝕄 :=
  iprop(owns (c : Thread nD τ) arg4 fullShare x4 ∗ owns (c : Thread nD τ) arg5 fullShare x5
    ∗ owns (c : Thread nD τ) arg6 fullShare o.1 ∗ owns (c : Thread nD τ) arg7 fullShare o.2
    ∗ owns (c : Thread nD τ) scAgg fullShare s.1 ∗ owns (c : Thread nD τ) scCnt fullShare s.2
    ∗ tbPt c tbLo xa ∗ tbPt c tbHi xb)

-- One run for every way the three conditionals fall: the accumulators move one step, and a last edge block copies them out.
set_option maxHeartbeats 4000000 in
theorem run_body (c : Dev nD) (E : Set ℕ) (i : grid1.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole) (arg7 : Memref sig .tc .vmem S2000x1 .f32) (harg7 : arg7.IsWhole)
    (x4 : Vec F S2048x128 .bf16) (x5 : Vec F S1x2048 .i32) (xa : TbBuf (F := F) c tbLo) (xb : TbBuf (F := F) c tbHi)
    (o s : Vec F S2000x128 .f32 × Vec F S2000x1 .f32) (hFL : condFirst i → ¬ condLast i) (K : PUnit → sProp 𝕄) :
    iprop(held c arg4 arg5 arg6 arg7 x4 x5 xa xb o s
        ∗ (held c arg4 arg5 arg6 arg7 x4 x5 xa xb
              (if condLast i then stepAcc i (wordOf c tbLo xa i) (wordOf c tbHi xb i) x4 x5 s else o)
              (stepAcc i (wordOf c tbLo xa i) (wordOf c tbHi xb i) x4 x5 s) -∗ K ⟨⟩))
      ⊢ wp frame (wpE (defs₀ (F := F)) Variants.none c none) E (cc1__scatter_kernel_cnt i tbLo (Memref.isWhole_whole _) tbHi (Memref.isWhole_whole _) arg4 harg4 arg5 harg5 arg6 harg6 arg7 harg7 scAgg (Memref.isWhole_whole _) scCnt (Memref.isWhole_whole _)) K := by
  obtain ⟨o0, o1⟩ := o
  obtain ⟨s0, s1⟩ := s
  by_cases hL : condLast i <;> by_cases hF : condFirst i <;>
    by_cases hG : guardW i (wordOf c tbLo xa i) (wordOf c tbHi xb i) <;>
  first
  | exact absurd hL (hFL hF)
  | unfold held stepAcc
    first | simp only [if_neg hL] | simp only [if_pos hL]
    first | simp only [if_neg hG] | simp only [if_pos hG]
    first | simp only [if_neg hF] | simp only [if_pos hF]
    simp only [cc1__scatter_kernel_cnt_eq_skeleton]; unfold cc1__scatter_kernel_cnt_skel
    unfold owns
    iintro ⟨⟨⟨%f4, %hf4, H4⟩, ⟨%f5, %hf5, H5⟩, ⟨%f6, %hf6, H6⟩, ⟨%f7, %hf7, H7⟩, ⟨%g0, %hg0, HS0⟩, ⟨%g1, %hg1, HS1⟩, HTA, HTB⟩, Hk⟩
    obtain rfl := harg4.eq_unread hf4
    obtain rfl := harg5.eq_unread hf5
    obtain rfl := harg6.eq_unread hf6
    obtain rfl := harg7.eq_unread hf7
    obtain rfl := (Memref.isWhole_whole cc1_scratch0).eq_unread hg0
    obtain rfl := (Memref.isWhole_whole cc1_scratch1).eq_unread hg1
    sl_exec (disch := first | sl_exact hF | sl_exact hG | sl_exact hL)
    sl_step
    iapply Hk
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [HS0]; iexists _; isplitr; swap; iexact HS0; rotate_left
    isplitl [HS1]; iexists _; isplitr; swap; iexact HS1; rotate_left
    isplitl [HTA]; iexact HTA
    iexact HTB
    all_goals (ipureintro; try sl_unfold_words)
    all_goals try rw [read_store_whole _ _ zero2]
    all_goals try simp only [load_whole harg4 zero2, load_whole harg5 zero2, View.readCov_unit_zero (S := S2000x128) _ zero2,
      View.readCov_unit_zero (S := S2000x1) _ zero2]
    all_goals first
      | assumption
      | exact load_whole (Memref.isWhole_whole cc1_scratch0) zero2 inb_S2000x128_S2000x128_0_0 s0
      | exact load_whole (Memref.isWhole_whole cc1_scratch1) zero2 inb_S2000x1_S2000x1_0_0 s1
      | exact congrArg (k1_pay4 i x5 x4) (load_whole (Memref.isWhole_whole cc1_scratch0) zero2 inb_S2000x128_S2000x128_0_0 s0)
      | exact congrArg (k1_pay5 i x5) (load_whole (Memref.isWhole_whole cc1_scratch1) zero2 inb_S2000x1_S2000x1_0_0 s1)

end Cert.Kernel.Hand.ScatterCnt1

end
-- ==== Proof.K.ScatterCnt1.lean ====
import proofs.«411563_j39152921870698_3_alg».proof.Proof.K.ScatterCnt1Run

set_option maxRecDepth 16384

noncomputable section

namespace Cert.Kernel.Hand.ScatterCnt1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

-- An input window holds its block of the array at every point.
theorem before_in_of {c : Dev nD} (dat : Dat τ (Elt F) Unit ℕ (UR sig nD τ) ℕ (cfg1 a) c) (w : Fin (cfg1 a).W) (hw : w = 0 ∨ w = 1)
    (hA : dat.A w = V c (Pipeline.arrRef spec1 w)) (hafter : ∀ t, dat.after w t = iblk1 V a c w t) (t : Fin (cfg1 a).N) (d) :
    dat.before w t d = iblk1 V a c w t := by
  rcases hw with rfl | rfl <;>
  exact (dat.before_in_eq_fetched _ rfl (fun _ => rfl) (fun _ _ _ => rfl) (fun t => by rw [hafter]; unfold Dat.blockOf iblk1; rw [hA]; try rfl) t d).trans
    (by unfold Dat.fetched Dat.blockOf iblk1; rw [hA]; try rfl)

abbrev msgBlk (c : Dev nD) (t : Fin (cfg1 a).N) : Vec F S2048x128 .bf16 := iblk1 V a c 0 t
abbrev idxBlk (c : Dev nD) (t : Fin (cfg1 a).N) : Vec F S1x2048 .i32 := iblk1 V a c 1 t
abbrev loWord (c : Dev nD) (t : Fin (cfg1 a).N) : BitVec 32 := wordOf c tbLo (a.1 0) (grid1.coords t)
abbrev hiWord (c : Dev nD) (t : Fin (cfg1 a).N) : BitVec 32 := wordOf c tbHi (a.1 1) (grid1.coords t)

def accAt (c : Dev nD) : (n : ℕ) → n < (cfg1 a).N → Vec F S2000x128 .f32 × Vec F S2000x1 .f32
  | 0, hn => stepAcc (grid1.coords ⟨0, hn⟩) (loWord a c ⟨0, hn⟩) (hiWord a c ⟨0, hn⟩) (msgBlk V a c ⟨0, hn⟩) (idxBlk V a c ⟨0, hn⟩) ((k1_pay1 (F := F)), (k1_pay2 (F := F)))
  | n + 1, hn => stepAcc (grid1.coords ⟨n + 1, hn⟩) (loWord a c ⟨n + 1, hn⟩) (hiWord a c ⟨n + 1, hn⟩) (msgBlk V a c ⟨n + 1, hn⟩) (idxBlk V a c ⟨n + 1, hn⟩)
      (accAt c n (Nat.lt_of_succ_lt hn))

def scrAt (c : Dev nD) (n : ℕ) (hn : n ≤ (cfg1 a).N) : Vec F S2000x128 .f32 × Vec F S2000x1 .f32 :=
  if h : n = 0 then ((k1_pay1 (F := F)), (k1_pay2 (F := F))) else accAt V a c (n - 1) (by omega)

theorem scrAt_succ (c : Dev nD) (n : ℕ) (hn : n < (cfg1 a).N) : scrAt V a c (n + 1) hn = accAt V a c n hn := by
  unfold scrAt; rw [dif_neg (Nat.succ_ne_zero n)]; rfl

theorem accAt_eq (c : Dev nD) (t : Fin (cfg1 a).N) :
    accAt V a c t.val t.isLt = stepAcc (grid1.coords t) (loWord a c t) (hiWord a c t) (msgBlk V a c t) (idxBlk V a c t) (scrAt V a c t.val (Nat.le_of_lt t.isLt)) := by
  obtain ⟨n, hn⟩ := t
  cases n with
  | zero => rfl
  | succ n => rw [scrAt_succ]; rfl

theorem step_eq_accAt (c : Dev nD) (t : Fin (cfg1 a).N) (X0 : Vec F S2000x128 .f32) (X1 : Vec F S2000x1 .f32)
    (hX : t.val ≠ 0 → X0 = (scrAt V a c t.val (Nat.le_of_lt t.isLt)).1 ∧ X1 = (scrAt V a c t.val (Nat.le_of_lt t.isLt)).2) :
    stepAcc (grid1.coords t) (loWord a c t) (hiWord a c t) (msgBlk V a c t) (idxBlk V a c t) (X0, X1) = accAt V a c t.val t.isLt := by
  rw [accAt_eq]
  by_cases h0 : t.val = 0
  · exact stepAcc_first (condFirst_zero t h0) _ _ _ _ _ _
  · obtain ⟨e0, e1⟩ := hX h0
    rw [e0, e1]

def PhiS (c : Dev nD) (n : ℕ) (hn : n ≤ (cfg1 a).N) : sProp 𝕄 :=
  iprop((∃ X0 X1, ⌜n ≠ 0 → X0 = (scrAt V a c n hn).1 ∧ X1 = (scrAt V a c n hn).2⌝
        ∗ owns (c : Thread nD τ) scAgg fullShare X0 ∗ owns (c : Thread nD τ) scCnt fullShare X1)
    ∗ Pipeline.scopedRestBut (Ix := Unit) (Name := ℕ) (U := UR sig nD τ) (Lvl := ℕ) (Val := Elt F) spec1 c [cc1_scratch0, cc1_scratch1]
    ∗ (∃ r, prngReg c r)
    ∗ tbPt c tbLo (a.1 0) ∗ tbPt c tbHi (a.1 1))

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => (accAt V a c t.val t.isLt).1
    | ⟨3, _⟩ => (accAt V a c t.val t.isLt).2
  Φ t := PhiS V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = (accAt V a c t.val t.isLt).1 := by dsimp only [dat1]; try rfl
theorem after1_3 (c : Dev nD) (t : Fin (cfg1 a).N) : (dat1 V a c).after 3 t = (accAt V a c t.val t.isLt).2 := by dsimp only [dat1]; try rfl

theorem before1_0 (c : Dev nD) (t : Fin (cfg1 a).N) (d) : (dat1 V a c).before 0 t d = iblk1 V a c 0 t :=
  before_in_of V a (dat1 V a c) 0 (.inl rfl) (A_eq1 V a c 0) (after1_0 V a c) t d
theorem before1_1 (c : Dev nD) (t : Fin (cfg1 a).N) (d) : (dat1 V a c).before 1 t d = iblk1 V a c 1 t :=
  before_in_of V a (dat1 V a c) 1 (.inr rfl) (A_eq1 V a c 1) (after1_1 V a c) t d

theorem Phi_castSucc (c : Dev nD) (t : Fin (cfg1 a).N) : (dat1 V a c).Φ t.castSucc = PhiS V a c t.val (Nat.le_of_lt t.isLt) := by
  dsimp only [dat1, Fin.coe_castSucc]
theorem Phi_succ (c : Dev nD) (t : Fin (cfg1 a).N) : (dat1 V a c).Φ t.succ = PhiS V a c (t.val + 1) t.isLt := by
  dsimp only [dat1, Fin.val_succ]

abbrev ms1_0 (t : Fin (cfg1 a).N) : Memref sig .tc .vmem S2048x128 .bf16 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x2048 .i32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S2000x128 .f32 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S2000x1 .f32 := spec1_3.stage ((cfg1 a).slots t 3)
abbrev hs1_3 (t : Fin (cfg1 a).N) : (ms1_3 a t).IsWhole := hstage1_3 (((cfg1 a).slots t 3).cast nbuf1_3)

abbrev bodyAt1 (t : Fin (cfg1 a).N) : Prog (TpuEff nD τ sig (Elt F) Λ₀ .tc) PUnit :=
  cc1__scatter_kernel_cnt (grid1.coords t) tbLo (Memref.isWhole_whole _) tbHi (Memref.isWhole_whole _)
    (ms1_0 a t) (hs1_0 a t) (ms1_1 a t) (hs1_1 a t) (ms1_2 a t) (hs1_2 a t) (ms1_3 a t) (hs1_3 a t)
    scAgg (Memref.isWhole_whole _) scCnt (Memref.isWhole_whole _)

def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d)))

def bodyPost1 (c : Dev nD) (t : Fin (cfg1 a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t)

theorem leaves_in0 (c : Dev nD) (t : Fin (cfg1 a).N) :
    (dat1 V a c).leavesExact 0 t = owns (c : Thread nD τ) (ms1_0 a t) fullShare (iblk1 V a c 0 t) := by
  unfold Dat.leavesExact; rw [live_in0 a t]; dsimp only; rw [after1_0] <;> rfl
theorem leaves_in1 (c : Dev nD) (t : Fin (cfg1 a).N) :
    (dat1 V a c).leavesExact 1 t = owns (c : Thread nD τ) (ms1_1 a t) fullShare (iblk1 V a c 1 t) := by
  unfold Dat.leavesExact; rw [live_in1 a t]; dsimp only; rw [after1_1] <;> rfl
theorem leaves_out0_live (c : Dev nD) (t : Fin (cfg1 a).N) (h : condLast (grid1.coords t)) :
    (dat1 V a c).leavesExact 2 t = owns (c : Thread nD τ) (ms1_2 a t) fullShare (accAt V a c t.val t.isLt).1 := by
  unfold Dat.leavesExact; rw [live_out0 a t h]; dsimp only; rw [after1_2] <;> rfl
theorem leaves_out1_live (c : Dev nD) (t : Fin (cfg1 a).N) (h : condLast (grid1.coords t)) :
    (dat1 V a c).leavesExact 3 t = owns (c : Thread nD τ) (ms1_3 a t) fullShare (accAt V a c t.val t.isLt).2 := by
  unfold Dat.leavesExact; rw [live_out1 a t h]; dsimp only; rw [after1_3] <;> rfl

-- The output blocks as the body leaves them: as found away from a last edge block, at the accumulators at one.
theorem leaves_out (c : Dev nD) (t : Fin (cfg1 a).N) (o : Vec F S2000x128 .f32 × Vec F S2000x1 .f32) (d2) (d3)
    (h2 : o.1 = (dat1 V a c).before 2 t d2) (h3 : o.2 = (dat1 V a c).before 3 t d3) :
    iprop(owns (c : Thread nD τ) (ms1_2 a t) fullShare (if condLast (grid1.coords t) then accAt V a c t.val t.isLt else o).1
        ∗ owns (c : Thread nD τ) (ms1_3 a t) fullShare (if condLast (grid1.coords t) then accAt V a c t.val t.isLt else o).2)
      ⊢ iprop((dat1 V a c).leavesExact 2 t ∗ (dat1 V a c).leavesExact 3 t) := by
  by_cases h : condLast (grid1.coords t)
  · rw [if_pos h, leaves_out0_live V a c t h, leaves_out1_live V a c t h]
  · rw [if_neg h, h2, h3, Dat.leavesExact_idle (dat1 V a c) 2 t (idle_out0 a t h) (noFlush_out0 a t h),
      Dat.leavesExact_idle (dat1 V a c) 3 t (idle_out1 a t h) (noFlush_out1 a t h)]
    iintro ⟨H2, H3⟩
    isplitl [H2]; · iexists d2; iexact H2
    iexists d3; iexact H3

set_option maxHeartbeats 1600000 in
-- One point of the grid: the body's run moves the invariant on, whichever way its conditionals fall.
theorem body_obligation1 (c : Dev nD) : BodyObligation (dat1 (F := F) V a c) (defs₀ (F := F)) Variants.none () Set.univ := fun t => by
  rw [bigSep_W1, bigSep_W1]
  show bodyPre1 V a c t ⊢ wp frame (wpE (defs₀ (F := F)) Variants.none c none) Set.univ (bodyAt1 a t) (fun _ => bodyPost1 V a c t)
  have hFL : condFirst (grid1.coords t) → ¬ condLast (grid1.coords t) := fun h h' => by
    have h1 := (condFirst_iff t).mp h
    have h2 := (condLast_iff t).mp h'
    omega
  unfold bodyPre1 bodyPost1 bodyAt1
  simp only [before1_0, before1_1]
  rw [show (dat1 V a c).owesAt () t.succ = (dat1 V a c).owesAt () t.castSucc from rfl, Phi_castSucc, Phi_succ,
    leaves_in0, leaves_in1]
  unfold PhiS
  iintro ⟨⟨⟨%X0, %X1, %hX, HS0, HS1⟩, HR, Hg, HTA, HTB⟩, Ho, ⟨%d0, H0⟩, ⟨%d1, H1⟩, ⟨%d2, H2⟩, ⟨%d3, H3⟩⟩
  iapply (run_body c Set.univ (grid1.coords t) (ms1_0 a t) (hs1_0 a t) (ms1_1 a t) (hs1_1 a t) (ms1_2 a t) (hs1_2 a t) (ms1_3 a t) (hs1_3 a t)
    (msgBlk V a c t) (idxBlk V a c t) (a.1 0) (a.1 1) ((dat1 V a c).before 2 t d2, (dat1 V a c).before 3 t d3) (X0, X1) hFL _)
  unfold held
  rw [step_eq_accAt V a c t X0 X1 hX]
  isplitl [H0 H1 H2 H3 HS0 HS1 HTA HTB]
  · isplitl [H0]; · iexact H0
    isplitl [H1]; · iexact H1
    isplitl [H2]; · iexact H2
    isplitl [H3]; · iexact H3
    isplitl [HS0]; · iexact HS0
    isplitl [HS1]; · iexact HS1
    isplitl [HTA]; · iexact HTA
    iexact HTB
  iintro ⟨H0, H1, H2, H3, HS0, HS1, HTA, HTB⟩
  isplitl [HS0 HS1 HR Hg HTA HTB]
  · isplitl [HS0 HS1]
    · iexists _, _
      isplitr
      · ipureintro; intro _; rw [scrAt_succ]; exact ⟨rfl, rfl⟩
      isplitl [HS0]; · iexact HS0
      iexact HS1
    isplitl [HR]; · iexact HR
    isplitl [Hg]; · iexact Hg
    isplitl [HTA]; · iexact HTA
    iexact HTB
  isplitl [Ho]; · iexact Ho
  isplitl [H0]; · iexact H0
  isplitl [H1]; · iexact H1
  iapply (leaves_out V a c t ((dat1 V a c).before 2 t d2, (dat1 V a c).before 3 t d3) d2 d3 rfl rfl)
  isplitl [H2]; · iexact H2
  iexact H3

theorem prefHeld_eq (c : Dev nD) :
    (Pipeline.prefHeld (Ix := Unit) (Name := ℕ) (U := UR sig nD τ) (Lvl := ℕ) pre1 c (fun _ => fullShare) a.1 : sProp 𝕄)
      = iprop(tbPt c tbLo (a.1 0) ∗ tbPt c tbHi (a.1 1)) := by
  unfold Pipeline.prefHeld
  rw [show (Finset.univ : Finset (Fin 2)) = insert (0 : Fin 2) {(1 : Fin 2)} from by decide,
    bigSep_insert (by decide), bigSep_singleton]
  rfl

theorem hin1 (c : Dev nD) :
    iprop((∃ r, prngReg c r) ∗ Pipeline.prefHeld (Ix := Unit) (Name := ℕ) (U := UR sig nD τ) (Lvl := ℕ) pre1 c (fun _ => fullShare) a.1
        ∗ Pipeline.scopedRest (Ix := Unit) (Name := ℕ) (U := UR sig nD τ) (Lvl := ℕ) (Val := Elt F) spec1 c)
      ⊢ (dat1 V a c).Φ 0 := by
  rw [show (dat1 V a c).Φ 0 = PhiS V a c 0 (Nat.zero_le _) from rfl, prefHeld_eq, scopedRest1_split]
  unfold PhiS
  iintro ⟨Hg, ⟨HTA, HTB⟩, ⟨⟨%f0, HS0⟩, ⟨%f1, HS1⟩⟩, HR⟩
  isplitl [HS0 HS1]
  · iexists f0, f1
    isplitr; · ipureintro; intro h; exact absurd rfl h
    isplitl [HS0]
    · rw [owns_whole]; iexact HS0
    rw [owns_whole]; iexact HS1
  isplitl [HR]; · iexact HR
  isplitl [Hg]; · iexact Hg
  isplitl [HTA]; · iexact HTA
  iexact HTB

theorem hout1 (c : Dev nD) :
    (dat1 V a c).Φ (Fin.last (cfg1 a).N)
      ⊢ iprop(iprop((∃ r, prngReg c r) ∗ Pipeline.prefHeld (Ix := Unit) (Name := ℕ) (U := UR sig nD τ) (Lvl := ℕ) pre1 c (fun _ => fullShare) a.1)
          ∗ Pipeline.ownSems0 (Ix := Unit) (Name := ℕ) (U := UR sig nD τ) (Lvl := ℕ) (Val := Elt F) (fun k : PEmpty => k.elim) c
          ∗ Pipeline.scopedRest (Ix := Unit) (Name := ℕ) (U := UR sig nD τ) (Lvl := ℕ) (Val := Elt F) spec1 c) := by
  rw [show (dat1 V a c).Φ (Fin.last (cfg1 a).N) = PhiS V a c (cfg1 a).N (Nat.le_refl _) from rfl, prefHeld_eq, scopedRest1_split,
    Pipeline.ownSems0_none]
  unfold PhiS
  iintro ⟨⟨%X0, %X1, -, HS0, HS1⟩, HR, Hg, HTA, HTB⟩
  isplitl [Hg HTA HTB]
  · isplitl [Hg]; · iexact Hg
    isplitl [HTA]; · iexact HTA
    iexact HTB
  isplitr; · iempintro
  isplitl [HS0 HS1]
  · isplitl [HS0]
    · iexists _; rw [← owns_whole]; iexact HS0
    iexists _; rw [← owns_whole]; iexact HS1
  iexact HR

end Cert.Kernel.Hand.ScatterCnt1

end
-- ==== Proof.K.Linear2.lean ====
import proofs.«411563_j39152921870698_3_alg».proof.Proof.Gen.Kernel.Launch
import proofs.«411563_j39152921870698_3_alg».proof.Proof.Gen.Kernel.Skeleton
import proofs.«411563_j39152921870698_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem uncut2_0 : ∀ (t : Fin cfg2.N) (a : Fin 2), (cfg2.win 0).clip (cfg2.grid.coords t) a = none :=
  (by decide +kernel : ∀ (t : Fin grid2.N) (a : Fin 2), win2_0.clip (grid2.coords t) a = none)
theorem uncut2_1 : ∀ (t : Fin cfg2.N) (a : Fin 2), (cfg2.win 1).clip (cfg2.grid.coords t) a = none :=
  (by decide +kernel : ∀ (t : Fin grid2.N) (a : Fin 2), win2_1.clip (grid2.coords t) a = none)

def sblk2_0 (c : Dev nD) (t : Fin cfg2.N) : Vec F S5000x128 .f32 :=
  (cfg2.win 0).fill (cfg2.grid.coords t) (fun _ => Scalar.ofBits .f32 0#32) (iblk2 V c 0 t)
def sblk2_1 (c : Dev nD) (t : Fin cfg2.N) : Vec F S5000x1 .f32 :=
  (cfg2.win 1).fill (cfg2.grid.coords t) (fun _ => Scalar.ofBits .f32 0#32) (iblk2 V c 1 t)

abbrev r2_0 : Rect S5000x1 := Rect.unit (s := S5000x1) ![0, 0] S5000x1.size inb_S5000x1_S5000x1_0_0
abbrev r2_1 : Rect S5000x128 := Rect.unit (s := S5000x128) ![0, 0] S5000x128.size inb_S5000x128_S5000x128_0_0
abbrev r2_2 : Rect S128x128 := Rect.unit (s := S128x128) ![0, 0] S128x128.size inb_S128x128_S128x128_0_0
abbrev r2_3 : Rect S128 := Rect.unit (s := S128) ![0] S128.size inb_S128_S128_0

def out2_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r2_1, k2_pay1 (View.ld x1 r2_0) (View.ld x0 r2_1) (View.ld x2 r2_1) (View.ld x3 r2_2) (View.ld x5 r2_2) (View.ld x4 r2_3)⟩]

def dat2 (c : Dev nD) : Dat τ (Elt F) Unit ℕ (UR sig nD τ) ℕ cfg2 c where
  A w := V c (Pipeline.arrRef spec2 w)
  after w t := match w with
    | ⟨0, _⟩ => sblk2_0 V c t
    | ⟨1, _⟩ => sblk2_1 V c t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (sblk2_0 V c t) (sblk2_1 V c t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (sblk2_0 V c t) (sblk2_1 V c t) (iblk2 V c 2 t) (iblk2 V c 3 t) (iblk2 V c 4 t) (iblk2 V c 5 t) := by dsimp only [dat2]

theorem before2_0 (c : Dev nD) (t : Fin cfg2.N) (d) : (dat2 V c).before 0 t d = sblk2_0 V c t := by
  unfold Dat.before; rw [if_pos (fetch2_0 t)]
  exact (dat2 V c).fetched_of_clip_none 0 t (uncut2_0 t) d _
theorem before2_1 (c : Dev nD) (t : Fin cfg2.N) (d) : (dat2 V c).before 1 t d = sblk2_1 V c t := by
  unfold Dat.before; rw [if_pos (fetch2_1 t)]
  exact (dat2 V c).fetched_of_clip_none 1 t (uncut2_1 t) d _

theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

set_option maxHeartbeats 1000000 in
theorem body_obligation2 (c : Dev nD) : BodyObligation (dat2 (F := F) V c) (defs₀ (F := F)) Variants.none () Set.univ := fun t => by
  rw [bigSep_W2, bigSep_W2]
  dsimp only
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  dsimp only [dat2]
  show _ ⊢ wp _ _ _ (bodyAt2 t) _
  unfold bodyAt2
  generalize sblk2_0 V c t = x0, sblk2_1 V c t = x1, iblk2 V c 2 t = x2, iblk2 V c 3 t = x3, iblk2 V c 4 t = x4, iblk2 V c 5 t = x5
  simp only [cc2__linear_kernel_eq_skeleton]; unfold cc2__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.Kernel.Hand
-- ==== Proof.K.Gather3.lean ====
import proofs.«411563_j39152921870698_3_alg».proof.Proof.K.GatherKernel

set_option maxRecDepth 16384

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr3 : Memref sig .tc .vmem S2048x128 .f32 := Memref.whole cc3_scratch0

section Region
variable (V : (c : Dev nD) → (b : Ref sig .tc) → Buf (Elt F) ((c : Thread nD τ).loc b))

-- Window w's block at point t, read off its array as the region finds it.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The region's proof data: every input block is kept, the output block is gatherOut of the two input blocks.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => gatherOut (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl

theorem after3_2 (c : Dev nD) (t : Fin cfg3.N) : (dat3 V c).after 2 t = gatherOut (iblk3 V c 0 t) (iblk3 V c 1 t) := by dsimp only [dat3]

-- At every point an input's block is its block of the array as the region found it.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- The class invariant with the accumulator owned at some contents, the other scoped buffers unopened.
theorem PhiA3_eq (c : Dev nD) :
    (Pipeline.ΦA spec3 c : sProp 𝕄)
      = iprop(iprop(iprop((∃ d, owns (c : Thread nD τ) scr3 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scr3, owns_whole]; try rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

-- The body at any point: the invariant lends the accumulator and takes it back at whatever the body left in it.
theorem sound_body3 (c : Dev nD) (t : Fin cfg3.N) :
    bodyPre3 V c t ⊢ wp frame (wpE (defs₀ (F := F)) Variants.none c none) Set.univ
      (gatherBody (grid3.coords t) (st3_0 t) (stage_whole3 0 _) (st3_1 t) (stage_whole3 1 _) (st3_2 t) (stage_whole3 2 _) scr3 (Memref.isWhole_whole _))
      (fun _ => bodyPost3 V c t) := by
  unfold bodyPre3 bodyPost3
  simp only [before3_0, before3_1]
  rw [show (dat3 V c).Φ t.succ = Pipeline.ΦA spec3 c from rfl,
    show (dat3 V c).Φ t.castSucc = Pipeline.ΦA spec3 c from rfl,
    show (dat3 V c).owesAt () t.succ = (dat3 V c).owesAt () t.castSucc from rfl,
    show (dat3 V c).after 0 t = iblk3 V c 0 t from rfl, show (dat3 V c).after 1 t = iblk3 V c 1 t from rfl, after3_2, PhiA3_eq]
  iintro ⟨⟨⟨HS, Hrest⟩, Hg⟩, Ho, ⟨%d0, H0⟩, ⟨%d1, H1⟩, ⟨%d2, H2⟩⟩
  iapply (sound_gather c _ _ _ _ _ _ _ _ _ Set.univ (iblk3 V c 0 t) (iblk3 V c 1 t) _)
  iframe H0 H1 HS
  isplitl [H2]; · iexists _; iexact H2
  iintro ⟨H0, H1, H2, HS⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := sep_comm.1

theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := sep_comm.1

end Region

end Cert.Kernel.Hand

end
-- ==== Proof.K.ScatterCnt4Sched.lean ====
import proofs.«411563_j39152921870698_3_alg».proof.Proof.Gen.Kernel.Launch
import Idealize.ShloMosaic.Lib.Pipeline.Kit
import Idealize.ShloMosaic.Lib.Affine

noncomputable section

namespace Cert.Kernel.Hand.ScatterCnt4

open Cert.Kernel Cert.Kernel.Gen
open Idealize.ShloMosaic Idealize.ShloMosaic.TcCoe

variable {F : FTy → Type} [FloatOps F]

theorem coords_node (t : Fin grid4.N) : ((grid4.coords t) 0).val = t.val / 293 := by
  have hN : t.val < 14943 := lt_of_lt_of_eq t.isLt N_4
  show t.val / grid4.stride 0 % 51 = t.val / 293
  rw [show grid4.stride 0 = 293 from by decide]; omega

theorem coords_edge (t : Fin grid4.N) : ((grid4.coords t) 1).val = t.val % 293 := by
  show t.val / grid4.stride 1 % 293 = t.val % 293
  rw [show grid4.stride 1 = 1 from by decide, Nat.div_one]

abbrev condFirst (i : grid4.Coords) : Prop :=
  (Scalar.cmpi .ne (Scalar.extui (Scalar.cmpi .eq (BitVec.ofNat 32 (i 1).val) 0#32)) 0#32) = 1#1

abbrev condLast (i : grid4.Coords) : Prop := k4_cond3 i = 1#1

-- Both sides are below 2³², so the edge coordinate equals a constant as a word exactly when it does as a number.
theorem edge_const_iff (t : Fin grid4.N) (k : ℕ) (hk : k < 2 ^ 32) :
    Scalar.cmpi .ne (Scalar.extui (Scalar.cmpi .eq (BitVec.ofNat 32 ((grid4.coords t) 1).val) (BitVec.ofNat 32 k))) 0#32 = 1#1
      ↔ t.val % 293 = k := by
  rw [Scalar.guard_iff, Scalar.cmpi, IntOp.cmpi_eq, coords_edge]
  have hn : t.val % 293 < 2 ^ 32 := Nat.lt_of_lt_of_le (Nat.mod_lt _ (by decide)) (by decide)
  refine ⟨fun h => ?_, fun h => congrArg (BitVec.ofNat 32) h⟩
  have := congrArg BitVec.toNat h
  rwa [BitVec.toNat_ofNat, BitVec.toNat_ofNat, Nat.mod_eq_of_lt hn, Nat.mod_eq_of_lt hk] at this

theorem condFirst_iff (t : Fin grid4.N) : condFirst (grid4.coords t) ↔ t.val % 293 = 0 := edge_const_iff t 0 (by decide)

theorem condLast_iff (t : Fin grid4.N) : condLast (grid4.coords t) ↔ t.val % 293 = 292 := edge_const_iff t 292 (by decide)

theorem condFirst_zero (t : Fin grid4.N) (h : t.val = 0) : condFirst (grid4.coords t) :=
  (condFirst_iff t).mpr (by rw [h])

-- Before a node block's last edge step the next point has the same node coordinate, so an index map that reads only it does not move.
theorem noFlush (ix : grid4.Coords → Fin 2 → ℕ) (hix : ∀ i, ix i = ![(BitVec.ofNat 32 (i 0).val).toNat, 0]) (t : Fin grid4.N)
    (h : ¬ condLast (grid4.coords t)) : Pipeline.Window.flushOf grid4 true ix t = false := by
  have hN : t.val < 14943 := lt_of_lt_of_eq t.isLt N_4
  have hl : t.val % 293 ≠ 292 := fun e => h ((condLast_iff t).mpr e)
  have hc : ∀ h₁ : t.val + 1 < grid4.N, grid4.coords ⟨t.val + 1, h₁⟩ 0 = grid4.coords t 0 := fun h₁ =>
    Fin.ext (by rw [coords_node, coords_node]; show (t.val + 1) / 293 = t.val / 293; omega)
  rw [Bool.eq_false_iff]
  intro hb
  simp only [Pipeline.Window.flushOf, Bool.true_and, Bool.or_eq_true, decide_eq_true_eq] at hb
  rcases hb with hb | ⟨h₁, hne⟩
  · have := hb.trans N_4; omega
  · exact hne (by rw [hix, hix, hc h₁])

-- A one-bit guard is set or not: the negated test of it is true exactly when it is clear.
theorem idle_iff (x : BitVec 1) : ((!(x == 1#1)) = true ↔ ¬ x = 1#1) ∧ ((!(x == 1#1)) = false ↔ x = 1#1) := by
  revert x; decide

variable (a : (pcfg4 (F := F)).Adm)

theorem noFlush_out0 (t : Fin (cfg4 a).N) (h : ¬ condLast (grid4.coords t)) : ((cfg4 a).win 2).flush t = false :=
  noFlush cc4_transform_2 (fun _ => rfl) t h
theorem noFlush_out1 (t : Fin (cfg4 a).N) (h : ¬ condLast (grid4.coords t)) : ((cfg4 a).win 3).flush t = false :=
  noFlush cc4_transform_3 (fun _ => rfl) t h

theorem live_in0 (t : Fin (cfg4 a).N) : (cfg4 a).idle 0 (grid4.coords t) = false := rfl
theorem live_in1 (t : Fin (cfg4 a).N) : (cfg4 a).idle 1 (grid4.coords t) = false := rfl
theorem idle_out0 (t : Fin (cfg4 a).N) (h : ¬ condLast (grid4.coords t)) : (cfg4 a).idle 2 (grid4.coords t) = true :=
  (idle_iff (k4_cond3 (grid4.coords t))).1.mpr h
theorem idle_out1 (t : Fin (cfg4 a).N) (h : ¬ condLast (grid4.coords t)) : (cfg4 a).idle 3 (grid4.coords t) = true :=
  (idle_iff (k4_cond3 (grid4.coords t))).1.mpr h
theorem live_out0 (t : Fin (cfg4 a).N) (h : condLast (grid4.coords t)) : (cfg4 a).idle 2 (grid4.coords t) = false :=
  (idle_iff (k4_cond3 (grid4.coords t))).2.mpr h
theorem live_out1 (t : Fin (cfg4 a).N) (h : condLast (grid4.coords t)) : (cfg4 a).idle 3 (grid4.coords t) = false :=
  (idle_iff (k4_cond3 (grid4.coords t))).2.mpr h

end Cert.Kernel.Hand.ScatterCnt4

end
-- ==== Proof.K.ScatterCnt4Step.lean ====
import proofs.«411563_j39152921870698_3_alg».proof.Proof.K.ScatterCnt4Sched
import proofs.«411563_j39152921870698_3_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand.ScatterCnt4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbLo : Memref sig .tc .smem S293 .i32 := Memref.whole main_v54
abbrev tbHi : Memref sig .tc .smem S293 .i32 := Memref.whole main_v57
abbrev scAgg : Memref sig .tc .vmem S2000x128 .f32 := Memref.whole cc4_scratch0
abbrev scCnt : Memref sig .tc .vmem S2000x1 .f32 := Memref.whole cc4_scratch1

abbrev TbBuf (c : Dev nD) (M : Memref sig .tc .smem S293 .i32) : Type := Buf (Elt F) (M.view.loc (c : Thread nD τ))
abbrev tbPt (c : Dev nD) (M : Memref sig .tc .smem S293 .i32) (f : TbBuf (F := F) c M) : sProp 𝕄 :=
  M.view.loc (c : Thread nD τ) ↦{fullShare} f

abbrev wordOf (c : Dev nD) (M : Memref sig .tc .smem S293 .i32) (xt : TbBuf (F := F) c M) (i : grid4.Coords) : Elt F .i32 :=
  M.view.readAt (Elt F) (Rect.unit (s := S293) (k4_off1 i) S1.size (k4_off1_inb i)).toLoadRect xt (Shape.Idx.first (numel1_S1.symm ▸ Nat.one_pos))

abbrev guardW (i : grid4.Coords) (lo hi : BitVec 32) : Prop :=
  Scalar.cmpi .ne (Scalar.extui (Scalar.andi (Scalar.cmpi .sge (BitVec.ofNat 32 (i 0).val) lo) (Scalar.cmpi .sle (BitVec.ofNat 32 (i 0).val) hi))) 0#32 = 1#1

def stepAcc (i : grid4.Coords) (lo hi : BitVec 32) (x4 : Vec F S2048x128 .bf16) (x5 : Vec F S1x2048 .i32)
    (s : Vec F S2000x128 .f32 × Vec F S2000x1 .f32) : Vec F S2000x128 .f32 × Vec F S2000x1 .f32 :=
  if guardW i lo hi then
    (k4_pay4 i x5 x4 (if condFirst i then (k4_pay1 (F := F)) else s.1), k4_pay5 i x5 (if condFirst i then (k4_pay2 (F := F)) else s.2))
  else
    (if condFirst i then (k4_pay1 (F := F)) else s.1, if condFirst i then (k4_pay2 (F := F)) else s.2)

theorem stepAcc_first {i : grid4.Coords} (h : condFirst i) (lo hi : BitVec 32) (x4 : Vec F S2048x128 .bf16) (x5 : Vec F S1x2048 .i32)
    (s s' : Vec F S2000x128 .f32 × Vec F S2000x1 .f32) : stepAcc i lo hi x4 x5 s = stepAcc i lo hi x4 x5 s' := by
  unfold stepAcc; simp only [if_pos h]

end Cert.Kernel.Hand.ScatterCnt4

end
-- ==== Proof.K.ScatterCnt4Run.lean ====
import proofs.«411563_j39152921870698_3_alg».proof.Proof.K.ScatterCnt4Step
import proofs.«411563_j39152921870698_3_alg».proof.Proof.LibScatterCnt

set_option maxRecDepth 16384

noncomputable section

namespace Cert.Kernel.Hand.ScatterCnt4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibScatterCnt

variable {F : FTy → Type} [FloatOps F]

local notation "𝕄" => MT nD τ sig Unit (Elt F) ℕ (UR sig nD τ) ℕ

-- Everything the body touches on core `c`: the two input blocks, the output blocks at `o`, the accumulators at `s`, the two tables.
def held (c : Dev nD) (arg4 : Memref sig .tc .vmem S2048x128 .bf16) (arg5 : Memref sig .tc .vmem S1x2048 .i32)
    (arg6 : Memref sig .tc .vmem S2000x128 .f32) (arg7 : Memref sig .tc .vmem S2000x1 .f32)
    (x4 : Vec F S2048x128 .bf16) (x5 : Vec F S1x2048 .i32) (xa : TbBuf (F := F) c tbLo) (xb : TbBuf (F := F) c tbHi)
    (o s : Vec F S2000x128 .f32 × Vec F S2000x1 .f32) : sProp 𝕄 :=
  iprop(owns (c : Thread nD τ) arg4 fullShare x4 ∗ owns (c : Thread nD τ) arg5 fullShare x5
    ∗ owns (c : Thread nD τ) arg6 fullShare o.1 ∗ owns (c : Thread nD τ) arg7 fullShare o.2
    ∗ owns (c : Thread nD τ) scAgg fullShare s.1 ∗ owns (c : Thread nD τ) scCnt fullShare s.2
    ∗ tbPt c tbLo xa ∗ tbPt c tbHi xb)

-- One run for every way the three conditionals fall: the accumulators move one step, and a last edge block copies them out.
set_option maxHeartbeats 4000000 in
theorem run_body (c : Dev nD) (E : Set ℕ) (i : grid4.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole) (arg7 : Memref sig .tc .vmem S2000x1 .f32) (harg7 : arg7.IsWhole)
    (x4 : Vec F S2048x128 .bf16) (x5 : Vec F S1x2048 .i32) (xa : TbBuf (F := F) c tbLo) (xb : TbBuf (F := F) c tbHi)
    (o s : Vec F S2000x128 .f32 × Vec F S2000x1 .f32) (hFL : condFirst i → ¬ condLast i) (K : PUnit → sProp 𝕄) :
    iprop(held c arg4 arg5 arg6 arg7 x4 x5 xa xb o s
        ∗ (held c arg4 arg5 arg6 arg7 x4 x5 xa xb
              (if condLast i then stepAcc i (wordOf c tbLo xa i) (wordOf c tbHi xb i) x4 x5 s else o)
              (stepAcc i (wordOf c tbLo xa i) (wordOf c tbHi xb i) x4 x5 s) -∗ K ⟨⟩))
      ⊢ wp frame (wpE (defs₀ (F := F)) Variants.none c none) E (cc4__scatter_kernel_cnt i tbLo (Memref.isWhole_whole _) tbHi (Memref.isWhole_whole _) arg4 harg4 arg5 harg5 arg6 harg6 arg7 harg7 scAgg (Memref.isWhole_whole _) scCnt (Memref.isWhole_whole _)) K := by
  obtain ⟨o0, o4⟩ := o
  obtain ⟨s0, s1⟩ := s
  by_cases hL : condLast i <;> by_cases hF : condFirst i <;>
    by_cases hG : guardW i (wordOf c tbLo xa i) (wordOf c tbHi xb i) <;>
  first
  | exact absurd hL (hFL hF)
  | unfold held stepAcc
    first | simp only [if_neg hL] | simp only [if_pos hL]
    first | simp only [if_neg hG] | simp only [if_pos hG]
    first | simp only [if_neg hF] | simp only [if_pos hF]
    simp only [cc4__scatter_kernel_cnt_eq_skeleton]; unfold cc4__scatter_kernel_cnt_skel
    unfold owns
    iintro ⟨⟨⟨%f4, %hf4, H4⟩, ⟨%f5, %hf5, H5⟩, ⟨%f6, %hf6, H6⟩, ⟨%f7, %hf7, H7⟩, ⟨%g0, %hg0, HS0⟩, ⟨%g1, %hg1, HS1⟩, HTA, HTB⟩, Hk⟩
    obtain rfl := harg4.eq_unread hf4
    obtain rfl := harg5.eq_unread hf5
    obtain rfl := harg6.eq_unread hf6
    obtain rfl := harg7.eq_unread hf7
    obtain rfl := (Memref.isWhole_whole cc4_scratch0).eq_unread hg0
    obtain rfl := (Memref.isWhole_whole cc4_scratch1).eq_unread hg1
    sl_exec (disch := first | sl_exact hF | sl_exact hG | sl_exact hL)
    sl_step
    iapply Hk
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [HS0]; iexists _; isplitr; swap; iexact HS0; rotate_left
    isplitl [HS1]; iexists _; isplitr; swap; iexact HS1; rotate_left
    isplitl [HTA]; iexact HTA
    iexact HTB
    all_goals (ipureintro; try sl_unfold_words)
    all_goals try rw [read_store_whole _ _ zero2]
    all_goals try simp only [load_whole harg4 zero2, load_whole harg5 zero2, View.readCov_unit_zero (S := S2000x128) _ zero2,
      View.readCov_unit_zero (S := S2000x1) _ zero2]
    all_goals first
      | assumption
      | exact load_whole (Memref.isWhole_whole cc4_scratch0) zero2 inb_S2000x128_S2000x128_0_0 s0
      | exact load_whole (Memref.isWhole_whole cc4_scratch1) zero2 inb_S2000x1_S2000x1_0_0 s1
      | exact congrArg (k4_pay4 i x5 x4) (load_whole (Memref.isWhole_whole cc4_scratch0) zero2 inb_S2000x128_S2000x128_0_0 s0)
      | exact congrArg (k4_pay5 i x5) (load_whole (Memref.isWhole_whole cc4_scratch1) zero2 inb_S2000x1_S2000x1_0_0 s1)

end Cert.Kernel.Hand.ScatterCnt4

end
-- ==== Proof.K.ScatterCnt4.lean ====
import proofs.«411563_j39152921870698_3_alg».proof.Proof.K.ScatterCnt4Run

set_option maxRecDepth 16384

noncomputable section

namespace Cert.Kernel.Hand.ScatterCnt4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg4 (F := F)).Adm)

def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

-- An input window holds its block of the array at every point.
theorem before_in_of {c : Dev nD} (dat : Dat τ (Elt F) Unit ℕ (UR sig nD τ) ℕ (cfg4 a) c) (w : Fin (cfg4 a).W) (hw : w = 0 ∨ w = 1)
    (hA : dat.A w = V c (Pipeline.arrRef spec4 w)) (hafter : ∀ t, dat.after w t = iblk4 V a c w t) (t : Fin (cfg4 a).N) (d) :
    dat.before w t d = iblk4 V a c w t := by
  rcases hw with rfl | rfl <;>
  exact (dat.before_in_eq_fetched _ rfl (fun _ => rfl) (fun _ _ _ => rfl) (fun t => by rw [hafter]; unfold Dat.blockOf iblk4; rw [hA]; try rfl) t d).trans
    (by unfold Dat.fetched Dat.blockOf iblk4; rw [hA]; try rfl)

abbrev msgBlk (c : Dev nD) (t : Fin (cfg4 a).N) : Vec F S2048x128 .bf16 := iblk4 V a c 0 t
abbrev idxBlk (c : Dev nD) (t : Fin (cfg4 a).N) : Vec F S1x2048 .i32 := iblk4 V a c 1 t
abbrev loWord (c : Dev nD) (t : Fin (cfg4 a).N) : BitVec 32 := wordOf c tbLo (a.1 0) (grid4.coords t)
abbrev hiWord (c : Dev nD) (t : Fin (cfg4 a).N) : BitVec 32 := wordOf c tbHi (a.1 1) (grid4.coords t)

def accAt (c : Dev nD) : (n : ℕ) → n < (cfg4 a).N → Vec F S2000x128 .f32 × Vec F S2000x1 .f32
  | 0, hn => stepAcc (grid4.coords ⟨0, hn⟩) (loWord a c ⟨0, hn⟩) (hiWord a c ⟨0, hn⟩) (msgBlk V a c ⟨0, hn⟩) (idxBlk V a c ⟨0, hn⟩) ((k4_pay1 (F := F)), (k4_pay2 (F := F)))
  | n + 1, hn => stepAcc (grid4.coords ⟨n + 1, hn⟩) (loWord a c ⟨n + 1, hn⟩) (hiWord a c ⟨n + 1, hn⟩) (msgBlk V a c ⟨n + 1, hn⟩) (idxBlk V a c ⟨n + 1, hn⟩)
      (accAt c n (Nat.lt_of_succ_lt hn))

def scrAt (c : Dev nD) (n : ℕ) (hn : n ≤ (cfg4 a).N) : Vec F S2000x128 .f32 × Vec F S2000x1 .f32 :=
  if h : n = 0 then ((k4_pay1 (F := F)), (k4_pay2 (F := F))) else accAt V a c (n - 1) (by omega)

theorem scrAt_succ (c : Dev nD) (n : ℕ) (hn : n < (cfg4 a).N) : scrAt V a c (n + 1) hn = accAt V a c n hn := by
  unfold scrAt; rw [dif_neg (Nat.succ_ne_zero n)]; rfl

theorem accAt_eq (c : Dev nD) (t : Fin (cfg4 a).N) :
    accAt V a c t.val t.isLt = stepAcc (grid4.coords t) (loWord a c t) (hiWord a c t) (msgBlk V a c t) (idxBlk V a c t) (scrAt V a c t.val (Nat.le_of_lt t.isLt)) := by
  obtain ⟨n, hn⟩ := t
  cases n with
  | zero => rfl
  | succ n => rw [scrAt_succ]; rfl

theorem step_eq_accAt (c : Dev nD) (t : Fin (cfg4 a).N) (X0 : Vec F S2000x128 .f32) (X1 : Vec F S2000x1 .f32)
    (hX : t.val ≠ 0 → X0 = (scrAt V a c t.val (Nat.le_of_lt t.isLt)).1 ∧ X1 = (scrAt V a c t.val (Nat.le_of_lt t.isLt)).2) :
    stepAcc (grid4.coords t) (loWord a c t) (hiWord a c t) (msgBlk V a c t) (idxBlk V a c t) (X0, X1) = accAt V a c t.val t.isLt := by
  rw [accAt_eq]
  by_cases h0 : t.val = 0
  · exact stepAcc_first (condFirst_zero t h0) _ _ _ _ _ _
  · obtain ⟨e0, e1⟩ := hX h0
    rw [e0, e1]

def PhiS (c : Dev nD) (n : ℕ) (hn : n ≤ (cfg4 a).N) : sProp 𝕄 :=
  iprop((∃ X0 X1, ⌜n ≠ 0 → X0 = (scrAt V a c n hn).1 ∧ X1 = (scrAt V a c n hn).2⌝
        ∗ owns (c : Thread nD τ) scAgg fullShare X0 ∗ owns (c : Thread nD τ) scCnt fullShare X1)
    ∗ Pipeline.scopedRestBut (Ix := Unit) (Name := ℕ) (U := UR sig nD τ) (Lvl := ℕ) (Val := Elt F) spec4 c [cc4_scratch0, cc4_scratch1]
    ∗ (∃ r, prngReg c r)
    ∗ tbPt c tbLo (a.1 0) ∗ tbPt c tbHi (a.1 1))

def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => (accAt V a c t.val t.isLt).1
    | ⟨3, _⟩ => (accAt V a c t.val t.isLt).2
  Φ t := PhiS V a c t.val (Nat.le_of_lt_succ t.isLt)
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; try rfl
theorem after4_1 (c : Dev nD) (t : Fin (cfg4 a).N) : (dat4 V a c).after 1 t = iblk4 V a c 1 t := by dsimp only [dat4]; try rfl
theorem after4_2 (c : Dev nD) (t : Fin (cfg4 a).N) : (dat4 V a c).after 2 t = (accAt V a c t.val t.isLt).1 := by dsimp only [dat4]; try rfl
theorem after4_3 (c : Dev nD) (t : Fin (cfg4 a).N) : (dat4 V a c).after 3 t = (accAt V a c t.val t.isLt).2 := by dsimp only [dat4]; try rfl

theorem before4_0 (c : Dev nD) (t : Fin (cfg4 a).N) (d) : (dat4 V a c).before 0 t d = iblk4 V a c 0 t :=
  before_in_of V a (dat4 V a c) 0 (.inl rfl) (A_eq4 V a c 0) (after4_0 V a c) t d
theorem before4_1 (c : Dev nD) (t : Fin (cfg4 a).N) (d) : (dat4 V a c).before 1 t d = iblk4 V a c 1 t :=
  before_in_of V a (dat4 V a c) 1 (.inr rfl) (A_eq4 V a c 1) (after4_1 V a c) t d

theorem Phi_castSucc (c : Dev nD) (t : Fin (cfg4 a).N) : (dat4 V a c).Φ t.castSucc = PhiS V a c t.val (Nat.le_of_lt t.isLt) := by
  dsimp only [dat4, Fin.coe_castSucc]
theorem Phi_succ (c : Dev nD) (t : Fin (cfg4 a).N) : (dat4 V a c).Φ t.succ = PhiS V a c (t.val + 1) t.isLt := by
  dsimp only [dat4, Fin.val_succ]

abbrev ms4_0 (t : Fin (cfg4 a).N) : Memref sig .tc .vmem S2048x128 .bf16 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S1x2048 .i32 := spec4_1.stage ((cfg4 a).slots t 1)
abbrev hs4_1 (t : Fin (cfg4 a).N) : (ms4_1 a t).IsWhole := hstage4_1 (((cfg4 a).slots t 1).cast nbuf4_1)
abbrev ms4_2 (t : Fin (cfg4 a).N) : Memref sig .tc .vmem S2000x128 .f32 := spec4_2.stage ((cfg4 a).slots t 2)
abbrev hs4_2 (t : Fin (cfg4 a).N) : (ms4_2 a t).IsWhole := hstage4_2 (((cfg4 a).slots t 2).cast nbuf4_2)
abbrev ms4_3 (t : Fin (cfg4 a).N) : Memref sig .tc .vmem S2000x1 .f32 := spec4_3.stage ((cfg4 a).slots t 3)
abbrev hs4_3 (t : Fin (cfg4 a).N) : (ms4_3 a t).IsWhole := hstage4_3 (((cfg4 a).slots t 3).cast nbuf4_3)

abbrev bodyAt4 (t : Fin (cfg4 a).N) : Prog (TpuEff nD τ sig (Elt F) Λ₀ .tc) PUnit :=
  cc4__scatter_kernel_cnt (grid4.coords t) tbLo (Memref.isWhole_whole _) tbHi (Memref.isWhole_whole _)
    (ms4_0 a t) (hs4_0 a t) (ms4_1 a t) (hs4_1 a t) (ms4_2 a t) (hs4_2 a t) (ms4_3 a t) (hs4_3 a t)
    scAgg (Memref.isWhole_whole _) scCnt (Memref.isWhole_whole _)

def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d))
    ∗ (∃ d, owns (c : Thread nD τ) (ms4_2 a t) fullShare ((dat4 V a c).before 2 t d))
    ∗ (∃ d, owns (c : Thread nD τ) (ms4_3 a t) fullShare ((dat4 V a c).before 3 t d)))

def bodyPost4 (c : Dev nD) (t : Fin (cfg4 a).N) : sProp 𝕄 :=
  iprop((dat4 V a c).Φ t.succ ∗ (dat4 V a c).owesAt () t.succ
    ∗ (dat4 V a c).leavesExact 0 t
    ∗ (dat4 V a c).leavesExact 1 t
    ∗ (dat4 V a c).leavesExact 2 t
    ∗ (dat4 V a c).leavesExact 3 t)

theorem leaves_in0 (c : Dev nD) (t : Fin (cfg4 a).N) :
    (dat4 V a c).leavesExact 0 t = owns (c : Thread nD τ) (ms4_0 a t) fullShare (iblk4 V a c 0 t) := by
  unfold Dat.leavesExact; rw [live_in0 a t]; dsimp only; rw [after4_0] <;> rfl
theorem leaves_in1 (c : Dev nD) (t : Fin (cfg4 a).N) :
    (dat4 V a c).leavesExact 1 t = owns (c : Thread nD τ) (ms4_1 a t) fullShare (iblk4 V a c 1 t) := by
  unfold Dat.leavesExact; rw [live_in1 a t]; dsimp only; rw [after4_1] <;> rfl
theorem leaves_out0_live (c : Dev nD) (t : Fin (cfg4 a).N) (h : condLast (grid4.coords t)) :
    (dat4 V a c).leavesExact 2 t = owns (c : Thread nD τ) (ms4_2 a t) fullShare (accAt V a c t.val t.isLt).1 := by
  unfold Dat.leavesExact; rw [live_out0 a t h]; dsimp only; rw [after4_2] <;> rfl
theorem leaves_out1_live (c : Dev nD) (t : Fin (cfg4 a).N) (h : condLast (grid4.coords t)) :
    (dat4 V a c).leavesExact 3 t = owns (c : Thread nD τ) (ms4_3 a t) fullShare (accAt V a c t.val t.isLt).2 := by
  unfold Dat.leavesExact; rw [live_out1 a t h]; dsimp only; rw [after4_3] <;> rfl

-- The output blocks as the body leaves them: as found away from a last edge block, at the accumulators at one.
theorem leaves_out (c : Dev nD) (t : Fin (cfg4 a).N) (o : Vec F S2000x128 .f32 × Vec F S2000x1 .f32) (d2) (d3)
    (h2 : o.1 = (dat4 V a c).before 2 t d2) (h3 : o.2 = (dat4 V a c).before 3 t d3) :
    iprop(owns (c : Thread nD τ) (ms4_2 a t) fullShare (if condLast (grid4.coords t) then accAt V a c t.val t.isLt else o).1
        ∗ owns (c : Thread nD τ) (ms4_3 a t) fullShare (if condLast (grid4.coords t) then accAt V a c t.val t.isLt else o).2)
      ⊢ iprop((dat4 V a c).leavesExact 2 t ∗ (dat4 V a c).leavesExact 3 t) := by
  by_cases h : condLast (grid4.coords t)
  · rw [if_pos h, leaves_out0_live V a c t h, leaves_out1_live V a c t h]
  · rw [if_neg h, h2, h3, Dat.leavesExact_idle (dat4 V a c) 2 t (idle_out0 a t h) (noFlush_out0 a t h),
      Dat.leavesExact_idle (dat4 V a c) 3 t (idle_out1 a t h) (noFlush_out1 a t h)]
    iintro ⟨H2, H3⟩
    isplitl [H2]; · iexists d2; iexact H2
    iexists d3; iexact H3

set_option maxHeartbeats 1600000 in
-- One point of the grid: the body's run moves the invariant on, whichever way its conditionals fall.
theorem body_obligation4 (c : Dev nD) : BodyObligation (dat4 (F := F) V a c) (defs₀ (F := F)) Variants.none () Set.univ := fun t => by
  rw [bigSep_W4, bigSep_W4]
  show bodyPre4 V a c t ⊢ wp frame (wpE (defs₀ (F := F)) Variants.none c none) Set.univ (bodyAt4 a t) (fun _ => bodyPost4 V a c t)
  have hFL : condFirst (grid4.coords t) → ¬ condLast (grid4.coords t) := fun h h' => by
    have h1 := (condFirst_iff t).mp h
    have h2 := (condLast_iff t).mp h'
    omega
  unfold bodyPre4 bodyPost4 bodyAt4
  simp only [before4_0, before4_1]
  rw [show (dat4 V a c).owesAt () t.succ = (dat4 V a c).owesAt () t.castSucc from rfl, Phi_castSucc, Phi_succ,
    leaves_in0, leaves_in1]
  unfold PhiS
  iintro ⟨⟨⟨%X0, %X1, %hX, HS0, HS1⟩, HR, Hg, HTA, HTB⟩, Ho, ⟨%d0, H0⟩, ⟨%d1, H1⟩, ⟨%d2, H2⟩, ⟨%d3, H3⟩⟩
  iapply (run_body c Set.univ (grid4.coords t) (ms4_0 a t) (hs4_0 a t) (ms4_1 a t) (hs4_1 a t) (ms4_2 a t) (hs4_2 a t) (ms4_3 a t) (hs4_3 a t)
    (msgBlk V a c t) (idxBlk V a c t) (a.1 0) (a.1 1) ((dat4 V a c).before 2 t d2, (dat4 V a c).before 3 t d3) (X0, X1) hFL _)
  unfold held
  rw [step_eq_accAt V a c t X0 X1 hX]
  isplitl [H0 H1 H2 H3 HS0 HS1 HTA HTB]
  · isplitl [H0]; · iexact H0
    isplitl [H1]; · iexact H1
    isplitl [H2]; · iexact H2
    isplitl [H3]; · iexact H3
    isplitl [HS0]; · iexact HS0
    isplitl [HS1]; · iexact HS1
    isplitl [HTA]; · iexact HTA
    iexact HTB
  iintro ⟨H0, H1, H2, H3, HS0, HS1, HTA, HTB⟩
  isplitl [HS0 HS1 HR Hg HTA HTB]
  · isplitl [HS0 HS1]
    · iexists _, _
      isplitr
      · ipureintro; intro _; rw [scrAt_succ]; exact ⟨rfl, rfl⟩
      isplitl [HS0]; · iexact HS0
      iexact HS1
    isplitl [HR]; · iexact HR
    isplitl [Hg]; · iexact Hg
    isplitl [HTA]; · iexact HTA
    iexact HTB
  isplitl [Ho]; · iexact Ho
  isplitl [H0]; · iexact H0
  isplitl [H1]; · iexact H1
  iapply (leaves_out V a c t ((dat4 V a c).before 2 t d2, (dat4 V a c).before 3 t d3) d2 d3 rfl rfl)
  isplitl [H2]; · iexact H2
  iexact H3

theorem prefHeld_eq (c : Dev nD) :
    (Pipeline.prefHeld (Ix := Unit) (Name := ℕ) (U := UR sig nD τ) (Lvl := ℕ) pre4 c (fun _ => fullShare) a.1 : sProp 𝕄)
      = iprop(tbPt c tbLo (a.1 0) ∗ tbPt c tbHi (a.1 1)) := by
  unfold Pipeline.prefHeld
  rw [show (Finset.univ : Finset (Fin 2)) = insert (0 : Fin 2) {(1 : Fin 2)} from by decide,
    bigSep_insert (by decide), bigSep_singleton]
  rfl

theorem hin4 (c : Dev nD) :
    iprop((∃ r, prngReg c r) ∗ Pipeline.prefHeld (Ix := Unit) (Name := ℕ) (U := UR sig nD τ) (Lvl := ℕ) pre4 c (fun _ => fullShare) a.1
        ∗ Pipeline.scopedRest (Ix := Unit) (Name := ℕ) (U := UR sig nD τ) (Lvl := ℕ) (Val := Elt F) spec4 c)
      ⊢ (dat4 V a c).Φ 0 := by
  rw [show (dat4 V a c).Φ 0 = PhiS V a c 0 (Nat.zero_le _) from rfl, prefHeld_eq, scopedRest4_split]
  unfold PhiS
  iintro ⟨Hg, ⟨HTA, HTB⟩, ⟨⟨%f0, HS0⟩, ⟨%f1, HS1⟩⟩, HR⟩
  isplitl [HS0 HS1]
  · iexists f0, f1
    isplitr; · ipureintro; intro h; exact absurd rfl h
    isplitl [HS0]
    · rw [owns_whole]; iexact HS0
    rw [owns_whole]; iexact HS1
  isplitl [HR]; · iexact HR
  isplitl [Hg]; · iexact Hg
  isplitl [HTA]; · iexact HTA
  iexact HTB

theorem hout4 (c : Dev nD) :
    (dat4 V a c).Φ (Fin.last (cfg4 a).N)
      ⊢ iprop(iprop((∃ r, prngReg c r) ∗ Pipeline.prefHeld (Ix := Unit) (Name := ℕ) (U := UR sig nD τ) (Lvl := ℕ) pre4 c (fun _ => fullShare) a.1)
          ∗ Pipeline.ownSems0 (Ix := Unit) (Name := ℕ) (U := UR sig nD τ) (Lvl := ℕ) (Val := Elt F) (fun k : PEmpty => k.elim) c
          ∗ Pipeline.scopedRest (Ix := Unit) (Name := ℕ) (U := UR sig nD τ) (Lvl := ℕ) (Val := Elt F) spec4 c) := by
  rw [show (dat4 V a c).Φ (Fin.last (cfg4 a).N) = PhiS V a c (cfg4 a).N (Nat.le_refl _) from rfl, prefHeld_eq, scopedRest4_split,
    Pipeline.ownSems0_none]
  unfold PhiS
  iintro ⟨⟨%X0, %X1, -, HS0, HS1⟩, HR, Hg, HTA, HTB⟩
  isplitl [Hg HTA HTB]
  · isplitl [Hg]; · iexact Hg
    isplitl [HTA]; · iexact HTA
    iexact HTB
  isplitr; · iempintro
  isplitl [HS0 HS1]
  · isplitl [HS0]
    · iexists _; rw [← owns_whole]; iexact HS0
    iexists _; rw [← owns_whole]; iexact HS1
  iexact HR

end Cert.Kernel.Hand.ScatterCnt4

end
-- ==== Proof.K.Linear5.lean ====
import proofs.«411563_j39152921870698_3_alg».proof.Proof.Gen.Kernel.Launch
import proofs.«411563_j39152921870698_3_alg».proof.Proof.Gen.Kernel.Skeleton
import proofs.«411563_j39152921870698_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem uncut5_0 : ∀ (t : Fin cfg5.N) (a : Fin 2), (cfg5.win 0).clip (cfg5.grid.coords t) a = none :=
  (by decide +kernel : ∀ (t : Fin grid5.N) (a : Fin 2), win5_0.clip (grid5.coords t) a = none)
theorem uncut5_1 : ∀ (t : Fin cfg5.N) (a : Fin 2), (cfg5.win 1).clip (cfg5.grid.coords t) a = none :=
  (by decide +kernel : ∀ (t : Fin grid5.N) (a : Fin 2), win5_1.clip (grid5.coords t) a = none)

def sblk5_0 (c : Dev nD) (t : Fin cfg5.N) : Vec F S5000x128 .f32 :=
  (cfg5.win 0).fill (cfg5.grid.coords t) (fun _ => Scalar.ofBits .f32 0#32) (iblk5 V c 0 t)
def sblk5_1 (c : Dev nD) (t : Fin cfg5.N) : Vec F S5000x1 .f32 :=
  (cfg5.win 1).fill (cfg5.grid.coords t) (fun _ => Scalar.ofBits .f32 0#32) (iblk5 V c 1 t)

abbrev r5_0 : Rect S5000x1 := Rect.unit (s := S5000x1) ![0, 0] S5000x1.size inb_S5000x1_S5000x1_0_0
abbrev r5_1 : Rect S5000x128 := Rect.unit (s := S5000x128) ![0, 0] S5000x128.size inb_S5000x128_S5000x128_0_0
abbrev r5_2 : Rect S128x128 := Rect.unit (s := S128x128) ![0, 0] S128x128.size inb_S128x128_S128x128_0_0
abbrev r5_3 : Rect S128 := Rect.unit (s := S128) ![0] S128.size inb_S128_S128_0

def out5_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r5_1, k5_pay1 (View.ld x1 r5_0) (View.ld x0 r5_1) (View.ld x2 r5_1) (View.ld x3 r5_2) (View.ld x5 r5_2) (View.ld x4 r5_3)⟩]

def dat5 (c : Dev nD) : Dat τ (Elt F) Unit ℕ (UR sig nD τ) ℕ cfg5 c where
  A w := V c (Pipeline.arrRef spec5 w)
  after w t := match w with
    | ⟨0, _⟩ => sblk5_0 V c t
    | ⟨1, _⟩ => sblk5_1 V c t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (sblk5_0 V c t) (sblk5_1 V c t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t
    = out5_6 (sblk5_0 V c t) (sblk5_1 V c t) (iblk5 V c 2 t) (iblk5 V c 3 t) (iblk5 V c 4 t) (iblk5 V c 5 t) := by dsimp only [dat5]

theorem before5_0 (c : Dev nD) (t : Fin cfg5.N) (d) : (dat5 V c).before 0 t d = sblk5_0 V c t := by
  unfold Dat.before; rw [if_pos (fetch5_0 t)]
  exact (dat5 V c).fetched_of_clip_none 0 t (uncut5_0 t) d _
theorem before5_1 (c : Dev nD) (t : Fin cfg5.N) (d) : (dat5 V c).before 1 t d = sblk5_1 V c t := by
  unfold Dat.before; rw [if_pos (fetch5_1 t)]
  exact (dat5 V c).fetched_of_clip_none 1 t (uncut5_1 t) d _

theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d

set_option maxHeartbeats 1000000 in
theorem body_obligation5 (c : Dev nD) : BodyObligation (dat5 (F := F) V c) (defs₀ (F := F)) Variants.none () Set.univ := fun t => by
  rw [bigSep_W5, bigSep_W5]
  dsimp only
  simp only [before5_0, before5_1, before5_2, before5_3, before5_4, before5_5]
  rw [show (dat5 V c).Φ t.succ = (dat5 V c).Φ t.castSucc from rfl,
    show (dat5 V c).owesAt () t.succ = (dat5 V c).owesAt () t.castSucc from rfl]
  dsimp only [dat5]
  show _ ⊢ wp _ _ _ (bodyAt5 t) _
  unfold bodyAt5
  generalize sblk5_0 V c t = x0, sblk5_1 V c t = x1, iblk5 V c 2 t = x2, iblk5 V c 3 t = x3, iblk5 V c 4 t = x4, iblk5 V c 5 t = x5
  simp only [cc5__linear_kernel_eq_skeleton]; unfold cc5__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.Kernel.Hand
-- ==== Proof.K.Gather6.lean ====
import proofs.«411563_j39152921870698_3_alg».proof.Proof.K.GatherKernel

set_option maxRecDepth 16384

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr6 : Memref sig .tc .vmem S2048x128 .f32 := Memref.whole cc6_scratch0

section Region
variable (V : (c : Dev nD) → (b : Ref sig .tc) → Buf (Elt F) ((c : Thread nD τ).loc b))

-- Window w's block at point t, read off its array as the region finds it.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

-- The region's proof data: every input block is kept, the output block is gatherOut of the two input blocks.
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => gatherOut (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := rfl
theorem owed_eq6 (c : Dev nD) (t : Fin (cfg6.N + 1)) : (dat6 V c).owed t = 0 := rfl

theorem after6_2 (c : Dev nD) (t : Fin cfg6.N) : (dat6 V c).after 2 t = gatherOut (iblk6 V c 0 t) (iblk6 V c 1 t) := by dsimp only [dat6]

-- At every point an input's block is its block of the array as the region found it.
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

-- The class invariant with the accumulator owned at some contents, the other scoped buffers unopened.
theorem PhiA6_eq (c : Dev nD) :
    (Pipeline.ΦA spec6 c : sProp 𝕄)
      = iprop(iprop(iprop((∃ d, owns (c : Thread nD τ) scr6 fullShare d))
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scr6, owns_whole]; try rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

-- The body at any point: the invariant lends the accumulator and takes it back at whatever the body left in it.
theorem sound_body6 (c : Dev nD) (t : Fin cfg6.N) :
    bodyPre6 V c t ⊢ wp frame (wpE (defs₀ (F := F)) Variants.none c none) Set.univ
      (gatherBody (grid6.coords t) (st6_0 t) (stage_whole6 0 _) (st6_1 t) (stage_whole6 1 _) (st6_2 t) (stage_whole6 2 _) scr6 (Memref.isWhole_whole _))
      (fun _ => bodyPost6 V c t) := by
  unfold bodyPre6 bodyPost6
  simp only [before6_0, before6_1]
  rw [show (dat6 V c).Φ t.succ = Pipeline.ΦA spec6 c from rfl,
    show (dat6 V c).Φ t.castSucc = Pipeline.ΦA spec6 c from rfl,
    show (dat6 V c).owesAt () t.succ = (dat6 V c).owesAt () t.castSucc from rfl,
    show (dat6 V c).after 0 t = iblk6 V c 0 t from rfl, show (dat6 V c).after 1 t = iblk6 V c 1 t from rfl, after6_2, PhiA6_eq]
  iintro ⟨⟨⟨HS, Hrest⟩, Hg⟩, Ho, ⟨%d0, H0⟩, ⟨%d1, H1⟩, ⟨%d2, H2⟩⟩
  iapply (sound_gather c _ _ _ _ _ _ _ _ _ Set.univ (iblk6 V c 0 t) (iblk6 V c 1 t) _)
  iframe H0 H1 HS
  isplitl [H2]; · iexists _; iexact H2
  iintro ⟨H0, H1, H2, HS⟩
  iframe

theorem body_obligation6 (c : Dev nD) : BodyObligation (dat6 (F := F) V c) (defs₀ (F := F)) Variants.none () Set.univ := fun t => by
  rw [bigSep_W6, bigSep_W6]
  exact sound_body6 V c t

theorem hin6 (c : Dev nD) :
    iprop((∃ r, prngReg c r) ∗ Pipeline.scopedRest (Ix := Unit) (Name := ℕ) (U := UR sig nD τ) (Lvl := ℕ) (Val := Elt F) spec6 c)
      ⊢ (dat6 V c).Φ 0 := sep_comm.1

theorem hout6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := sep_comm.1

end Region

end Cert.Kernel.Hand

end
-- ==== Proof.K.Scatter7Base.lean ====
import proofs.«411563_j39152921870698_3_alg».proof.Proof.Gen.Kernel.Launch
import proofs.«411563_j39152921870698_3_alg».proof.Proof.Gen.Kernel.Skeleton
import Idealize.ShloMosaic.Lib.Pipeline.FrameBody
import Idealize.ShloMosaic.Lib.Ring
import Idealize.ShloMosaic.Lib.Tactic
import Idealize.ShloMosaic.Lib.Pipeline.Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM7_0 : Memref sig .tc .smem S293 .i32 := Memref.whole main_v24
abbrev htbM7_0 : tbM7_0.IsWhole := Memref.isWhole_whole _
abbrev tbM7_1 : Memref sig .tc .smem S293 .i32 := Memref.whole main_v27
abbrev htbM7_1 : tbM7_1.IsWhole := Memref.isWhole_whole _
abbrev scM7_0 : Memref sig .tc .vmem S2000x128 .f32 := Memref.whole cc7_scratch0
abbrev hscM7_0 : scM7_0.IsWhole := Memref.isWhole_whole _

abbrev TbBuf7 (c : Dev nD) (M : Memref sig .tc .smem S293 .i32) : Type := Buf (Elt F) (M.view.loc (c : Thread nD τ))
abbrev tbPt7 (c : Dev nD) (M : Memref sig .tc .smem S293 .i32) (f : TbBuf7 (F := F) c M) : sProp 𝕄 :=
  M.view.loc (c : Thread nD τ) ↦{fullShare} f

abbrev word7 (c : Dev nD) (M : Memref sig .tc .smem S293 .i32) (i : grid7.Coords) (xt : TbBuf7 (F := F) c M) : Elt F .i32 :=
  M.view.readAt (Elt F) (Rect.unit (s := S293) (k7_off1 i) S1.size (k7_off1_inb i)).toLoadRect xt (Shape.Idx.first (numel1_S1.symm ▸ Nat.one_pos))

abbrev cond7_1 (i : grid7.Coords) : Prop :=
  Scalar.cmpi .ne (Scalar.extui (Scalar.cmpi .eq (BitVec.ofNat 32 (i 1).val) 0#32)) 0#32 = 1#1
abbrev guardW7 (j : ℕ) (lo hi : BitVec 32) : Prop :=
  Scalar.cmpi .ne (Scalar.extui (Scalar.andi (Scalar.cmpi .sge (BitVec.ofNat 32 j) lo) (Scalar.cmpi .sle (BitVec.ofNat 32 j) hi))) 0#32 = 1#1
abbrev cond7_2 (i : grid7.Coords) (lo hi : BitVec 32) : Prop := guardW7 (i 0).val lo hi
abbrev cond7_3 (i : grid7.Coords) : Prop := k7_cond3 i = 1#1

theorem hz2_7 : (![0, 0] : Fin 2 → Nat) = fun _ => 0 := funext fun a => by fin_cases a <;> rfl

theorem read_writes_whole7 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons.mpr (Or.inl rfl), by
    show y ∈ (Rect.whole S).set; rw [Rect.set_whole]; exact Finset.mem_univ y⟩)]
  exact View.canon_cons_unit_zero rfl _ _ _

end Cert.Kernel.Hand

end
-- ==== Proof.K.Scatter7Sched.lean ====
import proofs.«411563_j39152921870698_3_alg».proof.Proof.K.Scatter7Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hc1_fin : ∀ e : Fin 293,
    (Scalar.cmpi .ne (Scalar.extui (Scalar.cmpi .eq (BitVec.ofNat 32 e.val) 0#32)) 0#32 = 1#1) ↔ e.val = 0 := by decide +kernel
theorem hc3_fin : ∀ e : Fin 293,
    (Scalar.cmpi .ne (Scalar.extui (Scalar.cmpi .eq (BitVec.ofNat 32 e.val) 292#32)) 0#32 = 1#1) ↔ e.val = 292 := by decide +kernel

theorem stride7_0 : grid7.stride 0 = 293 := by decide
theorem stride7_1 : grid7.stride 1 = 1 := by decide

theorem lt_N7 (t : Fin grid7.N) : t.val < 14943 := lt_of_lt_of_eq t.isLt N_7

theorem coords7_0 (t : Fin grid7.N) : (grid7.coords t 0).val = t.val / 293 := by
  have h := lt_N7 t
  show t.val / grid7.stride 0 % 51 = t.val / 293
  rw [stride7_0]; omega

theorem coords7_1 (t : Fin grid7.N) : (grid7.coords t 1).val = t.val % 293 := by
  show t.val / grid7.stride 1 % 293 = t.val % 293
  rw [stride7_1, Nat.div_one]

theorem hcond7_1 (t : Fin grid7.N) : cond7_1 (grid7.coords t) ↔ t.val % 293 = 0 := by
  rw [← coords7_1 t]; exact hc1_fin (grid7.coords t 1)
theorem hcond7_3 (t : Fin grid7.N) : cond7_3 (grid7.coords t) ↔ t.val % 293 = 292 := by
  rw [← coords7_1 t]; exact hc3_fin (grid7.coords t 1)

theorem tr7_2 (i : grid7.Coords) : cc7_transform_2 i = ![(i 0).val, 0] := by
  have h : (BitVec.ofNat 32 (i 0).val).toNat = (i 0).val := by
    rw [BitVec.toNat_ofNat]; exact Nat.mod_eq_of_lt (lt_trans (i 0).isLt (by decide))
  show ![(BitVec.ofNat 32 (i 0).val).toNat, (0#32 : BitVec 32).toNat] = _
  rw [h]; rfl

-- (t + 1) / 293 differs from t / 293 exactly when t % 293 = 292.
theorem flush7_2 (a : (pcfg7 (F := F)).Adm) (t : Fin (cfg7 a).N) : ((cfg7 a).win 2).flush t = true ↔ t.val % 293 = 292 := by
  have hN : t.val < 14943 := lt_N7 t
  have hN7 : grid7.N = 14943 := N_7
  have e : ∀ h : t.val + 1 < grid7.N,
      cc7_transform_2 (grid7.coords ⟨t.val + 1, h⟩) = cc7_transform_2 (grid7.coords t) ↔ (t.val + 1) / 293 = t.val / 293 := fun h => by
    rw [tr7_2, tr7_2, coords7_0, coords7_0]
    exact ⟨fun q => congrFun q 0, fun q => congrArg (fun x => ![x, 0]) q⟩
  show Pipeline.Window.flushOf grid7 true cc7_transform_2 t = true ↔ _
  unfold Pipeline.Window.flushOf
  simp only [Bool.true_and, Bool.or_eq_true, decide_eq_true_eq]
  constructor
  · rintro (h | ⟨h, hne⟩)
    · omega
    · by_contra hc; exact hne ((e h).mpr (by omega))
  · intro h
    by_cases hl : t.val + 1 = grid7.N
    · exact Or.inl hl
    · exact Or.inr ⟨by omega, fun q => by have := (e (by omega)).mp q; omega⟩

theorem idle7_2 (a : (pcfg7 (F := F)).Adm) (t : Fin (cfg7 a).N) :
    (cfg7 a).idle 2 ((cfg7 a).grid.coords t) = !decide (t.val % 293 = 292) := by
  show (!(k7_cond3 (grid7.coords t) == 1#1)) = _
  exact congrArg not (decide_eq_decide.mpr (hcond7_3 t))

abbrev st7_0 (a : (pcfg7 (F := F)).Adm) (t : Fin (cfg7 a).N) : Memref sig .tc .vmem S2048x128 .bf16 := spec7_0.stage ((cfg7 a).slots t 0)
abbrev hst7_0 (a : (pcfg7 (F := F)).Adm) (t : Fin (cfg7 a).N) : (st7_0 a t).IsWhole := hstage7_0 (((cfg7 a).slots t 0).cast nbuf7_0)
abbrev st7_1 (a : (pcfg7 (F := F)).Adm) (t : Fin (cfg7 a).N) : Memref sig .tc .vmem S1x2048 .i32 := spec7_1.stage ((cfg7 a).slots t 1)
abbrev hst7_1 (a : (pcfg7 (F := F)).Adm) (t : Fin (cfg7 a).N) : (st7_1 a t).IsWhole := hstage7_1 (((cfg7 a).slots t 1).cast nbuf7_1)
abbrev st7_2 (a : (pcfg7 (F := F)).Adm) (t : Fin (cfg7 a).N) : Memref sig .tc .vmem S2000x128 .f32 := spec7_2.stage ((cfg7 a).slots t 2)
abbrev hst7_2 (a : (pcfg7 (F := F)).Adm) (t : Fin (cfg7 a).N) : (st7_2 a t).IsWhole := hstage7_2 (((cfg7 a).slots t 2).cast nbuf7_2)

abbrev bodyAt7 (a : (pcfg7 (F := F)).Adm) (t : Fin (cfg7 a).N) : Prog (TpuEff nD τ sig (Elt F) Λ₀ .tc) PUnit :=
  cc7__scatter_kernel_nocnt (grid7.coords t) tbM7_0 htbM7_0 tbM7_1 htbM7_1 (st7_0 a t) (hst7_0 a t) (st7_1 a t) (hst7_1 a t) (st7_2 a t) (hst7_2 a t) scM7_0 hscM7_0

end Cert.Kernel.Hand

end
-- ==== Proof.K.Scatter7Dat.lean ====
import proofs.«411563_j39152921870698_3_alg».proof.Proof.K.Scatter7Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (a : (pcfg7 (F := F)).Adm) (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

abbrev msgBlk7 (a : (pcfg7 (F := F)).Adm) (c : Dev nD) (t : Fin (cfg7 a).N) : Vec F S2048x128 .bf16 := iblk7 V a c 0 t
abbrev idxBlk7 (a : (pcfg7 (F := F)).Adm) (c : Dev nD) (t : Fin (cfg7 a).N) : Vec F S1x2048 .i32 := iblk7 V a c 1 t

abbrev lo7 (a : (pcfg7 (F := F)).Adm) (c : Dev nD) (t : Fin (cfg7 a).N) : BitVec 32 := word7 c tbM7_0 (grid7.coords t) (a.1 0)
abbrev hi7 (a : (pcfg7 (F := F)).Adm) (c : Dev nD) (t : Fin (cfg7 a).N) : BitVec 32 := word7 c tbM7_1 (grid7.coords t) (a.1 1)
abbrev guard7 (a : (pcfg7 (F := F)).Adm) (c : Dev nD) (t : Fin (cfg7 a).N) : Prop := cond7_2 (grid7.coords t) (lo7 a c t) (hi7 a c t)

def step7 (a : (pcfg7 (F := F)).Adm) (c : Dev nD) (t : Fin (cfg7 a).N) (s : Vec F S2000x128 .f32) : Vec F S2000x128 .f32 :=
  if guard7 a c t then k7_pay2 (grid7.coords t) (idxBlk7 V a c t) (msgBlk7 V a c t) s else s
def stepN7 (a : (pcfg7 (F := F)).Adm) (c : Dev nD) (n : ℕ) (s : Vec F S2000x128 .f32) : Vec F S2000x128 .f32 :=
  if h : n < (cfg7 a).N then step7 V a c ⟨n, h⟩ s else s

def sAfter7 (a : (pcfg7 (F := F)).Adm) (c : Dev nD) : ℕ → Vec F S2000x128 .f32
  | 0 => stepN7 V a c 0 k7_pay1
  | n + 1 => if (n + 1) % 293 = 0 then stepN7 V a c (n + 1) k7_pay1 else stepN7 V a c (n + 1) (sAfter7 a c n)

theorem sAfter7_reset (a : (pcfg7 (F := F)).Adm) (c : Dev nD) (n : ℕ) (h : n % 293 = 0) :
    sAfter7 V a c n = stepN7 V a c n k7_pay1 := by
  cases n with
  | zero => rfl
  | succ n => exact if_pos h
theorem sAfter7_step (a : (pcfg7 (F := F)).Adm) (c : Dev nD) (n : ℕ) (h : ¬ n % 293 = 0) :
    sAfter7 V a c n = stepN7 V a c n (sAfter7 V a c (n - 1)) := by
  cases n with
  | zero => exact absurd (Nat.zero_mod _) h
  | succ n => exact if_neg h
theorem stepN7_at (a : (pcfg7 (F := F)).Adm) (c : Dev nD) (t : Fin (cfg7 a).N) (s : Vec F S2000x128 .f32) :
    stepN7 V a c t.val s = step7 V a c t s := dif_pos t.isLt
set_option maxHeartbeats 4000000 in
theorem prefHeld7_eq (c : Dev nD) (v : pre7.Contents (Elt F)) :
    (Pipeline.prefHeld (Ix := Unit) (Name := ℕ) (U := UR sig nD τ) (Lvl := ℕ) pre7 c (fun _ => fullShare) v : sProp 𝕄)
      = iprop(tbPt7 c tbM7_0 (v 0) ∗ tbPt7 c tbM7_1 (v 1)) := by
  unfold Pipeline.prefHeld
  rw [show (Finset.univ : Finset (Fin 2)) = insert (0 : Fin 2) {(1 : Fin 2)} from by decide,
    bigSep_insert (by decide), bigSep_singleton]
  rfl

def Φ7 (a : (pcfg7 (F := F)).Adm) (c : Dev nD) (n : ℕ) : sProp 𝕄 :=
  iprop((∃ r, prngReg c r) ∗ tbPt7 c tbM7_0 (a.1 0) ∗ tbPt7 c tbM7_1 (a.1 1)
    ∗ Pipeline.scopedRestBut (Ix := Unit) (Name := ℕ) (U := UR sig nD τ) (Lvl := ℕ) (Val := Elt F) spec7 c [cc7_scratch0]
    ∗ (∃ X, owns (c : Thread nD τ) scM7_0 fullShare X ∗ ⌜¬ n % 293 = 0 → X = sAfter7 V a c (n - 1)⌝))

def dat7 (a : (pcfg7 (F := F)).Adm) (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => sAfter7 V a c t.val
  Φ t := Φ7 V a c t.val
  q _ := fullShare
  owed _ := 0

theorem A_eq7 (a : (pcfg7 (F := F)).Adm) (c : Dev nD) (w : Fin (cfg7 a).W) : (dat7 V a c).A w = V c (Pipeline.arrRef spec7 w) := by
  dsimp only [dat7]
theorem after7_0 (a : (pcfg7 (F := F)).Adm) (c : Dev nD) (t : Fin (cfg7 a).N) : (dat7 V a c).after 0 t = iblk7 V a c 0 t := by dsimp only [dat7]; try rfl
theorem after7_1 (a : (pcfg7 (F := F)).Adm) (c : Dev nD) (t : Fin (cfg7 a).N) : (dat7 V a c).after 1 t = iblk7 V a c 1 t := by dsimp only [dat7]; try rfl
theorem after7_2 (a : (pcfg7 (F := F)).Adm) (c : Dev nD) (t : Fin (cfg7 a).N) : (dat7 V a c).after 2 t = sAfter7 V a c t.val := by dsimp only [dat7]; try rfl
theorem before7_0 (a : (pcfg7 (F := F)).Adm) (c : Dev nD) (t : Fin (cfg7 a).N) (d) : (dat7 V a c).before 0 t d = iblk7 V a c 0 t :=
  ((dat7 V a c).before_in_eq_fetched 0 rfl (fun _ => rfl) (fun _ _ _ => rfl) (fun _ => rfl) t d).trans rfl
theorem before7_1 (a : (pcfg7 (F := F)).Adm) (c : Dev nD) (t : Fin (cfg7 a).N) (d) : (dat7 V a c).before 1 t d = iblk7 V a c 1 t :=
  ((dat7 V a c).before_in_eq_fetched 1 rfl (fun _ => rfl) (fun _ _ _ => rfl) (fun _ => rfl) t d).trans rfl

theorem hin7 (a : (pcfg7 (F := F)).Adm) (c : Dev nD) :
    iprop((∃ r, prngReg c r) ∗ Pipeline.prefHeld (Ix := Unit) (Name := ℕ) (U := UR sig nD τ) (Lvl := ℕ) pre7 c (fun _ => fullShare) a.1
        ∗ Pipeline.scopedRest (Ix := Unit) (Name := ℕ) (U := UR sig nD τ) (Lvl := ℕ) (Val := Elt F) spec7 c)
      ⊢ (dat7 V a c).Φ 0 := by
  rw [show (dat7 V a c).Φ 0 = Φ7 V a c 0 from rfl, prefHeld7_eq, scopedRest7_split]; unfold Φ7
  iintro ⟨Hr, ⟨HT0, HT1⟩, ⟨%f, Hs⟩, Hrest⟩
  iframe Hr HT0 HT1 Hrest
  iexists f; isplitl [Hs]
  · simp only [scM7_0, owns_whole]; iexact Hs
  · ipureintro; intro h; exact absurd (Nat.zero_mod 293) h

theorem hout7 (a : (pcfg7 (F := F)).Adm) (c : Dev nD) :
    (dat7 V a c).Φ (Fin.last (cfg7 a).N)
      ⊢ iprop(iprop((∃ r, prngReg c r) ∗ Pipeline.prefHeld (Ix := Unit) (Name := ℕ) (U := UR sig nD τ) (Lvl := ℕ) pre7 c (fun _ => fullShare) a.1)
          ∗ Pipeline.scopedRest (Ix := Unit) (Name := ℕ) (U := UR sig nD τ) (Lvl := ℕ) (Val := Elt F) spec7 c) := by
  rw [show (dat7 V a c).Φ (Fin.last (cfg7 a).N) = Φ7 V a c (cfg7 a).N from rfl, prefHeld7_eq, scopedRest7_split]; unfold Φ7
  iintro ⟨Hr, HT0, HT1, Hrest, ⟨%X, Hs, -⟩⟩
  iframe Hr HT0 HT1 Hrest
  iexists X; simp only [scM7_0, owns_whole]; iexact Hs

end Cert.Kernel.Hand

end
-- ==== Proof.K.Scatter7Runs.lean ====
import proofs.«411563_j39152921870698_3_alg».proof.Proof.K.Scatter7Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid7.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole)
    (x0 : Vec F S2048x128 .bf16) (x1 : Vec F S1x2048 .i32) (d2 s : Vec F S2000x128 .f32)
    (xt0 : TbBuf7 (F := F) c tbM7_0) (xt1 : TbBuf7 (F := F) c tbM7_1)

-- The scratch after the body: zeroed where the first conditional holds, then the one-hot product added where the word condition holds.
def scr7 : Vec F S2000x128 .f32 :=
  if cond7_2 i (word7 c tbM7_0 i xt0) (word7 c tbM7_1 i xt1) then k7_pay2 i x1 x0 (if cond7_1 i then k7_pay1 else s)
  else if cond7_1 i then k7_pay1 else s

set_option maxHeartbeats 4000000 in
-- One run of the body, by cases on the three conditionals: inputs and tables unchanged, the scratch at scr7, the output operand at scr7 where the third conditional holds.
theorem run7 (hne : cond7_1 i → ¬cond7_3 i) (E : Set ℕ) (K : PUnit → sProp 𝕄) :
    iprop(owns (c : Thread nD τ) arg4 fullShare x0 ∗ owns (c : Thread nD τ) arg5 fullShare x1 ∗ owns (c : Thread nD τ) arg6 fullShare d2
        ∗ owns (c : Thread nD τ) scM7_0 fullShare s ∗ tbPt7 c tbM7_0 xt0 ∗ tbPt7 c tbM7_1 xt1
        ∗ (iprop(owns (c : Thread nD τ) arg4 fullShare x0 ∗ owns (c : Thread nD τ) arg5 fullShare x1
            ∗ owns (c : Thread nD τ) arg6 fullShare (if cond7_3 i then scr7 c i x0 x1 s xt0 xt1 else d2)
            ∗ owns (c : Thread nD τ) scM7_0 fullShare (scr7 c i x0 x1 s xt0 xt1) ∗ tbPt7 c tbM7_0 xt0 ∗ tbPt7 c tbM7_1 xt1) -∗ K ⟨⟩))
      ⊢ wp frame (wpE (defs₀ (F := F)) Variants.none c none) E (cc7__scatter_kernel_nocnt i tbM7_0 htbM7_0 tbM7_1 htbM7_1 arg4 harg4 arg5 harg5 arg6 harg6 scM7_0 hscM7_0) K := by
  unfold scr7
  by_cases h1 : cond7_1 i <;> by_cases h2 : cond7_2 i (word7 c tbM7_0 i xt0) (word7 c tbM7_1 i xt1) <;> by_cases h3 : cond7_3 i <;>
    first | exact absurd h3 (hne h1) | skip
  all_goals
    first | rw [if_pos h3] | rw [if_neg h3]
    first | rw [if_pos h2] | rw [if_neg h2]
    first | rw [if_pos h1] | rw [if_neg h1]
    simp only [cc7__scatter_kernel_nocnt_eq_skeleton]; unfold cc7__scatter_kernel_nocnt_skel
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM7_0.eq_unread hfs
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      first
        | (have _ : ¬cond7_3 i := h3; exact harg6.read_unread _)
        | (refine (read_writes_whole7 (S := S2000x128) _ _ hz2_7 _ _ _).trans ?_
           try sl_unfold_words
           try simp only [View.readCov_unit_zero (S := S2000x128) _ hz2_7, View.readAt_eq_ld, Memref.IsWhole.read_unread, View.ld_unit_zero (S := S2000x128) hz2_7, View.ld_unit_zero (S := S2048x128) hz2_7, View.ld_unit_zero (S := S1x2048) hz2_7]
           all_goals first | (have _ : ¬cond7_2 i _ _ := h2; exact hfs) | exact congrArg (k7_pay2 i x1 x0) hfs)
    isplitl [HS]
    · iexists _; isplitr; swap; · iexact HS
      ipureintro
      first
        | (have _ : ¬cond7_2 i _ _ := h2; first | (have _ : ¬cond7_1 i := h1; exact hscM7_0.read_unread _) | exact read_writes_whole7 (S := S2000x128) _ _ hz2_7 _ _ _)
        | (refine (read_writes_whole7 (S := S2000x128) _ _ hz2_7 _ _ _).trans ?_
           try sl_unfold_words
           try simp only [View.readCov_unit_zero (S := S2000x128) _ hz2_7, View.readAt_eq_ld, Memref.IsWhole.read_unread, View.ld_unit_zero (S := S2000x128) hz2_7, View.ld_unit_zero (S := S2048x128) hz2_7, View.ld_unit_zero (S := S1x2048) hz2_7]
           all_goals first
             | (have _ : ¬cond7_1 i := h1; exact congrArg (k7_pay2 i x1 x0) hfs)
             | exact congrArg (k7_pay2 i x1 x0) (View.readCov_unit_zero (S := S2000x128) _ hz2_7 _ _))
    isplitl [HT0]; · iexact HT0
    iexact HT1

end Run

end Cert.Kernel.Hand

end
-- ==== Proof.K.Scatter7.lean ====
import proofs.«411563_j39152921870698_3_alg».proof.Proof.K.Scatter7Dat
import proofs.«411563_j39152921870698_3_alg».proof.Proof.K.Scatter7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section BodyS
variable (V : (c : Dev nD) → (b : Ref sig .tc) → Buf (Elt F) ((c : Thread nD τ).loc b))

-- From what the invariant says the scratch held before point t, the body's result there is what the accumulation says.
theorem sAfter7_eq (a : (pcfg7 (F := F)).Adm) (c : Dev nD) (t : Fin (cfg7 a).N) (X : Vec F S2000x128 .f32)
    (hX : ¬ t.val % 293 = 0 → X = sAfter7 V a c (t.val - 1)) :
    scr7 c (grid7.coords t) (msgBlk7 V a c t) (idxBlk7 V a c t) X (a.1 0) (a.1 1) = sAfter7 V a c t.val := by
  unfold scr7
  by_cases h0 : t.val % 293 = 0
  · rw [sAfter7_reset V a c t.val h0, stepN7_at, if_pos ((hcond7_1 t).mpr h0)]; rfl
  · rw [sAfter7_step V a c t.val h0, stepN7_at, if_neg (mt (hcond7_1 t).mp h0), hX h0]; rfl

-- What the obligation asks of the output operand at point t follows from its contents after the body, in both cases of the third conditional.
theorem leaves7 (a : (pcfg7 (F := F)).Adm) (c : Dev nD) (t : Fin (cfg7 a).N) (d) (D : Vec F S2000x128 .f32) (hD : D = (dat7 V a c).before 2 t d) :
    owns (c : Thread nD τ) (st7_2 a t) fullShare (if cond7_3 (grid7.coords t) then sAfter7 V a c t.val else D) ⊢ (dat7 V a c).leavesExact 2 t := by
  by_cases h3 : t.val % 293 = 292
  · have hi : (cfg7 a).idle 2 ((cfg7 a).grid.coords t) = false := by rw [idle7_2, decide_eq_true h3]; rfl
    rw [if_pos ((hcond7_3 t).mpr h3)]; unfold Dat.leavesExact; rw [hi]; dsimp only; rw [after7_2]; exact .rfl
  · have hi : (cfg7 a).idle 2 ((cfg7 a).grid.coords t) = true := by rw [idle7_2, decide_eq_false h3]; rfl
    rw [if_neg (mt (hcond7_3 t).mp h3), (dat7 V a c).leavesExact_idle 2 t hi (Bool.eq_false_iff.mpr fun h => h3 ((flush7_2 a t).mp h))]
    subst hD; iintro H; iexists d; iexact H

def bodyPre7 (a : (pcfg7 (F := F)).Adm) (c : Dev nD) (t : Fin (cfg7 a).N) : sProp 𝕄 :=
  iprop((dat7 V a c).Φ t.castSucc ∗ (dat7 V a c).owesAt () t.castSucc
    ∗ (∃ d, owns (c : Thread nD τ) (st7_0 a t) fullShare ((dat7 V a c).before 0 t d))
    ∗ (∃ d, owns (c : Thread nD τ) (st7_1 a t) fullShare ((dat7 V a c).before 1 t d))
    ∗ (∃ d, owns (c : Thread nD τ) (st7_2 a t) fullShare ((dat7 V a c).before 2 t d)))
def bodyPost7 (a : (pcfg7 (F := F)).Adm) (c : Dev nD) (t : Fin (cfg7 a).N) : sProp 𝕄 :=
  iprop((dat7 V a c).Φ t.succ ∗ (dat7 V a c).owesAt () t.succ
    ∗ owns (c : Thread nD τ) (st7_0 a t) fullShare ((dat7 V a c).after 0 t)
    ∗ owns (c : Thread nD τ) (st7_1 a t) fullShare ((dat7 V a c).after 1 t)
    ∗ (dat7 V a c).leavesExact 2 t)

set_option maxHeartbeats 1600000 in
-- The invariant and the operands' contents at point t give the body's precondition; its postcondition gives them back at the next point.
theorem sound_body7 (a : (pcfg7 (F := F)).Adm) (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7
  simp only [before7_0, before7_1]
  rw [show (dat7 V a c).owesAt () t.succ = (dat7 V a c).owesAt () t.castSucc from rfl,
    show (dat7 V a c).Φ t.castSucc = Φ7 V a c t.castSucc.val from rfl, show (dat7 V a c).Φ t.succ = Φ7 V a c t.succ.val from rfl,
    after7_0, after7_1, Fin.coe_castSucc, Fin.val_succ]
  unfold Φ7
  iintro ⟨⟨Hr, HT0, HT1, Hrest, ⟨%X, HS, %hX⟩⟩, Ho, ⟨%d0, H0⟩, ⟨%d1, H1⟩, ⟨%d2, H2⟩⟩
  iapply (run7 c (grid7.coords t) (st7_0 a t) (hst7_0 a t) (st7_1 a t) (hst7_1 a t) (st7_2 a t) (hst7_2 a t) (msgBlk7 V a c t) (idxBlk7 V a c t)
    ((dat7 V a c).before 2 t d2) X (a.1 0) (a.1 1) (fun h1 h3 => by have := (hcond7_1 t).mp h1; have := (hcond7_3 t).mp h3; omega) Set.univ _)
  rw [sAfter7_eq V a c t X hX]
  iframe H0 H1 H2 HS HT0 HT1
  iintro ⟨H0, H1, H2, HS, HT0, HT1⟩
  iframe Hr HT0 HT1 Hrest Ho H0 H1
  isplitl [HS]
  · iexists _; iframe HS; ipureintro; intro _; rw [Nat.add_sub_cancel]
  iapply (leaves7 V a c t d2 _ rfl); iexact H2

theorem body_obligation7 (a : (pcfg7 (F := F)).Adm) (c : Dev nD) :
    BodyObligation (dat7 (F := F) V a c) (defs₀ (F := F)) Variants.none () Set.univ := fun t => by
  rw [bigSep_W7, bigSep_W7]
  exact sound_body7 V a c t

end BodyS

end Cert.Kernel.Hand

end
-- ==== Proof.K.Linear8.lean ====
import proofs.«411563_j39152921870698_3_alg».proof.Proof.Gen.Kernel.Launch
import proofs.«411563_j39152921870698_3_alg».proof.Proof.Gen.Kernel.Skeleton
import proofs.«411563_j39152921870698_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem uncut8_0 : ∀ (t : Fin cfg8.N) (a : Fin 2), (cfg8.win 0).clip (cfg8.grid.coords t) a = none :=
  (by decide +kernel : ∀ (t : Fin grid8.N) (a : Fin 2), win8_0.clip (grid8.coords t) a = none)
theorem uncut8_1 : ∀ (t : Fin cfg8.N) (a : Fin 2), (cfg8.win 1).clip (cfg8.grid.coords t) a = none :=
  (by decide +kernel : ∀ (t : Fin grid8.N) (a : Fin 2), win8_1.clip (grid8.coords t) a = none)

def sblk8_0 (c : Dev nD) (t : Fin cfg8.N) : Vec F S5000x128 .f32 :=
  (cfg8.win 0).fill (cfg8.grid.coords t) (fun _ => Scalar.ofBits .f32 0#32) (iblk8 V c 0 t)
def sblk8_1 (c : Dev nD) (t : Fin cfg8.N) : Vec F S5000x1 .f32 :=
  (cfg8.win 1).fill (cfg8.grid.coords t) (fun _ => Scalar.ofBits .f32 0#32) (iblk8 V c 1 t)

abbrev r8_0 : Rect S5000x1 := Rect.unit (s := S5000x1) ![0, 0] S5000x1.size inb_S5000x1_S5000x1_0_0
abbrev r8_1 : Rect S5000x128 := Rect.unit (s := S5000x128) ![0, 0] S5000x128.size inb_S5000x128_S5000x128_0_0
abbrev r8_2 : Rect S128x128 := Rect.unit (s := S128x128) ![0, 0] S128x128.size inb_S128x128_S128x128_0_0
abbrev r8_3 : Rect S128 := Rect.unit (s := S128) ![0] S128.size inb_S128_S128_0

def out8_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r8_1, k8_pay1 (View.ld x1 r8_0) (View.ld x0 r8_1) (View.ld x2 r8_1) (View.ld x3 r8_2) (View.ld x5 r8_2) (View.ld x4 r8_3)⟩]

def dat8 (c : Dev nD) : Dat τ (Elt F) Unit ℕ (UR sig nD τ) ℕ cfg8 c where
  A w := V c (Pipeline.arrRef spec8 w)
  after w t := match w with
    | ⟨0, _⟩ => sblk8_0 V c t
    | ⟨1, _⟩ => sblk8_1 V c t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (sblk8_0 V c t) (sblk8_1 V c t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_6 (c : Dev nD) (t : Fin cfg8.N) : (dat8 V c).after 6 t
    = out8_6 (sblk8_0 V c t) (sblk8_1 V c t) (iblk8 V c 2 t) (iblk8 V c 3 t) (iblk8 V c 4 t) (iblk8 V c 5 t) := by dsimp only [dat8]

theorem before8_0 (c : Dev nD) (t : Fin cfg8.N) (d) : (dat8 V c).before 0 t d = sblk8_0 V c t := by
  unfold Dat.before; rw [if_pos (fetch8_0 t)]
  exact (dat8 V c).fetched_of_clip_none 0 t (uncut8_0 t) d _
theorem before8_1 (c : Dev nD) (t : Fin cfg8.N) (d) : (dat8 V c).before 1 t d = sblk8_1 V c t := by
  unfold Dat.before; rw [if_pos (fetch8_1 t)]
  exact (dat8 V c).fetched_of_clip_none 1 t (uncut8_1 t) d _

theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d
theorem before8_5 (c : Dev nD) (t : Fin cfg8.N) (d) : (dat8 V c).before 5 t d = iblk8 V c 5 t :=
  (dat8 V c).before_in_eq_fetched 5 rfl (fun _ => rfl) (fun _ _ _ => rfl) (fun _ => rfl) t d

set_option maxHeartbeats 1000000 in
theorem body_obligation8 (c : Dev nD) : BodyObligation (dat8 (F := F) V c) (defs₀ (F := F)) Variants.none () Set.univ := fun t => by
  rw [bigSep_W8, bigSep_W8]
  dsimp only
  simp only [before8_0, before8_1, before8_2, before8_3, before8_4, before8_5]
  rw [show (dat8 V c).Φ t.succ = (dat8 V c).Φ t.castSucc from rfl,
    show (dat8 V c).owesAt () t.succ = (dat8 V c).owesAt () t.castSucc from rfl]
  dsimp only [dat8]
  show _ ⊢ wp _ _ _ (bodyAt8 t) _
  unfold bodyAt8
  generalize sblk8_0 V c t = x0, sblk8_1 V c t = x1, iblk8 V c 2 t = x2, iblk8 V c 3 t = x3, iblk8 V c 4 t = x4, iblk8 V c 5 t = x5
  simp only [cc8__linear_kernel_eq_skeleton]; unfold cc8__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.Kernel.Hand
-- ==== Proof.K.Gather9.lean ====
import proofs.«411563_j39152921870698_3_alg».proof.Proof.K.GatherKernel

set_option maxRecDepth 16384

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr9 : Memref sig .tc .vmem S2048x128 .f32 := Memref.whole cc9_scratch0

section Region
variable (V : (c : Dev nD) → (b : Ref sig .tc) → Buf (Elt F) ((c : Thread nD τ).loc b))

-- Window w's block at point t, read off its array as the region finds it.
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

-- The region's proof data: every input block is kept, the output block is gatherOut of the two input blocks.
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => gatherOut (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem q_eq9 (c : Dev nD) (w : Fin cfg9.W) : (dat9 V c).q w = fullShare := rfl
theorem owed_eq9 (c : Dev nD) (t : Fin (cfg9.N + 1)) : (dat9 V c).owed t = 0 := rfl

theorem after9_2 (c : Dev nD) (t : Fin cfg9.N) : (dat9 V c).after 2 t = gatherOut (iblk9 V c 0 t) (iblk9 V c 1 t) := by dsimp only [dat9]

-- At every point an input's block is its block of the array as the region found it.
theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

-- The class invariant with the accumulator owned at some contents, the other scoped buffers unopened.
theorem PhiA9_eq (c : Dev nD) :
    (Pipeline.ΦA spec9 c : sProp 𝕄)
      = iprop(iprop(iprop((∃ d, owns (c : Thread nD τ) scr9 fullShare d))
            ∗ Pipeline.scopedRestBut (Ix := Unit) (Name := ℕ) (U := UR sig nD τ) (Lvl := ℕ) (Val := Elt F) spec9 c [cc9_scratch0])
          ∗ (∃ r, prngReg c r)) := by
  unfold Pipeline.ΦA; rw [scopedRest9_split]; simp only [scr9, owns_whole]; try rfl

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

-- The body at any point: the invariant lends the accumulator and takes it back at whatever the body left in it.
theorem sound_body9 (c : Dev nD) (t : Fin cfg9.N) :
    bodyPre9 V c t ⊢ wp frame (wpE (defs₀ (F := F)) Variants.none c none) Set.univ
      (gatherBody (grid9.coords t) (st9_0 t) (stage_whole9 0 _) (st9_1 t) (stage_whole9 1 _) (st9_2 t) (stage_whole9 2 _) scr9 (Memref.isWhole_whole _))
      (fun _ => bodyPost9 V c t) := by
  unfold bodyPre9 bodyPost9
  simp only [before9_0, before9_1]
  rw [show (dat9 V c).Φ t.succ = Pipeline.ΦA spec9 c from rfl,
    show (dat9 V c).Φ t.castSucc = Pipeline.ΦA spec9 c from rfl,
    show (dat9 V c).owesAt () t.succ = (dat9 V c).owesAt () t.castSucc from rfl,
    show (dat9 V c).after 0 t = iblk9 V c 0 t from rfl, show (dat9 V c).after 1 t = iblk9 V c 1 t from rfl, after9_2, PhiA9_eq]
  iintro ⟨⟨⟨HS, Hrest⟩, Hg⟩, Ho, ⟨%d0, H0⟩, ⟨%d1, H1⟩, ⟨%d2, H2⟩⟩
  iapply (sound_gather c _ _ _ _ _ _ _ _ _ Set.univ (iblk9 V c 0 t) (iblk9 V c 1 t) _)
  iframe H0 H1 HS
  isplitl [H2]; · iexists _; iexact H2
  iintro ⟨H0, H1, H2, HS⟩
  iframe

theorem body_obligation9 (c : Dev nD) : BodyObligation (dat9 (F := F) V c) (defs₀ (F := F)) Variants.none () Set.univ := fun t => by
  rw [bigSep_W9, bigSep_W9]
  exact sound_body9 V c t

theorem hin9 (c : Dev nD) :
    iprop((∃ r, prngReg c r) ∗ Pipeline.scopedRest (Ix := Unit) (Name := ℕ) (U := UR sig nD τ) (Lvl := ℕ) (Val := Elt F) spec9 c)
      ⊢ (dat9 V c).Φ 0 := sep_comm.1

theorem hout9 (c : Dev nD) :
    (dat9 V c).Φ (Fin.last cfg9.N)
      ⊢ iprop((∃ r, prngReg c r) ∗ Pipeline.scopedRest (Ix := Unit) (Name := ℕ) (U := UR sig nD τ) (Lvl := ℕ) (Val := Elt F) spec9 c) := sep_comm.1

end Region

end Cert.Kernel.Hand

end
-- ==== Proof.K.Scatter10Base.lean ====
import proofs.«411563_j39152921870698_3_alg».proof.Proof.Gen.Kernel.Launch
import proofs.«411563_j39152921870698_3_alg».proof.Proof.Gen.Kernel.Skeleton
import Idealize.ShloMosaic.Lib.Pipeline.FrameBody
import Idealize.ShloMosaic.Lib.Ring
import Idealize.ShloMosaic.Lib.Tactic
import Idealize.ShloMosaic.Lib.Pipeline.Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM10_0 : Memref sig .tc .smem S293 .i32 := Memref.whole main_v54
abbrev htbM10_0 : tbM10_0.IsWhole := Memref.isWhole_whole _
abbrev tbM10_1 : Memref sig .tc .smem S293 .i32 := Memref.whole main_v57
abbrev htbM10_1 : tbM10_1.IsWhole := Memref.isWhole_whole _
abbrev scM10_0 : Memref sig .tc .vmem S2000x128 .f32 := Memref.whole cc10_scratch0
abbrev hscM10_0 : scM10_0.IsWhole := Memref.isWhole_whole _

abbrev TbBuf10 (c : Dev nD) (M : Memref sig .tc .smem S293 .i32) : Type := Buf (Elt F) (M.view.loc (c : Thread nD τ))
abbrev tbPt10 (c : Dev nD) (M : Memref sig .tc .smem S293 .i32) (f : TbBuf10 (F := F) c M) : sProp 𝕄 :=
  M.view.loc (c : Thread nD τ) ↦{fullShare} f

abbrev word10 (c : Dev nD) (M : Memref sig .tc .smem S293 .i32) (i : grid10.Coords) (xt : TbBuf10 (F := F) c M) : Elt F .i32 :=
  M.view.readAt (Elt F) (Rect.unit (s := S293) (k10_off1 i) S1.size (k10_off1_inb i)).toLoadRect xt (Shape.Idx.first (numel1_S1.symm ▸ Nat.one_pos))

abbrev cond10_1 (i : grid10.Coords) : Prop :=
  Scalar.cmpi .ne (Scalar.extui (Scalar.cmpi .eq (BitVec.ofNat 32 (i 1).val) 0#32)) 0#32 = 1#1
abbrev guardW10 (j : ℕ) (lo hi : BitVec 32) : Prop :=
  Scalar.cmpi .ne (Scalar.extui (Scalar.andi (Scalar.cmpi .sge (BitVec.ofNat 32 j) lo) (Scalar.cmpi .sle (BitVec.ofNat 32 j) hi))) 0#32 = 1#1
abbrev cond10_2 (i : grid10.Coords) (lo hi : BitVec 32) : Prop := guardW10 (i 0).val lo hi
abbrev cond10_3 (i : grid10.Coords) : Prop := k10_cond3 i = 1#1

theorem hz2_10 : (![0, 0] : Fin 2 → Nat) = fun _ => 0 := funext fun a => by fin_cases a <;> rfl

theorem read_writes_whole10 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons.mpr (Or.inl rfl), by
    show y ∈ (Rect.whole S).set; rw [Rect.set_whole]; exact Finset.mem_univ y⟩)]
  exact View.canon_cons_unit_zero rfl _ _ _

end Cert.Kernel.Hand

end
-- ==== Proof.K.Scatter10Sched.lean ====
import proofs.«411563_j39152921870698_3_alg».proof.Proof.K.Scatter10Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hc1_fin : ∀ e : Fin 293,
    (Scalar.cmpi .ne (Scalar.extui (Scalar.cmpi .eq (BitVec.ofNat 32 e.val) 0#32)) 0#32 = 1#1) ↔ e.val = 0 := by decide +kernel
theorem hc3_fin : ∀ e : Fin 293,
    (Scalar.cmpi .ne (Scalar.extui (Scalar.cmpi .eq (BitVec.ofNat 32 e.val) 292#32)) 0#32 = 1#1) ↔ e.val = 292 := by decide +kernel

theorem stride10_0 : grid10.stride 0 = 293 := by decide
theorem stride10_1 : grid10.stride 1 = 1 := by decide

theorem lt_N10 (t : Fin grid10.N) : t.val < 14943 := lt_of_lt_of_eq t.isLt N_10

theorem coords10_0 (t : Fin grid10.N) : (grid10.coords t 0).val = t.val / 293 := by
  have h := lt_N10 t
  show t.val / grid10.stride 0 % 51 = t.val / 293
  rw [stride10_0]; omega

theorem coords10_1 (t : Fin grid10.N) : (grid10.coords t 1).val = t.val % 293 := by
  show t.val / grid10.stride 1 % 293 = t.val % 293
  rw [stride10_1, Nat.div_one]

theorem hcond10_1 (t : Fin grid10.N) : cond10_1 (grid10.coords t) ↔ t.val % 293 = 0 := by
  rw [← coords10_1 t]; exact hc1_fin (grid10.coords t 1)
theorem hcond10_3 (t : Fin grid10.N) : cond10_3 (grid10.coords t) ↔ t.val % 293 = 292 := by
  rw [← coords10_1 t]; exact hc3_fin (grid10.coords t 1)

theorem tr10_2 (i : grid10.Coords) : cc10_transform_2 i = ![(i 0).val, 0] := by
  have h : (BitVec.ofNat 32 (i 0).val).toNat = (i 0).val := by
    rw [BitVec.toNat_ofNat]; exact Nat.mod_eq_of_lt (lt_trans (i 0).isLt (by decide))
  show ![(BitVec.ofNat 32 (i 0).val).toNat, (0#32 : BitVec 32).toNat] = _
  rw [h]; rfl

-- (t + 1) / 293 differs from t / 293 exactly when t % 293 = 292.
theorem flush10_2 (a : (pcfg10 (F := F)).Adm) (t : Fin (cfg10 a).N) : ((cfg10 a).win 2).flush t = true ↔ t.val % 293 = 292 := by
  have hN : t.val < 14943 := lt_N10 t
  have hN10 : grid10.N = 14943 := N_10
  have e : ∀ h : t.val + 1 < grid10.N,
      cc10_transform_2 (grid10.coords ⟨t.val + 1, h⟩) = cc10_transform_2 (grid10.coords t) ↔ (t.val + 1) / 293 = t.val / 293 := fun h => by
    rw [tr10_2, tr10_2, coords10_0, coords10_0]
    exact ⟨fun q => congrFun q 0, fun q => congrArg (fun x => ![x, 0]) q⟩
  show Pipeline.Window.flushOf grid10 true cc10_transform_2 t = true ↔ _
  unfold Pipeline.Window.flushOf
  simp only [Bool.true_and, Bool.or_eq_true, decide_eq_true_eq]
  constructor
  · rintro (h | ⟨h, hne⟩)
    · omega
    · by_contra hc; exact hne ((e h).mpr (by omega))
  · intro h
    by_cases hl : t.val + 1 = grid10.N
    · exact Or.inl hl
    · exact Or.inr ⟨by omega, fun q => by have := (e (by omega)).mp q; omega⟩

theorem idle10_2 (a : (pcfg10 (F := F)).Adm) (t : Fin (cfg10 a).N) :
    (cfg10 a).idle 2 ((cfg10 a).grid.coords t) = !decide (t.val % 293 = 292) := by
  show (!(k10_cond3 (grid10.coords t) == 1#1)) = _
  exact congrArg not (decide_eq_decide.mpr (hcond10_3 t))

abbrev st10_0 (a : (pcfg10 (F := F)).Adm) (t : Fin (cfg10 a).N) : Memref sig .tc .vmem S2048x128 .bf16 := spec10_0.stage ((cfg10 a).slots t 0)
abbrev hst10_0 (a : (pcfg10 (F := F)).Adm) (t : Fin (cfg10 a).N) : (st10_0 a t).IsWhole := hstage10_0 (((cfg10 a).slots t 0).cast nbuf10_0)
abbrev st10_1 (a : (pcfg10 (F := F)).Adm) (t : Fin (cfg10 a).N) : Memref sig .tc .vmem S1x2048 .i32 := spec10_1.stage ((cfg10 a).slots t 1)
abbrev hst10_1 (a : (pcfg10 (F := F)).Adm) (t : Fin (cfg10 a).N) : (st10_1 a t).IsWhole := hstage10_1 (((cfg10 a).slots t 1).cast nbuf10_1)
abbrev st10_2 (a : (pcfg10 (F := F)).Adm) (t : Fin (cfg10 a).N) : Memref sig .tc .vmem S2000x128 .f32 := spec10_2.stage ((cfg10 a).slots t 2)
abbrev hst10_2 (a : (pcfg10 (F := F)).Adm) (t : Fin (cfg10 a).N) : (st10_2 a t).IsWhole := hstage10_2 (((cfg10 a).slots t 2).cast nbuf10_2)

abbrev bodyAt10 (a : (pcfg10 (F := F)).Adm) (t : Fin (cfg10 a).N) : Prog (TpuEff nD τ sig (Elt F) Λ₀ .tc) PUnit :=
  cc10__scatter_kernel_nocnt (grid10.coords t) tbM10_0 htbM10_0 tbM10_1 htbM10_1 (st10_0 a t) (hst10_0 a t) (st10_1 a t) (hst10_1 a t) (st10_2 a t) (hst10_2 a t) scM10_0 hscM10_0

end Cert.Kernel.Hand

end
-- ==== Proof.K.Scatter10Dat.lean ====
import proofs.«411563_j39152921870698_3_alg».proof.Proof.K.Scatter10Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (a : (pcfg10 (F := F)).Adm) (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

abbrev msgBlk10 (a : (pcfg10 (F := F)).Adm) (c : Dev nD) (t : Fin (cfg10 a).N) : Vec F S2048x128 .bf16 := iblk10 V a c 0 t
abbrev idxBlk10 (a : (pcfg10 (F := F)).Adm) (c : Dev nD) (t : Fin (cfg10 a).N) : Vec F S1x2048 .i32 := iblk10 V a c 1 t

abbrev lo10 (a : (pcfg10 (F := F)).Adm) (c : Dev nD) (t : Fin (cfg10 a).N) : BitVec 32 := word10 c tbM10_0 (grid10.coords t) (a.1 0)
abbrev hi10 (a : (pcfg10 (F := F)).Adm) (c : Dev nD) (t : Fin (cfg10 a).N) : BitVec 32 := word10 c tbM10_1 (grid10.coords t) (a.1 1)
abbrev guard10 (a : (pcfg10 (F := F)).Adm) (c : Dev nD) (t : Fin (cfg10 a).N) : Prop := cond10_2 (grid10.coords t) (lo10 a c t) (hi10 a c t)

def step10 (a : (pcfg10 (F := F)).Adm) (c : Dev nD) (t : Fin (cfg10 a).N) (s : Vec F S2000x128 .f32) : Vec F S2000x128 .f32 :=
  if guard10 a c t then k10_pay2 (grid10.coords t) (idxBlk10 V a c t) (msgBlk10 V a c t) s else s
def stepN10 (a : (pcfg10 (F := F)).Adm) (c : Dev nD) (n : ℕ) (s : Vec F S2000x128 .f32) : Vec F S2000x128 .f32 :=
  if h : n < (cfg10 a).N then step10 V a c ⟨n, h⟩ s else s

def sAfter10 (a : (pcfg10 (F := F)).Adm) (c : Dev nD) : ℕ → Vec F S2000x128 .f32
  | 0 => stepN10 V a c 0 k10_pay1
  | n + 1 => if (n + 1) % 293 = 0 then stepN10 V a c (n + 1) k10_pay1 else stepN10 V a c (n + 1) (sAfter10 a c n)

theorem sAfter10_reset (a : (pcfg10 (F := F)).Adm) (c : Dev nD) (n : ℕ) (h : n % 293 = 0) :
    sAfter10 V a c n = stepN10 V a c n k10_pay1 := by
  cases n with
  | zero => rfl
  | succ n => exact if_pos h
theorem sAfter10_step (a : (pcfg10 (F := F)).Adm) (c : Dev nD) (n : ℕ) (h : ¬ n % 293 = 0) :
    sAfter10 V a c n = stepN10 V a c n (sAfter10 V a c (n - 1)) := by
  cases n with
  | zero => exact absurd (Nat.zero_mod _) h
  | succ n => exact if_neg h
theorem stepN10_at (a : (pcfg10 (F := F)).Adm) (c : Dev nD) (t : Fin (cfg10 a).N) (s : Vec F S2000x128 .f32) :
    stepN10 V a c t.val s = step10 V a c t s := dif_pos t.isLt
set_option maxHeartbeats 4000000 in
theorem prefHeld10_eq (c : Dev nD) (v : pre10.Contents (Elt F)) :
    (Pipeline.prefHeld (Ix := Unit) (Name := ℕ) (U := UR sig nD τ) (Lvl := ℕ) pre10 c (fun _ => fullShare) v : sProp 𝕄)
      = iprop(tbPt10 c tbM10_0 (v 0) ∗ tbPt10 c tbM10_1 (v 1)) := by
  unfold Pipeline.prefHeld
  rw [show (Finset.univ : Finset (Fin 2)) = insert (0 : Fin 2) {(1 : Fin 2)} from by decide,
    bigSep_insert (by decide), bigSep_singleton]
  rfl

def Φ10 (a : (pcfg10 (F := F)).Adm) (c : Dev nD) (n : ℕ) : sProp 𝕄 :=
  iprop((∃ r, prngReg c r) ∗ tbPt10 c tbM10_0 (a.1 0) ∗ tbPt10 c tbM10_1 (a.1 1)
    ∗ Pipeline.scopedRestBut (Ix := Unit) (Name := ℕ) (U := UR sig nD τ) (Lvl := ℕ) (Val := Elt F) spec10 c [cc10_scratch0]
    ∗ (∃ X, owns (c : Thread nD τ) scM10_0 fullShare X ∗ ⌜¬ n % 293 = 0 → X = sAfter10 V a c (n - 1)⌝))

def dat10 (a : (pcfg10 (F := F)).Adm) (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => sAfter10 V a c t.val
  Φ t := Φ10 V a c t.val
  q _ := fullShare
  owed _ := 0

theorem A_eq10 (a : (pcfg10 (F := F)).Adm) (c : Dev nD) (w : Fin (cfg10 a).W) : (dat10 V a c).A w = V c (Pipeline.arrRef spec10 w) := by
  dsimp only [dat10]
theorem after10_0 (a : (pcfg10 (F := F)).Adm) (c : Dev nD) (t : Fin (cfg10 a).N) : (dat10 V a c).after 0 t = iblk10 V a c 0 t := by dsimp only [dat10]; try rfl
theorem after10_1 (a : (pcfg10 (F := F)).Adm) (c : Dev nD) (t : Fin (cfg10 a).N) : (dat10 V a c).after 1 t = iblk10 V a c 1 t := by dsimp only [dat10]; try rfl
theorem after10_2 (a : (pcfg10 (F := F)).Adm) (c : Dev nD) (t : Fin (cfg10 a).N) : (dat10 V a c).after 2 t = sAfter10 V a c t.val := by dsimp only [dat10]; try rfl
theorem before10_0 (a : (pcfg10 (F := F)).Adm) (c : Dev nD) (t : Fin (cfg10 a).N) (d) : (dat10 V a c).before 0 t d = iblk10 V a c 0 t :=
  ((dat10 V a c).before_in_eq_fetched 0 rfl (fun _ => rfl) (fun _ _ _ => rfl) (fun _ => rfl) t d).trans rfl
theorem before10_1 (a : (pcfg10 (F := F)).Adm) (c : Dev nD) (t : Fin (cfg10 a).N) (d) : (dat10 V a c).before 1 t d = iblk10 V a c 1 t :=
  ((dat10 V a c).before_in_eq_fetched 1 rfl (fun _ => rfl) (fun _ _ _ => rfl) (fun _ => rfl) t d).trans rfl

theorem hin10 (a : (pcfg10 (F := F)).Adm) (c : Dev nD) :
    iprop((∃ r, prngReg c r) ∗ Pipeline.prefHeld (Ix := Unit) (Name := ℕ) (U := UR sig nD τ) (Lvl := ℕ) pre10 c (fun _ => fullShare) a.1
        ∗ Pipeline.scopedRest (Ix := Unit) (Name := ℕ) (U := UR sig nD τ) (Lvl := ℕ) (Val := Elt F) spec10 c)
      ⊢ (dat10 V a c).Φ 0 := by
  rw [show (dat10 V a c).Φ 0 = Φ10 V a c 0 from rfl, prefHeld10_eq, scopedRest10_split]; unfold Φ10
  iintro ⟨Hr, ⟨HT0, HT1⟩, ⟨%f, Hs⟩, Hrest⟩
  iframe Hr HT0 HT1 Hrest
  iexists f; isplitl [Hs]
  · simp only [scM10_0, owns_whole]; iexact Hs
  · ipureintro; intro h; exact absurd (Nat.zero_mod 293) h

theorem hout10 (a : (pcfg10 (F := F)).Adm) (c : Dev nD) :
    (dat10 V a c).Φ (Fin.last (cfg10 a).N)
      ⊢ iprop(iprop((∃ r, prngReg c r) ∗ Pipeline.prefHeld (Ix := Unit) (Name := ℕ) (U := UR sig nD τ) (Lvl := ℕ) pre10 c (fun _ => fullShare) a.1)
          ∗ Pipeline.scopedRest (Ix := Unit) (Name := ℕ) (U := UR sig nD τ) (Lvl := ℕ) (Val := Elt F) spec10 c) := by
  rw [show (dat10 V a c).Φ (Fin.last (cfg10 a).N) = Φ10 V a c (cfg10 a).N from rfl, prefHeld10_eq, scopedRest10_split]; unfold Φ10
  iintro ⟨Hr, HT0, HT1, Hrest, ⟨%X, Hs, -⟩⟩
  iframe Hr HT0 HT1 Hrest
  iexists X; simp only [scM10_0, owns_whole]; iexact Hs

end Cert.Kernel.Hand

end
-- ==== Proof.K.Scatter10Runs.lean ====
import proofs.«411563_j39152921870698_3_alg».proof.Proof.K.Scatter10Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid10.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole)
    (x0 : Vec F S2048x128 .bf16) (x1 : Vec F S1x2048 .i32) (d2 s : Vec F S2000x128 .f32)
    (xt0 : TbBuf10 (F := F) c tbM10_0) (xt1 : TbBuf10 (F := F) c tbM10_1)

-- The scratch after the body: zeroed where the first conditional holds, then the one-hot product added where the word condition holds.
def scr10 : Vec F S2000x128 .f32 :=
  if cond10_2 i (word10 c tbM10_0 i xt0) (word10 c tbM10_1 i xt1) then k10_pay2 i x1 x0 (if cond10_1 i then k10_pay1 else s)
  else if cond10_1 i then k10_pay1 else s

set_option maxHeartbeats 4000000 in
-- One run of the body, by cases on the three conditionals: inputs and tables unchanged, the scratch at scr10, the output operand at scr10 where the third conditional holds.
theorem run10 (hne : cond10_1 i → ¬cond10_3 i) (E : Set ℕ) (K : PUnit → sProp 𝕄) :
    iprop(owns (c : Thread nD τ) arg4 fullShare x0 ∗ owns (c : Thread nD τ) arg5 fullShare x1 ∗ owns (c : Thread nD τ) arg6 fullShare d2
        ∗ owns (c : Thread nD τ) scM10_0 fullShare s ∗ tbPt10 c tbM10_0 xt0 ∗ tbPt10 c tbM10_1 xt1
        ∗ (iprop(owns (c : Thread nD τ) arg4 fullShare x0 ∗ owns (c : Thread nD τ) arg5 fullShare x1
            ∗ owns (c : Thread nD τ) arg6 fullShare (if cond10_3 i then scr10 c i x0 x1 s xt0 xt1 else d2)
            ∗ owns (c : Thread nD τ) scM10_0 fullShare (scr10 c i x0 x1 s xt0 xt1) ∗ tbPt10 c tbM10_0 xt0 ∗ tbPt10 c tbM10_1 xt1) -∗ K ⟨⟩))
      ⊢ wp frame (wpE (defs₀ (F := F)) Variants.none c none) E (cc10__scatter_kernel_nocnt i tbM10_0 htbM10_0 tbM10_1 htbM10_1 arg4 harg4 arg5 harg5 arg6 harg6 scM10_0 hscM10_0) K := by
  unfold scr10
  by_cases h1 : cond10_1 i <;> by_cases h2 : cond10_2 i (word10 c tbM10_0 i xt0) (word10 c tbM10_1 i xt1) <;> by_cases h3 : cond10_3 i <;>
    first | exact absurd h3 (hne h1) | skip
  all_goals
    first | rw [if_pos h3] | rw [if_neg h3]
    first | rw [if_pos h2] | rw [if_neg h2]
    first | rw [if_pos h1] | rw [if_neg h1]
    simp only [cc10__scatter_kernel_nocnt_eq_skeleton]; unfold cc10__scatter_kernel_nocnt_skel
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM10_0.eq_unread hfs
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      first
        | (have _ : ¬cond10_3 i := h3; exact harg6.read_unread _)
        | (refine (read_writes_whole10 (S := S2000x128) _ _ hz2_10 _ _ _).trans ?_
           try sl_unfold_words
           try simp only [View.readCov_unit_zero (S := S2000x128) _ hz2_10, View.readAt_eq_ld, Memref.IsWhole.read_unread, View.ld_unit_zero (S := S2000x128) hz2_10, View.ld_unit_zero (S := S2048x128) hz2_10, View.ld_unit_zero (S := S1x2048) hz2_10]
           all_goals first | (have _ : ¬cond10_2 i _ _ := h2; exact hfs) | exact congrArg (k10_pay2 i x1 x0) hfs)
    isplitl [HS]
    · iexists _; isplitr; swap; · iexact HS
      ipureintro
      first
        | (have _ : ¬cond10_2 i _ _ := h2; first | (have _ : ¬cond10_1 i := h1; exact hscM10_0.read_unread _) | exact read_writes_whole10 (S := S2000x128) _ _ hz2_10 _ _ _)
        | (refine (read_writes_whole10 (S := S2000x128) _ _ hz2_10 _ _ _).trans ?_
           try sl_unfold_words
           try simp only [View.readCov_unit_zero (S := S2000x128) _ hz2_10, View.readAt_eq_ld, Memref.IsWhole.read_unread, View.ld_unit_zero (S := S2000x128) hz2_10, View.ld_unit_zero (S := S2048x128) hz2_10, View.ld_unit_zero (S := S1x2048) hz2_10]
           all_goals first
             | (have _ : ¬cond10_1 i := h1; exact congrArg (k10_pay2 i x1 x0) hfs)
             | exact congrArg (k10_pay2 i x1 x0) (View.readCov_unit_zero (S := S2000x128) _ hz2_10 _ _))
    isplitl [HT0]; · iexact HT0
    iexact HT1

end Run

end Cert.Kernel.Hand

end
-- ==== Proof.K.Scatter10.lean ====
import proofs.«411563_j39152921870698_3_alg».proof.Proof.K.Scatter10Dat
import proofs.«411563_j39152921870698_3_alg».proof.Proof.K.Scatter10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section BodyS
variable (V : (c : Dev nD) → (b : Ref sig .tc) → Buf (Elt F) ((c : Thread nD τ).loc b))

-- From what the invariant says the scratch held before point t, the body's result there is what the accumulation says.
theorem sAfter10_eq (a : (pcfg10 (F := F)).Adm) (c : Dev nD) (t : Fin (cfg10 a).N) (X : Vec F S2000x128 .f32)
    (hX : ¬ t.val % 293 = 0 → X = sAfter10 V a c (t.val - 1)) :
    scr10 c (grid10.coords t) (msgBlk10 V a c t) (idxBlk10 V a c t) X (a.1 0) (a.1 1) = sAfter10 V a c t.val := by
  unfold scr10
  by_cases h0 : t.val % 293 = 0
  · rw [sAfter10_reset V a c t.val h0, stepN10_at, if_pos ((hcond10_1 t).mpr h0)]; rfl
  · rw [sAfter10_step V a c t.val h0, stepN10_at, if_neg (mt (hcond10_1 t).mp h0), hX h0]; rfl

-- What the obligation asks of the output operand at point t follows from its contents after the body, in both cases of the third conditional.
theorem leaves10 (a : (pcfg10 (F := F)).Adm) (c : Dev nD) (t : Fin (cfg10 a).N) (d) (D : Vec F S2000x128 .f32) (hD : D = (dat10 V a c).before 2 t d) :
    owns (c : Thread nD τ) (st10_2 a t) fullShare (if cond10_3 (grid10.coords t) then sAfter10 V a c t.val else D) ⊢ (dat10 V a c).leavesExact 2 t := by
  by_cases h3 : t.val % 293 = 292
  · have hi : (cfg10 a).idle 2 ((cfg10 a).grid.coords t) = false := by rw [idle10_2, decide_eq_true h3]; rfl
    rw [if_pos ((hcond10_3 t).mpr h3)]; unfold Dat.leavesExact; rw [hi]; dsimp only; rw [after10_2]; exact .rfl
  · have hi : (cfg10 a).idle 2 ((cfg10 a).grid.coords t) = true := by rw [idle10_2, decide_eq_false h3]; rfl
    rw [if_neg (mt (hcond10_3 t).mp h3), (dat10 V a c).leavesExact_idle 2 t hi (Bool.eq_false_iff.mpr fun h => h3 ((flush10_2 a t).mp h))]
    subst hD; iintro H; iexists d; iexact H

def bodyPre10 (a : (pcfg10 (F := F)).Adm) (c : Dev nD) (t : Fin (cfg10 a).N) : sProp 𝕄 :=
  iprop((dat10 V a c).Φ t.castSucc ∗ (dat10 V a c).owesAt () t.castSucc
    ∗ (∃ d, owns (c : Thread nD τ) (st10_0 a t) fullShare ((dat10 V a c).before 0 t d))
    ∗ (∃ d, owns (c : Thread nD τ) (st10_1 a t) fullShare ((dat10 V a c).before 1 t d))
    ∗ (∃ d, owns (c : Thread nD τ) (st10_2 a t) fullShare ((dat10 V a c).before 2 t d)))
def bodyPost10 (a : (pcfg10 (F := F)).Adm) (c : Dev nD) (t : Fin (cfg10 a).N) : sProp 𝕄 :=
  iprop((dat10 V a c).Φ t.succ ∗ (dat10 V a c).owesAt () t.succ
    ∗ owns (c : Thread nD τ) (st10_0 a t) fullShare ((dat10 V a c).after 0 t)
    ∗ owns (c : Thread nD τ) (st10_1 a t) fullShare ((dat10 V a c).after 1 t)
    ∗ (dat10 V a c).leavesExact 2 t)

set_option maxHeartbeats 1600000 in
-- The invariant and the operands' contents at point t give the body's precondition; its postcondition gives them back at the next point.
theorem sound_body10 (a : (pcfg10 (F := F)).Adm) (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10
  simp only [before10_0, before10_1]
  rw [show (dat10 V a c).owesAt () t.succ = (dat10 V a c).owesAt () t.castSucc from rfl,
    show (dat10 V a c).Φ t.castSucc = Φ10 V a c t.castSucc.val from rfl, show (dat10 V a c).Φ t.succ = Φ10 V a c t.succ.val from rfl,
    after10_0, after10_1, Fin.coe_castSucc, Fin.val_succ]
  unfold Φ10
  iintro ⟨⟨Hr, HT0, HT1, Hrest, ⟨%X, HS, %hX⟩⟩, Ho, ⟨%d0, H0⟩, ⟨%d1, H1⟩, ⟨%d2, H2⟩⟩
  iapply (run10 c (grid10.coords t) (st10_0 a t) (hst10_0 a t) (st10_1 a t) (hst10_1 a t) (st10_2 a t) (hst10_2 a t) (msgBlk10 V a c t) (idxBlk10 V a c t)
    ((dat10 V a c).before 2 t d2) X (a.1 0) (a.1 1) (fun h1 h3 => by have := (hcond10_1 t).mp h1; have := (hcond10_3 t).mp h3; omega) Set.univ _)
  rw [sAfter10_eq V a c t X hX]
  iframe H0 H1 H2 HS HT0 HT1
  iintro ⟨H0, H1, H2, HS, HT0, HT1⟩
  iframe Hr HT0 HT1 Hrest Ho H0 H1
  isplitl [HS]
  · iexists _; iframe HS; ipureintro; intro _; rw [Nat.add_sub_cancel]
  iapply (leaves10 V a c t d2 _ rfl); iexact H2

theorem body_obligation10 (a : (pcfg10 (F := F)).Adm) (c : Dev nD) :
    BodyObligation (dat10 (F := F) V a c) (defs₀ (F := F)) Variants.none () Set.univ := fun t => by
  rw [bigSep_W10, bigSep_W10]
  exact sound_body10 V a c t

end BodyS

end Cert.Kernel.Hand

end
-- ==== Proof.K.Linear11.lean ====
import proofs.«411563_j39152921870698_3_alg».proof.Proof.Gen.Kernel.Launch
import proofs.«411563_j39152921870698_3_alg».proof.Proof.Gen.Kernel.Skeleton
import proofs.«411563_j39152921870698_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem uncut11_0 : ∀ (t : Fin cfg11.N) (a : Fin 2), (cfg11.win 0).clip (cfg11.grid.coords t) a = none :=
  (by decide +kernel : ∀ (t : Fin grid11.N) (a : Fin 2), win11_0.clip (grid11.coords t) a = none)
theorem uncut11_1 : ∀ (t : Fin cfg11.N) (a : Fin 2), (cfg11.win 1).clip (cfg11.grid.coords t) a = none :=
  (by decide +kernel : ∀ (t : Fin grid11.N) (a : Fin 2), win11_1.clip (grid11.coords t) a = none)

def sblk11_0 (c : Dev nD) (t : Fin cfg11.N) : Vec F S5000x128 .f32 :=
  (cfg11.win 0).fill (cfg11.grid.coords t) (fun _ => Scalar.ofBits .f32 0#32) (iblk11 V c 0 t)
def sblk11_1 (c : Dev nD) (t : Fin cfg11.N) : Vec F S5000x1 .f32 :=
  (cfg11.win 1).fill (cfg11.grid.coords t) (fun _ => Scalar.ofBits .f32 0#32) (iblk11 V c 1 t)

abbrev r11_0 : Rect S5000x1 := Rect.unit (s := S5000x1) ![0, 0] S5000x1.size inb_S5000x1_S5000x1_0_0
abbrev r11_1 : Rect S5000x128 := Rect.unit (s := S5000x128) ![0, 0] S5000x128.size inb_S5000x128_S5000x128_0_0
abbrev r11_2 : Rect S128x128 := Rect.unit (s := S128x128) ![0, 0] S128x128.size inb_S128x128_S128x128_0_0
abbrev r11_3 : Rect S128 := Rect.unit (s := S128) ![0] S128.size inb_S128_S128_0

def out11_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r11_1, k11_pay1 (View.ld x1 r11_0) (View.ld x0 r11_1) (View.ld x2 r11_1) (View.ld x3 r11_2) (View.ld x5 r11_2) (View.ld x4 r11_3)⟩]

def dat11 (c : Dev nD) : Dat τ (Elt F) Unit ℕ (UR sig nD τ) ℕ cfg11 c where
  A w := V c (Pipeline.arrRef spec11 w)
  after w t := match w with
    | ⟨0, _⟩ => sblk11_0 V c t
    | ⟨1, _⟩ => sblk11_1 V c t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (sblk11_0 V c t) (sblk11_1 V c t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_6 (c : Dev nD) (t : Fin cfg11.N) : (dat11 V c).after 6 t
    = out11_6 (sblk11_0 V c t) (sblk11_1 V c t) (iblk11 V c 2 t) (iblk11 V c 3 t) (iblk11 V c 4 t) (iblk11 V c 5 t) := by dsimp only [dat11]

theorem before11_0 (c : Dev nD) (t : Fin cfg11.N) (d) : (dat11 V c).before 0 t d = sblk11_0 V c t := by
  unfold Dat.before; rw [if_pos (fetch11_0 t)]
  exact (dat11 V c).fetched_of_clip_none 0 t (uncut11_0 t) d _
theorem before11_1 (c : Dev nD) (t : Fin cfg11.N) (d) : (dat11 V c).before 1 t d = sblk11_1 V c t := by
  unfold Dat.before; rw [if_pos (fetch11_1 t)]
  exact (dat11 V c).fetched_of_clip_none 1 t (uncut11_1 t) d _

theorem before11_2 (c : Dev nD) (t : Fin cfg11.N) (d) : (dat11 V c).before 2 t d = iblk11 V c 2 t :=
  (dat11 V c).before_in_eq_fetched 2 rfl (fun _ => rfl) (fun _ _ _ => rfl) (fun _ => rfl) t d
theorem before11_3 (c : Dev nD) (t : Fin cfg11.N) (d) : (dat11 V c).before 3 t d = iblk11 V c 3 t :=
  (dat11 V c).before_in_eq_fetched 3 rfl (fun _ => rfl) (fun _ _ _ => rfl) (fun _ => rfl) t d
theorem before11_4 (c : Dev nD) (t : Fin cfg11.N) (d) : (dat11 V c).before 4 t d = iblk11 V c 4 t :=
  (dat11 V c).before_in_eq_fetched 4 rfl (fun _ => rfl) (fun _ _ _ => rfl) (fun _ => rfl) t d
theorem before11_5 (c : Dev nD) (t : Fin cfg11.N) (d) : (dat11 V c).before 5 t d = iblk11 V c 5 t :=
  (dat11 V c).before_in_eq_fetched 5 rfl (fun _ => rfl) (fun _ _ _ => rfl) (fun _ => rfl) t d

set_option maxHeartbeats 1000000 in
theorem body_obligation11 (c : Dev nD) : BodyObligation (dat11 (F := F) V c) (defs₀ (F := F)) Variants.none () Set.univ := fun t => by
  rw [bigSep_W11, bigSep_W11]
  dsimp only
  simp only [before11_0, before11_1, before11_2, before11_3, before11_4, before11_5]
  rw [show (dat11 V c).Φ t.succ = (dat11 V c).Φ t.castSucc from rfl,
    show (dat11 V c).owesAt () t.succ = (dat11 V c).owesAt () t.castSucc from rfl]
  dsimp only [dat11]
  show _ ⊢ wp _ _ _ (bodyAt11 t) _
  unfold bodyAt11
  generalize sblk11_0 V c t = x0, sblk11_1 V c t = x1, iblk11 V c 2 t = x2, iblk11 V c 3 t = x3, iblk11 V c 4 t = x4, iblk11 V c 5 t = x5
  simp only [cc11__linear_kernel_eq_skeleton]; unfold cc11__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.Kernel.Hand
-- ==== Proof.LibRun.lean ====
import Idealize.ShloMosaic.Lib.Pipeline.FrameSuffix
import Idealize.ShloMosaic.Lib.Pipeline.FrameBody

namespace Cert.LibRun

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ₀ : Idealize.SL.Sem.Labels}
variable {Ix : Type} [DecidableEq Ix] {Name : Type} [DecidableEq Name] {U : Type} [URA U] {Lvl : Type}

-- A buffer that is no array of the pipeline is left as it was.
theorem withArrays_rest {gr W : ℕ} (win : Fin W → WinSpec sig gr) (c : Dev nD) (V : Valuation τ sig Val)
    (A : (w : Fin W) → Buf Val ((win w).arr.view.loc (c.tc : Thread nD τ))) (b : Ref sig .tc)
    (hb : b ∉ Finset.univ.image (arrRef win)) : withArrays win c V A (Proc.devRef .tc b) = V (Proc.devRef .tc b) :=
  withArrays_of_ne win c V A b fun w e => hb (Finset.mem_image.mpr ⟨w, Finset.mem_univ _, e⟩)

-- The array of an input window keeps its entry contents, so only the arrays of output windows differ from the entry valuation.
theorem withArrays_keeps {cfg : Cfg sig Λ₀} {c : Dev nD} (dat : Dat τ Val Ix Name U Lvl cfg c)
    (hinj : Function.Injective (arrRef cfg.spec)) (V : Valuation τ sig Val)
    (hA : ∀ w, dat.A w = V (Proc.devRef .tc (arrRef cfg.spec w))) (outs : List (Ref sig .tc))
    (hout : ∀ w, arrRef cfg.spec w ∉ outs → (cfg.win w).isOut = false) (r : Ref sig .tc) (h : r ∉ outs) :
    withArrays cfg.spec c V (fun w => dat.arrAt w cfg.N) (Proc.devRef .tc r) = V (Proc.devRef .tc r) := by
  by_cases hr : ∃ w, arrRef cfg.spec w = r
  · obtain ⟨w, rfl⟩ := hr
    exact (withArrays_arr cfg.spec hinj c V _ w).trans ((dat.arrAt_in w (hout w h) _).trans (hA w))
  · exact withArrays_of_ne cfg.spec c V _ r fun w e => hr ⟨w, e⟩

local notation "𝕄" => MT nD τ sig Unit Val ℕ U ℕ

-- The unscoped buffers that are no array split into the prefetched tables, named at their contents, and the rest.
theorem unscopedRest_at {gr W : ℕ} {win : Fin W → WinSpec sig gr} {pre : Prefetch sig} (hp : PreFacts win pre) (c : Dev nD)
    (V : (b : Ref sig .tc) → Buf Val ((c.tc : Thread nD τ).loc b)) {t : pre.Contents Val} (ht : (fun k => V (pre.ref k)) = t) :
    (unscopedRest win c V : sProp 𝕄) = iprop(prefHeld pre c (fun _ => fullShare) t ∗ unscopedRestP pre win c V) := by
  subst ht; exact unscopedRest_split hp c V

-- A conjunct the invariant does not ask for is dropped.
theorem drop_mid {P X R Q : sProp 𝕄} (h : iprop(P ∗ R) ⊢ Q) : iprop(P ∗ X ∗ R) ⊢ Q := by
  iintro ⟨Hp, -, Hr⟩
  iapply h
  isplitl [Hp]; · iexact Hp
  iexact Hr

-- Over an empty family of semaphores the semaphores' conjunct is the empty one.
theorem add_noSems {c : Dev nD} {P R Q : sProp 𝕄} (h : Q ⊢ iprop(P ∗ R)) :
    Q ⊢ iprop(P ∗ ownSems0 (fun k : PEmpty => k.elim) c ∗ R) := by
  rw [ownSems0_none]
  refine h.trans ?_
  iintro ⟨Hp, Hr⟩
  isplitl [Hp]; · iexact Hp
  isplitr; · iempintro
  iexact Hr

-- The invariant of a kernel that keeps nothing between points holds at the region's entry and gives the exit.
theorem ΦA_in {gr W : ℕ} (win : Fin W → WinSpec sig gr) (c : Dev nD) {X : sProp 𝕄} :
    iprop((∃ r, prngReg c r) ∗ X ∗ scopedRest win c) ⊢ ΦA win c := by
  unfold ΦA
  iintro ⟨Hp, -, Hr⟩
  isplitl [Hr]; · iexact Hr
  iexact Hp
theorem ΦA_out {gr W : ℕ} (win : Fin W → WinSpec sig gr) (c : Dev nD) :
    ΦA win c ⊢ (iprop((∃ r, prngReg c r) ∗ ownSems0 (fun k : PEmpty => k.elim) c ∗ scopedRest win c) : sProp 𝕄) := by
  rw [ownSems0_none]; unfold ΦA
  iintro ⟨Hr, Hp⟩
  isplitl [Hp]; · iexact Hp
  isplitr; · iempintro
  iexact Hr

end Cert.LibRun
-- ==== Proof.K.RunAdapt.lean ====
import proofs.«411563_j39152921870698_3_alg».proof.Proof.K.Gather0
import proofs.«411563_j39152921870698_3_alg».proof.Proof.K.ScatterCnt1
import proofs.«411563_j39152921870698_3_alg».proof.Proof.K.Linear2
import proofs.«411563_j39152921870698_3_alg».proof.Proof.K.Gather3
import proofs.«411563_j39152921870698_3_alg».proof.Proof.K.ScatterCnt4
import proofs.«411563_j39152921870698_3_alg».proof.Proof.K.Linear5
import proofs.«411563_j39152921870698_3_alg».proof.Proof.K.Gather6
import proofs.«411563_j39152921870698_3_alg».proof.Proof.K.Scatter7
import proofs.«411563_j39152921870698_3_alg».proof.Proof.K.Linear8
import proofs.«411563_j39152921870698_3_alg».proof.Proof.K.Gather9
import proofs.«411563_j39152921870698_3_alg».proof.Proof.K.Scatter10
import proofs.«411563_j39152921870698_3_alg».proof.Proof.K.Linear11
import proofs.«411563_j39152921870698_3_alg».proof.Proof.LibRun

set_option maxRecDepth 1648

noncomputable section

namespace Cert.Kernel.Hand

open Cert.Kernel Cert.Kernel.Gen Cert.LibRun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Adapt
variable (V : (c : Dev nD) → (b : Ref sig .tc) → Buf (Elt F) ((c : Thread nD τ).loc b))

abbrev rdat0 (c : Dev nD) : Dat τ (Elt F) Unit ℕ (UR sig nD τ) ℕ cfg0 c := dat0 V c
theorem rA_eq0 (c : Dev nD) (w : Fin cfg0.W) : (rdat0 V c).A w = V c (Pipeline.arrRef spec0 w) := A_eq0 V c w
theorem rq_eq0 (c : Dev nD) (w : Fin cfg0.W) : (rdat0 V c).q w = fullShare := q_eq0 V c w
theorem rowed_eq0 (c : Dev nD) (t : Fin (cfg0.N + 1)) : (rdat0 V c).owed t = 0 := owed_eq0 V c t
theorem rbody0 (c : Dev nD) : BodyObligation (rdat0 (F := F) V c) (defs₀ (F := F)) Variants.none () Set.univ := body_obligation0 V c
theorem rhin0 (c : Dev nD) : (iprop((∃ r, prngReg c r) ∗ Pipeline.prefHeld (cfg0.toPCfg (Val := Elt F)).pre c (fun _ => fullShare) (cfg0.toPCfg_adm (Val := Elt F)).1 ∗ Pipeline.scopedRest spec0 c) : sProp 𝕄) ⊢ (rdat0 V c).Φ 0 := drop_mid (hin0 V c)
theorem rhout0 (c : Dev nD) : (rdat0 V c).Φ (Fin.last _) ⊢ (iprop((∃ r, prngReg c r) ∗ Pipeline.ownSems0 (fun k : PEmpty => k.elim) c ∗ Pipeline.scopedRest spec0 c) : sProp 𝕄) := add_noSems (hout0 V c)

abbrev rdat1 (a : (pcfg1 (F := F)).Adm) (c : Dev nD) : Dat τ (Elt F) Unit ℕ (UR sig nD τ) ℕ (cfg1 a) c := ScatterCnt1.dat1 V a c
theorem rA_eq1 (a : (pcfg1 (F := F)).Adm) (c : Dev nD) (w : Fin (cfg1 a).W) : (rdat1 V a c).A w = V c (Pipeline.arrRef spec1 w) := ScatterCnt1.A_eq1 V a c w
theorem rq_eq1 (a : (pcfg1 (F := F)).Adm) (c : Dev nD) (w : Fin (cfg1 a).W) : (rdat1 V a c).q w = fullShare := rfl
theorem rowed_eq1 (a : (pcfg1 (F := F)).Adm) (c : Dev nD) (t : Fin ((cfg1 a).N + 1)) : (rdat1 V a c).owed t = 0 := rfl
theorem rbody1 (a : (pcfg1 (F := F)).Adm) (c : Dev nD) : BodyObligation (rdat1 (F := F) V a c) (defs₀ (F := F)) Variants.none () Set.univ := ScatterCnt1.body_obligation1 V a c
theorem rhin1 (a : (pcfg1 (F := F)).Adm) (c : Dev nD) : (iprop((∃ r, prngReg c r) ∗ Pipeline.prefHeld pre1 c (fun _ => fullShare) a.1 ∗ Pipeline.scopedRest spec1 c) : sProp 𝕄) ⊢ (rdat1 V a c).Φ 0 := ScatterCnt1.hin1 V a c
theorem rhout1 (a : (pcfg1 (F := F)).Adm) (c : Dev nD) : (rdat1 V a c).Φ (Fin.last _) ⊢ (iprop(((∃ r, prngReg c r) ∗ Pipeline.prefHeld pre1 c (fun _ => fullShare) a.1) ∗ Pipeline.ownSems0 (fun k : PEmpty => k.elim) c ∗ Pipeline.scopedRest spec1 c) : sProp 𝕄) := ScatterCnt1.hout1 V a c

abbrev rdat2 (c : Dev nD) : Dat τ (Elt F) Unit ℕ (UR sig nD τ) ℕ cfg2 c := dat2 V c
theorem rA_eq2 (c : Dev nD) (w : Fin cfg2.W) : (rdat2 V c).A w = V c (Pipeline.arrRef spec2 w) := A_eq2 V c w
theorem rq_eq2 (c : Dev nD) (w : Fin cfg2.W) : (rdat2 V c).q w = fullShare := rfl
theorem rowed_eq2 (c : Dev nD) (t : Fin (cfg2.N + 1)) : (rdat2 V c).owed t = 0 := rfl
theorem rbody2 (c : Dev nD) : BodyObligation (rdat2 (F := F) V c) (defs₀ (F := F)) Variants.none () Set.univ := body_obligation2 V c
theorem rhin2 (c : Dev nD) : (iprop((∃ r, prngReg c r) ∗ Pipeline.prefHeld (cfg2.toPCfg (Val := Elt F)).pre c (fun _ => fullShare) (cfg2.toPCfg_adm (Val := Elt F)).1 ∗ Pipeline.scopedRest spec2 c) : sProp 𝕄) ⊢ (rdat2 V c).Φ 0 := ΦA_in spec2 c
theorem rhout2 (c : Dev nD) : (rdat2 V c).Φ (Fin.last _) ⊢ (iprop((∃ r, prngReg c r) ∗ Pipeline.ownSems0 (fun k : PEmpty => k.elim) c ∗ Pipeline.scopedRest spec2 c) : sProp 𝕄) := ΦA_out spec2 c

abbrev rdat3 (c : Dev nD) : Dat τ (Elt F) Unit ℕ (UR sig nD τ) ℕ cfg3 c := dat3 V c
theorem rA_eq3 (c : Dev nD) (w : Fin cfg3.W) : (rdat3 V c).A w = V c (Pipeline.arrRef spec3 w) := A_eq3 V c w
theorem rq_eq3 (c : Dev nD) (w : Fin cfg3.W) : (rdat3 V c).q w = fullShare := q_eq3 V c w
theorem rowed_eq3 (c : Dev nD) (t : Fin (cfg3.N + 1)) : (rdat3 V c).owed t = 0 := owed_eq3 V c t
theorem rbody3 (c : Dev nD) : BodyObligation (rdat3 (F := F) V c) (defs₀ (F := F)) Variants.none () Set.univ := body_obligation3 V c
theorem rhin3 (c : Dev nD) : (iprop((∃ r, prngReg c r) ∗ Pipeline.prefHeld (cfg3.toPCfg (Val := Elt F)).pre c (fun _ => fullShare) (cfg3.toPCfg_adm (Val := Elt F)).1 ∗ Pipeline.scopedRest spec3 c) : sProp 𝕄) ⊢ (rdat3 V c).Φ 0 := drop_mid (hin3 V c)
theorem rhout3 (c : Dev nD) : (rdat3 V c).Φ (Fin.last _) ⊢ (iprop((∃ r, prngReg c r) ∗ Pipeline.ownSems0 (fun k : PEmpty => k.elim) c ∗ Pipeline.scopedRest spec3 c) : sProp 𝕄) := add_noSems (hout3 V c)

abbrev rdat4 (a : (pcfg4 (F := F)).Adm) (c : Dev nD) : Dat τ (Elt F) Unit ℕ (UR sig nD τ) ℕ (cfg4 a) c := ScatterCnt4.dat4 V a c
theorem rA_eq4 (a : (pcfg4 (F := F)).Adm) (c : Dev nD) (w : Fin (cfg4 a).W) : (rdat4 V a c).A w = V c (Pipeline.arrRef spec4 w) := ScatterCnt4.A_eq4 V a c w
theorem rq_eq4 (a : (pcfg4 (F := F)).Adm) (c : Dev nD) (w : Fin (cfg4 a).W) : (rdat4 V a c).q w = fullShare := rfl
theorem rowed_eq4 (a : (pcfg4 (F := F)).Adm) (c : Dev nD) (t : Fin ((cfg4 a).N + 1)) : (rdat4 V a c).owed t = 0 := rfl
theorem rbody4 (a : (pcfg4 (F := F)).Adm) (c : Dev nD) : BodyObligation (rdat4 (F := F) V a c) (defs₀ (F := F)) Variants.none () Set.univ := ScatterCnt4.body_obligation4 V a c
theorem rhin4 (a : (pcfg4 (F := F)).Adm) (c : Dev nD) : (iprop((∃ r, prngReg c r) ∗ Pipeline.prefHeld pre4 c (fun _ => fullShare) a.1 ∗ Pipeline.scopedRest spec4 c) : sProp 𝕄) ⊢ (rdat4 V a c).Φ 0 := ScatterCnt4.hin4 V a c
theorem rhout4 (a : (pcfg4 (F := F)).Adm) (c : Dev nD) : (rdat4 V a c).Φ (Fin.last _) ⊢ (iprop(((∃ r, prngReg c r) ∗ Pipeline.prefHeld pre4 c (fun _ => fullShare) a.1) ∗ Pipeline.ownSems0 (fun k : PEmpty => k.elim) c ∗ Pipeline.scopedRest spec4 c) : sProp 𝕄) := ScatterCnt4.hout4 V a c

abbrev rdat5 (c : Dev nD) : Dat τ (Elt F) Unit ℕ (UR sig nD τ) ℕ cfg5 c := dat5 V c
theorem rA_eq5 (c : Dev nD) (w : Fin cfg5.W) : (rdat5 V c).A w = V c (Pipeline.arrRef spec5 w) := A_eq5 V c w
theorem rq_eq5 (c : Dev nD) (w : Fin cfg5.W) : (rdat5 V c).q w = fullShare := rfl
theorem rowed_eq5 (c : Dev nD) (t : Fin (cfg5.N + 1)) : (rdat5 V c).owed t = 0 := rfl
theorem rbody5 (c : Dev nD) : BodyObligation (rdat5 (F := F) V c) (defs₀ (F := F)) Variants.none () Set.univ := body_obligation5 V c
theorem rhin5 (c : Dev nD) : (iprop((∃ r, prngReg c r) ∗ Pipeline.prefHeld (cfg5.toPCfg (Val := Elt F)).pre c (fun _ => fullShare) (cfg5.toPCfg_adm (Val := Elt F)).1 ∗ Pipeline.scopedRest spec5 c) : sProp 𝕄) ⊢ (rdat5 V c).Φ 0 := ΦA_in spec5 c
theorem rhout5 (c : Dev nD) : (rdat5 V c).Φ (Fin.last _) ⊢ (iprop((∃ r, prngReg c r) ∗ Pipeline.ownSems0 (fun k : PEmpty => k.elim) c ∗ Pipeline.scopedRest spec5 c) : sProp 𝕄) := ΦA_out spec5 c

abbrev rdat6 (c : Dev nD) : Dat τ (Elt F) Unit ℕ (UR sig nD τ) ℕ cfg6 c := dat6 V c
theorem rA_eq6 (c : Dev nD) (w : Fin cfg6.W) : (rdat6 V c).A w = V c (Pipeline.arrRef spec6 w) := A_eq6 V c w
theorem rq_eq6 (c : Dev nD) (w : Fin cfg6.W) : (rdat6 V c).q w = fullShare := q_eq6 V c w
theorem rowed_eq6 (c : Dev nD) (t : Fin (cfg6.N + 1)) : (rdat6 V c).owed t = 0 := owed_eq6 V c t
theorem rbody6 (c : Dev nD) : BodyObligation (rdat6 (F := F) V c) (defs₀ (F := F)) Variants.none () Set.univ := body_obligation6 V c
theorem rhin6 (c : Dev nD) : (iprop((∃ r, prngReg c r) ∗ Pipeline.prefHeld (cfg6.toPCfg (Val := Elt F)).pre c (fun _ => fullShare) (cfg6.toPCfg_adm (Val := Elt F)).1 ∗ Pipeline.scopedRest spec6 c) : sProp 𝕄) ⊢ (rdat6 V c).Φ 0 := drop_mid (hin6 V c)
theorem rhout6 (c : Dev nD) : (rdat6 V c).Φ (Fin.last _) ⊢ (iprop((∃ r, prngReg c r) ∗ Pipeline.ownSems0 (fun k : PEmpty => k.elim) c ∗ Pipeline.scopedRest spec6 c) : sProp 𝕄) := add_noSems (hout6 V c)

abbrev rdat7 (a : (pcfg7 (F := F)).Adm) (c : Dev nD) : Dat τ (Elt F) Unit ℕ (UR sig nD τ) ℕ (cfg7 a) c := dat7 V a c
theorem rA_eq7 (a : (pcfg7 (F := F)).Adm) (c : Dev nD) (w : Fin (cfg7 a).W) : (rdat7 V a c).A w = V c (Pipeline.arrRef spec7 w) := A_eq7 V a c w
theorem rq_eq7 (a : (pcfg7 (F := F)).Adm) (c : Dev nD) (w : Fin (cfg7 a).W) : (rdat7 V a c).q w = fullShare := rfl
theorem rowed_eq7 (a : (pcfg7 (F := F)).Adm) (c : Dev nD) (t : Fin ((cfg7 a).N + 1)) : (rdat7 V a c).owed t = 0 := rfl
theorem rbody7 (a : (pcfg7 (F := F)).Adm) (c : Dev nD) : BodyObligation (rdat7 (F := F) V a c) (defs₀ (F := F)) Variants.none () Set.univ := body_obligation7 V a c
theorem rhin7 (a : (pcfg7 (F := F)).Adm) (c : Dev nD) : (iprop((∃ r, prngReg c r) ∗ Pipeline.prefHeld pre7 c (fun _ => fullShare) a.1 ∗ Pipeline.scopedRest spec7 c) : sProp 𝕄) ⊢ (rdat7 V a c).Φ 0 := hin7 V a c
theorem rhout7 (a : (pcfg7 (F := F)).Adm) (c : Dev nD) : (rdat7 V a c).Φ (Fin.last _) ⊢ (iprop(((∃ r, prngReg c r) ∗ Pipeline.prefHeld pre7 c (fun _ => fullShare) a.1) ∗ Pipeline.ownSems0 (fun k : PEmpty => k.elim) c ∗ Pipeline.scopedRest spec7 c) : sProp 𝕄) := add_noSems (hout7 V a c)

abbrev rdat8 (c : Dev nD) : Dat τ (Elt F) Unit ℕ (UR sig nD τ) ℕ cfg8 c := dat8 V c
theorem rA_eq8 (c : Dev nD) (w : Fin cfg8.W) : (rdat8 V c).A w = V c (Pipeline.arrRef spec8 w) := A_eq8 V c w
theorem rq_eq8 (c : Dev nD) (w : Fin cfg8.W) : (rdat8 V c).q w = fullShare := rfl
theorem rowed_eq8 (c : Dev nD) (t : Fin (cfg8.N + 1)) : (rdat8 V c).owed t = 0 := rfl
theorem rbody8 (c : Dev nD) : BodyObligation (rdat8 (F := F) V c) (defs₀ (F := F)) Variants.none () Set.univ := body_obligation8 V c
theorem rhin8 (c : Dev nD) : (iprop((∃ r, prngReg c r) ∗ Pipeline.prefHeld (cfg8.toPCfg (Val := Elt F)).pre c (fun _ => fullShare) (cfg8.toPCfg_adm (Val := Elt F)).1 ∗ Pipeline.scopedRest spec8 c) : sProp 𝕄) ⊢ (rdat8 V c).Φ 0 := ΦA_in spec8 c
theorem rhout8 (c : Dev nD) : (rdat8 V c).Φ (Fin.last _) ⊢ (iprop((∃ r, prngReg c r) ∗ Pipeline.ownSems0 (fun k : PEmpty => k.elim) c ∗ Pipeline.scopedRest spec8 c) : sProp 𝕄) := ΦA_out spec8 c

abbrev rdat9 (c : Dev nD) : Dat τ (Elt F) Unit ℕ (UR sig nD τ) ℕ cfg9 c := dat9 V c
theorem rA_eq9 (c : Dev nD) (w : Fin cfg9.W) : (rdat9 V c).A w = V c (Pipeline.arrRef spec9 w) := A_eq9 V c w
theorem rq_eq9 (c : Dev nD) (w : Fin cfg9.W) : (rdat9 V c).q w = fullShare := q_eq9 V c w
theorem rowed_eq9 (c : Dev nD) (t : Fin (cfg9.N + 1)) : (rdat9 V c).owed t = 0 := owed_eq9 V c t
theorem rbody9 (c : Dev nD) : BodyObligation (rdat9 (F := F) V c) (defs₀ (F := F)) Variants.none () Set.univ := body_obligation9 V c
theorem rhin9 (c : Dev nD) : (iprop((∃ r, prngReg c r) ∗ Pipeline.prefHeld (cfg9.toPCfg (Val := Elt F)).pre c (fun _ => fullShare) (cfg9.toPCfg_adm (Val := Elt F)).1 ∗ Pipeline.scopedRest spec9 c) : sProp 𝕄) ⊢ (rdat9 V c).Φ 0 := drop_mid (hin9 V c)
theorem rhout9 (c : Dev nD) : (rdat9 V c).Φ (Fin.last _) ⊢ (iprop((∃ r, prngReg c r) ∗ Pipeline.ownSems0 (fun k : PEmpty => k.elim) c ∗ Pipeline.scopedRest spec9 c) : sProp 𝕄) := add_noSems (hout9 V c)

abbrev rdat10 (a : (pcfg10 (F := F)).Adm) (c : Dev nD) : Dat τ (Elt F) Unit ℕ (UR sig nD τ) ℕ (cfg10 a) c := dat10 V a c
theorem rA_eq10 (a : (pcfg10 (F := F)).Adm) (c : Dev nD) (w : Fin (cfg10 a).W) : (rdat10 V a c).A w = V c (Pipeline.arrRef spec10 w) := A_eq10 V a c w
theorem rq_eq10 (a : (pcfg10 (F := F)).Adm) (c : Dev nD) (w : Fin (cfg10 a).W) : (rdat10 V a c).q w = fullShare := rfl
theorem rowed_eq10 (a : (pcfg10 (F := F)).Adm) (c : Dev nD) (t : Fin ((cfg10 a).N + 1)) : (rdat10 V a c).owed t = 0 := rfl
theorem rbody10 (a : (pcfg10 (F := F)).Adm) (c : Dev nD) : BodyObligation (rdat10 (F := F) V a c) (defs₀ (F := F)) Variants.none () Set.univ := body_obligation10 V a c
theorem rhin10 (a : (pcfg10 (F := F)).Adm) (c : Dev nD) : (iprop((∃ r, prngReg c r) ∗ Pipeline.prefHeld pre10 c (fun _ => fullShare) a.1 ∗ Pipeline.scopedRest spec10 c) : sProp 𝕄) ⊢ (rdat10 V a c).Φ 0 := hin10 V a c
theorem rhout10 (a : (pcfg10 (F := F)).Adm) (c : Dev nD) : (rdat10 V a c).Φ (Fin.last _) ⊢ (iprop(((∃ r, prngReg c r) ∗ Pipeline.prefHeld pre10 c (fun _ => fullShare) a.1) ∗ Pipeline.ownSems0 (fun k : PEmpty => k.elim) c ∗ Pipeline.scopedRest spec10 c) : sProp 𝕄) := add_noSems (hout10 V a c)

abbrev rdat11 (c : Dev nD) : Dat τ (Elt F) Unit ℕ (UR sig nD τ) ℕ cfg11 c := dat11 V c
theorem rA_eq11 (c : Dev nD) (w : Fin cfg11.W) : (rdat11 V c).A w = V c (Pipeline.arrRef spec11 w) := A_eq11 V c w
theorem rq_eq11 (c : Dev nD) (w : Fin cfg11.W) : (rdat11 V c).q w = fullShare := rfl
theorem rowed_eq11 (c : Dev nD) (t : Fin (cfg11.N + 1)) : (rdat11 V c).owed t = 0 := rfl
theorem rbody11 (c : Dev nD) : BodyObligation (rdat11 (F := F) V c) (defs₀ (F := F)) Variants.none () Set.univ := body_obligation11 V c
theorem rhin11 (c : Dev nD) : (iprop((∃ r, prngReg c r) ∗ Pipeline.prefHeld (cfg11.toPCfg (Val := Elt F)).pre c (fun _ => fullShare) (cfg11.toPCfg_adm (Val := Elt F)).1 ∗ Pipeline.scopedRest spec11 c) : sProp 𝕄) ⊢ (rdat11 V c).Φ 0 := ΦA_in spec11 c
theorem rhout11 (c : Dev nD) : (rdat11 V c).Φ (Fin.last _) ⊢ (iprop((∃ r, prngReg c r) ∗ Pipeline.ownSems0 (fun k : PEmpty => k.elim) c ∗ Pipeline.scopedRest spec11 c) : sProp 𝕄) := ΦA_out spec11 c

end Adapt

end Cert.Kernel.Hand

end
-- ==== Proof.K.RunVals.lean ====
import proofs.«411563_j39152921870698_3_alg».proof.Proof.K.RunTables
import proofs.«411563_j39152921870698_3_alg».proof.Proof.K.RunAdapt
import proofs.«411563_j39152921870698_3_alg».proof.Proof.LibRun

set_option maxRecDepth 1648

noncomputable section

namespace Cert.Kernel.Hand

open Cert.Kernel Cert.Kernel.Gen Cert.LibRun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W19 : Dev nD → Valuation τ sig (Elt F) := fun c => V19 m c

-- A kernel region changes only its output arrays, a host stretch only its results: every other buffer stays as entered.
def W20 (c : Dev nD) : Valuation τ sig (Elt F) :=
  Pipeline.withArrays spec0 c (W19 m c) fun w => (rdat0 (Ve (W19 m)) c).arrAt w cfg0.N
theorem hF0 (c : Dev nD) (w : Fin cfg0.W) : (rdat0 (Ve (W19 m)) c).arrAt w cfg0.N = Ve (W20 m) c (Pipeline.arrRef spec0 w) :=
  Eq.symm (Pipeline.withArrays_arr spec0 (launch0 (F := F)).win.arr_inj c _ _ w)
theorem hrest0 (c : Dev nD) : ∀ b, b ∉ Finset.univ.image (Pipeline.arrRef spec0) → Ve (W20 m) c b = Ve (W19 m) c b :=
  withArrays_rest spec0 c _ _
theorem W20_of (c : Dev nD) (r : Ref sig .tc) (h : r ∉ ([main_v61] : List (Ref sig .tc))) : W20 m c r = W19 m c r :=
  withArrays_keeps (rdat0 (Ve (W19 m)) c) (launch0 (F := F)).win.arr_inj (W19 m c) (rA_eq0 _ c) _
    (by decide : ∀ w : Fin 3, Pipeline.arrRef spec0 w ∉ ([main_v61] : List (Ref sig .tc)) → (spec0 w).isOut = false) r h

def W21 (c : Dev nD) : Valuation τ sig (Elt F) :=
  Pipeline.withArrays spec1 c (W20 m c) fun w => (rdat1 (Ve (W20 m)) (tbl1 m) c).arrAt w (cfg1 (tbl1 m)).N
theorem hF1 (c : Dev nD) (w : Fin (cfg1 (tbl1 m)).W) : (rdat1 (Ve (W20 m)) (tbl1 m) c).arrAt w (cfg1 (tbl1 m)).N = Ve (W21 m) c (Pipeline.arrRef spec1 w) :=
  Eq.symm (Pipeline.withArrays_arr spec1 (launch1 (F := F)).win.arr_inj c _ _ w)
theorem hrest1 (c : Dev nD) : ∀ b, b ∉ Finset.univ.image (Pipeline.arrRef spec1) → Ve (W21 m) c b = Ve (W20 m) c b :=
  withArrays_rest spec1 c _ _
theorem W21_of (c : Dev nD) (r : Ref sig .tc) (h : r ∉ ([main_v62_0, main_v62_1] : List (Ref sig .tc))) : W21 m c r = W20 m c r :=
  withArrays_keeps (rdat1 (Ve (W20 m)) (tbl1 m) c) (launch1 (F := F)).win.arr_inj (W20 m c) (rA_eq1 _ _ c) _
    (by decide : ∀ w : Fin 4, Pipeline.arrRef spec1 w ∉ ([main_v62_0, main_v62_1] : List (Ref sig .tc)) → (spec1 w).isOut = false) r h

def W22 (c : Dev nD) : Valuation τ sig (Elt F) :=
  Pipeline.withArrays spec2 c (W21 m c) fun w => (rdat2 (Ve (W21 m)) c).arrAt w cfg2.N
theorem hF2 (c : Dev nD) (w : Fin cfg2.W) : (rdat2 (Ve (W21 m)) c).arrAt w cfg2.N = Ve (W22 m) c (Pipeline.arrRef spec2 w) :=
  Eq.symm (Pipeline.withArrays_arr spec2 (launch2 (F := F)).win.arr_inj c _ _ w)
theorem hrest2 (c : Dev nD) : ∀ b, b ∉ Finset.univ.image (Pipeline.arrRef spec2) → Ve (W22 m) c b = Ve (W21 m) c b :=
  withArrays_rest spec2 c _ _
theorem W22_of (c : Dev nD) (r : Ref sig .tc) (h : r ∉ ([main_v63] : List (Ref sig .tc))) : W22 m c r = W21 m c r :=
  withArrays_keeps (rdat2 (Ve (W21 m)) c) (launch2 (F := F)).win.arr_inj (W21 m c) (rA_eq2 _ c) _
    (by decide : ∀ w : Fin 7, Pipeline.arrRef spec2 w ∉ ([main_v63] : List (Ref sig .tc)) → (spec2 w).isOut = false) r h

abbrev W23 : Dev nD → Valuation τ sig (Elt F) := fun c => StableHlo.after hostOps3 (W22 m c)
theorem W23_of (c : Dev nD) (r : Ref sig .tc) (h : r ∉ hostOps3_W) : W23 m c r = W22 m c r :=
  StableHlo.after_of_writes_sub hostOps3 _ hostOps3_writes h

def W24 (c : Dev nD) : Valuation τ sig (Elt F) :=
  Pipeline.withArrays spec3 c (W23 m c) fun w => (rdat3 (Ve (W23 m)) c).arrAt w cfg3.N
theorem hF3 (c : Dev nD) (w : Fin cfg3.W) : (rdat3 (Ve (W23 m)) c).arrAt w cfg3.N = Ve (W24 m) c (Pipeline.arrRef spec3 w) :=
  Eq.symm (Pipeline.withArrays_arr spec3 (launch3 (F := F)).win.arr_inj c _ _ w)
theorem hrest3 (c : Dev nD) : ∀ b, b ∉ Finset.univ.image (Pipeline.arrRef spec3) → Ve (W24 m) c b = Ve (W23 m) c b :=
  withArrays_rest spec3 c _ _
theorem W24_of (c : Dev nD) (r : Ref sig .tc) (h : r ∉ ([main_v65] : List (Ref sig .tc))) : W24 m c r = W23 m c r :=
  withArrays_keeps (rdat3 (Ve (W23 m)) c) (launch3 (F := F)).win.arr_inj (W23 m c) (rA_eq3 _ c) _
    (by decide : ∀ w : Fin 3, Pipeline.arrRef spec3 w ∉ ([main_v65] : List (Ref sig .tc)) → (spec3 w).isOut = false) r h

def W25 (c : Dev nD) : Valuation τ sig (Elt F) :=
  Pipeline.withArrays spec4 c (W24 m c) fun w => (rdat4 (Ve (W24 m)) (tbl4 m) c).arrAt w (cfg4 (tbl4 m)).N
theorem hF4 (c : Dev nD) (w : Fin (cfg4 (tbl4 m)).W) : (rdat4 (Ve (W24 m)) (tbl4 m) c).arrAt w (cfg4 (tbl4 m)).N = Ve (W25 m) c (Pipeline.arrRef spec4 w) :=
  Eq.symm (Pipeline.withArrays_arr spec4 (launch4 (F := F)).win.arr_inj c _ _ w)
theorem hrest4 (c : Dev nD) : ∀ b, b ∉ Finset.univ.image (Pipeline.arrRef spec4) → Ve (W25 m) c b = Ve (W24 m) c b :=
  withArrays_rest spec4 c _ _
theorem W25_of (c : Dev nD) (r : Ref sig .tc) (h : r ∉ ([main_v66_0, main_v66_1] : List (Ref sig .tc))) : W25 m c r = W24 m c r :=
  withArrays_keeps (rdat4 (Ve (W24 m)) (tbl4 m) c) (launch4 (F := F)).win.arr_inj (W24 m c) (rA_eq4 _ _ c) _
    (by decide : ∀ w : Fin 4, Pipeline.arrRef spec4 w ∉ ([main_v66_0, main_v66_1] : List (Ref sig .tc)) → (spec4 w).isOut = false) r h

def W26 (c : Dev nD) : Valuation τ sig (Elt F) :=
  Pipeline.withArrays spec5 c (W25 m c) fun w => (rdat5 (Ve (W25 m)) c).arrAt w cfg5.N
theorem hF5 (c : Dev nD) (w : Fin cfg5.W) : (rdat5 (Ve (W25 m)) c).arrAt w cfg5.N = Ve (W26 m) c (Pipeline.arrRef spec5 w) :=
  Eq.symm (Pipeline.withArrays_arr spec5 (launch5 (F := F)).win.arr_inj c _ _ w)
theorem hrest5 (c : Dev nD) : ∀ b, b ∉ Finset.univ.image (Pipeline.arrRef spec5) → Ve (W26 m) c b = Ve (W25 m) c b :=
  withArrays_rest spec5 c _ _
theorem W26_of (c : Dev nD) (r : Ref sig .tc) (h : r ∉ ([main_v67] : List (Ref sig .tc))) : W26 m c r = W25 m c r :=
  withArrays_keeps (rdat5 (Ve (W25 m)) c) (launch5 (F := F)).win.arr_inj (W25 m c) (rA_eq5 _ c) _
    (by decide : ∀ w : Fin 7, Pipeline.arrRef spec5 w ∉ ([main_v67] : List (Ref sig .tc)) → (spec5 w).isOut = false) r h

abbrev W27 : Dev nD → Valuation τ sig (Elt F) := fun c => StableHlo.after hostOps6 (W26 m c)
theorem W27_of (c : Dev nD) (r : Ref sig .tc) (h : r ∉ hostOps6_W) : W27 m c r = W26 m c r :=
  StableHlo.after_of_writes_sub hostOps6 _ hostOps6_writes h

def W28 (c : Dev nD) : Valuation τ sig (Elt F) :=
  Pipeline.withArrays spec6 c (W27 m c) fun w => (rdat6 (Ve (W27 m)) c).arrAt w cfg6.N
theorem hF6 (c : Dev nD) (w : Fin cfg6.W) : (rdat6 (Ve (W27 m)) c).arrAt w cfg6.N = Ve (W28 m) c (Pipeline.arrRef spec6 w) :=
  Eq.symm (Pipeline.withArrays_arr spec6 (launch6 (F := F)).win.arr_inj c _ _ w)
theorem hrest6 (c : Dev nD) : ∀ b, b ∉ Finset.univ.image (Pipeline.arrRef spec6) → Ve (W28 m) c b = Ve (W27 m) c b :=
  withArrays_rest spec6 c _ _
theorem W28_of (c : Dev nD) (r : Ref sig .tc) (h : r ∉ ([main_v69] : List (Ref sig .tc))) : W28 m c r = W27 m c r :=
  withArrays_keeps (rdat6 (Ve (W27 m)) c) (launch6 (F := F)).win.arr_inj (W27 m c) (rA_eq6 _ c) _
    (by decide : ∀ w : Fin 3, Pipeline.arrRef spec6 w ∉ ([main_v69] : List (Ref sig .tc)) → (spec6 w).isOut = false) r h

def W29 (c : Dev nD) : Valuation τ sig (Elt F) :=
  Pipeline.withArrays spec7 c (W28 m c) fun w => (rdat7 (Ve (W28 m)) (tbl7 m) c).arrAt w (cfg7 (tbl7 m)).N
theorem hF7 (c : Dev nD) (w : Fin (cfg7 (tbl7 m)).W) : (rdat7 (Ve (W28 m)) (tbl7 m) c).arrAt w (cfg7 (tbl7 m)).N = Ve (W29 m) c (Pipeline.arrRef spec7 w) :=
  Eq.symm (Pipeline.withArrays_arr spec7 (launch7 (F := F)).win.arr_inj c _ _ w)
theorem hrest7 (c : Dev nD) : ∀ b, b ∉ Finset.univ.image (Pipeline.arrRef spec7) → Ve (W29 m) c b = Ve (W28 m) c b :=
  withArrays_rest spec7 c _ _
theorem W29_of (c : Dev nD) (r : Ref sig .tc) (h : r ∉ ([main_v70] : List (Ref sig .tc))) : W29 m c r = W28 m c r :=
  withArrays_keeps (rdat7 (Ve (W28 m)) (tbl7 m) c) (launch7 (F := F)).win.arr_inj (W28 m c) (rA_eq7 _ _ c) _
    (by decide : ∀ w : Fin 3, Pipeline.arrRef spec7 w ∉ ([main_v70] : List (Ref sig .tc)) → (spec7 w).isOut = false) r h

def W30 (c : Dev nD) : Valuation τ sig (Elt F) :=
  Pipeline.withArrays spec8 c (W29 m c) fun w => (rdat8 (Ve (W29 m)) c).arrAt w cfg8.N
theorem hF8 (c : Dev nD) (w : Fin cfg8.W) : (rdat8 (Ve (W29 m)) c).arrAt w cfg8.N = Ve (W30 m) c (Pipeline.arrRef spec8 w) :=
  Eq.symm (Pipeline.withArrays_arr spec8 (launch8 (F := F)).win.arr_inj c _ _ w)
theorem hrest8 (c : Dev nD) : ∀ b, b ∉ Finset.univ.image (Pipeline.arrRef spec8) → Ve (W30 m) c b = Ve (W29 m) c b :=
  withArrays_rest spec8 c _ _
theorem W30_of (c : Dev nD) (r : Ref sig .tc) (h : r ∉ ([main_v71] : List (Ref sig .tc))) : W30 m c r = W29 m c r :=
  withArrays_keeps (rdat8 (Ve (W29 m)) c) (launch8 (F := F)).win.arr_inj (W29 m c) (rA_eq8 _ c) _
    (by decide : ∀ w : Fin 7, Pipeline.arrRef spec8 w ∉ ([main_v71] : List (Ref sig .tc)) → (spec8 w).isOut = false) r h

abbrev W31 : Dev nD → Valuation τ sig (Elt F) := fun c => StableHlo.after hostOps9 (W30 m c)
theorem W31_of (c : Dev nD) (r : Ref sig .tc) (h : r ∉ hostOps9_W) : W31 m c r = W30 m c r :=
  StableHlo.after_of_writes_sub hostOps9 _ hostOps9_writes h

def W32 (c : Dev nD) : Valuation τ sig (Elt F) :=
  Pipeline.withArrays spec9 c (W31 m c) fun w => (rdat9 (Ve (W31 m)) c).arrAt w cfg9.N
theorem hF9 (c : Dev nD) (w : Fin cfg9.W) : (rdat9 (Ve (W31 m)) c).arrAt w cfg9.N = Ve (W32 m) c (Pipeline.arrRef spec9 w) :=
  Eq.symm (Pipeline.withArrays_arr spec9 (launch9 (F := F)).win.arr_inj c _ _ w)
theorem hrest9 (c : Dev nD) : ∀ b, b ∉ Finset.univ.image (Pipeline.arrRef spec9) → Ve (W32 m) c b = Ve (W31 m) c b :=
  withArrays_rest spec9 c _ _
theorem W32_of (c : Dev nD) (r : Ref sig .tc) (h : r ∉ ([main_v73] : List (Ref sig .tc))) : W32 m c r = W31 m c r :=
  withArrays_keeps (rdat9 (Ve (W31 m)) c) (launch9 (F := F)).win.arr_inj (W31 m c) (rA_eq9 _ c) _
    (by decide : ∀ w : Fin 3, Pipeline.arrRef spec9 w ∉ ([main_v73] : List (Ref sig .tc)) → (spec9 w).isOut = false) r h

def W33 (c : Dev nD) : Valuation τ sig (Elt F) :=
  Pipeline.withArrays spec10 c (W32 m c) fun w => (rdat10 (Ve (W32 m)) (tbl10 m) c).arrAt w (cfg10 (tbl10 m)).N
theorem hF10 (c : Dev nD) (w : Fin (cfg10 (tbl10 m)).W) : (rdat10 (Ve (W32 m)) (tbl10 m) c).arrAt w (cfg10 (tbl10 m)).N = Ve (W33 m) c (Pipeline.arrRef spec10 w) :=
  Eq.symm (Pipeline.withArrays_arr spec10 (launch10 (F := F)).win.arr_inj c _ _ w)
theorem hrest10 (c : Dev nD) : ∀ b, b ∉ Finset.univ.image (Pipeline.arrRef spec10) → Ve (W33 m) c b = Ve (W32 m) c b :=
  withArrays_rest spec10 c _ _
theorem W33_of (c : Dev nD) (r : Ref sig .tc) (h : r ∉ ([main_v74] : List (Ref sig .tc))) : W33 m c r = W32 m c r :=
  withArrays_keeps (rdat10 (Ve (W32 m)) (tbl10 m) c) (launch10 (F := F)).win.arr_inj (W32 m c) (rA_eq10 _ _ c) _
    (by decide : ∀ w : Fin 3, Pipeline.arrRef spec10 w ∉ ([main_v74] : List (Ref sig .tc)) → (spec10 w).isOut = false) r h

def W34 (c : Dev nD) : Valuation τ sig (Elt F) :=
  Pipeline.withArrays spec11 c (W33 m c) fun w => (rdat11 (Ve (W33 m)) c).arrAt w cfg11.N
theorem hF11 (c : Dev nD) (w : Fin cfg11.W) : (rdat11 (Ve (W33 m)) c).arrAt w cfg11.N = Ve (W34 m) c (Pipeline.arrRef spec11 w) :=
  Eq.symm (Pipeline.withArrays_arr spec11 (launch11 (F := F)).win.arr_inj c _ _ w)
theorem hrest11 (c : Dev nD) : ∀ b, b ∉ Finset.univ.image (Pipeline.arrRef spec11) → Ve (W34 m) c b = Ve (W33 m) c b :=
  withArrays_rest spec11 c _ _
theorem W34_of (c : Dev nD) (r : Ref sig .tc) (h : r ∉ ([main_v75] : List (Ref sig .tc))) : W34 m c r = W33 m c r :=
  withArrays_keeps (rdat11 (Ve (W33 m)) c) (launch11 (F := F)).win.arr_inj (W33 m c) (rA_eq11 _ c) _
    (by decide : ∀ w : Fin 7, Pipeline.arrRef spec11 w ∉ ([main_v75] : List (Ref sig .tc)) → (spec11 w).isOut = false) r h

abbrev Wlast : Dev nD → Valuation τ sig (Elt F) := fun c => W34 m c

def pdats : (p : Fin 12) → (c : Dev nD) → Dat τ (Elt F) Unit ℕ (UR sig nD τ) ℕ (Pipeline.pin (pcfgs (F := F)) (adm m) p) c
  | ⟨0, _⟩ => fun c => rdat0 (Ve (W19 m)) c
  | ⟨1, _⟩ => fun c => rdat1 (Ve (W20 m)) (tbl1 m) c
  | ⟨2, _⟩ => fun c => rdat2 (Ve (W21 m)) c
  | ⟨3, _⟩ => fun c => rdat3 (Ve (W23 m)) c
  | ⟨4, _⟩ => fun c => rdat4 (Ve (W24 m)) (tbl4 m) c
  | ⟨5, _⟩ => fun c => rdat5 (Ve (W25 m)) c
  | ⟨6, _⟩ => fun c => rdat6 (Ve (W27 m)) c
  | ⟨7, _⟩ => fun c => rdat7 (Ve (W28 m)) (tbl7 m) c
  | ⟨8, _⟩ => fun c => rdat8 (Ve (W29 m)) c
  | ⟨9, _⟩ => fun c => rdat9 (Ve (W31 m)) c
  | ⟨10, _⟩ => fun c => rdat10 (Ve (W32 m)) (tbl10 m) c
  | ⟨11, _⟩ => fun c => rdat11 (Ve (W33 m)) c
  | ⟨_ + 12, h⟩ => absurd h (Nat.not_lt.2 (Nat.le_add_left _ _))

end Cert.Kernel.Hand

end
-- ==== Proof.K.RunOf.lean ====
import proofs.«411563_j39152921870698_3_alg».proof.Proof.K.RunVals
import proofs.«411563_j39152921870698_3_alg».proof.Proof.LibRun
import Mathlib.Tactic.IntervalCases

set_option maxRecDepth 1648

noncomputable section

namespace Cert.Kernel.Hand

open Cert.Kernel Cert.Kernel.Gen Cert.LibRun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- The contents at boundary k: after the first k of the program's 34 items.
def Bn : ℕ → Dev nD → Valuation τ sig (Elt F)
  | 0 => V0 m | 1 => V1 m | 2 => V2 m | 3 => V3 m | 4 => V4 m | 5 => V5 m | 6 => V6 m
  | 7 => V7 m | 8 => V8 m | 9 => V9 m | 10 => V10 m | 11 => V11 m | 12 => V12 m | 13 => V13 m
  | 14 => V14 m | 15 => V15 m | 16 => V16 m | 17 => V17 m | 18 => V18 m | 19 => V19 m | 20 => W20 m
  | 21 => W21 m | 22 => W22 m | 23 => W23 m | 24 => W24 m | 25 => W25 m | 26 => W26 m | 27 => W27 m
  | 28 => W28 m | 29 => W29 m | 30 => W30 m | 31 => W31 m | 32 => W32 m | 33 => W33 m
  | _ => W34 m

-- What item k may change: a host stretch its results, a kernel region its output arrays.
def wr : ℕ → List (Ref sig .tc)
  | 0 => hostOps0_W | 1 => hostOps0_1_W | 2 => hostOps0_2_W | 3 => hostOps0_3_W | 4 => hostOps0_4_W
  | 5 => hostOps0_5_W | 6 => hostOps0_6_W | 7 => hostOps0_7_W | 8 => hostOps0_8_W | 9 => hostOps0_9_W
  | 10 => hostOps0_10_W | 11 => hostOps0_11_W | 12 => hostOps0_12_W | 13 => hostOps0_13_W | 14 => hostOps0_14_W
  | 15 => hostOps0_15_W | 16 => hostOps0_16_W | 17 => hostOps0_17_W | 18 => hostOps0_18_W | 19 => [main_v61]
  | 20 => [main_v62_0, main_v62_1] | 21 => [main_v63] | 22 => hostOps3_W | 23 => [main_v65] | 24 => [main_v66_0, main_v66_1]
  | 25 => [main_v67] | 26 => hostOps6_W | 27 => [main_v69] | 28 => [main_v70] | 29 => [main_v71]
  | 30 => hostOps9_W | 31 => [main_v73] | 32 => [main_v74] | 33 => [main_v75]
  | _ => []

theorem Bn_s0 (c : Dev nD) (r : Ref sig .tc) (h : r ∉ wr 0) : Bn m (0 + 1) c r = Bn m 0 c r := V1_of m c r h
theorem Bn_s1 (c : Dev nD) (r : Ref sig .tc) (h : r ∉ wr 1) : Bn m (1 + 1) c r = Bn m 1 c r := V2_of m c r h
theorem Bn_s2 (c : Dev nD) (r : Ref sig .tc) (h : r ∉ wr 2) : Bn m (2 + 1) c r = Bn m 2 c r := V3_of m c r h
theorem Bn_s3 (c : Dev nD) (r : Ref sig .tc) (h : r ∉ wr 3) : Bn m (3 + 1) c r = Bn m 3 c r := V4_of m c r h
theorem Bn_s4 (c : Dev nD) (r : Ref sig .tc) (h : r ∉ wr 4) : Bn m (4 + 1) c r = Bn m 4 c r := V5_of m c r h
theorem Bn_s5 (c : Dev nD) (r : Ref sig .tc) (h : r ∉ wr 5) : Bn m (5 + 1) c r = Bn m 5 c r := V6_of m c r h
theorem Bn_s6 (c : Dev nD) (r : Ref sig .tc) (h : r ∉ wr 6) : Bn m (6 + 1) c r = Bn m 6 c r := V7_of m c r h
theorem Bn_s7 (c : Dev nD) (r : Ref sig .tc) (h : r ∉ wr 7) : Bn m (7 + 1) c r = Bn m 7 c r := V8_of m c r h
theorem Bn_s8 (c : Dev nD) (r : Ref sig .tc) (h : r ∉ wr 8) : Bn m (8 + 1) c r = Bn m 8 c r := V9_of m c r h
theorem Bn_s9 (c : Dev nD) (r : Ref sig .tc) (h : r ∉ wr 9) : Bn m (9 + 1) c r = Bn m 9 c r := V10_of m c r h
theorem Bn_s10 (c : Dev nD) (r : Ref sig .tc) (h : r ∉ wr 10) : Bn m (10 + 1) c r = Bn m 10 c r := V11_of m c r h
theorem Bn_s11 (c : Dev nD) (r : Ref sig .tc) (h : r ∉ wr 11) : Bn m (11 + 1) c r = Bn m 11 c r := V12_of m c r h
theorem Bn_s12 (c : Dev nD) (r : Ref sig .tc) (h : r ∉ wr 12) : Bn m (12 + 1) c r = Bn m 12 c r := V13_of m c r h
theorem Bn_s13 (c : Dev nD) (r : Ref sig .tc) (h : r ∉ wr 13) : Bn m (13 + 1) c r = Bn m 13 c r := V14_of m c r h
theorem Bn_s14 (c : Dev nD) (r : Ref sig .tc) (h : r ∉ wr 14) : Bn m (14 + 1) c r = Bn m 14 c r := V15_of m c r h
theorem Bn_s15 (c : Dev nD) (r : Ref sig .tc) (h : r ∉ wr 15) : Bn m (15 + 1) c r = Bn m 15 c r := V16_of m c r h
theorem Bn_s16 (c : Dev nD) (r : Ref sig .tc) (h : r ∉ wr 16) : Bn m (16 + 1) c r = Bn m 16 c r := V17_of m c r h
theorem Bn_s17 (c : Dev nD) (r : Ref sig .tc) (h : r ∉ wr 17) : Bn m (17 + 1) c r = Bn m 17 c r := V18_of m c r h
theorem Bn_s18 (c : Dev nD) (r : Ref sig .tc) (h : r ∉ wr 18) : Bn m (18 + 1) c r = Bn m 18 c r := V19_of m c r h
theorem Bn_s19 (c : Dev nD) (r : Ref sig .tc) (h : r ∉ wr 19) : Bn m (19 + 1) c r = Bn m 19 c r := W20_of m c r h
theorem Bn_s20 (c : Dev nD) (r : Ref sig .tc) (h : r ∉ wr 20) : Bn m (20 + 1) c r = Bn m 20 c r := W21_of m c r h
theorem Bn_s21 (c : Dev nD) (r : Ref sig .tc) (h : r ∉ wr 21) : Bn m (21 + 1) c r = Bn m 21 c r := W22_of m c r h
theorem Bn_s22 (c : Dev nD) (r : Ref sig .tc) (h : r ∉ wr 22) : Bn m (22 + 1) c r = Bn m 22 c r := W23_of m c r h
theorem Bn_s23 (c : Dev nD) (r : Ref sig .tc) (h : r ∉ wr 23) : Bn m (23 + 1) c r = Bn m 23 c r := W24_of m c r h
theorem Bn_s24 (c : Dev nD) (r : Ref sig .tc) (h : r ∉ wr 24) : Bn m (24 + 1) c r = Bn m 24 c r := W25_of m c r h
theorem Bn_s25 (c : Dev nD) (r : Ref sig .tc) (h : r ∉ wr 25) : Bn m (25 + 1) c r = Bn m 25 c r := W26_of m c r h
theorem Bn_s26 (c : Dev nD) (r : Ref sig .tc) (h : r ∉ wr 26) : Bn m (26 + 1) c r = Bn m 26 c r := W27_of m c r h
theorem Bn_s27 (c : Dev nD) (r : Ref sig .tc) (h : r ∉ wr 27) : Bn m (27 + 1) c r = Bn m 27 c r := W28_of m c r h
theorem Bn_s28 (c : Dev nD) (r : Ref sig .tc) (h : r ∉ wr 28) : Bn m (28 + 1) c r = Bn m 28 c r := W29_of m c r h
theorem Bn_s29 (c : Dev nD) (r : Ref sig .tc) (h : r ∉ wr 29) : Bn m (29 + 1) c r = Bn m 29 c r := W30_of m c r h
theorem Bn_s30 (c : Dev nD) (r : Ref sig .tc) (h : r ∉ wr 30) : Bn m (30 + 1) c r = Bn m 30 c r := W31_of m c r h
theorem Bn_s31 (c : Dev nD) (r : Ref sig .tc) (h : r ∉ wr 31) : Bn m (31 + 1) c r = Bn m 31 c r := W32_of m c r h
theorem Bn_s32 (c : Dev nD) (r : Ref sig .tc) (h : r ∉ wr 32) : Bn m (32 + 1) c r = Bn m 32 c r := W33_of m c r h
theorem Bn_s33 (c : Dev nD) (r : Ref sig .tc) (h : r ∉ wr 33) : Bn m (33 + 1) c r = Bn m 33 c r := W34_of m c r h

theorem Bn_succ (c : Dev nD) (r : Ref sig .tc) (k : ℕ) (hk : k < 34) (h : r ∉ wr k) : Bn m (k + 1) c r = Bn m k c r := by
  interval_cases k
  exacts [
    Bn_s0 m c r h, Bn_s1 m c r h, Bn_s2 m c r h, Bn_s3 m c r h, Bn_s4 m c r h, Bn_s5 m c r h,
    Bn_s6 m c r h, Bn_s7 m c r h, Bn_s8 m c r h, Bn_s9 m c r h, Bn_s10 m c r h, Bn_s11 m c r h,
    Bn_s12 m c r h, Bn_s13 m c r h, Bn_s14 m c r h, Bn_s15 m c r h, Bn_s16 m c r h, Bn_s17 m c r h,
    Bn_s18 m c r h, Bn_s19 m c r h, Bn_s20 m c r h, Bn_s21 m c r h, Bn_s22 m c r h, Bn_s23 m c r h,
    Bn_s24 m c r h, Bn_s25 m c r h, Bn_s26 m c r h, Bn_s27 m c r h, Bn_s28 m c r h, Bn_s29 m c r h,
    Bn_s30 m c r h, Bn_s31 m c r h, Bn_s32 m c r h, Bn_s33 m c r h]

-- A reference none of the d items from boundary j on may change holds at boundary j + d what it held at boundary j.
theorem Bn_back (c : Dev nD) (r : Ref sig .tc) (j : ℕ) :
    ∀ d, (j + d ≤ 34 ∧ ∀ i < d, r ∉ wr (j + i)) → Bn m (j + d) c r = Bn m j c r
  | 0, _ => rfl
  | d + 1, ⟨hd, h⟩ => (Bn_succ m c r (j + d) hd (h d d.lt_succ_self)).trans
      (Bn_back c r j d ⟨Nat.le_of_lt hd, fun i hi => h i (Nat.lt_succ_of_lt hi)⟩)

theorem Wlast_main_arg0 (c : Dev nD) : Wlast m c main_arg0 = m ((c : Thread nD τ).loc main_arg0) := Bn_back m c main_arg0 0 34 (by decide)
theorem Wlast_main_arg1 (c : Dev nD) : Wlast m c main_arg1 = m ((c : Thread nD τ).loc main_arg1) := Bn_back m c main_arg1 0 34 (by decide)
theorem Wlast_main_arg2 (c : Dev nD) : Wlast m c main_arg2 = m ((c : Thread nD τ).loc main_arg2) := Bn_back m c main_arg2 0 34 (by decide)
theorem Wlast_main_arg3 (c : Dev nD) : Wlast m c main_arg3 = m ((c : Thread nD τ).loc main_arg3) := Bn_back m c main_arg3 0 34 (by decide)
theorem Wlast_main_arg4 (c : Dev nD) : Wlast m c main_arg4 = m ((c : Thread nD τ).loc main_arg4) := Bn_back m c main_arg4 0 34 (by decide)
theorem Wlast_main_arg5 (c : Dev nD) : Wlast m c main_arg5 = m ((c : Thread nD τ).loc main_arg5) := Bn_back m c main_arg5 0 34 (by decide)
theorem Wlast_main_arg6 (c : Dev nD) : Wlast m c main_arg6 = m ((c : Thread nD τ).loc main_arg6) := Bn_back m c main_arg6 0 34 (by decide)
theorem Wlast_main_arg7 (c : Dev nD) : Wlast m c main_arg7 = m ((c : Thread nD τ).loc main_arg7) := Bn_back m c main_arg7 0 34 (by decide)
theorem Wlast_main_arg8 (c : Dev nD) : Wlast m c main_arg8 = m ((c : Thread nD τ).loc main_arg8) := Bn_back m c main_arg8 0 34 (by decide)
theorem Wlast_main_arg9 (c : Dev nD) : Wlast m c main_arg9 = m ((c : Thread nD τ).loc main_arg9) := Bn_back m c main_arg9 0 34 (by decide)
theorem Wlast_main_arg10 (c : Dev nD) : Wlast m c main_arg10 = m ((c : Thread nD τ).loc main_arg10) := Bn_back m c main_arg10 0 34 (by decide)
theorem Wlast_main_arg11 (c : Dev nD) : Wlast m c main_arg11 = m ((c : Thread nD τ).loc main_arg11) := Bn_back m c main_arg11 0 34 (by decide)
theorem Wlast_main_arg12 (c : Dev nD) : Wlast m c main_arg12 = m ((c : Thread nD τ).loc main_arg12) := Bn_back m c main_arg12 0 34 (by decide)
theorem Wlast_main_arg13 (c : Dev nD) : Wlast m c main_arg13 = m ((c : Thread nD τ).loc main_arg13) := Bn_back m c main_arg13 0 34 (by decide)
theorem Wlast_main_arg14 (c : Dev nD) : Wlast m c main_arg14 = m ((c : Thread nD τ).loc main_arg14) := Bn_back m c main_arg14 0 34 (by decide)
theorem Wlast_main_arg15 (c : Dev nD) : Wlast m c main_arg15 = m ((c : Thread nD τ).loc main_arg15) := Bn_back m c main_arg15 0 34 (by decide)
theorem Wlast_main_v71 (c : Dev nD) : Wlast m c main_v71 = (rdat8 (Ve (W29 m)) c).arrAt 6 cfg8.N := (Bn_back m c main_v71 30 4 (by decide)).trans (hF8 m c 6).symm
theorem W20_main_v61 (c : Dev nD) : W20 m c main_v61 = (rdat0 (Ve (W19 m)) c).arrAt 2 cfg0.N := (hF0 m c 2).symm
theorem W21_main_v62_0 (c : Dev nD) : W21 m c main_v62_0 = (rdat1 (Ve (W20 m)) (tbl1 m) c).arrAt 2 (cfg1 (tbl1 m)).N := (hF1 m c 2).symm
theorem W21_main_v62_1 (c : Dev nD) : W21 m c main_v62_1 = (rdat1 (Ve (W20 m)) (tbl1 m) c).arrAt 3 (cfg1 (tbl1 m)).N := (hF1 m c 3).symm
theorem W20_at_main_v29 (c : Dev nD) : W20 m c main_v29 = W19 m c main_v29 := Bn_back m c main_v29 19 1 (by decide)
theorem W22_main_v63 (c : Dev nD) : W22 m c main_v63 = (rdat2 (Ve (W21 m)) c).arrAt 6 cfg2.N := (hF2 m c 6).symm
theorem W21_at_main_arg1 (c : Dev nD) : W21 m c main_arg1 = m ((c : Thread nD τ).loc main_arg1) := Bn_back m c main_arg1 0 21 (by decide)
theorem W21_at_main_arg4 (c : Dev nD) : W21 m c main_arg4 = m ((c : Thread nD τ).loc main_arg4) := Bn_back m c main_arg4 0 21 (by decide)
theorem W21_at_main_arg5 (c : Dev nD) : W21 m c main_arg5 = m ((c : Thread nD τ).loc main_arg5) := Bn_back m c main_arg5 0 21 (by decide)
theorem W21_at_main_arg6 (c : Dev nD) : W21 m c main_arg6 = m ((c : Thread nD τ).loc main_arg6) := Bn_back m c main_arg6 0 21 (by decide)
theorem W24_main_v65 (c : Dev nD) : W24 m c main_v65 = (rdat3 (Ve (W23 m)) c).arrAt 2 cfg3.N := (hF3 m c 2).symm
theorem W23_at_main_v58 (c : Dev nD) : W23 m c main_v58 = W19 m c main_v58 := Bn_back m c main_v58 19 4 (by decide)
theorem W25_main_v66_0 (c : Dev nD) : W25 m c main_v66_0 = (rdat4 (Ve (W24 m)) (tbl4 m) c).arrAt 2 (cfg4 (tbl4 m)).N := (hF4 m c 2).symm
theorem W25_main_v66_1 (c : Dev nD) : W25 m c main_v66_1 = (rdat4 (Ve (W24 m)) (tbl4 m) c).arrAt 3 (cfg4 (tbl4 m)).N := (hF4 m c 3).symm
theorem W24_at_main_v59 (c : Dev nD) : W24 m c main_v59 = W19 m c main_v59 := Bn_back m c main_v59 19 5 (by decide)
theorem W26_main_v67 (c : Dev nD) : W26 m c main_v67 = (rdat5 (Ve (W25 m)) c).arrAt 6 cfg5.N := (hF5 m c 6).symm
theorem W25_at_main_arg0 (c : Dev nD) : W25 m c main_arg0 = m ((c : Thread nD τ).loc main_arg0) := Bn_back m c main_arg0 0 25 (by decide)
theorem W25_at_main_arg7 (c : Dev nD) : W25 m c main_arg7 = m ((c : Thread nD τ).loc main_arg7) := Bn_back m c main_arg7 0 25 (by decide)
theorem W25_at_main_arg8 (c : Dev nD) : W25 m c main_arg8 = m ((c : Thread nD τ).loc main_arg8) := Bn_back m c main_arg8 0 25 (by decide)
theorem W25_at_main_arg9 (c : Dev nD) : W25 m c main_arg9 = m ((c : Thread nD τ).loc main_arg9) := Bn_back m c main_arg9 0 25 (by decide)
theorem W28_main_v69 (c : Dev nD) : W28 m c main_v69 = (rdat6 (Ve (W27 m)) c).arrAt 2 cfg6.N := (hF6 m c 2).symm
theorem W27_at_main_v28 (c : Dev nD) : W27 m c main_v28 = W19 m c main_v28 := Bn_back m c main_v28 19 8 (by decide)
theorem W29_main_v70 (c : Dev nD) : W29 m c main_v70 = (rdat7 (Ve (W28 m)) (tbl7 m) c).arrAt 2 (cfg7 (tbl7 m)).N := (hF7 m c 2).symm
theorem W28_at_main_v29 (c : Dev nD) : W28 m c main_v29 = W19 m c main_v29 := Bn_back m c main_v29 19 9 (by decide)
theorem W30_main_v71 (c : Dev nD) : W30 m c main_v71 = (rdat8 (Ve (W29 m)) c).arrAt 6 cfg8.N := (hF8 m c 6).symm
theorem W29_at_main_v62_1 (c : Dev nD) : W29 m c main_v62_1 = W21 m c main_v62_1 := Bn_back m c main_v62_1 21 8 (by decide)
theorem W29_at_main_v63 (c : Dev nD) : W29 m c main_v63 = W22 m c main_v63 := Bn_back m c main_v63 22 7 (by decide)
theorem W29_at_main_arg10 (c : Dev nD) : W29 m c main_arg10 = m ((c : Thread nD τ).loc main_arg10) := Bn_back m c main_arg10 0 29 (by decide)
theorem W29_at_main_arg11 (c : Dev nD) : W29 m c main_arg11 = m ((c : Thread nD τ).loc main_arg11) := Bn_back m c main_arg11 0 29 (by decide)
theorem W29_at_main_arg12 (c : Dev nD) : W29 m c main_arg12 = m ((c : Thread nD τ).loc main_arg12) := Bn_back m c main_arg12 0 29 (by decide)
theorem W32_main_v73 (c : Dev nD) : W32 m c main_v73 = (rdat9 (Ve (W31 m)) c).arrAt 2 cfg9.N := (hF9 m c 2).symm
theorem W31_at_main_v58 (c : Dev nD) : W31 m c main_v58 = W19 m c main_v58 := Bn_back m c main_v58 19 12 (by decide)
theorem W33_main_v74 (c : Dev nD) : W33 m c main_v74 = (rdat10 (Ve (W32 m)) (tbl10 m) c).arrAt 2 (cfg10 (tbl10 m)).N := (hF10 m c 2).symm
theorem W32_at_main_v59 (c : Dev nD) : W32 m c main_v59 = W19 m c main_v59 := Bn_back m c main_v59 19 13 (by decide)
theorem W34_main_v75 (c : Dev nD) : W34 m c main_v75 = (rdat11 (Ve (W33 m)) c).arrAt 6 cfg11.N := (hF11 m c 6).symm
theorem W33_at_main_v66_1 (c : Dev nD) : W33 m c main_v66_1 = W25 m c main_v66_1 := Bn_back m c main_v66_1 25 8 (by decide)
theorem W33_at_main_v67 (c : Dev nD) : W33 m c main_v67 = W26 m c main_v67 := Bn_back m c main_v67 26 7 (by decide)
theorem W33_at_main_arg13 (c : Dev nD) : W33 m c main_arg13 = m ((c : Thread nD τ).loc main_arg13) := Bn_back m c main_arg13 0 33 (by decide)
theorem W33_at_main_arg14 (c : Dev nD) : W33 m c main_arg14 = m ((c : Thread nD τ).loc main_arg14) := Bn_back m c main_arg14 0 33 (by decide)
theorem W33_at_main_arg15 (c : Dev nD) : W33 m c main_arg15 = m ((c : Thread nD τ).loc main_arg15) := Bn_back m c main_arg15 0 33 (by decide)
theorem W22_at_main_arg1 (c : Dev nD) : W22 m c main_arg1 = m ((c : Thread nD τ).loc main_arg1) := Bn_back m c main_arg1 0 22 (by decide)
theorem W30_at_main_v63 (c : Dev nD) : W30 m c main_v63 = W22 m c main_v63 := Bn_back m c main_v63 22 8 (by decide)

theorem tbl_at1 (c : Dev nD) : (fun k => Ve (W20 m) c (pre1.ref k)) = (tbl1 m).1 := by
  obtain rfl := dev_eq c
  rw [tbl1_val]
  exact funext fun k => Bn_back m c₀ _ 19 1 ((by decide : ∀ k : Fin 2, 19 + 1 ≤ 34 ∧ ∀ i < 1, pre1.ref k ∉ wr (19 + i)) k)
theorem unscopedRest_at1 (c : Dev nD) : (Pipeline.unscopedRest (Ix := Unit) (Name := ℕ) (U := UR sig nD τ) (Lvl := ℕ) spec1 c (Ve (W20 m) c) : sProp 𝕄)
    = iprop(Pipeline.prefHeld pre1 c (fun _ => fullShare) (tbl1 m).1 ∗ Pipeline.unscopedRestP pre1 spec1 c (Ve (W20 m) c)) :=
  unscopedRest_at preFacts1 c _ (tbl_at1 m c)
theorem tbl_at4 (c : Dev nD) : (fun k => Ve (W24 m) c (pre4.ref k)) = (tbl4 m).1 := by
  obtain rfl := dev_eq c
  rw [tbl4_val]
  exact funext fun k => Bn_back m c₀ _ 19 5 ((by decide : ∀ k : Fin 2, 19 + 5 ≤ 34 ∧ ∀ i < 5, pre4.ref k ∉ wr (19 + i)) k)
theorem unscopedRest_at4 (c : Dev nD) : (Pipeline.unscopedRest (Ix := Unit) (Name := ℕ) (U := UR sig nD τ) (Lvl := ℕ) spec4 c (Ve (W24 m) c) : sProp 𝕄)
    = iprop(Pipeline.prefHeld pre4 c (fun _ => fullShare) (tbl4 m).1 ∗ Pipeline.unscopedRestP pre4 spec4 c (Ve (W24 m) c)) :=
  unscopedRest_at preFacts4 c _ (tbl_at4 m c)
theorem tbl_at7 (c : Dev nD) : (fun k => Ve (W28 m) c (pre7.ref k)) = (tbl7 m).1 := by
  obtain rfl := dev_eq c
  rw [tbl7_val]
  exact funext fun k => Bn_back m c₀ _ 19 9 ((by decide : ∀ k : Fin 2, 19 + 9 ≤ 34 ∧ ∀ i < 9, pre7.ref k ∉ wr (19 + i)) k)
theorem unscopedRest_at7 (c : Dev nD) : (Pipeline.unscopedRest (Ix := Unit) (Name := ℕ) (U := UR sig nD τ) (Lvl := ℕ) spec7 c (Ve (W28 m) c) : sProp 𝕄)
    = iprop(Pipeline.prefHeld pre7 c (fun _ => fullShare) (tbl7 m).1 ∗ Pipeline.unscopedRestP pre7 spec7 c (Ve (W28 m) c)) :=
  unscopedRest_at preFacts7 c _ (tbl_at7 m c)
theorem tbl_at10 (c : Dev nD) : (fun k => Ve (W32 m) c (pre10.ref k)) = (tbl10 m).1 := by
  obtain rfl := dev_eq c
  rw [tbl10_val]
  exact funext fun k => Bn_back m c₀ _ 19 13 ((by decide : ∀ k : Fin 2, 19 + 13 ≤ 34 ∧ ∀ i < 13, pre10.ref k ∉ wr (19 + i)) k)
theorem unscopedRest_at10 (c : Dev nD) : (Pipeline.unscopedRest (Ix := Unit) (Name := ℕ) (U := UR sig nD τ) (Lvl := ℕ) spec10 c (Ve (W32 m) c) : sProp 𝕄)
    = iprop(Pipeline.prefHeld pre10 c (fun _ => fullShare) (tbl10 m).1 ∗ Pipeline.unscopedRestP pre10 spec10 c (Ve (W32 m) c)) :=
  unscopedRest_at preFacts10 c _ (tbl_at10 m c)

end Cert.Kernel.Hand

end
-- ==== Proof.LibSeg.lean ====
import Idealize.ShloMosaic.Lib.Pipeline.RegionsLoop
import Idealize.ShloMosaic.Lib.Pipeline.Frame

noncomputable section

namespace Cert.LibSeg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Prefetch pin BodyObligation PLaunchFacts WinFacts)

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)

-- A product over no table is empty.
theorem prefHeld_emp {pre : Prefetch sig} (h0 : pre.K = 0) (c : Dev nD) (q : Fin pre.K → PosShare TreeShare) (V : pre.Contents Val) :
    (Pipeline.prefHeld pre c q V : sProp 𝕄) = BI.emp := by
  haveI : IsEmpty (Fin pre.K) := by rw [h0]; infer_instance
  unfold Pipeline.prefHeld; rw [Finset.univ_eq_empty, BI.bigSep_empty]

-- The arrays are split out of the held unscoped buffers; a core that owes nothing meets the first tallies.
theorem entry_held {p : P} (hw : WinFacts (pin pcs a p).spec) (harr : ∀ w, ((pin pcs a p).spec w).arr.IsWhole) (c : Dev nD)
    (W : Valuation τ sig Val) (hq : ∀ w, (pdats p c).q w = fullShare)
    (hA : ∀ w, (pdats p c).A w = W (Pipeline.arrRef (pin pcs a p).spec w))
    (ho : (pdats p c).owed 0 = 0) (hr : (pdats p c).recorded 0 = Set.univ) {X T Z : sProp 𝕄}
    (hT : (Pipeline.unscopedRest (pin pcs a p).spec c (fun b => W b) : sProp 𝕄) ⊢ iprop(T ∗ Z)) :
    iprop((StableHlo.held (c : Thread nD τ) (Pipeline.ucRefs τ sig) W ∗ X ∗ ∃ O, owes (c : Thread nD τ) (0 : CellTallies nD τ sig Ix) O)
        ∗ Pipeline.ownSems0 (fun k : PEmpty => k.elim) c ∗ levAts L lv)
      ⊢ |={Set.univ}=> iprop((pdats p c).arrays ((pdats p c).arrAt · 0) ∗ T ∗ (pdats p c).owesAt ι 0 ∗ X ∗ Z) := by
  have hsplit := (Pipeline.arrays_of_unscopedBufs pcs a pdats hw harr c ((pdats p c).share_full hq) (fun b => W b) hA).trans (sep_mono .rfl hT)
  rw [Pipeline.unscopedBufs_held] at hsplit
  have hO : iprop(∃ O, owes (c : Thread nD τ) (0 : CellTallies nD τ sig Ix) O) ⊢ ((pdats p c).owesAt ι 0 : sProp 𝕄) := by
    unfold Pipeline.Dat.owesAt Pipeline.owesWithin Pipeline.Dat.bound; rw [ho, hr]
    iintro ⟨%O, HO⟩; iexists O; isplitr; · ipureintro; exact fun _ _ => Or.inl trivial
    iexact HO
  iintro ⟨⟨Hub, HX, HO⟩, -, -⟩
  ihave H := hsplit $$ Hub
  icases H with ⟨Ha, HT, HZ⟩
  imodintro
  isplitl [Ha]; · iexact Ha
  isplitl [HT]; · iexact HT
  isplitl [HO]; · iapply hO; iexact HO
  isplitl [HX]; · iexact HX
  iexact HZ

-- The arrays go back among the unscoped buffers at a valuation that has them at their last contents and is unchanged elsewhere.
theorem exit_held {p : P} (hw : WinFacts (pin pcs a p).spec) (harr : ∀ w, ((pin pcs a p).spec w).arr.IsWhole) (c : Dev nD)
    (W W' : Valuation τ sig Val) (hq : ∀ w, (pdats p c).q w = fullShare)
    (hF : ∀ w, (pdats p c).arrAt w (pin pcs a p).N = W' (Pipeline.arrRef (pin pcs a p).spec w))
    (hrest : ∀ b : Ref sig .tc, b ∉ Finset.univ.image (Pipeline.arrRef (pin pcs a p).spec) → W' b = W b)
    (ho : (pdats p c).owed (Fin.last (pin pcs a p).N) = 0) {X Y Z : sProp 𝕄}
    (hY : iprop(Y ∗ Z) ⊢ iprop(X ∗ (Pipeline.unscopedRest (pin pcs a p).spec c (fun b => W b) : sProp 𝕄))) :
    iprop((pdats p c).arrays ((pdats p c).arrAt · (pin pcs a p).N) ∗ (pdats p c).owesAt ι (Fin.last (pin pcs a p).N) ∗ Y ∗ Z)
      ⊢ |={Set.univ}=> iprop(StableHlo.held (c : Thread nD τ) (Pipeline.ucRefs τ sig) W' ∗ X ∗ ∃ O, owes (c : Thread nD τ) (0 : CellTallies nD τ sig Ix) O) := by
  have hjoin := Pipeline.unscopedBufs_of_arrays pcs a hw harr c pdats ((pdats p c).share_full hq) (fun b => W b) (fun b => W' b)
    ((pdats p c).arrAt · (pin pcs a p).N) hF hrest
  rw [Pipeline.unscopedBufs_held] at hjoin
  have hO : ((pdats p c).owesAt ι (Fin.last (pin pcs a p).N) : sProp 𝕄) ⊢ iprop(∃ O, owes (c : Thread nD τ) (0 : CellTallies nD τ sig Ix) O) := by
    unfold Pipeline.Dat.owesAt Pipeline.owesWithin; rw [ho]
    iintro ⟨%O, -, HO⟩; iexists O; iexact HO
  iintro ⟨Ha, HO, HYZ⟩
  ihave H := hY $$ HYZ
  icases H with ⟨HX, Hrest⟩
  imodintro
  isplitl [Ha Hrest]
  · iapply hjoin; isplitl [Ha] <;> iassumption
  isplitl [HX]; · iexact HX
  iapply hO; iexact HO

-- What a region shows of its proof data to be entered from the unscoped buffers held at `W` and left with them at `W'`.
structure HeldFacts (p : P) (W W' : Dev nD → Valuation τ sig Val) : Prop where
  lf : PLaunchFacts (nD := nD) (τ := τ) pcs p
  hbody : ∀ c, BodyObligation (pdats p c) defs₀ 𝒱₀ ι Set.univ
  ho : ∀ c t, (pdats p c).owed t = 0
  hr : ∀ c, (pdats p c).recorded 0 = Set.univ
  hq : ∀ c w, (pdats p c).q w = fullShare
  hA : ∀ c w, (pdats p c).A w = W c (Pipeline.arrRef (pin pcs a p).spec w)
  hF : ∀ c w, (pdats p c).arrAt w (pin pcs a p).N = W' c (Pipeline.arrRef (pin pcs a p).spec w)
  hrest : ∀ c (b : Ref sig .tc), b ∉ Finset.univ.image (Pipeline.arrRef (pin pcs a p).spec) → W' c b = W c b

variable {pcs a pdats ι defs₀ 𝒱₀ L lv}

-- A region with no semaphore of its own between two such states; `Y` and `Z` say how the unscoped rest is shared out.
def segHeld {p : P} {W W' : Dev nD → Valuation τ sig Val} (h : HeldFacts pcs a pdats ι defs₀ 𝒱₀ p W W') (X Y Z : Dev nD → sProp 𝕄)
    (hT : ∀ c, (Pipeline.unscopedRest (pin pcs a p).spec c (fun b => W c b) : sProp 𝕄)
      ⊢ iprop(Pipeline.prefHeld (pcs p).pre c (fun _ => fullShare) (a p).1 ∗ Z c))
    (hY : ∀ c, iprop(Y c ∗ Z c) ⊢ iprop(X c ∗ (Pipeline.unscopedRest (pin pcs a p).spec c (fun b => W c b) : sProp 𝕄)))
    (hin : ∀ c, iprop(X c ∗ Pipeline.prefHeld (pcs p).pre c (fun _ => fullShare) (a p).1 ∗ Pipeline.scopedRest (pin pcs a p).spec c) ⊢ (pdats p c).Φ 0)
    (hout : ∀ c, (pdats p c).Φ (Fin.last (pin pcs a p).N)
      ⊢ iprop(Y c ∗ Pipeline.ownSems0 (fun k : PEmpty => k.elim) c ∗ Pipeline.scopedRest (pin pcs a p).spec c)) :
    Pipeline.RegionSeg pcs a pdats ι defs₀ 𝒱₀ L lv p where
  win := h.lf.win.to₀
  block_pos := h.lf.block_pos
  stage_whole := h.lf.stage_whole
  K := PEmpty
  osem k := k.elim
  ho := Pipeline.OwnSemFacts.none _
  hbody c := (h.hbody c).loose
  hwaits := Pipeline.hwaits_of_owed_zero pcs a pdats ι L lv p h.ho
  pre c := iprop(StableHlo.held (c : Thread nD τ) (Pipeline.ucRefs τ sig) (W c) ∗ X c ∗ ∃ O, owes (c : Thread nD τ) (0 : CellTallies nD τ sig Ix) O)
  post c := iprop(StableHlo.held (c : Thread nD τ) (Pipeline.ucRefs τ sig) (W' c) ∗ X c ∗ ∃ O, owes (c : Thread nD τ) (0 : CellTallies nD τ sig Ix) O)
  X := X
  Y := Y
  Z := Z
  hentry c := entry_held pcs a pdats ι L lv h.lf.win h.lf.arr_whole c (W c) (h.hq c) (h.hA c) (h.ho c 0) (h.hr c) (hT c)
  hin := hin
  hout := hout
  hexit c := exit_held pcs a pdats ι h.lf.win h.lf.arr_whole c (W c) (W' c) (h.hq c) (h.hF c) (h.hrest c) (h.ho c _) (hY c)

-- With no table the whole unscoped rest goes round the region.
def segHeld0 {p : P} {W W' : Dev nD → Valuation τ sig Val} (h : HeldFacts pcs a pdats ι defs₀ 𝒱₀ p W W') (h0 : (pcs p).pre.K = 0)
    {X : Dev nD → sProp 𝕄}
    (hin : ∀ c, iprop(X c ∗ Pipeline.prefHeld (pcs p).pre c (fun _ => fullShare) (a p).1 ∗ Pipeline.scopedRest (pin pcs a p).spec c) ⊢ (pdats p c).Φ 0)
    (hout : ∀ c, (pdats p c).Φ (Fin.last (pin pcs a p).N)
      ⊢ iprop(X c ∗ Pipeline.ownSems0 (fun k : PEmpty => k.elim) c ∗ Pipeline.scopedRest (pin pcs a p).spec c)) :
    Pipeline.RegionSeg pcs a pdats ι defs₀ 𝒱₀ L lv p :=
  segHeld h X X (fun c => Pipeline.unscopedRest (pin pcs a p).spec c (fun b => W c b))
    (fun c => by rw [prefHeld_emp h0]; exact emp_sep_intro) (fun c => .rfl) hin hout

-- The unscoped rest is the tables, whole at the admissible contents, and what is neither array nor table.
theorem rest_tables {p : P} (hp : Pipeline.PreFacts (pcs p).spec (pcs p).pre) (c : Dev nD) (W : Valuation τ sig Val)
    (htbl : (fun k => W ((pcs p).pre.ref k)) = (a p).1) :
    (Pipeline.unscopedRest (pin pcs a p).spec c (fun b => W b) : sProp 𝕄)
      = iprop(Pipeline.prefHeld (pcs p).pre c (fun _ => fullShare) (a p).1 ∗ Pipeline.unscopedRestP (pcs p).pre (pin pcs a p).spec c (fun b => W b)) :=
  (Pipeline.unscopedRest_split hp c _).trans
    (congrArg (fun t => (iprop(Pipeline.prefHeld (pcs p).pre c (fun _ => fullShare) t ∗ Pipeline.unscopedRestP (pcs p).pre (pin pcs a p).spec c (fun b => W b)) : sProp 𝕄)) htbl)

-- Tables found at the admissible contents go into the invariant beside `X` and come back with it.
def segHeldT {p : P} {W W' : Dev nD → Valuation τ sig Val} (h : HeldFacts pcs a pdats ι defs₀ 𝒱₀ p W W')
    (htbl : ∀ c, (fun k => W c ((pcs p).pre.ref k)) = (a p).1) {X : Dev nD → sProp 𝕄}
    (hin : ∀ c, iprop(X c ∗ Pipeline.prefHeld (pcs p).pre c (fun _ => fullShare) (a p).1 ∗ Pipeline.scopedRest (pin pcs a p).spec c) ⊢ (pdats p c).Φ 0)
    (hout : ∀ c, (pdats p c).Φ (Fin.last (pin pcs a p).N)
      ⊢ iprop((X c ∗ Pipeline.prefHeld (pcs p).pre c (fun _ => fullShare) (a p).1) ∗ Pipeline.ownSems0 (fun k : PEmpty => k.elim) c ∗ Pipeline.scopedRest (pin pcs a p).spec c)) :
    Pipeline.RegionSeg pcs a pdats ι defs₀ 𝒱₀ L lv p :=
  segHeld h X (fun c => iprop(X c ∗ Pipeline.prefHeld (pcs p).pre c (fun _ => fullShare) (a p).1))
    (fun c => Pipeline.unscopedRestP (pcs p).pre (pin pcs a p).spec c (fun b => W c b))
    (fun c => Entails.of_eq (rest_tables h.lf.pre c (W c) (htbl c)))
    (fun c => sep_assoc.1.trans (sep_mono .rfl (Entails.of_eq (rest_tables h.lf.pre c (W c) (htbl c)).symm))) hin hout

-- A region's exit state may be replaced by one it entails.
def withPost {p : P} (R : Pipeline.RegionSeg pcs a pdats ι defs₀ 𝒱₀ L lv p) (post : Dev nD → sProp 𝕄) (hpost : ∀ c, R.post c ⊢ post c) :
    Pipeline.RegionSeg pcs a pdats ι defs₀ 𝒱₀ L lv p :=
  { R with post := post, hexit := fun c => (R.hexit c).trans (fupd_mono (hpost c)) }

end Cert.LibSeg

end
-- ==== Proof.K.RunRegG.lean ====
import proofs.«411563_j39152921870698_3_alg».proof.Proof.K.RunOf
import proofs.«411563_j39152921870698_3_alg».proof.Proof.LibSeg

set_option backward.isDefEq.respectTransparency.types false

noncomputable section

namespace Cert.Kernel.Hand

open Cert.Kernel Cert.Kernel.Gen
open Idealize.ShloMosaic Idealize.ShloMosaic.TcCoe
open Idealize.SL Idealize.SL.BI
open scoped Idealize.SL.BI

variable {F : FTy → Type} [FloatOps F]

variable (m : (ℓ : Loc nD τ sig) → Buf (Elt F) ℓ)

-- A gather region takes no table: it is entered from the unscoped buffers at one boundary's contents and left at the next's.
def reg0 : Pipeline.RegionSeg (pcfgs (F := F)) (adm m) (pdats m) () defs₀ 𝒱₀ L lv 0 :=
  LibSeg.segHeld0 (W := W19 m) (W' := W20 m)
    ⟨launch0, rbody0 _, rowed_eq0 _, fun _ => rfl, rq_eq0 _, rA_eq0 _, hF0 m, hrest0 m⟩ rfl (rhin0 _) (rhout0 _)

def reg3 : Pipeline.RegionSeg (pcfgs (F := F)) (adm m) (pdats m) () defs₀ 𝒱₀ L lv 3 :=
  LibSeg.segHeld0 (W := W23 m) (W' := W24 m)
    ⟨launch3, rbody3 _, rowed_eq3 _, fun _ => rfl, rq_eq3 _, rA_eq3 _, hF3 m, hrest3 m⟩ rfl (rhin3 _) (rhout3 _)

def reg6 : Pipeline.RegionSeg (pcfgs (F := F)) (adm m) (pdats m) () defs₀ 𝒱₀ L lv 6 :=
  LibSeg.segHeld0 (W := W27 m) (W' := W28 m)
    ⟨launch6, rbody6 _, rowed_eq6 _, fun _ => rfl, rq_eq6 _, rA_eq6 _, hF6 m, hrest6 m⟩ rfl (rhin6 _) (rhout6 _)

def reg9 : Pipeline.RegionSeg (pcfgs (F := F)) (adm m) (pdats m) () defs₀ 𝒱₀ L lv 9 :=
  LibSeg.segHeld0 (W := W31 m) (W' := W32 m)
    ⟨launch9, rbody9 _, rowed_eq9 _, fun _ => rfl, rq_eq9 _, rA_eq9 _, hF9 m, hrest9 m⟩ rfl (rhin9 _) (rhout9 _)

end Cert.Kernel.Hand

end
-- ==== Proof.K.RunRegSC.lean ====
import proofs.«411563_j39152921870698_3_alg».proof.Proof.K.RunOf
import proofs.«411563_j39152921870698_3_alg».proof.Proof.LibSeg

set_option backward.isDefEq.respectTransparency.types false

noncomputable section

namespace Cert.Kernel.Hand

open Cert.Kernel Cert.Kernel.Gen
open Idealize.ShloMosaic Idealize.ShloMosaic.TcCoe
open Idealize.SL Idealize.SL.BI
open scoped Idealize.SL.BI

variable {F : FTy → Type} [FloatOps F]

variable (m : (ℓ : Loc nD τ sig) → Buf (Elt F) ℓ)

-- A counting scatter region finds its two tables as the preparation left them: no item before it writes one.
def reg1 : Pipeline.RegionSeg (pcfgs (F := F)) (adm m) (pdats m) () defs₀ 𝒱₀ L lv 1 :=
  LibSeg.segHeldT (W := W20 m) (W' := W21 m)
    ⟨launch1, rbody1 _ _, rowed_eq1 _ _, fun _ => rfl, rq_eq1 _ _, rA_eq1 _ _, hF1 m, hrest1 m⟩ (tbl_at1 m) (rhin1 _ _) (rhout1 _ _)

def reg4 : Pipeline.RegionSeg (pcfgs (F := F)) (adm m) (pdats m) () defs₀ 𝒱₀ L lv 4 :=
  LibSeg.segHeldT (W := W24 m) (W' := W25 m)
    ⟨launch4, rbody4 _ _, rowed_eq4 _ _, fun _ => rfl, rq_eq4 _ _, rA_eq4 _ _, hF4 m, hrest4 m⟩ (tbl_at4 m) (rhin4 _ _) (rhout4 _ _)

end Cert.Kernel.Hand

end
-- ==== Proof.K.RunRegS.lean ====
import proofs.«411563_j39152921870698_3_alg».proof.Proof.K.RunOf
import proofs.«411563_j39152921870698_3_alg».proof.Proof.LibSeg

set_option backward.isDefEq.respectTransparency.types false

noncomputable section

namespace Cert.Kernel.Hand

open Cert.Kernel Cert.Kernel.Gen
open Idealize.ShloMosaic Idealize.ShloMosaic.TcCoe
open Idealize.SL Idealize.SL.BI
open scoped Idealize.SL.BI

variable {F : FTy → Type} [FloatOps F]

variable (m : (ℓ : Loc nD τ sig) → Buf (Elt F) ℓ)

-- A scatter region finds its two tables as the preparation left them: no item before it writes one.
def reg7 : Pipeline.RegionSeg (pcfgs (F := F)) (adm m) (pdats m) () defs₀ 𝒱₀ L lv 7 :=
  LibSeg.segHeldT (W := W28 m) (W' := W29 m)
    ⟨launch7, rbody7 _ _, rowed_eq7 _ _, fun _ => rfl, rq_eq7 _ _, rA_eq7 _ _, hF7 m, hrest7 m⟩ (tbl_at7 m) (rhin7 _ _) (rhout7 _ _)

def reg10 : Pipeline.RegionSeg (pcfgs (F := F)) (adm m) (pdats m) () defs₀ 𝒱₀ L lv 10 :=
  LibSeg.segHeldT (W := W32 m) (W' := W33 m)
    ⟨launch10, rbody10 _ _, rowed_eq10 _ _, fun _ => rfl, rq_eq10 _ _, rA_eq10 _ _, hF10 m, hrest10 m⟩ (tbl_at10 m) (rhin10 _ _) (rhout10 _ _)

end Cert.Kernel.Hand

end
-- ==== Proof.K.RunRegL.lean ====
import proofs.«411563_j39152921870698_3_alg».proof.Proof.K.RunOf
import proofs.«411563_j39152921870698_3_alg».proof.Proof.LibSeg

set_option backward.isDefEq.respectTransparency.types false

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase

variable {F : FTy → Type} [FloatOps F]

variable (m : (ℓ : Loc nD τ sig) → Buf (Elt F) ℓ)

-- A linear region takes no table: it is entered from the unscoped buffers at one boundary's contents and left at the next's.
def reg2 : Pipeline.RegionSeg (pcfgs (F := F)) (adm m) (pdats m) () defs₀ 𝒱₀ L lv 2 :=
  LibSeg.segHeld0 (W := W21 m) (W' := W22 m)
    ⟨launch2, rbody2 _, rowed_eq2 _, fun _ => rfl, rq_eq2 _, rA_eq2 _, hF2 m, hrest2 m⟩ rfl (rhin2 _) (rhout2 _)

def reg5 : Pipeline.RegionSeg (pcfgs (F := F)) (adm m) (pdats m) () defs₀ 𝒱₀ L lv 5 :=
  LibSeg.segHeld0 (W := W25 m) (W' := W26 m)
    ⟨launch5, rbody5 _, rowed_eq5 _, fun _ => rfl, rq_eq5 _, rA_eq5 _, hF5 m, hrest5 m⟩ rfl (rhin5 _) (rhout5 _)

def reg8 : Pipeline.RegionSeg (pcfgs (F := F)) (adm m) (pdats m) () defs₀ 𝒱₀ L lv 8 :=
  LibSeg.segHeld0 (W := W29 m) (W' := W30 m)
    ⟨launch8, rbody8 _, rowed_eq8 _, fun _ => rfl, rq_eq8 _, rA_eq8 _, hF8 m, hrest8 m⟩ rfl (rhin8 _) (rhout8 _)

-- The last region leaves the buffers and the generator register grouped as the program's final state.
def reg11 : Pipeline.RegionSeg (pcfgs (F := F)) (adm m) (pdats m) () defs₀ 𝒱₀ L lv 11 :=
  LibSeg.withPost (LibSeg.segHeld0 (W := W33 m) (W' := W34 m)
      ⟨launch11, rbody11 _, rowed_eq11 _, fun _ => rfl, rq_eq11 _, rA_eq11 _, hF11 m, hrest11 m⟩ rfl (rhin11 _) (rhout11 _))
    (fun c => iprop((StableHlo.held (c : Thread nD τ) (Pipeline.ucRefs τ sig) (W34 m c) ∗ ∃ r, prngReg c r) ∗ ∃ W, owes (c : Thread nD τ) (0 : CellTallies nD τ sig Unit) W))
    fun c => Laws.sep_assoc.2

end Cert.Kernel.Hand

end
-- ==== Proof.K.Run.lean ====
import proofs.«411563_j39152921870698_3_alg».proof.Proof.K.RunRegG
import proofs.«411563_j39152921870698_3_alg».proof.Proof.K.RunRegSC
import proofs.«411563_j39152921870698_3_alg».proof.Proof.K.RunRegS
import proofs.«411563_j39152921870698_3_alg».proof.Proof.K.RunRegL

set_option maxRecDepth 1648

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def hseg (ops : List (HloOp τ sig (Elt F))) (hs : ops.Forall fun op => op.bufs ⊆ StableHlo.tcRefs τ sig) (hf : ops.Forall fun op => op.fresh = ∅)
    (V : Dev nD → Valuation τ sig (Elt F)) : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) ops (fun op h => Pipeline.sub_ucRefs op ((List.forall_iff_forall_mem.mp hs) op h))
    (fun op h => (List.forall_iff_forall_mem.mp hf) op h) V R

abbrev segsRun : List (Pipeline.Seg (pcfgs (F := F)) (adm m) (pdats m) () defs₀ 𝒱₀ L lv) :=
  [.host (seg0 m 𝒱₀ L lv ER), .host (seg1 m 𝒱₀ L lv ER), .host (seg2 m 𝒱₀ L lv ER), .host (seg3 m 𝒱₀ L lv ER), .host (seg4 m 𝒱₀ L lv ER), .host (seg5 m 𝒱₀ L lv ER), .host (seg6 m 𝒱₀ L lv ER), .host (seg7 m 𝒱₀ L lv ER), .host (seg8 m 𝒱₀ L lv ER), .host (seg9 m 𝒱₀ L lv ER), .host (seg10 m 𝒱₀ L lv ER), .host (seg11 m 𝒱₀ L lv ER), .host (seg12 m 𝒱₀ L lv ER), .host (seg13 m 𝒱₀ L lv ER), .host (seg14 m 𝒱₀ L lv ER), .host (seg15 m 𝒱₀ L lv ER), .host (seg16 m 𝒱₀ L lv ER), .host (seg17 m 𝒱₀ L lv ER), .host (seg18 m 𝒱₀ L lv ER), .region (reg0 m), .region (reg1 m), .region (reg2 m), .host (hseg hostOps3 hostOps3_sub hostOps3_fresh (W22 m)), .region (reg3 m), .region (reg4 m), .region (reg5 m), .host (hseg hostOps6 hostOps6_sub hostOps6_fresh (W26 m)), .region (reg6 m), .region (reg7 m), .region (reg8 m), .host (hseg hostOps9 hostOps9_sub hostOps9_fresh (W30 m)), .region (reg9 m), .region (reg10 m), .region (reg11 m)]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W34 m c) ∗ ∃ r, prngReg c r)

set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Wlast m c b) := by
  refine Pipeline.θ_run_regions_kit_dev (pcfgs (F := F)) (adm m) (pdats m) () (cellOf_inj (adm m)) emb₁ defs₀ 𝒱₀ L lv m ρ main
    (fun _ => segsRun m)
    (fun c Q => by
      rewrite [main_chain c, Pipeline.Seg.run_eq_chain,
        show (segsRun m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          StableHlo.seq hostOps6,
          Prog.lift (.customCall (Pipeline.entry 6) ()),
          Prog.lift (.customCall (Pipeline.entry 7) ()),
          Prog.lift (.customCall (Pipeline.entry 8) ()),
          StableHlo.seq hostOps9,
          Prog.lift (.customCall (Pipeline.entry 9) ()),
          Prog.lift (.customCall (Pipeline.entry 10) ()),
          Prog.lift (.customCall (Pipeline.entry 11) ()) ] from rfl]
      with_reducible exact .rfl)
    (fun c => by simp only [segsRun, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m c b)
    (hfin := fun c s' => by
      iintro ⟨⟨Hh, -⟩, HSI⟩
      unfold StableHlo.held
      imodintro
      iapply (pointsTo_read_all (Pipeline.ucRefs τ sig) (fun b => (((c : Thread nD τ)).1, b)) (W34 m c) s')
      isplitl [Hh] <;> iassumption)
    (hQ := fun _ h => h)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun r h c =>
    ⟨(h c _ (mem_uc main_arg0 (by decide))).trans (Wlast_main_arg0 m c),
     (h c _ (mem_uc main_arg1 (by decide))).trans (Wlast_main_arg1 m c),
     (h c _ (mem_uc main_arg2 (by decide))).trans (Wlast_main_arg2 m c),
     (h c _ (mem_uc main_arg3 (by decide))).trans (Wlast_main_arg3 m c),
     (h c _ (mem_uc main_arg4 (by decide))).trans (Wlast_main_arg4 m c),
     (h c _ (mem_uc main_arg5 (by decide))).trans (Wlast_main_arg5 m c),
     (h c _ (mem_uc main_arg6 (by decide))).trans (Wlast_main_arg6 m c),
     (h c _ (mem_uc main_arg7 (by decide))).trans (Wlast_main_arg7 m c),
     (h c _ (mem_uc main_arg8 (by decide))).trans (Wlast_main_arg8 m c),
     (h c _ (mem_uc main_arg9 (by decide))).trans (Wlast_main_arg9 m c),
     (h c _ (mem_uc main_arg10 (by decide))).trans (Wlast_main_arg10 m c),
     (h c _ (mem_uc main_arg11 (by decide))).trans (Wlast_main_arg11 m c),
     (h c _ (mem_uc main_arg12 (by decide))).trans (Wlast_main_arg12 m c),
     (h c _ (mem_uc main_arg13 (by decide))).trans (Wlast_main_arg13 m c),
     (h c _ (mem_uc main_arg14 (by decide))).trans (Wlast_main_arg14 m c),
     (h c _ (mem_uc main_arg15 (by decide))).trans (Wlast_main_arg15 m c)⟩) (run_all m ρ)

end Cert.Kernel.Hand

end
-- ==== Proof.KI.RunTables.lean ====
import proofs.«411563_j39152921870698_3_alg».proof.Proof.RegionsKI

set_option maxRecDepth 1648

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ve (W : Dev nD → Valuation τ sig (Elt F)) : (c : Dev nD) → (b : Ref sig .tc) → Buf (Elt F) ((c : Thread nD τ).loc b) :=
  fun c b => W c b

abbrev c₀ : Dev nD := ⟨0, Nat.one_pos⟩

theorem dev_eq (c : Dev nD) : c = c₀ := Subsingleton.elim _ _

def tbl1 : (pcfg1 (F := F)).Adm := ⟨fun k => Ve (V19 m) c₀ (pre1.ref k), trivial⟩
theorem tbl1_val : (tbl1 m).1 = fun k => Ve (V19 m) c₀ (pre1.ref k) := rfl
attribute [irreducible] tbl1

def tbl4 : (pcfg4 (F := F)).Adm := ⟨fun k => Ve (V19 m) c₀ (pre4.ref k), trivial⟩
theorem tbl4_val : (tbl4 m).1 = fun k => Ve (V19 m) c₀ (pre4.ref k) := rfl
attribute [irreducible] tbl4

def tbl7 : (pcfg7 (F := F)).Adm := ⟨fun k => Ve (V19 m) c₀ (pre7.ref k), trivial⟩
theorem tbl7_val : (tbl7 m).1 = fun k => Ve (V19 m) c₀ (pre7.ref k) := rfl
attribute [irreducible] tbl7

def tbl10 : (pcfg10 (F := F)).Adm := ⟨fun k => Ve (V19 m) c₀ (pre10.ref k), trivial⟩
theorem tbl10_val : (tbl10 m).1 = fun k => Ve (V19 m) c₀ (pre10.ref k) := rfl
attribute [irreducible] tbl10

@[reducible] def adm : (p : Fin 12) → (pcfgs (F := F) p).Adm
  | ⟨0, _⟩ => cfg0.toPCfg_adm
  | ⟨1, _⟩ => tbl1 m
  | ⟨2, _⟩ => cfg2.toPCfg_adm
  | ⟨3, _⟩ => cfg3.toPCfg_adm
  | ⟨4, _⟩ => tbl4 m
  | ⟨5, _⟩ => cfg5.toPCfg_adm
  | ⟨6, _⟩ => cfg6.toPCfg_adm
  | ⟨7, _⟩ => tbl7 m
  | ⟨8, _⟩ => cfg8.toPCfg_adm
  | ⟨9, _⟩ => cfg9.toPCfg_adm
  | ⟨10, _⟩ => tbl10 m
  | ⟨11, _⟩ => cfg11.toPCfg_adm
  | ⟨_ + 12, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ER : Fin 13 → Dev nD → sProp 𝕄 := fun _ => R

end Cert.KernelIdeal.Hand

end
-- ==== Proof.KI.GatherKernel.lean ====
import proofs.«411563_j39152921870698_3_alg».proof.Proof.Gen.KernelIdeal.Launch
import proofs.«411563_j39152921870698_3_alg».proof.Proof.Gen.KernelIdeal.Skeleton
import proofs.«411563_j39152921870698_3_alg».proof.Proof.Gen.KernelIdeal.Points
import proofs.«411563_j39152921870698_3_alg».proof.Proof.Gen.KernelIdeal.Loops
import proofs.«411563_j39152921870698_3_alg».proof.Proof.LibGather
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev gatherAccRect : Rect S2048x128 := Rect.unit (s := S2048x128) ![0, 0] S2048x128.size inb_S2048x128_S2048x128_0_0
abbrev gatherSlab (k : Fin k0_t1_loop.trips) : Rect S100000x128 :=
  Rect.unit (s := S100000x128) (k0_off1 k) S2000x128.size (k0_off1_inb k)

-- The accumulator before slab k: each slab's payload adds its product to what the slabs before left.
def gatherAcc (x0 : Vec F S100000x128 .bf16) (x1 : Vec F S1x2048 .i32) : Vec F S2048x128 .f32 → ℕ → Vec F S2048x128 .f32 :=
  accOf k0_t1_loop.trips fun k => k0_pay2 x1 k (View.ld x0 (gatherSlab k))

-- The output block: the accumulator after the last slab, started from the zero block, narrowed.
def gatherOut (x0 : Vec F S100000x128 .bf16) (x1 : Vec F S1x2048 .i32) : Vec F S2048x128 .bf16 :=
  k0_pay3 (gatherAcc x0 x1 (k0_pay1 (F := F)) k0_t1_loop.trips)

section Trips
variable (𝒱 : Variants) (c : Dev nD) (bd : Option 𝒱.V) (i : grid0.Coords)
    (arg1 : Memref sig .tc .vmem S100000x128 .bf16) (harg1 : arg1.IsWhole)
    (arg2 : Memref sig .tc .vmem S1x2048 .i32) (harg2 : arg2.IsWhole)
    (arg3 : Memref sig .tc .vmem S2048x128 .bf16) (harg3 : arg3.IsWhole)
    (arg4 : Memref sig .tc .vmem S2048x128 .f32) (harg4 : arg4.IsWhole)
    (v4 : Vec F S1x2048 .i32) (X : BufTy.Contents (Elt F) arg1.view.ty)

theorem gatherTrip_eq (k : Fin k0_t1_loop.trips) (f : BufTy.Contents (Elt F) arg4.view.ty) :
    tripL_k0_t1 (F := F) 𝒱 c bd i arg1 harg1 arg2 harg2 arg3 harg3 arg4 harg4 v4 X k f
      = [⟨gatherAccRect, k0_pay2 v4 k (View.ld (arg1.view.read (Elt F) X) (gatherSlab k)) (View.ld (arg4.view.read (Elt F) f) gatherAccRect)⟩] := by
  unfold tripL_k0_t1 trip_k0_t1
  dsimp only
  sl_unfold_words
  simp only [View.readAt_eq_ld]
  rfl

-- The accumulator after the trips before k, read back, follows the recurrence from its entry contents.
theorem gatherTrips_read (G : BufTy.Contents (Elt F) arg4.view.ty) :
    ∀ k, k ≤ k0_t1_loop.trips →
      arg4.view.read (Elt F) (arg4.view.writes (Elt F) G
          (pb_k0_t1 (F := F) 𝒱 c bd i arg1 harg1 arg2 harg2 arg3 harg3 arg4 harg4 v4 X G k))
        = gatherAcc (arg1.view.read (Elt F) X) v4 (arg4.view.read (Elt F) G) k
  | 0, _ => rfl
  | k + 1, hk => by
    rw [pb_k0_t1_succ (F := F) 𝒱 c bd i arg1 harg1 arg2 harg2 arg3 harg3 arg4 harg4 v4 X G ⟨k, hk⟩,
      View.writes_append, gatherTrip_eq, View.read_writes_eq_canon _ _ _ (coverWhole zeroOff2 _ _),
      View.canon_unit_zero zeroOff2, View.ld_unit_zero (S := S2048x128) zeroOff2, gatherTrips_read G k (Nat.le_of_lt hk)]
    exact (accOf_succ _ _ _ ⟨k, hk⟩).symm

-- The gather kernel function on its four memrefs (every gather region runs it).
abbrev gatherBody : Prog (TpuEff nD τ sig (Elt F) Λ₀ .tc) PUnit :=
  cc0__gather_kernel (F := F) i arg1 harg1 arg2 harg2 arg3 harg3 arg4 harg4

-- The kernel body runs to a continuation holding the inputs as they were and the output at gatherOut of them.
set_option maxHeartbeats 4000000 in
theorem sound_gather (E : Set ℕ) (x0 : Vec F S100000x128 .bf16) (x1 : Vec F S1x2048 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (gatherOut x0 x1) ∗ (∃ d, owns (c : Thread nD τ) arg4 fullShare d)) -∗ K ⟨⟩))
      ⊢ wp frame (wpE (defs₀ (F := F)) Variants.none c none) E (gatherBody (F := F) i arg1 harg1 arg2 harg2 arg3 harg3 arg4 harg4) K := by
  unfold gatherBody; simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (coverWhole zeroOff2 _ _)).trans ?_
    refine (View.canon_unit_zero zeroOff2 _ _).trans ?_
    unfold gatherOut
    refine congrArg k0_pay3 ?_
    sl_unfold_words
    simp only [View.readAt_eq_ld, View.ld_unit_zero (S := S2048x128) zeroOff2, View.ld_unit_zero (S := S1x2048) zeroOff2]
    rw [View.writes_append]
    refine (gatherTrips_read Variants.none c none i arg1 harg1 arg2 harg2 arg3 harg3 arg4 harg4 _ f0 _ k0_t1_loop.trips le_rfl).trans ?_
    rw [View.read_writes_eq_canon _ _ _ (coverWhole zeroOff2 _ _), View.canon_unit_zero zeroOff2]
  iexists _; iexists _; isplitr
  swap; · iexact H3
  ipureintro; rfl

end Trips

end Cert.KernelIdeal.Hand

end
-- ==== Proof.KI.Gather0.lean ====
import proofs.«411563_j39152921870698_3_alg».proof.Proof.KI.GatherKernel

set_option maxRecDepth 16384

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr0 : Memref sig .tc .vmem S2048x128 .f32 := Memref.whole cc0_scratch0

section Region
variable (V : (c : Dev nD) → (b : Ref sig .tc) → Buf (Elt F) ((c : Thread nD τ).loc b))

-- Window w's block at point t, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The region's proof data: every input block is kept, the output block is gatherOut of the two input blocks.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => gatherOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem after0_2 (c : Dev nD) (t : Fin cfg0.N) : (dat0 V c).after 2 t = gatherOut (iblk0 V c 0 t) (iblk0 V c 1 t) := by dsimp only [dat0]

-- At every point an input's block is its block of the array as the region found it.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

-- The class invariant with the accumulator owned at some contents, the other scoped buffers unopened.
theorem PhiA0_eq (c : Dev nD) :
    (Pipeline.ΦA spec0 c : sProp 𝕄)
      = iprop(iprop(iprop((∃ d, owns (c : Thread nD τ) scr0 fullShare d))
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scr0, owns_whole]; try rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

-- The body at any point: the invariant lends the accumulator and takes it back at whatever the body left in it.
theorem sound_body0 (c : Dev nD) (t : Fin cfg0.N) :
    bodyPre0 V c t ⊢ wp frame (wpE (defs₀ (F := F)) Variants.none c none) Set.univ
      (gatherBody (grid0.coords t) (st0_0 t) (stage_whole0 0 _) (st0_1 t) (stage_whole0 1 _) (st0_2 t) (stage_whole0 2 _) scr0 (Memref.isWhole_whole _))
      (fun _ => bodyPost0 V c t) := by
  unfold bodyPre0 bodyPost0
  simp only [before0_0, before0_1]
  rw [show (dat0 V c).Φ t.succ = Pipeline.ΦA spec0 c from rfl,
    show (dat0 V c).Φ t.castSucc = Pipeline.ΦA spec0 c from rfl,
    show (dat0 V c).owesAt () t.succ = (dat0 V c).owesAt () t.castSucc from rfl,
    show (dat0 V c).after 0 t = iblk0 V c 0 t from rfl, show (dat0 V c).after 1 t = iblk0 V c 1 t from rfl, after0_2, PhiA0_eq]
  iintro ⟨⟨⟨HS, Hrest⟩, Hg⟩, Ho, ⟨%d0, H0⟩, ⟨%d1, H1⟩, ⟨%d2, H2⟩⟩
  iapply (sound_gather c _ _ _ _ _ _ _ _ _ Set.univ (iblk0 V c 0 t) (iblk0 V c 1 t) _)
  iframe H0 H1 HS
  isplitl [H2]; · iexists _; iexact H2
  iintro ⟨H0, H1, H2, HS⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 := sep_comm.1

theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := sep_comm.1

end Region

end Cert.KernelIdeal.Hand

end
-- ==== Proof.KI.ScatterCnt1Sched.lean ====
import proofs.«411563_j39152921870698_3_alg».proof.Proof.Gen.KernelIdeal.Launch
import Idealize.ShloMosaic.Lib.Pipeline.Kit
import Idealize.ShloMosaic.Lib.Affine

noncomputable section

namespace Cert.KernelIdeal.Hand.ScatterCnt1

open Cert.KernelIdeal Cert.KernelIdeal.Gen
open Idealize.ShloMosaic Idealize.ShloMosaic.TcCoe

variable {F : FTy → Type} [FloatOps F]

theorem coords_node (t : Fin grid1.N) : ((grid1.coords t) 0).val = t.val / 293 := by
  have hN : t.val < 14943 := lt_of_lt_of_eq t.isLt N_1
  show t.val / grid1.stride 0 % 51 = t.val / 293
  rw [show grid1.stride 0 = 293 from by decide]; omega

theorem coords_edge (t : Fin grid1.N) : ((grid1.coords t) 1).val = t.val % 293 := by
  show t.val / grid1.stride 1 % 293 = t.val % 293
  rw [show grid1.stride 1 = 1 from by decide, Nat.div_one]

abbrev condFirst (i : grid1.Coords) : Prop :=
  (Scalar.cmpi .ne (Scalar.extui (Scalar.cmpi .eq (BitVec.ofNat 32 (i 1).val) 0#32)) 0#32) = 1#1

abbrev condLast (i : grid1.Coords) : Prop := k1_cond3 i = 1#1

-- Both sides are below 2³², so the edge coordinate equals a constant as a word exactly when it does as a number.
theorem edge_const_iff (t : Fin grid1.N) (k : ℕ) (hk : k < 2 ^ 32) :
    Scalar.cmpi .ne (Scalar.extui (Scalar.cmpi .eq (BitVec.ofNat 32 ((grid1.coords t) 1).val) (BitVec.ofNat 32 k))) 0#32 = 1#1
      ↔ t.val % 293 = k := by
  rw [Scalar.guard_iff, Scalar.cmpi, IntOp.cmpi_eq, coords_edge]
  have hn : t.val % 293 < 2 ^ 32 := Nat.lt_of_lt_of_le (Nat.mod_lt _ (by decide)) (by decide)
  refine ⟨fun h => ?_, fun h => congrArg (BitVec.ofNat 32) h⟩
  have := congrArg BitVec.toNat h
  rwa [BitVec.toNat_ofNat, BitVec.toNat_ofNat, Nat.mod_eq_of_lt hn, Nat.mod_eq_of_lt hk] at this

theorem condFirst_iff (t : Fin grid1.N) : condFirst (grid1.coords t) ↔ t.val % 293 = 0 := edge_const_iff t 0 (by decide)

theorem condLast_iff (t : Fin grid1.N) : condLast (grid1.coords t) ↔ t.val % 293 = 292 := edge_const_iff t 292 (by decide)

theorem condFirst_zero (t : Fin grid1.N) (h : t.val = 0) : condFirst (grid1.coords t) :=
  (condFirst_iff t).mpr (by rw [h])

-- Before a node block's last edge step the next point has the same node coordinate, so an index map that reads only it does not move.
theorem noFlush (ix : grid1.Coords → Fin 2 → ℕ) (hix : ∀ i, ix i = ![(BitVec.ofNat 32 (i 0).val).toNat, 0]) (t : Fin grid1.N)
    (h : ¬ condLast (grid1.coords t)) : Pipeline.Window.flushOf grid1 true ix t = false := by
  have hN : t.val < 14943 := lt_of_lt_of_eq t.isLt N_1
  have hl : t.val % 293 ≠ 292 := fun e => h ((condLast_iff t).mpr e)
  have hc : ∀ h₁ : t.val + 1 < grid1.N, grid1.coords ⟨t.val + 1, h₁⟩ 0 = grid1.coords t 0 := fun h₁ =>
    Fin.ext (by rw [coords_node, coords_node]; show (t.val + 1) / 293 = t.val / 293; omega)
  rw [Bool.eq_false_iff]
  intro hb
  simp only [Pipeline.Window.flushOf, Bool.true_and, Bool.or_eq_true, decide_eq_true_eq] at hb
  rcases hb with hb | ⟨h₁, hne⟩
  · have := hb.trans N_1; omega
  · exact hne (by rw [hix, hix, hc h₁])

-- A one-bit guard is set or not: the negated test of it is true exactly when it is clear.
theorem idle_iff (x : BitVec 1) : ((!(x == 1#1)) = true ↔ ¬ x = 1#1) ∧ ((!(x == 1#1)) = false ↔ x = 1#1) := by
  revert x; decide

variable (a : (pcfg1 (F := F)).Adm)

theorem noFlush_out0 (t : Fin (cfg1 a).N) (h : ¬ condLast (grid1.coords t)) : ((cfg1 a).win 2).flush t = false :=
  noFlush cc1_transform_2 (fun _ => rfl) t h
theorem noFlush_out1 (t : Fin (cfg1 a).N) (h : ¬ condLast (grid1.coords t)) : ((cfg1 a).win 3).flush t = false :=
  noFlush cc1_transform_3 (fun _ => rfl) t h

theorem live_in0 (t : Fin (cfg1 a).N) : (cfg1 a).idle 0 (grid1.coords t) = false := rfl
theorem live_in1 (t : Fin (cfg1 a).N) : (cfg1 a).idle 1 (grid1.coords t) = false := rfl
theorem idle_out0 (t : Fin (cfg1 a).N) (h : ¬ condLast (grid1.coords t)) : (cfg1 a).idle 2 (grid1.coords t) = true :=
  (idle_iff (k1_cond3 (grid1.coords t))).1.mpr h
theorem idle_out1 (t : Fin (cfg1 a).N) (h : ¬ condLast (grid1.coords t)) : (cfg1 a).idle 3 (grid1.coords t) = true :=
  (idle_iff (k1_cond3 (grid1.coords t))).1.mpr h
theorem live_out0 (t : Fin (cfg1 a).N) (h : condLast (grid1.coords t)) : (cfg1 a).idle 2 (grid1.coords t) = false :=
  (idle_iff (k1_cond3 (grid1.coords t))).2.mpr h
theorem live_out1 (t : Fin (cfg1 a).N) (h : condLast (grid1.coords t)) : (cfg1 a).idle 3 (grid1.coords t) = false :=
  (idle_iff (k1_cond3 (grid1.coords t))).2.mpr h

end Cert.KernelIdeal.Hand.ScatterCnt1

end
-- ==== Proof.KI.ScatterCnt1Step.lean ====
import proofs.«411563_j39152921870698_3_alg».proof.Proof.KI.ScatterCnt1Sched
import proofs.«411563_j39152921870698_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand.ScatterCnt1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbLo : Memref sig .tc .smem S293 .i32 := Memref.whole main_v24
abbrev tbHi : Memref sig .tc .smem S293 .i32 := Memref.whole main_v27
abbrev scAgg : Memref sig .tc .vmem S2000x128 .f32 := Memref.whole cc1_scratch0
abbrev scCnt : Memref sig .tc .vmem S2000x1 .f32 := Memref.whole cc1_scratch1

abbrev TbBuf (c : Dev nD) (M : Memref sig .tc .smem S293 .i32) : Type := Buf (Elt F) (M.view.loc (c : Thread nD τ))
abbrev tbPt (c : Dev nD) (M : Memref sig .tc .smem S293 .i32) (f : TbBuf (F := F) c M) : sProp 𝕄 :=
  M.view.loc (c : Thread nD τ) ↦{fullShare} f

abbrev wordOf (c : Dev nD) (M : Memref sig .tc .smem S293 .i32) (xt : TbBuf (F := F) c M) (i : grid1.Coords) : Elt F .i32 :=
  M.view.readAt (Elt F) (Rect.unit (s := S293) (k1_off1 i) S1.size (k1_off1_inb i)).toLoadRect xt (Shape.Idx.first (numel1_S1.symm ▸ Nat.one_pos))

abbrev guardW (i : grid1.Coords) (lo hi : BitVec 32) : Prop :=
  Scalar.cmpi .ne (Scalar.extui (Scalar.andi (Scalar.cmpi .sge (BitVec.ofNat 32 (i 0).val) lo) (Scalar.cmpi .sle (BitVec.ofNat 32 (i 0).val) hi))) 0#32 = 1#1

def stepAcc (i : grid1.Coords) (lo hi : BitVec 32) (x4 : Vec F S2048x128 .bf16) (x5 : Vec F S1x2048 .i32)
    (s : Vec F S2000x128 .f32 × Vec F S2000x1 .f32) : Vec F S2000x128 .f32 × Vec F S2000x1 .f32 :=
  if guardW i lo hi then
    (k1_pay4 i x5 x4 (if condFirst i then (k1_pay1 (F := F)) else s.1), k1_pay5 i x5 (if condFirst i then (k1_pay2 (F := F)) else s.2))
  else
    (if condFirst i then (k1_pay1 (F := F)) else s.1, if condFirst i then (k1_pay2 (F := F)) else s.2)

theorem stepAcc_first {i : grid1.Coords} (h : condFirst i) (lo hi : BitVec 32) (x4 : Vec F S2048x128 .bf16) (x5 : Vec F S1x2048 .i32)
    (s s' : Vec F S2000x128 .f32 × Vec F S2000x1 .f32) : stepAcc i lo hi x4 x5 s = stepAcc i lo hi x4 x5 s' := by
  unfold stepAcc; simp only [if_pos h]

end Cert.KernelIdeal.Hand.ScatterCnt1

end
-- ==== Proof.KI.ScatterCnt1Run.lean ====
import proofs.«411563_j39152921870698_3_alg».proof.Proof.KI.ScatterCnt1Step
import proofs.«411563_j39152921870698_3_alg».proof.Proof.LibScatterCnt

set_option maxRecDepth 16384

noncomputable section

namespace Cert.KernelIdeal.Hand.ScatterCnt1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibScatterCnt

variable {F : FTy → Type} [FloatOps F]

local notation "𝕄" => MT nD τ sig Unit (Elt F) ℕ (UR sig nD τ) ℕ

-- Everything the body touches on core `c`: the two input blocks, the output blocks at `o`, the accumulators at `s`, the two tables.
def held (c : Dev nD) (arg4 : Memref sig .tc .vmem S2048x128 .bf16) (arg5 : Memref sig .tc .vmem S1x2048 .i32)
    (arg6 : Memref sig .tc .vmem S2000x128 .f32) (arg7 : Memref sig .tc .vmem S2000x1 .f32)
    (x4 : Vec F S2048x128 .bf16) (x5 : Vec F S1x2048 .i32) (xa : TbBuf (F := F) c tbLo) (xb : TbBuf (F := F) c tbHi)
    (o s : Vec F S2000x128 .f32 × Vec F S2000x1 .f32) : sProp 𝕄 :=
  iprop(owns (c : Thread nD τ) arg4 fullShare x4 ∗ owns (c : Thread nD τ) arg5 fullShare x5
    ∗ owns (c : Thread nD τ) arg6 fullShare o.1 ∗ owns (c : Thread nD τ) arg7 fullShare o.2
    ∗ owns (c : Thread nD τ) scAgg fullShare s.1 ∗ owns (c : Thread nD τ) scCnt fullShare s.2
    ∗ tbPt c tbLo xa ∗ tbPt c tbHi xb)

-- One run for every way the three conditionals fall: the accumulators move one step, and a last edge block copies them out.
set_option maxHeartbeats 4000000 in
theorem run_body (c : Dev nD) (E : Set ℕ) (i : grid1.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole) (arg7 : Memref sig .tc .vmem S2000x1 .f32) (harg7 : arg7.IsWhole)
    (x4 : Vec F S2048x128 .bf16) (x5 : Vec F S1x2048 .i32) (xa : TbBuf (F := F) c tbLo) (xb : TbBuf (F := F) c tbHi)
    (o s : Vec F S2000x128 .f32 × Vec F S2000x1 .f32) (hFL : condFirst i → ¬ condLast i) (K : PUnit → sProp 𝕄) :
    iprop(held c arg4 arg5 arg6 arg7 x4 x5 xa xb o s
        ∗ (held c arg4 arg5 arg6 arg7 x4 x5 xa xb
              (if condLast i then stepAcc i (wordOf c tbLo xa i) (wordOf c tbHi xb i) x4 x5 s else o)
              (stepAcc i (wordOf c tbLo xa i) (wordOf c tbHi xb i) x4 x5 s) -∗ K ⟨⟩))
      ⊢ wp frame (wpE (defs₀ (F := F)) Variants.none c none) E (cc1__scatter_kernel_cnt i tbLo (Memref.isWhole_whole _) tbHi (Memref.isWhole_whole _) arg4 harg4 arg5 harg5 arg6 harg6 arg7 harg7 scAgg (Memref.isWhole_whole _) scCnt (Memref.isWhole_whole _)) K := by
  obtain ⟨o0, o1⟩ := o
  obtain ⟨s0, s1⟩ := s
  by_cases hL : condLast i <;> by_cases hF : condFirst i <;>
    by_cases hG : guardW i (wordOf c tbLo xa i) (wordOf c tbHi xb i) <;>
  first
  | exact absurd hL (hFL hF)
  | unfold held stepAcc
    first | simp only [if_neg hL] | simp only [if_pos hL]
    first | simp only [if_neg hG] | simp only [if_pos hG]
    first | simp only [if_neg hF] | simp only [if_pos hF]
    simp only [cc1__scatter_kernel_cnt_eq_skeleton]; unfold cc1__scatter_kernel_cnt_skel
    unfold owns
    iintro ⟨⟨⟨%f4, %hf4, H4⟩, ⟨%f5, %hf5, H5⟩, ⟨%f6, %hf6, H6⟩, ⟨%f7, %hf7, H7⟩, ⟨%g0, %hg0, HS0⟩, ⟨%g1, %hg1, HS1⟩, HTA, HTB⟩, Hk⟩
    obtain rfl := harg4.eq_unread hf4
    obtain rfl := harg5.eq_unread hf5
    obtain rfl := harg6.eq_unread hf6
    obtain rfl := harg7.eq_unread hf7
    obtain rfl := (Memref.isWhole_whole cc1_scratch0).eq_unread hg0
    obtain rfl := (Memref.isWhole_whole cc1_scratch1).eq_unread hg1
    sl_exec (disch := first | sl_exact hF | sl_exact hG | sl_exact hL)
    sl_step
    iapply Hk
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [HS0]; iexists _; isplitr; swap; iexact HS0; rotate_left
    isplitl [HS1]; iexists _; isplitr; swap; iexact HS1; rotate_left
    isplitl [HTA]; iexact HTA
    iexact HTB
    all_goals (ipureintro; try sl_unfold_words)
    all_goals try rw [read_store_whole _ _ zero2]
    all_goals try simp only [load_whole harg4 zero2, load_whole harg5 zero2, View.readCov_unit_zero (S := S2000x128) _ zero2,
      View.readCov_unit_zero (S := S2000x1) _ zero2]
    all_goals first
      | assumption
      | exact load_whole (Memref.isWhole_whole cc1_scratch0) zero2 inb_S2000x128_S2000x128_0_0 s0
      | exact load_whole (Memref.isWhole_whole cc1_scratch1) zero2 inb_S2000x1_S2000x1_0_0 s1
      | exact congrArg (k1_pay4 i x5 x4) (load_whole (Memref.isWhole_whole cc1_scratch0) zero2 inb_S2000x128_S2000x128_0_0 s0)
      | exact congrArg (k1_pay5 i x5) (load_whole (Memref.isWhole_whole cc1_scratch1) zero2 inb_S2000x1_S2000x1_0_0 s1)

end Cert.KernelIdeal.Hand.ScatterCnt1

end
-- ==== Proof.KI.ScatterCnt1.lean ====
import proofs.«411563_j39152921870698_3_alg».proof.Proof.KI.ScatterCnt1Run

set_option maxRecDepth 16384

noncomputable section

namespace Cert.KernelIdeal.Hand.ScatterCnt1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

-- An input window holds its block of the array at every point.
theorem before_in_of {c : Dev nD} (dat : Dat τ (Elt F) Unit ℕ (UR sig nD τ) ℕ (cfg1 a) c) (w : Fin (cfg1 a).W) (hw : w = 0 ∨ w = 1)
    (hA : dat.A w = V c (Pipeline.arrRef spec1 w)) (hafter : ∀ t, dat.after w t = iblk1 V a c w t) (t : Fin (cfg1 a).N) (d) :
    dat.before w t d = iblk1 V a c w t := by
  rcases hw with rfl | rfl <;>
  exact (dat.before_in_eq_fetched _ rfl (fun _ => rfl) (fun _ _ _ => rfl) (fun t => by rw [hafter]; unfold Dat.blockOf iblk1; rw [hA]; try rfl) t d).trans
    (by unfold Dat.fetched Dat.blockOf iblk1; rw [hA]; try rfl)

abbrev msgBlk (c : Dev nD) (t : Fin (cfg1 a).N) : Vec F S2048x128 .bf16 := iblk1 V a c 0 t
abbrev idxBlk (c : Dev nD) (t : Fin (cfg1 a).N) : Vec F S1x2048 .i32 := iblk1 V a c 1 t
abbrev loWord (c : Dev nD) (t : Fin (cfg1 a).N) : BitVec 32 := wordOf c tbLo (a.1 0) (grid1.coords t)
abbrev hiWord (c : Dev nD) (t : Fin (cfg1 a).N) : BitVec 32 := wordOf c tbHi (a.1 1) (grid1.coords t)

def accAt (c : Dev nD) : (n : ℕ) → n < (cfg1 a).N → Vec F S2000x128 .f32 × Vec F S2000x1 .f32
  | 0, hn => stepAcc (grid1.coords ⟨0, hn⟩) (loWord a c ⟨0, hn⟩) (hiWord a c ⟨0, hn⟩) (msgBlk V a c ⟨0, hn⟩) (idxBlk V a c ⟨0, hn⟩) ((k1_pay1 (F := F)), (k1_pay2 (F := F)))
  | n + 1, hn => stepAcc (grid1.coords ⟨n + 1, hn⟩) (loWord a c ⟨n + 1, hn⟩) (hiWord a c ⟨n + 1, hn⟩) (msgBlk V a c ⟨n + 1, hn⟩) (idxBlk V a c ⟨n + 1, hn⟩)
      (accAt c n (Nat.lt_of_succ_lt hn))

def scrAt (c : Dev nD) (n : ℕ) (hn : n ≤ (cfg1 a).N) : Vec F S2000x128 .f32 × Vec F S2000x1 .f32 :=
  if h : n = 0 then ((k1_pay1 (F := F)), (k1_pay2 (F := F))) else accAt V a c (n - 1) (by omega)

theorem scrAt_succ (c : Dev nD) (n : ℕ) (hn : n < (cfg1 a).N) : scrAt V a c (n + 1) hn = accAt V a c n hn := by
  unfold scrAt; rw [dif_neg (Nat.succ_ne_zero n)]; rfl

theorem accAt_eq (c : Dev nD) (t : Fin (cfg1 a).N) :
    accAt V a c t.val t.isLt = stepAcc (grid1.coords t) (loWord a c t) (hiWord a c t) (msgBlk V a c t) (idxBlk V a c t) (scrAt V a c t.val (Nat.le_of_lt t.isLt)) := by
  obtain ⟨n, hn⟩ := t
  cases n with
  | zero => rfl
  | succ n => rw [scrAt_succ]; rfl

theorem step_eq_accAt (c : Dev nD) (t : Fin (cfg1 a).N) (X0 : Vec F S2000x128 .f32) (X1 : Vec F S2000x1 .f32)
    (hX : t.val ≠ 0 → X0 = (scrAt V a c t.val (Nat.le_of_lt t.isLt)).1 ∧ X1 = (scrAt V a c t.val (Nat.le_of_lt t.isLt)).2) :
    stepAcc (grid1.coords t) (loWord a c t) (hiWord a c t) (msgBlk V a c t) (idxBlk V a c t) (X0, X1) = accAt V a c t.val t.isLt := by
  rw [accAt_eq]
  by_cases h0 : t.val = 0
  · exact stepAcc_first (condFirst_zero t h0) _ _ _ _ _ _
  · obtain ⟨e0, e1⟩ := hX h0
    rw [e0, e1]

def PhiS (c : Dev nD) (n : ℕ) (hn : n ≤ (cfg1 a).N) : sProp 𝕄 :=
  iprop((∃ X0 X1, ⌜n ≠ 0 → X0 = (scrAt V a c n hn).1 ∧ X1 = (scrAt V a c n hn).2⌝
        ∗ owns (c : Thread nD τ) scAgg fullShare X0 ∗ owns (c : Thread nD τ) scCnt fullShare X1)
    ∗ Pipeline.scopedRestBut (Ix := Unit) (Name := ℕ) (U := UR sig nD τ) (Lvl := ℕ) (Val := Elt F) spec1 c [cc1_scratch0, cc1_scratch1]
    ∗ (∃ r, prngReg c r)
    ∗ tbPt c tbLo (a.1 0) ∗ tbPt c tbHi (a.1 1))

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => (accAt V a c t.val t.isLt).1
    | ⟨3, _⟩ => (accAt V a c t.val t.isLt).2
  Φ t := PhiS V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = (accAt V a c t.val t.isLt).1 := by dsimp only [dat1]; try rfl
theorem after1_3 (c : Dev nD) (t : Fin (cfg1 a).N) : (dat1 V a c).after 3 t = (accAt V a c t.val t.isLt).2 := by dsimp only [dat1]; try rfl

theorem before1_0 (c : Dev nD) (t : Fin (cfg1 a).N) (d) : (dat1 V a c).before 0 t d = iblk1 V a c 0 t :=
  before_in_of V a (dat1 V a c) 0 (.inl rfl) (A_eq1 V a c 0) (after1_0 V a c) t d
theorem before1_1 (c : Dev nD) (t : Fin (cfg1 a).N) (d) : (dat1 V a c).before 1 t d = iblk1 V a c 1 t :=
  before_in_of V a (dat1 V a c) 1 (.inr rfl) (A_eq1 V a c 1) (after1_1 V a c) t d

theorem Phi_castSucc (c : Dev nD) (t : Fin (cfg1 a).N) : (dat1 V a c).Φ t.castSucc = PhiS V a c t.val (Nat.le_of_lt t.isLt) := by
  dsimp only [dat1, Fin.coe_castSucc]
theorem Phi_succ (c : Dev nD) (t : Fin (cfg1 a).N) : (dat1 V a c).Φ t.succ = PhiS V a c (t.val + 1) t.isLt := by
  dsimp only [dat1, Fin.val_succ]

abbrev ms1_0 (t : Fin (cfg1 a).N) : Memref sig .tc .vmem S2048x128 .bf16 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x2048 .i32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S2000x128 .f32 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S2000x1 .f32 := spec1_3.stage ((cfg1 a).slots t 3)
abbrev hs1_3 (t : Fin (cfg1 a).N) : (ms1_3 a t).IsWhole := hstage1_3 (((cfg1 a).slots t 3).cast nbuf1_3)

abbrev bodyAt1 (t : Fin (cfg1 a).N) : Prog (TpuEff nD τ sig (Elt F) Λ₀ .tc) PUnit :=
  cc1__scatter_kernel_cnt (grid1.coords t) tbLo (Memref.isWhole_whole _) tbHi (Memref.isWhole_whole _)
    (ms1_0 a t) (hs1_0 a t) (ms1_1 a t) (hs1_1 a t) (ms1_2 a t) (hs1_2 a t) (ms1_3 a t) (hs1_3 a t)
    scAgg (Memref.isWhole_whole _) scCnt (Memref.isWhole_whole _)

def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d)))

def bodyPost1 (c : Dev nD) (t : Fin (cfg1 a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t)

theorem leaves_in0 (c : Dev nD) (t : Fin (cfg1 a).N) :
    (dat1 V a c).leavesExact 0 t = owns (c : Thread nD τ) (ms1_0 a t) fullShare (iblk1 V a c 0 t) := by
  unfold Dat.leavesExact; rw [live_in0 a t]; dsimp only; rw [after1_0] <;> rfl
theorem leaves_in1 (c : Dev nD) (t : Fin (cfg1 a).N) :
    (dat1 V a c).leavesExact 1 t = owns (c : Thread nD τ) (ms1_1 a t) fullShare (iblk1 V a c 1 t) := by
  unfold Dat.leavesExact; rw [live_in1 a t]; dsimp only; rw [after1_1] <;> rfl
theorem leaves_out0_live (c : Dev nD) (t : Fin (cfg1 a).N) (h : condLast (grid1.coords t)) :
    (dat1 V a c).leavesExact 2 t = owns (c : Thread nD τ) (ms1_2 a t) fullShare (accAt V a c t.val t.isLt).1 := by
  unfold Dat.leavesExact; rw [live_out0 a t h]; dsimp only; rw [after1_2] <;> rfl
theorem leaves_out1_live (c : Dev nD) (t : Fin (cfg1 a).N) (h : condLast (grid1.coords t)) :
    (dat1 V a c).leavesExact 3 t = owns (c : Thread nD τ) (ms1_3 a t) fullShare (accAt V a c t.val t.isLt).2 := by
  unfold Dat.leavesExact; rw [live_out1 a t h]; dsimp only; rw [after1_3] <;> rfl

-- The output blocks as the body leaves them: as found away from a last edge block, at the accumulators at one.
theorem leaves_out (c : Dev nD) (t : Fin (cfg1 a).N) (o : Vec F S2000x128 .f32 × Vec F S2000x1 .f32) (d2) (d3)
    (h2 : o.1 = (dat1 V a c).before 2 t d2) (h3 : o.2 = (dat1 V a c).before 3 t d3) :
    iprop(owns (c : Thread nD τ) (ms1_2 a t) fullShare (if condLast (grid1.coords t) then accAt V a c t.val t.isLt else o).1
        ∗ owns (c : Thread nD τ) (ms1_3 a t) fullShare (if condLast (grid1.coords t) then accAt V a c t.val t.isLt else o).2)
      ⊢ iprop((dat1 V a c).leavesExact 2 t ∗ (dat1 V a c).leavesExact 3 t) := by
  by_cases h : condLast (grid1.coords t)
  · rw [if_pos h, leaves_out0_live V a c t h, leaves_out1_live V a c t h]
  · rw [if_neg h, h2, h3, Dat.leavesExact_idle (dat1 V a c) 2 t (idle_out0 a t h) (noFlush_out0 a t h),
      Dat.leavesExact_idle (dat1 V a c) 3 t (idle_out1 a t h) (noFlush_out1 a t h)]
    iintro ⟨H2, H3⟩
    isplitl [H2]; · iexists d2; iexact H2
    iexists d3; iexact H3

set_option maxHeartbeats 1600000 in
-- One point of the grid: the body's run moves the invariant on, whichever way its conditionals fall.
theorem body_obligation1 (c : Dev nD) : BodyObligation (dat1 (F := F) V a c) (defs₀ (F := F)) Variants.none () Set.univ := fun t => by
  rw [bigSep_W1, bigSep_W1]
  show bodyPre1 V a c t ⊢ wp frame (wpE (defs₀ (F := F)) Variants.none c none) Set.univ (bodyAt1 a t) (fun _ => bodyPost1 V a c t)
  have hFL : condFirst (grid1.coords t) → ¬ condLast (grid1.coords t) := fun h h' => by
    have h1 := (condFirst_iff t).mp h
    have h2 := (condLast_iff t).mp h'
    omega
  unfold bodyPre1 bodyPost1 bodyAt1
  simp only [before1_0, before1_1]
  rw [show (dat1 V a c).owesAt () t.succ = (dat1 V a c).owesAt () t.castSucc from rfl, Phi_castSucc, Phi_succ,
    leaves_in0, leaves_in1]
  unfold PhiS
  iintro ⟨⟨⟨%X0, %X1, %hX, HS0, HS1⟩, HR, Hg, HTA, HTB⟩, Ho, ⟨%d0, H0⟩, ⟨%d1, H1⟩, ⟨%d2, H2⟩, ⟨%d3, H3⟩⟩
  iapply (run_body c Set.univ (grid1.coords t) (ms1_0 a t) (hs1_0 a t) (ms1_1 a t) (hs1_1 a t) (ms1_2 a t) (hs1_2 a t) (ms1_3 a t) (hs1_3 a t)
    (msgBlk V a c t) (idxBlk V a c t) (a.1 0) (a.1 1) ((dat1 V a c).before 2 t d2, (dat1 V a c).before 3 t d3) (X0, X1) hFL _)
  unfold held
  rw [step_eq_accAt V a c t X0 X1 hX]
  isplitl [H0 H1 H2 H3 HS0 HS1 HTA HTB]
  · isplitl [H0]; · iexact H0
    isplitl [H1]; · iexact H1
    isplitl [H2]; · iexact H2
    isplitl [H3]; · iexact H3
    isplitl [HS0]; · iexact HS0
    isplitl [HS1]; · iexact HS1
    isplitl [HTA]; · iexact HTA
    iexact HTB
  iintro ⟨H0, H1, H2, H3, HS0, HS1, HTA, HTB⟩
  isplitl [HS0 HS1 HR Hg HTA HTB]
  · isplitl [HS0 HS1]
    · iexists _, _
      isplitr
      · ipureintro; intro _; rw [scrAt_succ]; exact ⟨rfl, rfl⟩
      isplitl [HS0]; · iexact HS0
      iexact HS1
    isplitl [HR]; · iexact HR
    isplitl [Hg]; · iexact Hg
    isplitl [HTA]; · iexact HTA
    iexact HTB
  isplitl [Ho]; · iexact Ho
  isplitl [H0]; · iexact H0
  isplitl [H1]; · iexact H1
  iapply (leaves_out V a c t ((dat1 V a c).before 2 t d2, (dat1 V a c).before 3 t d3) d2 d3 rfl rfl)
  isplitl [H2]; · iexact H2
  iexact H3

theorem prefHeld_eq (c : Dev nD) :
    (Pipeline.prefHeld (Ix := Unit) (Name := ℕ) (U := UR sig nD τ) (Lvl := ℕ) pre1 c (fun _ => fullShare) a.1 : sProp 𝕄)
      = iprop(tbPt c tbLo (a.1 0) ∗ tbPt c tbHi (a.1 1)) := by
  unfold Pipeline.prefHeld
  rw [show (Finset.univ : Finset (Fin 2)) = insert (0 : Fin 2) {(1 : Fin 2)} from by decide,
    bigSep_insert (by decide), bigSep_singleton]
  rfl

theorem hin1 (c : Dev nD) :
    iprop((∃ r, prngReg c r) ∗ Pipeline.prefHeld (Ix := Unit) (Name := ℕ) (U := UR sig nD τ) (Lvl := ℕ) pre1 c (fun _ => fullShare) a.1
        ∗ Pipeline.scopedRest (Ix := Unit) (Name := ℕ) (U := UR sig nD τ) (Lvl := ℕ) (Val := Elt F) spec1 c)
      ⊢ (dat1 V a c).Φ 0 := by
  rw [show (dat1 V a c).Φ 0 = PhiS V a c 0 (Nat.zero_le _) from rfl, prefHeld_eq, scopedRest1_split]
  unfold PhiS
  iintro ⟨Hg, ⟨HTA, HTB⟩, ⟨⟨%f0, HS0⟩, ⟨%f1, HS1⟩⟩, HR⟩
  isplitl [HS0 HS1]
  · iexists f0, f1
    isplitr; · ipureintro; intro h; exact absurd rfl h
    isplitl [HS0]
    · rw [owns_whole]; iexact HS0
    rw [owns_whole]; iexact HS1
  isplitl [HR]; · iexact HR
  isplitl [Hg]; · iexact Hg
  isplitl [HTA]; · iexact HTA
  iexact HTB

theorem hout1 (c : Dev nD) :
    (dat1 V a c).Φ (Fin.last (cfg1 a).N)
      ⊢ iprop(iprop((∃ r, prngReg c r) ∗ Pipeline.prefHeld (Ix := Unit) (Name := ℕ) (U := UR sig nD τ) (Lvl := ℕ) pre1 c (fun _ => fullShare) a.1)
          ∗ Pipeline.ownSems0 (Ix := Unit) (Name := ℕ) (U := UR sig nD τ) (Lvl := ℕ) (Val := Elt F) (fun k : PEmpty => k.elim) c
          ∗ Pipeline.scopedRest (Ix := Unit) (Name := ℕ) (U := UR sig nD τ) (Lvl := ℕ) (Val := Elt F) spec1 c) := by
  rw [show (dat1 V a c).Φ (Fin.last (cfg1 a).N) = PhiS V a c (cfg1 a).N (Nat.le_refl _) from rfl, prefHeld_eq, scopedRest1_split,
    Pipeline.ownSems0_none]
  unfold PhiS
  iintro ⟨⟨%X0, %X1, -, HS0, HS1⟩, HR, Hg, HTA, HTB⟩
  isplitl [Hg HTA HTB]
  · isplitl [Hg]; · iexact Hg
    isplitl [HTA]; · iexact HTA
    iexact HTB
  isplitr; · iempintro
  isplitl [HS0 HS1]
  · isplitl [HS0]
    · iexists _; rw [← owns_whole]; iexact HS0
    iexists _; rw [← owns_whole]; iexact HS1
  iexact HR

end Cert.KernelIdeal.Hand.ScatterCnt1

end
-- ==== Proof.KI.Linear2.lean ====
import proofs.«411563_j39152921870698_3_alg».proof.Proof.Gen.KernelIdeal.Launch
import proofs.«411563_j39152921870698_3_alg».proof.Proof.Gen.KernelIdeal.Skeleton
import proofs.«411563_j39152921870698_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem uncut2_0 : ∀ (t : Fin cfg2.N) (a : Fin 2), (cfg2.win 0).clip (cfg2.grid.coords t) a = none :=
  (by decide +kernel : ∀ (t : Fin grid2.N) (a : Fin 2), win2_0.clip (grid2.coords t) a = none)
theorem uncut2_1 : ∀ (t : Fin cfg2.N) (a : Fin 2), (cfg2.win 1).clip (cfg2.grid.coords t) a = none :=
  (by decide +kernel : ∀ (t : Fin grid2.N) (a : Fin 2), win2_1.clip (grid2.coords t) a = none)

def sblk2_0 (c : Dev nD) (t : Fin cfg2.N) : Vec F S5000x128 .f32 :=
  (cfg2.win 0).fill (cfg2.grid.coords t) (fun _ => Scalar.ofBits .f32 0#32) (iblk2 V c 0 t)
def sblk2_1 (c : Dev nD) (t : Fin cfg2.N) : Vec F S5000x1 .f32 :=
  (cfg2.win 1).fill (cfg2.grid.coords t) (fun _ => Scalar.ofBits .f32 0#32) (iblk2 V c 1 t)

abbrev r2_0 : Rect S5000x1 := Rect.unit (s := S5000x1) ![0, 0] S5000x1.size inb_S5000x1_S5000x1_0_0
abbrev r2_1 : Rect S5000x128 := Rect.unit (s := S5000x128) ![0, 0] S5000x128.size inb_S5000x128_S5000x128_0_0
abbrev r2_2 : Rect S128x128 := Rect.unit (s := S128x128) ![0, 0] S128x128.size inb_S128x128_S128x128_0_0
abbrev r2_3 : Rect S128 := Rect.unit (s := S128) ![0] S128.size inb_S128_S128_0

def out2_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r2_1, k2_pay1 (View.ld x1 r2_0) (View.ld x0 r2_1) (View.ld x2 r2_1) (View.ld x3 r2_2) (View.ld x5 r2_2) (View.ld x4 r2_3)⟩]

def dat2 (c : Dev nD) : Dat τ (Elt F) Unit ℕ (UR sig nD τ) ℕ cfg2 c where
  A w := V c (Pipeline.arrRef spec2 w)
  after w t := match w with
    | ⟨0, _⟩ => sblk2_0 V c t
    | ⟨1, _⟩ => sblk2_1 V c t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (sblk2_0 V c t) (sblk2_1 V c t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (sblk2_0 V c t) (sblk2_1 V c t) (iblk2 V c 2 t) (iblk2 V c 3 t) (iblk2 V c 4 t) (iblk2 V c 5 t) := by dsimp only [dat2]

theorem before2_0 (c : Dev nD) (t : Fin cfg2.N) (d) : (dat2 V c).before 0 t d = sblk2_0 V c t := by
  unfold Dat.before; rw [if_pos (fetch2_0 t)]
  exact (dat2 V c).fetched_of_clip_none 0 t (uncut2_0 t) d _
theorem before2_1 (c : Dev nD) (t : Fin cfg2.N) (d) : (dat2 V c).before 1 t d = sblk2_1 V c t := by
  unfold Dat.before; rw [if_pos (fetch2_1 t)]
  exact (dat2 V c).fetched_of_clip_none 1 t (uncut2_1 t) d _

theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

set_option maxHeartbeats 1000000 in
theorem body_obligation2 (c : Dev nD) : BodyObligation (dat2 (F := F) V c) (defs₀ (F := F)) Variants.none () Set.univ := fun t => by
  rw [bigSep_W2, bigSep_W2]
  dsimp only
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  dsimp only [dat2]
  show _ ⊢ wp _ _ _ (bodyAt2 t) _
  unfold bodyAt2
  generalize sblk2_0 V c t = x0, sblk2_1 V c t = x1, iblk2 V c 2 t = x2, iblk2 V c 3 t = x3, iblk2 V c 4 t = x4, iblk2 V c 5 t = x5
  simp only [cc2__linear_kernel_eq_skeleton]; unfold cc2__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.KernelIdeal.Hand
-- ==== Proof.KI.Gather3.lean ====
import proofs.«411563_j39152921870698_3_alg».proof.Proof.KI.GatherKernel

set_option maxRecDepth 16384

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr3 : Memref sig .tc .vmem S2048x128 .f32 := Memref.whole cc3_scratch0

section Region
variable (V : (c : Dev nD) → (b : Ref sig .tc) → Buf (Elt F) ((c : Thread nD τ).loc b))

-- Window w's block at point t, read off its array as the region finds it.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The region's proof data: every input block is kept, the output block is gatherOut of the two input blocks.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => gatherOut (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl

theorem after3_2 (c : Dev nD) (t : Fin cfg3.N) : (dat3 V c).after 2 t = gatherOut (iblk3 V c 0 t) (iblk3 V c 1 t) := by dsimp only [dat3]

-- At every point an input's block is its block of the array as the region found it.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- The class invariant with the accumulator owned at some contents, the other scoped buffers unopened.
theorem PhiA3_eq (c : Dev nD) :
    (Pipeline.ΦA spec3 c : sProp 𝕄)
      = iprop(iprop(iprop((∃ d, owns (c : Thread nD τ) scr3 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scr3, owns_whole]; try rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

-- The body at any point: the invariant lends the accumulator and takes it back at whatever the body left in it.
theorem sound_body3 (c : Dev nD) (t : Fin cfg3.N) :
    bodyPre3 V c t ⊢ wp frame (wpE (defs₀ (F := F)) Variants.none c none) Set.univ
      (gatherBody (grid3.coords t) (st3_0 t) (stage_whole3 0 _) (st3_1 t) (stage_whole3 1 _) (st3_2 t) (stage_whole3 2 _) scr3 (Memref.isWhole_whole _))
      (fun _ => bodyPost3 V c t) := by
  unfold bodyPre3 bodyPost3
  simp only [before3_0, before3_1]
  rw [show (dat3 V c).Φ t.succ = Pipeline.ΦA spec3 c from rfl,
    show (dat3 V c).Φ t.castSucc = Pipeline.ΦA spec3 c from rfl,
    show (dat3 V c).owesAt () t.succ = (dat3 V c).owesAt () t.castSucc from rfl,
    show (dat3 V c).after 0 t = iblk3 V c 0 t from rfl, show (dat3 V c).after 1 t = iblk3 V c 1 t from rfl, after3_2, PhiA3_eq]
  iintro ⟨⟨⟨HS, Hrest⟩, Hg⟩, Ho, ⟨%d0, H0⟩, ⟨%d1, H1⟩, ⟨%d2, H2⟩⟩
  iapply (sound_gather c _ _ _ _ _ _ _ _ _ Set.univ (iblk3 V c 0 t) (iblk3 V c 1 t) _)
  iframe H0 H1 HS
  isplitl [H2]; · iexists _; iexact H2
  iintro ⟨H0, H1, H2, HS⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := sep_comm.1

theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := sep_comm.1

end Region

end Cert.KernelIdeal.Hand

end
-- ==== Proof.KI.ScatterCnt4Sched.lean ====
import proofs.«411563_j39152921870698_3_alg».proof.Proof.Gen.KernelIdeal.Launch
import Idealize.ShloMosaic.Lib.Pipeline.Kit
import Idealize.ShloMosaic.Lib.Affine

noncomputable section

namespace Cert.KernelIdeal.Hand.ScatterCnt4

open Cert.KernelIdeal Cert.KernelIdeal.Gen
open Idealize.ShloMosaic Idealize.ShloMosaic.TcCoe

variable {F : FTy → Type} [FloatOps F]

theorem coords_node (t : Fin grid4.N) : ((grid4.coords t) 0).val = t.val / 293 := by
  have hN : t.val < 14943 := lt_of_lt_of_eq t.isLt N_4
  show t.val / grid4.stride 0 % 51 = t.val / 293
  rw [show grid4.stride 0 = 293 from by decide]; omega

theorem coords_edge (t : Fin grid4.N) : ((grid4.coords t) 1).val = t.val % 293 := by
  show t.val / grid4.stride 1 % 293 = t.val % 293
  rw [show grid4.stride 1 = 1 from by decide, Nat.div_one]

abbrev condFirst (i : grid4.Coords) : Prop :=
  (Scalar.cmpi .ne (Scalar.extui (Scalar.cmpi .eq (BitVec.ofNat 32 (i 1).val) 0#32)) 0#32) = 1#1

abbrev condLast (i : grid4.Coords) : Prop := k4_cond3 i = 1#1

-- Both sides are below 2³², so the edge coordinate equals a constant as a word exactly when it does as a number.
theorem edge_const_iff (t : Fin grid4.N) (k : ℕ) (hk : k < 2 ^ 32) :
    Scalar.cmpi .ne (Scalar.extui (Scalar.cmpi .eq (BitVec.ofNat 32 ((grid4.coords t) 1).val) (BitVec.ofNat 32 k))) 0#32 = 1#1
      ↔ t.val % 293 = k := by
  rw [Scalar.guard_iff, Scalar.cmpi, IntOp.cmpi_eq, coords_edge]
  have hn : t.val % 293 < 2 ^ 32 := Nat.lt_of_lt_of_le (Nat.mod_lt _ (by decide)) (by decide)
  refine ⟨fun h => ?_, fun h => congrArg (BitVec.ofNat 32) h⟩
  have := congrArg BitVec.toNat h
  rwa [BitVec.toNat_ofNat, BitVec.toNat_ofNat, Nat.mod_eq_of_lt hn, Nat.mod_eq_of_lt hk] at this

theorem condFirst_iff (t : Fin grid4.N) : condFirst (grid4.coords t) ↔ t.val % 293 = 0 := edge_const_iff t 0 (by decide)

theorem condLast_iff (t : Fin grid4.N) : condLast (grid4.coords t) ↔ t.val % 293 = 292 := edge_const_iff t 292 (by decide)

theorem condFirst_zero (t : Fin grid4.N) (h : t.val = 0) : condFirst (grid4.coords t) :=
  (condFirst_iff t).mpr (by rw [h])

-- Before a node block's last edge step the next point has the same node coordinate, so an index map that reads only it does not move.
theorem noFlush (ix : grid4.Coords → Fin 2 → ℕ) (hix : ∀ i, ix i = ![(BitVec.ofNat 32 (i 0).val).toNat, 0]) (t : Fin grid4.N)
    (h : ¬ condLast (grid4.coords t)) : Pipeline.Window.flushOf grid4 true ix t = false := by
  have hN : t.val < 14943 := lt_of_lt_of_eq t.isLt N_4
  have hl : t.val % 293 ≠ 292 := fun e => h ((condLast_iff t).mpr e)
  have hc : ∀ h₁ : t.val + 1 < grid4.N, grid4.coords ⟨t.val + 1, h₁⟩ 0 = grid4.coords t 0 := fun h₁ =>
    Fin.ext (by rw [coords_node, coords_node]; show (t.val + 1) / 293 = t.val / 293; omega)
  rw [Bool.eq_false_iff]
  intro hb
  simp only [Pipeline.Window.flushOf, Bool.true_and, Bool.or_eq_true, decide_eq_true_eq] at hb
  rcases hb with hb | ⟨h₁, hne⟩
  · have := hb.trans N_4; omega
  · exact hne (by rw [hix, hix, hc h₁])

-- A one-bit guard is set or not: the negated test of it is true exactly when it is clear.
theorem idle_iff (x : BitVec 1) : ((!(x == 1#1)) = true ↔ ¬ x = 1#1) ∧ ((!(x == 1#1)) = false ↔ x = 1#1) := by
  revert x; decide

variable (a : (pcfg4 (F := F)).Adm)

theorem noFlush_out0 (t : Fin (cfg4 a).N) (h : ¬ condLast (grid4.coords t)) : ((cfg4 a).win 2).flush t = false :=
  noFlush cc4_transform_2 (fun _ => rfl) t h
theorem noFlush_out1 (t : Fin (cfg4 a).N) (h : ¬ condLast (grid4.coords t)) : ((cfg4 a).win 3).flush t = false :=
  noFlush cc4_transform_3 (fun _ => rfl) t h

theorem live_in0 (t : Fin (cfg4 a).N) : (cfg4 a).idle 0 (grid4.coords t) = false := rfl
theorem live_in1 (t : Fin (cfg4 a).N) : (cfg4 a).idle 1 (grid4.coords t) = false := rfl
theorem idle_out0 (t : Fin (cfg4 a).N) (h : ¬ condLast (grid4.coords t)) : (cfg4 a).idle 2 (grid4.coords t) = true :=
  (idle_iff (k4_cond3 (grid4.coords t))).1.mpr h
theorem idle_out1 (t : Fin (cfg4 a).N) (h : ¬ condLast (grid4.coords t)) : (cfg4 a).idle 3 (grid4.coords t) = true :=
  (idle_iff (k4_cond3 (grid4.coords t))).1.mpr h
theorem live_out0 (t : Fin (cfg4 a).N) (h : condLast (grid4.coords t)) : (cfg4 a).idle 2 (grid4.coords t) = false :=
  (idle_iff (k4_cond3 (grid4.coords t))).2.mpr h
theorem live_out1 (t : Fin (cfg4 a).N) (h : condLast (grid4.coords t)) : (cfg4 a).idle 3 (grid4.coords t) = false :=
  (idle_iff (k4_cond3 (grid4.coords t))).2.mpr h

end Cert.KernelIdeal.Hand.ScatterCnt4

end
-- ==== Proof.KI.ScatterCnt4Step.lean ====
import proofs.«411563_j39152921870698_3_alg».proof.Proof.KI.ScatterCnt4Sched
import proofs.«411563_j39152921870698_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand.ScatterCnt4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbLo : Memref sig .tc .smem S293 .i32 := Memref.whole main_v54
abbrev tbHi : Memref sig .tc .smem S293 .i32 := Memref.whole main_v57
abbrev scAgg : Memref sig .tc .vmem S2000x128 .f32 := Memref.whole cc4_scratch0
abbrev scCnt : Memref sig .tc .vmem S2000x1 .f32 := Memref.whole cc4_scratch1

abbrev TbBuf (c : Dev nD) (M : Memref sig .tc .smem S293 .i32) : Type := Buf (Elt F) (M.view.loc (c : Thread nD τ))
abbrev tbPt (c : Dev nD) (M : Memref sig .tc .smem S293 .i32) (f : TbBuf (F := F) c M) : sProp 𝕄 :=
  M.view.loc (c : Thread nD τ) ↦{fullShare} f

abbrev wordOf (c : Dev nD) (M : Memref sig .tc .smem S293 .i32) (xt : TbBuf (F := F) c M) (i : grid4.Coords) : Elt F .i32 :=
  M.view.readAt (Elt F) (Rect.unit (s := S293) (k4_off1 i) S1.size (k4_off1_inb i)).toLoadRect xt (Shape.Idx.first (numel1_S1.symm ▸ Nat.one_pos))

abbrev guardW (i : grid4.Coords) (lo hi : BitVec 32) : Prop :=
  Scalar.cmpi .ne (Scalar.extui (Scalar.andi (Scalar.cmpi .sge (BitVec.ofNat 32 (i 0).val) lo) (Scalar.cmpi .sle (BitVec.ofNat 32 (i 0).val) hi))) 0#32 = 1#1

def stepAcc (i : grid4.Coords) (lo hi : BitVec 32) (x4 : Vec F S2048x128 .bf16) (x5 : Vec F S1x2048 .i32)
    (s : Vec F S2000x128 .f32 × Vec F S2000x1 .f32) : Vec F S2000x128 .f32 × Vec F S2000x1 .f32 :=
  if guardW i lo hi then
    (k4_pay4 i x5 x4 (if condFirst i then (k4_pay1 (F := F)) else s.1), k4_pay5 i x5 (if condFirst i then (k4_pay2 (F := F)) else s.2))
  else
    (if condFirst i then (k4_pay1 (F := F)) else s.1, if condFirst i then (k4_pay2 (F := F)) else s.2)

theorem stepAcc_first {i : grid4.Coords} (h : condFirst i) (lo hi : BitVec 32) (x4 : Vec F S2048x128 .bf16) (x5 : Vec F S1x2048 .i32)
    (s s' : Vec F S2000x128 .f32 × Vec F S2000x1 .f32) : stepAcc i lo hi x4 x5 s = stepAcc i lo hi x4 x5 s' := by
  unfold stepAcc; simp only [if_pos h]

end Cert.KernelIdeal.Hand.ScatterCnt4

end
-- ==== Proof.KI.ScatterCnt4Run.lean ====
import proofs.«411563_j39152921870698_3_alg».proof.Proof.KI.ScatterCnt4Step
import proofs.«411563_j39152921870698_3_alg».proof.Proof.LibScatterCnt

set_option maxRecDepth 16384

noncomputable section

namespace Cert.KernelIdeal.Hand.ScatterCnt4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibScatterCnt

variable {F : FTy → Type} [FloatOps F]

local notation "𝕄" => MT nD τ sig Unit (Elt F) ℕ (UR sig nD τ) ℕ

-- Everything the body touches on core `c`: the two input blocks, the output blocks at `o`, the accumulators at `s`, the two tables.
def held (c : Dev nD) (arg4 : Memref sig .tc .vmem S2048x128 .bf16) (arg5 : Memref sig .tc .vmem S1x2048 .i32)
    (arg6 : Memref sig .tc .vmem S2000x128 .f32) (arg7 : Memref sig .tc .vmem S2000x1 .f32)
    (x4 : Vec F S2048x128 .bf16) (x5 : Vec F S1x2048 .i32) (xa : TbBuf (F := F) c tbLo) (xb : TbBuf (F := F) c tbHi)
    (o s : Vec F S2000x128 .f32 × Vec F S2000x1 .f32) : sProp 𝕄 :=
  iprop(owns (c : Thread nD τ) arg4 fullShare x4 ∗ owns (c : Thread nD τ) arg5 fullShare x5
    ∗ owns (c : Thread nD τ) arg6 fullShare o.1 ∗ owns (c : Thread nD τ) arg7 fullShare o.2
    ∗ owns (c : Thread nD τ) scAgg fullShare s.1 ∗ owns (c : Thread nD τ) scCnt fullShare s.2
    ∗ tbPt c tbLo xa ∗ tbPt c tbHi xb)

-- One run for every way the three conditionals fall: the accumulators move one step, and a last edge block copies them out.
set_option maxHeartbeats 4000000 in
theorem run_body (c : Dev nD) (E : Set ℕ) (i : grid4.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole) (arg7 : Memref sig .tc .vmem S2000x1 .f32) (harg7 : arg7.IsWhole)
    (x4 : Vec F S2048x128 .bf16) (x5 : Vec F S1x2048 .i32) (xa : TbBuf (F := F) c tbLo) (xb : TbBuf (F := F) c tbHi)
    (o s : Vec F S2000x128 .f32 × Vec F S2000x1 .f32) (hFL : condFirst i → ¬ condLast i) (K : PUnit → sProp 𝕄) :
    iprop(held c arg4 arg5 arg6 arg7 x4 x5 xa xb o s
        ∗ (held c arg4 arg5 arg6 arg7 x4 x5 xa xb
              (if condLast i then stepAcc i (wordOf c tbLo xa i) (wordOf c tbHi xb i) x4 x5 s else o)
              (stepAcc i (wordOf c tbLo xa i) (wordOf c tbHi xb i) x4 x5 s) -∗ K ⟨⟩))
      ⊢ wp frame (wpE (defs₀ (F := F)) Variants.none c none) E (cc4__scatter_kernel_cnt i tbLo (Memref.isWhole_whole _) tbHi (Memref.isWhole_whole _) arg4 harg4 arg5 harg5 arg6 harg6 arg7 harg7 scAgg (Memref.isWhole_whole _) scCnt (Memref.isWhole_whole _)) K := by
  obtain ⟨o0, o4⟩ := o
  obtain ⟨s0, s1⟩ := s
  by_cases hL : condLast i <;> by_cases hF : condFirst i <;>
    by_cases hG : guardW i (wordOf c tbLo xa i) (wordOf c tbHi xb i) <;>
  first
  | exact absurd hL (hFL hF)
  | unfold held stepAcc
    first | simp only [if_neg hL] | simp only [if_pos hL]
    first | simp only [if_neg hG] | simp only [if_pos hG]
    first | simp only [if_neg hF] | simp only [if_pos hF]
    simp only [cc4__scatter_kernel_cnt_eq_skeleton]; unfold cc4__scatter_kernel_cnt_skel
    unfold owns
    iintro ⟨⟨⟨%f4, %hf4, H4⟩, ⟨%f5, %hf5, H5⟩, ⟨%f6, %hf6, H6⟩, ⟨%f7, %hf7, H7⟩, ⟨%g0, %hg0, HS0⟩, ⟨%g1, %hg1, HS1⟩, HTA, HTB⟩, Hk⟩
    obtain rfl := harg4.eq_unread hf4
    obtain rfl := harg5.eq_unread hf5
    obtain rfl := harg6.eq_unread hf6
    obtain rfl := harg7.eq_unread hf7
    obtain rfl := (Memref.isWhole_whole cc4_scratch0).eq_unread hg0
    obtain rfl := (Memref.isWhole_whole cc4_scratch1).eq_unread hg1
    sl_exec (disch := first | sl_exact hF | sl_exact hG | sl_exact hL)
    sl_step
    iapply Hk
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [HS0]; iexists _; isplitr; swap; iexact HS0; rotate_left
    isplitl [HS1]; iexists _; isplitr; swap; iexact HS1; rotate_left
    isplitl [HTA]; iexact HTA
    iexact HTB
    all_goals (ipureintro; try sl_unfold_words)
    all_goals try rw [read_store_whole _ _ zero2]
    all_goals try simp only [load_whole harg4 zero2, load_whole harg5 zero2, View.readCov_unit_zero (S := S2000x128) _ zero2,
      View.readCov_unit_zero (S := S2000x1) _ zero2]
    all_goals first
      | assumption
      | exact load_whole (Memref.isWhole_whole cc4_scratch0) zero2 inb_S2000x128_S2000x128_0_0 s0
      | exact load_whole (Memref.isWhole_whole cc4_scratch1) zero2 inb_S2000x1_S2000x1_0_0 s1
      | exact congrArg (k4_pay4 i x5 x4) (load_whole (Memref.isWhole_whole cc4_scratch0) zero2 inb_S2000x128_S2000x128_0_0 s0)
      | exact congrArg (k4_pay5 i x5) (load_whole (Memref.isWhole_whole cc4_scratch1) zero2 inb_S2000x1_S2000x1_0_0 s1)

end Cert.KernelIdeal.Hand.ScatterCnt4

end
-- ==== Proof.KI.ScatterCnt4.lean ====
import proofs.«411563_j39152921870698_3_alg».proof.Proof.KI.ScatterCnt4Run

set_option maxRecDepth 16384

noncomputable section

namespace Cert.KernelIdeal.Hand.ScatterCnt4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg4 (F := F)).Adm)

def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

-- An input window holds its block of the array at every point.
theorem before_in_of {c : Dev nD} (dat : Dat τ (Elt F) Unit ℕ (UR sig nD τ) ℕ (cfg4 a) c) (w : Fin (cfg4 a).W) (hw : w = 0 ∨ w = 1)
    (hA : dat.A w = V c (Pipeline.arrRef spec4 w)) (hafter : ∀ t, dat.after w t = iblk4 V a c w t) (t : Fin (cfg4 a).N) (d) :
    dat.before w t d = iblk4 V a c w t := by
  rcases hw with rfl | rfl <;>
  exact (dat.before_in_eq_fetched _ rfl (fun _ => rfl) (fun _ _ _ => rfl) (fun t => by rw [hafter]; unfold Dat.blockOf iblk4; rw [hA]; try rfl) t d).trans
    (by unfold Dat.fetched Dat.blockOf iblk4; rw [hA]; try rfl)

abbrev msgBlk (c : Dev nD) (t : Fin (cfg4 a).N) : Vec F S2048x128 .bf16 := iblk4 V a c 0 t
abbrev idxBlk (c : Dev nD) (t : Fin (cfg4 a).N) : Vec F S1x2048 .i32 := iblk4 V a c 1 t
abbrev loWord (c : Dev nD) (t : Fin (cfg4 a).N) : BitVec 32 := wordOf c tbLo (a.1 0) (grid4.coords t)
abbrev hiWord (c : Dev nD) (t : Fin (cfg4 a).N) : BitVec 32 := wordOf c tbHi (a.1 1) (grid4.coords t)

def accAt (c : Dev nD) : (n : ℕ) → n < (cfg4 a).N → Vec F S2000x128 .f32 × Vec F S2000x1 .f32
  | 0, hn => stepAcc (grid4.coords ⟨0, hn⟩) (loWord a c ⟨0, hn⟩) (hiWord a c ⟨0, hn⟩) (msgBlk V a c ⟨0, hn⟩) (idxBlk V a c ⟨0, hn⟩) ((k4_pay1 (F := F)), (k4_pay2 (F := F)))
  | n + 1, hn => stepAcc (grid4.coords ⟨n + 1, hn⟩) (loWord a c ⟨n + 1, hn⟩) (hiWord a c ⟨n + 1, hn⟩) (msgBlk V a c ⟨n + 1, hn⟩) (idxBlk V a c ⟨n + 1, hn⟩)
      (accAt c n (Nat.lt_of_succ_lt hn))

def scrAt (c : Dev nD) (n : ℕ) (hn : n ≤ (cfg4 a).N) : Vec F S2000x128 .f32 × Vec F S2000x1 .f32 :=
  if h : n = 0 then ((k4_pay1 (F := F)), (k4_pay2 (F := F))) else accAt V a c (n - 1) (by omega)

theorem scrAt_succ (c : Dev nD) (n : ℕ) (hn : n < (cfg4 a).N) : scrAt V a c (n + 1) hn = accAt V a c n hn := by
  unfold scrAt; rw [dif_neg (Nat.succ_ne_zero n)]; rfl

theorem accAt_eq (c : Dev nD) (t : Fin (cfg4 a).N) :
    accAt V a c t.val t.isLt = stepAcc (grid4.coords t) (loWord a c t) (hiWord a c t) (msgBlk V a c t) (idxBlk V a c t) (scrAt V a c t.val (Nat.le_of_lt t.isLt)) := by
  obtain ⟨n, hn⟩ := t
  cases n with
  | zero => rfl
  | succ n => rw [scrAt_succ]; rfl

theorem step_eq_accAt (c : Dev nD) (t : Fin (cfg4 a).N) (X0 : Vec F S2000x128 .f32) (X1 : Vec F S2000x1 .f32)
    (hX : t.val ≠ 0 → X0 = (scrAt V a c t.val (Nat.le_of_lt t.isLt)).1 ∧ X1 = (scrAt V a c t.val (Nat.le_of_lt t.isLt)).2) :
    stepAcc (grid4.coords t) (loWord a c t) (hiWord a c t) (msgBlk V a c t) (idxBlk V a c t) (X0, X1) = accAt V a c t.val t.isLt := by
  rw [accAt_eq]
  by_cases h0 : t.val = 0
  · exact stepAcc_first (condFirst_zero t h0) _ _ _ _ _ _
  · obtain ⟨e0, e1⟩ := hX h0
    rw [e0, e1]

def PhiS (c : Dev nD) (n : ℕ) (hn : n ≤ (cfg4 a).N) : sProp 𝕄 :=
  iprop((∃ X0 X1, ⌜n ≠ 0 → X0 = (scrAt V a c n hn).1 ∧ X1 = (scrAt V a c n hn).2⌝
        ∗ owns (c : Thread nD τ) scAgg fullShare X0 ∗ owns (c : Thread nD τ) scCnt fullShare X1)
    ∗ Pipeline.scopedRestBut (Ix := Unit) (Name := ℕ) (U := UR sig nD τ) (Lvl := ℕ) (Val := Elt F) spec4 c [cc4_scratch0, cc4_scratch1]
    ∗ (∃ r, prngReg c r)
    ∗ tbPt c tbLo (a.1 0) ∗ tbPt c tbHi (a.1 1))

def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => (accAt V a c t.val t.isLt).1
    | ⟨3, _⟩ => (accAt V a c t.val t.isLt).2
  Φ t := PhiS V a c t.val (Nat.le_of_lt_succ t.isLt)
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; try rfl
theorem after4_1 (c : Dev nD) (t : Fin (cfg4 a).N) : (dat4 V a c).after 1 t = iblk4 V a c 1 t := by dsimp only [dat4]; try rfl
theorem after4_2 (c : Dev nD) (t : Fin (cfg4 a).N) : (dat4 V a c).after 2 t = (accAt V a c t.val t.isLt).1 := by dsimp only [dat4]; try rfl
theorem after4_3 (c : Dev nD) (t : Fin (cfg4 a).N) : (dat4 V a c).after 3 t = (accAt V a c t.val t.isLt).2 := by dsimp only [dat4]; try rfl

theorem before4_0 (c : Dev nD) (t : Fin (cfg4 a).N) (d) : (dat4 V a c).before 0 t d = iblk4 V a c 0 t :=
  before_in_of V a (dat4 V a c) 0 (.inl rfl) (A_eq4 V a c 0) (after4_0 V a c) t d
theorem before4_1 (c : Dev nD) (t : Fin (cfg4 a).N) (d) : (dat4 V a c).before 1 t d = iblk4 V a c 1 t :=
  before_in_of V a (dat4 V a c) 1 (.inr rfl) (A_eq4 V a c 1) (after4_1 V a c) t d

theorem Phi_castSucc (c : Dev nD) (t : Fin (cfg4 a).N) : (dat4 V a c).Φ t.castSucc = PhiS V a c t.val (Nat.le_of_lt t.isLt) := by
  dsimp only [dat4, Fin.coe_castSucc]
theorem Phi_succ (c : Dev nD) (t : Fin (cfg4 a).N) : (dat4 V a c).Φ t.succ = PhiS V a c (t.val + 1) t.isLt := by
  dsimp only [dat4, Fin.val_succ]

abbrev ms4_0 (t : Fin (cfg4 a).N) : Memref sig .tc .vmem S2048x128 .bf16 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S1x2048 .i32 := spec4_1.stage ((cfg4 a).slots t 1)
abbrev hs4_1 (t : Fin (cfg4 a).N) : (ms4_1 a t).IsWhole := hstage4_1 (((cfg4 a).slots t 1).cast nbuf4_1)
abbrev ms4_2 (t : Fin (cfg4 a).N) : Memref sig .tc .vmem S2000x128 .f32 := spec4_2.stage ((cfg4 a).slots t 2)
abbrev hs4_2 (t : Fin (cfg4 a).N) : (ms4_2 a t).IsWhole := hstage4_2 (((cfg4 a).slots t 2).cast nbuf4_2)
abbrev ms4_3 (t : Fin (cfg4 a).N) : Memref sig .tc .vmem S2000x1 .f32 := spec4_3.stage ((cfg4 a).slots t 3)
abbrev hs4_3 (t : Fin (cfg4 a).N) : (ms4_3 a t).IsWhole := hstage4_3 (((cfg4 a).slots t 3).cast nbuf4_3)

abbrev bodyAt4 (t : Fin (cfg4 a).N) : Prog (TpuEff nD τ sig (Elt F) Λ₀ .tc) PUnit :=
  cc4__scatter_kernel_cnt (grid4.coords t) tbLo (Memref.isWhole_whole _) tbHi (Memref.isWhole_whole _)
    (ms4_0 a t) (hs4_0 a t) (ms4_1 a t) (hs4_1 a t) (ms4_2 a t) (hs4_2 a t) (ms4_3 a t) (hs4_3 a t)
    scAgg (Memref.isWhole_whole _) scCnt (Memref.isWhole_whole _)

def bodyPre4 (c : Dev nD) (t : Fin (cfg4 a).N) : sProp 𝕄 :=
  iprop((dat4 V a c).Φ t.castSucc ∗ (dat4 V a c).owesAt () t.castSucc
    ∗ (∃ d, owns (c : Thread nD τ) (ms4_0 a t) fullShare ((dat4 V a c).before 0 t d))
    ∗ (∃ d, owns (c : Thread nD τ) (ms4_1 a t) fullShare ((dat4 V a c).before 1 t d))
    ∗ (∃ d, owns (c : Thread nD τ) (ms4_2 a t) fullShare ((dat4 V a c).before 2 t d))
    ∗ (∃ d, owns (c : Thread nD τ) (ms4_3 a t) fullShare ((dat4 V a c).before 3 t d)))

def bodyPost4 (c : Dev nD) (t : Fin (cfg4 a).N) : sProp 𝕄 :=
  iprop((dat4 V a c).Φ t.succ ∗ (dat4 V a c).owesAt () t.succ
    ∗ (dat4 V a c).leavesExact 0 t
    ∗ (dat4 V a c).leavesExact 1 t
    ∗ (dat4 V a c).leavesExact 2 t
    ∗ (dat4 V a c).leavesExact 3 t)

theorem leaves_in0 (c : Dev nD) (t : Fin (cfg4 a).N) :
    (dat4 V a c).leavesExact 0 t = owns (c : Thread nD τ) (ms4_0 a t) fullShare (iblk4 V a c 0 t) := by
  unfold Dat.leavesExact; rw [live_in0 a t]; dsimp only; rw [after4_0] <;> rfl
theorem leaves_in1 (c : Dev nD) (t : Fin (cfg4 a).N) :
    (dat4 V a c).leavesExact 1 t = owns (c : Thread nD τ) (ms4_1 a t) fullShare (iblk4 V a c 1 t) := by
  unfold Dat.leavesExact; rw [live_in1 a t]; dsimp only; rw [after4_1] <;> rfl
theorem leaves_out0_live (c : Dev nD) (t : Fin (cfg4 a).N) (h : condLast (grid4.coords t)) :
    (dat4 V a c).leavesExact 2 t = owns (c : Thread nD τ) (ms4_2 a t) fullShare (accAt V a c t.val t.isLt).1 := by
  unfold Dat.leavesExact; rw [live_out0 a t h]; dsimp only; rw [after4_2] <;> rfl
theorem leaves_out1_live (c : Dev nD) (t : Fin (cfg4 a).N) (h : condLast (grid4.coords t)) :
    (dat4 V a c).leavesExact 3 t = owns (c : Thread nD τ) (ms4_3 a t) fullShare (accAt V a c t.val t.isLt).2 := by
  unfold Dat.leavesExact; rw [live_out1 a t h]; dsimp only; rw [after4_3] <;> rfl

-- The output blocks as the body leaves them: as found away from a last edge block, at the accumulators at one.
theorem leaves_out (c : Dev nD) (t : Fin (cfg4 a).N) (o : Vec F S2000x128 .f32 × Vec F S2000x1 .f32) (d2) (d3)
    (h2 : o.1 = (dat4 V a c).before 2 t d2) (h3 : o.2 = (dat4 V a c).before 3 t d3) :
    iprop(owns (c : Thread nD τ) (ms4_2 a t) fullShare (if condLast (grid4.coords t) then accAt V a c t.val t.isLt else o).1
        ∗ owns (c : Thread nD τ) (ms4_3 a t) fullShare (if condLast (grid4.coords t) then accAt V a c t.val t.isLt else o).2)
      ⊢ iprop((dat4 V a c).leavesExact 2 t ∗ (dat4 V a c).leavesExact 3 t) := by
  by_cases h : condLast (grid4.coords t)
  · rw [if_pos h, leaves_out0_live V a c t h, leaves_out1_live V a c t h]
  · rw [if_neg h, h2, h3, Dat.leavesExact_idle (dat4 V a c) 2 t (idle_out0 a t h) (noFlush_out0 a t h),
      Dat.leavesExact_idle (dat4 V a c) 3 t (idle_out1 a t h) (noFlush_out1 a t h)]
    iintro ⟨H2, H3⟩
    isplitl [H2]; · iexists d2; iexact H2
    iexists d3; iexact H3

set_option maxHeartbeats 1600000 in
-- One point of the grid: the body's run moves the invariant on, whichever way its conditionals fall.
theorem body_obligation4 (c : Dev nD) : BodyObligation (dat4 (F := F) V a c) (defs₀ (F := F)) Variants.none () Set.univ := fun t => by
  rw [bigSep_W4, bigSep_W4]
  show bodyPre4 V a c t ⊢ wp frame (wpE (defs₀ (F := F)) Variants.none c none) Set.univ (bodyAt4 a t) (fun _ => bodyPost4 V a c t)
  have hFL : condFirst (grid4.coords t) → ¬ condLast (grid4.coords t) := fun h h' => by
    have h1 := (condFirst_iff t).mp h
    have h2 := (condLast_iff t).mp h'
    omega
  unfold bodyPre4 bodyPost4 bodyAt4
  simp only [before4_0, before4_1]
  rw [show (dat4 V a c).owesAt () t.succ = (dat4 V a c).owesAt () t.castSucc from rfl, Phi_castSucc, Phi_succ,
    leaves_in0, leaves_in1]
  unfold PhiS
  iintro ⟨⟨⟨%X0, %X1, %hX, HS0, HS1⟩, HR, Hg, HTA, HTB⟩, Ho, ⟨%d0, H0⟩, ⟨%d1, H1⟩, ⟨%d2, H2⟩, ⟨%d3, H3⟩⟩
  iapply (run_body c Set.univ (grid4.coords t) (ms4_0 a t) (hs4_0 a t) (ms4_1 a t) (hs4_1 a t) (ms4_2 a t) (hs4_2 a t) (ms4_3 a t) (hs4_3 a t)
    (msgBlk V a c t) (idxBlk V a c t) (a.1 0) (a.1 1) ((dat4 V a c).before 2 t d2, (dat4 V a c).before 3 t d3) (X0, X1) hFL _)
  unfold held
  rw [step_eq_accAt V a c t X0 X1 hX]
  isplitl [H0 H1 H2 H3 HS0 HS1 HTA HTB]
  · isplitl [H0]; · iexact H0
    isplitl [H1]; · iexact H1
    isplitl [H2]; · iexact H2
    isplitl [H3]; · iexact H3
    isplitl [HS0]; · iexact HS0
    isplitl [HS1]; · iexact HS1
    isplitl [HTA]; · iexact HTA
    iexact HTB
  iintro ⟨H0, H1, H2, H3, HS0, HS1, HTA, HTB⟩
  isplitl [HS0 HS1 HR Hg HTA HTB]
  · isplitl [HS0 HS1]
    · iexists _, _
      isplitr
      · ipureintro; intro _; rw [scrAt_succ]; exact ⟨rfl, rfl⟩
      isplitl [HS0]; · iexact HS0
      iexact HS1
    isplitl [HR]; · iexact HR
    isplitl [Hg]; · iexact Hg
    isplitl [HTA]; · iexact HTA
    iexact HTB
  isplitl [Ho]; · iexact Ho
  isplitl [H0]; · iexact H0
  isplitl [H1]; · iexact H1
  iapply (leaves_out V a c t ((dat4 V a c).before 2 t d2, (dat4 V a c).before 3 t d3) d2 d3 rfl rfl)
  isplitl [H2]; · iexact H2
  iexact H3

theorem prefHeld_eq (c : Dev nD) :
    (Pipeline.prefHeld (Ix := Unit) (Name := ℕ) (U := UR sig nD τ) (Lvl := ℕ) pre4 c (fun _ => fullShare) a.1 : sProp 𝕄)
      = iprop(tbPt c tbLo (a.1 0) ∗ tbPt c tbHi (a.1 1)) := by
  unfold Pipeline.prefHeld
  rw [show (Finset.univ : Finset (Fin 2)) = insert (0 : Fin 2) {(1 : Fin 2)} from by decide,
    bigSep_insert (by decide), bigSep_singleton]
  rfl

theorem hin4 (c : Dev nD) :
    iprop((∃ r, prngReg c r) ∗ Pipeline.prefHeld (Ix := Unit) (Name := ℕ) (U := UR sig nD τ) (Lvl := ℕ) pre4 c (fun _ => fullShare) a.1
        ∗ Pipeline.scopedRest (Ix := Unit) (Name := ℕ) (U := UR sig nD τ) (Lvl := ℕ) (Val := Elt F) spec4 c)
      ⊢ (dat4 V a c).Φ 0 := by
  rw [show (dat4 V a c).Φ 0 = PhiS V a c 0 (Nat.zero_le _) from rfl, prefHeld_eq, scopedRest4_split]
  unfold PhiS
  iintro ⟨Hg, ⟨HTA, HTB⟩, ⟨⟨%f0, HS0⟩, ⟨%f1, HS1⟩⟩, HR⟩
  isplitl [HS0 HS1]
  · iexists f0, f1
    isplitr; · ipureintro; intro h; exact absurd rfl h
    isplitl [HS0]
    · rw [owns_whole]; iexact HS0
    rw [owns_whole]; iexact HS1
  isplitl [HR]; · iexact HR
  isplitl [Hg]; · iexact Hg
  isplitl [HTA]; · iexact HTA
  iexact HTB

theorem hout4 (c : Dev nD) :
    (dat4 V a c).Φ (Fin.last (cfg4 a).N)
      ⊢ iprop(iprop((∃ r, prngReg c r) ∗ Pipeline.prefHeld (Ix := Unit) (Name := ℕ) (U := UR sig nD τ) (Lvl := ℕ) pre4 c (fun _ => fullShare) a.1)
          ∗ Pipeline.ownSems0 (Ix := Unit) (Name := ℕ) (U := UR sig nD τ) (Lvl := ℕ) (Val := Elt F) (fun k : PEmpty => k.elim) c
          ∗ Pipeline.scopedRest (Ix := Unit) (Name := ℕ) (U := UR sig nD τ) (Lvl := ℕ) (Val := Elt F) spec4 c) := by
  rw [show (dat4 V a c).Φ (Fin.last (cfg4 a).N) = PhiS V a c (cfg4 a).N (Nat.le_refl _) from rfl, prefHeld_eq, scopedRest4_split,
    Pipeline.ownSems0_none]
  unfold PhiS
  iintro ⟨⟨%X0, %X1, -, HS0, HS1⟩, HR, Hg, HTA, HTB⟩
  isplitl [Hg HTA HTB]
  · isplitl [Hg]; · iexact Hg
    isplitl [HTA]; · iexact HTA
    iexact HTB
  isplitr; · iempintro
  isplitl [HS0 HS1]
  · isplitl [HS0]
    · iexists _; rw [← owns_whole]; iexact HS0
    iexists _; rw [← owns_whole]; iexact HS1
  iexact HR

end Cert.KernelIdeal.Hand.ScatterCnt4

end
-- ==== Proof.KI.Linear5.lean ====
import proofs.«411563_j39152921870698_3_alg».proof.Proof.Gen.KernelIdeal.Launch
import proofs.«411563_j39152921870698_3_alg».proof.Proof.Gen.KernelIdeal.Skeleton
import proofs.«411563_j39152921870698_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem uncut5_0 : ∀ (t : Fin cfg5.N) (a : Fin 2), (cfg5.win 0).clip (cfg5.grid.coords t) a = none :=
  (by decide +kernel : ∀ (t : Fin grid5.N) (a : Fin 2), win5_0.clip (grid5.coords t) a = none)
theorem uncut5_1 : ∀ (t : Fin cfg5.N) (a : Fin 2), (cfg5.win 1).clip (cfg5.grid.coords t) a = none :=
  (by decide +kernel : ∀ (t : Fin grid5.N) (a : Fin 2), win5_1.clip (grid5.coords t) a = none)

def sblk5_0 (c : Dev nD) (t : Fin cfg5.N) : Vec F S5000x128 .f32 :=
  (cfg5.win 0).fill (cfg5.grid.coords t) (fun _ => Scalar.ofBits .f32 0#32) (iblk5 V c 0 t)
def sblk5_1 (c : Dev nD) (t : Fin cfg5.N) : Vec F S5000x1 .f32 :=
  (cfg5.win 1).fill (cfg5.grid.coords t) (fun _ => Scalar.ofBits .f32 0#32) (iblk5 V c 1 t)

abbrev r5_0 : Rect S5000x1 := Rect.unit (s := S5000x1) ![0, 0] S5000x1.size inb_S5000x1_S5000x1_0_0
abbrev r5_1 : Rect S5000x128 := Rect.unit (s := S5000x128) ![0, 0] S5000x128.size inb_S5000x128_S5000x128_0_0
abbrev r5_2 : Rect S128x128 := Rect.unit (s := S128x128) ![0, 0] S128x128.size inb_S128x128_S128x128_0_0
abbrev r5_3 : Rect S128 := Rect.unit (s := S128) ![0] S128.size inb_S128_S128_0

def out5_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r5_1, k5_pay1 (View.ld x1 r5_0) (View.ld x0 r5_1) (View.ld x2 r5_1) (View.ld x3 r5_2) (View.ld x5 r5_2) (View.ld x4 r5_3)⟩]

def dat5 (c : Dev nD) : Dat τ (Elt F) Unit ℕ (UR sig nD τ) ℕ cfg5 c where
  A w := V c (Pipeline.arrRef spec5 w)
  after w t := match w with
    | ⟨0, _⟩ => sblk5_0 V c t
    | ⟨1, _⟩ => sblk5_1 V c t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (sblk5_0 V c t) (sblk5_1 V c t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t
    = out5_6 (sblk5_0 V c t) (sblk5_1 V c t) (iblk5 V c 2 t) (iblk5 V c 3 t) (iblk5 V c 4 t) (iblk5 V c 5 t) := by dsimp only [dat5]

theorem before5_0 (c : Dev nD) (t : Fin cfg5.N) (d) : (dat5 V c).before 0 t d = sblk5_0 V c t := by
  unfold Dat.before; rw [if_pos (fetch5_0 t)]
  exact (dat5 V c).fetched_of_clip_none 0 t (uncut5_0 t) d _
theorem before5_1 (c : Dev nD) (t : Fin cfg5.N) (d) : (dat5 V c).before 1 t d = sblk5_1 V c t := by
  unfold Dat.before; rw [if_pos (fetch5_1 t)]
  exact (dat5 V c).fetched_of_clip_none 1 t (uncut5_1 t) d _

theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d

set_option maxHeartbeats 1000000 in
theorem body_obligation5 (c : Dev nD) : BodyObligation (dat5 (F := F) V c) (defs₀ (F := F)) Variants.none () Set.univ := fun t => by
  rw [bigSep_W5, bigSep_W5]
  dsimp only
  simp only [before5_0, before5_1, before5_2, before5_3, before5_4, before5_5]
  rw [show (dat5 V c).Φ t.succ = (dat5 V c).Φ t.castSucc from rfl,
    show (dat5 V c).owesAt () t.succ = (dat5 V c).owesAt () t.castSucc from rfl]
  dsimp only [dat5]
  show _ ⊢ wp _ _ _ (bodyAt5 t) _
  unfold bodyAt5
  generalize sblk5_0 V c t = x0, sblk5_1 V c t = x1, iblk5 V c 2 t = x2, iblk5 V c 3 t = x3, iblk5 V c 4 t = x4, iblk5 V c 5 t = x5
  simp only [cc5__linear_kernel_eq_skeleton]; unfold cc5__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.KernelIdeal.Hand
-- ==== Proof.KI.Gather6.lean ====
import proofs.«411563_j39152921870698_3_alg».proof.Proof.KI.GatherKernel

set_option maxRecDepth 16384

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr6 : Memref sig .tc .vmem S2048x128 .f32 := Memref.whole cc6_scratch0

section Region
variable (V : (c : Dev nD) → (b : Ref sig .tc) → Buf (Elt F) ((c : Thread nD τ).loc b))

-- Window w's block at point t, read off its array as the region finds it.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

-- The region's proof data: every input block is kept, the output block is gatherOut of the two input blocks.
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => gatherOut (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := rfl
theorem owed_eq6 (c : Dev nD) (t : Fin (cfg6.N + 1)) : (dat6 V c).owed t = 0 := rfl

theorem after6_2 (c : Dev nD) (t : Fin cfg6.N) : (dat6 V c).after 2 t = gatherOut (iblk6 V c 0 t) (iblk6 V c 1 t) := by dsimp only [dat6]

-- At every point an input's block is its block of the array as the region found it.
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

-- The class invariant with the accumulator owned at some contents, the other scoped buffers unopened.
theorem PhiA6_eq (c : Dev nD) :
    (Pipeline.ΦA spec6 c : sProp 𝕄)
      = iprop(iprop(iprop((∃ d, owns (c : Thread nD τ) scr6 fullShare d))
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scr6, owns_whole]; try rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

-- The body at any point: the invariant lends the accumulator and takes it back at whatever the body left in it.
theorem sound_body6 (c : Dev nD) (t : Fin cfg6.N) :
    bodyPre6 V c t ⊢ wp frame (wpE (defs₀ (F := F)) Variants.none c none) Set.univ
      (gatherBody (grid6.coords t) (st6_0 t) (stage_whole6 0 _) (st6_1 t) (stage_whole6 1 _) (st6_2 t) (stage_whole6 2 _) scr6 (Memref.isWhole_whole _))
      (fun _ => bodyPost6 V c t) := by
  unfold bodyPre6 bodyPost6
  simp only [before6_0, before6_1]
  rw [show (dat6 V c).Φ t.succ = Pipeline.ΦA spec6 c from rfl,
    show (dat6 V c).Φ t.castSucc = Pipeline.ΦA spec6 c from rfl,
    show (dat6 V c).owesAt () t.succ = (dat6 V c).owesAt () t.castSucc from rfl,
    show (dat6 V c).after 0 t = iblk6 V c 0 t from rfl, show (dat6 V c).after 1 t = iblk6 V c 1 t from rfl, after6_2, PhiA6_eq]
  iintro ⟨⟨⟨HS, Hrest⟩, Hg⟩, Ho, ⟨%d0, H0⟩, ⟨%d1, H1⟩, ⟨%d2, H2⟩⟩
  iapply (sound_gather c _ _ _ _ _ _ _ _ _ Set.univ (iblk6 V c 0 t) (iblk6 V c 1 t) _)
  iframe H0 H1 HS
  isplitl [H2]; · iexists _; iexact H2
  iintro ⟨H0, H1, H2, HS⟩
  iframe

theorem body_obligation6 (c : Dev nD) : BodyObligation (dat6 (F := F) V c) (defs₀ (F := F)) Variants.none () Set.univ := fun t => by
  rw [bigSep_W6, bigSep_W6]
  exact sound_body6 V c t

theorem hin6 (c : Dev nD) :
    iprop((∃ r, prngReg c r) ∗ Pipeline.scopedRest (Ix := Unit) (Name := ℕ) (U := UR sig nD τ) (Lvl := ℕ) (Val := Elt F) spec6 c)
      ⊢ (dat6 V c).Φ 0 := sep_comm.1

theorem hout6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := sep_comm.1

end Region

end Cert.KernelIdeal.Hand

end
-- ==== Proof.KI.Scatter7Base.lean ====
import proofs.«411563_j39152921870698_3_alg».proof.Proof.Gen.KernelIdeal.Launch
import proofs.«411563_j39152921870698_3_alg».proof.Proof.Gen.KernelIdeal.Skeleton
import Idealize.ShloMosaic.Lib.Pipeline.FrameBody
import Idealize.ShloMosaic.Lib.Ring
import Idealize.ShloMosaic.Lib.Tactic
import Idealize.ShloMosaic.Lib.Pipeline.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM7_0 : Memref sig .tc .smem S293 .i32 := Memref.whole main_v24
abbrev htbM7_0 : tbM7_0.IsWhole := Memref.isWhole_whole _
abbrev tbM7_1 : Memref sig .tc .smem S293 .i32 := Memref.whole main_v27
abbrev htbM7_1 : tbM7_1.IsWhole := Memref.isWhole_whole _
abbrev scM7_0 : Memref sig .tc .vmem S2000x128 .f32 := Memref.whole cc7_scratch0
abbrev hscM7_0 : scM7_0.IsWhole := Memref.isWhole_whole _

abbrev TbBuf7 (c : Dev nD) (M : Memref sig .tc .smem S293 .i32) : Type := Buf (Elt F) (M.view.loc (c : Thread nD τ))
abbrev tbPt7 (c : Dev nD) (M : Memref sig .tc .smem S293 .i32) (f : TbBuf7 (F := F) c M) : sProp 𝕄 :=
  M.view.loc (c : Thread nD τ) ↦{fullShare} f

abbrev word7 (c : Dev nD) (M : Memref sig .tc .smem S293 .i32) (i : grid7.Coords) (xt : TbBuf7 (F := F) c M) : Elt F .i32 :=
  M.view.readAt (Elt F) (Rect.unit (s := S293) (k7_off1 i) S1.size (k7_off1_inb i)).toLoadRect xt (Shape.Idx.first (numel1_S1.symm ▸ Nat.one_pos))

abbrev cond7_1 (i : grid7.Coords) : Prop :=
  Scalar.cmpi .ne (Scalar.extui (Scalar.cmpi .eq (BitVec.ofNat 32 (i 1).val) 0#32)) 0#32 = 1#1
abbrev guardW7 (j : ℕ) (lo hi : BitVec 32) : Prop :=
  Scalar.cmpi .ne (Scalar.extui (Scalar.andi (Scalar.cmpi .sge (BitVec.ofNat 32 j) lo) (Scalar.cmpi .sle (BitVec.ofNat 32 j) hi))) 0#32 = 1#1
abbrev cond7_2 (i : grid7.Coords) (lo hi : BitVec 32) : Prop := guardW7 (i 0).val lo hi
abbrev cond7_3 (i : grid7.Coords) : Prop := k7_cond3 i = 1#1

theorem hz2_7 : (![0, 0] : Fin 2 → Nat) = fun _ => 0 := funext fun a => by fin_cases a <;> rfl

theorem read_writes_whole7 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons.mpr (Or.inl rfl), by
    show y ∈ (Rect.whole S).set; rw [Rect.set_whole]; exact Finset.mem_univ y⟩)]
  exact View.canon_cons_unit_zero rfl _ _ _

end Cert.KernelIdeal.Hand

end
-- ==== Proof.KI.Scatter7Sched.lean ====
import proofs.«411563_j39152921870698_3_alg».proof.Proof.KI.Scatter7Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hc1_fin : ∀ e : Fin 293,
    (Scalar.cmpi .ne (Scalar.extui (Scalar.cmpi .eq (BitVec.ofNat 32 e.val) 0#32)) 0#32 = 1#1) ↔ e.val = 0 := by decide +kernel
theorem hc3_fin : ∀ e : Fin 293,
    (Scalar.cmpi .ne (Scalar.extui (Scalar.cmpi .eq (BitVec.ofNat 32 e.val) 292#32)) 0#32 = 1#1) ↔ e.val = 292 := by decide +kernel

theorem stride7_0 : grid7.stride 0 = 293 := by decide
theorem stride7_1 : grid7.stride 1 = 1 := by decide

theorem lt_N7 (t : Fin grid7.N) : t.val < 14943 := lt_of_lt_of_eq t.isLt N_7

theorem coords7_0 (t : Fin grid7.N) : (grid7.coords t 0).val = t.val / 293 := by
  have h := lt_N7 t
  show t.val / grid7.stride 0 % 51 = t.val / 293
  rw [stride7_0]; omega

theorem coords7_1 (t : Fin grid7.N) : (grid7.coords t 1).val = t.val % 293 := by
  show t.val / grid7.stride 1 % 293 = t.val % 293
  rw [stride7_1, Nat.div_one]

theorem hcond7_1 (t : Fin grid7.N) : cond7_1 (grid7.coords t) ↔ t.val % 293 = 0 := by
  rw [← coords7_1 t]; exact hc1_fin (grid7.coords t 1)
theorem hcond7_3 (t : Fin grid7.N) : cond7_3 (grid7.coords t) ↔ t.val % 293 = 292 := by
  rw [← coords7_1 t]; exact hc3_fin (grid7.coords t 1)

theorem tr7_2 (i : grid7.Coords) : cc7_transform_2 i = ![(i 0).val, 0] := by
  have h : (BitVec.ofNat 32 (i 0).val).toNat = (i 0).val := by
    rw [BitVec.toNat_ofNat]; exact Nat.mod_eq_of_lt (lt_trans (i 0).isLt (by decide))
  show ![(BitVec.ofNat 32 (i 0).val).toNat, (0#32 : BitVec 32).toNat] = _
  rw [h]; rfl

-- (t + 1) / 293 differs from t / 293 exactly when t % 293 = 292.
theorem flush7_2 (a : (pcfg7 (F := F)).Adm) (t : Fin (cfg7 a).N) : ((cfg7 a).win 2).flush t = true ↔ t.val % 293 = 292 := by
  have hN : t.val < 14943 := lt_N7 t
  have hN7 : grid7.N = 14943 := N_7
  have e : ∀ h : t.val + 1 < grid7.N,
      cc7_transform_2 (grid7.coords ⟨t.val + 1, h⟩) = cc7_transform_2 (grid7.coords t) ↔ (t.val + 1) / 293 = t.val / 293 := fun h => by
    rw [tr7_2, tr7_2, coords7_0, coords7_0]
    exact ⟨fun q => congrFun q 0, fun q => congrArg (fun x => ![x, 0]) q⟩
  show Pipeline.Window.flushOf grid7 true cc7_transform_2 t = true ↔ _
  unfold Pipeline.Window.flushOf
  simp only [Bool.true_and, Bool.or_eq_true, decide_eq_true_eq]
  constructor
  · rintro (h | ⟨h, hne⟩)
    · omega
    · by_contra hc; exact hne ((e h).mpr (by omega))
  · intro h
    by_cases hl : t.val + 1 = grid7.N
    · exact Or.inl hl
    · exact Or.inr ⟨by omega, fun q => by have := (e (by omega)).mp q; omega⟩

theorem idle7_2 (a : (pcfg7 (F := F)).Adm) (t : Fin (cfg7 a).N) :
    (cfg7 a).idle 2 ((cfg7 a).grid.coords t) = !decide (t.val % 293 = 292) := by
  show (!(k7_cond3 (grid7.coords t) == 1#1)) = _
  exact congrArg not (decide_eq_decide.mpr (hcond7_3 t))

abbrev st7_0 (a : (pcfg7 (F := F)).Adm) (t : Fin (cfg7 a).N) : Memref sig .tc .vmem S2048x128 .bf16 := spec7_0.stage ((cfg7 a).slots t 0)
abbrev hst7_0 (a : (pcfg7 (F := F)).Adm) (t : Fin (cfg7 a).N) : (st7_0 a t).IsWhole := hstage7_0 (((cfg7 a).slots t 0).cast nbuf7_0)
abbrev st7_1 (a : (pcfg7 (F := F)).Adm) (t : Fin (cfg7 a).N) : Memref sig .tc .vmem S1x2048 .i32 := spec7_1.stage ((cfg7 a).slots t 1)
abbrev hst7_1 (a : (pcfg7 (F := F)).Adm) (t : Fin (cfg7 a).N) : (st7_1 a t).IsWhole := hstage7_1 (((cfg7 a).slots t 1).cast nbuf7_1)
abbrev st7_2 (a : (pcfg7 (F := F)).Adm) (t : Fin (cfg7 a).N) : Memref sig .tc .vmem S2000x128 .f32 := spec7_2.stage ((cfg7 a).slots t 2)
abbrev hst7_2 (a : (pcfg7 (F := F)).Adm) (t : Fin (cfg7 a).N) : (st7_2 a t).IsWhole := hstage7_2 (((cfg7 a).slots t 2).cast nbuf7_2)

abbrev bodyAt7 (a : (pcfg7 (F := F)).Adm) (t : Fin (cfg7 a).N) : Prog (TpuEff nD τ sig (Elt F) Λ₀ .tc) PUnit :=
  cc7__scatter_kernel_nocnt (grid7.coords t) tbM7_0 htbM7_0 tbM7_1 htbM7_1 (st7_0 a t) (hst7_0 a t) (st7_1 a t) (hst7_1 a t) (st7_2 a t) (hst7_2 a t) scM7_0 hscM7_0

end Cert.KernelIdeal.Hand

end
-- ==== Proof.KI.Scatter7Dat.lean ====
import proofs.«411563_j39152921870698_3_alg».proof.Proof.KI.Scatter7Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (a : (pcfg7 (F := F)).Adm) (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

abbrev msgBlk7 (a : (pcfg7 (F := F)).Adm) (c : Dev nD) (t : Fin (cfg7 a).N) : Vec F S2048x128 .bf16 := iblk7 V a c 0 t
abbrev idxBlk7 (a : (pcfg7 (F := F)).Adm) (c : Dev nD) (t : Fin (cfg7 a).N) : Vec F S1x2048 .i32 := iblk7 V a c 1 t

abbrev lo7 (a : (pcfg7 (F := F)).Adm) (c : Dev nD) (t : Fin (cfg7 a).N) : BitVec 32 := word7 c tbM7_0 (grid7.coords t) (a.1 0)
abbrev hi7 (a : (pcfg7 (F := F)).Adm) (c : Dev nD) (t : Fin (cfg7 a).N) : BitVec 32 := word7 c tbM7_1 (grid7.coords t) (a.1 1)
abbrev guard7 (a : (pcfg7 (F := F)).Adm) (c : Dev nD) (t : Fin (cfg7 a).N) : Prop := cond7_2 (grid7.coords t) (lo7 a c t) (hi7 a c t)

def step7 (a : (pcfg7 (F := F)).Adm) (c : Dev nD) (t : Fin (cfg7 a).N) (s : Vec F S2000x128 .f32) : Vec F S2000x128 .f32 :=
  if guard7 a c t then k7_pay2 (grid7.coords t) (idxBlk7 V a c t) (msgBlk7 V a c t) s else s
def stepN7 (a : (pcfg7 (F := F)).Adm) (c : Dev nD) (n : ℕ) (s : Vec F S2000x128 .f32) : Vec F S2000x128 .f32 :=
  if h : n < (cfg7 a).N then step7 V a c ⟨n, h⟩ s else s

def sAfter7 (a : (pcfg7 (F := F)).Adm) (c : Dev nD) : ℕ → Vec F S2000x128 .f32
  | 0 => stepN7 V a c 0 k7_pay1
  | n + 1 => if (n + 1) % 293 = 0 then stepN7 V a c (n + 1) k7_pay1 else stepN7 V a c (n + 1) (sAfter7 a c n)

theorem sAfter7_reset (a : (pcfg7 (F := F)).Adm) (c : Dev nD) (n : ℕ) (h : n % 293 = 0) :
    sAfter7 V a c n = stepN7 V a c n k7_pay1 := by
  cases n with
  | zero => rfl
  | succ n => exact if_pos h
theorem sAfter7_step (a : (pcfg7 (F := F)).Adm) (c : Dev nD) (n : ℕ) (h : ¬ n % 293 = 0) :
    sAfter7 V a c n = stepN7 V a c n (sAfter7 V a c (n - 1)) := by
  cases n with
  | zero => exact absurd (Nat.zero_mod _) h
  | succ n => exact if_neg h
theorem stepN7_at (a : (pcfg7 (F := F)).Adm) (c : Dev nD) (t : Fin (cfg7 a).N) (s : Vec F S2000x128 .f32) :
    stepN7 V a c t.val s = step7 V a c t s := dif_pos t.isLt
set_option maxHeartbeats 4000000 in
theorem prefHeld7_eq (c : Dev nD) (v : pre7.Contents (Elt F)) :
    (Pipeline.prefHeld (Ix := Unit) (Name := ℕ) (U := UR sig nD τ) (Lvl := ℕ) pre7 c (fun _ => fullShare) v : sProp 𝕄)
      = iprop(tbPt7 c tbM7_0 (v 0) ∗ tbPt7 c tbM7_1 (v 1)) := by
  unfold Pipeline.prefHeld
  rw [show (Finset.univ : Finset (Fin 2)) = insert (0 : Fin 2) {(1 : Fin 2)} from by decide,
    bigSep_insert (by decide), bigSep_singleton]
  rfl

def Φ7 (a : (pcfg7 (F := F)).Adm) (c : Dev nD) (n : ℕ) : sProp 𝕄 :=
  iprop((∃ r, prngReg c r) ∗ tbPt7 c tbM7_0 (a.1 0) ∗ tbPt7 c tbM7_1 (a.1 1)
    ∗ Pipeline.scopedRestBut (Ix := Unit) (Name := ℕ) (U := UR sig nD τ) (Lvl := ℕ) (Val := Elt F) spec7 c [cc7_scratch0]
    ∗ (∃ X, owns (c : Thread nD τ) scM7_0 fullShare X ∗ ⌜¬ n % 293 = 0 → X = sAfter7 V a c (n - 1)⌝))

def dat7 (a : (pcfg7 (F := F)).Adm) (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => sAfter7 V a c t.val
  Φ t := Φ7 V a c t.val
  q _ := fullShare
  owed _ := 0

theorem A_eq7 (a : (pcfg7 (F := F)).Adm) (c : Dev nD) (w : Fin (cfg7 a).W) : (dat7 V a c).A w = V c (Pipeline.arrRef spec7 w) := by
  dsimp only [dat7]
theorem after7_0 (a : (pcfg7 (F := F)).Adm) (c : Dev nD) (t : Fin (cfg7 a).N) : (dat7 V a c).after 0 t = iblk7 V a c 0 t := by dsimp only [dat7]; try rfl
theorem after7_1 (a : (pcfg7 (F := F)).Adm) (c : Dev nD) (t : Fin (cfg7 a).N) : (dat7 V a c).after 1 t = iblk7 V a c 1 t := by dsimp only [dat7]; try rfl
theorem after7_2 (a : (pcfg7 (F := F)).Adm) (c : Dev nD) (t : Fin (cfg7 a).N) : (dat7 V a c).after 2 t = sAfter7 V a c t.val := by dsimp only [dat7]; try rfl
theorem before7_0 (a : (pcfg7 (F := F)).Adm) (c : Dev nD) (t : Fin (cfg7 a).N) (d) : (dat7 V a c).before 0 t d = iblk7 V a c 0 t :=
  ((dat7 V a c).before_in_eq_fetched 0 rfl (fun _ => rfl) (fun _ _ _ => rfl) (fun _ => rfl) t d).trans rfl
theorem before7_1 (a : (pcfg7 (F := F)).Adm) (c : Dev nD) (t : Fin (cfg7 a).N) (d) : (dat7 V a c).before 1 t d = iblk7 V a c 1 t :=
  ((dat7 V a c).before_in_eq_fetched 1 rfl (fun _ => rfl) (fun _ _ _ => rfl) (fun _ => rfl) t d).trans rfl

theorem hin7 (a : (pcfg7 (F := F)).Adm) (c : Dev nD) :
    iprop((∃ r, prngReg c r) ∗ Pipeline.prefHeld (Ix := Unit) (Name := ℕ) (U := UR sig nD τ) (Lvl := ℕ) pre7 c (fun _ => fullShare) a.1
        ∗ Pipeline.scopedRest (Ix := Unit) (Name := ℕ) (U := UR sig nD τ) (Lvl := ℕ) (Val := Elt F) spec7 c)
      ⊢ (dat7 V a c).Φ 0 := by
  rw [show (dat7 V a c).Φ 0 = Φ7 V a c 0 from rfl, prefHeld7_eq, scopedRest7_split]; unfold Φ7
  iintro ⟨Hr, ⟨HT0, HT1⟩, ⟨%f, Hs⟩, Hrest⟩
  iframe Hr HT0 HT1 Hrest
  iexists f; isplitl [Hs]
  · simp only [scM7_0, owns_whole]; iexact Hs
  · ipureintro; intro h; exact absurd (Nat.zero_mod 293) h

theorem hout7 (a : (pcfg7 (F := F)).Adm) (c : Dev nD) :
    (dat7 V a c).Φ (Fin.last (cfg7 a).N)
      ⊢ iprop(iprop((∃ r, prngReg c r) ∗ Pipeline.prefHeld (Ix := Unit) (Name := ℕ) (U := UR sig nD τ) (Lvl := ℕ) pre7 c (fun _ => fullShare) a.1)
          ∗ Pipeline.scopedRest (Ix := Unit) (Name := ℕ) (U := UR sig nD τ) (Lvl := ℕ) (Val := Elt F) spec7 c) := by
  rw [show (dat7 V a c).Φ (Fin.last (cfg7 a).N) = Φ7 V a c (cfg7 a).N from rfl, prefHeld7_eq, scopedRest7_split]; unfold Φ7
  iintro ⟨Hr, HT0, HT1, Hrest, ⟨%X, Hs, -⟩⟩
  iframe Hr HT0 HT1 Hrest
  iexists X; simp only [scM7_0, owns_whole]; iexact Hs

end Cert.KernelIdeal.Hand

end
-- ==== Proof.KI.Scatter7Runs.lean ====
import proofs.«411563_j39152921870698_3_alg».proof.Proof.KI.Scatter7Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid7.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole)
    (x0 : Vec F S2048x128 .bf16) (x1 : Vec F S1x2048 .i32) (d2 s : Vec F S2000x128 .f32)
    (xt0 : TbBuf7 (F := F) c tbM7_0) (xt1 : TbBuf7 (F := F) c tbM7_1)

-- The scratch after the body: zeroed where the first conditional holds, then the one-hot product added where the word condition holds.
def scr7 : Vec F S2000x128 .f32 :=
  if cond7_2 i (word7 c tbM7_0 i xt0) (word7 c tbM7_1 i xt1) then k7_pay2 i x1 x0 (if cond7_1 i then k7_pay1 else s)
  else if cond7_1 i then k7_pay1 else s

set_option maxHeartbeats 4000000 in
-- One run of the body, by cases on the three conditionals: inputs and tables unchanged, the scratch at scr7, the output operand at scr7 where the third conditional holds.
theorem run7 (hne : cond7_1 i → ¬cond7_3 i) (E : Set ℕ) (K : PUnit → sProp 𝕄) :
    iprop(owns (c : Thread nD τ) arg4 fullShare x0 ∗ owns (c : Thread nD τ) arg5 fullShare x1 ∗ owns (c : Thread nD τ) arg6 fullShare d2
        ∗ owns (c : Thread nD τ) scM7_0 fullShare s ∗ tbPt7 c tbM7_0 xt0 ∗ tbPt7 c tbM7_1 xt1
        ∗ (iprop(owns (c : Thread nD τ) arg4 fullShare x0 ∗ owns (c : Thread nD τ) arg5 fullShare x1
            ∗ owns (c : Thread nD τ) arg6 fullShare (if cond7_3 i then scr7 c i x0 x1 s xt0 xt1 else d2)
            ∗ owns (c : Thread nD τ) scM7_0 fullShare (scr7 c i x0 x1 s xt0 xt1) ∗ tbPt7 c tbM7_0 xt0 ∗ tbPt7 c tbM7_1 xt1) -∗ K ⟨⟩))
      ⊢ wp frame (wpE (defs₀ (F := F)) Variants.none c none) E (cc7__scatter_kernel_nocnt i tbM7_0 htbM7_0 tbM7_1 htbM7_1 arg4 harg4 arg5 harg5 arg6 harg6 scM7_0 hscM7_0) K := by
  unfold scr7
  by_cases h1 : cond7_1 i <;> by_cases h2 : cond7_2 i (word7 c tbM7_0 i xt0) (word7 c tbM7_1 i xt1) <;> by_cases h3 : cond7_3 i <;>
    first | exact absurd h3 (hne h1) | skip
  all_goals
    first | rw [if_pos h3] | rw [if_neg h3]
    first | rw [if_pos h2] | rw [if_neg h2]
    first | rw [if_pos h1] | rw [if_neg h1]
    simp only [cc7__scatter_kernel_nocnt_eq_skeleton]; unfold cc7__scatter_kernel_nocnt_skel
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM7_0.eq_unread hfs
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      first
        | (have _ : ¬cond7_3 i := h3; exact harg6.read_unread _)
        | (refine (read_writes_whole7 (S := S2000x128) _ _ hz2_7 _ _ _).trans ?_
           try sl_unfold_words
           try simp only [View.readCov_unit_zero (S := S2000x128) _ hz2_7, View.readAt_eq_ld, Memref.IsWhole.read_unread, View.ld_unit_zero (S := S2000x128) hz2_7, View.ld_unit_zero (S := S2048x128) hz2_7, View.ld_unit_zero (S := S1x2048) hz2_7]
           all_goals first | (have _ : ¬cond7_2 i _ _ := h2; exact hfs) | exact congrArg (k7_pay2 i x1 x0) hfs)
    isplitl [HS]
    · iexists _; isplitr; swap; · iexact HS
      ipureintro
      first
        | (have _ : ¬cond7_2 i _ _ := h2; first | (have _ : ¬cond7_1 i := h1; exact hscM7_0.read_unread _) | exact read_writes_whole7 (S := S2000x128) _ _ hz2_7 _ _ _)
        | (refine (read_writes_whole7 (S := S2000x128) _ _ hz2_7 _ _ _).trans ?_
           try sl_unfold_words
           try simp only [View.readCov_unit_zero (S := S2000x128) _ hz2_7, View.readAt_eq_ld, Memref.IsWhole.read_unread, View.ld_unit_zero (S := S2000x128) hz2_7, View.ld_unit_zero (S := S2048x128) hz2_7, View.ld_unit_zero (S := S1x2048) hz2_7]
           all_goals first
             | (have _ : ¬cond7_1 i := h1; exact congrArg (k7_pay2 i x1 x0) hfs)
             | exact congrArg (k7_pay2 i x1 x0) (View.readCov_unit_zero (S := S2000x128) _ hz2_7 _ _))
    isplitl [HT0]; · iexact HT0
    iexact HT1

end Run

end Cert.KernelIdeal.Hand

end
-- ==== Proof.KI.Scatter7.lean ====
import proofs.«411563_j39152921870698_3_alg».proof.Proof.KI.Scatter7Dat
import proofs.«411563_j39152921870698_3_alg».proof.Proof.KI.Scatter7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section BodyS
variable (V : (c : Dev nD) → (b : Ref sig .tc) → Buf (Elt F) ((c : Thread nD τ).loc b))

-- From what the invariant says the scratch held before point t, the body's result there is what the accumulation says.
theorem sAfter7_eq (a : (pcfg7 (F := F)).Adm) (c : Dev nD) (t : Fin (cfg7 a).N) (X : Vec F S2000x128 .f32)
    (hX : ¬ t.val % 293 = 0 → X = sAfter7 V a c (t.val - 1)) :
    scr7 c (grid7.coords t) (msgBlk7 V a c t) (idxBlk7 V a c t) X (a.1 0) (a.1 1) = sAfter7 V a c t.val := by
  unfold scr7
  by_cases h0 : t.val % 293 = 0
  · rw [sAfter7_reset V a c t.val h0, stepN7_at, if_pos ((hcond7_1 t).mpr h0)]; rfl
  · rw [sAfter7_step V a c t.val h0, stepN7_at, if_neg (mt (hcond7_1 t).mp h0), hX h0]; rfl

-- What the obligation asks of the output operand at point t follows from its contents after the body, in both cases of the third conditional.
theorem leaves7 (a : (pcfg7 (F := F)).Adm) (c : Dev nD) (t : Fin (cfg7 a).N) (d) (D : Vec F S2000x128 .f32) (hD : D = (dat7 V a c).before 2 t d) :
    owns (c : Thread nD τ) (st7_2 a t) fullShare (if cond7_3 (grid7.coords t) then sAfter7 V a c t.val else D) ⊢ (dat7 V a c).leavesExact 2 t := by
  by_cases h3 : t.val % 293 = 292
  · have hi : (cfg7 a).idle 2 ((cfg7 a).grid.coords t) = false := by rw [idle7_2, decide_eq_true h3]; rfl
    rw [if_pos ((hcond7_3 t).mpr h3)]; unfold Dat.leavesExact; rw [hi]; dsimp only; rw [after7_2]; exact .rfl
  · have hi : (cfg7 a).idle 2 ((cfg7 a).grid.coords t) = true := by rw [idle7_2, decide_eq_false h3]; rfl
    rw [if_neg (mt (hcond7_3 t).mp h3), (dat7 V a c).leavesExact_idle 2 t hi (Bool.eq_false_iff.mpr fun h => h3 ((flush7_2 a t).mp h))]
    subst hD; iintro H; iexists d; iexact H

def bodyPre7 (a : (pcfg7 (F := F)).Adm) (c : Dev nD) (t : Fin (cfg7 a).N) : sProp 𝕄 :=
  iprop((dat7 V a c).Φ t.castSucc ∗ (dat7 V a c).owesAt () t.castSucc
    ∗ (∃ d, owns (c : Thread nD τ) (st7_0 a t) fullShare ((dat7 V a c).before 0 t d))
    ∗ (∃ d, owns (c : Thread nD τ) (st7_1 a t) fullShare ((dat7 V a c).before 1 t d))
    ∗ (∃ d, owns (c : Thread nD τ) (st7_2 a t) fullShare ((dat7 V a c).before 2 t d)))
def bodyPost7 (a : (pcfg7 (F := F)).Adm) (c : Dev nD) (t : Fin (cfg7 a).N) : sProp 𝕄 :=
  iprop((dat7 V a c).Φ t.succ ∗ (dat7 V a c).owesAt () t.succ
    ∗ owns (c : Thread nD τ) (st7_0 a t) fullShare ((dat7 V a c).after 0 t)
    ∗ owns (c : Thread nD τ) (st7_1 a t) fullShare ((dat7 V a c).after 1 t)
    ∗ (dat7 V a c).leavesExact 2 t)

set_option maxHeartbeats 1600000 in
-- The invariant and the operands' contents at point t give the body's precondition; its postcondition gives them back at the next point.
theorem sound_body7 (a : (pcfg7 (F := F)).Adm) (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7
  simp only [before7_0, before7_1]
  rw [show (dat7 V a c).owesAt () t.succ = (dat7 V a c).owesAt () t.castSucc from rfl,
    show (dat7 V a c).Φ t.castSucc = Φ7 V a c t.castSucc.val from rfl, show (dat7 V a c).Φ t.succ = Φ7 V a c t.succ.val from rfl,
    after7_0, after7_1, Fin.coe_castSucc, Fin.val_succ]
  unfold Φ7
  iintro ⟨⟨Hr, HT0, HT1, Hrest, ⟨%X, HS, %hX⟩⟩, Ho, ⟨%d0, H0⟩, ⟨%d1, H1⟩, ⟨%d2, H2⟩⟩
  iapply (run7 c (grid7.coords t) (st7_0 a t) (hst7_0 a t) (st7_1 a t) (hst7_1 a t) (st7_2 a t) (hst7_2 a t) (msgBlk7 V a c t) (idxBlk7 V a c t)
    ((dat7 V a c).before 2 t d2) X (a.1 0) (a.1 1) (fun h1 h3 => by have := (hcond7_1 t).mp h1; have := (hcond7_3 t).mp h3; omega) Set.univ _)
  rw [sAfter7_eq V a c t X hX]
  iframe H0 H1 H2 HS HT0 HT1
  iintro ⟨H0, H1, H2, HS, HT0, HT1⟩
  iframe Hr HT0 HT1 Hrest Ho H0 H1
  isplitl [HS]
  · iexists _; iframe HS; ipureintro; intro _; rw [Nat.add_sub_cancel]
  iapply (leaves7 V a c t d2 _ rfl); iexact H2

theorem body_obligation7 (a : (pcfg7 (F := F)).Adm) (c : Dev nD) :
    BodyObligation (dat7 (F := F) V a c) (defs₀ (F := F)) Variants.none () Set.univ := fun t => by
  rw [bigSep_W7, bigSep_W7]
  exact sound_body7 V a c t

end BodyS

end Cert.KernelIdeal.Hand

end
-- ==== Proof.KI.Linear8.lean ====
import proofs.«411563_j39152921870698_3_alg».proof.Proof.Gen.KernelIdeal.Launch
import proofs.«411563_j39152921870698_3_alg».proof.Proof.Gen.KernelIdeal.Skeleton
import proofs.«411563_j39152921870698_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem uncut8_0 : ∀ (t : Fin cfg8.N) (a : Fin 2), (cfg8.win 0).clip (cfg8.grid.coords t) a = none :=
  (by decide +kernel : ∀ (t : Fin grid8.N) (a : Fin 2), win8_0.clip (grid8.coords t) a = none)
theorem uncut8_1 : ∀ (t : Fin cfg8.N) (a : Fin 2), (cfg8.win 1).clip (cfg8.grid.coords t) a = none :=
  (by decide +kernel : ∀ (t : Fin grid8.N) (a : Fin 2), win8_1.clip (grid8.coords t) a = none)

def sblk8_0 (c : Dev nD) (t : Fin cfg8.N) : Vec F S5000x128 .f32 :=
  (cfg8.win 0).fill (cfg8.grid.coords t) (fun _ => Scalar.ofBits .f32 0#32) (iblk8 V c 0 t)
def sblk8_1 (c : Dev nD) (t : Fin cfg8.N) : Vec F S5000x1 .f32 :=
  (cfg8.win 1).fill (cfg8.grid.coords t) (fun _ => Scalar.ofBits .f32 0#32) (iblk8 V c 1 t)

abbrev r8_0 : Rect S5000x1 := Rect.unit (s := S5000x1) ![0, 0] S5000x1.size inb_S5000x1_S5000x1_0_0
abbrev r8_1 : Rect S5000x128 := Rect.unit (s := S5000x128) ![0, 0] S5000x128.size inb_S5000x128_S5000x128_0_0
abbrev r8_2 : Rect S128x128 := Rect.unit (s := S128x128) ![0, 0] S128x128.size inb_S128x128_S128x128_0_0
abbrev r8_3 : Rect S128 := Rect.unit (s := S128) ![0] S128.size inb_S128_S128_0

def out8_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r8_1, k8_pay1 (View.ld x1 r8_0) (View.ld x0 r8_1) (View.ld x2 r8_1) (View.ld x3 r8_2) (View.ld x5 r8_2) (View.ld x4 r8_3)⟩]

def dat8 (c : Dev nD) : Dat τ (Elt F) Unit ℕ (UR sig nD τ) ℕ cfg8 c where
  A w := V c (Pipeline.arrRef spec8 w)
  after w t := match w with
    | ⟨0, _⟩ => sblk8_0 V c t
    | ⟨1, _⟩ => sblk8_1 V c t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (sblk8_0 V c t) (sblk8_1 V c t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_6 (c : Dev nD) (t : Fin cfg8.N) : (dat8 V c).after 6 t
    = out8_6 (sblk8_0 V c t) (sblk8_1 V c t) (iblk8 V c 2 t) (iblk8 V c 3 t) (iblk8 V c 4 t) (iblk8 V c 5 t) := by dsimp only [dat8]

theorem before8_0 (c : Dev nD) (t : Fin cfg8.N) (d) : (dat8 V c).before 0 t d = sblk8_0 V c t := by
  unfold Dat.before; rw [if_pos (fetch8_0 t)]
  exact (dat8 V c).fetched_of_clip_none 0 t (uncut8_0 t) d _
theorem before8_1 (c : Dev nD) (t : Fin cfg8.N) (d) : (dat8 V c).before 1 t d = sblk8_1 V c t := by
  unfold Dat.before; rw [if_pos (fetch8_1 t)]
  exact (dat8 V c).fetched_of_clip_none 1 t (uncut8_1 t) d _

theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d
theorem before8_5 (c : Dev nD) (t : Fin cfg8.N) (d) : (dat8 V c).before 5 t d = iblk8 V c 5 t :=
  (dat8 V c).before_in_eq_fetched 5 rfl (fun _ => rfl) (fun _ _ _ => rfl) (fun _ => rfl) t d

set_option maxHeartbeats 1000000 in
theorem body_obligation8 (c : Dev nD) : BodyObligation (dat8 (F := F) V c) (defs₀ (F := F)) Variants.none () Set.univ := fun t => by
  rw [bigSep_W8, bigSep_W8]
  dsimp only
  simp only [before8_0, before8_1, before8_2, before8_3, before8_4, before8_5]
  rw [show (dat8 V c).Φ t.succ = (dat8 V c).Φ t.castSucc from rfl,
    show (dat8 V c).owesAt () t.succ = (dat8 V c).owesAt () t.castSucc from rfl]
  dsimp only [dat8]
  show _ ⊢ wp _ _ _ (bodyAt8 t) _
  unfold bodyAt8
  generalize sblk8_0 V c t = x0, sblk8_1 V c t = x1, iblk8 V c 2 t = x2, iblk8 V c 3 t = x3, iblk8 V c 4 t = x4, iblk8 V c 5 t = x5
  simp only [cc8__linear_kernel_eq_skeleton]; unfold cc8__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.KernelIdeal.Hand
-- ==== Proof.KI.Gather9.lean ====
import proofs.«411563_j39152921870698_3_alg».proof.Proof.KI.GatherKernel

set_option maxRecDepth 16384

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scr9 : Memref sig .tc .vmem S2048x128 .f32 := Memref.whole cc9_scratch0

section Region
variable (V : (c : Dev nD) → (b : Ref sig .tc) → Buf (Elt F) ((c : Thread nD τ).loc b))

-- Window w's block at point t, read off its array as the region finds it.
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

-- The region's proof data: every input block is kept, the output block is gatherOut of the two input blocks.
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => gatherOut (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem q_eq9 (c : Dev nD) (w : Fin cfg9.W) : (dat9 V c).q w = fullShare := rfl
theorem owed_eq9 (c : Dev nD) (t : Fin (cfg9.N + 1)) : (dat9 V c).owed t = 0 := rfl

theorem after9_2 (c : Dev nD) (t : Fin cfg9.N) : (dat9 V c).after 2 t = gatherOut (iblk9 V c 0 t) (iblk9 V c 1 t) := by dsimp only [dat9]

-- At every point an input's block is its block of the array as the region found it.
theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

-- The class invariant with the accumulator owned at some contents, the other scoped buffers unopened.
theorem PhiA9_eq (c : Dev nD) :
    (Pipeline.ΦA spec9 c : sProp 𝕄)
      = iprop(iprop(iprop((∃ d, owns (c : Thread nD τ) scr9 fullShare d))
            ∗ Pipeline.scopedRestBut (Ix := Unit) (Name := ℕ) (U := UR sig nD τ) (Lvl := ℕ) (Val := Elt F) spec9 c [cc9_scratch0])
          ∗ (∃ r, prngReg c r)) := by
  unfold Pipeline.ΦA; rw [scopedRest9_split]; simp only [scr9, owns_whole]; try rfl

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

-- The body at any point: the invariant lends the accumulator and takes it back at whatever the body left in it.
theorem sound_body9 (c : Dev nD) (t : Fin cfg9.N) :
    bodyPre9 V c t ⊢ wp frame (wpE (defs₀ (F := F)) Variants.none c none) Set.univ
      (gatherBody (grid9.coords t) (st9_0 t) (stage_whole9 0 _) (st9_1 t) (stage_whole9 1 _) (st9_2 t) (stage_whole9 2 _) scr9 (Memref.isWhole_whole _))
      (fun _ => bodyPost9 V c t) := by
  unfold bodyPre9 bodyPost9
  simp only [before9_0, before9_1]
  rw [show (dat9 V c).Φ t.succ = Pipeline.ΦA spec9 c from rfl,
    show (dat9 V c).Φ t.castSucc = Pipeline.ΦA spec9 c from rfl,
    show (dat9 V c).owesAt () t.succ = (dat9 V c).owesAt () t.castSucc from rfl,
    show (dat9 V c).after 0 t = iblk9 V c 0 t from rfl, show (dat9 V c).after 1 t = iblk9 V c 1 t from rfl, after9_2, PhiA9_eq]
  iintro ⟨⟨⟨HS, Hrest⟩, Hg⟩, Ho, ⟨%d0, H0⟩, ⟨%d1, H1⟩, ⟨%d2, H2⟩⟩
  iapply (sound_gather c _ _ _ _ _ _ _ _ _ Set.univ (iblk9 V c 0 t) (iblk9 V c 1 t) _)
  iframe H0 H1 HS
  isplitl [H2]; · iexists _; iexact H2
  iintro ⟨H0, H1, H2, HS⟩
  iframe

theorem body_obligation9 (c : Dev nD) : BodyObligation (dat9 (F := F) V c) (defs₀ (F := F)) Variants.none () Set.univ := fun t => by
  rw [bigSep_W9, bigSep_W9]
  exact sound_body9 V c t

theorem hin9 (c : Dev nD) :
    iprop((∃ r, prngReg c r) ∗ Pipeline.scopedRest (Ix := Unit) (Name := ℕ) (U := UR sig nD τ) (Lvl := ℕ) (Val := Elt F) spec9 c)
      ⊢ (dat9 V c).Φ 0 := sep_comm.1

theorem hout9 (c : Dev nD) :
    (dat9 V c).Φ (Fin.last cfg9.N)
      ⊢ iprop((∃ r, prngReg c r) ∗ Pipeline.scopedRest (Ix := Unit) (Name := ℕ) (U := UR sig nD τ) (Lvl := ℕ) (Val := Elt F) spec9 c) := sep_comm.1

end Region

end Cert.KernelIdeal.Hand

end
-- ==== Proof.KI.Scatter10Base.lean ====
import proofs.«411563_j39152921870698_3_alg».proof.Proof.Gen.KernelIdeal.Launch
import proofs.«411563_j39152921870698_3_alg».proof.Proof.Gen.KernelIdeal.Skeleton
import Idealize.ShloMosaic.Lib.Pipeline.FrameBody
import Idealize.ShloMosaic.Lib.Ring
import Idealize.ShloMosaic.Lib.Tactic
import Idealize.ShloMosaic.Lib.Pipeline.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM10_0 : Memref sig .tc .smem S293 .i32 := Memref.whole main_v54
abbrev htbM10_0 : tbM10_0.IsWhole := Memref.isWhole_whole _
abbrev tbM10_1 : Memref sig .tc .smem S293 .i32 := Memref.whole main_v57
abbrev htbM10_1 : tbM10_1.IsWhole := Memref.isWhole_whole _
abbrev scM10_0 : Memref sig .tc .vmem S2000x128 .f32 := Memref.whole cc10_scratch0
abbrev hscM10_0 : scM10_0.IsWhole := Memref.isWhole_whole _

abbrev TbBuf10 (c : Dev nD) (M : Memref sig .tc .smem S293 .i32) : Type := Buf (Elt F) (M.view.loc (c : Thread nD τ))
abbrev tbPt10 (c : Dev nD) (M : Memref sig .tc .smem S293 .i32) (f : TbBuf10 (F := F) c M) : sProp 𝕄 :=
  M.view.loc (c : Thread nD τ) ↦{fullShare} f

abbrev word10 (c : Dev nD) (M : Memref sig .tc .smem S293 .i32) (i : grid10.Coords) (xt : TbBuf10 (F := F) c M) : Elt F .i32 :=
  M.view.readAt (Elt F) (Rect.unit (s := S293) (k10_off1 i) S1.size (k10_off1_inb i)).toLoadRect xt (Shape.Idx.first (numel1_S1.symm ▸ Nat.one_pos))

abbrev cond10_1 (i : grid10.Coords) : Prop :=
  Scalar.cmpi .ne (Scalar.extui (Scalar.cmpi .eq (BitVec.ofNat 32 (i 1).val) 0#32)) 0#32 = 1#1
abbrev guardW10 (j : ℕ) (lo hi : BitVec 32) : Prop :=
  Scalar.cmpi .ne (Scalar.extui (Scalar.andi (Scalar.cmpi .sge (BitVec.ofNat 32 j) lo) (Scalar.cmpi .sle (BitVec.ofNat 32 j) hi))) 0#32 = 1#1
abbrev cond10_2 (i : grid10.Coords) (lo hi : BitVec 32) : Prop := guardW10 (i 0).val lo hi
abbrev cond10_3 (i : grid10.Coords) : Prop := k10_cond3 i = 1#1

theorem hz2_10 : (![0, 0] : Fin 2 → Nat) = fun _ => 0 := funext fun a => by fin_cases a <;> rfl

theorem read_writes_whole10 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons.mpr (Or.inl rfl), by
    show y ∈ (Rect.whole S).set; rw [Rect.set_whole]; exact Finset.mem_univ y⟩)]
  exact View.canon_cons_unit_zero rfl _ _ _

end Cert.KernelIdeal.Hand

end
-- ==== Proof.KI.Scatter10Sched.lean ====
import proofs.«411563_j39152921870698_3_alg».proof.Proof.KI.Scatter10Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hc1_fin : ∀ e : Fin 293,
    (Scalar.cmpi .ne (Scalar.extui (Scalar.cmpi .eq (BitVec.ofNat 32 e.val) 0#32)) 0#32 = 1#1) ↔ e.val = 0 := by decide +kernel
theorem hc3_fin : ∀ e : Fin 293,
    (Scalar.cmpi .ne (Scalar.extui (Scalar.cmpi .eq (BitVec.ofNat 32 e.val) 292#32)) 0#32 = 1#1) ↔ e.val = 292 := by decide +kernel

theorem stride10_0 : grid10.stride 0 = 293 := by decide
theorem stride10_1 : grid10.stride 1 = 1 := by decide

theorem lt_N10 (t : Fin grid10.N) : t.val < 14943 := lt_of_lt_of_eq t.isLt N_10

theorem coords10_0 (t : Fin grid10.N) : (grid10.coords t 0).val = t.val / 293 := by
  have h := lt_N10 t
  show t.val / grid10.stride 0 % 51 = t.val / 293
  rw [stride10_0]; omega

theorem coords10_1 (t : Fin grid10.N) : (grid10.coords t 1).val = t.val % 293 := by
  show t.val / grid10.stride 1 % 293 = t.val % 293
  rw [stride10_1, Nat.div_one]

theorem hcond10_1 (t : Fin grid10.N) : cond10_1 (grid10.coords t) ↔ t.val % 293 = 0 := by
  rw [← coords10_1 t]; exact hc1_fin (grid10.coords t 1)
theorem hcond10_3 (t : Fin grid10.N) : cond10_3 (grid10.coords t) ↔ t.val % 293 = 292 := by
  rw [← coords10_1 t]; exact hc3_fin (grid10.coords t 1)

theorem tr10_2 (i : grid10.Coords) : cc10_transform_2 i = ![(i 0).val, 0] := by
  have h : (BitVec.ofNat 32 (i 0).val).toNat = (i 0).val := by
    rw [BitVec.toNat_ofNat]; exact Nat.mod_eq_of_lt (lt_trans (i 0).isLt (by decide))
  show ![(BitVec.ofNat 32 (i 0).val).toNat, (0#32 : BitVec 32).toNat] = _
  rw [h]; rfl

-- (t + 1) / 293 differs from t / 293 exactly when t % 293 = 292.
theorem flush10_2 (a : (pcfg10 (F := F)).Adm) (t : Fin (cfg10 a).N) : ((cfg10 a).win 2).flush t = true ↔ t.val % 293 = 292 := by
  have hN : t.val < 14943 := lt_N10 t
  have hN10 : grid10.N = 14943 := N_10
  have e : ∀ h : t.val + 1 < grid10.N,
      cc10_transform_2 (grid10.coords ⟨t.val + 1, h⟩) = cc10_transform_2 (grid10.coords t) ↔ (t.val + 1) / 293 = t.val / 293 := fun h => by
    rw [tr10_2, tr10_2, coords10_0, coords10_0]
    exact ⟨fun q => congrFun q 0, fun q => congrArg (fun x => ![x, 0]) q⟩
  show Pipeline.Window.flushOf grid10 true cc10_transform_2 t = true ↔ _
  unfold Pipeline.Window.flushOf
  simp only [Bool.true_and, Bool.or_eq_true, decide_eq_true_eq]
  constructor
  · rintro (h | ⟨h, hne⟩)
    · omega
    · by_contra hc; exact hne ((e h).mpr (by omega))
  · intro h
    by_cases hl : t.val + 1 = grid10.N
    · exact Or.inl hl
    · exact Or.inr ⟨by omega, fun q => by have := (e (by omega)).mp q; omega⟩

theorem idle10_2 (a : (pcfg10 (F := F)).Adm) (t : Fin (cfg10 a).N) :
    (cfg10 a).idle 2 ((cfg10 a).grid.coords t) = !decide (t.val % 293 = 292) := by
  show (!(k10_cond3 (grid10.coords t) == 1#1)) = _
  exact congrArg not (decide_eq_decide.mpr (hcond10_3 t))

abbrev st10_0 (a : (pcfg10 (F := F)).Adm) (t : Fin (cfg10 a).N) : Memref sig .tc .vmem S2048x128 .bf16 := spec10_0.stage ((cfg10 a).slots t 0)
abbrev hst10_0 (a : (pcfg10 (F := F)).Adm) (t : Fin (cfg10 a).N) : (st10_0 a t).IsWhole := hstage10_0 (((cfg10 a).slots t 0).cast nbuf10_0)
abbrev st10_1 (a : (pcfg10 (F := F)).Adm) (t : Fin (cfg10 a).N) : Memref sig .tc .vmem S1x2048 .i32 := spec10_1.stage ((cfg10 a).slots t 1)
abbrev hst10_1 (a : (pcfg10 (F := F)).Adm) (t : Fin (cfg10 a).N) : (st10_1 a t).IsWhole := hstage10_1 (((cfg10 a).slots t 1).cast nbuf10_1)
abbrev st10_2 (a : (pcfg10 (F := F)).Adm) (t : Fin (cfg10 a).N) : Memref sig .tc .vmem S2000x128 .f32 := spec10_2.stage ((cfg10 a).slots t 2)
abbrev hst10_2 (a : (pcfg10 (F := F)).Adm) (t : Fin (cfg10 a).N) : (st10_2 a t).IsWhole := hstage10_2 (((cfg10 a).slots t 2).cast nbuf10_2)

abbrev bodyAt10 (a : (pcfg10 (F := F)).Adm) (t : Fin (cfg10 a).N) : Prog (TpuEff nD τ sig (Elt F) Λ₀ .tc) PUnit :=
  cc10__scatter_kernel_nocnt (grid10.coords t) tbM10_0 htbM10_0 tbM10_1 htbM10_1 (st10_0 a t) (hst10_0 a t) (st10_1 a t) (hst10_1 a t) (st10_2 a t) (hst10_2 a t) scM10_0 hscM10_0

end Cert.KernelIdeal.Hand

end
-- ==== Proof.KI.Scatter10Dat.lean ====
import proofs.«411563_j39152921870698_3_alg».proof.Proof.KI.Scatter10Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (a : (pcfg10 (F := F)).Adm) (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

abbrev msgBlk10 (a : (pcfg10 (F := F)).Adm) (c : Dev nD) (t : Fin (cfg10 a).N) : Vec F S2048x128 .bf16 := iblk10 V a c 0 t
abbrev idxBlk10 (a : (pcfg10 (F := F)).Adm) (c : Dev nD) (t : Fin (cfg10 a).N) : Vec F S1x2048 .i32 := iblk10 V a c 1 t

abbrev lo10 (a : (pcfg10 (F := F)).Adm) (c : Dev nD) (t : Fin (cfg10 a).N) : BitVec 32 := word10 c tbM10_0 (grid10.coords t) (a.1 0)
abbrev hi10 (a : (pcfg10 (F := F)).Adm) (c : Dev nD) (t : Fin (cfg10 a).N) : BitVec 32 := word10 c tbM10_1 (grid10.coords t) (a.1 1)
abbrev guard10 (a : (pcfg10 (F := F)).Adm) (c : Dev nD) (t : Fin (cfg10 a).N) : Prop := cond10_2 (grid10.coords t) (lo10 a c t) (hi10 a c t)

def step10 (a : (pcfg10 (F := F)).Adm) (c : Dev nD) (t : Fin (cfg10 a).N) (s : Vec F S2000x128 .f32) : Vec F S2000x128 .f32 :=
  if guard10 a c t then k10_pay2 (grid10.coords t) (idxBlk10 V a c t) (msgBlk10 V a c t) s else s
def stepN10 (a : (pcfg10 (F := F)).Adm) (c : Dev nD) (n : ℕ) (s : Vec F S2000x128 .f32) : Vec F S2000x128 .f32 :=
  if h : n < (cfg10 a).N then step10 V a c ⟨n, h⟩ s else s

def sAfter10 (a : (pcfg10 (F := F)).Adm) (c : Dev nD) : ℕ → Vec F S2000x128 .f32
  | 0 => stepN10 V a c 0 k10_pay1
  | n + 1 => if (n + 1) % 293 = 0 then stepN10 V a c (n + 1) k10_pay1 else stepN10 V a c (n + 1) (sAfter10 a c n)

theorem sAfter10_reset (a : (pcfg10 (F := F)).Adm) (c : Dev nD) (n : ℕ) (h : n % 293 = 0) :
    sAfter10 V a c n = stepN10 V a c n k10_pay1 := by
  cases n with
  | zero => rfl
  | succ n => exact if_pos h
theorem sAfter10_step (a : (pcfg10 (F := F)).Adm) (c : Dev nD) (n : ℕ) (h : ¬ n % 293 = 0) :
    sAfter10 V a c n = stepN10 V a c n (sAfter10 V a c (n - 1)) := by
  cases n with
  | zero => exact absurd (Nat.zero_mod _) h
  | succ n => exact if_neg h
theorem stepN10_at (a : (pcfg10 (F := F)).Adm) (c : Dev nD) (t : Fin (cfg10 a).N) (s : Vec F S2000x128 .f32) :
    stepN10 V a c t.val s = step10 V a c t s := dif_pos t.isLt
set_option maxHeartbeats 4000000 in
theorem prefHeld10_eq (c : Dev nD) (v : pre10.Contents (Elt F)) :
    (Pipeline.prefHeld (Ix := Unit) (Name := ℕ) (U := UR sig nD τ) (Lvl := ℕ) pre10 c (fun _ => fullShare) v : sProp 𝕄)
      = iprop(tbPt10 c tbM10_0 (v 0) ∗ tbPt10 c tbM10_1 (v 1)) := by
  unfold Pipeline.prefHeld
  rw [show (Finset.univ : Finset (Fin 2)) = insert (0 : Fin 2) {(1 : Fin 2)} from by decide,
    bigSep_insert (by decide), bigSep_singleton]
  rfl

def Φ10 (a : (pcfg10 (F := F)).Adm) (c : Dev nD) (n : ℕ) : sProp 𝕄 :=
  iprop((∃ r, prngReg c r) ∗ tbPt10 c tbM10_0 (a.1 0) ∗ tbPt10 c tbM10_1 (a.1 1)
    ∗ Pipeline.scopedRestBut (Ix := Unit) (Name := ℕ) (U := UR sig nD τ) (Lvl := ℕ) (Val := Elt F) spec10 c [cc10_scratch0]
    ∗ (∃ X, owns (c : Thread nD τ) scM10_0 fullShare X ∗ ⌜¬ n % 293 = 0 → X = sAfter10 V a c (n - 1)⌝))

def dat10 (a : (pcfg10 (F := F)).Adm) (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => sAfter10 V a c t.val
  Φ t := Φ10 V a c t.val
  q _ := fullShare
  owed _ := 0

theorem A_eq10 (a : (pcfg10 (F := F)).Adm) (c : Dev nD) (w : Fin (cfg10 a).W) : (dat10 V a c).A w = V c (Pipeline.arrRef spec10 w) := by
  dsimp only [dat10]
theorem after10_0 (a : (pcfg10 (F := F)).Adm) (c : Dev nD) (t : Fin (cfg10 a).N) : (dat10 V a c).after 0 t = iblk10 V a c 0 t := by dsimp only [dat10]; try rfl
theorem after10_1 (a : (pcfg10 (F := F)).Adm) (c : Dev nD) (t : Fin (cfg10 a).N) : (dat10 V a c).after 1 t = iblk10 V a c 1 t := by dsimp only [dat10]; try rfl
theorem after10_2 (a : (pcfg10 (F := F)).Adm) (c : Dev nD) (t : Fin (cfg10 a).N) : (dat10 V a c).after 2 t = sAfter10 V a c t.val := by dsimp only [dat10]; try rfl
theorem before10_0 (a : (pcfg10 (F := F)).Adm) (c : Dev nD) (t : Fin (cfg10 a).N) (d) : (dat10 V a c).before 0 t d = iblk10 V a c 0 t :=
  ((dat10 V a c).before_in_eq_fetched 0 rfl (fun _ => rfl) (fun _ _ _ => rfl) (fun _ => rfl) t d).trans rfl
theorem before10_1 (a : (pcfg10 (F := F)).Adm) (c : Dev nD) (t : Fin (cfg10 a).N) (d) : (dat10 V a c).before 1 t d = iblk10 V a c 1 t :=
  ((dat10 V a c).before_in_eq_fetched 1 rfl (fun _ => rfl) (fun _ _ _ => rfl) (fun _ => rfl) t d).trans rfl

theorem hin10 (a : (pcfg10 (F := F)).Adm) (c : Dev nD) :
    iprop((∃ r, prngReg c r) ∗ Pipeline.prefHeld (Ix := Unit) (Name := ℕ) (U := UR sig nD τ) (Lvl := ℕ) pre10 c (fun _ => fullShare) a.1
        ∗ Pipeline.scopedRest (Ix := Unit) (Name := ℕ) (U := UR sig nD τ) (Lvl := ℕ) (Val := Elt F) spec10 c)
      ⊢ (dat10 V a c).Φ 0 := by
  rw [show (dat10 V a c).Φ 0 = Φ10 V a c 0 from rfl, prefHeld10_eq, scopedRest10_split]; unfold Φ10
  iintro ⟨Hr, ⟨HT0, HT1⟩, ⟨%f, Hs⟩, Hrest⟩
  iframe Hr HT0 HT1 Hrest
  iexists f; isplitl [Hs]
  · simp only [scM10_0, owns_whole]; iexact Hs
  · ipureintro; intro h; exact absurd (Nat.zero_mod 293) h

theorem hout10 (a : (pcfg10 (F := F)).Adm) (c : Dev nD) :
    (dat10 V a c).Φ (Fin.last (cfg10 a).N)
      ⊢ iprop(iprop((∃ r, prngReg c r) ∗ Pipeline.prefHeld (Ix := Unit) (Name := ℕ) (U := UR sig nD τ) (Lvl := ℕ) pre10 c (fun _ => fullShare) a.1)
          ∗ Pipeline.scopedRest (Ix := Unit) (Name := ℕ) (U := UR sig nD τ) (Lvl := ℕ) (Val := Elt F) spec10 c) := by
  rw [show (dat10 V a c).Φ (Fin.last (cfg10 a).N) = Φ10 V a c (cfg10 a).N from rfl, prefHeld10_eq, scopedRest10_split]; unfold Φ10
  iintro ⟨Hr, HT0, HT1, Hrest, ⟨%X, Hs, -⟩⟩
  iframe Hr HT0 HT1 Hrest
  iexists X; simp only [scM10_0, owns_whole]; iexact Hs

end Cert.KernelIdeal.Hand

end
-- ==== Proof.KI.Scatter10Runs.lean ====
import proofs.«411563_j39152921870698_3_alg».proof.Proof.KI.Scatter10Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid10.Coords)
    (arg4 : Memref sig .tc .vmem S2048x128 .bf16) (harg4 : arg4.IsWhole) (arg5 : Memref sig .tc .vmem S1x2048 .i32) (harg5 : arg5.IsWhole)
    (arg6 : Memref sig .tc .vmem S2000x128 .f32) (harg6 : arg6.IsWhole)
    (x0 : Vec F S2048x128 .bf16) (x1 : Vec F S1x2048 .i32) (d2 s : Vec F S2000x128 .f32)
    (xt0 : TbBuf10 (F := F) c tbM10_0) (xt1 : TbBuf10 (F := F) c tbM10_1)

-- The scratch after the body: zeroed where the first conditional holds, then the one-hot product added where the word condition holds.
def scr10 : Vec F S2000x128 .f32 :=
  if cond10_2 i (word10 c tbM10_0 i xt0) (word10 c tbM10_1 i xt1) then k10_pay2 i x1 x0 (if cond10_1 i then k10_pay1 else s)
  else if cond10_1 i then k10_pay1 else s

set_option maxHeartbeats 4000000 in
-- One run of the body, by cases on the three conditionals: inputs and tables unchanged, the scratch at scr10, the output operand at scr10 where the third conditional holds.
theorem run10 (hne : cond10_1 i → ¬cond10_3 i) (E : Set ℕ) (K : PUnit → sProp 𝕄) :
    iprop(owns (c : Thread nD τ) arg4 fullShare x0 ∗ owns (c : Thread nD τ) arg5 fullShare x1 ∗ owns (c : Thread nD τ) arg6 fullShare d2
        ∗ owns (c : Thread nD τ) scM10_0 fullShare s ∗ tbPt10 c tbM10_0 xt0 ∗ tbPt10 c tbM10_1 xt1
        ∗ (iprop(owns (c : Thread nD τ) arg4 fullShare x0 ∗ owns (c : Thread nD τ) arg5 fullShare x1
            ∗ owns (c : Thread nD τ) arg6 fullShare (if cond10_3 i then scr10 c i x0 x1 s xt0 xt1 else d2)
            ∗ owns (c : Thread nD τ) scM10_0 fullShare (scr10 c i x0 x1 s xt0 xt1) ∗ tbPt10 c tbM10_0 xt0 ∗ tbPt10 c tbM10_1 xt1) -∗ K ⟨⟩))
      ⊢ wp frame (wpE (defs₀ (F := F)) Variants.none c none) E (cc10__scatter_kernel_nocnt i tbM10_0 htbM10_0 tbM10_1 htbM10_1 arg4 harg4 arg5 harg5 arg6 harg6 scM10_0 hscM10_0) K := by
  unfold scr10
  by_cases h1 : cond10_1 i <;> by_cases h2 : cond10_2 i (word10 c tbM10_0 i xt0) (word10 c tbM10_1 i xt1) <;> by_cases h3 : cond10_3 i <;>
    first | exact absurd h3 (hne h1) | skip
  all_goals
    first | rw [if_pos h3] | rw [if_neg h3]
    first | rw [if_pos h2] | rw [if_neg h2]
    first | rw [if_pos h1] | rw [if_neg h1]
    simp only [cc10__scatter_kernel_nocnt_eq_skeleton]; unfold cc10__scatter_kernel_nocnt_skel
    unfold owns
    iintro ⟨⟨%f0, %hf0, H0⟩, ⟨%f1, %hf1, H1⟩, ⟨%f2, %hf2, H2⟩, ⟨%fs, %hfs, HS⟩, HT0, HT1, Hk⟩
    obtain rfl := harg4.eq_unread hf0; obtain rfl := harg5.eq_unread hf1; obtain rfl := harg6.eq_unread hf2; obtain rfl := hscM10_0.eq_unread hfs
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      first
        | (have _ : ¬cond10_3 i := h3; exact harg6.read_unread _)
        | (refine (read_writes_whole10 (S := S2000x128) _ _ hz2_10 _ _ _).trans ?_
           try sl_unfold_words
           try simp only [View.readCov_unit_zero (S := S2000x128) _ hz2_10, View.readAt_eq_ld, Memref.IsWhole.read_unread, View.ld_unit_zero (S := S2000x128) hz2_10, View.ld_unit_zero (S := S2048x128) hz2_10, View.ld_unit_zero (S := S1x2048) hz2_10]
           all_goals first | (have _ : ¬cond10_2 i _ _ := h2; exact hfs) | exact congrArg (k10_pay2 i x1 x0) hfs)
    isplitl [HS]
    · iexists _; isplitr; swap; · iexact HS
      ipureintro
      first
        | (have _ : ¬cond10_2 i _ _ := h2; first | (have _ : ¬cond10_1 i := h1; exact hscM10_0.read_unread _) | exact read_writes_whole10 (S := S2000x128) _ _ hz2_10 _ _ _)
        | (refine (read_writes_whole10 (S := S2000x128) _ _ hz2_10 _ _ _).trans ?_
           try sl_unfold_words
           try simp only [View.readCov_unit_zero (S := S2000x128) _ hz2_10, View.readAt_eq_ld, Memref.IsWhole.read_unread, View.ld_unit_zero (S := S2000x128) hz2_10, View.ld_unit_zero (S := S2048x128) hz2_10, View.ld_unit_zero (S := S1x2048) hz2_10]
           all_goals first
             | (have _ : ¬cond10_1 i := h1; exact congrArg (k10_pay2 i x1 x0) hfs)
             | exact congrArg (k10_pay2 i x1 x0) (View.readCov_unit_zero (S := S2000x128) _ hz2_10 _ _))
    isplitl [HT0]; · iexact HT0
    iexact HT1

end Run

end Cert.KernelIdeal.Hand

end
-- ==== Proof.KI.Scatter10.lean ====
import proofs.«411563_j39152921870698_3_alg».proof.Proof.KI.Scatter10Dat
import proofs.«411563_j39152921870698_3_alg».proof.Proof.KI.Scatter10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section BodyS
variable (V : (c : Dev nD) → (b : Ref sig .tc) → Buf (Elt F) ((c : Thread nD τ).loc b))

-- From what the invariant says the scratch held before point t, the body's result there is what the accumulation says.
theorem sAfter10_eq (a : (pcfg10 (F := F)).Adm) (c : Dev nD) (t : Fin (cfg10 a).N) (X : Vec F S2000x128 .f32)
    (hX : ¬ t.val % 293 = 0 → X = sAfter10 V a c (t.val - 1)) :
    scr10 c (grid10.coords t) (msgBlk10 V a c t) (idxBlk10 V a c t) X (a.1 0) (a.1 1) = sAfter10 V a c t.val := by
  unfold scr10
  by_cases h0 : t.val % 293 = 0
  · rw [sAfter10_reset V a c t.val h0, stepN10_at, if_pos ((hcond10_1 t).mpr h0)]; rfl
  · rw [sAfter10_step V a c t.val h0, stepN10_at, if_neg (mt (hcond10_1 t).mp h0), hX h0]; rfl

-- What the obligation asks of the output operand at point t follows from its contents after the body, in both cases of the third conditional.
theorem leaves10 (a : (pcfg10 (F := F)).Adm) (c : Dev nD) (t : Fin (cfg10 a).N) (d) (D : Vec F S2000x128 .f32) (hD : D = (dat10 V a c).before 2 t d) :
    owns (c : Thread nD τ) (st10_2 a t) fullShare (if cond10_3 (grid10.coords t) then sAfter10 V a c t.val else D) ⊢ (dat10 V a c).leavesExact 2 t := by
  by_cases h3 : t.val % 293 = 292
  · have hi : (cfg10 a).idle 2 ((cfg10 a).grid.coords t) = false := by rw [idle10_2, decide_eq_true h3]; rfl
    rw [if_pos ((hcond10_3 t).mpr h3)]; unfold Dat.leavesExact; rw [hi]; dsimp only; rw [after10_2]; exact .rfl
  · have hi : (cfg10 a).idle 2 ((cfg10 a).grid.coords t) = true := by rw [idle10_2, decide_eq_false h3]; rfl
    rw [if_neg (mt (hcond10_3 t).mp h3), (dat10 V a c).leavesExact_idle 2 t hi (Bool.eq_false_iff.mpr fun h => h3 ((flush10_2 a t).mp h))]
    subst hD; iintro H; iexists d; iexact H

def bodyPre10 (a : (pcfg10 (F := F)).Adm) (c : Dev nD) (t : Fin (cfg10 a).N) : sProp 𝕄 :=
  iprop((dat10 V a c).Φ t.castSucc ∗ (dat10 V a c).owesAt () t.castSucc
    ∗ (∃ d, owns (c : Thread nD τ) (st10_0 a t) fullShare ((dat10 V a c).before 0 t d))
    ∗ (∃ d, owns (c : Thread nD τ) (st10_1 a t) fullShare ((dat10 V a c).before 1 t d))
    ∗ (∃ d, owns (c : Thread nD τ) (st10_2 a t) fullShare ((dat10 V a c).before 2 t d)))
def bodyPost10 (a : (pcfg10 (F := F)).Adm) (c : Dev nD) (t : Fin (cfg10 a).N) : sProp 𝕄 :=
  iprop((dat10 V a c).Φ t.succ ∗ (dat10 V a c).owesAt () t.succ
    ∗ owns (c : Thread nD τ) (st10_0 a t) fullShare ((dat10 V a c).after 0 t)
    ∗ owns (c : Thread nD τ) (st10_1 a t) fullShare ((dat10 V a c).after 1 t)
    ∗ (dat10 V a c).leavesExact 2 t)

set_option maxHeartbeats 1600000 in
-- The invariant and the operands' contents at point t give the body's precondition; its postcondition gives them back at the next point.
theorem sound_body10 (a : (pcfg10 (F := F)).Adm) (c : Dev nD) (t : Fin (cfg10 a).N) :
    bodyPre10 V a c t ⊢ wp frame (wpE (defs₀ (F := F)) Variants.none c none) Set.univ (bodyAt10 a t) (fun _ => bodyPost10 V a c t) := by
  unfold bodyPre10 bodyPost10
  simp only [before10_0, before10_1]
  rw [show (dat10 V a c).owesAt () t.succ = (dat10 V a c).owesAt () t.castSucc from rfl,
    show (dat10 V a c).Φ t.castSucc = Φ10 V a c t.castSucc.val from rfl, show (dat10 V a c).Φ t.succ = Φ10 V a c t.succ.val from rfl,
    after10_0, after10_1, Fin.coe_castSucc, Fin.val_succ]
  unfold Φ10
  iintro ⟨⟨Hr, HT0, HT1, Hrest, ⟨%X, HS, %hX⟩⟩, Ho, ⟨%d0, H0⟩, ⟨%d1, H1⟩, ⟨%d2, H2⟩⟩
  iapply (run10 c (grid10.coords t) (st10_0 a t) (hst10_0 a t) (st10_1 a t) (hst10_1 a t) (st10_2 a t) (hst10_2 a t) (msgBlk10 V a c t) (idxBlk10 V a c t)
    ((dat10 V a c).before 2 t d2) X (a.1 0) (a.1 1) (fun h1 h3 => by have := (hcond10_1 t).mp h1; have := (hcond10_3 t).mp h3; omega) Set.univ _)
  rw [sAfter10_eq V a c t X hX]
  iframe H0 H1 H2 HS HT0 HT1
  iintro ⟨H0, H1, H2, HS, HT0, HT1⟩
  iframe Hr HT0 HT1 Hrest Ho H0 H1
  isplitl [HS]
  · iexists _; iframe HS; ipureintro; intro _; rw [Nat.add_sub_cancel]
  iapply (leaves10 V a c t d2 _ rfl); iexact H2

theorem body_obligation10 (a : (pcfg10 (F := F)).Adm) (c : Dev nD) :
    BodyObligation (dat10 (F := F) V a c) (defs₀ (F := F)) Variants.none () Set.univ := fun t => by
  rw [bigSep_W10, bigSep_W10]
  exact sound_body10 V a c t

end BodyS

end Cert.KernelIdeal.Hand

end
-- ==== Proof.KI.Linear11.lean ====
import proofs.«411563_j39152921870698_3_alg».proof.Proof.Gen.KernelIdeal.Launch
import proofs.«411563_j39152921870698_3_alg».proof.Proof.Gen.KernelIdeal.Skeleton
import proofs.«411563_j39152921870698_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem uncut11_0 : ∀ (t : Fin cfg11.N) (a : Fin 2), (cfg11.win 0).clip (cfg11.grid.coords t) a = none :=
  (by decide +kernel : ∀ (t : Fin grid11.N) (a : Fin 2), win11_0.clip (grid11.coords t) a = none)
theorem uncut11_1 : ∀ (t : Fin cfg11.N) (a : Fin 2), (cfg11.win 1).clip (cfg11.grid.coords t) a = none :=
  (by decide +kernel : ∀ (t : Fin grid11.N) (a : Fin 2), win11_1.clip (grid11.coords t) a = none)

def sblk11_0 (c : Dev nD) (t : Fin cfg11.N) : Vec F S5000x128 .f32 :=
  (cfg11.win 0).fill (cfg11.grid.coords t) (fun _ => Scalar.ofBits .f32 0#32) (iblk11 V c 0 t)
def sblk11_1 (c : Dev nD) (t : Fin cfg11.N) : Vec F S5000x1 .f32 :=
  (cfg11.win 1).fill (cfg11.grid.coords t) (fun _ => Scalar.ofBits .f32 0#32) (iblk11 V c 1 t)

abbrev r11_0 : Rect S5000x1 := Rect.unit (s := S5000x1) ![0, 0] S5000x1.size inb_S5000x1_S5000x1_0_0
abbrev r11_1 : Rect S5000x128 := Rect.unit (s := S5000x128) ![0, 0] S5000x128.size inb_S5000x128_S5000x128_0_0
abbrev r11_2 : Rect S128x128 := Rect.unit (s := S128x128) ![0, 0] S128x128.size inb_S128x128_S128x128_0_0
abbrev r11_3 : Rect S128 := Rect.unit (s := S128) ![0] S128.size inb_S128_S128_0

def out11_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨r11_1, k11_pay1 (View.ld x1 r11_0) (View.ld x0 r11_1) (View.ld x2 r11_1) (View.ld x3 r11_2) (View.ld x5 r11_2) (View.ld x4 r11_3)⟩]

def dat11 (c : Dev nD) : Dat τ (Elt F) Unit ℕ (UR sig nD τ) ℕ cfg11 c where
  A w := V c (Pipeline.arrRef spec11 w)
  after w t := match w with
    | ⟨0, _⟩ => sblk11_0 V c t
    | ⟨1, _⟩ => sblk11_1 V c t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (sblk11_0 V c t) (sblk11_1 V c t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_6 (c : Dev nD) (t : Fin cfg11.N) : (dat11 V c).after 6 t
    = out11_6 (sblk11_0 V c t) (sblk11_1 V c t) (iblk11 V c 2 t) (iblk11 V c 3 t) (iblk11 V c 4 t) (iblk11 V c 5 t) := by dsimp only [dat11]

theorem before11_0 (c : Dev nD) (t : Fin cfg11.N) (d) : (dat11 V c).before 0 t d = sblk11_0 V c t := by
  unfold Dat.before; rw [if_pos (fetch11_0 t)]
  exact (dat11 V c).fetched_of_clip_none 0 t (uncut11_0 t) d _
theorem before11_1 (c : Dev nD) (t : Fin cfg11.N) (d) : (dat11 V c).before 1 t d = sblk11_1 V c t := by
  unfold Dat.before; rw [if_pos (fetch11_1 t)]
  exact (dat11 V c).fetched_of_clip_none 1 t (uncut11_1 t) d _

theorem before11_2 (c : Dev nD) (t : Fin cfg11.N) (d) : (dat11 V c).before 2 t d = iblk11 V c 2 t :=
  (dat11 V c).before_in_eq_fetched 2 rfl (fun _ => rfl) (fun _ _ _ => rfl) (fun _ => rfl) t d
theorem before11_3 (c : Dev nD) (t : Fin cfg11.N) (d) : (dat11 V c).before 3 t d = iblk11 V c 3 t :=
  (dat11 V c).before_in_eq_fetched 3 rfl (fun _ => rfl) (fun _ _ _ => rfl) (fun _ => rfl) t d
theorem before11_4 (c : Dev nD) (t : Fin cfg11.N) (d) : (dat11 V c).before 4 t d = iblk11 V c 4 t :=
  (dat11 V c).before_in_eq_fetched 4 rfl (fun _ => rfl) (fun _ _ _ => rfl) (fun _ => rfl) t d
theorem before11_5 (c : Dev nD) (t : Fin cfg11.N) (d) : (dat11 V c).before 5 t d = iblk11 V c 5 t :=
  (dat11 V c).before_in_eq_fetched 5 rfl (fun _ => rfl) (fun _ _ _ => rfl) (fun _ => rfl) t d

set_option maxHeartbeats 1000000 in
theorem body_obligation11 (c : Dev nD) : BodyObligation (dat11 (F := F) V c) (defs₀ (F := F)) Variants.none () Set.univ := fun t => by
  rw [bigSep_W11, bigSep_W11]
  dsimp only
  simp only [before11_0, before11_1, before11_2, before11_3, before11_4, before11_5]
  rw [show (dat11 V c).Φ t.succ = (dat11 V c).Φ t.castSucc from rfl,
    show (dat11 V c).owesAt () t.succ = (dat11 V c).owesAt () t.castSucc from rfl]
  dsimp only [dat11]
  show _ ⊢ wp _ _ _ (bodyAt11 t) _
  unfold bodyAt11
  generalize sblk11_0 V c t = x0, sblk11_1 V c t = x1, iblk11 V c 2 t = x2, iblk11 V c 3 t = x3, iblk11 V c 4 t = x4, iblk11 V c 5 t = x5
  simp only [cc11__linear_kernel_eq_skeleton]; unfold cc11__linear_kernel_skel
  dsimp only
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x128.size (by rfl))

end Cert.KernelIdeal.Hand
-- ==== Proof.KI.RunAdapt.lean ====
import proofs.«411563_j39152921870698_3_alg».proof.Proof.KI.Gather0
import proofs.«411563_j39152921870698_3_alg».proof.Proof.KI.ScatterCnt1
import proofs.«411563_j39152921870698_3_alg».proof.Proof.KI.Linear2
import proofs.«411563_j39152921870698_3_alg».proof.Proof.KI.Gather3
import proofs.«411563_j39152921870698_3_alg».proof.Proof.KI.ScatterCnt4
import proofs.«411563_j39152921870698_3_alg».proof.Proof.KI.Linear5
import proofs.«411563_j39152921870698_3_alg».proof.Proof.KI.Gather6
import proofs.«411563_j39152921870698_3_alg».proof.Proof.KI.Scatter7
import proofs.«411563_j39152921870698_3_alg».proof.Proof.KI.Linear8
import proofs.«411563_j39152921870698_3_alg».proof.Proof.KI.Gather9
import proofs.«411563_j39152921870698_3_alg».proof.Proof.KI.Scatter10
import proofs.«411563_j39152921870698_3_alg».proof.Proof.KI.Linear11
import proofs.«411563_j39152921870698_3_alg».proof.Proof.LibRun

set_option maxRecDepth 1648

noncomputable section

namespace Cert.KernelIdeal.Hand

open Cert.KernelIdeal Cert.KernelIdeal.Gen Cert.LibRun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Adapt
variable (V : (c : Dev nD) → (b : Ref sig .tc) → Buf (Elt F) ((c : Thread nD τ).loc b))

abbrev rdat0 (c : Dev nD) : Dat τ (Elt F) Unit ℕ (UR sig nD τ) ℕ cfg0 c := dat0 V c
theorem rA_eq0 (c : Dev nD) (w : Fin cfg0.W) : (rdat0 V c).A w = V c (Pipeline.arrRef spec0 w) := A_eq0 V c w
theorem rq_eq0 (c : Dev nD) (w : Fin cfg0.W) : (rdat0 V c).q w = fullShare := q_eq0 V c w
theorem rowed_eq0 (c : Dev nD) (t : Fin (cfg0.N + 1)) : (rdat0 V c).owed t = 0 := owed_eq0 V c t
theorem rbody0 (c : Dev nD) : BodyObligation (rdat0 (F := F) V c) (defs₀ (F := F)) Variants.none () Set.univ := body_obligation0 V c
theorem rhin0 (c : Dev nD) : (iprop((∃ r, prngReg c r) ∗ Pipeline.prefHeld (cfg0.toPCfg (Val := Elt F)).pre c (fun _ => fullShare) (cfg0.toPCfg_adm (Val := Elt F)).1 ∗ Pipeline.scopedRest spec0 c) : sProp 𝕄) ⊢ (rdat0 V c).Φ 0 := drop_mid (hin0 V c)
theorem rhout0 (c : Dev nD) : (rdat0 V c).Φ (Fin.last _) ⊢ (iprop((∃ r, prngReg c r) ∗ Pipeline.ownSems0 (fun k : PEmpty => k.elim) c ∗ Pipeline.scopedRest spec0 c) : sProp 𝕄) := add_noSems (hout0 V c)

abbrev rdat1 (a : (pcfg1 (F := F)).Adm) (c : Dev nD) : Dat τ (Elt F) Unit ℕ (UR sig nD τ) ℕ (cfg1 a) c := ScatterCnt1.dat1 V a c
theorem rA_eq1 (a : (pcfg1 (F := F)).Adm) (c : Dev nD) (w : Fin (cfg1 a).W) : (rdat1 V a c).A w = V c (Pipeline.arrRef spec1 w) := ScatterCnt1.A_eq1 V a c w
theorem rq_eq1 (a : (pcfg1 (F := F)).Adm) (c : Dev nD) (w : Fin (cfg1 a).W) : (rdat1 V a c).q w = fullShare := rfl
theorem rowed_eq1 (a : (pcfg1 (F := F)).Adm) (c : Dev nD) (t : Fin ((cfg1 a).N + 1)) : (rdat1 V a c).owed t = 0 := rfl
theorem rbody1 (a : (pcfg1 (F := F)).Adm) (c : Dev nD) : BodyObligation (rdat1 (F := F) V a c) (defs₀ (F := F)) Variants.none () Set.univ := ScatterCnt1.body_obligation1 V a c
theorem rhin1 (a : (pcfg1 (F := F)).Adm) (c : Dev nD) : (iprop((∃ r, prngReg c r) ∗ Pipeline.prefHeld pre1 c (fun _ => fullShare) a.1 ∗ Pipeline.scopedRest spec1 c) : sProp 𝕄) ⊢ (rdat1 V a c).Φ 0 := ScatterCnt1.hin1 V a c
theorem rhout1 (a : (pcfg1 (F := F)).Adm) (c : Dev nD) : (rdat1 V a c).Φ (Fin.last _) ⊢ (iprop(((∃ r, prngReg c r) ∗ Pipeline.prefHeld pre1 c (fun _ => fullShare) a.1) ∗ Pipeline.ownSems0 (fun k : PEmpty => k.elim) c ∗ Pipeline.scopedRest spec1 c) : sProp 𝕄) := ScatterCnt1.hout1 V a c

abbrev rdat2 (c : Dev nD) : Dat τ (Elt F) Unit ℕ (UR sig nD τ) ℕ cfg2 c := dat2 V c
theorem rA_eq2 (c : Dev nD) (w : Fin cfg2.W) : (rdat2 V c).A w = V c (Pipeline.arrRef spec2 w) := A_eq2 V c w
theorem rq_eq2 (c : Dev nD) (w : Fin cfg2.W) : (rdat2 V c).q w = fullShare := rfl
theorem rowed_eq2 (c : Dev nD) (t : Fin (cfg2.N + 1)) : (rdat2 V c).owed t = 0 := rfl
theorem rbody2 (c : Dev nD) : BodyObligation (rdat2 (F := F) V c) (defs₀ (F := F)) Variants.none () Set.univ := body_obligation2 V c
theorem rhin2 (c : Dev nD) : (iprop((∃ r, prngReg c r) ∗ Pipeline.prefHeld (cfg2.toPCfg (Val := Elt F)).pre c (fun _ => fullShare) (cfg2.toPCfg_adm (Val := Elt F)).1 ∗ Pipeline.scopedRest spec2 c) : sProp 𝕄) ⊢ (rdat2 V c).Φ 0 := ΦA_in spec2 c
theorem rhout2 (c : Dev nD) : (rdat2 V c).Φ (Fin.last _) ⊢ (iprop((∃ r, prngReg c r) ∗ Pipeline.ownSems0 (fun k : PEmpty => k.elim) c ∗ Pipeline.scopedRest spec2 c) : sProp 𝕄) := ΦA_out spec2 c

abbrev rdat3 (c : Dev nD) : Dat τ (Elt F) Unit ℕ (UR sig nD τ) ℕ cfg3 c := dat3 V c
theorem rA_eq3 (c : Dev nD) (w : Fin cfg3.W) : (rdat3 V c).A w = V c (Pipeline.arrRef spec3 w) := A_eq3 V c w
theorem rq_eq3 (c : Dev nD) (w : Fin cfg3.W) : (rdat3 V c).q w = fullShare := q_eq3 V c w
theorem rowed_eq3 (c : Dev nD) (t : Fin (cfg3.N + 1)) : (rdat3 V c).owed t = 0 := owed_eq3 V c t
theorem rbody3 (c : Dev nD) : BodyObligation (rdat3 (F := F) V c) (defs₀ (F := F)) Variants.none () Set.univ := body_obligation3 V c
theorem rhin3 (c : Dev nD) : (iprop((∃ r, prngReg c r) ∗ Pipeline.prefHeld (cfg3.toPCfg (Val := Elt F)).pre c (fun _ => fullShare) (cfg3.toPCfg_adm (Val := Elt F)).1 ∗ Pipeline.scopedRest spec3 c) : sProp 𝕄) ⊢ (rdat3 V c).Φ 0 := drop_mid (hin3 V c)
theorem rhout3 (c : Dev nD) : (rdat3 V c).Φ (Fin.last _) ⊢ (iprop((∃ r, prngReg c r) ∗ Pipeline.ownSems0 (fun k : PEmpty => k.elim) c ∗ Pipeline.scopedRest spec3 c) : sProp 𝕄) := add_noSems (hout3 V c)

abbrev rdat4 (a : (pcfg4 (F := F)).Adm) (c : Dev nD) : Dat τ (Elt F) Unit ℕ (UR sig nD τ) ℕ (cfg4 a) c := ScatterCnt4.dat4 V a c
theorem rA_eq4 (a : (pcfg4 (F := F)).Adm) (c : Dev nD) (w : Fin (cfg4 a).W) : (rdat4 V a c).A w = V c (Pipeline.arrRef spec4 w) := ScatterCnt4.A_eq4 V a c w
theorem rq_eq4 (a : (pcfg4 (F := F)).Adm) (c : Dev nD) (w : Fin (cfg4 a).W) : (rdat4 V a c).q w = fullShare := rfl
theorem rowed_eq4 (a : (pcfg4 (F := F)).Adm) (c : Dev nD) (t : Fin ((cfg4 a).N + 1)) : (rdat4 V a c).owed t = 0 := rfl
theorem rbody4 (a : (pcfg4 (F := F)).Adm) (c : Dev nD) : BodyObligation (rdat4 (F := F) V a c) (defs₀ (F := F)) Variants.none () Set.univ := ScatterCnt4.body_obligation4 V a c
theorem rhin4 (a : (pcfg4 (F := F)).Adm) (c : Dev nD) : (iprop((∃ r, prngReg c r) ∗ Pipeline.prefHeld pre4 c (fun _ => fullShare) a.1 ∗ Pipeline.scopedRest spec4 c) : sProp 𝕄) ⊢ (rdat4 V a c).Φ 0 := ScatterCnt4.hin4 V a c
theorem rhout4 (a : (pcfg4 (F := F)).Adm) (c : Dev nD) : (rdat4 V a c).Φ (Fin.last _) ⊢ (iprop(((∃ r, prngReg c r) ∗ Pipeline.prefHeld pre4 c (fun _ => fullShare) a.1) ∗ Pipeline.ownSems0 (fun k : PEmpty => k.elim) c ∗ Pipeline.scopedRest spec4 c) : sProp 𝕄) := ScatterCnt4.hout4 V a c

abbrev rdat5 (c : Dev nD) : Dat τ (Elt F) Unit ℕ (UR sig nD τ) ℕ cfg5 c := dat5 V c
theorem rA_eq5 (c : Dev nD) (w : Fin cfg5.W) : (rdat5 V c).A w = V c (Pipeline.arrRef spec5 w) := A_eq5 V c w
theorem rq_eq5 (c : Dev nD) (w : Fin cfg5.W) : (rdat5 V c).q w = fullShare := rfl
theorem rowed_eq5 (c : Dev nD) (t : Fin (cfg5.N + 1)) : (rdat5 V c).owed t = 0 := rfl
theorem rbody5 (c : Dev nD) : BodyObligation (rdat5 (F := F) V c) (defs₀ (F := F)) Variants.none () Set.univ := body_obligation5 V c
theorem rhin5 (c : Dev nD) : (iprop((∃ r, prngReg c r) ∗ Pipeline.prefHeld (cfg5.toPCfg (Val := Elt F)).pre c (fun _ => fullShare) (cfg5.toPCfg_adm (Val := Elt F)).1 ∗ Pipeline.scopedRest spec5 c) : sProp 𝕄) ⊢ (rdat5 V c).Φ 0 := ΦA_in spec5 c
theorem rhout5 (c : Dev nD) : (rdat5 V c).Φ (Fin.last _) ⊢ (iprop((∃ r, prngReg c r) ∗ Pipeline.ownSems0 (fun k : PEmpty => k.elim) c ∗ Pipeline.scopedRest spec5 c) : sProp 𝕄) := ΦA_out spec5 c

abbrev rdat6 (c : Dev nD) : Dat τ (Elt F) Unit ℕ (UR sig nD τ) ℕ cfg6 c := dat6 V c
theorem rA_eq6 (c : Dev nD) (w : Fin cfg6.W) : (rdat6 V c).A w = V c (Pipeline.arrRef spec6 w) := A_eq6 V c w
theorem rq_eq6 (c : Dev nD) (w : Fin cfg6.W) : (rdat6 V c).q w = fullShare := q_eq6 V c w
theorem rowed_eq6 (c : Dev nD) (t : Fin (cfg6.N + 1)) : (rdat6 V c).owed t = 0 := owed_eq6 V c t
theorem rbody6 (c : Dev nD) : BodyObligation (rdat6 (F := F) V c) (defs₀ (F := F)) Variants.none () Set.univ := body_obligation6 V c
theorem rhin6 (c : Dev nD) : (iprop((∃ r, prngReg c r) ∗ Pipeline.prefHeld (cfg6.toPCfg (Val := Elt F)).pre c (fun _ => fullShare) (cfg6.toPCfg_adm (Val := Elt F)).1 ∗ Pipeline.scopedRest spec6 c) : sProp 𝕄) ⊢ (rdat6 V c).Φ 0 := drop_mid (hin6 V c)
theorem rhout6 (c : Dev nD) : (rdat6 V c).Φ (Fin.last _) ⊢ (iprop((∃ r, prngReg c r) ∗ Pipeline.ownSems0 (fun k : PEmpty => k.elim) c ∗ Pipeline.scopedRest spec6 c) : sProp 𝕄) := add_noSems (hout6 V c)

abbrev rdat7 (a : (pcfg7 (F := F)).Adm) (c : Dev nD) : Dat τ (Elt F) Unit ℕ (UR sig nD τ) ℕ (cfg7 a) c := dat7 V a c
theorem rA_eq7 (a : (pcfg7 (F := F)).Adm) (c : Dev nD) (w : Fin (cfg7 a).W) : (rdat7 V a c).A w = V c (Pipeline.arrRef spec7 w) := A_eq7 V a c w
theorem rq_eq7 (a : (pcfg7 (F := F)).Adm) (c : Dev nD) (w : Fin (cfg7 a).W) : (rdat7 V a c).q w = fullShare := rfl
theorem rowed_eq7 (a : (pcfg7 (F := F)).Adm) (c : Dev nD) (t : Fin ((cfg7 a).N + 1)) : (rdat7 V a c).owed t = 0 := rfl
theorem rbody7 (a : (pcfg7 (F := F)).Adm) (c : Dev nD) : BodyObligation (rdat7 (F := F) V a c) (defs₀ (F := F)) Variants.none () Set.univ := body_obligation7 V a c
theorem rhin7 (a : (pcfg7 (F := F)).Adm) (c : Dev nD) : (iprop((∃ r, prngReg c r) ∗ Pipeline.prefHeld pre7 c (fun _ => fullShare) a.1 ∗ Pipeline.scopedRest spec7 c) : sProp 𝕄) ⊢ (rdat7 V a c).Φ 0 := hin7 V a c
theorem rhout7 (a : (pcfg7 (F := F)).Adm) (c : Dev nD) : (rdat7 V a c).Φ (Fin.last _) ⊢ (iprop(((∃ r, prngReg c r) ∗ Pipeline.prefHeld pre7 c (fun _ => fullShare) a.1) ∗ Pipeline.ownSems0 (fun k : PEmpty => k.elim) c ∗ Pipeline.scopedRest spec7 c) : sProp 𝕄) := add_noSems (hout7 V a c)

abbrev rdat8 (c : Dev nD) : Dat τ (Elt F) Unit ℕ (UR sig nD τ) ℕ cfg8 c := dat8 V c
theorem rA_eq8 (c : Dev nD) (w : Fin cfg8.W) : (rdat8 V c).A w = V c (Pipeline.arrRef spec8 w) := A_eq8 V c w
theorem rq_eq8 (c : Dev nD) (w : Fin cfg8.W) : (rdat8 V c).q w = fullShare := rfl
theorem rowed_eq8 (c : Dev nD) (t : Fin (cfg8.N + 1)) : (rdat8 V c).owed t = 0 := rfl
theorem rbody8 (c : Dev nD) : BodyObligation (rdat8 (F := F) V c) (defs₀ (F := F)) Variants.none () Set.univ := body_obligation8 V c
theorem rhin8 (c : Dev nD) : (iprop((∃ r, prngReg c r) ∗ Pipeline.prefHeld (cfg8.toPCfg (Val := Elt F)).pre c (fun _ => fullShare) (cfg8.toPCfg_adm (Val := Elt F)).1 ∗ Pipeline.scopedRest spec8 c) : sProp 𝕄) ⊢ (rdat8 V c).Φ 0 := ΦA_in spec8 c
theorem rhout8 (c : Dev nD) : (rdat8 V c).Φ (Fin.last _) ⊢ (iprop((∃ r, prngReg c r) ∗ Pipeline.ownSems0 (fun k : PEmpty => k.elim) c ∗ Pipeline.scopedRest spec8 c) : sProp 𝕄) := ΦA_out spec8 c

abbrev rdat9 (c : Dev nD) : Dat τ (Elt F) Unit ℕ (UR sig nD τ) ℕ cfg9 c := dat9 V c
theorem rA_eq9 (c : Dev nD) (w : Fin cfg9.W) : (rdat9 V c).A w = V c (Pipeline.arrRef spec9 w) := A_eq9 V c w
theorem rq_eq9 (c : Dev nD) (w : Fin cfg9.W) : (rdat9 V c).q w = fullShare := q_eq9 V c w
theorem rowed_eq9 (c : Dev nD) (t : Fin (cfg9.N + 1)) : (rdat9 V c).owed t = 0 := owed_eq9 V c t
theorem rbody9 (c : Dev nD) : BodyObligation (rdat9 (F := F) V c) (defs₀ (F := F)) Variants.none () Set.univ := body_obligation9 V c
theorem rhin9 (c : Dev nD) : (iprop((∃ r, prngReg c r) ∗ Pipeline.prefHeld (cfg9.toPCfg (Val := Elt F)).pre c (fun _ => fullShare) (cfg9.toPCfg_adm (Val := Elt F)).1 ∗ Pipeline.scopedRest spec9 c) : sProp 𝕄) ⊢ (rdat9 V c).Φ 0 := drop_mid (hin9 V c)
theorem rhout9 (c : Dev nD) : (rdat9 V c).Φ (Fin.last _) ⊢ (iprop((∃ r, prngReg c r) ∗ Pipeline.ownSems0 (fun k : PEmpty => k.elim) c ∗ Pipeline.scopedRest spec9 c) : sProp 𝕄) := add_noSems (hout9 V c)

abbrev rdat10 (a : (pcfg10 (F := F)).Adm) (c : Dev nD) : Dat τ (Elt F) Unit ℕ (UR sig nD τ) ℕ (cfg10 a) c := dat10 V a c
theorem rA_eq10 (a : (pcfg10 (F := F)).Adm) (c : Dev nD) (w : Fin (cfg10 a).W) : (rdat10 V a c).A w = V c (Pipeline.arrRef spec10 w) := A_eq10 V a c w
theorem rq_eq10 (a : (pcfg10 (F := F)).Adm) (c : Dev nD) (w : Fin (cfg10 a).W) : (rdat10 V a c).q w = fullShare := rfl
theorem rowed_eq10 (a : (pcfg10 (F := F)).Adm) (c : Dev nD) (t : Fin ((cfg10 a).N + 1)) : (rdat10 V a c).owed t = 0 := rfl
theorem rbody10 (a : (pcfg10 (F := F)).Adm) (c : Dev nD) : BodyObligation (rdat10 (F := F) V a c) (defs₀ (F := F)) Variants.none () Set.univ := body_obligation10 V a c
theorem rhin10 (a : (pcfg10 (F := F)).Adm) (c : Dev nD) : (iprop((∃ r, prngReg c r) ∗ Pipeline.prefHeld pre10 c (fun _ => fullShare) a.1 ∗ Pipeline.scopedRest spec10 c) : sProp 𝕄) ⊢ (rdat10 V a c).Φ 0 := hin10 V a c
theorem rhout10 (a : (pcfg10 (F := F)).Adm) (c : Dev nD) : (rdat10 V a c).Φ (Fin.last _) ⊢ (iprop(((∃ r, prngReg c r) ∗ Pipeline.prefHeld pre10 c (fun _ => fullShare) a.1) ∗ Pipeline.ownSems0 (fun k : PEmpty => k.elim) c ∗ Pipeline.scopedRest spec10 c) : sProp 𝕄) := add_noSems (hout10 V a c)

abbrev rdat11 (c : Dev nD) : Dat τ (Elt F) Unit ℕ (UR sig nD τ) ℕ cfg11 c := dat11 V c
theorem rA_eq11 (c : Dev nD) (w : Fin cfg11.W) : (rdat11 V c).A w = V c (Pipeline.arrRef spec11 w) := A_eq11 V c w
theorem rq_eq11 (c : Dev nD) (w : Fin cfg11.W) : (rdat11 V c).q w = fullShare := rfl
theorem rowed_eq11 (c : Dev nD) (t : Fin (cfg11.N + 1)) : (rdat11 V c).owed t = 0 := rfl
theorem rbody11 (c : Dev nD) : BodyObligation (rdat11 (F := F) V c) (defs₀ (F := F)) Variants.none () Set.univ := body_obligation11 V c
theorem rhin11 (c : Dev nD) : (iprop((∃ r, prngReg c r) ∗ Pipeline.prefHeld (cfg11.toPCfg (Val := Elt F)).pre c (fun _ => fullShare) (cfg11.toPCfg_adm (Val := Elt F)).1 ∗ Pipeline.scopedRest spec11 c) : sProp 𝕄) ⊢ (rdat11 V c).Φ 0 := ΦA_in spec11 c
theorem rhout11 (c : Dev nD) : (rdat11 V c).Φ (Fin.last _) ⊢ (iprop((∃ r, prngReg c r) ∗ Pipeline.ownSems0 (fun k : PEmpty => k.elim) c ∗ Pipeline.scopedRest spec11 c) : sProp 𝕄) := ΦA_out spec11 c

end Adapt

end Cert.KernelIdeal.Hand

end
-- ==== Proof.KI.RunVals.lean ====
import proofs.«411563_j39152921870698_3_alg».proof.Proof.KI.RunTables
import proofs.«411563_j39152921870698_3_alg».proof.Proof.KI.RunAdapt
import proofs.«411563_j39152921870698_3_alg».proof.Proof.LibRun

set_option maxRecDepth 1648

noncomputable section

namespace Cert.KernelIdeal.Hand

open Cert.KernelIdeal Cert.KernelIdeal.Gen Cert.LibRun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W19 : Dev nD → Valuation τ sig (Elt F) := fun c => V19 m c

-- A kernel region changes only its output arrays, a host stretch only its results: every other buffer stays as entered.
def W20 (c : Dev nD) : Valuation τ sig (Elt F) :=
  Pipeline.withArrays spec0 c (W19 m c) fun w => (rdat0 (Ve (W19 m)) c).arrAt w cfg0.N
theorem hF0 (c : Dev nD) (w : Fin cfg0.W) : (rdat0 (Ve (W19 m)) c).arrAt w cfg0.N = Ve (W20 m) c (Pipeline.arrRef spec0 w) :=
  Eq.symm (Pipeline.withArrays_arr spec0 (launch0 (F := F)).win.arr_inj c _ _ w)
theorem hrest0 (c : Dev nD) : ∀ b, b ∉ Finset.univ.image (Pipeline.arrRef spec0) → Ve (W20 m) c b = Ve (W19 m) c b :=
  withArrays_rest spec0 c _ _
theorem W20_of (c : Dev nD) (r : Ref sig .tc) (h : r ∉ ([main_v61] : List (Ref sig .tc))) : W20 m c r = W19 m c r :=
  withArrays_keeps (rdat0 (Ve (W19 m)) c) (launch0 (F := F)).win.arr_inj (W19 m c) (rA_eq0 _ c) _
    (by decide : ∀ w : Fin 3, Pipeline.arrRef spec0 w ∉ ([main_v61] : List (Ref sig .tc)) → (spec0 w).isOut = false) r h

def W21 (c : Dev nD) : Valuation τ sig (Elt F) :=
  Pipeline.withArrays spec1 c (W20 m c) fun w => (rdat1 (Ve (W20 m)) (tbl1 m) c).arrAt w (cfg1 (tbl1 m)).N
theorem hF1 (c : Dev nD) (w : Fin (cfg1 (tbl1 m)).W) : (rdat1 (Ve (W20 m)) (tbl1 m) c).arrAt w (cfg1 (tbl1 m)).N = Ve (W21 m) c (Pipeline.arrRef spec1 w) :=
  Eq.symm (Pipeline.withArrays_arr spec1 (launch1 (F := F)).win.arr_inj c _ _ w)
theorem hrest1 (c : Dev nD) : ∀ b, b ∉ Finset.univ.image (Pipeline.arrRef spec1) → Ve (W21 m) c b = Ve (W20 m) c b :=
  withArrays_rest spec1 c _ _
theorem W21_of (c : Dev nD) (r : Ref sig .tc) (h : r ∉ ([main_v62_0, main_v62_1] : List (Ref sig .tc))) : W21 m c r = W20 m c r :=
  withArrays_keeps (rdat1 (Ve (W20 m)) (tbl1 m) c) (launch1 (F := F)).win.arr_inj (W20 m c) (rA_eq1 _ _ c) _
    (by decide : ∀ w : Fin 4, Pipeline.arrRef spec1 w ∉ ([main_v62_0, main_v62_1] : List (Ref sig .tc)) → (spec1 w).isOut = false) r h

def W22 (c : Dev nD) : Valuation τ sig (Elt F) :=
  Pipeline.withArrays spec2 c (W21 m c) fun w => (rdat2 (Ve (W21 m)) c).arrAt w cfg2.N
theorem hF2 (c : Dev nD) (w : Fin cfg2.W) : (rdat2 (Ve (W21 m)) c).arrAt w cfg2.N = Ve (W22 m) c (Pipeline.arrRef spec2 w) :=
  Eq.symm (Pipeline.withArrays_arr spec2 (launch2 (F := F)).win.arr_inj c _ _ w)
theorem hrest2 (c : Dev nD) : ∀ b, b ∉ Finset.univ.image (Pipeline.arrRef spec2) → Ve (W22 m) c b = Ve (W21 m) c b :=
  withArrays_rest spec2 c _ _
theorem W22_of (c : Dev nD) (r : Ref sig .tc) (h : r ∉ ([main_v63] : List (Ref sig .tc))) : W22 m c r = W21 m c r :=
  withArrays_keeps (rdat2 (Ve (W21 m)) c) (launch2 (F := F)).win.arr_inj (W21 m c) (rA_eq2 _ c) _
    (by decide : ∀ w : Fin 7, Pipeline.arrRef spec2 w ∉ ([main_v63] : List (Ref sig .tc)) → (spec2 w).isOut = false) r h

abbrev W23 : Dev nD → Valuation τ sig (Elt F) := fun c => StableHlo.after hostOps3 (W22 m c)
theorem W23_of (c : Dev nD) (r : Ref sig .tc) (h : r ∉ hostOps3_W) : W23 m c r = W22 m c r :=
  StableHlo.after_of_writes_sub hostOps3 _ hostOps3_writes h

def W24 (c : Dev nD) : Valuation τ sig (Elt F) :=
  Pipeline.withArrays spec3 c (W23 m c) fun w => (rdat3 (Ve (W23 m)) c).arrAt w cfg3.N
theorem hF3 (c : Dev nD) (w : Fin cfg3.W) : (rdat3 (Ve (W23 m)) c).arrAt w cfg3.N = Ve (W24 m) c (Pipeline.arrRef spec3 w) :=
  Eq.symm (Pipeline.withArrays_arr spec3 (launch3 (F := F)).win.arr_inj c _ _ w)
theorem hrest3 (c : Dev nD) : ∀ b, b ∉ Finset.univ.image (Pipeline.arrRef spec3) → Ve (W24 m) c b = Ve (W23 m) c b :=
  withArrays_rest spec3 c _ _
theorem W24_of (c : Dev nD) (r : Ref sig .tc) (h : r ∉ ([main_v65] : List (Ref sig .tc))) : W24 m c r = W23 m c r :=
  withArrays_keeps (rdat3 (Ve (W23 m)) c) (launch3 (F := F)).win.arr_inj (W23 m c) (rA_eq3 _ c) _
    (by decide : ∀ w : Fin 3, Pipeline.arrRef spec3 w ∉ ([main_v65] : List (Ref sig .tc)) → (spec3 w).isOut = false) r h

def W25 (c : Dev nD) : Valuation τ sig (Elt F) :=
  Pipeline.withArrays spec4 c (W24 m c) fun w => (rdat4 (Ve (W24 m)) (tbl4 m) c).arrAt w (cfg4 (tbl4 m)).N
theorem hF4 (c : Dev nD) (w : Fin (cfg4 (tbl4 m)).W) : (rdat4 (Ve (W24 m)) (tbl4 m) c).arrAt w (cfg4 (tbl4 m)).N = Ve (W25 m) c (Pipeline.arrRef spec4 w) :=
  Eq.symm (Pipeline.withArrays_arr spec4 (launch4 (F := F)).win.arr_inj c _ _ w)
theorem hrest4 (c : Dev nD) : ∀ b, b ∉ Finset.univ.image (Pipeline.arrRef spec4) → Ve (W25 m) c b = Ve (W24 m) c b :=
  withArrays_rest spec4 c _ _
theorem W25_of (c : Dev nD) (r : Ref sig .tc) (h : r ∉ ([main_v66_0, main_v66_1] : List (Ref sig .tc))) : W25 m c r = W24 m c r :=
  withArrays_keeps (rdat4 (Ve (W24 m)) (tbl4 m) c) (launch4 (F := F)).win.arr_inj (W24 m c) (rA_eq4 _ _ c) _
    (by decide : ∀ w : Fin 4, Pipeline.arrRef spec4 w ∉ ([main_v66_0, main_v66_1] : List (Ref sig .tc)) → (spec4 w).isOut = false) r h

def W26 (c : Dev nD) : Valuation τ sig (Elt F) :=
  Pipeline.withArrays spec5 c (W25 m c) fun w => (rdat5 (Ve (W25 m)) c).arrAt w cfg5.N
theorem hF5 (c : Dev nD) (w : Fin cfg5.W) : (rdat5 (Ve (W25 m)) c).arrAt w cfg5.N = Ve (W26 m) c (Pipeline.arrRef spec5 w) :=
  Eq.symm (Pipeline.withArrays_arr spec5 (launch5 (F := F)).win.arr_inj c _ _ w)
theorem hrest5 (c : Dev nD) : ∀ b, b ∉ Finset.univ.image (Pipeline.arrRef spec5) → Ve (W26 m) c b = Ve (W25 m) c b :=
  withArrays_rest spec5 c _ _
theorem W26_of (c : Dev nD) (r : Ref sig .tc) (h : r ∉ ([main_v67] : List (Ref sig .tc))) : W26 m c r = W25 m c r :=
  withArrays_keeps (rdat5 (Ve (W25 m)) c) (launch5 (F := F)).win.arr_inj (W25 m c) (rA_eq5 _ c) _
    (by decide : ∀ w : Fin 7, Pipeline.arrRef spec5 w ∉ ([main_v67] : List (Ref sig .tc)) → (spec5 w).isOut = false) r h

abbrev W27 : Dev nD → Valuation τ sig (Elt F) := fun c => StableHlo.after hostOps6 (W26 m c)
theorem W27_of (c : Dev nD) (r : Ref sig .tc) (h : r ∉ hostOps6_W) : W27 m c r = W26 m c r :=
  StableHlo.after_of_writes_sub hostOps6 _ hostOps6_writes h

def W28 (c : Dev nD) : Valuation τ sig (Elt F) :=
  Pipeline.withArrays spec6 c (W27 m c) fun w => (rdat6 (Ve (W27 m)) c).arrAt w cfg6.N
theorem hF6 (c : Dev nD) (w : Fin cfg6.W) : (rdat6 (Ve (W27 m)) c).arrAt w cfg6.N = Ve (W28 m) c (Pipeline.arrRef spec6 w) :=
  Eq.symm (Pipeline.withArrays_arr spec6 (launch6 (F := F)).win.arr_inj c _ _ w)
theorem hrest6 (c : Dev nD) : ∀ b, b ∉ Finset.univ.image (Pipeline.arrRef spec6) → Ve (W28 m) c b = Ve (W27 m) c b :=
  withArrays_rest spec6 c _ _
theorem W28_of (c : Dev nD) (r : Ref sig .tc) (h : r ∉ ([main_v69] : List (Ref sig .tc))) : W28 m c r = W27 m c r :=
  withArrays_keeps (rdat6 (Ve (W27 m)) c) (launch6 (F := F)).win.arr_inj (W27 m c) (rA_eq6 _ c) _
    (by decide : ∀ w : Fin 3, Pipeline.arrRef spec6 w ∉ ([main_v69] : List (Ref sig .tc)) → (spec6 w).isOut = false) r h

def W29 (c : Dev nD) : Valuation τ sig (Elt F) :=
  Pipeline.withArrays spec7 c (W28 m c) fun w => (rdat7 (Ve (W28 m)) (tbl7 m) c).arrAt w (cfg7 (tbl7 m)).N
theorem hF7 (c : Dev nD) (w : Fin (cfg7 (tbl7 m)).W) : (rdat7 (Ve (W28 m)) (tbl7 m) c).arrAt w (cfg7 (tbl7 m)).N = Ve (W29 m) c (Pipeline.arrRef spec7 w) :=
  Eq.symm (Pipeline.withArrays_arr spec7 (launch7 (F := F)).win.arr_inj c _ _ w)
theorem hrest7 (c : Dev nD) : ∀ b, b ∉ Finset.univ.image (Pipeline.arrRef spec7) → Ve (W29 m) c b = Ve (W28 m) c b :=
  withArrays_rest spec7 c _ _
theorem W29_of (c : Dev nD) (r : Ref sig .tc) (h : r ∉ ([main_v70] : List (Ref sig .tc))) : W29 m c r = W28 m c r :=
  withArrays_keeps (rdat7 (Ve (W28 m)) (tbl7 m) c) (launch7 (F := F)).win.arr_inj (W28 m c) (rA_eq7 _ _ c) _
    (by decide : ∀ w : Fin 3, Pipeline.arrRef spec7 w ∉ ([main_v70] : List (Ref sig .tc)) → (spec7 w).isOut = false) r h

def W30 (c : Dev nD) : Valuation τ sig (Elt F) :=
  Pipeline.withArrays spec8 c (W29 m c) fun w => (rdat8 (Ve (W29 m)) c).arrAt w cfg8.N
theorem hF8 (c : Dev nD) (w : Fin cfg8.W) : (rdat8 (Ve (W29 m)) c).arrAt w cfg8.N = Ve (W30 m) c (Pipeline.arrRef spec8 w) :=
  Eq.symm (Pipeline.withArrays_arr spec8 (launch8 (F := F)).win.arr_inj c _ _ w)
theorem hrest8 (c : Dev nD) : ∀ b, b ∉ Finset.univ.image (Pipeline.arrRef spec8) → Ve (W30 m) c b = Ve (W29 m) c b :=
  withArrays_rest spec8 c _ _
theorem W30_of (c : Dev nD) (r : Ref sig .tc) (h : r ∉ ([main_v71] : List (Ref sig .tc))) : W30 m c r = W29 m c r :=
  withArrays_keeps (rdat8 (Ve (W29 m)) c) (launch8 (F := F)).win.arr_inj (W29 m c) (rA_eq8 _ c) _
    (by decide : ∀ w : Fin 7, Pipeline.arrRef spec8 w ∉ ([main_v71] : List (Ref sig .tc)) → (spec8 w).isOut = false) r h

abbrev W31 : Dev nD → Valuation τ sig (Elt F) := fun c => StableHlo.after hostOps9 (W30 m c)
theorem W31_of (c : Dev nD) (r : Ref sig .tc) (h : r ∉ hostOps9_W) : W31 m c r = W30 m c r :=
  StableHlo.after_of_writes_sub hostOps9 _ hostOps9_writes h

def W32 (c : Dev nD) : Valuation τ sig (Elt F) :=
  Pipeline.withArrays spec9 c (W31 m c) fun w => (rdat9 (Ve (W31 m)) c).arrAt w cfg9.N
theorem hF9 (c : Dev nD) (w : Fin cfg9.W) : (rdat9 (Ve (W31 m)) c).arrAt w cfg9.N = Ve (W32 m) c (Pipeline.arrRef spec9 w) :=
  Eq.symm (Pipeline.withArrays_arr spec9 (launch9 (F := F)).win.arr_inj c _ _ w)
theorem hrest9 (c : Dev nD) : ∀ b, b ∉ Finset.univ.image (Pipeline.arrRef spec9) → Ve (W32 m) c b = Ve (W31 m) c b :=
  withArrays_rest spec9 c _ _
theorem W32_of (c : Dev nD) (r : Ref sig .tc) (h : r ∉ ([main_v73] : List (Ref sig .tc))) : W32 m c r = W31 m c r :=
  withArrays_keeps (rdat9 (Ve (W31 m)) c) (launch9 (F := F)).win.arr_inj (W31 m c) (rA_eq9 _ c) _
    (by decide : ∀ w : Fin 3, Pipeline.arrRef spec9 w ∉ ([main_v73] : List (Ref sig .tc)) → (spec9 w).isOut = false) r h

def W33 (c : Dev nD) : Valuation τ sig (Elt F) :=
  Pipeline.withArrays spec10 c (W32 m c) fun w => (rdat10 (Ve (W32 m)) (tbl10 m) c).arrAt w (cfg10 (tbl10 m)).N
theorem hF10 (c : Dev nD) (w : Fin (cfg10 (tbl10 m)).W) : (rdat10 (Ve (W32 m)) (tbl10 m) c).arrAt w (cfg10 (tbl10 m)).N = Ve (W33 m) c (Pipeline.arrRef spec10 w) :=
  Eq.symm (Pipeline.withArrays_arr spec10 (launch10 (F := F)).win.arr_inj c _ _ w)
theorem hrest10 (c : Dev nD) : ∀ b, b ∉ Finset.univ.image (Pipeline.arrRef spec10) → Ve (W33 m) c b = Ve (W32 m) c b :=
  withArrays_rest spec10 c _ _
theorem W33_of (c : Dev nD) (r : Ref sig .tc) (h : r ∉ ([main_v74] : List (Ref sig .tc))) : W33 m c r = W32 m c r :=
  withArrays_keeps (rdat10 (Ve (W32 m)) (tbl10 m) c) (launch10 (F := F)).win.arr_inj (W32 m c) (rA_eq10 _ _ c) _
    (by decide : ∀ w : Fin 3, Pipeline.arrRef spec10 w ∉ ([main_v74] : List (Ref sig .tc)) → (spec10 w).isOut = false) r h

def W34 (c : Dev nD) : Valuation τ sig (Elt F) :=
  Pipeline.withArrays spec11 c (W33 m c) fun w => (rdat11 (Ve (W33 m)) c).arrAt w cfg11.N
theorem hF11 (c : Dev nD) (w : Fin cfg11.W) : (rdat11 (Ve (W33 m)) c).arrAt w cfg11.N = Ve (W34 m) c (Pipeline.arrRef spec11 w) :=
  Eq.symm (Pipeline.withArrays_arr spec11 (launch11 (F := F)).win.arr_inj c _ _ w)
theorem hrest11 (c : Dev nD) : ∀ b, b ∉ Finset.univ.image (Pipeline.arrRef spec11) → Ve (W34 m) c b = Ve (W33 m) c b :=
  withArrays_rest spec11 c _ _
theorem W34_of (c : Dev nD) (r : Ref sig .tc) (h : r ∉ ([main_v75] : List (Ref sig .tc))) : W34 m c r = W33 m c r :=
  withArrays_keeps (rdat11 (Ve (W33 m)) c) (launch11 (F := F)).win.arr_inj (W33 m c) (rA_eq11 _ c) _
    (by decide : ∀ w : Fin 7, Pipeline.arrRef spec11 w ∉ ([main_v75] : List (Ref sig .tc)) → (spec11 w).isOut = false) r h

abbrev Wlast : Dev nD → Valuation τ sig (Elt F) := fun c => W34 m c

def pdats : (p : Fin 12) → (c : Dev nD) → Dat τ (Elt F) Unit ℕ (UR sig nD τ) ℕ (Pipeline.pin (pcfgs (F := F)) (adm m) p) c
  | ⟨0, _⟩ => fun c => rdat0 (Ve (W19 m)) c
  | ⟨1, _⟩ => fun c => rdat1 (Ve (W20 m)) (tbl1 m) c
  | ⟨2, _⟩ => fun c => rdat2 (Ve (W21 m)) c
  | ⟨3, _⟩ => fun c => rdat3 (Ve (W23 m)) c
  | ⟨4, _⟩ => fun c => rdat4 (Ve (W24 m)) (tbl4 m) c
  | ⟨5, _⟩ => fun c => rdat5 (Ve (W25 m)) c
  | ⟨6, _⟩ => fun c => rdat6 (Ve (W27 m)) c
  | ⟨7, _⟩ => fun c => rdat7 (Ve (W28 m)) (tbl7 m) c
  | ⟨8, _⟩ => fun c => rdat8 (Ve (W29 m)) c
  | ⟨9, _⟩ => fun c => rdat9 (Ve (W31 m)) c
  | ⟨10, _⟩ => fun c => rdat10 (Ve (W32 m)) (tbl10 m) c
  | ⟨11, _⟩ => fun c => rdat11 (Ve (W33 m)) c
  | ⟨_ + 12, h⟩ => absurd h (Nat.not_lt.2 (Nat.le_add_left _ _))

end Cert.KernelIdeal.Hand

end
-- ==== Proof.KI.RunOf.lean ====
import proofs.«411563_j39152921870698_3_alg».proof.Proof.KI.RunVals
import proofs.«411563_j39152921870698_3_alg».proof.Proof.LibRun
import Mathlib.Tactic.IntervalCases

set_option maxRecDepth 1648

noncomputable section

namespace Cert.KernelIdeal.Hand

open Cert.KernelIdeal Cert.KernelIdeal.Gen Cert.LibRun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- The contents at boundary k: after the first k of the program's 34 items.
def Bn : ℕ → Dev nD → Valuation τ sig (Elt F)
  | 0 => V0 m | 1 => V1 m | 2 => V2 m | 3 => V3 m | 4 => V4 m | 5 => V5 m | 6 => V6 m
  | 7 => V7 m | 8 => V8 m | 9 => V9 m | 10 => V10 m | 11 => V11 m | 12 => V12 m | 13 => V13 m
  | 14 => V14 m | 15 => V15 m | 16 => V16 m | 17 => V17 m | 18 => V18 m | 19 => V19 m | 20 => W20 m
  | 21 => W21 m | 22 => W22 m | 23 => W23 m | 24 => W24 m | 25 => W25 m | 26 => W26 m | 27 => W27 m
  | 28 => W28 m | 29 => W29 m | 30 => W30 m | 31 => W31 m | 32 => W32 m | 33 => W33 m
  | _ => W34 m

-- What item k may change: a host stretch its results, a kernel region its output arrays.
def wr : ℕ → List (Ref sig .tc)
  | 0 => hostOps0_W | 1 => hostOps0_1_W | 2 => hostOps0_2_W | 3 => hostOps0_3_W | 4 => hostOps0_4_W
  | 5 => hostOps0_5_W | 6 => hostOps0_6_W | 7 => hostOps0_7_W | 8 => hostOps0_8_W | 9 => hostOps0_9_W
  | 10 => hostOps0_10_W | 11 => hostOps0_11_W | 12 => hostOps0_12_W | 13 => hostOps0_13_W | 14 => hostOps0_14_W
  | 15 => hostOps0_15_W | 16 => hostOps0_16_W | 17 => hostOps0_17_W | 18 => hostOps0_18_W | 19 => [main_v61]
  | 20 => [main_v62_0, main_v62_1] | 21 => [main_v63] | 22 => hostOps3_W | 23 => [main_v65] | 24 => [main_v66_0, main_v66_1]
  | 25 => [main_v67] | 26 => hostOps6_W | 27 => [main_v69] | 28 => [main_v70] | 29 => [main_v71]
  | 30 => hostOps9_W | 31 => [main_v73] | 32 => [main_v74] | 33 => [main_v75]
  | _ => []

theorem Bn_s0 (c : Dev nD) (r : Ref sig .tc) (h : r ∉ wr 0) : Bn m (0 + 1) c r = Bn m 0 c r := V1_of m c r h
theorem Bn_s1 (c : Dev nD) (r : Ref sig .tc) (h : r ∉ wr 1) : Bn m (1 + 1) c r = Bn m 1 c r := V2_of m c r h
theorem Bn_s2 (c : Dev nD) (r : Ref sig .tc) (h : r ∉ wr 2) : Bn m (2 + 1) c r = Bn m 2 c r := V3_of m c r h
theorem Bn_s3 (c : Dev nD) (r : Ref sig .tc) (h : r ∉ wr 3) : Bn m (3 + 1) c r = Bn m 3 c r := V4_of m c r h
theorem Bn_s4 (c : Dev nD) (r : Ref sig .tc) (h : r ∉ wr 4) : Bn m (4 + 1) c r = Bn m 4 c r := V5_of m c r h
theorem Bn_s5 (c : Dev nD) (r : Ref sig .tc) (h : r ∉ wr 5) : Bn m (5 + 1) c r = Bn m 5 c r := V6_of m c r h
theorem Bn_s6 (c : Dev nD) (r : Ref sig .tc) (h : r ∉ wr 6) : Bn m (6 + 1) c r = Bn m 6 c r := V7_of m c r h
theorem Bn_s7 (c : Dev nD) (r : Ref sig .tc) (h : r ∉ wr 7) : Bn m (7 + 1) c r = Bn m 7 c r := V8_of m c r h
theorem Bn_s8 (c : Dev nD) (r : Ref sig .tc) (h : r ∉ wr 8) : Bn m (8 + 1) c r = Bn m 8 c r := V9_of m c r h
theorem Bn_s9 (c : Dev nD) (r : Ref sig .tc) (h : r ∉ wr 9) : Bn m (9 + 1) c r = Bn m 9 c r := V10_of m c r h
theorem Bn_s10 (c : Dev nD) (r : Ref sig .tc) (h : r ∉ wr 10) : Bn m (10 + 1) c r = Bn m 10 c r := V11_of m c r h
theorem Bn_s11 (c : Dev nD) (r : Ref sig .tc) (h : r ∉ wr 11) : Bn m (11 + 1) c r = Bn m 11 c r := V12_of m c r h
theorem Bn_s12 (c : Dev nD) (r : Ref sig .tc) (h : r ∉ wr 12) : Bn m (12 + 1) c r = Bn m 12 c r := V13_of m c r h
theorem Bn_s13 (c : Dev nD) (r : Ref sig .tc) (h : r ∉ wr 13) : Bn m (13 + 1) c r = Bn m 13 c r := V14_of m c r h
theorem Bn_s14 (c : Dev nD) (r : Ref sig .tc) (h : r ∉ wr 14) : Bn m (14 + 1) c r = Bn m 14 c r := V15_of m c r h
theorem Bn_s15 (c : Dev nD) (r : Ref sig .tc) (h : r ∉ wr 15) : Bn m (15 + 1) c r = Bn m 15 c r := V16_of m c r h
theorem Bn_s16 (c : Dev nD) (r : Ref sig .tc) (h : r ∉ wr 16) : Bn m (16 + 1) c r = Bn m 16 c r := V17_of m c r h
theorem Bn_s17 (c : Dev nD) (r : Ref sig .tc) (h : r ∉ wr 17) : Bn m (17 + 1) c r = Bn m 17 c r := V18_of m c r h
theorem Bn_s18 (c : Dev nD) (r : Ref sig .tc) (h : r ∉ wr 18) : Bn m (18 + 1) c r = Bn m 18 c r := V19_of m c r h
theorem Bn_s19 (c : Dev nD) (r : Ref sig .tc) (h : r ∉ wr 19) : Bn m (19 + 1) c r = Bn m 19 c r := W20_of m c r h
theorem Bn_s20 (c : Dev nD) (r : Ref sig .tc) (h : r ∉ wr 20) : Bn m (20 + 1) c r = Bn m 20 c r := W21_of m c r h
theorem Bn_s21 (c : Dev nD) (r : Ref sig .tc) (h : r ∉ wr 21) : Bn m (21 + 1) c r = Bn m 21 c r := W22_of m c r h
theorem Bn_s22 (c : Dev nD) (r : Ref sig .tc) (h : r ∉ wr 22) : Bn m (22 + 1) c r = Bn m 22 c r := W23_of m c r h
theorem Bn_s23 (c : Dev nD) (r : Ref sig .tc) (h : r ∉ wr 23) : Bn m (23 + 1) c r = Bn m 23 c r := W24_of m c r h
theorem Bn_s24 (c : Dev nD) (r : Ref sig .tc) (h : r ∉ wr 24) : Bn m (24 + 1) c r = Bn m 24 c r := W25_of m c r h
theorem Bn_s25 (c : Dev nD) (r : Ref sig .tc) (h : r ∉ wr 25) : Bn m (25 + 1) c r = Bn m 25 c r := W26_of m c r h
theorem Bn_s26 (c : Dev nD) (r : Ref sig .tc) (h : r ∉ wr 26) : Bn m (26 + 1) c r = Bn m 26 c r := W27_of m c r h
theorem Bn_s27 (c : Dev nD) (r : Ref sig .tc) (h : r ∉ wr 27) : Bn m (27 + 1) c r = Bn m 27 c r := W28_of m c r h
theorem Bn_s28 (c : Dev nD) (r : Ref sig .tc) (h : r ∉ wr 28) : Bn m (28 + 1) c r = Bn m 28 c r := W29_of m c r h
theorem Bn_s29 (c : Dev nD) (r : Ref sig .tc) (h : r ∉ wr 29) : Bn m (29 + 1) c r = Bn m 29 c r := W30_of m c r h
theorem Bn_s30 (c : Dev nD) (r : Ref sig .tc) (h : r ∉ wr 30) : Bn m (30 + 1) c r = Bn m 30 c r := W31_of m c r h
theorem Bn_s31 (c : Dev nD) (r : Ref sig .tc) (h : r ∉ wr 31) : Bn m (31 + 1) c r = Bn m 31 c r := W32_of m c r h
theorem Bn_s32 (c : Dev nD) (r : Ref sig .tc) (h : r ∉ wr 32) : Bn m (32 + 1) c r = Bn m 32 c r := W33_of m c r h
theorem Bn_s33 (c : Dev nD) (r : Ref sig .tc) (h : r ∉ wr 33) : Bn m (33 + 1) c r = Bn m 33 c r := W34_of m c r h

theorem Bn_succ (c : Dev nD) (r : Ref sig .tc) (k : ℕ) (hk : k < 34) (h : r ∉ wr k) : Bn m (k + 1) c r = Bn m k c r := by
  interval_cases k
  exacts [
    Bn_s0 m c r h, Bn_s1 m c r h, Bn_s2 m c r h, Bn_s3 m c r h, Bn_s4 m c r h, Bn_s5 m c r h,
    Bn_s6 m c r h, Bn_s7 m c r h, Bn_s8 m c r h, Bn_s9 m c r h, Bn_s10 m c r h, Bn_s11 m c r h,
    Bn_s12 m c r h, Bn_s13 m c r h, Bn_s14 m c r h, Bn_s15 m c r h, Bn_s16 m c r h, Bn_s17 m c r h,
    Bn_s18 m c r h, Bn_s19 m c r h, Bn_s20 m c r h, Bn_s21 m c r h, Bn_s22 m c r h, Bn_s23 m c r h,
    Bn_s24 m c r h, Bn_s25 m c r h, Bn_s26 m c r h, Bn_s27 m c r h, Bn_s28 m c r h, Bn_s29 m c r h,
    Bn_s30 m c r h, Bn_s31 m c r h, Bn_s32 m c r h, Bn_s33 m c r h]

-- A reference none of the d items from boundary j on may change holds at boundary j + d what it held at boundary j.
theorem Bn_back (c : Dev nD) (r : Ref sig .tc) (j : ℕ) :
    ∀ d, (j + d ≤ 34 ∧ ∀ i < d, r ∉ wr (j + i)) → Bn m (j + d) c r = Bn m j c r
  | 0, _ => rfl
  | d + 1, ⟨hd, h⟩ => (Bn_succ m c r (j + d) hd (h d d.lt_succ_self)).trans
      (Bn_back c r j d ⟨Nat.le_of_lt hd, fun i hi => h i (Nat.lt_succ_of_lt hi)⟩)

theorem Wlast_main_arg0 (c : Dev nD) : Wlast m c main_arg0 = m ((c : Thread nD τ).loc main_arg0) := Bn_back m c main_arg0 0 34 (by decide)
theorem Wlast_main_arg1 (c : Dev nD) : Wlast m c main_arg1 = m ((c : Thread nD τ).loc main_arg1) := Bn_back m c main_arg1 0 34 (by decide)
theorem Wlast_main_arg2 (c : Dev nD) : Wlast m c main_arg2 = m ((c : Thread nD τ).loc main_arg2) := Bn_back m c main_arg2 0 34 (by decide)
theorem Wlast_main_arg3 (c : Dev nD) : Wlast m c main_arg3 = m ((c : Thread nD τ).loc main_arg3) := Bn_back m c main_arg3 0 34 (by decide)
theorem Wlast_main_arg4 (c : Dev nD) : Wlast m c main_arg4 = m ((c : Thread nD τ).loc main_arg4) := Bn_back m c main_arg4 0 34 (by decide)
theorem Wlast_main_arg5 (c : Dev nD) : Wlast m c main_arg5 = m ((c : Thread nD τ).loc main_arg5) := Bn_back m c main_arg5 0 34 (by decide)
theorem Wlast_main_arg6 (c : Dev nD) : Wlast m c main_arg6 = m ((c : Thread nD τ).loc main_arg6) := Bn_back m c main_arg6 0 34 (by decide)
theorem Wlast_main_arg7 (c : Dev nD) : Wlast m c main_arg7 = m ((c : Thread nD τ).loc main_arg7) := Bn_back m c main_arg7 0 34 (by decide)
theorem Wlast_main_arg8 (c : Dev nD) : Wlast m c main_arg8 = m ((c : Thread nD τ).loc main_arg8) := Bn_back m c main_arg8 0 34 (by decide)
theorem Wlast_main_arg9 (c : Dev nD) : Wlast m c main_arg9 = m ((c : Thread nD τ).loc main_arg9) := Bn_back m c main_arg9 0 34 (by decide)
theorem Wlast_main_arg10 (c : Dev nD) : Wlast m c main_arg10 = m ((c : Thread nD τ).loc main_arg10) := Bn_back m c main_arg10 0 34 (by decide)
theorem Wlast_main_arg11 (c : Dev nD) : Wlast m c main_arg11 = m ((c : Thread nD τ).loc main_arg11) := Bn_back m c main_arg11 0 34 (by decide)
theorem Wlast_main_arg12 (c : Dev nD) : Wlast m c main_arg12 = m ((c : Thread nD τ).loc main_arg12) := Bn_back m c main_arg12 0 34 (by decide)
theorem Wlast_main_arg13 (c : Dev nD) : Wlast m c main_arg13 = m ((c : Thread nD τ).loc main_arg13) := Bn_back m c main_arg13 0 34 (by decide)
theorem Wlast_main_arg14 (c : Dev nD) : Wlast m c main_arg14 = m ((c : Thread nD τ).loc main_arg14) := Bn_back m c main_arg14 0 34 (by decide)
theorem Wlast_main_arg15 (c : Dev nD) : Wlast m c main_arg15 = m ((c : Thread nD τ).loc main_arg15) := Bn_back m c main_arg15 0 34 (by decide)
theorem Wlast_main_v71 (c : Dev nD) : Wlast m c main_v71 = (rdat8 (Ve (W29 m)) c).arrAt 6 cfg8.N := (Bn_back m c main_v71 30 4 (by decide)).trans (hF8 m c 6).symm
theorem W20_main_v61 (c : Dev nD) : W20 m c main_v61 = (rdat0 (Ve (W19 m)) c).arrAt 2 cfg0.N := (hF0 m c 2).symm
theorem W21_main_v62_0 (c : Dev nD) : W21 m c main_v62_0 = (rdat1 (Ve (W20 m)) (tbl1 m) c).arrAt 2 (cfg1 (tbl1 m)).N := (hF1 m c 2).symm
theorem W21_main_v62_1 (c : Dev nD) : W21 m c main_v62_1 = (rdat1 (Ve (W20 m)) (tbl1 m) c).arrAt 3 (cfg1 (tbl1 m)).N := (hF1 m c 3).symm
theorem W20_at_main_v29 (c : Dev nD) : W20 m c main_v29 = W19 m c main_v29 := Bn_back m c main_v29 19 1 (by decide)
theorem W22_main_v63 (c : Dev nD) : W22 m c main_v63 = (rdat2 (Ve (W21 m)) c).arrAt 6 cfg2.N := (hF2 m c 6).symm
theorem W21_at_main_arg1 (c : Dev nD) : W21 m c main_arg1 = m ((c : Thread nD τ).loc main_arg1) := Bn_back m c main_arg1 0 21 (by decide)
theorem W21_at_main_arg4 (c : Dev nD) : W21 m c main_arg4 = m ((c : Thread nD τ).loc main_arg4) := Bn_back m c main_arg4 0 21 (by decide)
theorem W21_at_main_arg5 (c : Dev nD) : W21 m c main_arg5 = m ((c : Thread nD τ).loc main_arg5) := Bn_back m c main_arg5 0 21 (by decide)
theorem W21_at_main_arg6 (c : Dev nD) : W21 m c main_arg6 = m ((c : Thread nD τ).loc main_arg6) := Bn_back m c main_arg6 0 21 (by decide)
theorem W24_main_v65 (c : Dev nD) : W24 m c main_v65 = (rdat3 (Ve (W23 m)) c).arrAt 2 cfg3.N := (hF3 m c 2).symm
theorem W23_at_main_v58 (c : Dev nD) : W23 m c main_v58 = W19 m c main_v58 := Bn_back m c main_v58 19 4 (by decide)
theorem W25_main_v66_0 (c : Dev nD) : W25 m c main_v66_0 = (rdat4 (Ve (W24 m)) (tbl4 m) c).arrAt 2 (cfg4 (tbl4 m)).N := (hF4 m c 2).symm
theorem W25_main_v66_1 (c : Dev nD) : W25 m c main_v66_1 = (rdat4 (Ve (W24 m)) (tbl4 m) c).arrAt 3 (cfg4 (tbl4 m)).N := (hF4 m c 3).symm
theorem W24_at_main_v59 (c : Dev nD) : W24 m c main_v59 = W19 m c main_v59 := Bn_back m c main_v59 19 5 (by decide)
theorem W26_main_v67 (c : Dev nD) : W26 m c main_v67 = (rdat5 (Ve (W25 m)) c).arrAt 6 cfg5.N := (hF5 m c 6).symm
theorem W25_at_main_arg0 (c : Dev nD) : W25 m c main_arg0 = m ((c : Thread nD τ).loc main_arg0) := Bn_back m c main_arg0 0 25 (by decide)
theorem W25_at_main_arg7 (c : Dev nD) : W25 m c main_arg7 = m ((c : Thread nD τ).loc main_arg7) := Bn_back m c main_arg7 0 25 (by decide)
theorem W25_at_main_arg8 (c : Dev nD) : W25 m c main_arg8 = m ((c : Thread nD τ).loc main_arg8) := Bn_back m c main_arg8 0 25 (by decide)
theorem W25_at_main_arg9 (c : Dev nD) : W25 m c main_arg9 = m ((c : Thread nD τ).loc main_arg9) := Bn_back m c main_arg9 0 25 (by decide)
theorem W28_main_v69 (c : Dev nD) : W28 m c main_v69 = (rdat6 (Ve (W27 m)) c).arrAt 2 cfg6.N := (hF6 m c 2).symm
theorem W27_at_main_v28 (c : Dev nD) : W27 m c main_v28 = W19 m c main_v28 := Bn_back m c main_v28 19 8 (by decide)
theorem W29_main_v70 (c : Dev nD) : W29 m c main_v70 = (rdat7 (Ve (W28 m)) (tbl7 m) c).arrAt 2 (cfg7 (tbl7 m)).N := (hF7 m c 2).symm
theorem W28_at_main_v29 (c : Dev nD) : W28 m c main_v29 = W19 m c main_v29 := Bn_back m c main_v29 19 9 (by decide)
theorem W30_main_v71 (c : Dev nD) : W30 m c main_v71 = (rdat8 (Ve (W29 m)) c).arrAt 6 cfg8.N := (hF8 m c 6).symm
theorem W29_at_main_v62_1 (c : Dev nD) : W29 m c main_v62_1 = W21 m c main_v62_1 := Bn_back m c main_v62_1 21 8 (by decide)
theorem W29_at_main_v63 (c : Dev nD) : W29 m c main_v63 = W22 m c main_v63 := Bn_back m c main_v63 22 7 (by decide)
theorem W29_at_main_arg10 (c : Dev nD) : W29 m c main_arg10 = m ((c : Thread nD τ).loc main_arg10) := Bn_back m c main_arg10 0 29 (by decide)
theorem W29_at_main_arg11 (c : Dev nD) : W29 m c main_arg11 = m ((c : Thread nD τ).loc main_arg11) := Bn_back m c main_arg11 0 29 (by decide)
theorem W29_at_main_arg12 (c : Dev nD) : W29 m c main_arg12 = m ((c : Thread nD τ).loc main_arg12) := Bn_back m c main_arg12 0 29 (by decide)
theorem W32_main_v73 (c : Dev nD) : W32 m c main_v73 = (rdat9 (Ve (W31 m)) c).arrAt 2 cfg9.N := (hF9 m c 2).symm
theorem W31_at_main_v58 (c : Dev nD) : W31 m c main_v58 = W19 m c main_v58 := Bn_back m c main_v58 19 12 (by decide)
theorem W33_main_v74 (c : Dev nD) : W33 m c main_v74 = (rdat10 (Ve (W32 m)) (tbl10 m) c).arrAt 2 (cfg10 (tbl10 m)).N := (hF10 m c 2).symm
theorem W32_at_main_v59 (c : Dev nD) : W32 m c main_v59 = W19 m c main_v59 := Bn_back m c main_v59 19 13 (by decide)
theorem W34_main_v75 (c : Dev nD) : W34 m c main_v75 = (rdat11 (Ve (W33 m)) c).arrAt 6 cfg11.N := (hF11 m c 6).symm
theorem W33_at_main_v66_1 (c : Dev nD) : W33 m c main_v66_1 = W25 m c main_v66_1 := Bn_back m c main_v66_1 25 8 (by decide)
theorem W33_at_main_v67 (c : Dev nD) : W33 m c main_v67 = W26 m c main_v67 := Bn_back m c main_v67 26 7 (by decide)
theorem W33_at_main_arg13 (c : Dev nD) : W33 m c main_arg13 = m ((c : Thread nD τ).loc main_arg13) := Bn_back m c main_arg13 0 33 (by decide)
theorem W33_at_main_arg14 (c : Dev nD) : W33 m c main_arg14 = m ((c : Thread nD τ).loc main_arg14) := Bn_back m c main_arg14 0 33 (by decide)
theorem W33_at_main_arg15 (c : Dev nD) : W33 m c main_arg15 = m ((c : Thread nD τ).loc main_arg15) := Bn_back m c main_arg15 0 33 (by decide)
theorem W22_at_main_arg1 (c : Dev nD) : W22 m c main_arg1 = m ((c : Thread nD τ).loc main_arg1) := Bn_back m c main_arg1 0 22 (by decide)
theorem W30_at_main_v63 (c : Dev nD) : W30 m c main_v63 = W22 m c main_v63 := Bn_back m c main_v63 22 8 (by decide)

theorem tbl_at1 (c : Dev nD) : (fun k => Ve (W20 m) c (pre1.ref k)) = (tbl1 m).1 := by
  obtain rfl := dev_eq c
  rw [tbl1_val]
  exact funext fun k => Bn_back m c₀ _ 19 1 ((by decide : ∀ k : Fin 2, 19 + 1 ≤ 34 ∧ ∀ i < 1, pre1.ref k ∉ wr (19 + i)) k)
theorem unscopedRest_at1 (c : Dev nD) : (Pipeline.unscopedRest (Ix := Unit) (Name := ℕ) (U := UR sig nD τ) (Lvl := ℕ) spec1 c (Ve (W20 m) c) : sProp 𝕄)
    = iprop(Pipeline.prefHeld pre1 c (fun _ => fullShare) (tbl1 m).1 ∗ Pipeline.unscopedRestP pre1 spec1 c (Ve (W20 m) c)) :=
  unscopedRest_at preFacts1 c _ (tbl_at1 m c)
theorem tbl_at4 (c : Dev nD) : (fun k => Ve (W24 m) c (pre4.ref k)) = (tbl4 m).1 := by
  obtain rfl := dev_eq c
  rw [tbl4_val]
  exact funext fun k => Bn_back m c₀ _ 19 5 ((by decide : ∀ k : Fin 2, 19 + 5 ≤ 34 ∧ ∀ i < 5, pre4.ref k ∉ wr (19 + i)) k)
theorem unscopedRest_at4 (c : Dev nD) : (Pipeline.unscopedRest (Ix := Unit) (Name := ℕ) (U := UR sig nD τ) (Lvl := ℕ) spec4 c (Ve (W24 m) c) : sProp 𝕄)
    = iprop(Pipeline.prefHeld pre4 c (fun _ => fullShare) (tbl4 m).1 ∗ Pipeline.unscopedRestP pre4 spec4 c (Ve (W24 m) c)) :=
  unscopedRest_at preFacts4 c _ (tbl_at4 m c)
theorem tbl_at7 (c : Dev nD) : (fun k => Ve (W28 m) c (pre7.ref k)) = (tbl7 m).1 := by
  obtain rfl := dev_eq c
  rw [tbl7_val]
  exact funext fun k => Bn_back m c₀ _ 19 9 ((by decide : ∀ k : Fin 2, 19 + 9 ≤ 34 ∧ ∀ i < 9, pre7.ref k ∉ wr (19 + i)) k)
theorem unscopedRest_at7 (c : Dev nD) : (Pipeline.unscopedRest (Ix := Unit) (Name := ℕ) (U := UR sig nD τ) (Lvl := ℕ) spec7 c (Ve (W28 m) c) : sProp 𝕄)
    = iprop(Pipeline.prefHeld pre7 c (fun _ => fullShare) (tbl7 m).1 ∗ Pipeline.unscopedRestP pre7 spec7 c (Ve (W28 m) c)) :=
  unscopedRest_at preFacts7 c _ (tbl_at7 m c)
theorem tbl_at10 (c : Dev nD) : (fun k => Ve (W32 m) c (pre10.ref k)) = (tbl10 m).1 := by
  obtain rfl := dev_eq c
  rw [tbl10_val]
  exact funext fun k => Bn_back m c₀ _ 19 13 ((by decide : ∀ k : Fin 2, 19 + 13 ≤ 34 ∧ ∀ i < 13, pre10.ref k ∉ wr (19 + i)) k)
theorem unscopedRest_at10 (c : Dev nD) : (Pipeline.unscopedRest (Ix := Unit) (Name := ℕ) (U := UR sig nD τ) (Lvl := ℕ) spec10 c (Ve (W32 m) c) : sProp 𝕄)
    = iprop(Pipeline.prefHeld pre10 c (fun _ => fullShare) (tbl10 m).1 ∗ Pipeline.unscopedRestP pre10 spec10 c (Ve (W32 m) c)) :=
  unscopedRest_at preFacts10 c _ (tbl_at10 m c)

end Cert.KernelIdeal.Hand

end
-- ==== Proof.KI.RunRegG.lean ====
import proofs.«411563_j39152921870698_3_alg».proof.Proof.KI.RunOf
import proofs.«411563_j39152921870698_3_alg».proof.Proof.LibSeg

set_option backward.isDefEq.respectTransparency.types false

noncomputable section

namespace Cert.KernelIdeal.Hand

open Cert.KernelIdeal Cert.KernelIdeal.Gen
open Idealize.ShloMosaic Idealize.ShloMosaic.TcCoe
open Idealize.SL Idealize.SL.BI
open scoped Idealize.SL.BI

variable {F : FTy → Type} [FloatOps F]

variable (m : (ℓ : Loc nD τ sig) → Buf (Elt F) ℓ)

-- A gather region takes no table: it is entered from the unscoped buffers at one boundary's contents and left at the next's.
def reg0 : Pipeline.RegionSeg (pcfgs (F := F)) (adm m) (pdats m) () defs₀ 𝒱₀ L lv 0 :=
  LibSeg.segHeld0 (W := W19 m) (W' := W20 m)
    ⟨launch0, rbody0 _, rowed_eq0 _, fun _ => rfl, rq_eq0 _, rA_eq0 _, hF0 m, hrest0 m⟩ rfl (rhin0 _) (rhout0 _)

def reg3 : Pipeline.RegionSeg (pcfgs (F := F)) (adm m) (pdats m) () defs₀ 𝒱₀ L lv 3 :=
  LibSeg.segHeld0 (W := W23 m) (W' := W24 m)
    ⟨launch3, rbody3 _, rowed_eq3 _, fun _ => rfl, rq_eq3 _, rA_eq3 _, hF3 m, hrest3 m⟩ rfl (rhin3 _) (rhout3 _)

def reg6 : Pipeline.RegionSeg (pcfgs (F := F)) (adm m) (pdats m) () defs₀ 𝒱₀ L lv 6 :=
  LibSeg.segHeld0 (W := W27 m) (W' := W28 m)
    ⟨launch6, rbody6 _, rowed_eq6 _, fun _ => rfl, rq_eq6 _, rA_eq6 _, hF6 m, hrest6 m⟩ rfl (rhin6 _) (rhout6 _)

def reg9 : Pipeline.RegionSeg (pcfgs (F := F)) (adm m) (pdats m) () defs₀ 𝒱₀ L lv 9 :=
  LibSeg.segHeld0 (W := W31 m) (W' := W32 m)
    ⟨launch9, rbody9 _, rowed_eq9 _, fun _ => rfl, rq_eq9 _, rA_eq9 _, hF9 m, hrest9 m⟩ rfl (rhin9 _) (rhout9 _)

end Cert.KernelIdeal.Hand

end
-- ==== Proof.KI.RunRegSC.lean ====
import proofs.«411563_j39152921870698_3_alg».proof.Proof.KI.RunOf
import proofs.«411563_j39152921870698_3_alg».proof.Proof.LibSeg

set_option backward.isDefEq.respectTransparency.types false

noncomputable section

namespace Cert.KernelIdeal.Hand

open Cert.KernelIdeal Cert.KernelIdeal.Gen
open Idealize.ShloMosaic Idealize.ShloMosaic.TcCoe
open Idealize.SL Idealize.SL.BI
open scoped Idealize.SL.BI

variable {F : FTy → Type} [FloatOps F]

variable (m : (ℓ : Loc nD τ sig) → Buf (Elt F) ℓ)

-- A counting scatter region finds its two tables as the preparation left them: no item before it writes one.
def reg1 : Pipeline.RegionSeg (pcfgs (F := F)) (adm m) (pdats m) () defs₀ 𝒱₀ L lv 1 :=
  LibSeg.segHeldT (W := W20 m) (W' := W21 m)
    ⟨launch1, rbody1 _ _, rowed_eq1 _ _, fun _ => rfl, rq_eq1 _ _, rA_eq1 _ _, hF1 m, hrest1 m⟩ (tbl_at1 m) (rhin1 _ _) (rhout1 _ _)

def reg4 : Pipeline.RegionSeg (pcfgs (F := F)) (adm m) (pdats m) () defs₀ 𝒱₀ L lv 4 :=
  LibSeg.segHeldT (W := W24 m) (W' := W25 m)
    ⟨launch4, rbody4 _ _, rowed_eq4 _ _, fun _ => rfl, rq_eq4 _ _, rA_eq4 _ _, hF4 m, hrest4 m⟩ (tbl_at4 m) (rhin4 _ _) (rhout4 _ _)

end Cert.KernelIdeal.Hand

end
-- ==== Proof.KI.RunRegS.lean ====
import proofs.«411563_j39152921870698_3_alg».proof.Proof.KI.RunOf
import proofs.«411563_j39152921870698_3_alg».proof.Proof.LibSeg

set_option backward.isDefEq.respectTransparency.types false

noncomputable section

namespace Cert.KernelIdeal.Hand

open Cert.KernelIdeal Cert.KernelIdeal.Gen
open Idealize.ShloMosaic Idealize.ShloMosaic.TcCoe
open Idealize.SL Idealize.SL.BI
open scoped Idealize.SL.BI

variable {F : FTy → Type} [FloatOps F]

variable (m : (ℓ : Loc nD τ sig) → Buf (Elt F) ℓ)

-- A scatter region finds its two tables as the preparation left them: no item before it writes one.
def reg7 : Pipeline.RegionSeg (pcfgs (F := F)) (adm m) (pdats m) () defs₀ 𝒱₀ L lv 7 :=
  LibSeg.segHeldT (W := W28 m) (W' := W29 m)
    ⟨launch7, rbody7 _ _, rowed_eq7 _ _, fun _ => rfl, rq_eq7 _ _, rA_eq7 _ _, hF7 m, hrest7 m⟩ (tbl_at7 m) (rhin7 _ _) (rhout7 _ _)

def reg10 : Pipeline.RegionSeg (pcfgs (F := F)) (adm m) (pdats m) () defs₀ 𝒱₀ L lv 10 :=
  LibSeg.segHeldT (W := W32 m) (W' := W33 m)
    ⟨launch10, rbody10 _ _, rowed_eq10 _ _, fun _ => rfl, rq_eq10 _ _, rA_eq10 _ _, hF10 m, hrest10 m⟩ (tbl_at10 m) (rhin10 _ _) (rhout10 _ _)

end Cert.KernelIdeal.Hand

end
-- ==== Proof.KI.RunRegL.lean ====
import proofs.«411563_j39152921870698_3_alg».proof.Proof.KI.RunOf
import proofs.«411563_j39152921870698_3_alg».proof.Proof.LibSeg

set_option backward.isDefEq.respectTransparency.types false

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase

variable {F : FTy → Type} [FloatOps F]

variable (m : (ℓ : Loc nD τ sig) → Buf (Elt F) ℓ)

-- A linear region takes no table: it is entered from the unscoped buffers at one boundary's contents and left at the next's.
def reg2 : Pipeline.RegionSeg (pcfgs (F := F)) (adm m) (pdats m) () defs₀ 𝒱₀ L lv 2 :=
  LibSeg.segHeld0 (W := W21 m) (W' := W22 m)
    ⟨launch2, rbody2 _, rowed_eq2 _, fun _ => rfl, rq_eq2 _, rA_eq2 _, hF2 m, hrest2 m⟩ rfl (rhin2 _) (rhout2 _)

def reg5 : Pipeline.RegionSeg (pcfgs (F := F)) (adm m) (pdats m) () defs₀ 𝒱₀ L lv 5 :=
  LibSeg.segHeld0 (W := W25 m) (W' := W26 m)
    ⟨launch5, rbody5 _, rowed_eq5 _, fun _ => rfl, rq_eq5 _, rA_eq5 _, hF5 m, hrest5 m⟩ rfl (rhin5 _) (rhout5 _)

def reg8 : Pipeline.RegionSeg (pcfgs (F := F)) (adm m) (pdats m) () defs₀ 𝒱₀ L lv 8 :=
  LibSeg.segHeld0 (W := W29 m) (W' := W30 m)
    ⟨launch8, rbody8 _, rowed_eq8 _, fun _ => rfl, rq_eq8 _, rA_eq8 _, hF8 m, hrest8 m⟩ rfl (rhin8 _) (rhout8 _)

-- The last region leaves the buffers and the generator register grouped as the program's final state.
def reg11 : Pipeline.RegionSeg (pcfgs (F := F)) (adm m) (pdats m) () defs₀ 𝒱₀ L lv 11 :=
  LibSeg.withPost (LibSeg.segHeld0 (W := W33 m) (W' := W34 m)
      ⟨launch11, rbody11 _, rowed_eq11 _, fun _ => rfl, rq_eq11 _, rA_eq11 _, hF11 m, hrest11 m⟩ rfl (rhin11 _) (rhout11 _))
    (fun c => iprop((StableHlo.held (c : Thread nD τ) (Pipeline.ucRefs τ sig) (W34 m c) ∗ ∃ r, prngReg c r) ∗ ∃ W, owes (c : Thread nD τ) (0 : CellTallies nD τ sig Unit) W))
    fun c => Laws.sep_assoc.2

end Cert.KernelIdeal.Hand

end
-- ==== Proof.KI.Run.lean ====
import proofs.«411563_j39152921870698_3_alg».proof.Proof.KI.RunRegG
import proofs.«411563_j39152921870698_3_alg».proof.Proof.KI.RunRegSC
import proofs.«411563_j39152921870698_3_alg».proof.Proof.KI.RunRegS
import proofs.«411563_j39152921870698_3_alg».proof.Proof.KI.RunRegL

set_option maxRecDepth 1648

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def hseg (ops : List (HloOp τ sig (Elt F))) (hs : ops.Forall fun op => op.bufs ⊆ StableHlo.tcRefs τ sig) (hf : ops.Forall fun op => op.fresh = ∅)
    (V : Dev nD → Valuation τ sig (Elt F)) : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) ops (fun op h => Pipeline.sub_ucRefs op ((List.forall_iff_forall_mem.mp hs) op h))
    (fun op h => (List.forall_iff_forall_mem.mp hf) op h) V R

abbrev segsRun : List (Pipeline.Seg (pcfgs (F := F)) (adm m) (pdats m) () defs₀ 𝒱₀ L lv) :=
  [.host (seg0 m 𝒱₀ L lv ER), .host (seg1 m 𝒱₀ L lv ER), .host (seg2 m 𝒱₀ L lv ER), .host (seg3 m 𝒱₀ L lv ER), .host (seg4 m 𝒱₀ L lv ER), .host (seg5 m 𝒱₀ L lv ER), .host (seg6 m 𝒱₀ L lv ER), .host (seg7 m 𝒱₀ L lv ER), .host (seg8 m 𝒱₀ L lv ER), .host (seg9 m 𝒱₀ L lv ER), .host (seg10 m 𝒱₀ L lv ER), .host (seg11 m 𝒱₀ L lv ER), .host (seg12 m 𝒱₀ L lv ER), .host (seg13 m 𝒱₀ L lv ER), .host (seg14 m 𝒱₀ L lv ER), .host (seg15 m 𝒱₀ L lv ER), .host (seg16 m 𝒱₀ L lv ER), .host (seg17 m 𝒱₀ L lv ER), .host (seg18 m 𝒱₀ L lv ER), .region (reg0 m), .region (reg1 m), .region (reg2 m), .host (hseg hostOps3 hostOps3_sub hostOps3_fresh (W22 m)), .region (reg3 m), .region (reg4 m), .region (reg5 m), .host (hseg hostOps6 hostOps6_sub hostOps6_fresh (W26 m)), .region (reg6 m), .region (reg7 m), .region (reg8 m), .host (hseg hostOps9 hostOps9_sub hostOps9_fresh (W30 m)), .region (reg9 m), .region (reg10 m), .region (reg11 m)]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W34 m c) ∗ ∃ r, prngReg c r)

set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Wlast m c b) := by
  refine Pipeline.θ_run_regions_kit_dev (pcfgs (F := F)) (adm m) (pdats m) () (cellOf_inj (adm m)) emb₁ defs₀ 𝒱₀ L lv m ρ main
    (fun _ => segsRun m)
    (fun c Q => by
      rewrite [main_chain c, Pipeline.Seg.run_eq_chain,
        show (segsRun m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          StableHlo.seq hostOps6,
          Prog.lift (.customCall (Pipeline.entry 6) ()),
          Prog.lift (.customCall (Pipeline.entry 7) ()),
          Prog.lift (.customCall (Pipeline.entry 8) ()),
          StableHlo.seq hostOps9,
          Prog.lift (.customCall (Pipeline.entry 9) ()),
          Prog.lift (.customCall (Pipeline.entry 10) ()),
          Prog.lift (.customCall (Pipeline.entry 11) ()) ] from rfl]
      with_reducible exact .rfl)
    (fun c => by simp only [segsRun, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m c b)
    (hfin := fun c s' => by
      iintro ⟨⟨Hh, -⟩, HSI⟩
      unfold StableHlo.held
      imodintro
      iapply (pointsTo_read_all (Pipeline.ucRefs τ sig) (fun b => (((c : Thread nD τ)).1, b)) (W34 m c) s')
      isplitl [Hh] <;> iassumption)
    (hQ := fun _ h => h)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun r h c =>
    ⟨(h c _ (mem_uc main_arg0 (by decide))).trans (Wlast_main_arg0 m c),
     (h c _ (mem_uc main_arg1 (by decide))).trans (Wlast_main_arg1 m c),
     (h c _ (mem_uc main_arg2 (by decide))).trans (Wlast_main_arg2 m c),
     (h c _ (mem_uc main_arg3 (by decide))).trans (Wlast_main_arg3 m c),
     (h c _ (mem_uc main_arg4 (by decide))).trans (Wlast_main_arg4 m c),
     (h c _ (mem_uc main_arg5 (by decide))).trans (Wlast_main_arg5 m c),
     (h c _ (mem_uc main_arg6 (by decide))).trans (Wlast_main_arg6 m c),
     (h c _ (mem_uc main_arg7 (by decide))).trans (Wlast_main_arg7 m c),
     (h c _ (mem_uc main_arg8 (by decide))).trans (Wlast_main_arg8 m c),
     (h c _ (mem_uc main_arg9 (by decide))).trans (Wlast_main_arg9 m c),
     (h c _ (mem_uc main_arg10 (by decide))).trans (Wlast_main_arg10 m c),
     (h c _ (mem_uc main_arg11 (by decide))).trans (Wlast_main_arg11 m c),
     (h c _ (mem_uc main_arg12 (by decide))).trans (Wlast_main_arg12 m c),
     (h c _ (mem_uc main_arg13 (by decide))).trans (Wlast_main_arg13 m c),
     (h c _ (mem_uc main_arg14 (by decide))).trans (Wlast_main_arg14 m c),
     (h c _ (mem_uc main_arg15 (by decide))).trans (Wlast_main_arg15 m c)⟩) (run_all m ρ)

end Cert.KernelIdeal.Hand

end
-- ==== Proof.Val.SageSpec.lean ====
import Idealize.ShloMosaic.Lib.ValueIdx

noncomputable section

open scoped BigOperators

namespace Cert.SageSpec

open Idealize.ShloMosaic Idealize.ShloMosaic.ValueIdx

abbrev Feat : Type := (⟨2, ![100000, 128]⟩ : Shape).Idx → EReal

abbrev Edges : Type := IVec ⟨2, ![2, 600000]⟩ 32

abbrev Wt : Type := (⟨2, ![128, 128]⟩ : Shape).Idx → EReal

abbrev Bias : Type := (⟨1, ![128]⟩ : Shape).Idx → EReal

def src (ei : Edges) (e : Fin 600000) : BitVec 32 := ei (ix2 (0 : Fin 2) e)

def dst (ei : Edges) (e : Fin 600000) : BitVec 32 := ei (ix2 (1 : Fin 2) e)

def srcRow (w : BitVec 32) : Fin 100000 := ⟨min w.toNat 99999, by omega⟩

def SrcOk (ei : Edges) : Prop := ∀ e : Fin 600000, 0 ≤ (src ei e).toInt ∧ (src ei e).toInt < 100000

theorem toNat_of_node {w : BitVec 32} (h0 : 0 ≤ w.toInt) (h1 : w.toInt < 100000) :
    (w.toNat : ℤ) = w.toInt ∧ w.toNat < 100000 := by
  have hlt := w.isLt
  rw [BitVec.toInt_eq_toNat_cond] at h0 h1
  rw [BitVec.toInt_eq_toNat_cond]
  split_ifs at h0 h1 ⊢ with hc
  · exact ⟨rfl, by omega⟩
  · omega

theorem srcRow_val {w : BitVec 32} (h0 : 0 ≤ w.toInt) (h1 : w.toInt < 100000) : (srcRow w).val = w.toNat := by
  have := (toNat_of_node h0 h1).2
  show min w.toNat 99999 = w.toNat
  omega

def aggSum (xs : Feat) (ei : Edges) (n : Fin 100000) (k : Fin 128) : EReal :=
  ∑ e : Fin 600000, if (dst ei e).toInt = (n.val : ℤ) then xs (ix2 (srcRow (src ei e)) k) else 0

def aggCnt (ei : Edges) (n : Fin 100000) : EReal :=
  ∑ e : Fin 600000, if (dst ei e).toInt = (n.val : ℤ) then (1 : EReal) else 0

def aggMean (xs : Feat) (ei : Edges) (n : Fin 100000) (k : Fin 128) : EReal :=
  Ideal.div (aggSum xs ei n k) (max (aggCnt ei n) 1)

def sageAt (xs xd : Feat) (ei : Edges) (Wl : Wt) (bl : Bias) (Wr : Wt) (n : Fin 100000) (f : Fin 128) : EReal :=
  ((∑ k : Fin 128, aggMean xs ei n k * Wl (ix2 f k)) + bl (ix1 f)) + ∑ k : Fin 128, xd (ix2 n k) * Wr (ix2 f k)

def sage (xs xd : Feat) (ei : Edges) (Wl : Wt) (bl : Bias) (Wr : Wt) : Feat :=
  fun i => sageAt xs xd ei Wl bl Wr (i 0) (i 1)

def relu (x : Feat) : Feat := fun i => max (x i) 0

theorem sage_ix2 (xs xd : Feat) (ei : Edges) (Wl : Wt) (bl : Bias) (Wr : Wt) (n : Fin 100000) (f : Fin 128) :
    sage xs xd ei Wl bl Wr (ix2 n f) = sageAt xs xd ei Wl bl Wr n f := rfl

def hTeam (xp xt : Feat) (ept : Edges) (Wl0pt : Wt) (bl0pt : Bias) (Wr0pt : Wt) : Feat :=
  relu (sage xp xt ept Wl0pt bl0pt Wr0pt)

def hPlayer (xp xt : Feat) (etp : Edges) (Wl0tp : Wt) (bl0tp : Bias) (Wr0tp : Wt) : Feat :=
  relu (sage xt xp etp Wl0tp bl0tp Wr0tp)

def oTeam (xp xt : Feat) (ept etp : Edges) (Wl0pt : Wt) (bl0pt : Bias) (Wr0pt : Wt) (Wl0tp : Wt) (bl0tp : Bias) (Wr0tp : Wt)
    (Wl1pt : Wt) (bl1pt : Bias) (Wr1pt : Wt) : Feat :=
  sage (hPlayer xp xt etp Wl0tp bl0tp Wr0tp) (hTeam xp xt ept Wl0pt bl0pt Wr0pt) ept Wl1pt bl1pt Wr1pt

def oPlayer (xp xt : Feat) (ept etp : Edges) (Wl0pt : Wt) (bl0pt : Bias) (Wr0pt : Wt) (Wl0tp : Wt) (bl0tp : Bias) (Wr0tp : Wt)
    (Wl1tp : Wt) (bl1tp : Bias) (Wr1tp : Wt) : Feat :=
  sage (hTeam xp xt ept Wl0pt bl0pt Wr0pt) (hPlayer xp xt etp Wl0tp bl0tp Wr0tp) etp Wl1tp bl1tp Wr1tp

end Cert.SageSpec

end
-- ==== Proof.Val.RowOps.lean ====
import Idealize.ShloMosaic.Lib.ValueIdx

noncomputable section

open scoped BigOperators

namespace Cert.RowOps

open Idealize.ShloMosaic Idealize.ShloMosaic.ValueIdx

abbrev SN : Shape := ⟨2, ![100000, 128]⟩

abbrev SI : Shape := ⟨2, ![600000, 1]⟩

abbrev SM : Shape := ⟨2, ![600000, 128]⟩

abbrev rowGather (wf : GatherDims.WF SN SI SM [1] [0] [] [0] [] 1 ![1, 128]) : GatherDims SN SI SM where
  offsetDims := [1]
  collapsedSliceDims := [0]
  operandBatchingDims := []
  startIndicesBatchingDims := []
  startIndexMap := [0]
  indexVectorDim := 1
  sliceSizes := ![1, 128]
  wf := wf

theorem rowGather_apply {α : Type} (wf : GatherDims.WF SN SI SM [1] [0] [] [0] [] 1 ![1, 128])
    (x : SN.Idx → α) (idx : IVec SI 32) (e : Fin 600000) (k : Fin 128) :
    Host.gather (rowGather wf) x idx (ix2 e k)
      = x (ix2 (⟨min (idx (ix2 e (0 : Fin 1))).toInt.toNat 99999, by omega⟩ : Fin 100000) k) := by
  unfold Host.gather
  congr 1
  funext a
  refine Fin.ext ?_
  match a with
  | ⟨0, _⟩ =>
    show (rowGather wf).start (ix2 e k) idx 0 + (rowGather wf).batchCoord (ix2 e k) 0 + (rowGather wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather wf).startIndexMap from List.mem_singleton.mpr rfl)]
    have hsi : (rowGather wf).siIdx (ix2 e k) ⟨List.idxOf (0 : Fin 2) (rowGather wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather wf).start (ix2 e k) idx 1 + (rowGather wf).batchCoord (ix2 e k) 1 + (rowGather wf).offCoord (ix2 e k) 1 = k.val
    have hs : (rowGather wf).start (ix2 e k) idx 1 = 0 := by
      unfold GatherDims.start
      rw [dif_neg (show ¬ (1 : Fin 2) ∈ ([0] : List (Fin 2)) by decide)]
    have hk : (1 : Fin 2) ∈ (rowGather wf).sKept :=
      (GatherDims.mem_sKept _ _).mpr ⟨(show ¬ (1 : Fin 2) ∈ ([0] : List (Fin 2)) by decide), List.not_mem_nil⟩
    rw [hs, GatherDims.batchCoord_eq_zero _ _ _ List.not_mem_nil]
    simp only [Nat.zero_add, Nat.add_zero]
    unfold GatherDims.offCoord
    rw [dif_pos hk]
    rfl

theorem rowGather_apply_of {α : Type} (wf : GatherDims.WF SN SI SM [1] [0] [] [0] [] 1 ![1, 128])
    (x : SN.Idx → α) (idx : IVec SI 32) (e : Fin 600000) (k : Fin 128) (r : Fin 100000)
    (hr : r.val = min (idx (ix2 e (0 : Fin 1))).toInt.toNat 99999) :
    Host.gather (rowGather wf) x idx (ix2 e k) = x (ix2 r k) := by
  rw [rowGather_apply]
  exact congrArg (fun q : Fin 100000 => x (ix2 q k)) (Fin.ext hr.symm)

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  next h =>
    constructor
    · intro hf a
      have hfa : (d.start j idx a + (d.window j a : ℤ)).toNat = (i a).val :=
        congrArg Fin.val (congrFun (Option.some.inj hf) a)
      have h0 := (h a).1
      omega
    · intro hall
      refine congrArg some (funext fun a => Fin.ext ?_)
      have h1 := hall a
      have h0 := (h a).1
      show (d.start j idx a + (d.window j a : ℤ)).toNat = (i a).val
      omega
  next h =>
    constructor
    · intro hh
      cases hh
    · intro hall
      refine absurd (fun a => ?_) h
      have h1 := hall a
      have h2 := (i a).isLt
      constructor <;> omega

theorem mem_sKept_iff {s si u : Shape} (d : ScatterDims s si u) (a : Fin s.rank) : a ∈ d.sKept ↔ a ∉ d.insertedWindowDims := by
  simp [ScatterDims.sKept, Shape.kept, List.mem_filter, List.mem_finRange]

section Rows
variable {D : Nat}

abbrev rowScatter (D : Nat) (wf : ScatterDims.WF ⟨2, ![100000, D]⟩ SI ⟨2, ![600000, D]⟩ [1] [0] [0] 1) :
    ScatterDims ⟨2, ![100000, D]⟩ SI ⟨2, ![600000, D]⟩ where
  updateWindowDims := [1]
  insertedWindowDims := [0]
  scatterDimsToOperandDims := [0]
  indexVectorDim := 1
  wf := wf

variable (wf : ScatterDims.WF ⟨2, ![100000, D]⟩ SI ⟨2, ![600000, D]⟩ [1] [0] [0] 1) (idx : IVec SI 32)
  (e : Fin 600000) (k' : Fin D)

theorem rowScatter_start0 : (rowScatter D wf).start (ix2 e k') idx 0 = (idx (ix2 e (0 : Fin 1))).toInt := by
  unfold ScatterDims.start
  rw [dif_pos (show (0 : Fin 2) ∈ (rowScatter D wf).scatterDimsToOperandDims from List.mem_singleton.mpr rfl)]
  have hsi : (rowScatter D wf).siIdx (ix2 e k') ⟨List.idxOf (0 : Fin 2) (rowScatter D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatter D wf).start (ix2 e k') idx 1 = 0 := by
  unfold ScatterDims.start
  rw [dif_neg (show ¬ (1 : Fin 2) ∈ ([0] : List (Fin 2)) by decide)]

theorem rowScatter_window0 : (rowScatter D wf).window (ix2 e k') 0 = 0 := by
  have h0 : ¬ (0 : Fin 2) ∈ (rowScatter D wf).sKept := fun h => (mem_sKept_iff _ _).mp h (List.mem_singleton.mpr rfl)
  unfold ScatterDims.window
  rw [dif_neg h0]

theorem rowScatter_window1 : (rowScatter D wf).window (ix2 e k') 1 = k'.val := by
  have hk : (1 : Fin 2) ∈ (rowScatter D wf).sKept := (mem_sKept_iff _ _).mpr (show ¬ (1 : Fin 2) ∈ ([0] : List (Fin 2)) by decide)
  unfold ScatterDims.window
  rw [dif_pos hk]
  rfl

theorem rowScatter_resultIdx (n : Fin 100000) (k : Fin D) :
    (rowScatter D wf).resultIdx? (ix2 e k') idx = some (ix2 n k)
      ↔ (idx (ix2 e (0 : Fin 1))).toInt = (n.val : ℤ) ∧ k' = k := by
  rw [resultIdx?_eq_some_iff]
  constructor
  · intro h
    have h0 : (rowScatter D wf).start (ix2 e k') idx 0 + ((rowScatter D wf).window (ix2 e k') 0 : ℤ) = (n.val : ℤ) := h 0
    have h1 : (rowScatter D wf).start (ix2 e k') idx 1 + ((rowScatter D wf).window (ix2 e k') 1 : ℤ) = (k.val : ℤ) := h 1
    rw [rowScatter_start0, rowScatter_window0] at h0
    rw [rowScatter_start1, rowScatter_window1] at h1
    refine ⟨by omega, Fin.ext (by omega)⟩
  · rintro ⟨hn, hk⟩ a
    match a with
    | ⟨0, _⟩ =>
      show (rowScatter D wf).start (ix2 e k') idx 0 + ((rowScatter D wf).window (ix2 e k') 0 : ℤ) = (n.val : ℤ)
      rw [rowScatter_start0, rowScatter_window0]
      omega
    | ⟨1, _⟩ =>
      show (rowScatter D wf).start (ix2 e k') idx 1 + ((rowScatter D wf).window (ix2 e k') 1 : ℤ) = (k.val : ℤ)
      rw [rowScatter_start1, rowScatter_window1, hk]
      omega

theorem rowScatter_apply (x : (⟨2, ![100000, D]⟩ : Shape).Idx → EReal) (upd : (⟨2, ![600000, D]⟩ : Shape).Idx → EReal)
    (n : Fin 100000) (k : Fin D) :
    Ideal.hostScatterAdd (rowScatter D wf) x idx upd (ix2 n k)
      = x (ix2 n k) + ∑ e : Fin 600000, if (idx (ix2 e (0 : Fin 1))).toInt = (n.val : ℤ) then upd (ix2 e k) else 0 := by
  unfold Ideal.hostScatterAdd
  refine congrArg (fun z : EReal => x (ix2 n k) + z) ?_
  rw [Finset.sum_filter, sum_idx2]
  refine Finset.sum_congr rfl fun e _ => ?_
  by_cases hn : (idx (ix2 e (0 : Fin 1))).toInt = (n.val : ℤ)
  · rw [if_pos hn, Finset.sum_eq_single k]
    · exact if_pos ((rowScatter_resultIdx wf idx e k n k).mpr ⟨hn, rfl⟩)
    · intro k' _ hk'
      exact if_neg (fun h => hk' ((rowScatter_resultIdx wf idx e k' n k).mp h).2)
    · intro h
      exact absurd (Finset.mem_univ k) h
  · rw [if_neg hn]
    exact Finset.sum_eq_zero fun k' _ => if_neg (fun h => hn ((rowScatter_resultIdx wf idx e k' n k).mp h).1)

end Rows

end Cert.RowOps

end
-- ==== Proof.Val.RefSage.lean ====
import proofs.«411563_j39152921870698_3_alg».proof.Proof.Gen.ReferenceIdeal.Read
import proofs.«411563_j39152921870698_3_alg».proof.Proof.Val.SageSpec
import proofs.«411563_j39152921870698_3_alg».proof.Proof.Val.RowOps
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SageSpec Cert.RowOps

theorem gatherDims_eq :
    gather_S100000x128_S600000x1_S600000x128_1_0_n_n_0_1_1128 = rowGather Cert.ReferenceIdeal.Gen.gather_S100000x128_S600000x1_S600000x128_1_0_n_n_0_1_1128_wf := rfl
theorem scatterDims_eq :
    scatter_S100000x128_S600000x1_S600000x128_1_0_0_1 = rowScatter 128 Cert.ReferenceIdeal.Gen.scatter_S100000x128_S600000x1_S600000x128_1_0_0_1_wf := rfl
theorem countDims_eq :
    scatter_S100000x1_S600000x1_S600000x1_1_0_0_1 = rowScatter 1 Cert.ReferenceIdeal.Gen.scatter_S100000x1_S600000x1_S600000x1_1_0_0_1_wf := rfl

theorem idx9 (e : Fin 600000) : idx_main_v9 (ix2 e (0 : Fin 1)) = ix1 e := by
  funext a; match a with | ⟨0, _⟩ => rfl
theorem idx12 (e : Fin 600000) : idx_main_v12 (ix2 e (0 : Fin 1)) = ix1 e := by
  funext a; match a with | ⟨0, _⟩ => rfl
theorem idx16 (e : Fin 600000) : idx_main_v16 (ix2 e (0 : Fin 1)) = ix1 e := by
  funext a; match a with | ⟨0, _⟩ => rfl
theorem idx20 (n : Fin 100000) (k : Fin 128) : idx_main_v20 (ix2 n k) = ix2 n (0 : Fin 1) := by
  funext a; match a with | ⟨0, _⟩ => rfl | ⟨1, _⟩ => rfl
theorem lidx23 (n : Fin 100000) (f k : Fin 128) : lidx_main_v23 (ix2 n f) k = ix2 n k := by
  funext a; match a with | ⟨0, _⟩ => rfl | ⟨1, _⟩ => rfl
theorem ridx23 (n : Fin 100000) (f k : Fin 128) : ridx_main_v23 (ix2 n f) k = ix2 k f := by
  funext a; match a with | ⟨0, _⟩ => rfl | ⟨1, _⟩ => rfl
theorem lidx28 (n : Fin 100000) (f k : Fin 128) : lidx_main_v28 (ix2 n f) k = ix2 n k := by
  funext a; match a with | ⟨0, _⟩ => rfl | ⟨1, _⟩ => rfl
theorem ridx28 (n : Fin 100000) (f k : Fin 128) : ridx_main_v28 (ix2 n f) k = ix2 k f := by
  funext a; match a with | ⟨0, _⟩ => rfl | ⟨1, _⟩ => rfl
theorem idx22 (k f : Fin 128) : idx_main_v22 (ix2 k f) = ix2 f k := by
  funext a; match a with | ⟨0, _⟩ => rfl | ⟨1, _⟩ => rfl
theorem idx27 (k f : Fin 128) : idx_main_v27 (ix2 k f) = ix2 f k := by
  funext a; match a with | ⟨0, _⟩ => rfl | ⟨1, _⟩ => rfl
theorem idx2425 (n : Fin 100000) (f : Fin 128) : idx_main_v24 (idx_main_v25 (ix2 n f)) = ix1 f := by
  funext a; match a with | ⟨0, _⟩ => rfl

theorem src_read (ei : Edges) (e : Fin 600000) : val_main_v1 (F := Ideal) ei (ix1 e) = src ei e := by
  rw [val_main_v1_apply, val_main_v0_apply]
  unfold src
  congr 1
  funext a
  refine Fin.ext ?_
  match a with
  | ⟨0, _⟩ => rfl
  | ⟨1, _⟩ => exact Nat.mod_eq_of_lt e.isLt

theorem dst_read (ei : Edges) (e : Fin 600000) : val_main_v3 (F := Ideal) ei (ix1 e) = dst ei e := by
  rw [val_main_v3_apply, val_main_v2_apply]
  unfold dst
  congr 1
  funext a
  refine Fin.ext ?_
  match a with
  | ⟨0, _⟩ => rfl
  | ⟨1, _⟩ => exact Nat.mod_eq_of_lt e.isLt

theorem start_read (ei : Edges) (e : Fin 600000) (h0 : 0 ≤ (src ei e).toInt) :
    val_main_v8 (F := Ideal) ei (ix1 e) = src ei e := by
  rw [val_main_v8_apply, val_main_v5_apply, val_main_v4_apply, val_main_c_apply, src_read]
  have hz : (0#32 : BitVec 32).toInt = 0 := by decide
  have hc : ¬ IntOp.cmpi .slt (src ei e) 0#32 = 1#1 := by
    rw [IntOp.cmpi_slt, hz]
    omega
  rw [eq_zero_of_ne_one hc, select_zero]

theorem gather_read (xs : Feat) (ei : Edges) (hok : SrcOk ei) (e : Fin 600000) (k : Fin 128) :
    val_main_v10 (F := Ideal) xs ei (ix2 e k) = xs (ix2 (srcRow (src ei e)) k) := by
  obtain ⟨h0, h1⟩ := hok e
  have hr : (srcRow (src ei e)).val = min (val_main_v9 (F := Ideal) ei (ix2 e (0 : Fin 1))).toInt.toNat 99999 := by
    rw [val_main_v9_apply, idx9, start_read ei e h0]
    show min (src ei e).toNat 99999 = min (src ei e).toInt.toNat 99999
    have := (toNat_of_node h0 h1).1
    omega
  unfold val_main_v10
  rw [gatherDims_eq]
  exact rowGather_apply_of _ xs (val_main_v9 (F := Ideal) ei) e k (srcRow (src ei e)) hr

theorem zeros11 (i : S100000x128.Idx) : (val_main_v11 (F := Ideal) i : EReal) = 0 := by
  rw [val_main_v11_apply, val_main_cst_apply, Ideal.ofBits_def, Ideal.ofBits_zero_f32]

theorem zeros15 (i : S100000x1.Idx) : (val_main_v15 (F := Ideal) i : EReal) = 0 := by
  rw [val_main_v15_apply, val_main_cst_2_apply, Ideal.ofBits_def, Ideal.ofBits_zero_f32]

theorem ones14 (i : S600000x1.Idx) : (val_main_v14 (F := Ideal) i : EReal) = 1 := by
  rw [val_main_v14_apply, val_main_cst_1_apply, Ideal.ofBits_def, Ideal.ofBits_one_f32]

theorem ones18 (i : S100000x1.Idx) : (val_main_v18 (F := Ideal) i : EReal) = 1 := by
  rw [val_main_v18_apply, val_main_cst_3_apply, Ideal.ofBits_def, Ideal.ofBits_one_f32]

theorem sum_read (xs : Feat) (ei : Edges) (hok : SrcOk ei) (n : Fin 100000) (k : Fin 128) :
    val_main_v13 (F := Ideal) xs ei (ix2 n k) = aggSum xs ei n k := by
  unfold val_main_v13 Host.scatterAdd
  rw [Ideal.hostScatterAdd_def, scatterDims_eq, rowScatter_apply, zeros11, zero_add]
  unfold aggSum
  refine Finset.sum_congr rfl fun e _ => ?_
  rw [val_main_v12_apply, idx12, dst_read, gather_read xs ei hok]

theorem cnt_read (ei : Edges) (n : Fin 100000) :
    val_main_v17 (F := Ideal) ei (ix2 n (0 : Fin 1)) = aggCnt ei n := by
  unfold val_main_v17 Host.scatterAdd
  rw [Ideal.hostScatterAdd_def, countDims_eq, rowScatter_apply, zeros15, zero_add]
  unfold aggCnt
  refine Finset.sum_congr rfl fun e _ => ?_
  rw [val_main_v16_apply, idx16, dst_read, ones14]

theorem mean_read (xs : Feat) (ei : Edges) (hok : SrcOk ei) (n : Fin 100000) (k : Fin 128) :
    val_main_v21 (F := Ideal) xs ei (ix2 n k) = aggMean xs ei n k := by
  rw [val_main_v21_apply, Ideal.hostDivf_def, sum_read xs ei hok, val_main_v20_apply, idx20, val_main_v19_apply,
    Ideal.maximumf_def, cnt_read, ones18]
  rfl

theorem dotl_read (xs : Feat) (ei : Edges) (hok : SrcOk ei) (Wl : Wt) (n : Fin 100000) (f : Fin 128) :
    val_main_v23 (F := Ideal) xs ei Wl (ix2 n f) = ∑ k : Fin 128, aggMean xs ei n k * Wl (ix2 f k) := by
  rw [val_main_v23_apply]
  refine Finset.sum_congr rfl fun k _ => ?_
  rw [lidx23, ridx23, mean_read xs ei hok, val_main_v22_apply, idx22]

theorem bias_read (bl : Bias) (n : Fin 100000) (f : Fin 128) : val_main_v25 (F := Ideal) bl (ix2 n f) = bl (ix1 f) := by
  rw [val_main_v25_apply, val_main_v24_apply, idx2425]

theorem dotr_read (xd : Feat) (Wr : Wt) (n : Fin 100000) (f : Fin 128) :
    val_main_v28 (F := Ideal) xd Wr (ix2 n f) = ∑ k : Fin 128, xd (ix2 n k) * Wr (ix2 f k) := by
  rw [val_main_v28_apply]
  refine Finset.sum_congr rfl fun k _ => ?_
  rw [lidx28, ridx28, val_main_v27_apply, idx27]

theorem sage_read (xs xd : Feat) (ei : Edges) (hok : SrcOk ei) (Wl : Wt) (bl : Bias) (Wr : Wt) :
    val_main_v29 (F := Ideal) xs xd ei Wl bl Wr = sage xs xd ei Wl bl Wr := by
  funext i
  obtain ⟨n, f, rfl⟩ : ∃ n f, i = ix2 n f := ⟨i 0, i 1, eq_ix2 i⟩
  rw [val_main_v29_apply, val_main_v26_apply, Ideal.addf_def, Ideal.addf_def, dotl_read xs ei hok, bias_read, dotr_read]
  rfl

theorem relu60 (y : (⟨S100000x128, .f32⟩ : BufTy).Contents (Elt Ideal)) (i : S100000x128.Idx) :
    FloatOps.maximumf (F := Ideal) (φ := .f32) (y i) (val_main_call0_v0 (F := Ideal) i) = relu y i := by
  rw [Ideal.maximumf_def, val_main_call0_v0_apply, val_main_call0_cst_apply, Ideal.ofBits_def, Ideal.ofBits_zero_f32]
  rfl
theorem relu61 (y : (⟨S100000x128, .f32⟩ : BufTy).Contents (Elt Ideal)) (i : S100000x128.Idx) :
    FloatOps.maximumf (F := Ideal) (φ := .f32) (y i) (val_main_call1_v0 (F := Ideal) i) = relu y i := by
  rw [Ideal.maximumf_def, val_main_call1_v0_apply, val_main_call1_cst_apply, Ideal.ofBits_def, Ideal.ofBits_zero_f32]
  rfl

end Cert.ReferenceIdeal.RefValue

end
-- ==== Proof.Val.Ref.lean ====
import proofs.«411563_j39152921870698_3_alg».proof.Defs
import proofs.«411563_j39152921870698_3_alg».proof.Proof.Gen.ReferenceIdeal
import proofs.«411563_j39152921870698_3_alg».proof.Proof.Gen.ReferenceIdeal.Run
import proofs.«411563_j39152921870698_3_alg».proof.Proof.Gen.ReferenceIdeal.Read
import proofs.«411563_j39152921870698_3_alg».proof.Proof.Val.RefSage

noncomputable section

namespace Cert.ReferenceIdeal.RefValue

open Cert.ReferenceIdeal Cert.ReferenceIdeal.Gen Cert.ReferenceIdeal.Read Idealize.ShloMosaic Idealize.ShloMosaic.TcCoe Idealize.SL.Sem
open Cert.SageSpec

theorem hTeam_read (x0 x1 : Feat) (x2 : Edges) (h2 : SrcOk x2) (x4 : Wt) (x5 : Bias) (x6 : Wt) :
    val_main_v60 (F := Ideal) x0 x1 x2 x4 x5 x6 = hTeam x0 x1 x2 x4 x5 x6 := by
  funext i
  rw [val_main_v60_apply, relu60 (val_main_v29 (F := Ideal) x0 x1 x2 x4 x5 x6) i, sage_read x0 x1 x2 h2]
  rfl

theorem hPlayer_read (x0 x1 : Feat) (x3 : Edges) (h3 : SrcOk x3) (x7 : Wt) (x8 : Bias) (x9 : Wt) :
    val_main_v61 (F := Ideal) x0 x1 x3 x7 x8 x9 = hPlayer x0 x1 x3 x7 x8 x9 := by
  funext i
  rw [val_main_v61_apply, relu61 (val_main_v59 (F := Ideal) x0 x1 x3 x7 x8 x9) i,
    show val_main_v59 (F := Ideal) x0 x1 x3 x7 x8 x9 = val_main_v29 (F := Ideal) x1 x0 x3 x7 x8 x9 from rfl, sage_read x1 x0 x3 h3]
  rfl

theorem oTeam_read (x0 x1 : Feat) (x2 x3 : Edges) (h2 : SrcOk x2) (h3 : SrcOk x3) (x4 : Wt) (x5 : Bias) (x6 x7 : Wt) (x8 : Bias)
    (x9 x10 : Wt) (x11 : Bias) (x12 : Wt) :
    val_main_v91 (F := Ideal) x0 x1 x2 x3 x4 x5 x6 x7 x8 x9 x10 x11 x12 = oTeam x0 x1 x2 x3 x4 x5 x6 x7 x8 x9 x10 x11 x12 := by
  show val_main_v29 (F := Ideal) (val_main_v61 (F := Ideal) x0 x1 x3 x7 x8 x9) (val_main_v60 (F := Ideal) x0 x1 x2 x4 x5 x6) x2 x10 x11 x12 = _
  rw [sage_read _ _ x2 h2, hPlayer_read x0 x1 x3 h3, hTeam_read x0 x1 x2 h2]
  rfl

theorem oPlayer_read (x0 x1 : Feat) (x2 x3 : Edges) (h2 : SrcOk x2) (h3 : SrcOk x3) (x4 : Wt) (x5 : Bias) (x6 x7 : Wt) (x8 : Bias)
    (x9 x13 : Wt) (x14 : Bias) (x15 : Wt) :
    val_main_v121 (F := Ideal) x0 x1 x2 x3 x4 x5 x6 x7 x8 x9 x13 x14 x15 = oPlayer x0 x1 x2 x3 x4 x5 x6 x7 x8 x9 x13 x14 x15 := by
  show val_main_v29 (F := Ideal) (val_main_v60 (F := Ideal) x0 x1 x2 x4 x5 x6) (val_main_v61 (F := Ideal) x0 x1 x3 x7 x8 x9) x3 x13 x14 x15 = _
  rw [sage_read _ _ x3 h3, hPlayer_read x0 x1 x3 h3, hTeam_read x0 x1 x2 h2]
  rfl

theorem frame_holds [hPre : Cert.Pre_finite_inputs.Facts] :
    Cert.frame_ReferenceIdeal (hReferenceIdeal := Cert.ReferenceIdeal.Gen.facts) (hPre_finite_inputs := hPre) :=
  fun m ρ _ => (θ_run (Cert.ReferenceIdeal.defs (F := Ideal)) _ _).mono (fun _ h c => (h c).2.2)
    (Cert.ReferenceIdeal.Value.run (F := Ideal) m ρ)

end Cert.ReferenceIdeal.RefValue

end
-- ==== Proof.Val.Core.lean ====
import Mathlib.Algebra.BigOperators.Fin
import Mathlib.Data.Fintype.BigOperators
import Mathlib.Algebra.BigOperators.Group.Finset.Piecewise
import Mathlib.Logic.Equiv.Fin.Basic

namespace Cert.Val.Core

open Finset

abbrev pos (e : Fin 293) (l : Fin 2048) : Fin 600064 :=
  ⟨2048 * e.val + l.val, by have := e.isLt; have := l.isLt; omega⟩

abbrev emb (k : Fin 600000) : Fin 600064 := ⟨k.val, by have := k.isLt; omega⟩

def blockEquiv : Fin 293 × Fin 2048 ≃ Fin 600064 where
  toFun x := pos x.1 x.2
  invFun p := (⟨p.val / 2048, by have := p.isLt; omega⟩, ⟨p.val % 2048, by omega⟩)
  left_inv := by
    rintro ⟨⟨e, he⟩, ⟨l, hl⟩⟩
    simp only [pos, Prod.mk.injEq, Fin.mk.injEq]
    constructor <;> omega
  right_inv := by
    rintro ⟨p, hp⟩
    simp only [pos, Fin.mk.injEq]
    omega

variable {M : Type*} [AddCommMonoid M]

theorem sum_blocks (f : Fin 600064 → M) :
    ∑ e : Fin 293, ∑ l : Fin 2048, f (pos e l) = ∑ p : Fin 600064, f p :=
  calc ∑ e : Fin 293, ∑ l : Fin 2048, f (pos e l)
      = ∑ x : Fin 293 × Fin 2048, f (blockEquiv x) :=
        (Fintype.sum_prod_type' (fun e l => f (pos e l))).symm
    _ = ∑ p : Fin 600064, f p := Equiv.sum_comp blockEquiv f

theorem sum_blocks_guard (f : Fin 600064 → M) (G : Fin 293 → Prop) [DecidablePred G]
    (hG : ∀ e l, ¬ G e → f (pos e l) = 0) :
    (∑ e : Fin 293, if G e then ∑ l : Fin 2048, f (pos e l) else 0) = ∑ p : Fin 600064, f p := by
  rw [← sum_blocks f]
  refine Finset.sum_congr rfl fun e _ => ?_
  by_cases h : G e
  · rw [if_pos h]
  · rw [if_neg h]
    exact (Finset.sum_eq_zero fun l _ => hG e l h).symm

theorem sum_perm (σ : Fin 600064 ≃ Fin 600064) (dstp dsts : Fin 600064 → ℤ)
    (msgp msg : Fin 600064 → M) (hd : ∀ p, dsts p = dstp (σ p)) (hm : ∀ p, msg p = msgp (σ p))
    (n : ℤ) :
    ∑ p : Fin 600064, (if dsts p = n then msg p else 0)
      = ∑ p : Fin 600064, (if dstp p = n then msgp p else 0) := by
  rw [← Equiv.sum_comp σ (fun p => if dstp p = n then msgp p else 0)]
  refine Finset.sum_congr rfl fun p _ => ?_
  rw [hd p, hm p]

theorem edge_sum_of_guard (σ : Fin 600064 ≃ Fin 600064) (dstp dsts : Fin 600064 → ℤ)
    (msgp msg : Fin 600064 → M) (hd : ∀ p, dsts p = dstp (σ p)) (hm : ∀ p, msg p = msgp (σ p))
    (G : Fin 293 → Prop) [DecidablePred G] (n : ℤ)
    (hG : ∀ e l, dsts (pos e l) = n → G e) :
    (∑ e : Fin 293, if G e then
        ∑ l : Fin 2048, (if dsts (pos e l) = n then msg (pos e l) else 0) else 0)
      = ∑ p : Fin 600064, (if dstp p = n then msgp p else 0) := by
  rw [← sum_perm σ dstp dsts msgp msg hd hm n]
  refine sum_blocks_guard (fun p => if dsts p = n then msg p else 0) G fun e l h => ?_
  by_cases hn : dsts (pos e l) = n
  · exact absurd (hG e l hn) h
  · exact if_neg hn

theorem edge_sum_pad (dstp : Fin 600064 → ℤ) (msgp : Fin 600064 → M)
    (hpad : ∀ p : Fin 600064, 600000 ≤ p.val → dstp p = 100000) (n : ℤ) (hn : n ≠ 100000) :
    ∑ p : Fin 600064, (if dstp p = n then msgp p else 0)
      = ∑ k : Fin 600000, (if dstp (emb k) = n then msgp (emb k) else 0) := by
  have hz : ∑ i : Fin 64, (if dstp (Fin.natAdd 600000 i) = n then msgp (Fin.natAdd 600000 i) else 0)
      = 0 := by
    refine Finset.sum_eq_zero fun i _ => ?_
    have h64 : dstp (Fin.natAdd 600000 i) = 100000 := by
      apply hpad
      show 600000 ≤ 600000 + i.val
      omega
    rw [h64]
    exact if_neg fun h => hn h.symm
  calc ∑ p : Fin 600064, (if dstp p = n then msgp p else 0)
      = ∑ k : Fin 600000, (if dstp (Fin.castAdd 64 k) = n then msgp (Fin.castAdd 64 k) else 0)
        + ∑ i : Fin 64, (if dstp (Fin.natAdd 600000 i) = n then msgp (Fin.natAdd 600000 i) else 0) :=
        Fin.sum_univ_add (a := 600000) (b := 64) (fun p => if dstp p = n then msgp p else 0)
    _ = ∑ k : Fin 600000, (if dstp (emb k) = n then msgp (emb k) else 0) := by
        rw [hz, add_zero]
        rfl

theorem onehot_sum (B : ℕ) (c w : ℤ) (g : ℕ → M) :
    ∑ r : Fin B, (if c + (r.val : ℤ) = w then g r.val else 0)
      = if c ≤ w ∧ w < c + (B : ℤ) then g (w - c).toNat else 0 := by
  by_cases h : c ≤ w ∧ w < c + (B : ℤ)
  · rw [if_pos h]
    have hlt : (w - c).toNat < B := by omega
    rw [Fintype.sum_eq_single (⟨(w - c).toNat, hlt⟩ : Fin B)]
    · apply if_pos
      show c + (((w - c).toNat : ℕ) : ℤ) = w
      omega
    · intro b hb
      apply if_neg
      intro hbw
      apply hb
      apply Fin.ext
      show b.val = (w - c).toNat
      omega
  · rw [if_neg h]
    refine Finset.sum_eq_zero fun r _ => ?_
    apply if_neg
    intro hr
    apply h
    have := r.isLt
    omega

theorem onehot_row (a : ℕ) (w : ℤ) (g : ℕ → M) :
    ∑ r : Fin 2000, (if 2000 * (a : ℤ) + (r.val : ℤ) = w then g r.val else 0)
      = if 2000 * (a : ℤ) ≤ w ∧ w < 2000 * (a : ℤ) + 2000 then g (w - 2000 * (a : ℤ)).toNat
        else 0 :=
  onehot_sum 2000 (2000 * (a : ℤ)) w g

theorem onehot_rows (w : ℤ) (x : ℕ → M) :
    ∑ a : Fin 50, ∑ r : Fin 2000,
        (if 2000 * (a.val : ℤ) + (r.val : ℤ) = w then x (2000 * a.val + r.val) else 0)
      = if 0 ≤ w ∧ w < 100000 then x w.toNat else 0 := by
  have hin : ∀ a : Fin 50, ∑ r : Fin 2000,
        (if 2000 * (a.val : ℤ) + (r.val : ℤ) = w then x (2000 * a.val + r.val) else 0)
      = if 2000 * (a.val : ℤ) ≤ w ∧ w < 2000 * (a.val : ℤ) + 2000 then x w.toNat else 0 := by
    intro a
    refine (onehot_row a.val w (fun r => x (2000 * a.val + r))).trans ?_
    by_cases h : 2000 * (a.val : ℤ) ≤ w ∧ w < 2000 * (a.val : ℤ) + 2000
    · rw [if_pos h, if_pos h]
      congr 1
      omega
    · rw [if_neg h, if_neg h]
  refine (Fintype.sum_congr _ _ hin).trans ?_
  by_cases h : 0 ≤ w ∧ w < 100000
  · rw [if_pos h]
    have hlt : (w / 2000).toNat < 50 := by omega
    rw [Fintype.sum_eq_single (⟨(w / 2000).toNat, hlt⟩ : Fin 50)]
    · apply if_pos
      show 2000 * (((w / 2000).toNat : ℕ) : ℤ) ≤ w ∧ w < 2000 * (((w / 2000).toNat : ℕ) : ℤ) + 2000
      omega
    · intro b hb
      apply if_neg
      intro hbw
      apply hb
      apply Fin.ext
      show b.val = (w / 2000).toNat
      omega
  · rw [if_neg h]
    refine Finset.sum_eq_zero fun a _ => ?_
    apply if_neg
    intro ha
    apply h
    have := a.isLt
    omega

theorem toNat_lt {w : ℤ} (h : 0 ≤ w ∧ w < 100000) : w.toNat < 100000 := by omega

end Cert.Val.Core
-- ==== Proof.KI.GatherValue.lean ====
import proofs.«411563_j39152921870698_3_alg».proof.Proof.KI.GatherKernel
import proofs.«411563_j39152921870698_3_alg».proof.Proof.Val.Core
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen Cert.Lib
open Idealize.ShloMosaic Idealize.ShloMosaic.TcCoe Idealize.SL.Sem
open Idealize.ShloMosaic.ValueIdx

theorem gatherTrips : k0_t1_loop.trips = 50 := by decide +kernel

theorem gatherSlabBase : ∀ k : Fin k0_t1_loop.trips, Scalar.muli (Scf.iv 0#32 1#32 k) 2000#32 = BitVec.ofNat 32 (2000 * k.val) := by
  decide +kernel

-- A natural number below 2^31, as a 32-bit word, equals a word exactly when it is the word's signed value.
theorem ofNatEqIff (n : ℕ) (hn : n < 2147483648) (w : BitVec 32) : BitVec.ofNat 32 n = w ↔ (n : ℤ) = w.toInt := by
  rw [BitVec.toInt_eq_toNat_cond, ← BitVec.toNat_inj, BitVec.toNat_ofNat]
  have hw : w.toNat < 4294967296 := w.isLt
  constructor
  · intro h; split <;> omega
  · intro h; split at h <;> omega

-- The widened comparison bit, converted: 1 where the two words are equal, 0 elsewhere.
theorem sitofpEqBit (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    have hb : (a == a) = true := beq_self_eq_true a
    rw [if_pos rfl, show (IntOp.cmpi .eq a a).setWidth 32 = 1#32 from by simp only [IntOp.cmpi, hb]; decide,
      show (1#32 : BitVec 32).toInt = 1 from by decide]
    norm_num
  · have hb : (a == b) = false := beq_eq_false_iff_ne.mpr h
    rw [if_neg h, show (IntOp.cmpi .eq a b).setWidth 32 = 0#32 from by simp only [IntOp.cmpi, hb]; decide,
      show (0#32 : BitVec 32).toInt = 0 from by decide]
    norm_num

-- The slab product into the zero block: at (l, f) the sum over the slab's rows r of A (r, l) * B (r, f).
theorem gatherDot_apply (A : FVec Ideal S2000x2048 .bf16) (B : FVec Ideal S2000x128 .bf16) (l : Fin 2048) (f : Fin 128) :
    matmul dot_S2000x2048_S2000x128_S2048x128_0_0_1_1_n_n none A B (constant S2048x128 .f32 0x00000000#32) (ix2 l f)
      = ∑ r : Fin 2000, A (ix2 r l) * B (ix2 r f) := by
  show FloatOps.matmul dot_S2000x2048_S2000x128_S2048x128_0_0_1_1_n_n none A B (constant S2048x128 .f32 0x00000000#32) (ix2 l f) = _
  rw [Ideal.matmul_constant_zero_apply,
    ← Equiv.sum_comp (contrEquiv1 dot_S2000x2048_S2000x128_S2048x128_0_0_1_1_n_n 2000 rfl rfl).symm]
  refine Finset.sum_congr rfl fun r _ => ?_
  have cr := contrEquiv1_symm_val dot_S2000x2048_S2000x128_S2048x128_0_0_1_1_n_n 2000 rfl rfl r
  have hl : dot_S2000x2048_S2000x128_S2048x128_0_0_1_1_n_n.lhsIdx (ix2 l f)
      ((contrEquiv1 dot_S2000x2048_S2000x128_S2048x128_0_0_1_1_n_n 2000 rfl rfl).symm r) = ix2 r l :=
    Shape.idx_ext₂ (by simp [DotDims.lhsIdx, dot_S2000x2048_S2000x128_S2048x128_0_0_1_1_n_n]; exact cr)
      (by simp [DotDims.lhsIdx, dot_S2000x2048_S2000x128_S2048x128_0_0_1_1_n_n]; rfl)
  have hr : dot_S2000x2048_S2000x128_S2048x128_0_0_1_1_n_n.rhsIdx (ix2 l f)
      ((contrEquiv1 dot_S2000x2048_S2000x128_S2048x128_0_0_1_1_n_n 2000 rfl rfl).symm r) = ix2 r f :=
    Shape.idx_ext₂ (by simp [DotDims.rhsIdx, dot_S2000x2048_S2000x128_S2048x128_0_0_1_1_n_n]; exact cr)
      (by simp [DotDims.rhsIdx, dot_S2000x2048_S2000x128_S2048x128_0_0_1_1_n_n]; rfl)
  rw [hl, hr]

theorem gatherPay1_apply (j : S2048x128.Idx) : (k0_pay1 (F := Ideal)) j = (0 : EReal) := by
  unfold k0_pay1
  simp only [shapeCast_self]
  exact Ideal.ofBits_zero_f32

-- Slab k adds, at (l, f), the slab's row r where row 2000k + r is the row index word l names.
theorem gatherPay2_apply (x1 : Vec Ideal S1x2048 .i32) (k : Fin k0_t1_loop.trips) (s : Vec Ideal S2000x128 .bf16)
    (a : Vec Ideal S2048x128 .f32) (l : Fin 2048) (f : Fin 128) :
    k0_pay2 (F := Ideal) x1 k s a (ix2 l f)
      = (a (ix2 l f) : EReal) + ∑ r : Fin 2000,
          (if 2000 * (k.val : ℤ) + (r.val : ℤ) = (x1 (ix2 0 l) : BitVec 32).toInt then (s (ix2 r f) : EReal) else 0) := by
  unfold k0_pay2
  simp only [shapeCast_self]
  refine (congrArg (fun z : EReal => (a (ix2 l f) : EReal) + z) (gatherDot_apply _ _ l f)).trans ?_
  refine congrArg (fun z : EReal => (a (ix2 l f) : EReal) + z) (Finset.sum_congr rfl fun r _ => ?_)
  have hk : k.val < 50 := lt_of_lt_of_eq k.isLt gatherTrips
  have hr : r.val < 2000 := r.isLt
  have hb : (2000 * (k.val : ℤ) + (r.val : ℤ) = (x1 (ix2 0 l) : BitVec 32).toInt)
      ↔ IntOp.addi (Scalar.muli (Scf.iv 0#32 1#32 k) 2000#32) (BitVec.ofNat 32 (0 * 2000 + r.val)) = x1 (ix2 0 l) := by
    rw [gatherSlabBase k, Nat.zero_mul, Nat.zero_add]
    show _ ↔ BitVec.ofNat 32 (2000 * k.val) + BitVec.ofNat 32 r.val = x1 (ix2 0 l)
    rw [← BitVec.ofNat_add, ofNatEqIff _ (by omega)]
    first | (push_cast; exact Iff.rfl) | push_cast
  refine Eq.trans ?_ ((boole_mul _ _).trans (if_congr hb.symm rfl rfl))
  refine congrArg (fun z : EReal => z * (s (ix2 r f) : EReal)) ?_
  refine Eq.trans ?_ (sitofpEqBit _ _)
  have e1 : broadcastTo S2000x2048 (addi (broadcast S2000x1 (Scalar.muli (Scf.iv 0#32 1#32 k) 2000#32)) (iota .tc S2000x1 32 [0] iota_S2000x1_d0_w32))
        broadcasts_S2000x1_S2000x2048 (ix2 r l)
      = IntOp.addi (Scalar.muli (Scf.iv 0#32 1#32 k) 2000#32) (BitVec.ofNat 32 (0 * 2000 + r.val)) :=
    broadcastTo_apply _ broadcasts_S2000x1_S2000x2048 (ix2 r l) (ix2 r 0) (fun ax => by
      match ax with
      | ⟨0, _⟩ => rfl
      | ⟨1, _⟩ => rfl)
  have e2 : broadcastTo S2000x2048 x1 broadcasts_S1x2048_S2000x2048 (ix2 r l) = x1 (ix2 0 l) :=
    broadcastTo_apply x1 broadcasts_S1x2048_S2000x2048 (ix2 r l) (ix2 0 l) (fun ax => by
      match ax with
      | ⟨0, _⟩ => rfl
      | ⟨1, _⟩ => rfl)
  exact congrArg₂ (fun a b : BitVec 32 => (FloatOps.sitofp (F := Ideal) .f32 ((IntOp.cmpi .eq a b).setWidth 32) : EReal)) e1 e2

-- Row n of the table at column f, and zero past the table's end.
def rowOr (x0 : Vec Ideal S100000x128 .bf16) (f : Fin 128) (n : ℕ) : EReal :=
  if h : n < 100000 then (x0 (ix2 ⟨n, h⟩ f) : EReal) else 0

theorem gatherSlab_apply (x0 : Vec Ideal S100000x128 .bf16) (k : Fin k0_t1_loop.trips) (r : Fin 2000) (f : Fin 128) :
    (View.ld x0 (gatherSlab k) (ix2 r f) : EReal) = rowOr x0 f (2000 * k.val + r.val) := by
  have hk : k.val < 50 := lt_of_lt_of_eq k.isLt gatherTrips
  have hr : r.val < 2000 := r.isLt
  unfold rowOr
  rw [dif_pos (show 2000 * k.val + r.val < 100000 by omega)]
  show (x0 ((gatherSlab k).idx (ix2 r f)) : EReal) = _
  refine congrArg (fun j => (x0 j : EReal)) (Shape.idx_ext₂ ?_ ?_)
  · show k0_off1 k 0 + 1 * r.val = 2000 * k.val + r.val
    rw [k0_off1_eq k]; show 2000 * k.val + 1 * r.val = _; omega
  · show k0_off1 k 1 + 1 * f.val = f.val
    rw [k0_off1_eq k]; show 0 + 1 * f.val = _; omega

-- After the slabs before k the accumulator, from zero, holds the one-hot sum over those slabs' rows.
theorem gatherAcc_apply (x0 : Vec Ideal S100000x128 .bf16) (x1 : Vec Ideal S1x2048 .i32) (l : Fin 2048) (f : Fin 128) :
    ∀ k (hk : k ≤ k0_t1_loop.trips),
      (gatherAcc (F := Ideal) x0 x1 (k0_pay1 (F := Ideal)) k (ix2 l f) : EReal)
        = ∑ a : Fin k, ∑ r : Fin 2000,
            (if 2000 * (a.val : ℤ) + (r.val : ℤ) = (x1 (ix2 0 l) : BitVec 32).toInt then rowOr x0 f (2000 * a.val + r.val) else 0)
  | 0, _ => by
    show (k0_pay1 (F := Ideal)) (ix2 l f) = _
    rw [gatherPay1_apply]; simp
  | k + 1, hk => by
    refine Eq.trans ?_ (Fin.sum_univ_castSucc (n := k) _).symm
    refine (congrFun (accOf_succ _ _ (k0_pay1 (F := Ideal)) ⟨k, hk⟩) (ix2 l f)).trans ?_
    refine (gatherPay2_apply x1 ⟨k, hk⟩ _ _ l f).trans ?_
    refine congrArg₂ (fun a b : EReal => a + b) (gatherAcc_apply x0 x1 l f k (Nat.le_of_lt hk)) (Finset.sum_congr rfl fun r _ => ?_)
    rw [gatherSlab_apply]
    rfl

-- The output block at (l, f): the table's row that index word l names, read signed; zero when it names none.
theorem gatherOut_apply (x0 : Vec Ideal S100000x128 .bf16) (x1 : Vec Ideal S1x2048 .i32) (l : Fin 2048) (f : Fin 128) :
    (gatherOut (F := Ideal) x0 x1 (ix2 l f) : EReal)
      = if 0 ≤ (x1 (ix2 0 l) : BitVec 32).toInt ∧ (x1 (ix2 0 l) : BitVec 32).toInt < 100000
          then rowOr x0 f (x1 (ix2 0 l) : BitVec 32).toInt.toNat else 0 := by
  unfold gatherOut
  refine (congrArg (fun n => (gatherAcc (F := Ideal) x0 x1 (k0_pay1 (F := Ideal)) n (ix2 l f) : EReal)) gatherTrips).trans ?_
  refine (gatherAcc_apply x0 x1 l f 50 (le_of_eq gatherTrips.symm)).trans ?_
  exact Cert.Val.Core.onehot_rows (M := EReal) _ (rowOr x0 f)

-- Row p of the result: the table's row that index word p names, read signed; zero when it names none.
def gathered (tab : Vec Ideal S100000x128 .bf16) (idx : Vec Ideal S1x600064 .i32) : Vec Ideal S600064x128 .bf16 := fun j =>
  if 0 ≤ (idx (ix2 0 (j 0)) : BitVec 32).toInt ∧ (idx (ix2 0 (j 0)) : BitVec 32).toInt < 100000
    then rowOr tab (j 1) (idx (ix2 0 (j 0)) : BitVec 32).toInt.toNat else 0

-- A point's output block is its rows of the result, when its input blocks are the table and its index words.
theorem gatherBlock (tab : Vec Ideal S100000x128 .bf16) (idx : Vec Ideal S1x600064 .i32) (b0 : Vec Ideal S100000x128 .bf16)
    (b1 : Vec Ideal S1x2048 .i32) (p : Fin 600064) (l : Fin 2048) (f : Fin 128)
    (h0 : ∀ n : Fin 100000, b0 (ix2 n f) = tab (ix2 n f)) (h1 : b1 (ix2 0 l) = idx (ix2 0 p)) :
    gatherOut (F := Ideal) b0 b1 (ix2 l f) = gathered tab idx (ix2 p f) := by
  rw [gatherOut_apply, h1]
  refine if_congr Iff.rfl ?_ rfl
  unfold rowOr
  split
  · exact h0 _
  · rfl

theorem gathered_apply (tab : Vec Ideal S100000x128 .bf16) (idx : Vec Ideal S1x600064 .i32) (p : Fin 600064) (q : Fin 128) :
    (gathered tab idx (ix2 p q) : EReal)
      = if h : 0 ≤ (idx (ix2 0 p) : BitVec 32).toInt ∧ (idx (ix2 0 p) : BitVec 32).toInt < 100000
          then (tab (ix2 ⟨(idx (ix2 0 p) : BitVec 32).toInt.toNat, Cert.Val.Core.toNat_lt h⟩ q) : EReal) else 0 := by
  show (if _ then _ else _) = _
  by_cases h : 0 ≤ (idx (ix2 0 p) : BitVec 32).toInt ∧ (idx (ix2 0 p) : BitVec 32).toInt < 100000
  · rw [if_pos h, dif_pos h]; exact dif_pos _
  · rw [if_neg h, dif_neg h]

end Cert.KernelIdeal.Hand

end
-- ==== Proof.KI.Gather0Value.lean ====
import proofs.«411563_j39152921870698_3_alg».proof.Proof.KI.Gather0
import proofs.«411563_j39152921870698_3_alg».proof.Proof.KI.GatherValue

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev tab0 (c : Dev nD) : Vec Ideal S100000x128 .bf16 := V c main_v60
abbrev idx0 (c : Dev nD) : Vec Ideal S1x600064 .i32 := V c main_v28

theorem index0_0 : ∀ t : Fin grid0.N, win0_0.index t 0 = 0 ∧ win0_0.index t 1 = 0 := by decide +kernel
theorem index0_1 : ∀ t : Fin grid0.N, win0_1.index t 0 = 0 ∧ win0_1.index t 1 = t.val := by decide +kernel
theorem index0_2 : ∀ t : Fin grid0.N, win0_2.index t 0 = t.val ∧ win0_2.index t 1 = 0 := by decide +kernel

theorem pos_lt0 (t : Fin cfg0.N) (l : Fin 2048) : 2048 * t.val + l.val < 600064 := by
  have ht : t.val < 293 := lt_of_lt_of_eq t.isLt N_0
  have hl := l.isLt
  omega

-- The table's one block is the table.
theorem iblk0_0_apply (c : Dev nD) (t : Fin cfg0.N) (n : Fin 100000) (f : Fin 128) :
    (iblk0 V c 0 t : Vec Ideal S100000x128 .bf16) (ix2 n f) = tab0 V c (ix2 n f) := by
  unfold iblk0
  rw [View.read_apply]
  refine congrArg (V c main_v60) (Shape.idx_ext₂ ?_ ?_)
  · show win0_0.index t 0 * 100000 + 1 * n.val = n.val; rw [(index0_0 t).1]; omega
  · show win0_0.index t 1 * 128 + 1 * f.val = f.val; rw [(index0_0 t).2]; omega

-- Block t of the index words is words 2048t … 2048t + 2047.
theorem iblk0_1_apply (c : Dev nD) (t : Fin cfg0.N) (l : Fin 2048) :
    (iblk0 V c 1 t : Vec Ideal S1x2048 .i32) (ix2 0 l) = idx0 V c (ix2 0 ⟨2048 * t.val + l.val, pos_lt0 t l⟩) := by
  unfold iblk0
  rw [View.read_apply]
  refine congrArg (V c main_v28) (Shape.idx_ext₂ ?_ ?_)
  · show win0_1.index t 0 * 1 + 1 * 0 = 0; rw [(index0_1 t).1]
  · show win0_1.index t 1 * 2048 + 1 * l.val = 2048 * t.val + l.val; rw [(index0_1 t).2]; omega

-- Block t of the result is rows 2048t … 2048t + 2047.
theorem emb0_2 (t : Fin cfg0.N) (l : Fin 2048) (f : Fin 128) :
    (((cfg0.win 2).blk t).view.emb (ix2 l f) : S600064x128.Idx) = ix2 ⟨2048 * t.val + l.val, pos_lt0 t l⟩ f := by
  refine Shape.idx_ext₂ ?_ ?_
  · show win0_2.index t 0 * 2048 + 1 * l.val = 2048 * t.val + l.val; rw [(index0_2 t).1]; omega
  · show win0_2.index t 1 * 128 + 1 * f.val = f.val; rw [(index0_2 t).2]; omega

-- What a point leaves in the result's block is that block of the gathered rows.
theorem flushed_eq0 (c : Dev nD) (t : Fin cfg0.N) (hf : (cfg0.win 2).flush t = true) :
    (dat0 (F := Ideal) V c).flushed 2 t = ((cfg0.win 2).blk t).view.read (Elt Ideal) (gathered (tab0 V c) (idx0 V c)) := by
  show (cfg0.win 2).cut (grid0.coords t) ((dat0 (F := Ideal) V c).after 2 t) = _
  rw [after0_2]
  refine funext fun (j : S2048x128.Idx) => ?_
  obtain ⟨l, f, rfl⟩ : ∃ (l : Fin 2048) (f : Fin 128), j = ix2 l f := ⟨j 0, j 1, eq_ix2 j⟩
  rw [View.read_apply, emb0_2]
  exact gatherBlock (tab0 V c) (idx0 V c) (iblk0 V c 0 t) (iblk0 V c 1 t) _ l f (fun n => iblk0_0_apply V c t n f) (iblk0_1_apply V c t l)

-- Every row of the result lies in some point's block.
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 600064 := (i 0).isLt
  have ht : (i 0).val / 2048 < cfg0.N := by rw [show cfg0.N = 293 from N_0]; omega
  have e : ((cfg0.win 2).blk ⟨(i 0).val / 2048, ht⟩).view.emb (ix2 ⟨(i 0).val % 2048, Nat.mod_lt _ (by decide)⟩ (i 1)) = i :=
    (emb0_2 ⟨(i 0).val / 2048, ht⟩ ⟨(i 0).val % 2048, Nat.mod_lt _ (by decide)⟩ (i 1)).trans
      (Shape.idx_ext₂ (by show 2048 * ((i 0).val / 2048) + (i 0).val % 2048 = (i 0).val; omega) rfl)
  exact ⟨⟨(i 0).val / 2048, ht⟩, flush0_2 _, Eq.subst (motive := (· ∈ ((cfg0.win 2).blk ⟨(i 0).val / 2048, ht⟩).view.set)) e (View.emb_mem_set _ _)⟩

-- The region's result: row p is the table's row that index word p names (read signed), zero when it names none.
theorem arrAt_out0_row (c : Dev nD) (p : Fin 600064) (q : Fin 128) :
    ((dat0 (F := Ideal) V c).arrAt 2 cfg0.N : Vec Ideal S600064x128 .bf16) (ix2 p q)
      = if h : 0 ≤ (idx0 V c (ix2 0 p) : BitVec 32).toInt ∧ (idx0 V c (ix2 0 p) : BitVec 32).toInt < 100000
          then (tab0 V c (ix2 ⟨(idx0 V c (ix2 0 p) : BitVec 32).toInt.toNat, Cert.Val.Core.toNat_lt h⟩ q) : EReal) else 0 := by
  rw [(dat0 (F := Ideal) V c).arrAt_eq_of_cover 2 (gathered (tab0 V c) (idx0 V c)) (flushed_eq0 V c) (cover0 c)]
  exact gathered_apply _ _ p q

end Cert.KernelIdeal.Hand

end
-- ==== Proof.KI.ScatterCnt1Pay.lean ====
import proofs.«411563_j39152921870698_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand.ScatterCnt1

open Cert.KernelIdeal Cert.KernelIdeal.Gen
open Idealize.ShloMosaic Idealize.ShloMosaic.ValueIdx

theorem bit_widen : ∀ b : BitVec 1, (b.setWidth 32).toInt = (b.toNat : ℤ) := by decide

-- The compare's bit, widened and read signed, is 1 or 0.
theorem onehot_word (a b : BitVec 32) :
    (((((IntOp.cmpi .eq a b).setWidth 32).toInt : ℤ) : ℝ) : EReal) = if a = b then 1 else 0 := by
  rw [bit_widen]
  by_cases h : a = b
  · subst h; simp [IntOp.cmpi]
  · simp [IntOp.cmpi, h]

-- 2000 j + r computed on 32-bit words is the word of the number (an identity modulo 2^32).
theorem row_word (j r : ℕ) :
    Scalar.muli (BitVec.ofNat 32 j) 2000#32 + BitVec.ofNat 32 r = BitVec.ofNat 32 (2000 * j + r) := by
  show BitVec.ofNat 32 j * 2000#32 + BitVec.ofNat 32 r = _
  apply BitVec.eq_of_toNat_eq
  simp only [BitVec.toNat_add, BitVec.toNat_mul, BitVec.toNat_ofNat]
  omega

theorem bcast_col_apply {α : Type} (v : S2000x1.Idx → α) (h : S2000x1.Broadcasts S2000x2048) (r : Fin 2000) (l : Fin 2048) :
    broadcastTo S2000x2048 v h (ix2 r l) = v (ix2 r (0 : Fin 1)) :=
  broadcastTo_apply v h (ix2 r l) (ix2 r (0 : Fin 1)) (fun a => by match a with | ⟨0, _⟩ => rfl | ⟨1, _⟩ => rfl)

theorem bcast_row_apply {α : Type} (v : S1x2048.Idx → α) (h : S1x2048.Broadcasts S2000x2048) (r : Fin 2000) (l : Fin 2048) :
    broadcastTo S2000x2048 v h (ix2 r l) = v (ix2 (0 : Fin 1) l) :=
  broadcastTo_apply v h (ix2 r l) (ix2 (0 : Fin 1) l) (fun a => by match a with | ⟨0, _⟩ => rfl | ⟨1, _⟩ => rfl)

theorem pay1_apply (y : S2000x128.Idx) : (k1_pay1 (F := Ideal)) y = 0 := by
  unfold k1_pay1
  rw [shapeCast_self]
  exact Ideal.ofBits_zero_f32

theorem pay2_apply (y : S2000x1.Idx) : (k1_pay2 (F := Ideal)) y = 0 := by
  unfold k1_pay2
  rw [shapeCast_self]
  exact Ideal.ofBits_zero_f32

-- Entry (r, l) of the one-hot matrix: 1 when lane l's destination word is row r of the point's node block.
theorem pay3_apply (i : grid1.Coords) (x5 : Vec Ideal S1x2048 .i32) (r : Fin 2000) (l : Fin 2048) :
    k1_pay3 (F := Ideal) i x5 (ix2 r l)
      = if x5 (ix2 (0 : Fin 1) l) = BitVec.ofNat 32 (2000 * (i 0).val + r.val) then (1 : EReal) else 0 := by
  unfold k1_pay3
  dsimp only
  refine (onehot_word _ _).trans (if_congr ?_ rfl rfl)
  rw [bcast_col_apply, bcast_row_apply, shapeCast_self]
  show Scalar.muli (BitVec.ofNat 32 (i 0).val) 2000#32 + iota .tc S2000x1 32 [0] iota_S2000x1_d0_w32 (ix2 r (0 : Fin 1))
      = x5 (ix2 (0 : Fin 1) l) ↔ _
  rw [iota_single_apply, row_word]
  exact eq_comm

theorem dot_lhs_0 (j : S2000x128.Idx) (k : dot_S2000x2048_S2048x128_S2000x128_1_0_0_1_n_n.contr.Idx) :
    (dot_S2000x2048_S2048x128_S2000x128_1_0_0_1_n_n.lhsIdx j k (0 : Fin S2000x2048.rank)).val = (j 0).val := by
  unfold DotDims.lhsIdx
  rw [dif_neg (show ¬ (0 : Fin S2000x2048.rank) ∈ dot_S2000x2048_S2048x128_S2000x128_1_0_0_1_n_n.lhsBatch by decide),
    dif_pos (show (0 : Fin S2000x2048.rank) ∈ dot_S2000x2048_S2048x128_S2000x128_1_0_0_1_n_n.lhsNonContracting by decide)]
  rfl

theorem dot_lhs_1 (j : S2000x128.Idx) (k : dot_S2000x2048_S2048x128_S2000x128_1_0_0_1_n_n.contr.Idx) :
    (dot_S2000x2048_S2048x128_S2000x128_1_0_0_1_n_n.lhsIdx j k (1 : Fin S2000x2048.rank)).val = (k ⟨0, by decide⟩).val :=
  dot_S2000x2048_S2048x128_S2000x128_1_0_0_1_n_n.lhsIdx_val_of_single rfl j k

theorem dot_rhs_0 (j : S2000x128.Idx) (k : dot_S2000x2048_S2048x128_S2000x128_1_0_0_1_n_n.contr.Idx) :
    (dot_S2000x2048_S2048x128_S2000x128_1_0_0_1_n_n.rhsIdx j k (0 : Fin S2048x128.rank)).val = (k ⟨0, by decide⟩).val :=
  dot_S2000x2048_S2048x128_S2000x128_1_0_0_1_n_n.rhsIdx_val_of_single rfl j k

theorem dot_rhs_1 (j : S2000x128.Idx) (k : dot_S2000x2048_S2048x128_S2000x128_1_0_0_1_n_n.contr.Idx) :
    (dot_S2000x2048_S2048x128_S2000x128_1_0_0_1_n_n.rhsIdx j k (1 : Fin S2048x128.rank)).val = (j 1).val := by
  unfold DotDims.rhsIdx
  rw [dif_neg (show ¬ (1 : Fin S2048x128.rank) ∈ dot_S2000x2048_S2048x128_S2000x128_1_0_0_1_n_n.rhsBatch by decide),
    dif_pos (show (1 : Fin S2048x128.rank) ∈ dot_S2000x2048_S2048x128_S2000x128_1_0_0_1_n_n.rhsNonContracting by decide)]
  rfl

-- The product into the zero block at (r, q) is the sum over the lanes of the operands' products.
theorem matmul_lanes_apply (A : FVec Ideal S2000x2048 .bf16) (B : FVec Ideal S2048x128 .bf16) (r : Fin 2000) (q : Fin 128) :
    FloatOps.matmul dot_S2000x2048_S2048x128_S2000x128_1_0_0_1_n_n none A B (constant (F := Ideal) S2000x128 .f32 0x00000000#32) (ix2 r q)
      = ∑ l : Fin 2048, A (ix2 r l) * B (ix2 l q) := by
  rw [Ideal.matmul_constant_zero_apply, ← Equiv.sum_comp (contrEquiv1 dot_S2000x2048_S2048x128_S2000x128_1_0_0_1_n_n 2048 rfl rfl).symm]
  refine Finset.sum_congr rfl fun l _ => ?_
  have hL : dot_S2000x2048_S2048x128_S2000x128_1_0_0_1_n_n.lhsIdx (ix2 r q) ((contrEquiv1 dot_S2000x2048_S2048x128_S2000x128_1_0_0_1_n_n 2048 rfl rfl).symm l) = ix2 r l := by
    funext a; apply Fin.ext
    match a with
    | ⟨0, _⟩ => exact dot_lhs_0 _ _
    | ⟨1, _⟩ => exact (dot_lhs_1 _ _).trans (contrEquiv1_symm_val dot_S2000x2048_S2048x128_S2000x128_1_0_0_1_n_n 2048 rfl rfl l)
  have hR : dot_S2000x2048_S2048x128_S2000x128_1_0_0_1_n_n.rhsIdx (ix2 r q) ((contrEquiv1 dot_S2000x2048_S2048x128_S2000x128_1_0_0_1_n_n 2048 rfl rfl).symm l) = ix2 l q := by
    funext a; apply Fin.ext
    match a with
    | ⟨0, _⟩ => exact (dot_rhs_0 _ _).trans (contrEquiv1_symm_val dot_S2000x2048_S2048x128_S2000x128_1_0_0_1_n_n 2048 rfl rfl l)
    | ⟨1, _⟩ => exact dot_rhs_1 _ _
  rw [hL, hR]

-- A 0-or-1 factor selects; true of every extended real, the infinities included.
theorem sel_mul (p : Prop) [Decidable p] (z : EReal) : (if p then (1 : EReal) else 0) * z = if p then z else 0 := by
  by_cases hp : p
  · rw [if_pos hp, if_pos hp, one_mul]
  · rw [if_neg hp, if_neg hp, zero_mul]

-- The aggregate step at (r, q): the accumulator plus the messages of the lanes whose destination word is the row.
theorem pay4_apply (i : grid1.Coords) (x5 : Vec Ideal S1x2048 .i32) (x4 : FVec Ideal S2048x128 .bf16) (acc : FVec Ideal S2000x128 .f32)
    (r : Fin 2000) (q : Fin 128) :
    k1_pay4 i x5 x4 acc (ix2 r q)
      = acc (ix2 r q) + ∑ l : Fin 2048,
          (if x5 (ix2 (0 : Fin 1) l) = BitVec.ofNat 32 (2000 * (i 0).val + r.val) then x4 (ix2 l q) else 0) := by
  unfold k1_pay4
  simp only [shapeCast_self]
  refine congrArg (acc (ix2 r q) + ·) ((matmul_lanes_apply _ _ r q).trans (Finset.sum_congr rfl fun l _ => ?_))
  rw [show (truncf .bf16 (k1_pay3 (F := Ideal) i x5) bitsLt_bf16_f32 : FVec Ideal S2000x2048 .bf16) (ix2 r l)
      = k1_pay3 (F := Ideal) i x5 (ix2 r l) from rfl, pay3_apply, sel_mul]

theorem col_of_vec_apply {α : Type} (v : S2000.Idx → α) (h : S2000.ShapeCasts S2000x1) (r : Fin 2000) :
    shapeCast S2000x1 v h (ix2 r (0 : Fin 1)) = v (ValueIdx.ix1 r) :=
  shapeCast_apply v h (ix2 r (0 : Fin 1)) (ValueIdx.ix1 r) (by
    rw [Shape.rowMajor_val_one, Shape.rowMajor_val_two]
    show r.val = r.val * 1 + 0
    omega)

-- The count step at (r, 0): the accumulator plus one for each such lane.
theorem pay5_apply (i : grid1.Coords) (x5 : Vec Ideal S1x2048 .i32) (acc : FVec Ideal S2000x1 .f32) (r : Fin 2000) :
    k1_pay5 i x5 acc (ix2 r (0 : Fin 1))
      = acc (ix2 r (0 : Fin 1)) + ∑ l : Fin 2048,
          (if x5 (ix2 (0 : Fin 1) l) = BitVec.ofNat 32 (2000 * (i 0).val + r.val) then (1 : EReal) else 0) := by
  unfold k1_pay5
  simp only [shapeCast_self]
  refine congrArg (acc (ix2 r (0 : Fin 1)) + ·) ?_
  rw [col_of_vec_apply]
  refine (Ideal.multiReduction_add_single (k1_pay3 (F := Ideal) i x5) 0x00000000#32 reduces_S2000x2048_S2000 (.inl rfl) rfl (ValueIdx.ix1 r)).trans ?_
  refine Finset.sum_congr rfl fun l _ => ?_
  exact (congrArg (k1_pay3 (F := Ideal) i x5)
    (funext fun a => Fin.ext (by match a with | ⟨0, _⟩ => rfl | ⟨1, _⟩ => rfl))).trans (pay3_apply i x5 r l)

end Cert.KernelIdeal.Hand.ScatterCnt1

end
-- ==== Proof.KI.RunSum.lean ====
import Idealize.ShloMosaic.Lib.Pipeline.Value
import Mathlib.Algebra.BigOperators.Fin

namespace Cert.KernelIdeal.Hand.RunSum

open Idealize.ShloMosaic

theorem run_sum {ι β : Type*} [AddCommMonoid β] {N : ℕ} (J : ℕ) (hJ : 0 < J)
    (f : (n : ℕ) → n < N → ι → β) (M : ℕ → ι → β)
    (h0 : ∀ (n : ℕ) (h : n < N), n % J = 0 → ∀ i, f n h i = 0 + M n i)
    (hs : ∀ (n : ℕ) (h : n + 1 < N), ¬ (n + 1) % J = 0 → ∀ i, f (n + 1) h i = f n (Nat.lt_of_succ_lt h) i + M (n + 1) i)
    (t : ℕ) (ht : t < N) (i : ι) :
    f t ht i = ∑ s ∈ Finset.range (t % J + 1), M (J * (t / J) + s) i := by
  have h' : J * (t / J) + t % J < N := by rw [Nat.div_add_mod]; exact ht
  have e1 := Pipeline.eq_accAt_of_mod f J (fun n _ i => 0 + M n i) (fun n _ acc i => acc i + M n i)
    (fun n h hn => funext (h0 n h hn)) (fun n h hn => funext (hs n h hn)) hJ t ht h'
  have e2 := Pipeline.accAt_add_apply (N := N) (fun n _ i => 0 + M n i) (fun n _ acc i => acc i + M n i) (fun _ => (0 : β)) M
    (J * (t / J)) (t % J) (fun _ _ => rfl) (fun _ _ _ _ _ _ => rfl) (t % J) (Nat.le_refl _) h' i
  rw [e1, e2, zero_add]

theorem run_sum_last {ι β : Type*} [AddCommMonoid β] {N : ℕ} (J : ℕ) (hJ : 0 < J)
    (f : (n : ℕ) → n < N → ι → β) (M : ℕ → ι → β)
    (h0 : ∀ (n : ℕ) (h : n < N), n % J = 0 → ∀ i, f n h i = 0 + M n i)
    (hs : ∀ (n : ℕ) (h : n + 1 < N), ¬ (n + 1) % J = 0 → ∀ i, f (n + 1) h i = f n (Nat.lt_of_succ_lt h) i + M (n + 1) i)
    (t : ℕ) (ht : t < N) (hlast : t % J + 1 = J) (i : ι) :
    f t ht i = ∑ s : Fin J, M (J * (t / J) + s.val) i := by
  rw [run_sum J hJ f M h0 hs t ht i, hlast]
  exact Finset.sum_range fun s => M (J * (t / J) + s) i

end Cert.KernelIdeal.Hand.RunSum
-- ==== Proof.KI.ScatterCnt1Fold.lean ====
import proofs.«411563_j39152921870698_3_alg».proof.Proof.KI.ScatterCnt1Step
import proofs.«411563_j39152921870698_3_alg».proof.Proof.KI.ScatterCnt1Pay
import proofs.«411563_j39152921870698_3_alg».proof.Proof.KI.RunSum

noncomputable section

namespace Cert.KernelIdeal.Hand.ScatterCnt1

open Cert.KernelIdeal Cert.KernelIdeal.Gen
open Idealize.ShloMosaic Idealize.ShloMosaic.ValueIdx

abbrev guardJ (j : ℕ) (lo hi : BitVec 32) : Prop :=
  Scalar.cmpi .ne (Scalar.extui (Scalar.andi (Scalar.cmpi .sge (BitVec.ofNat 32 j) lo) (Scalar.cmpi .sle (BitVec.ofNat 32 j) hi))) 0#32 = 1#1

abbrev edgePos (e : ℕ) (he : e < 293) (l : Fin 2048) : Fin 600064 := ⟨2048 * e + l.val, by have := l.isLt; omega⟩

abbrev nodeRow (j : ℕ) (hj : j < 51) (r : Fin 2000) : Fin 102000 := ⟨2000 * j + r.val, by have := r.isLt; omega⟩

abbrev edgeOf (n : ℕ) : Fin 293 := ⟨n % 293, Nat.mod_lt _ (by decide)⟩

-- A rank-two index is the pair of its coordinates.
theorem ix2_ext {n0 n1 : ℕ} (i : (⟨2, ![n0, n1]⟩ : Shape).Idx) (a : Fin n0) (b : Fin n1) (h0 : (i 0).val = a.val) (h1 : (i 1).val = b.val) :
    i = ix2 a b :=
  funext fun x => Fin.ext (by match x with | ⟨0, _⟩ => exact h0 | ⟨1, _⟩ => exact h1)

theorem edge_word (t : Fin grid1.N) : (BitVec.ofNat 32 ((grid1.coords t) 1).val).toNat = t.val % 293 := by
  rw [coords_edge, BitVec.toNat_ofNat]
  exact Nat.mod_eq_of_lt (Nat.lt_of_lt_of_le (Nat.mod_lt _ (by decide)) (by decide))

theorem node_lt (t : Fin grid1.N) : t.val / 293 < 51 := by
  have hN : t.val < 14943 := lt_of_lt_of_eq t.isLt N_1
  omega

theorem node_word (t : Fin grid1.N) : (BitVec.ofNat 32 ((grid1.coords t) 0).val).toNat = t.val / 293 := by
  have := node_lt t
  rw [coords_node, BitVec.toNat_ofNat]
  exact Nat.mod_eq_of_lt (by omega)

-- The two output windows' index map (one function) determines the node block.
theorem node_of_out (i i' : grid1.Coords) (h : cc1_transform_2 i = cc1_transform_2 i') : (i 0).val = (i' 0).val := by
  have b : (i 0).val < 51 := (i 0).isLt
  have b' : (i' 0).val < 51 := (i' 0).isLt
  have h0 : (BitVec.ofNat 32 (i 0).val).toNat = (BitVec.ofNat 32 (i' 0).val).toNat := congrFun h 0
  rw [BitVec.toNat_ofNat, BitVec.toNat_ofNat, Nat.mod_eq_of_lt (by omega), Nat.mod_eq_of_lt (by omega)] at h0
  exact h0

-- After a last edge block the grid ends or the node block changes, so an index map that determines the node block changes there.
theorem flushOf_true_of_node {r : ℕ} (ix : grid1.Coords → Fin r → ℕ)
    (hix : ∀ i i' : grid1.Coords, ix i = ix i' → (i 0).val = (i' 0).val)
    (t : Fin grid1.N) (h : t.val % 293 = 292) : Pipeline.Window.flushOf grid1 true ix t = true := by
  have hN : t.val < 14943 := lt_of_lt_of_eq t.isLt N_1
  unfold Pipeline.Window.flushOf
  by_cases hl : t.val + 1 = grid1.N
  · simp only [Bool.true_and, decide_eq_true hl, Bool.true_or]
  · have hNN : grid1.N = 14943 := N_1
    have h' : t.val + 1 < grid1.N := by omega
    have he : ∃ h : t.val + 1 < grid1.N, ix (grid1.coords ⟨t.val + 1, h⟩) ≠ ix (grid1.coords t) := by
      refine ⟨h', fun e => ?_⟩
      have e0 := hix _ _ e
      have e1 : ((grid1.coords ⟨t.val + 1, h'⟩) 0).val = (t.val + 1) / 293 := coords_node ⟨t.val + 1, h'⟩
      have e2 := coords_node t
      omega
    simp only [Bool.true_and, decide_eq_true he, Bool.or_true]

-- Row n lies in the block of node block n / 2000, whose last edge block is point 293 (n / 2000) + 292.
theorem last_point (n : ℕ) (hn : n < 102000) :
    ∃ t : Fin grid1.N, t.val % 293 = 292 ∧ cc1_transform_2 (grid1.coords t) 0 * 2000 ≤ n ∧ n < cc1_transform_2 (grid1.coords t) 0 * 2000 + 2000 := by
  have hNN : grid1.N = 14943 := N_1
  have ht : 293 * (n / 2000) + 292 < grid1.N := by omega
  refine ⟨⟨293 * (n / 2000) + 292, ht⟩, by show (293 * (n / 2000) + 292) % 293 = 292; omega, ?_⟩
  rw [show cc1_transform_2 (grid1.coords ⟨293 * (n / 2000) + 292, ht⟩) 0 = (293 * (n / 2000) + 292) / 293 from node_word ⟨_, ht⟩]
  omega

-- A block that is a given block at a reset and kept otherwise, read at an entry.
theorem reset_apply {α β : Type} (p : Prop) [Decidable p] (z f : α → β) (b : β) (y : α) (hz : z y = b) :
    (if p then z else f) y = if p then b else f y := by
  by_cases hp : p
  · rw [if_pos hp, if_pos hp, hz]
  · rw [if_neg hp, if_neg hp]

-- One point's effect on an aggregate entry: reset or kept, then the guarded sum of the selected lanes' messages.
theorem stepAcc_fst_apply (i : grid1.Coords) (j : ℕ) (hj : (i 0).val = j) (lo hi : BitVec 32) (x4 : Vec Ideal S2048x128 .bf16)
    (x5 : Vec Ideal S1x2048 .i32) (s : Vec Ideal S2000x128 .f32 × Vec Ideal S2000x1 .f32) (r : Fin 2000) (q : Fin 128) :
    (stepAcc i lo hi x4 x5 s).1 (ix2 r q) = (if condFirst i then 0 else s.1 (ix2 r q))
      + (if guardJ j lo hi then ∑ l : Fin 2048, (if x5 (ix2 (0 : Fin 1) l) = BitVec.ofNat 32 (2000 * j + r.val) then x4 (ix2 l q) else 0) else 0) := by
  subst hj
  unfold stepAcc
  by_cases hg : guardW i lo hi
  · rw [if_pos hg, if_pos hg]
    show k1_pay4 i x5 x4 _ (ix2 r q) = _
    rw [pay4_apply]
    exact congrArg (· + _) (reset_apply _ _ _ _ _ (pay1_apply _))
  · rw [if_neg hg, if_neg hg, add_zero]
    exact reset_apply _ _ _ _ _ (pay1_apply _)

-- The same for a count entry, each selected lane counting one.
theorem stepAcc_snd_apply (i : grid1.Coords) (j : ℕ) (hj : (i 0).val = j) (lo hi : BitVec 32) (x4 : Vec Ideal S2048x128 .bf16)
    (x5 : Vec Ideal S1x2048 .i32) (s : Vec Ideal S2000x128 .f32 × Vec Ideal S2000x1 .f32) (r : Fin 2000) :
    (stepAcc i lo hi x4 x5 s).2 (ix2 r (0 : Fin 1)) = (if condFirst i then 0 else s.2 (ix2 r (0 : Fin 1)))
      + (if guardJ j lo hi then ∑ l : Fin 2048, (if x5 (ix2 (0 : Fin 1) l) = BitVec.ofNat 32 (2000 * j + r.val) then (1 : EReal) else 0) else 0) := by
  subst hj
  unfold stepAcc
  by_cases hg : guardW i lo hi
  · rw [if_pos hg, if_pos hg]
    show k1_pay5 i x5 _ (ix2 r (0 : Fin 1)) = _
    rw [pay5_apply]
    exact congrArg (· + _) (reset_apply _ _ _ _ _ (pay2_apply _))
  · rw [if_neg hg, if_neg hg, add_zero]
    exact reset_apply _ _ _ _ _ (pay2_apply _)

section Fold

variable {ι : Type} {rd : Vec Ideal S2000x128 .f32 × Vec Ideal S2000x1 .f32 → ι → EReal} {row : ι → Fin 2000}
  {m : Vec Ideal S2048x128 .bf16 → ι → Fin 2048 → EReal}
  {lo hi : Fin grid1.N → BitVec 32} {x4 : Fin grid1.N → Vec Ideal S2048x128 .bf16} {x5 : Fin grid1.N → Vec Ideal S1x2048 .i32}
  {acc : (n : ℕ) → n < grid1.N → Vec Ideal S2000x128 .f32 × Vec Ideal S2000x1 .f32}
  {L H : Fin 293 → BitVec 32} {D : Fin 293 → Fin 2048 → BitVec 32} {M : Fin 293 → ι → Fin 2048 → EReal}

-- Reset at each first edge block and stepped by adding, the pair read after a last edge block is the sum over the node block's 293 edge blocks.
theorem acc_last
    (hrd : ∀ (i : grid1.Coords) (j : ℕ), (i 0).val = j → ∀ (a b : BitVec 32) (u : Vec Ideal S2048x128 .bf16) (v : Vec Ideal S1x2048 .i32)
      (s : Vec Ideal S2000x128 .f32 × Vec Ideal S2000x1 .f32) (y : ι), rd (stepAcc i a b u v s) y = (if condFirst i then 0 else rd s y)
        + (if guardJ j a b then ∑ l : Fin 2048, (if v (ix2 (0 : Fin 1) l) = BitVec.ofNat 32 (2000 * j + (row y).val) then m u y l else 0) else 0))
    (hz : ∀ h0 : 0 < grid1.N, acc 0 h0
      = stepAcc (grid1.coords ⟨0, h0⟩) (lo ⟨0, h0⟩) (hi ⟨0, h0⟩) (x4 ⟨0, h0⟩) (x5 ⟨0, h0⟩) (k1_pay1 (F := Ideal), k1_pay2 (F := Ideal)))
    (hsucc : ∀ (n : ℕ) (h : n + 1 < grid1.N), acc (n + 1) h
      = stepAcc (grid1.coords ⟨n + 1, h⟩) (lo ⟨n + 1, h⟩) (hi ⟨n + 1, h⟩) (x4 ⟨n + 1, h⟩) (x5 ⟨n + 1, h⟩) (acc n (Nat.lt_of_succ_lt h)))
    (hL : ∀ (t : Fin grid1.N) (e : Fin 293), t.val % 293 = e.val → lo t = L e)
    (hH : ∀ (t : Fin grid1.N) (e : Fin 293), t.val % 293 = e.val → hi t = H e)
    (hD : ∀ (t : Fin grid1.N) (e : Fin 293), t.val % 293 = e.val → ∀ l, x5 t (ix2 (0 : Fin 1) l) = D e l)
    (hM : ∀ (t : Fin grid1.N) (e : Fin 293), t.val % 293 = e.val → ∀ y l, m (x4 t) y l = M e y l)
    (t : ℕ) (ht : t < grid1.N) (hlast : t % 293 = 292) (y : ι) :
    rd (acc t ht) y = ∑ e : Fin 293, (if guardJ (t / 293) (L e) (H e) then
      ∑ l : Fin 2048, (if D e l = BitVec.ofNat 32 (2000 * (t / 293) + (row y).val) then M e y l else 0) else 0) := by
  have step : ∀ (n : ℕ) (h : n < grid1.N) (s : Vec Ideal S2000x128 .f32 × Vec Ideal S2000x1 .f32) (y : ι),
      rd (stepAcc (grid1.coords ⟨n, h⟩) (lo ⟨n, h⟩) (hi ⟨n, h⟩) (x4 ⟨n, h⟩) (x5 ⟨n, h⟩) s) y = (if n % 293 = 0 then 0 else rd s y)
        + (if guardJ (n / 293) (L (edgeOf n)) (H (edgeOf n)) then
            ∑ l : Fin 2048, (if D (edgeOf n) l = BitVec.ofNat 32 (2000 * (n / 293) + (row y).val) then M (edgeOf n) y l else 0) else 0) := by
    intro n h s y
    refine (hrd (grid1.coords ⟨n, h⟩) (n / 293) (coords_node ⟨n, h⟩) _ _ _ _ s y).trans (congrArg₂ (· + ·) (if_congr (condFirst_iff ⟨n, h⟩) rfl rfl) ?_)
    rw [hL ⟨n, h⟩ (edgeOf n) rfl, hH ⟨n, h⟩ (edgeOf n) rfl]
    exact if_congr Iff.rfl (Finset.sum_congr rfl fun l _ => by rw [hD ⟨n, h⟩ (edgeOf n) rfl l, hM ⟨n, h⟩ (edgeOf n) rfl y l]) rfl
  refine (RunSum.run_sum_last 293 (by decide) (fun n h y => rd (acc n h) y)
    (fun n y => if guardJ (n / 293) (L (edgeOf n)) (H (edgeOf n)) then
      ∑ l : Fin 2048, (if D (edgeOf n) l = BitVec.ofNat 32 (2000 * (n / 293) + (row y).val) then M (edgeOf n) y l else 0) else 0)
    ?_ ?_ t ht (by omega) y).trans (Finset.sum_congr rfl fun s _ => ?_)
  · intro n h hn y
    show rd (acc n h) y = 0 + _
    cases n with
    | zero => rw [hz, step, if_pos hn]
    | succ k => rw [hsucc, step, if_pos hn]
  · intro n h hn y
    show rd (acc (n + 1) h) y = rd (acc n (Nat.lt_of_succ_lt h)) y + _
    rw [hsucc, step, if_neg hn]
  · have hs := s.isLt
    have e1 : (293 * (t / 293) + s.val) / 293 = t / 293 := by omega
    have e2 : edgeOf (293 * (t / 293) + s.val) = s := Fin.ext (by show (293 * (t / 293) + s.val) % 293 = s.val; omega)
    show (if guardJ ((293 * (t / 293) + s.val) / 293) (L (edgeOf (293 * (t / 293) + s.val))) (H (edgeOf (293 * (t / 293) + s.val))) then
      ∑ l : Fin 2048, (if D (edgeOf (293 * (t / 293) + s.val)) l = BitVec.ofNat 32 (2000 * ((293 * (t / 293) + s.val) / 293) + (row y).val)
        then M (edgeOf (293 * (t / 293) + s.val)) y l else 0) else 0) = _
    rw [e1, e2]

end Fold

end Cert.KernelIdeal.Hand.ScatterCnt1

end
-- ==== Proof.KI.ScatterCnt1Blocks.lean ====
import proofs.«411563_j39152921870698_3_alg».proof.Proof.KI.ScatterCnt1Fold

noncomputable section

namespace Cert.KernelIdeal.Hand.ScatterCnt1

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b)) (a : (pcfg1 (F := Ideal)).Adm)

-- Each read below is "block index times block size plus the coordinate inside the block", at the point's edge or node block.
theorem msg_entry (c : Dev nD) (t : Fin (cfg1 a).N) (e : Fin 293) (he : t.val % 293 = e.val) (l : Fin 2048) (q : Fin 128) :
    (((cfg1 a).win 0).blk t).view.read (Elt Ideal) (V c (Pipeline.arrRef spec1 0)) (ix2 l q)
      = V c (Pipeline.arrRef spec1 0) (ix2 (edgePos e.val e.isLt l) q) := by
  show V c (Pipeline.arrRef spec1 0) ((((cfg1 a).win 0).blk t).view.emb (ix2 l q)) = _
  refine congrArg _ (ix2_ext _ _ _ ?_ ?_)
  · show cc1_transform_0 (grid1.coords t) 0 * 2048 + 1 * l.val = 2048 * e.val + l.val
    rw [show cc1_transform_0 (grid1.coords t) 0 = t.val % 293 from edge_word t, he]; omega
  · show cc1_transform_0 (grid1.coords t) 1 * 128 + 1 * q.val = q.val
    rw [show cc1_transform_0 (grid1.coords t) 1 = 0 from rfl]; omega

theorem idx_entry (c : Dev nD) (t : Fin (cfg1 a).N) (e : Fin 293) (he : t.val % 293 = e.val) (l : Fin 2048) :
    (((cfg1 a).win 1).blk t).view.read (Elt Ideal) (V c (Pipeline.arrRef spec1 1)) (ix2 (0 : Fin 1) l)
      = V c (Pipeline.arrRef spec1 1) (ix2 (0 : Fin 1) (edgePos e.val e.isLt l)) := by
  show V c (Pipeline.arrRef spec1 1) ((((cfg1 a).win 1).blk t).view.emb (ix2 (0 : Fin 1) l)) = _
  refine congrArg _ (ix2_ext _ _ _ ?_ ?_)
  · show cc1_transform_1 (grid1.coords t) 0 * 1 + 1 * 0 = 0
    rw [show cc1_transform_1 (grid1.coords t) 0 = 0 from rfl]
  · show cc1_transform_1 (grid1.coords t) 1 * 2048 + 1 * l.val = 2048 * e.val + l.val
    rw [show cc1_transform_1 (grid1.coords t) 1 = t.val % 293 from edge_word t, he]; omega

theorem lo_word_entry (c : Dev nD) (xt : TbBuf (F := Ideal) c tbLo) (t : Fin grid1.N) (e : Fin 293) (he : t.val % 293 = e.val) :
    wordOf c tbLo xt (grid1.coords t) = xt (ValueIdx.ix1 e) := by
  show xt _ = xt _
  congr 1
  funext x; apply Fin.ext
  match x with
  | ⟨0, _⟩ =>
    show k1_off1 (grid1.coords t) 0 + 1 * 0 = e.val
    rw [show k1_off1 (grid1.coords t) 0 = t.val % 293 from edge_word t, he]; omega

theorem hi_word_entry (c : Dev nD) (xt : TbBuf (F := Ideal) c tbHi) (t : Fin grid1.N) (e : Fin 293) (he : t.val % 293 = e.val) :
    wordOf c tbHi xt (grid1.coords t) = xt (ValueIdx.ix1 e) := by
  show xt _ = xt _
  congr 1
  funext x; apply Fin.ext
  match x with
  | ⟨0, _⟩ =>
    show k1_off1 (grid1.coords t) 0 + 1 * 0 = e.val
    rw [show k1_off1 (grid1.coords t) 0 = t.val % 293 from edge_word t, he]; omega

theorem out0_read (G : Vec Ideal S102000x128 .f32) (t : Fin (cfg1 a).N) (r : Fin 2000) (q : Fin 128) :
    (((cfg1 a).win 2).blk t).view.read (Elt Ideal) G (ix2 r q) = G (ix2 (nodeRow (t.val / 293) (node_lt t) r) q) := by
  show G ((((cfg1 a).win 2).blk t).view.emb (ix2 r q)) = _
  refine congrArg _ (ix2_ext _ _ _ ?_ ?_)
  · show cc1_transform_2 (grid1.coords t) 0 * 2000 + 1 * r.val = 2000 * (t.val / 293) + r.val
    rw [show cc1_transform_2 (grid1.coords t) 0 = t.val / 293 from node_word t]; omega
  · show cc1_transform_2 (grid1.coords t) 1 * 128 + 1 * q.val = q.val
    rw [show cc1_transform_2 (grid1.coords t) 1 = 0 from rfl]; omega

theorem out1_read (G : Vec Ideal S102000x1 .f32) (t : Fin (cfg1 a).N) (r : Fin 2000) :
    (((cfg1 a).win 3).blk t).view.read (Elt Ideal) G (ix2 r (0 : Fin 1)) = G (ix2 (nodeRow (t.val / 293) (node_lt t) r) (0 : Fin 1)) := by
  show G ((((cfg1 a).win 3).blk t).view.emb (ix2 r (0 : Fin 1))) = _
  refine congrArg _ (ix2_ext _ _ _ ?_ ?_)
  · show cc1_transform_3 (grid1.coords t) 0 * 2000 + 1 * r.val = 2000 * (t.val / 293) + r.val
    rw [show cc1_transform_3 (grid1.coords t) 0 = t.val / 293 from node_word t]; omega
  · show cc1_transform_3 (grid1.coords t) 1 * 1 + 1 * 0 = 0
    rw [show cc1_transform_3 (grid1.coords t) 1 = 0 from rfl]

-- The flush predicate of the two output windows holds exactly at a last edge block.
theorem flush_out0_iff (t : Fin (cfg1 a).N) : ((cfg1 a).win 2).flush t = true ↔ t.val % 293 = 292 := by
  constructor
  · intro hf
    by_contra hne
    rw [noFlush_out0 a t (fun hc => hne ((condLast_iff t).mp hc))] at hf
    exact Bool.false_ne_true hf
  · exact flushOf_true_of_node cc1_transform_2 node_of_out t
theorem flush_out1_iff (t : Fin (cfg1 a).N) : ((cfg1 a).win 3).flush t = true ↔ t.val % 293 = 292 := by
  constructor
  · intro hf
    by_contra hne
    rw [noFlush_out1 a t (fun hc => hne ((condLast_iff t).mp hc))] at hf
    exact Bool.false_ne_true hf
  · exact flushOf_true_of_node cc1_transform_3 node_of_out t

set_option backward.isDefEq.respectTransparency.types false in
theorem mem_out0 (t : Fin (cfg1 a).N) (i : S102000x128.Idx) :
    i ∈ (((cfg1 a).win 2).blk t).view.set ↔ ∀ x : Fin 2, ((cfg1 a).win 2).index t x * S2000x128.size x ≤ (i x).val
      ∧ (i x).val < ((cfg1 a).win 2).index t x * S2000x128.size x + S2000x128.size x := by
  show i ∈ ((View.whole main_v62_0).slice (((cfg1 a).win 2).rect t)).set ↔ _
  rw [View.set_slice_whole]
  exact Rect.mem_set_unit
set_option backward.isDefEq.respectTransparency.types false in
theorem mem_out1 (t : Fin (cfg1 a).N) (i : S102000x1.Idx) :
    i ∈ (((cfg1 a).win 3).blk t).view.set ↔ ∀ x : Fin 2, ((cfg1 a).win 3).index t x * S2000x1.size x ≤ (i x).val
      ∧ (i x).val < ((cfg1 a).win 3).index t x * S2000x1.size x + S2000x1.size x := by
  show i ∈ ((View.whole main_v62_1).slice (((cfg1 a).win 3).rect t)).set ↔ _
  rw [View.set_slice_whole]
  exact Rect.mem_set_unit

-- Every row lies in the block of the last edge block of its node block.
theorem cover_out0 (i : S102000x128.Idx) :
    ∃ t : Fin (cfg1 a).N, ((cfg1 a).win 2).flush t = true ∧ i ∈ (((cfg1 a).win 2).blk t).view.set := by
  obtain ⟨t, hl, hw⟩ := last_point (i 0).val (i 0).isLt
  have hi1 : (i 1).val < 128 := (i 1).isLt
  refine ⟨t, (flush_out0_iff a t).mpr hl, (mem_out0 a t i).mpr fun x => ?_⟩
  match x with
  | ⟨0, _⟩ => exact hw
  | ⟨1, _⟩ =>
    show cc1_transform_2 (grid1.coords t) 1 * 128 ≤ (i 1).val ∧ (i 1).val < cc1_transform_2 (grid1.coords t) 1 * 128 + 128
    rw [show cc1_transform_2 (grid1.coords t) 1 = 0 from rfl]; omega
theorem cover_out1 (i : S102000x1.Idx) :
    ∃ t : Fin (cfg1 a).N, ((cfg1 a).win 3).flush t = true ∧ i ∈ (((cfg1 a).win 3).blk t).view.set := by
  obtain ⟨t, hl, hw⟩ := last_point (i 0).val (i 0).isLt
  have hi1 : (i 1).val < 1 := (i 1).isLt
  refine ⟨t, (flush_out1_iff a t).mpr hl, (mem_out1 a t i).mpr fun x => ?_⟩
  match x with
  | ⟨0, _⟩ => exact hw
  | ⟨1, _⟩ =>
    show cc1_transform_3 (grid1.coords t) 1 * 1 ≤ (i 1).val ∧ (i 1).val < cc1_transform_3 (grid1.coords t) 1 * 1 + 1
    rw [show cc1_transform_3 (grid1.coords t) 1 = 0 from rfl]; omega

end Cert.KernelIdeal.Hand.ScatterCnt1

end
-- ==== Proof.KI.ScatterCnt1Arr.lean ====
import proofs.«411563_j39152921870698_3_alg».proof.Proof.KI.ScatterCnt1Blocks

noncomputable section

namespace Cert.KernelIdeal.Hand.ScatterCnt1

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b)) (a : (pcfg1 (F := Ideal)).Adm)

abbrev loAt (c : Dev nD) (e : Fin 293) : BitVec 32 := (a.1 0 : TbBuf (F := Ideal) c tbLo) (ValueIdx.ix1 e)
abbrev hiAt (c : Dev nD) (e : Fin 293) : BitVec 32 := (a.1 1 : TbBuf (F := Ideal) c tbHi) (ValueIdx.ix1 e)
abbrev msgAt (c : Dev nD) (e : Fin 293) (l : Fin 2048) (q : Fin 128) : EReal :=
  V c (Pipeline.arrRef spec1 0) (ix2 (edgePos e.val e.isLt l) q)
abbrev idxAt (c : Dev nD) (e : Fin 293) (l : Fin 2048) : BitVec 32 :=
  V c (Pipeline.arrRef spec1 1) (ix2 (0 : Fin 1) (edgePos e.val e.isLt l))

-- Row n of the aggregate: over the edge blocks whose table words bracket n / 2000, the messages of the lanes whose destination word is n.
def aggOf (c : Dev nD) : Vec Ideal S102000x128 .f32 := fun i =>
  ∑ e : Fin 293, (if guardJ ((i 0).val / 2000) (loAt a c e) (hiAt a c e) then
    ∑ l : Fin 2048, (if idxAt V c e l = BitVec.ofNat 32 (i 0).val then msgAt V c e l (i 1) else 0) else 0)
-- Row n of the count: the same with one for each message.
def cntOf (c : Dev nD) : Vec Ideal S102000x1 .f32 := fun i =>
  ∑ e : Fin 293, (if guardJ ((i 0).val / 2000) (loAt a c e) (hiAt a c e) then
    ∑ l : Fin 2048, (if idxAt V c e l = BitVec.ofNat 32 (i 0).val then (1 : EReal) else 0) else 0)

theorem aggOf_row (c : Dev nD) (j : ℕ) (hj : j < 51) (r : Fin 2000) (q : Fin 128) :
    aggOf V a c (ix2 (nodeRow j hj r) q) = ∑ e : Fin 293, (if guardJ j (loAt a c e) (hiAt a c e) then
      ∑ l : Fin 2048, (if idxAt V c e l = BitVec.ofNat 32 (2000 * j + r.val) then msgAt V c e l q else 0) else 0) := by
  have h2 : (2000 * j + r.val) / 2000 = j := by have := r.isLt; omega
  show (∑ e : Fin 293, (if guardJ ((2000 * j + r.val) / 2000) (loAt a c e) (hiAt a c e) then
    ∑ l : Fin 2048, (if idxAt V c e l = BitVec.ofNat 32 (2000 * j + r.val) then msgAt V c e l q else 0) else 0)) = _
  rw [h2]
theorem cntOf_row (c : Dev nD) (j : ℕ) (hj : j < 51) (r : Fin 2000) :
    cntOf V a c (ix2 (nodeRow j hj r) (0 : Fin 1)) = ∑ e : Fin 293, (if guardJ j (loAt a c e) (hiAt a c e) then
      ∑ l : Fin 2048, (if idxAt V c e l = BitVec.ofNat 32 (2000 * j + r.val) then (1 : EReal) else 0) else 0) := by
  have h2 : (2000 * j + r.val) / 2000 = j := by have := r.isLt; omega
  show (∑ e : Fin 293, (if guardJ ((2000 * j + r.val) / 2000) (loAt a c e) (hiAt a c e) then
    ∑ l : Fin 2048, (if idxAt V c e l = BitVec.ofNat 32 (2000 * j + r.val) then (1 : EReal) else 0) else 0)) = _
  rw [h2]

end Cert.KernelIdeal.Hand.ScatterCnt1

end
-- ==== Proof.KI.ScatterCnt1Value.lean ====
import proofs.«411563_j39152921870698_3_alg».proof.Proof.KI.ScatterCnt1Arr
import proofs.«411563_j39152921870698_3_alg».proof.Proof.KI.ScatterCnt1

noncomputable section

namespace Cert.KernelIdeal.Hand.ScatterCnt1

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b)) (a : (pcfg1 (F := Ideal)).Adm)

-- At a last edge block the accumulators' entries are the rows' sums, and the blocks of the last edge blocks cover the array.
theorem arrAt_agg1 (c : Dev nD) :
    ((dat1 (F := Ideal) V a c).arrAt 2 (cfg1 a).N : Vec Ideal S102000x128 .f32) = aggOf V a c :=
  (dat1 (F := Ideal) V a c).arrAt_eq_of_cover 2 (aggOf V a c) (fun t hf => by
    show ((cfg1 a).win 2).cut (grid1.coords t) ((dat1 (F := Ideal) V a c).after 2 t) = _
    rw [after1_2]
    refine funext (fun (y : S2000x128.Idx) => ?_)
    obtain ⟨r, q, rfl⟩ : ∃ (r : Fin 2000) (q : Fin 128), y = ix2 r q := ⟨y 0, y 1, eq_ix2 y⟩
    refine Eq.trans ?_ (out0_read a (aggOf V a c) t r q).symm
    rw [aggOf_row]
    exact acc_last (rd := fun s (y : Fin 2000 × Fin 128) => s.1 (ix2 y.1 y.2)) (row := Prod.fst) (m := fun u y l => u (ix2 l y.2))
      (lo := loWord a c) (hi := hiWord a c) (x4 := msgBlk V a c) (x5 := idxBlk V a c) (acc := accAt V a c)
      (L := loAt a c) (H := hiAt a c) (D := idxAt V c) (M := fun e y l => msgAt V c e l y.2)
      (fun i j hj lo hi u v s y => stepAcc_fst_apply i j hj lo hi u v s y.1 y.2) (fun _ => rfl) (fun _ _ => rfl)
      (fun t e he => lo_word_entry c (a.1 0) t e he) (fun t e he => hi_word_entry c (a.1 1) t e he)
      (fun t e he l => idx_entry V a c t e he l) (fun t e he y l => msg_entry V a c t e he l y.2)
      t.val t.isLt ((flush_out0_iff a t).mp hf) (r, q)) (cover_out0 a)

theorem arrAt_cnt1 (c : Dev nD) :
    ((dat1 (F := Ideal) V a c).arrAt 3 (cfg1 a).N : Vec Ideal S102000x1 .f32) = cntOf V a c :=
  (dat1 (F := Ideal) V a c).arrAt_eq_of_cover 3 (cntOf V a c) (fun t hf => by
    show ((cfg1 a).win 3).cut (grid1.coords t) ((dat1 (F := Ideal) V a c).after 3 t) = _
    rw [after1_3]
    refine funext (fun (y : S2000x1.Idx) => ?_)
    obtain ⟨r, z, rfl⟩ : ∃ (r : Fin 2000) (z : Fin 1), y = ix2 r z := ⟨y 0, y 1, eq_ix2 y⟩
    obtain rfl : z = 0 := Subsingleton.elim _ _
    refine Eq.trans ?_ (out1_read a (cntOf V a c) t r).symm
    rw [cntOf_row]
    exact acc_last (rd := fun s (r : Fin 2000) => s.2 (ix2 r (0 : Fin 1))) (row := id) (m := fun _ _ _ => (1 : EReal))
      (lo := loWord a c) (hi := hiWord a c) (x4 := msgBlk V a c) (x5 := idxBlk V a c) (acc := accAt V a c)
      (L := loAt a c) (H := hiAt a c) (D := idxAt V c) (M := fun _ _ _ => (1 : EReal))
      (fun i j hj lo hi u v s r => stepAcc_snd_apply i j hj lo hi u v s r) (fun _ => rfl) (fun _ _ => rfl)
      (fun t e he => lo_word_entry c (a.1 0) t e he) (fun t e he => hi_word_entry c (a.1 1) t e he)
      (fun t e he l => idx_entry V a c t e he l) (fun _ _ _ _ _ => rfl)
      t.val t.isLt ((flush_out1_iff a t).mp hf) r) (cover_out1 a)

end Cert.KernelIdeal.Hand.ScatterCnt1

end
-- ==== Proof.KI.LinearOps.lean ====
import proofs.«411563_j39152921870698_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand.LinearOps

open Cert.KernelIdeal Cert.KernelIdeal.Gen
open Idealize.ShloMosaic Idealize.ShloMosaic.ValueIdx

abbrev rowUp (r : Fin 100000) : Fin 102000 := ⟨r.val, Nat.lt_of_lt_of_le r.isLt (by decide)⟩

def dense (agg : FVec Ideal S102000x128 .f32) (cnt : FVec Ideal S102000x1 .f32) (x : FVec Ideal S100000x128 .f32)
    (Wl : FVec Ideal S128x128 .f32) (b : FVec Ideal S128 .f32) (Wr : FVec Ideal S128x128 .f32)
    (r : Fin 100000) (f : Fin 128) : EReal :=
  (∑ k : Fin 128, Ideal.div (agg (ix2 (rowUp r) k)) (max (cnt (ix2 (rowUp r) (0 : Fin 1))) (Ideal.ofBits .f32 0x3F800000#32)) * Wl (ix2 f k))
    + b (ValueIdx.ix1 f) + ∑ k : Fin 128, x (ix2 r k) * Wr (ix2 f k)

def denseRelu (agg : FVec Ideal S102000x128 .f32) (cnt : FVec Ideal S102000x1 .f32) (x : FVec Ideal S100000x128 .f32)
    (Wl : FVec Ideal S128x128 .f32) (b : FVec Ideal S128 .f32) (Wr : FVec Ideal S128x128 .f32)
    (r : Fin 100000) (f : Fin 128) : EReal :=
  max (dense agg cnt x Wl b Wr r f) (Ideal.ofBits .f32 0x00000000#32)

theorem lin_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lin_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem lin_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem lin_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lin_matmul_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lin_lhs_0 _ _
    | ⟨1, _⟩ => exact (lin_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (lin_rhs_0 _ _).trans hk
    | ⟨1, _⟩ => exact lin_rhs_1 _ _)
  rw [el, er]

theorem lin_wT_apply (W : FVec Ideal S128x128 .f32) (k q : Fin 128) :
    transpose S128x128 [1, 0] (truncf .bf16 W bitsLt_bf16_f32) transposes_S128x128_p1_0_S128x128 (ix2 k q) = W (ix2 q k) :=
  transpose_apply [1, 0] (truncf .bf16 W bitsLt_bf16_f32) transposes_S128x128_p1_0_S128x128 (ix2 k q) (ix2 q k)
    (fun b => match b with
      | ⟨0, _⟩ => rfl
      | ⟨1, _⟩ => rfl)

theorem lin_cnt_apply (n : FVec Ideal S5000x1 .f32) (p : Fin 5000) (k : Fin 128) :
    broadcastTo S5000x128 (maximumf (shapeCast S5000x1 n shapeCasts_S5000x1_S5000x1) (broadcast S5000x1 (Scalar.ofBits .f32 0x3F800000#32)))
        broadcasts_S5000x1_S5000x128 (ix2 p k)
      = max (n (ix2 p (0 : Fin 1))) (Ideal.ofBits .f32 0x3F800000#32) := by
  rw [shapeCast_self]
  exact broadcastTo_apply _ broadcasts_S5000x1_S5000x128 (ix2 p k) (ix2 p (0 : Fin 1)) (fun a => match a with
    | ⟨0, _⟩ => by show (p : Nat) = if (5000 : Nat) = 1 then 0 else (p : Nat); rw [if_neg (by decide)]
    | ⟨1, _⟩ => by show (0 : Nat) = if (1 : Nat) = 1 then 0 else (k : Nat); rw [if_pos rfl])

theorem lin_nrm_apply (a : FVec Ideal S5000x128 .f32) (n : FVec Ideal S5000x1 .f32) (p : Fin 5000) (k : Fin 128) :
    truncf .bf16 (divf (shapeCast S5000x128 a shapeCasts_S5000x128_S5000x128)
        (broadcastTo S5000x128 (maximumf (shapeCast S5000x1 n shapeCasts_S5000x1_S5000x1) (broadcast S5000x1 (Scalar.ofBits .f32 0x3F800000#32)))
          broadcasts_S5000x1_S5000x128)) bitsLt_bf16_f32 (ix2 p k)
      = Ideal.div (a (ix2 p k)) (max (n (ix2 p (0 : Fin 1))) (Ideal.ofBits .f32 0x3F800000#32)) := by
  rw [truncf_apply, divf_apply, lin_cnt_apply, shapeCast_self]

theorem lin_bias_apply (b : FVec Ideal S128 .f32) (p : Fin 5000) (q : Fin 128) :
    broadcastTo S5000x128 (shapeCast S1x128 b shapeCasts_S128_S1x128) broadcasts_S1x128_S5000x128 (ix2 p q) = b (ValueIdx.ix1 q) := by
  refine (broadcastTo_apply _ broadcasts_S1x128_S5000x128 (ix2 p q) (ix2 (0 : Fin 1) q) (fun a => match a with
    | ⟨0, _⟩ => by show (0 : Nat) = if (1 : Nat) = 1 then 0 else (p : Nat); rw [if_pos rfl]
    | ⟨1, _⟩ => by show (q : Nat) = if (128 : Nat) = 1 then 0 else (q : Nat); rw [if_neg (by decide)])).trans ?_
  refine (shapeCast_addUnit_apply ![128] b shapeCasts_S128_S1x128 (ix2 (0 : Fin 1) q)).trans ?_
  exact congrArg b (funext fun a => match a with | ⟨0, _⟩ => rfl)

theorem lin_block_apply (a : FVec Ideal S5000x128 .f32) (n : FVec Ideal S5000x1 .f32) (X : FVec Ideal S5000x128 .bf16)
    (Wl Wr : FVec Ideal S128x128 .f32) (b : FVec Ideal S128 .f32) (p : Fin 5000) (q : Fin 128) :
    addf (addf (matmul dot_S5000x128_S128x128_S5000x128_1_0_0_1_n_n none
            (truncf .bf16 (divf (shapeCast S5000x128 a shapeCasts_S5000x128_S5000x128)
              (broadcastTo S5000x128 (maximumf (shapeCast S5000x1 n shapeCasts_S5000x1_S5000x1) (broadcast S5000x1 (Scalar.ofBits .f32 0x3F800000#32)))
                broadcasts_S5000x1_S5000x128)) bitsLt_bf16_f32)
            (transpose S128x128 [1, 0] (truncf .bf16 Wl bitsLt_bf16_f32) transposes_S128x128_p1_0_S128x128)
            (constant (F := Ideal) S5000x128 .f32 0x00000000#32))
          (broadcastTo S5000x128 (shapeCast S1x128 b shapeCasts_S128_S1x128) broadcasts_S1x128_S5000x128))
        (matmul dot_S5000x128_S128x128_S5000x128_1_0_0_1_n_n none X
          (transpose S128x128 [1, 0] (truncf .bf16 Wr bitsLt_bf16_f32) transposes_S128x128_p1_0_S128x128)
          (constant (F := Ideal) S5000x128 .f32 0x00000000#32)) (ix2 p q)
      = (∑ k : Fin 128, Ideal.div (a (ix2 p k)) (max (n (ix2 p (0 : Fin 1))) (Ideal.ofBits .f32 0x3F800000#32)) * Wl (ix2 q k))
          + b (ValueIdx.ix1 q) + ∑ k : Fin 128, X (ix2 p k) * Wr (ix2 q k) := by
  rw [addf_apply, addf_apply, lin_matmul_apply, lin_matmul_apply, lin_bias_apply]
  refine congrArg₂ (· + ·) (congrArg₂ (· + ·) (Finset.sum_congr rfl fun k _ => ?_) rfl) (Finset.sum_congr rfl fun k _ => ?_)
  · rw [lin_nrm_apply, lin_wT_apply]
  · rw [lin_wT_apply]

-- The rectified layer's arithmetic at entry (p, q) of a block, from its six operands.
theorem payRelu_apply (v0 : Vec Ideal S5000x1 .f32) (v4 v9 : Vec Ideal S5000x128 .f32)
    (v11 v13 : Vec Ideal S128x128 .f32) (v17 : Vec Ideal S128 .f32) (p : Fin 5000) (q : Fin 128) :
    k2_pay1 (F := Ideal) v0 v4 v9 v11 v13 v17 (ix2 p q)
      = max ((∑ k : Fin 128, Ideal.div (v4 (ix2 p k)) (max (v0 (ix2 p (0 : Fin 1))) (Ideal.ofBits .f32 0x3F800000#32)) * v11 (ix2 q k))
            + v17 (ValueIdx.ix1 q) + ∑ k : Fin 128, v9 (ix2 p k) * v13 (ix2 q k)) (Ideal.ofBits .f32 0x00000000#32) := by
  unfold k2_pay1
  exact congrArg (max · (Ideal.ofBits .f32 0x00000000#32))
    (lin_block_apply v4 v0 (truncf .bf16 v9 bitsLt_bf16_f32) v11 v13 v17 p q)

-- The same without the rectifier (the last layer).
theorem pay_apply (v0 : Vec Ideal S5000x1 .f32) (v4 v9 : Vec Ideal S5000x128 .f32)
    (v12 v14 : Vec Ideal S128x128 .f32) (v18 : Vec Ideal S128 .f32) (p : Fin 5000) (q : Fin 128) :
    k8_pay1 (F := Ideal) v0 v4 v9 v12 v14 v18 (ix2 p q)
      = (∑ k : Fin 128, Ideal.div (v4 (ix2 p k)) (max (v0 (ix2 p (0 : Fin 1))) (Ideal.ofBits .f32 0x3F800000#32)) * v12 (ix2 q k))
            + v18 (ValueIdx.ix1 q) + ∑ k : Fin 128, v9 (ix2 p k) * v14 (ix2 q k) := by
  unfold k8_pay1
  refine (lin_block_apply v4 v0 (truncf .bf16 (shapeCast S5000x128 v9 shapeCasts_S5000x128_S5000x128) bitsLt_bf16_f32) v12 v14 v18 p q).trans ?_
  rw [shapeCast_self]
  rfl

-- With no axis cut, every index of the block lies within its extent.
theorem moved_of_uncut {G : Pipeline.Grid} (w : Pipeline.Window sig G) (i : G.Coords) (h : ∀ a, w.clip i a = none)
    (j : w.block.Idx) : w.moved i j = true :=
  (w.moved_iff i j).mpr fun a => by have := (j a).isLt; unfold Pipeline.Window.xsize; rw [h a]; exact this

-- Block index i = t on a row axis of 5000-row blocks, and i = 0 on a whole axis: where the entry lies in the array.
theorem row_ix {i t p : Nat} (h : i = t) : i * 5000 + 1 * p = 5000 * t + p := by omega
theorem col_ix {i n k : Nat} (h : i = 0) : i * n + 1 * k = k := by rw [h, Nat.zero_mul, Nat.one_mul, Nat.zero_add]

theorem zeros_two : (![0, 0] : Fin 2 → Nat) = fun _ => 0 := funext fun a => by fin_cases a <;> rfl
theorem zeros_one : (![0] : Fin 1 → Nat) = fun _ => 0 := funext fun a => by fin_cases a <;> rfl

end Cert.KernelIdeal.Hand.LinearOps
-- ==== Proof.KI.Linear2Value.lean ====
import proofs.«411563_j39152921870698_3_alg».proof.Proof.KI.Linear2
import proofs.«411563_j39152921870698_3_alg».proof.Proof.KI.LinearOps

set_option maxRecDepth 16384

noncomputable section

open scoped BigOperators

namespace Cert.KernelIdeal.Hand.Linear2Value

open Cert.KernelIdeal Cert.KernelIdeal.Gen Cert.KernelIdeal.Hand Cert.KernelIdeal.Hand.LinearOps
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev agg2 (c : Dev nD) : Vec Ideal S102000x128 .f32 := V c main_v62_0
abbrev cnt2 (c : Dev nD) : Vec Ideal S102000x1 .f32 := V c main_v62_1
abbrev xin2 (c : Dev nD) : Vec Ideal S100000x128 .f32 := V c main_arg1
abbrev wl2 (c : Dev nD) : Vec Ideal S128x128 .f32 := V c main_arg4
abbrev bl2 (c : Dev nD) : Vec Ideal S128 .f32 := V c main_arg5
abbrev wr2 (c : Dev nD) : Vec Ideal S128x128 .f32 := V c main_arg6

def outG2 (c : Dev nD) : Vec Ideal S100000x128 .f32 := fun i =>
  denseRelu (agg2 V c) (cnt2 V c) (xin2 V c) (wl2 V c) (bl2 V c) (wr2 V c) ⟨(i 0).val, (i 0).isLt⟩ ⟨(i 1).val, (i 1).isLt⟩

theorem N2_eq : cfg2.N = 20 := by decide

def row2 (t : Fin cfg2.N) (p : Fin 5000) : Fin 100000 :=
  ⟨5000 * t.val + p.val, by have := t.isLt; have := p.isLt; have h := N2_eq; omega⟩

theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

-- Row p of block t is row 5000 t + p of the array.
theorem sblk2_0_apply (c : Dev nD) (t : Fin cfg2.N) (p : Fin 5000) (k : Fin 128) :
    sblk2_0 V c t (ix2 p k) = agg2 V c (ix2 (rowUp (row2 t p)) k) := by
  have hm := moved_of_uncut (cfg2.win 0) _ (uncut2_0 t) (ix2 p k)
  obtain ⟨e0, e1, -⟩ := idx2_facts t
  unfold sblk2_0 Pipeline.Window.fill
  rw [dif_pos hm]
  show V c main_v62_0 (((cfg2.win 0).blk t).view.emb _) = V c main_v62_0 _
  exact congrArg (V c main_v62_0) (Shape.idx_ext₂ (row_ix e0) (col_ix e1))

theorem sblk2_1_apply (c : Dev nD) (t : Fin cfg2.N) (p : Fin 5000) :
    sblk2_1 V c t (ix2 p (0 : Fin 1)) = cnt2 V c (ix2 (rowUp (row2 t p)) (0 : Fin 1)) := by
  have hm := moved_of_uncut (cfg2.win 1) _ (uncut2_1 t) (ix2 p (0 : Fin 1))
  obtain ⟨-, -, e0, e1, -⟩ := idx2_facts t
  unfold sblk2_1 Pipeline.Window.fill
  rw [dif_pos hm]
  show V c main_v62_1 (((cfg2.win 1).blk t).view.emb _) = V c main_v62_1 _
  exact congrArg (V c main_v62_1) (Shape.idx_ext₂ (row_ix e0) (col_ix e1))

theorem iblk2_2_apply (c : Dev nD) (t : Fin cfg2.N) (p : Fin 5000) (k : Fin 128) :
    iblk2 V c 2 t (ix2 p k) = xin2 V c (ix2 (row2 t p) k) := by
  obtain ⟨-, -, -, -, e0, e1, -⟩ := idx2_facts t
  show V c main_arg1 (((cfg2.win 2).blk t).view.emb (ix2 p k)) = V c main_arg1 _
  exact congrArg (V c main_arg1) (Shape.idx_ext₂ (row_ix e0) (col_ix e1))

-- Blocks 3, 4 and 5 are the whole arrays.
theorem iblk2_3_apply (c : Dev nD) (t : Fin cfg2.N) (f k : Fin 128) :
    iblk2 V c 3 t (ix2 f k) = wl2 V c (ix2 f k) := by
  obtain ⟨-, -, -, -, -, -, e0, e1, -⟩ := idx2_facts t
  show V c main_arg4 (((cfg2.win 3).blk t).view.emb (ix2 f k)) = V c main_arg4 _
  exact congrArg (V c main_arg4) (Shape.idx_ext₂ (col_ix e0) (col_ix e1))

theorem iblk2_4_apply (c : Dev nD) (t : Fin cfg2.N) (f : Fin 128) :
    iblk2 V c 4 t (ValueIdx.ix1 f) = bl2 V c (ValueIdx.ix1 f) := by
  obtain ⟨-, -, -, -, -, -, -, -, e0, -⟩ := idx2_facts t
  show V c main_arg5 (((cfg2.win 4).blk t).view.emb (ValueIdx.ix1 f)) = V c main_arg5 _
  exact congrArg (V c main_arg5) (funext fun a => Fin.ext (match a with
    | ⟨0, _⟩ => col_ix e0))

theorem iblk2_5_apply (c : Dev nD) (t : Fin cfg2.N) (f k : Fin 128) :
    iblk2 V c 5 t (ix2 f k) = wr2 V c (ix2 f k) := by
  obtain ⟨-, -, -, -, -, -, -, -, -, e0, e1, -⟩ := idx2_facts t
  show V c main_arg6 (((cfg2.win 5).blk t).view.emb (ix2 f k)) = V c main_arg6 _
  exact congrArg (V c main_arg6) (Shape.idx_ext₂ (col_ix e0) (col_ix e1))

-- Entry (p, q) of point t's block of the result lies at row 5000 t + p, column q of the array.
theorem emb2_6 (t : Fin cfg2.N) (p : Fin 5000) (q : Fin 128) :
    ((cfg2.win 6).blk t).view.emb (ix2 p q) = ix2 (row2 t p) q := by
  obtain ⟨-, -, -, -, -, -, -, -, -, -, -, e0, e1⟩ := idx2_facts t
  exact Shape.idx_ext₂ (row_ix e0) (col_ix e1)

-- Block t of the result is block t of the closed form.
theorem flushed2_eq (c : Dev nD) (t : Fin cfg2.N) :
    (dat2 V c).flushed 6 t = ((cfg2.win 6).blk t).view.read (Elt Ideal) (outG2 V c) := by
  show (cfg2.win 6).cut (grid2.coords t) ((dat2 V c).after 6 t) = _
  rw [after2_6]
  unfold out2_6
  rw [View.canon_unit_zero zeros_two]
  simp only [View.ld_unit_zero (S := S5000x128) zeros_two, View.ld_unit_zero (S := S5000x1) zeros_two,
    View.ld_unit_zero (S := S128x128) zeros_two, View.ld_unit_zero (S := S128) zeros_one]
  funext j
  obtain ⟨p, q, rfl⟩ : ∃ (p : Fin 5000) (q : Fin 128), j = ix2 p q := ⟨j 0, j 1, eq_ix2 j⟩
  show k2_pay1 (F := Ideal) _ _ _ _ _ _ (ix2 p q) = outG2 V c (((cfg2.win 6).blk t).view.emb (ix2 p q))
  rw [emb2_6]
  refine (payRelu_apply _ _ _ _ _ _ p q).trans ?_
  simp only [sblk2_0_apply, sblk2_1_apply, iblk2_2_apply, iblk2_3_apply, iblk2_4_apply, iblk2_5_apply]
  rfl

-- Row r is row r % 5000 of block r / 5000.
theorem arrAt_out2_apply (c : Dev nD) (r : Fin 100000) (f : Fin 128) :
    (dat2 V c).arrAt 6 cfg2.N (ix2 r f)
      = denseRelu (agg2 V c) (cnt2 V c) (xin2 V c) (wl2 V c) (bl2 V c) (wr2 V c) r f := by
  have ht : r.val / 5000 < cfg2.N := by have := r.isLt; have := N2_eq; omega
  obtain ⟨t, p, rfl⟩ : ∃ t p, r = row2 t p :=
    ⟨⟨r.val / 5000, ht⟩, ⟨r.val % 5000, Nat.mod_lt _ (by decide)⟩,
      Fin.ext (by show r.val = 5000 * (r.val / 5000) + r.val % 5000; omega)⟩
  rw [← emb2_6]
  exact ((dat2 V c).arrAt_apply_of_mem 6 (outG2 V c) (fun t _ => flushed2_eq V c t) cfg2.N t _ t.isLt (flush2_6 t)
    (View.emb_mem_set _ _)).trans (by rw [emb2_6]; rfl)

end Cert.KernelIdeal.Hand.Linear2Value
-- ==== Proof.Val.PrepPure.lean ====
import Idealize.ShloMosaic.PureOps
import Idealize.ShloMosaic.Lib.ValueIdx
import Idealize.ShloMosaic.Lib.SortFacts
import Idealize.ShloMosaic.Lib.StableHlo.Predicate
import Idealize.ShloMosaic.Lib.ReduceAll

namespace Cert.Hand.PrepWords

open Idealize.ShloMosaic

def sgnWord (x : BitVec 32) : BitVec 32 := if x = 0 then 0 else if x.msb then -1 else 1

def floorDivWord (x d : BitVec 32) : BitVec 32 :=
  Scalar.select
    (IntOp.andi (IntOp.cmpi .ne (sgnWord x) (sgnWord d)) (IntOp.cmpi .ne (IntOp.remsi .host x d) 0#32))
    (IntOp.subi (IntOp.divsi .host x d) 1#32) (IntOp.divsi .host x d)

theorem toInt_2000 : (2000#32 : BitVec 32).toInt = 2000 := by decide

theorem not_corner_2000 (x : BitVec 32) : ¬ IntOp.SDivCorner x 2000#32 :=
  IntOp.not_corner_of_pos (by decide)

theorem divsi_2000_toInt (x : BitVec 32) : (IntOp.divsi .host x 2000#32).toInt = x.toInt.tdiv 2000 := by
  unfold IntOp.divsi
  rw [if_neg (not_corner_2000 x), BitVec.toInt_sdiv_of_ne_or_ne x 2000#32 (Or.inr (by decide)), toInt_2000]

theorem remsi_2000_toInt (x : BitVec 32) : (IntOp.remsi .host x 2000#32).toInt = x.toInt.tmod 2000 := by
  unfold IntOp.remsi
  rw [if_neg (not_corner_2000 x), BitVec.toInt_srem, toInt_2000]

theorem remsi_2000_eq_zero_iff (x : BitVec 32) : IntOp.remsi .host x 2000#32 = 0#32 ↔ x.toInt.tmod 2000 = 0 := by
  rw [← remsi_2000_toInt, ← BitVec.toInt_inj]
  exact Iff.rfl

theorem sgnWord_eq_one_iff (x : BitVec 32) : sgnWord x = 1#32 ↔ 0 < x.toInt := by
  unfold sgnWord
  by_cases hx0 : x = 0
  · subst hx0
    decide
  · have hne : x.toInt ≠ 0 := fun h => hx0 (BitVec.toInt_inj.mp (by rw [h]; rfl))
    rw [if_neg hx0, BitVec.msb_eq_toInt]
    by_cases hneg : x.toInt < 0
    · rw [decide_eq_true hneg, if_pos rfl]
      constructor
      · intro h; exact absurd h (by decide)
      · intro h; omega
    · rw [decide_eq_false hneg, if_neg (by decide)]
      constructor
      · intro _; omega
      · intro _; rfl

theorem subi_divsi_2000_toInt (x : BitVec 32) :
    (IntOp.subi (IntOp.divsi .host x 2000#32) 1#32).toInt = x.toInt.tdiv 2000 - 1 := by
  have hlo := BitVec.le_toInt x
  have hhi := @BitVec.toInt_lt 32 x
  have htd : x.toInt.tdiv 2000 = x.toInt / 2000 + if 0 ≤ x.toInt ∨ (2000 : Int) ∣ x.toInt then 0 else Int.sign 2000 :=
    Int.tdiv_eq_ediv
  have hsg : Int.sign 2000 = 1 := rfl
  rw [hsg] at htd
  unfold IntOp.subi
  rw [BitVec.toInt_sub, divsi_2000_toInt, BitVec.toInt_one (by decide)]
  apply Int.bmod_eq_of_le <;> (split at htd <;> omega)

theorem floorDivWord_2000_toInt (x : BitVec 32) : (floorDivWord x 2000#32).toInt = x.toInt / 2000 := by
  have htd : x.toInt.tdiv 2000 = x.toInt / 2000 + if 0 ≤ x.toInt ∨ (2000 : Int) ∣ x.toInt then 0 else Int.sign 2000 :=
    Int.tdiv_eq_ediv
  have hsg : Int.sign 2000 = 1 := rfl
  rw [hsg] at htd
  have hs : sgnWord 2000#32 = 1#32 := by decide
  unfold floorDivWord Scalar.select
  split
  · rename_i hc
    replace hc : IntOp.andi (IntOp.cmpi .ne (sgnWord x) (sgnWord 2000#32))
        (IntOp.cmpi .ne (IntOp.remsi .host x 2000#32) 0#32) = 1#1 := hc
    rw [IntOp.andi_eq_one, IntOp.cmpi_ne, IntOp.cmpi_ne, hs] at hc
    obtain ⟨h1, h2⟩ := hc
    rw [Ne, sgnWord_eq_one_iff] at h1
    rw [Ne, remsi_2000_eq_zero_iff] at h2
    have hnd : ¬ (2000 : Int) ∣ x.toInt := fun hd => h2 (Int.tmod_eq_zero_of_dvd hd)
    have hx0 : x.toInt ≠ 0 := fun h => hnd (h ▸ Int.dvd_zero _)
    rw [subi_divsi_2000_toInt, htd, if_neg (by rintro (h | h); omega; exact hnd h)]
    omega
  · rename_i hc
    replace hc : ¬ IntOp.andi (IntOp.cmpi .ne (sgnWord x) (sgnWord 2000#32))
        (IntOp.cmpi .ne (IntOp.remsi .host x 2000#32) 0#32) = 1#1 := hc
    rw [IntOp.andi_eq_one, IntOp.cmpi_ne, IntOp.cmpi_ne, hs, not_and_or, Ne, Ne, not_not, not_not] at hc
    rw [divsi_2000_toInt, htd]
    rcases hc with h1 | h2
    · rw [sgnWord_eq_one_iff] at h1
      rw [if_pos (Or.inl (by omega))]
      omega
    · rw [remsi_2000_eq_zero_iff] at h2
      rw [if_pos (Or.inr (Int.dvd_of_tmod_eq_zero h2))]
      omega

theorem toInt_ofNat_lt {j : Nat} (hj : j < 2 ^ 31) : (BitVec.ofNat 32 j).toInt = j :=
  StableHlo.Predicate.toInt_ofNat_small j hj

theorem scalar_sge_ofNat_iff {j : Nat} (hj : j < 2 ^ 31) (w : BitVec 32) :
    Scalar.cmpi .sge (BitVec.ofNat 32 j) w = 1#1 ↔ w.toInt ≤ (j : Int) := by
  unfold Scalar.cmpi
  rw [IntOp.cmpi_sge, toInt_ofNat_lt hj]

theorem scalar_sle_ofNat_iff {j : Nat} (hj : j < 2 ^ 31) (w : BitVec 32) :
    Scalar.cmpi .sle (BitVec.ofNat 32 j) w = 1#1 ↔ (j : Int) ≤ w.toInt := by
  unfold Scalar.cmpi
  rw [IntOp.cmpi_sle, toInt_ofNat_lt hj]

end Cert.Hand.PrepWords

namespace Cert.Hand.PrepSort

open Idealize.ShloMosaic Cert.Hand.PrepWords

def before {n : Nat} (x : IVec ⟨1, ![n]⟩ 32) (k k' : Fin n) : Bool :=
  IntOp.cmpi .slt (x (Shape.Idx.ofFin k)) (x (Shape.Idx.ofFin k')) == 1#1

theorem before_iff {n : Nat} (x : IVec ⟨1, ![n]⟩ 32) (k k' : Fin n) :
    before x k k' = true ↔ (x (Shape.Idx.ofFin k)).toInt < (x (Shape.Idx.ofFin k')).toInt := by
  unfold before
  rw [beq_iff_eq, IntOp.cmpi_slt]

theorem before_eq_false_iff {n : Nat} (x : IVec ⟨1, ![n]⟩ 32) (k k' : Fin n) :
    before x k k' = false ↔ (x (Shape.Idx.ofFin k')).toInt ≤ (x (Shape.Idx.ofFin k)).toInt := by
  rw [← Bool.not_eq_true, before_iff, Int.not_lt]

noncomputable def sortPerm {n : Nat} (x : IVec ⟨1, ![n]⟩ 32) : Fin n ≃ Fin n :=
  Equiv.ofBijective (sortedFrom (before x)) ⟨sortedFrom_injective _, sortedFrom_surjective _⟩

theorem sortPerm_sorted {n : Nat} (x : IVec ⟨1, ![n]⟩ 32) {p q : Fin n} (hpq : p ≤ q) :
    (x (Shape.Idx.ofFin (sortPerm x p))).toInt ≤ (x (Shape.Idx.ofFin (sortPerm x q))).toInt := by
  rcases lt_or_eq_of_le hpq with hlt | rfl
  · have h := sortedFrom_noInversion (before x) (before x)
      (fun a b hab => by rw [before_iff] at hab; rw [before_eq_false_iff]; omega)
      (fun _ _ h => h)
      (fun a b c hab hbc => by rw [before_eq_false_iff] at hab hbc ⊢; omega) p q hlt
    rw [before_eq_false_iff] at h
    exact h
  · exact le_refl _

theorem sort2_apply {n : Nat} (cmp : BitVec 32 × BitVec 32 → BitVec 32 × BitVec 32 → BitVec 1)
    (hcmp : ∀ l r, cmp l r = IntOp.cmpi .slt l.1 r.1) (x : IVec ⟨1, ![n]⟩ 32) (j : (⟨1, ![n]⟩ : Shape).Idx) :
    (Host.sort2 ⟨1, ![n]⟩ 0 cmp x (iotaInDim ⟨1, ![n]⟩ 32 0)).1 j = x (Shape.Idx.ofFin (sortedFrom (before x) (j 0)))
    ∧ (Host.sort2 ⟨1, ![n]⟩ 0 cmp x (iotaInDim ⟨1, ![n]⟩ 32 0)).2 j = BitVec.ofNat 32 (sortedFrom (before x) (j 0)).val := by
  have hb : before x = fun k k' => (IntOp.cmpi .slt (x (Shape.Idx.ofFin k)) (x (Shape.Idx.ofFin k')) == 1#1) := rfl
  rw [hb]
  unfold Host.sort2
  simp [hcmp, iotaInDim]

theorem argsort_apply {n : Nat} (cmp : BitVec 32 × BitVec 32 → BitVec 32 × BitVec 32 → BitVec 1)
    (hcmp : ∀ l r, cmp l r = IntOp.cmpi .slt l.1 r.1) (x : IVec ⟨1, ![n]⟩ 32) (p : Fin n) :
    (Host.sort2 ⟨1, ![n]⟩ 0 cmp x (iotaInDim ⟨1, ![n]⟩ 32 0)).2 (Shape.Idx.ofFin p) = BitVec.ofNat 32 (sortPerm x p).val :=
  (sort2_apply cmp hcmp x (Shape.Idx.ofFin p)).2

attribute [irreducible] sortPerm

end Cert.Hand.PrepSort

namespace Cert.Hand.PrepReads

open Idealize.ShloMosaic Idealize.ShloMosaic.ValueIdx Cert.Hand.PrepWords

theorem wrap_word (v c : BitVec 32) (hv : 0 ≤ v.toInt) :
    Scalar.select (IntOp.cmpi .slt v 0#32) (IntOp.addi v c) v = v := by
  unfold Scalar.select
  rw [if_neg]
  show ¬ IntOp.cmpi .slt v 0#32 = 1#1
  rw [IntOp.cmpi_slt]
  have : (0#32 : BitVec 32).toInt = 0 := by decide
  omega

theorem toInt_toNat_ofNat {k : Nat} (hk : k < 2 ^ 31) : (BitVec.ofNat 32 k).toInt.toNat = k := by
  rw [toInt_ofNat_lt hk]; exact Int.toNat_natCast k

theorem take_at {α : Type} {N n : Nat} (hN : N ≤ 2 ^ 31) (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (hb : (⟨1, ![n]⟩ : Shape).BroadcastsInDim ⟨2, ![n, 1]⟩ ![0])
    (x : (⟨1, ![N]⟩ : Shape).Idx → α) (idx : IVec ⟨1, ![n]⟩ 32) (p : Fin n) (k : Fin N)
    (hk : idx (Shape.Idx.ofFin p) = BitVec.ofNat 32 k.val) :
    Host.gather d x (broadcastInDim ⟨2, ![n, 1]⟩ ![0] hb idx) (Shape.Idx.ofFin p) = x (Shape.Idx.ofFin k) := by
  have hpos : 0 < N := Nat.lt_of_le_of_lt (Nat.zero_le _) k.isLt
  refine (StableHlo.Predicate.gather_take d hcoll hob hsim hivd x _ p hpos).trans ?_
  refine congrArg x (congrArg (Shape.Idx.ofFin (n := N)) (Fin.ext ?_))
  show min ((broadcastInDim ⟨2, ![n, 1]⟩ ![0] hb idx) (StableHlo.Predicate.ixP p)).toInt.toNat (N - 1) = k.val
  rw [StableHlo.Predicate.bcast_col1, hk, toInt_toNat_ofNat (Nat.lt_of_lt_of_le k.isLt hN)]
  have := k.isLt
  omega

theorem pad_rank1 {α : Type} {n N : Nat} (hi : Fin 1 → Nat) (x : (⟨1, ![n]⟩ : Shape).Idx → α) {u : Shape} (v : u.Idx → α)
    (h : (⟨1, ![n]⟩ : Shape).Pads ![0] hi ![0] ⟨1, ![N]⟩) (hu : 0 < u.numel) (p : Fin N) :
    pad ⟨1, ![N]⟩ ![0] hi ![0] x v h hu (Shape.Idx.ofFin p)
      = if hp : p.val < n then x (Shape.Idx.ofFin ⟨p.val, hp⟩) else v (Shape.Idx.first hu) := by
  unfold pad
  by_cases hp : p.val < n
  · rw [dif_pos hp, dif_pos]
    · refine congrArg x (funext fun a => ?_)
      obtain rfl : a = 0 := Subsingleton.elim _ _
      apply Fin.ext
      show (p.val - 0) / (0 + 1) = p.val
      omega
    · intro a
      obtain rfl : a = 0 := Subsingleton.elim _ _
      refine ⟨Nat.zero_le _, ?_, ?_⟩
      · show (p.val - 0) % (0 + 1) = 0
        omega
      · show (p.val - 0) / (0 + 1) < n
        omega
  · rw [dif_neg hp, dif_neg]
    intro hin
    have h0 := (hin 0).2.2
    apply hp
    have : (p.val - 0) / (0 + 1) < n := h0
    omega

theorem slice2_apply {α : Type} {a b a' b' : Nat} (off : Fin 2 → Nat) (x : (⟨2, ![a, b]⟩ : Shape).Idx → α)
    (h : (⟨2, ![a, b]⟩ : Shape).Slices off ⟨2, ![a', b']⟩) (i : Fin a') (j : Fin b') (i0 : Fin a) (j0 : Fin b)
    (hi : i0.val = off 0 + i.val) (hj : j0.val = off 1 + j.val) :
    extractStridedSlice ⟨2, ![a', b']⟩ off x h (ix2 i j) = x (ix2 i0 j0) := by
  unfold extractStridedSlice
  refine congrArg x (funext fun d => ?_)
  apply Fin.ext
  match d with
  | ⟨0, _⟩ => exact hi.symm
  | ⟨1, _⟩ => exact hj.symm

end Cert.Hand.PrepReads
-- ==== Proof.Val.PrepTerms.lean ====
import proofs.«411563_j39152921870698_3_alg».proof.KernelIdeal
import proofs.«411563_j39152921870698_3_alg».proof.Proof.Gen.KernelIdeal
import proofs.«411563_j39152921870698_3_alg».proof.Proof.Val.PrepPure
import Idealize.ShloMosaic.Lib.Pipeline.Value

noncomputable section

namespace Cert.KernelIdeal.Hand.Prep

open Idealize.ShloMosaic Idealize.ShloMosaic.ValueIdx
open Cert.KernelIdeal Cert.KernelIdeal.Gen
open Cert.Hand.PrepWords Cert.Hand.PrepSort Cert.Hand.PrepReads

def eiRow0 (ei : IVec S2x600000 32) : IVec S600000 32 :=
  shapeCast S600000 (extractStridedSlice S1x600000 ![0, 0] ei slices_S2x600000_S1x600000_0_0) shapeCasts_S1x600000_S600000

def eiRow1 (ei : IVec S2x600000 32) : IVec S600000 32 :=
  shapeCast S600000 (extractStridedSlice S1x600000 ![1, 0] ei slices_S2x600000_S1x600000_1_0) shapeCasts_S1x600000_S600000

def padTo (x : IVec S600000 32) (v : IVec S_ 32) : IVec S600064 32 :=
  pad S600064 ![0] ![64] ![0] x v pads_S600000_S600064_0640 h_S_

def argsortOf (x : IVec S600064 32) : IVec S600064 32 :=
  (Host.sort2 S600064 0 comparator_i32_i32_d0 x (iotaInDim S600064 32 0)).2

def wrapCol (i : IVec S600064 32) : IVec S600064x1 32 :=
  broadcastInDim S600064x1 ![0] bcast_S600064_S600064x1_0
    (select (cmpi .slt i (broadcastInDim S600064 ![] bcast_S_S600064 (constantI S_ 32 0#32)))
      (addi i (broadcastInDim S600064 ![] bcast_S_S600064 (constantI S_ 32 600064#32))) i)

def takeBy (x i : IVec S600064 32) : IVec S600064 32 :=
  Host.gather gather_S600064_S600064x1_S600064_n_0_n_n_0_1_1 x (wrapCol i)

def rowOf (y : IVec S600064 32) : IVec S1x600064 32 := shapeCast S1x600064 y shapeCasts_S600064_S1x600064

def blocksOf (y : IVec S600064 32) : IVec S293x2048 32 := shapeCast S293x2048 y shapeCasts_S600064_S293x2048

def blockFirst (y : IVec S293x2048 32) : IVec S293 32 :=
  shapeCast S293 (extractStridedSlice S293x1 ![0, 0] y slices_S293x2048_S293x1_0_0) shapeCasts_S293x1_S293

def blockLast (y : IVec S293x2048 32) : IVec S293 32 :=
  shapeCast S293 (extractStridedSlice S293x1 ![0, 2047] y slices_S293x2048_S293x1_0_2047) shapeCasts_S293x1_S293

def floorDivVec (x : IVec S293 32) (d : IVec S_ 32) : IVec S293 32 :=
  select
    (andi (cmpi .ne (signi x) (broadcastInDim S293 ![] bcast_S_S293 (signi d)))
      (cmpi .ne (Host.remsi x (broadcastInDim S293 ![] bcast_S_S293 d)) (broadcastInDim S293 ![] bcast_S_S293 (constantI S_ 32 0#32))))
    (subi (Host.divsi x (broadcastInDim S293 ![] bcast_S_S293 d)) (broadcastInDim S293 ![] bcast_S_S293 (constantI S_ 32 1#32)))
    (Host.divsi x (broadcastInDim S293 ![] bcast_S_S293 d))

def srcPv (ei : IVec S2x600000 32) : IVec S600064 32 := padTo (eiRow0 ei) (constantI S_ 32 0#32)

def dstPv (ei : IVec S2x600000 32) : IVec S600064 32 := padTo (eiRow1 ei) (constantI S_ 32 100000#32)

def srcSv (ei : IVec S2x600000 32) : IVec S600064 32 := takeBy (srcPv ei) (argsortOf (dstPv ei))

def dstSv (ei : IVec S2x600000 32) : IVec S600064 32 := takeBy (dstPv ei) (argsortOf (dstPv ei))

def srcP (ei : IVec S2x600000 32) (p : Fin 600064) : BitVec 32 := srcPv ei (Shape.Idx.ofFin p)

def dstP (ei : IVec S2x600000 32) (p : Fin 600064) : BitVec 32 := dstPv ei (Shape.Idx.ofFin p)

def σ (ei : IVec S2x600000 32) : Fin 600064 ≃ Fin 600064 := sortPerm (dstPv ei)

def srcS (ei : IVec S2x600000 32) (p : Fin 600064) : BitVec 32 := srcP ei (σ ei p)

def dstS (ei : IVec S2x600000 32) (p : Fin 600064) : BitVec 32 := dstP ei (σ ei p)

abbrev blk (e : Fin 293) (l : Fin 2048) : Fin 600064 := ⟨2048 * e.val + l.val, by have := e.isLt; have := l.isLt; omega⟩

def lo (ei : IVec S2x600000 32) (e : Fin 293) : BitVec 32 := floorDivWord (dstS ei (blk e 0)) 2000#32

def hi (ei : IVec S2x600000 32) (e : Fin 293) : BitVec 32 := floorDivWord (dstS ei (blk e ⟨2047, by decide⟩)) 2000#32

theorem eiRow0_apply (ei : IVec S2x600000 32) (k : Fin 600000) :
    eiRow0 ei (Shape.Idx.ofFin k) = ei (ix2 (0 : Fin 2) k) := by
  unfold eiRow0
  rw [shapeCast_apply _ _ _ (ix2 (0 : Fin 1) k)]
  · exact slice2_apply _ _ _ _ _ _ _ rfl (by show k.val = 0 + k.val; omega)
  · rw [Shape.rowMajor_val_two, Shape.rowMajor_val_one]
    show 0 * 600000 + k.val = k.val
    omega

theorem eiRow1_apply (ei : IVec S2x600000 32) (k : Fin 600000) :
    eiRow1 ei (Shape.Idx.ofFin k) = ei (ix2 (1 : Fin 2) k) := by
  unfold eiRow1
  rw [shapeCast_apply _ _ _ (ix2 (0 : Fin 1) k)]
  · exact slice2_apply _ _ _ _ _ _ _ rfl (by show k.val = 0 + k.val; omega)
  · rw [Shape.rowMajor_val_two, Shape.rowMajor_val_one]
    show 0 * 600000 + k.val = k.val
    omega

theorem srcP_of_lt (ei : IVec S2x600000 32) (p : Fin 600064) (hp : p.val < 600000) :
    srcP ei p = ei (ix2 (0 : Fin 2) ⟨p.val, hp⟩) := by
  unfold srcP srcPv padTo
  rw [pad_rank1, dif_pos hp, eiRow0_apply]

theorem dstP_of_lt (ei : IVec S2x600000 32) (p : Fin 600064) (hp : p.val < 600000) :
    dstP ei p = ei (ix2 (1 : Fin 2) ⟨p.val, hp⟩) := by
  unfold dstP dstPv padTo
  rw [pad_rank1, dif_pos hp, eiRow1_apply]

theorem dstP_of_ge (ei : IVec S2x600000 32) (p : Fin 600064) (hp : 600000 ≤ p.val) : dstP ei p = 100000#32 := by
  unfold dstP dstPv padTo
  rw [pad_rank1, dif_neg (show ¬ p.val < 600000 by omega)]
  rfl

theorem argsortOf_apply (x : IVec S600064 32) (p : Fin 600064) :
    argsortOf x (Shape.Idx.ofFin p) = BitVec.ofNat 32 (sortPerm x p).val := by
  unfold argsortOf
  exact argsort_apply comparator_i32_i32_d0 (fun _ _ => rfl) x p

theorem takeBy_argsortOf_apply (x y : IVec S600064 32) (p : Fin 600064) :
    takeBy x (argsortOf y) (Shape.Idx.ofFin p) = x (Shape.Idx.ofFin (sortPerm y p)) := by
  unfold takeBy wrapCol
  refine take_at (by decide) _ rfl rfl rfl rfl _ x _ p (sortPerm y p) ?_
  show Scalar.select (IntOp.cmpi .slt (argsortOf y (Shape.Idx.ofFin p)) 0#32)
      (IntOp.addi (argsortOf y (Shape.Idx.ofFin p)) 600064#32) (argsortOf y (Shape.Idx.ofFin p)) = _
  rw [argsortOf_apply]
  generalize sortPerm y p = k
  refine wrap_word _ _ ?_
  rw [toInt_ofNat_lt (j := k.val) (by have := k.isLt; omega)]
  exact Int.natCast_nonneg _

theorem srcSv_apply (ei : IVec S2x600000 32) (p : Fin 600064) : srcSv ei (Shape.Idx.ofFin p) = srcS ei p :=
  takeBy_argsortOf_apply _ _ p

theorem dstSv_apply (ei : IVec S2x600000 32) (p : Fin 600064) : dstSv ei (Shape.Idx.ofFin p) = dstS ei p :=
  takeBy_argsortOf_apply _ _ p

theorem rowOf_apply (y : IVec S600064 32) (p : Fin 600064) : rowOf y (ix2 (0 : Fin 1) p) = y (Shape.Idx.ofFin p) := by
  unfold rowOf
  exact shapeCast_apply _ _ _ _
    (by rw [Shape.rowMajor_val_two, Shape.rowMajor_val_one]; show p.val = 0 * 600064 + p.val; omega)

theorem blocksOf_apply (y : IVec S600064 32) (e : Fin 293) (l : Fin 2048) :
    blocksOf y (ix2 e l) = y (Shape.Idx.ofFin (blk e l)) := by
  unfold blocksOf
  exact shapeCast_apply _ _ _ _
    (by rw [Shape.rowMajor_val_two, Shape.rowMajor_val_one]; show 2048 * e.val + l.val = e.val * 2048 + l.val; omega)

theorem blockFirst_apply (y : IVec S293x2048 32) (e : Fin 293) : blockFirst y (ValueIdx.ix1 e) = y (ix2 e (0 : Fin 2048)) := by
  unfold blockFirst
  rw [shapeCast_apply _ _ _ (ix2 e (0 : Fin 1))]
  · exact slice2_apply _ _ _ _ _ _ _ (by show e.val = 0 + e.val; omega) rfl
  · rw [Shape.rowMajor_val_two, Shape.rowMajor_val_one]
    show e.val * 1 + 0 = e.val
    omega

theorem blockLast_apply (y : IVec S293x2048 32) (e : Fin 293) :
    blockLast y (ValueIdx.ix1 e) = y (ix2 e (⟨2047, by decide⟩ : Fin 2048)) := by
  unfold blockLast
  rw [shapeCast_apply _ _ _ (ix2 e (0 : Fin 1))]
  · exact slice2_apply _ _ _ _ _ _ _ (by show e.val = 0 + e.val; omega) rfl
  · rw [Shape.rowMajor_val_two, Shape.rowMajor_val_one]
    show e.val * 1 + 0 = e.val
    omega

theorem floorDivVec_apply (x : IVec S293 32) (i : S293.Idx) :
    floorDivVec x (constantI S_ 32 2000#32) i = floorDivWord (x i) 2000#32 := rfl

theorem dstS_mono (ei : IVec S2x600000 32) {p q : Fin 600064} (hpq : p ≤ q) : (dstS ei p).toInt ≤ (dstS ei q).toInt :=
  sortPerm_sorted _ hpq

theorem lo_toInt (ei : IVec S2x600000 32) (e : Fin 293) : (lo ei e).toInt = (dstS ei (blk e 0)).toInt / 2000 :=
  floorDivWord_2000_toInt _

theorem hi_toInt (ei : IVec S2x600000 32) (e : Fin 293) :
    (hi ei e).toInt = (dstS ei (blk e ⟨2047, by decide⟩)).toInt / 2000 :=
  floorDivWord_2000_toInt _

theorem guard_toInt (ei : IVec S2x600000 32) (e : Fin 293) (l : Fin 2048) (j r : Nat) (hj : j < 51) (hr : r < 2000)
    (hw : (dstS ei (blk e l)).toInt = 2000 * (j : Int) + (r : Int)) :
    Scalar.cmpi .sge (BitVec.ofNat 32 j) (lo ei e) = 1#1 ∧ Scalar.cmpi .sle (BitVec.ofNat 32 j) (hi ei e) = 1#1 := by
  have h1 : (dstS ei (blk e 0)).toInt ≤ (dstS ei (blk e l)).toInt :=
    dstS_mono ei (by show 2048 * e.val + 0 ≤ 2048 * e.val + l.val; omega)
  have h2 : (dstS ei (blk e l)).toInt ≤ (dstS ei (blk e ⟨2047, by decide⟩)).toInt :=
    dstS_mono ei (by show 2048 * e.val + l.val ≤ 2048 * e.val + 2047; have := l.isLt; omega)
  rw [scalar_sge_ofNat_iff (j := j) (by omega), scalar_sle_ofNat_iff (j := j) (by omega), lo_toInt, hi_toInt]
  generalize (dstS ei (blk e 0)).toInt = a at h1 ⊢
  generalize (dstS ei (blk e ⟨2047, by decide⟩)).toInt = b at h2 ⊢
  generalize (dstS ei (blk e l)).toInt = w at hw h1 h2
  constructor <;> omega

theorem dstP_pad (ei : IVec S2x600000 32) (p : Fin 600064) (hp : 600000 ≤ p.val) : (dstP ei p).toInt = 100000 := by
  rw [dstP_of_ge ei p hp]; decide

attribute [irreducible] σ

end Cert.KernelIdeal.Hand.Prep

end
-- ==== Proof.Val.PrepCarry.lean ====
import proofs.«411563_j39152921870698_3_alg».proof.Proof.RegionsKI

set_option maxRecDepth 1648

noncomputable section

namespace Cert.KernelIdeal.Hand.Prep

open Idealize.ShloMosaic Idealize.ShloMosaic.TcCoe
open Cert.KernelIdeal Cert.KernelIdeal.Gen

macro "carry " m:term:max c:term:max r:term:max : tactic =>
  `(tactic| repeat (first
    | rw [Cert.KernelIdeal.Gen.V19_of $m $c $r (by decide)]
    | rw [Cert.KernelIdeal.Gen.V18_of $m $c $r (by decide)]
    | rw [Cert.KernelIdeal.Gen.V17_of $m $c $r (by decide)]
    | rw [Cert.KernelIdeal.Gen.V16_of $m $c $r (by decide)]
    | rw [Cert.KernelIdeal.Gen.V15_of $m $c $r (by decide)]
    | rw [Cert.KernelIdeal.Gen.V14_of $m $c $r (by decide)]
    | rw [Cert.KernelIdeal.Gen.V13_of $m $c $r (by decide)]
    | rw [Cert.KernelIdeal.Gen.V12_of $m $c $r (by decide)]
    | rw [Cert.KernelIdeal.Gen.V11_of $m $c $r (by decide)]
    | rw [Cert.KernelIdeal.Gen.V10_of $m $c $r (by decide)]
    | rw [Cert.KernelIdeal.Gen.V9_of $m $c $r (by decide)]
    | rw [Cert.KernelIdeal.Gen.V8_of $m $c $r (by decide)]
    | rw [Cert.KernelIdeal.Gen.V7_of $m $c $r (by decide)]
    | rw [Cert.KernelIdeal.Gen.V6_of $m $c $r (by decide)]
    | rw [Cert.KernelIdeal.Gen.V5_of $m $c $r (by decide)]
    | rw [Cert.KernelIdeal.Gen.V4_of $m $c $r (by decide)]
    | rw [Cert.KernelIdeal.Gen.V3_of $m $c $r (by decide)]
    | rw [Cert.KernelIdeal.Gen.V2_of $m $c $r (by decide)]
    | rw [Cert.KernelIdeal.Gen.V1_of $m $c $r (by decide)]))

variable {F : FTy → Type} [FloatOps F]
variable (m : (ℓ : Loc nD τ sig) → Buf (Elt F) ℓ) (c : Dev nD)

abbrev x0 : FVec F S100000x128 .f32 := m ((c : Thread nD τ).loc main_arg0)

theorem s18_main_v60 (W : Valuation τ sig (Elt F)) :
    (StableHlo.after hostOps0_18 W main_v60 : FVec F S100000x128 .bf16) = truncf .bf16 (W main_arg0) bitsLt_bf16_f32 := by
  after_results

theorem V19_main_v60 : (V19 m c main_v60 : FVec F S100000x128 .bf16) = truncf .bf16 (x0 m c) bitsLt_bf16_f32 := by
  refine (s18_main_v60 (V18 m c)).trans ?_
  carry m c main_arg0
  all_goals rfl

end Cert.KernelIdeal.Hand.Prep

end
-- ==== Proof.Val.PrepPt.lean ====
import proofs.«411563_j39152921870698_3_alg».proof.Proof.Val.PrepTerms
import proofs.«411563_j39152921870698_3_alg».proof.Proof.Val.PrepCarry
import Idealize.ShloMosaic.Lib.StableHlo.Run

set_option maxRecDepth 1648

noncomputable section

namespace Cert.KernelIdeal.Hand.Prep.Pt

open Idealize.ShloMosaic Idealize.ShloMosaic.TcCoe Idealize.ShloMosaic.ValueIdx Idealize.ShloMosaic.StableHlo
open Cert.KernelIdeal Cert.KernelIdeal.Gen Cert.KernelIdeal.Hand.Prep

variable {F : FTy → Type} [FloatOps F]

section Stretches
variable (W : Valuation τ sig (Elt F))

theorem s0_main_v1 : (after hostOps0 W main_v1 : IVec S600000 32) = eiRow0 (W main_arg2) := by
  after_results
  rfl

theorem s0_main_v3 : (after hostOps0 W main_v3 : IVec S600000 32) = eiRow1 (W main_arg2) := by
  after_results
  rfl

theorem s0_main_c : (after hostOps0 W main_c : IVec S_ 32) = constantI S_ 32 0#32 := by
  after_results

theorem s1_main_v4 : (after hostOps0_1 W main_v4 : IVec S600064 32) = padTo (W main_v1) (W main_c) := by
  after_results
  rfl

theorem s2_main_c_0 : (after hostOps0_2 W main_c_0 : IVec S_ 32) = constantI S_ 32 100000#32 := by
  after_results

theorem s3_main_v5 : (after hostOps0_3 W main_v5 : IVec S600064 32) = padTo (W main_v3) (W main_c_0) := by
  after_results
  rfl

theorem s4_main_v6 : (after hostOps0_4 W main_v6 : IVec S600064 32) = argsortOf (W main_v5) := by
  after_results
  rfl

set_option maxHeartbeats 1000000 in
theorem s5_main_v13 : (after hostOps0_5 W main_v13 : IVec S600064 32) = takeBy (W main_v4) (W main_v6) := by
  after_results
  rfl

set_option maxHeartbeats 1000000 in
theorem s5_main_v20 : (after hostOps0_5 W main_v20 : IVec S600064 32) = takeBy (W main_v5) (W main_v6) := by
  after_results
  rfl

set_option maxHeartbeats 1000000 in
theorem s5_main_v21 : (after hostOps0_5 W main_v21 : IVec S293x2048 32) = blocksOf (takeBy (W main_v5) (W main_v6)) := by
  after_results
  rfl

set_option maxHeartbeats 1000000 in
theorem s5_main_v23 : (after hostOps0_5 W main_v23 : IVec S293 32)
    = blockFirst (blocksOf (takeBy (W main_v5) (W main_v6))) := by
  after_results
  rfl

theorem s5_main_c_5 : (after hostOps0_5 W main_c_5 : IVec S_ 32) = constantI S_ 32 2000#32 := by
  after_results

set_option maxHeartbeats 1000000 in
theorem s6_main_v24 : (after hostOps0_6 W main_v24 : IVec S293 32) = floorDivVec (W main_v23) (W main_c_5) := by
  after_results
  rfl

theorem s7_main_v26 : (after hostOps0_7 W main_v26 : IVec S293 32) = blockLast (W main_v21) := by
  after_results
  rfl

theorem s7_main_c_6 : (after hostOps0_7 W main_c_6 : IVec S_ 32) = constantI S_ 32 2000#32 := by
  after_results

set_option maxHeartbeats 1000000 in
theorem s8_main_v27 : (after hostOps0_8 W main_v27 : IVec S293 32) = floorDivVec (W main_v26) (W main_c_6) := by
  after_results
  rfl

theorem s9_main_v28 : (after hostOps0_9 W main_v28 : IVec S1x600064 32) = rowOf (W main_v13) := by
  after_results
  rfl

theorem s9_main_v29 : (after hostOps0_9 W main_v29 : IVec S1x600064 32) = rowOf (W main_v20) := by
  after_results
  rfl

end Stretches

variable (m : (ℓ : Loc nD τ sig) → Buf (Elt F) ℓ) (c : Dev nD)

abbrev eiPt : IVec S2x600000 32 := m ((c : Thread nD τ).loc main_arg2)

theorem at2_main_v4 : (V2 m c main_v4 : IVec S600064 32) = srcPv (eiPt m c) := by
  rw [show V2 m c main_v4 = _ from s1_main_v4 _, show V1 m c main_v1 = _ from s0_main_v1 _,
    show V1 m c main_c = _ from s0_main_c _]
  rfl

theorem at4_main_v5 : (V4 m c main_v5 : IVec S600064 32) = dstPv (eiPt m c) := by
  rw [show V4 m c main_v5 = _ from s3_main_v5 _, show V3 m c main_c_0 = _ from s2_main_c_0 _]
  carry m c main_v3
  rw [show V1 m c main_v3 = _ from s0_main_v3 _]
  rfl

theorem at5_main_v6 : (V5 m c main_v6 : IVec S600064 32) = argsortOf (dstPv (eiPt m c)) := by
  rw [show V5 m c main_v6 = _ from s4_main_v6 _, at4_main_v5 m c]

theorem at5_dst : takeBy (V5 m c main_v5) (V5 m c main_v6) = dstSv (eiPt m c) := by
  rw [at5_main_v6 m c]
  carry m c main_v5
  rw [at4_main_v5 m c]
  rfl

theorem V19_main_v28 (p : Fin 600064) :
    (V19 m c main_v28 : IVec S1x600064 32) (ix2 (0 : Fin 1) p) = srcS (eiPt m c) p := by
  carry m c main_v28
  rw [show V10 m c main_v28 = _ from s9_main_v28 _]
  carry m c main_v13
  rw [show V6 m c main_v13 = _ from s5_main_v13 _, at5_main_v6 m c]
  carry m c main_v4
  rw [at2_main_v4 m c, rowOf_apply]
  exact srcSv_apply _ p

theorem V19_main_v29 (p : Fin 600064) :
    (V19 m c main_v29 : IVec S1x600064 32) (ix2 (0 : Fin 1) p) = dstS (eiPt m c) p := by
  carry m c main_v29
  rw [show V10 m c main_v29 = _ from s9_main_v29 _]
  carry m c main_v20
  rw [show V6 m c main_v20 = _ from s5_main_v20 _, at5_dst m c, rowOf_apply, dstSv_apply]

theorem V19_main_v24 (e : Fin 293) : (V19 m c main_v24 : IVec S293 32) (ValueIdx.ix1 e) = lo (eiPt m c) e := by
  carry m c main_v24
  rw [show V7 m c main_v24 = _ from s6_main_v24 _, show V6 m c main_v23 = _ from s5_main_v23 _,
    show V6 m c main_c_5 = _ from s5_main_c_5 _, at5_dst m c, floorDivVec_apply, blockFirst_apply, blocksOf_apply,
    dstSv_apply]
  rfl

theorem V19_main_v27 (e : Fin 293) : (V19 m c main_v27 : IVec S293 32) (ValueIdx.ix1 e) = hi (eiPt m c) e := by
  carry m c main_v27
  rw [show V9 m c main_v27 = _ from s8_main_v27 _, show V8 m c main_v26 = _ from s7_main_v26 _,
    show V8 m c main_c_6 = _ from s7_main_c_6 _]
  carry m c main_v21
  rw [show V6 m c main_v21 = _ from s5_main_v21 _, at5_dst m c, floorDivVec_apply, blockLast_apply, blocksOf_apply,
    dstSv_apply]
  rfl

end Cert.KernelIdeal.Hand.Prep.Pt

end
-- ==== Proof.Val.KernelSage.lean ====
import proofs.«411563_j39152921870698_3_alg».proof.Proof.Val.SageSpec
import proofs.«411563_j39152921870698_3_alg».proof.Proof.Val.Core

noncomputable section

open scoped BigOperators

namespace Cert.Val.KernelSage

open Idealize.ShloMosaic Idealize.ShloMosaic.ValueIdx Cert.SageSpec Cert.Val.Core

theorem toInt_ofNat_node {n : ℕ} (hn : n < 102000) : (BitVec.ofNat 32 n).toInt = (n : ℤ) := by
  rw [BitVec.toInt_eq_toNat_cond, BitVec.toNat_ofNat]
  have h1 : n % 2 ^ 32 = n := Nat.mod_eq_of_lt (by omega)
  rw [h1]
  split_ifs with hc
  · rfl
  · omega

theorem eq_ofNat_iff (w : BitVec 32) {n : ℕ} (hn : n < 102000) : w = BitVec.ofNat 32 n ↔ w.toInt = (n : ℤ) :=
  ⟨fun h => by rw [h]; exact toInt_ofNat_node hn, fun h => BitVec.eq_of_toInt_eq (h.trans (toInt_ofNat_node hn).symm)⟩

section

variable (ei : Edges)
  (srcP dstP : Fin 600064 → BitVec 32) (σ : Fin 600064 ≃ Fin 600064)
  (hsrcP : ∀ k : Fin 600000, srcP (emb k) = src ei k) (hdstP : ∀ k : Fin 600000, dstP (emb k) = dst ei k)
  (hpad : ∀ p : Fin 600064, 600000 ≤ p.val → (dstP p).toInt = 100000)
  (G : Fin 293 → ℕ → Prop) [∀ e j, Decidable (G e j)]
  (hG : ∀ (e : Fin 293) (l : Fin 2048) (j r : ℕ), j < 51 → r < 2000 →
    (dstP (σ (pos e l))).toInt = 2000 * (j : ℤ) + (r : ℤ) → G e j)

include hsrcP hdstP hpad hG in
-- The permutation reorders the terms, the padding points at no node, and a block whose guard fails holds no edge into n.
theorem blocks_eq_edges (y : BitVec 32 → EReal) (n : Fin 100000) :
    (∑ e : Fin 293, if G e (n.val / 2000) then
        ∑ l : Fin 2048, (if dstP (σ (pos e l)) = BitVec.ofNat 32 n.val then y (srcP (σ (pos e l))) else 0) else 0)
      = ∑ k : Fin 600000, if (dst ei k).toInt = (n.val : ℤ) then y (src ei k) else 0 := by
  have hn : n.val < 102000 := Nat.lt_of_lt_of_le n.isLt (by decide)
  have hj : n.val / 2000 < 51 := by have := n.isLt; omega
  have hr : n.val % 2000 < 2000 := Nat.mod_lt _ (by decide)
  have hword : ∀ (e : Fin 293) (l : Fin 2048),
      (if dstP (σ (pos e l)) = BitVec.ofNat 32 n.val then y (srcP (σ (pos e l))) else 0)
        = (if (dstP (σ (pos e l))).toInt = (n.val : ℤ) then y (srcP (σ (pos e l))) else 0) := fun e l =>
    if_congr (eq_ofNat_iff _ hn) rfl rfl
  simp only [hword]
  refine (edge_sum_of_guard (M := EReal) σ (fun p => (dstP p).toInt) (fun p => (dstP (σ p)).toInt)
    (fun p => y (srcP p)) (fun p => y (srcP (σ p))) (fun _ => rfl) (fun _ => rfl)
    (fun e => G e (n.val / 2000)) (n.val : ℤ) (fun e l h => hG e l (n.val / 2000) (n.val % 2000) hj hr (by
      rw [h]; exact_mod_cast (Nat.div_add_mod n.val 2000).symm))).trans ?_
  refine (edge_sum_pad (M := EReal) (fun p => (dstP p).toInt) (fun p => y (srcP p)) hpad (n.val : ℤ) (by
    have := n.isLt; omega)).trans ?_
  refine Finset.sum_congr rfl fun k _ => ?_
  rw [hdstP, hsrcP]

end

end Cert.Val.KernelSage

end
-- ==== Proof.Val.Triple.lean ====
import proofs.«411563_j39152921870698_3_alg».proof.Proof.Val.SageSpec
import proofs.«411563_j39152921870698_3_alg».proof.Proof.Val.KernelSage

noncomputable section

open scoped BigOperators

namespace Cert.Val.Triple

open Idealize.ShloMosaic Idealize.ShloMosaic.ValueIdx Cert.SageSpec Cert.Val.Core Cert.Val.KernelSage

def rowOf (xs : Feat) (q : Fin 128) (w : BitVec 32) : EReal :=
  if h : 0 ≤ w.toInt ∧ w.toInt < 100000 then xs (ix2 ⟨w.toInt.toNat, toNat_lt h⟩ q) else 0

theorem rowOf_node (xs : Feat) (q : Fin 128) (w : BitVec 32) (h0 : 0 ≤ w.toInt) (h1 : w.toInt < 100000) :
    rowOf xs q w = xs (ix2 (srcRow w) q) := by
  have hrow : (⟨w.toInt.toNat, toNat_lt ⟨h0, h1⟩⟩ : Fin 100000) = srcRow w := by
    apply Fin.ext
    show w.toInt.toNat = (srcRow w).val
    rw [srcRow_val h0 h1]
    have := (toNat_of_node h0 h1).1
    omega
  rw [← hrow]
  exact dif_pos ⟨h0, h1⟩

section

variable (ei : Edges) (hok : SrcOk ei) (xs xd : Feat) (Wl Wr : Wt) (bl : Bias)
  (srcP dstP : Fin 600064 → BitVec 32) (σ : Fin 600064 ≃ Fin 600064)
  (hsrcP : ∀ k : Fin 600000, srcP (emb k) = src ei k) (hdstP : ∀ k : Fin 600000, dstP (emb k) = dst ei k)
  (hpad : ∀ p : Fin 600064, 600000 ≤ p.val → (dstP p).toInt = 100000)
  (G : Fin 293 → ℕ → Prop) [∀ e j, Decidable (G e j)]
  (hG : ∀ (e : Fin 293) (l : Fin 2048) (j r : ℕ), j < 51 → r < 2000 →
    (dstP (σ (pos e l))).toInt = 2000 * (j : ℤ) + (r : ℤ) → G e j)
  (msg : Fin 600064 → Fin 128 → EReal)
  (hmsg : ∀ p q, msg p q = rowOf xs q (srcP (σ p)))
  (agg : Fin 100000 → Fin 128 → EReal)
  (hagg : ∀ n q, agg n q = ∑ e : Fin 293, if G e (n.val / 2000) then
      ∑ l : Fin 2048, (if dstP (σ (pos e l)) = BitVec.ofNat 32 n.val then msg (pos e l) q else 0) else 0)
  (cnt : Fin 100000 → EReal)
  (hcnt : ∀ n, cnt n = ∑ e : Fin 293, if G e (n.val / 2000) then
      ∑ l : Fin 2048, (if dstP (σ (pos e l)) = BitVec.ofNat 32 n.val then (1 : EReal) else 0) else 0)

include hok hsrcP hdstP hpad hG hmsg hagg hcnt in
-- The guarded, blocked, permuted sums are the plain edge sums, and a source word that is a node names its own row.
theorem triple (act : EReal → EReal) (out : Feat)
    (hout : ∀ n f, out (ix2 n f) = act (((∑ k : Fin 128, Ideal.div (agg n k) (max (cnt n) 1) * Wl (ix2 f k))
        + bl (ix1 f)) + ∑ k : Fin 128, xd (ix2 n k) * Wr (ix2 f k))) :
    out = fun i => act (sage xs xd ei Wl bl Wr i) := by
  funext i
  obtain ⟨n, f, rfl⟩ : ∃ n f, i = ix2 n f := ⟨i 0, i 1, eq_ix2 i⟩
  have ha : agg n = aggSum xs ei n := funext fun q => by
    rw [hagg n q]
    simp only [hmsg]
    rw [blocks_eq_edges ei srcP dstP σ hsrcP hdstP hpad G hG (rowOf xs q) n]
    exact Finset.sum_congr rfl fun k _ => by rw [rowOf_node xs q _ (hok k).1 (hok k).2]
  have hc : cnt n = aggCnt ei n :=
    (hcnt n).trans (blocks_eq_edges ei srcP dstP σ hsrcP hdstP hpad G hG (fun _ => (1 : EReal)) n)
  rw [hout n f, sage_ix2, hc, ha]
  rfl

end

end Cert.Val.Triple

end
-- ==== Proof.Val.SageStage.lean ====
import proofs.«411563_j39152921870698_3_alg».proof.Proof.Val.Triple
import proofs.«411563_j39152921870698_3_alg».proof.Proof.Val.PrepTerms
import proofs.«411563_j39152921870698_3_alg».proof.Proof.KI.LinearOps
import Idealize.ShloMosaic.Lib.Affine
import Idealize.ShloMosaic.Lib.IdealHost
import Idealize.ShloMosaic.PureOps.Ideal.Laws

noncomputable section

open scoped BigOperators

namespace Cert.Val.SageStage

open Idealize.ShloMosaic Idealize.ShloMosaic.ValueIdx Cert.SageSpec Cert.Val.Core Cert.Val.Triple
open Cert.KernelIdeal.Hand.Prep Cert.KernelIdeal.Hand.LinearOps

abbrev guardB (j : ℕ) (lo hi : BitVec 32) : Prop :=
  Scalar.cmpi .ne (Scalar.extui (Scalar.andi (Scalar.cmpi .sge (BitVec.ofNat 32 j) lo)
    (Scalar.cmpi .sle (BitVec.ofNat 32 j) hi))) 0#32 = 1#1

theorem guardB_of {j : ℕ} {lo hi : BitVec 32}
    (h : Scalar.cmpi .sge (BitVec.ofNat 32 j) lo = 1#1 ∧ Scalar.cmpi .sle (BitVec.ofNat 32 j) hi = 1#1) :
    guardB j lo hi :=
  (Scalar.guard_iff _).2 (IntOp.andi_eq_one.2 h)

theorem row_word32 (j r : ℕ) (hj : j < 51) (hr : r < 2000) :
    BitVec.ofNat 32 j * 2000#32 + BitVec.ofNat 32 r = BitVec.ofNat 32 (2000 * j + r) := by
  apply BitVec.eq_of_toNat_eq
  simp only [BitVec.toNat_add, BitVec.toNat_mul, BitVec.toNat_ofNat]
  omega

section

variable (ei : Edges) (hok : SrcOk ei) (xs xd : Feat) (Wl Wr : Wt) (bl : Bias)
  (idxS : IVec ⟨2, ![1, 600064]⟩ 32) (hidxS : ∀ p : Fin 600064, idxS (ix2 (0 : Fin 1) p) = srcS ei p)
  (tab : Feat) (htab : ∀ i, tab i = xs i)
  (msg : (⟨2, ![600064, 128]⟩ : Shape).Idx → EReal)
  (hmsg : ∀ (p : Fin 600064) (q : Fin 128), msg (ix2 p q) = rowOf tab q (idxS (ix2 (0 : Fin 1) p)))
  (idxD : IVec ⟨2, ![1, 600064]⟩ 32) (hidxD : ∀ p : Fin 600064, idxD (ix2 (0 : Fin 1) p) = dstS ei p)
  (loT hiT : IVec ⟨1, ![293]⟩ 32) (hlo : ∀ e : Fin 293, loT (ix1 e) = lo ei e)
  (hhi : ∀ e : Fin 293, hiT (ix1 e) = hi ei e)
  (agg : (⟨2, ![102000, 128]⟩ : Shape).Idx → EReal)
  (hagg : ∀ (n : Fin 100000) (q : Fin 128), agg (ix2 (rowUp n) q) =
    ∑ e : Fin 293, if guardB (n.val / 2000) (loT (ix1 e)) (hiT (ix1 e)) then
      ∑ l : Fin 2048, (if idxD (ix2 (0 : Fin 1) (pos e l)) = BitVec.ofNat 32 n.val then
        msg (ix2 (pos e l) q) else 0) else 0)
  (idxC : IVec ⟨2, ![1, 600064]⟩ 32) (hidxC : ∀ p : Fin 600064, idxC (ix2 (0 : Fin 1) p) = dstS ei p)
  (loC hiC : IVec ⟨1, ![293]⟩ 32) (hloC : ∀ e : Fin 293, loC (ix1 e) = lo ei e)
  (hhiC : ∀ e : Fin 293, hiC (ix1 e) = hi ei e)
  (cnt : (⟨2, ![102000, 1]⟩ : Shape).Idx → EReal)
  (hcnt : ∀ n : Fin 100000, cnt (ix2 (rowUp n) (0 : Fin 1)) =
    ∑ e : Fin 293, if guardB (n.val / 2000) (loC (ix1 e)) (hiC (ix1 e)) then
      ∑ l : Fin 2048, (if idxC (ix2 (0 : Fin 1) (pos e l)) = BitVec.ofNat 32 n.val then
        (1 : EReal) else 0) else 0)

include hok hidxS htab hmsg hidxD hlo hhi hagg hidxC hloC hhiC hcnt in
-- The three regions' closed forms, read at the preparation's tables, are the three stages of one convolution.
theorem stage (act : EReal → EReal) (out : Feat)
    (hout : ∀ (r : Fin 100000) (f : Fin 128), out (ix2 r f) = act (dense agg cnt xd Wl bl Wr r f)) :
    out = fun i => act (sage xs xd ei Wl bl Wr i) := by
  refine triple ei hok xs xd Wl Wr bl (srcP ei) (dstP ei) (σ ei)
    (fun k => srcP_of_lt ei (emb k) k.isLt) (fun k => dstP_of_lt ei (emb k) k.isLt) (dstP_pad ei)
    (fun e j => guardB j (lo ei e) (hi ei e)) (fun e l j r hj hr hw => guardB_of (guard_toInt ei e l j r hj hr hw))
    (fun p q => msg (ix2 p q)) (fun p q => ?_) (fun n q => agg (ix2 (rowUp n) q)) (fun n q => ?_)
    (fun n => cnt (ix2 (rowUp n) (0 : Fin 1))) (fun n => ?_) act out fun n f => ?_
  · show msg (ix2 p q) = _
    rw [hmsg p q, hidxS p, show tab = xs from funext htab]
    rfl
  · show agg (ix2 (rowUp n) q) = _
    rw [hagg n q]
    simp only [hlo, hhi, hidxD]
    rfl
  · show cnt (ix2 (rowUp n) (0 : Fin 1)) = _
    rw [hcnt n]
    simp only [hloC, hhiC, hidxC]
    rfl
  · rw [hout n f]
    unfold dense
    rw [Ideal.ofBits_one_f32]

end

theorem agg_of_block_row
    (msg : (⟨2, ![600064, 128]⟩ : Shape).Idx → EReal) (idxD : IVec ⟨2, ![1, 600064]⟩ 32)
    (loT hiT : IVec ⟨1, ![293]⟩ 32) (agg : (⟨2, ![102000, 128]⟩ : Shape).Idx → EReal)
    (hc : ∀ (j : Fin 51) (r : Fin 2000) (q : Fin 128) (hn : 2000 * j.val + r.val < 102000),
      agg (ix2 ⟨2000 * j.val + r.val, hn⟩ q) =
        ∑ e : Fin 293, (if guardB j.val (loT (ix1 e)) (hiT (ix1 e)) then
          ∑ l : Fin 2048, (if BitVec.ofNat 32 j.val * 2000#32 + BitVec.ofNat 32 r.val
              = idxD (ix2 (0 : Fin 1) (pos e l)) then msg (ix2 (pos e l) q) else 0) else 0))
    (n : Fin 100000) (q : Fin 128) :
    agg (ix2 (rowUp n) q) =
      ∑ e : Fin 293, if guardB (n.val / 2000) (loT (ix1 e)) (hiT (ix1 e)) then
        ∑ l : Fin 2048, (if idxD (ix2 (0 : Fin 1) (pos e l)) = BitVec.ofNat 32 n.val then
          msg (ix2 (pos e l) q) else 0) else 0 := by
  have hn := n.isLt
  have hj : n.val / 2000 < 51 := by omega
  have hr : n.val % 2000 < 2000 := by omega
  have hs : 2000 * (n.val / 2000) + n.val % 2000 = n.val := by omega
  have hlt : 2000 * (n.val / 2000) + n.val % 2000 < 102000 := by omega
  have hrow : (⟨2000 * (n.val / 2000) + n.val % 2000, hlt⟩ : Fin 102000) = rowUp n := Fin.ext hs
  have h := hc ⟨n.val / 2000, hj⟩ ⟨n.val % 2000, hr⟩ q hlt
  rw [hrow] at h
  rw [h]
  have hw : BitVec.ofNat 32 (n.val / 2000) * 2000#32 + BitVec.ofNat 32 (n.val % 2000)
      = BitVec.ofNat 32 n.val := by
    rw [row_word32 _ _ hj hr, hs]
  refine Finset.sum_congr rfl fun e _ => if_congr Iff.rfl (Finset.sum_congr rfl fun l _ => ?_) rfl
  show (if BitVec.ofNat 32 (n.val / 2000) * 2000#32 + BitVec.ofNat 32 (n.val % 2000) = idxD (ix2 (0 : Fin 1) (pos e l)) then msg (ix2 (pos e l) q) else 0) = _
  rw [hw]
  exact if_congr eq_comm rfl rfl

end Cert.Val.SageStage

end
-- ==== Proof.Val.Sage012.lean ====
import proofs.«411563_j39152921870698_3_alg».proof.Proof.KI.RunOf
import proofs.«411563_j39152921870698_3_alg».proof.Proof.KI.Gather0Value
import proofs.«411563_j39152921870698_3_alg».proof.Proof.KI.ScatterCnt1Value
import proofs.«411563_j39152921870698_3_alg».proof.Proof.KI.Linear2Value
import proofs.«411563_j39152921870698_3_alg».proof.Proof.Val.PrepPt
import proofs.«411563_j39152921870698_3_alg».proof.Proof.Val.PrepCarry
import proofs.«411563_j39152921870698_3_alg».proof.Proof.Val.SageStage

set_option maxRecDepth 16384

noncomputable section

open scoped BigOperators

namespace Cert.Val.Sage012

open Idealize.ShloMosaic Idealize.ShloMosaic.TcCoe Idealize.ShloMosaic.ValueIdx
open Cert.KernelIdeal Cert.KernelIdeal.Gen Cert.KernelIdeal.Hand
open Cert.SageSpec Cert.Val.Core Cert.Val.Triple Cert.Val.SageStage
open Cert.KernelIdeal.Hand.LinearOps

variable (m : (ℓ : Loc nD τ sig) → Buf (Elt Ideal) ℓ) (c : Dev nD)

abbrev eiOf : Edges := m ((c : Thread nD τ).loc main_arg2)

abbrev xsOf : Feat := m ((c : Thread nD τ).loc main_arg0)

abbrev xdOf : Feat := m ((c : Thread nD τ).loc main_arg1)

abbrev wlOf : Wt := m ((c : Thread nD τ).loc main_arg4)
abbrev blOf : Bias := m ((c : Thread nD τ).loc main_arg5)
abbrev wrOf : Wt := m ((c : Thread nD τ).loc main_arg6)

theorem closed (hok : SrcOk (eiOf m c)) :
    (W22 m c main_v63 : Feat) = relu (sage (xsOf m c) (xdOf m c) (eiOf m c) (wlOf m c) (blOf m c) (wrOf m c)) := by
  obtain rfl := dev_eq c
  refine stage (eiOf m c₀) hok (xsOf m c₀) (xdOf m c₀) (wlOf m c₀) (wrOf m c₀) (blOf m c₀)
    (W19 m c₀ main_v28) (fun p => Prep.Pt.V19_main_v28 m c₀ p)
    (W19 m c₀ main_v60) (fun i => congrFun (Prep.V19_main_v60 m c₀) i)
    (W20 m c₀ main_v61)
    (fun p q => (congrFun (W20_main_v61 m c₀) (ix2 p q)).trans (arrAt_out0_row (Ve (W19 m)) c₀ p q))
    (W20 m c₀ main_v29)
    (fun p => (congrFun (W20_at_main_v29 m c₀) (ix2 (0 : Fin 1) p)).trans (Prep.Pt.V19_main_v29 m c₀ p))
    ((tbl1 m).1 0) ((tbl1 m).1 1)
    (fun e => (congrFun (congrFun (tbl1_val m) 0) (ValueIdx.ix1 e)).trans (Prep.Pt.V19_main_v24 m c₀ e))
    (fun e => (congrFun (congrFun (tbl1_val m) 1) (ValueIdx.ix1 e)).trans (Prep.Pt.V19_main_v27 m c₀ e))
    (W21 m c₀ main_v62_0)
    (fun n q => congrFun ((W21_main_v62_0 m c₀).trans (ScatterCnt1.arrAt_agg1 (Ve (W20 m)) (tbl1 m) c₀)) (ix2 (rowUp n) q))
    (W20 m c₀ main_v29)
    (fun p => (congrFun (W20_at_main_v29 m c₀) (ix2 (0 : Fin 1) p)).trans (Prep.Pt.V19_main_v29 m c₀ p))
    ((tbl1 m).1 0) ((tbl1 m).1 1)
    (fun e => (congrFun (congrFun (tbl1_val m) 0) (ValueIdx.ix1 e)).trans (Prep.Pt.V19_main_v24 m c₀ e))
    (fun e => (congrFun (congrFun (tbl1_val m) 1) (ValueIdx.ix1 e)).trans (Prep.Pt.V19_main_v27 m c₀ e))
    (W21 m c₀ main_v62_1)
    (fun n => congrFun ((W21_main_v62_1 m c₀).trans (ScatterCnt1.arrAt_cnt1 (Ve (W20 m)) (tbl1 m) c₀)) (ix2 (rowUp n) (0 : Fin 1)))
    (fun z => max z 0) (W22 m c₀ main_v63) fun r f => ?_
  refine (congrFun (W22_main_v63 m c₀) (ix2 r f)).trans ?_
  refine (Linear2Value.arrAt_out2_apply (Ve (W21 m)) c₀ r f).trans ?_
  show denseRelu (W21 m c₀ main_v62_0) (W21 m c₀ main_v62_1) (W21 m c₀ main_arg1) (W21 m c₀ main_arg4)
      (W21 m c₀ main_arg5) (W21 m c₀ main_arg6) r f = _
  rw [W21_at_main_arg1 m c₀, W21_at_main_arg4 m c₀, W21_at_main_arg5 m c₀, W21_at_main_arg6 m c₀]
  unfold denseRelu
  rw [Ideal.ofBits_zero_f32]

end Cert.Val.Sage012

end
-- ==== Proof.KI.Gather3Value.lean ====
import proofs.«411563_j39152921870698_3_alg».proof.Proof.KI.Gather3
import proofs.«411563_j39152921870698_3_alg».proof.Proof.KI.GatherValue

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev tab3 (c : Dev nD) : Vec Ideal S100000x128 .bf16 := V c main_v64
abbrev idx3 (c : Dev nD) : Vec Ideal S1x600064 .i32 := V c main_v58

theorem index3_0 : ∀ t : Fin grid3.N, win3_0.index t 0 = 0 ∧ win3_0.index t 1 = 0 := by decide +kernel
theorem index3_1 : ∀ t : Fin grid3.N, win3_1.index t 0 = 0 ∧ win3_1.index t 1 = t.val := by decide +kernel
theorem index3_2 : ∀ t : Fin grid3.N, win3_2.index t 0 = t.val ∧ win3_2.index t 1 = 0 := by decide +kernel

theorem pos_lt3 (t : Fin cfg3.N) (l : Fin 2048) : 2048 * t.val + l.val < 600064 := by
  have ht : t.val < 293 := lt_of_lt_of_eq t.isLt N_3
  have hl := l.isLt
  omega

-- The table's one block is the table.
theorem iblk3_0_apply (c : Dev nD) (t : Fin cfg3.N) (n : Fin 100000) (f : Fin 128) :
    (iblk3 V c 0 t : Vec Ideal S100000x128 .bf16) (ix2 n f) = tab3 V c (ix2 n f) := by
  unfold iblk3
  rw [View.read_apply]
  refine congrArg (V c main_v64) (Shape.idx_ext₂ ?_ ?_)
  · show win3_0.index t 0 * 100000 + 1 * n.val = n.val; rw [(index3_0 t).1]; omega
  · show win3_0.index t 1 * 128 + 1 * f.val = f.val; rw [(index3_0 t).2]; omega

-- Block t of the index words is words 2048t … 2048t + 2047.
theorem iblk3_1_apply (c : Dev nD) (t : Fin cfg3.N) (l : Fin 2048) :
    (iblk3 V c 1 t : Vec Ideal S1x2048 .i32) (ix2 0 l) = idx3 V c (ix2 0 ⟨2048 * t.val + l.val, pos_lt3 t l⟩) := by
  unfold iblk3
  rw [View.read_apply]
  refine congrArg (V c main_v58) (Shape.idx_ext₂ ?_ ?_)
  · show win3_1.index t 0 * 1 + 1 * 0 = 0; rw [(index3_1 t).1]
  · show win3_1.index t 1 * 2048 + 1 * l.val = 2048 * t.val + l.val; rw [(index3_1 t).2]; omega

-- Block t of the result is rows 2048t … 2048t + 2047.
theorem emb3_2 (t : Fin cfg3.N) (l : Fin 2048) (f : Fin 128) :
    (((cfg3.win 2).blk t).view.emb (ix2 l f) : S600064x128.Idx) = ix2 ⟨2048 * t.val + l.val, pos_lt3 t l⟩ f := by
  refine Shape.idx_ext₂ ?_ ?_
  · show win3_2.index t 0 * 2048 + 1 * l.val = 2048 * t.val + l.val; rw [(index3_2 t).1]; omega
  · show win3_2.index t 1 * 128 + 1 * f.val = f.val; rw [(index3_2 t).2]; omega

-- What a point leaves in the result's block is that block of the gathered rows.
theorem flushed_eq3 (c : Dev nD) (t : Fin cfg3.N) (hf : (cfg3.win 2).flush t = true) :
    (dat3 (F := Ideal) V c).flushed 2 t = ((cfg3.win 2).blk t).view.read (Elt Ideal) (gathered (tab3 V c) (idx3 V c)) := by
  show (cfg3.win 2).cut (grid3.coords t) ((dat3 (F := Ideal) V c).after 2 t) = _
  rw [after3_2]
  refine funext fun (j : S2048x128.Idx) => ?_
  obtain ⟨l, f, rfl⟩ : ∃ (l : Fin 2048) (f : Fin 128), j = ix2 l f := ⟨j 0, j 1, eq_ix2 j⟩
  rw [View.read_apply, emb3_2]
  exact gatherBlock (tab3 V c) (idx3 V c) (iblk3 V c 0 t) (iblk3 V c 1 t) _ l f (fun n => iblk3_0_apply V c t n f) (iblk3_1_apply V c t l)

-- Every row of the result lies in some point's block.
theorem cover3 (c : Dev nD) (i : ((cfg3.win 2).arr.view.loc (c.tc : Thread nD τ)).2.ty.Idx) :
    ∃ t : Fin cfg3.N, (cfg3.win 2).flush t = true ∧ i ∈ ((cfg3.win 2).blk t).view.set := by
  have hi0 : (i 0).val < 600064 := (i 0).isLt
  have ht : (i 0).val / 2048 < cfg3.N := by rw [show cfg3.N = 293 from N_3]; omega
  have e : ((cfg3.win 2).blk ⟨(i 0).val / 2048, ht⟩).view.emb (ix2 ⟨(i 0).val % 2048, Nat.mod_lt _ (by decide)⟩ (i 1)) = i :=
    (emb3_2 ⟨(i 0).val / 2048, ht⟩ ⟨(i 0).val % 2048, Nat.mod_lt _ (by decide)⟩ (i 1)).trans
      (Shape.idx_ext₂ (by show 2048 * ((i 0).val / 2048) + (i 0).val % 2048 = (i 0).val; omega) rfl)
  exact ⟨⟨(i 0).val / 2048, ht⟩, flush3_2 _, Eq.subst (motive := (· ∈ ((cfg3.win 2).blk ⟨(i 0).val / 2048, ht⟩).view.set)) e (View.emb_mem_set _ _)⟩

-- The region's result: row p is the table's row that index word p names (read signed), zero when it names none.
theorem arrAt_out3_row (c : Dev nD) (p : Fin 600064) (q : Fin 128) :
    ((dat3 (F := Ideal) V c).arrAt 2 cfg3.N : Vec Ideal S600064x128 .bf16) (ix2 p q)
      = if h : 0 ≤ (idx3 V c (ix2 0 p) : BitVec 32).toInt ∧ (idx3 V c (ix2 0 p) : BitVec 32).toInt < 100000
          then (tab3 V c (ix2 ⟨(idx3 V c (ix2 0 p) : BitVec 32).toInt.toNat, Cert.Val.Core.toNat_lt h⟩ q) : EReal) else 0 := by
  rw [(dat3 (F := Ideal) V c).arrAt_eq_of_cover 2 (gathered (tab3 V c) (idx3 V c)) (flushed_eq3 V c) (cover3 c)]
  exact gathered_apply _ _ p q

end Cert.KernelIdeal.Hand

end
-- ==== Proof.KI.ScatterCnt4Blocks.lean ====
import proofs.«411563_j39152921870698_3_alg».proof.Proof.KI.ScatterCnt4Step
import proofs.«411563_j39152921870698_3_alg».proof.Proof.KI.ScatterCnt1Fold

noncomputable section

namespace Cert.KernelIdeal.Hand.ScatterCnt4

open Cert.KernelIdeal Cert.KernelIdeal.Gen
open Idealize.ShloMosaic Idealize.ShloMosaic.TcCoe Idealize.ShloMosaic.ValueIdx
open Cert.KernelIdeal.Hand.ScatterCnt1 (guardJ edgePos nodeRow ix2_ext edge_word node_lt node_word node_of_out flushOf_true_of_node last_point stepAcc_fst_apply stepAcc_snd_apply acc_last)

variable (V : (c : Dev nD) → (b : Ref sig .tc) → Buf (Elt Ideal) ((c : Thread nD τ).loc b)) (a : (pcfg4 (F := Ideal)).Adm)

-- Each read below is "block index times block size plus the coordinate inside the block", at the point's edge or node block.
theorem msg_entry (c : Dev nD) (t : Fin (cfg4 a).N) (e : Fin 293) (he : t.val % 293 = e.val) (l : Fin 2048) (q : Fin 128) :
    (((cfg4 a).win 0).blk t).view.read (Elt Ideal) (V c (Pipeline.arrRef spec4 0)) (ix2 l q)
      = V c (Pipeline.arrRef spec4 0) (ix2 (edgePos e.val e.isLt l) q) := by
  show V c (Pipeline.arrRef spec4 0) ((((cfg4 a).win 0).blk t).view.emb (ix2 l q)) = _
  refine congrArg _ (ix2_ext _ _ _ ?_ ?_)
  · show cc4_transform_0 (grid4.coords t) 0 * 2048 + 1 * l.val = 2048 * e.val + l.val
    rw [show cc4_transform_0 (grid4.coords t) 0 = t.val % 293 from edge_word t, he]; omega
  · show cc4_transform_0 (grid4.coords t) 1 * 128 + 1 * q.val = q.val
    rw [show cc4_transform_0 (grid4.coords t) 1 = 0 from rfl]; omega

theorem idx_entry (c : Dev nD) (t : Fin (cfg4 a).N) (e : Fin 293) (he : t.val % 293 = e.val) (l : Fin 2048) :
    (((cfg4 a).win 1).blk t).view.read (Elt Ideal) (V c (Pipeline.arrRef spec4 1)) (ix2 (0 : Fin 1) l)
      = V c (Pipeline.arrRef spec4 1) (ix2 (0 : Fin 1) (edgePos e.val e.isLt l)) := by
  show V c (Pipeline.arrRef spec4 1) ((((cfg4 a).win 1).blk t).view.emb (ix2 (0 : Fin 1) l)) = _
  refine congrArg _ (ix2_ext _ _ _ ?_ ?_)
  · show cc4_transform_1 (grid4.coords t) 0 * 1 + 1 * 0 = 0
    rw [show cc4_transform_1 (grid4.coords t) 0 = 0 from rfl]
  · show cc4_transform_1 (grid4.coords t) 1 * 2048 + 1 * l.val = 2048 * e.val + l.val
    rw [show cc4_transform_1 (grid4.coords t) 1 = t.val % 293 from edge_word t, he]; omega

theorem lo_word_entry (c : Dev nD) (xt : TbBuf (F := Ideal) c tbLo) (t : Fin grid4.N) (e : Fin 293) (he : t.val % 293 = e.val) :
    wordOf c tbLo xt (grid4.coords t) = xt (ValueIdx.ix1 e) := by
  show xt _ = xt _
  congr 1
  funext x; apply Fin.ext
  match x with
  | ⟨0, _⟩ =>
    show k4_off1 (grid4.coords t) 0 + 1 * 0 = e.val
    rw [show k4_off1 (grid4.coords t) 0 = t.val % 293 from edge_word t, he]; omega

theorem hi_word_entry (c : Dev nD) (xt : TbBuf (F := Ideal) c tbHi) (t : Fin grid4.N) (e : Fin 293) (he : t.val % 293 = e.val) :
    wordOf c tbHi xt (grid4.coords t) = xt (ValueIdx.ix1 e) := by
  show xt _ = xt _
  congr 1
  funext x; apply Fin.ext
  match x with
  | ⟨0, _⟩ =>
    show k4_off1 (grid4.coords t) 0 + 1 * 0 = e.val
    rw [show k4_off1 (grid4.coords t) 0 = t.val % 293 from edge_word t, he]; omega

theorem out0_read (G : Vec Ideal S102000x128 .f32) (t : Fin (cfg4 a).N) (r : Fin 2000) (q : Fin 128) :
    (((cfg4 a).win 2).blk t).view.read (Elt Ideal) G (ix2 r q) = G (ix2 (nodeRow (t.val / 293) (node_lt t) r) q) := by
  show G ((((cfg4 a).win 2).blk t).view.emb (ix2 r q)) = _
  refine congrArg _ (ix2_ext _ _ _ ?_ ?_)
  · show cc4_transform_2 (grid4.coords t) 0 * 2000 + 1 * r.val = 2000 * (t.val / 293) + r.val
    rw [show cc4_transform_2 (grid4.coords t) 0 = t.val / 293 from node_word t]; omega
  · show cc4_transform_2 (grid4.coords t) 1 * 128 + 1 * q.val = q.val
    rw [show cc4_transform_2 (grid4.coords t) 1 = 0 from rfl]; omega

theorem out1_read (G : Vec Ideal S102000x1 .f32) (t : Fin (cfg4 a).N) (r : Fin 2000) :
    (((cfg4 a).win 3).blk t).view.read (Elt Ideal) G (ix2 r (0 : Fin 1)) = G (ix2 (nodeRow (t.val / 293) (node_lt t) r) (0 : Fin 1)) := by
  show G ((((cfg4 a).win 3).blk t).view.emb (ix2 r (0 : Fin 1))) = _
  refine congrArg _ (ix2_ext _ _ _ ?_ ?_)
  · show cc4_transform_3 (grid4.coords t) 0 * 2000 + 1 * r.val = 2000 * (t.val / 293) + r.val
    rw [show cc4_transform_3 (grid4.coords t) 0 = t.val / 293 from node_word t]; omega
  · show cc4_transform_3 (grid4.coords t) 1 * 1 + 1 * 0 = 0
    rw [show cc4_transform_3 (grid4.coords t) 1 = 0 from rfl]

-- The flush predicate of the two output windows holds exactly at a last edge block.
theorem flush_out0_iff (t : Fin (cfg4 a).N) : ((cfg4 a).win 2).flush t = true ↔ t.val % 293 = 292 := by
  constructor
  · intro hf
    by_contra hne
    rw [noFlush_out0 a t (fun hc => hne ((condLast_iff t).mp hc))] at hf
    exact Bool.false_ne_true hf
  · exact flushOf_true_of_node cc4_transform_2 node_of_out t
theorem flush_out1_iff (t : Fin (cfg4 a).N) : ((cfg4 a).win 3).flush t = true ↔ t.val % 293 = 292 := by
  constructor
  · intro hf
    by_contra hne
    rw [noFlush_out1 a t (fun hc => hne ((condLast_iff t).mp hc))] at hf
    exact Bool.false_ne_true hf
  · exact flushOf_true_of_node cc4_transform_3 node_of_out t

set_option backward.isDefEq.respectTransparency.types false in
theorem mem_out0 (t : Fin (cfg4 a).N) (i : S102000x128.Idx) :
    i ∈ (((cfg4 a).win 2).blk t).view.set ↔ ∀ x : Fin 2, ((cfg4 a).win 2).index t x * S2000x128.size x ≤ (i x).val
      ∧ (i x).val < ((cfg4 a).win 2).index t x * S2000x128.size x + S2000x128.size x := by
  show i ∈ ((View.whole main_v66_0).slice (((cfg4 a).win 2).rect t)).set ↔ _
  rw [View.set_slice_whole]
  exact Rect.mem_set_unit
set_option backward.isDefEq.respectTransparency.types false in
theorem mem_out1 (t : Fin (cfg4 a).N) (i : S102000x1.Idx) :
    i ∈ (((cfg4 a).win 3).blk t).view.set ↔ ∀ x : Fin 2, ((cfg4 a).win 3).index t x * S2000x1.size x ≤ (i x).val
      ∧ (i x).val < ((cfg4 a).win 3).index t x * S2000x1.size x + S2000x1.size x := by
  show i ∈ ((View.whole main_v66_1).slice (((cfg4 a).win 3).rect t)).set ↔ _
  rw [View.set_slice_whole]
  exact Rect.mem_set_unit

-- Every row lies in the block of the last edge block of its node block.
theorem cover_out0 (i : S102000x128.Idx) :
    ∃ t : Fin (cfg4 a).N, ((cfg4 a).win 2).flush t = true ∧ i ∈ (((cfg4 a).win 2).blk t).view.set := by
  obtain ⟨t, hl, hw⟩ := last_point (i 0).val (i 0).isLt
  have hi1 : (i 1).val < 128 := (i 1).isLt
  refine ⟨t, (flush_out0_iff a t).mpr hl, (mem_out0 a t i).mpr fun x => ?_⟩
  match x with
  | ⟨0, _⟩ => exact hw
  | ⟨1, _⟩ =>
    show cc4_transform_2 (grid4.coords t) 1 * 128 ≤ (i 1).val ∧ (i 1).val < cc4_transform_2 (grid4.coords t) 1 * 128 + 128
    rw [show cc4_transform_2 (grid4.coords t) 1 = 0 from rfl]; omega
theorem cover_out1 (i : S102000x1.Idx) :
    ∃ t : Fin (cfg4 a).N, ((cfg4 a).win 3).flush t = true ∧ i ∈ (((cfg4 a).win 3).blk t).view.set := by
  obtain ⟨t, hl, hw⟩ := last_point (i 0).val (i 0).isLt
  have hi1 : (i 1).val < 1 := (i 1).isLt
  refine ⟨t, (flush_out1_iff a t).mpr hl, (mem_out1 a t i).mpr fun x => ?_⟩
  match x with
  | ⟨0, _⟩ => exact hw
  | ⟨1, _⟩ =>
    show cc4_transform_3 (grid4.coords t) 1 * 1 ≤ (i 1).val ∧ (i 1).val < cc4_transform_3 (grid4.coords t) 1 * 1 + 1
    rw [show cc4_transform_3 (grid4.coords t) 1 = 0 from rfl]; omega

end Cert.KernelIdeal.Hand.ScatterCnt4

end
-- ==== Proof.KI.ScatterCnt4Arr.lean ====
import proofs.«411563_j39152921870698_3_alg».proof.Proof.KI.ScatterCnt4Blocks

noncomputable section

namespace Cert.KernelIdeal.Hand.ScatterCnt4

open Cert.KernelIdeal Cert.KernelIdeal.Gen
open Idealize.ShloMosaic Idealize.ShloMosaic.TcCoe Idealize.ShloMosaic.ValueIdx
open Cert.KernelIdeal.Hand.ScatterCnt1 (guardJ edgePos nodeRow ix2_ext edge_word node_lt node_word node_of_out flushOf_true_of_node last_point stepAcc_fst_apply stepAcc_snd_apply acc_last)

variable (V : (c : Dev nD) → (b : Ref sig .tc) → Buf (Elt Ideal) ((c : Thread nD τ).loc b)) (a : (pcfg4 (F := Ideal)).Adm)

abbrev loAt (c : Dev nD) (e : Fin 293) : BitVec 32 := (a.1 0 : TbBuf (F := Ideal) c tbLo) (ValueIdx.ix1 e)
abbrev hiAt (c : Dev nD) (e : Fin 293) : BitVec 32 := (a.1 1 : TbBuf (F := Ideal) c tbHi) (ValueIdx.ix1 e)
abbrev msgAt (c : Dev nD) (e : Fin 293) (l : Fin 2048) (q : Fin 128) : EReal :=
  V c (Pipeline.arrRef spec4 0) (ix2 (edgePos e.val e.isLt l) q)
abbrev idxAt (c : Dev nD) (e : Fin 293) (l : Fin 2048) : BitVec 32 :=
  V c (Pipeline.arrRef spec4 1) (ix2 (0 : Fin 1) (edgePos e.val e.isLt l))

-- Row n of the aggregate: over the edge blocks whose table words bracket n / 2000, the messages of the lanes whose destination word is n.
def aggOf (c : Dev nD) : Vec Ideal S102000x128 .f32 := fun i =>
  ∑ e : Fin 293, (if guardJ ((i 0).val / 2000) (loAt a c e) (hiAt a c e) then
    ∑ l : Fin 2048, (if idxAt V c e l = BitVec.ofNat 32 (i 0).val then msgAt V c e l (i 1) else 0) else 0)
-- Row n of the count: the same with one for each message.
def cntOf (c : Dev nD) : Vec Ideal S102000x1 .f32 := fun i =>
  ∑ e : Fin 293, (if guardJ ((i 0).val / 2000) (loAt a c e) (hiAt a c e) then
    ∑ l : Fin 2048, (if idxAt V c e l = BitVec.ofNat 32 (i 0).val then (1 : EReal) else 0) else 0)

theorem aggOf_row (c : Dev nD) (j : ℕ) (hj : j < 51) (r : Fin 2000) (q : Fin 128) :
    aggOf V a c (ix2 (nodeRow j hj r) q) = ∑ e : Fin 293, (if guardJ j (loAt a c e) (hiAt a c e) then
      ∑ l : Fin 2048, (if idxAt V c e l = BitVec.ofNat 32 (2000 * j + r.val) then msgAt V c e l q else 0) else 0) := by
  have h2 : (2000 * j + r.val) / 2000 = j := by have := r.isLt; omega
  show (∑ e : Fin 293, (if guardJ ((2000 * j + r.val) / 2000) (loAt a c e) (hiAt a c e) then
    ∑ l : Fin 2048, (if idxAt V c e l = BitVec.ofNat 32 (2000 * j + r.val) then msgAt V c e l q else 0) else 0)) = _
  rw [h2]
theorem cntOf_row (c : Dev nD) (j : ℕ) (hj : j < 51) (r : Fin 2000) :
    cntOf V a c (ix2 (nodeRow j hj r) (0 : Fin 1)) = ∑ e : Fin 293, (if guardJ j (loAt a c e) (hiAt a c e) then
      ∑ l : Fin 2048, (if idxAt V c e l = BitVec.ofNat 32 (2000 * j + r.val) then (1 : EReal) else 0) else 0) := by
  have h2 : (2000 * j + r.val) / 2000 = j := by have := r.isLt; omega
  show (∑ e : Fin 293, (if guardJ ((2000 * j + r.val) / 2000) (loAt a c e) (hiAt a c e) then
    ∑ l : Fin 2048, (if idxAt V c e l = BitVec.ofNat 32 (2000 * j + r.val) then (1 : EReal) else 0) else 0)) = _
  rw [h2]

end Cert.KernelIdeal.Hand.ScatterCnt4

end
-- ==== Proof.KI.ScatterCnt4Value.lean ====
import proofs.«411563_j39152921870698_3_alg».proof.Proof.KI.ScatterCnt4Arr
import proofs.«411563_j39152921870698_3_alg».proof.Proof.KI.ScatterCnt4

noncomputable section

namespace Cert.KernelIdeal.Hand.ScatterCnt4

open Cert.KernelIdeal Cert.KernelIdeal.Gen
open Idealize.ShloMosaic Idealize.ShloMosaic.TcCoe Idealize.ShloMosaic.ValueIdx
open Cert.KernelIdeal.Hand.ScatterCnt1 (guardJ edgePos nodeRow ix2_ext edge_word node_lt node_word node_of_out flushOf_true_of_node last_point stepAcc_fst_apply stepAcc_snd_apply acc_last)

variable (V : (c : Dev nD) → (b : Ref sig .tc) → Buf (Elt Ideal) ((c : Thread nD τ).loc b)) (a : (pcfg4 (F := Ideal)).Adm)

-- At a last edge block the accumulators' entries are the rows' sums, and the blocks of the last edge blocks cover the array.
theorem arrAt_agg4 (c : Dev nD) :
    ((dat4 (F := Ideal) V a c).arrAt 2 (cfg4 a).N : Vec Ideal S102000x128 .f32) = aggOf V a c :=
  (dat4 (F := Ideal) V a c).arrAt_eq_of_cover 2 (aggOf V a c) (fun t hf => by
    show ((cfg4 a).win 2).cut (grid4.coords t) ((dat4 (F := Ideal) V a c).after 2 t) = _
    rw [after4_2]
    refine funext (fun (y : S2000x128.Idx) => ?_)
    obtain ⟨r, q, rfl⟩ : ∃ (r : Fin 2000) (q : Fin 128), y = ix2 r q := ⟨y 0, y 1, eq_ix2 y⟩
    refine Eq.trans ?_ (out0_read a (aggOf V a c) t r q).symm
    rw [aggOf_row]
    exact acc_last (rd := fun s (y : Fin 2000 × Fin 128) => s.1 (ix2 y.1 y.2)) (row := Prod.fst) (m := fun u y l => u (ix2 l y.2))
      (lo := loWord a c) (hi := hiWord a c) (x4 := msgBlk V a c) (x5 := idxBlk V a c) (acc := accAt V a c)
      (L := loAt a c) (H := hiAt a c) (D := idxAt V c) (M := fun e y l => msgAt V c e l y.2)
      (fun i j hj lo hi u v s y => stepAcc_fst_apply i j hj lo hi u v s y.1 y.2) (fun _ => rfl) (fun _ _ => rfl)
      (fun t e he => lo_word_entry c (a.1 0) t e he) (fun t e he => hi_word_entry c (a.1 1) t e he)
      (fun t e he l => idx_entry V a c t e he l) (fun t e he y l => msg_entry V a c t e he l y.2)
      t.val t.isLt ((flush_out0_iff a t).mp hf) (r, q)) (cover_out0 a)

theorem arrAt_cnt4 (c : Dev nD) :
    ((dat4 (F := Ideal) V a c).arrAt 3 (cfg4 a).N : Vec Ideal S102000x1 .f32) = cntOf V a c :=
  (dat4 (F := Ideal) V a c).arrAt_eq_of_cover 3 (cntOf V a c) (fun t hf => by
    show ((cfg4 a).win 3).cut (grid4.coords t) ((dat4 (F := Ideal) V a c).after 3 t) = _
    rw [after4_3]
    refine funext (fun (y : S2000x1.Idx) => ?_)
    obtain ⟨r, z, rfl⟩ : ∃ (r : Fin 2000) (z : Fin 1), y = ix2 r z := ⟨y 0, y 1, eq_ix2 y⟩
    obtain rfl : z = 0 := Subsingleton.elim _ _
    refine Eq.trans ?_ (out1_read a (cntOf V a c) t r).symm
    rw [cntOf_row]
    exact acc_last (rd := fun s (r : Fin 2000) => s.2 (ix2 r (0 : Fin 1))) (row := id) (m := fun _ _ _ => (1 : EReal))
      (lo := loWord a c) (hi := hiWord a c) (x4 := msgBlk V a c) (x5 := idxBlk V a c) (acc := accAt V a c)
      (L := loAt a c) (H := hiAt a c) (D := idxAt V c) (M := fun _ _ _ => (1 : EReal))
      (fun i j hj lo hi u v s r => stepAcc_snd_apply i j hj lo hi u v s r) (fun _ => rfl) (fun _ _ => rfl)
      (fun t e he => lo_word_entry c (a.1 0) t e he) (fun t e he => hi_word_entry c (a.1 1) t e he)
      (fun t e he l => idx_entry V a c t e he l) (fun _ _ _ _ _ => rfl)
      t.val t.isLt ((flush_out1_iff a t).mp hf) r) (cover_out1 a)

end Cert.KernelIdeal.Hand.ScatterCnt4

end
-- ==== Proof.KI.Linear5Value.lean ====
import proofs.«411563_j39152921870698_3_alg».proof.Proof.KI.Linear5
import proofs.«411563_j39152921870698_3_alg».proof.Proof.KI.LinearOps

set_option maxRecDepth 16384

noncomputable section

open scoped BigOperators

namespace Cert.KernelIdeal.Hand.Linear5Value

open Cert.KernelIdeal Cert.KernelIdeal.Gen Cert.KernelIdeal.Hand Cert.KernelIdeal.Hand.LinearOps
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev agg5 (c : Dev nD) : Vec Ideal S102000x128 .f32 := V c main_v66_0
abbrev cnt5 (c : Dev nD) : Vec Ideal S102000x1 .f32 := V c main_v66_1
abbrev xin5 (c : Dev nD) : Vec Ideal S100000x128 .f32 := V c main_arg0
abbrev wl5 (c : Dev nD) : Vec Ideal S128x128 .f32 := V c main_arg7
abbrev bl5 (c : Dev nD) : Vec Ideal S128 .f32 := V c main_arg8
abbrev wr5 (c : Dev nD) : Vec Ideal S128x128 .f32 := V c main_arg9

def outG5 (c : Dev nD) : Vec Ideal S100000x128 .f32 := fun i =>
  denseRelu (agg5 V c) (cnt5 V c) (xin5 V c) (wl5 V c) (bl5 V c) (wr5 V c) ⟨(i 0).val, (i 0).isLt⟩ ⟨(i 1).val, (i 1).isLt⟩

theorem N5_eq : cfg5.N = 20 := by decide

def row5 (t : Fin cfg5.N) (p : Fin 5000) : Fin 100000 :=
  ⟨5000 * t.val + p.val, by have := t.isLt; have := p.isLt; have h := N5_eq; omega⟩

theorem idx5_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

-- Row p of block t is row 5000 t + p of the array.
theorem sblk5_0_apply (c : Dev nD) (t : Fin cfg5.N) (p : Fin 5000) (k : Fin 128) :
    sblk5_0 V c t (ix2 p k) = agg5 V c (ix2 (rowUp (row5 t p)) k) := by
  have hm := moved_of_uncut (cfg5.win 0) _ (uncut5_0 t) (ix2 p k)
  obtain ⟨e0, e1, -⟩ := idx5_facts t
  unfold sblk5_0 Pipeline.Window.fill
  rw [dif_pos hm]
  show V c main_v66_0 (((cfg5.win 0).blk t).view.emb _) = V c main_v66_0 _
  exact congrArg (V c main_v66_0) (Shape.idx_ext₂ (row_ix e0) (col_ix e1))

theorem sblk5_1_apply (c : Dev nD) (t : Fin cfg5.N) (p : Fin 5000) :
    sblk5_1 V c t (ix2 p (0 : Fin 1)) = cnt5 V c (ix2 (rowUp (row5 t p)) (0 : Fin 1)) := by
  have hm := moved_of_uncut (cfg5.win 1) _ (uncut5_1 t) (ix2 p (0 : Fin 1))
  obtain ⟨-, -, e0, e1, -⟩ := idx5_facts t
  unfold sblk5_1 Pipeline.Window.fill
  rw [dif_pos hm]
  show V c main_v66_1 (((cfg5.win 1).blk t).view.emb _) = V c main_v66_1 _
  exact congrArg (V c main_v66_1) (Shape.idx_ext₂ (row_ix e0) (col_ix e1))

theorem iblk5_2_apply (c : Dev nD) (t : Fin cfg5.N) (p : Fin 5000) (k : Fin 128) :
    iblk5 V c 2 t (ix2 p k) = xin5 V c (ix2 (row5 t p) k) := by
  obtain ⟨-, -, -, -, e0, e1, -⟩ := idx5_facts t
  show V c main_arg0 (((cfg5.win 2).blk t).view.emb (ix2 p k)) = V c main_arg0 _
  exact congrArg (V c main_arg0) (Shape.idx_ext₂ (row_ix e0) (col_ix e1))

-- Blocks 3, 4 and 5 are the whole arrays.
theorem iblk5_3_apply (c : Dev nD) (t : Fin cfg5.N) (f k : Fin 128) :
    iblk5 V c 3 t (ix2 f k) = wl5 V c (ix2 f k) := by
  obtain ⟨-, -, -, -, -, -, e0, e1, -⟩ := idx5_facts t
  show V c main_arg7 (((cfg5.win 3).blk t).view.emb (ix2 f k)) = V c main_arg7 _
  exact congrArg (V c main_arg7) (Shape.idx_ext₂ (col_ix e0) (col_ix e1))

theorem iblk5_4_apply (c : Dev nD) (t : Fin cfg5.N) (f : Fin 128) :
    iblk5 V c 4 t (ValueIdx.ix1 f) = bl5 V c (ValueIdx.ix1 f) := by
  obtain ⟨-, -, -, -, -, -, -, -, e0, -⟩ := idx5_facts t
  show V c main_arg8 (((cfg5.win 4).blk t).view.emb (ValueIdx.ix1 f)) = V c main_arg8 _
  exact congrArg (V c main_arg8) (funext fun a => Fin.ext (match a with
    | ⟨0, _⟩ => col_ix e0))

theorem iblk5_5_apply (c : Dev nD) (t : Fin cfg5.N) (f k : Fin 128) :
    iblk5 V c 5 t (ix2 f k) = wr5 V c (ix2 f k) := by
  obtain ⟨-, -, -, -, -, -, -, -, -, e0, e1, -⟩ := idx5_facts t
  show V c main_arg9 (((cfg5.win 5).blk t).view.emb (ix2 f k)) = V c main_arg9 _
  exact congrArg (V c main_arg9) (Shape.idx_ext₂ (col_ix e0) (col_ix e1))

-- Entry (p, q) of point t's block of the result lies at row 5000 t + p, column q of the array.
theorem emb5_6 (t : Fin cfg5.N) (p : Fin 5000) (q : Fin 128) :
    ((cfg5.win 6).blk t).view.emb (ix2 p q) = ix2 (row5 t p) q := by
  obtain ⟨-, -, -, -, -, -, -, -, -, -, -, e0, e1⟩ := idx5_facts t
  exact Shape.idx_ext₂ (row_ix e0) (col_ix e1)

-- Block t of the result is block t of the closed form.
theorem flushed5_eq (c : Dev nD) (t : Fin cfg5.N) :
    (dat5 V c).flushed 6 t = ((cfg5.win 6).blk t).view.read (Elt Ideal) (outG5 V c) := by
  show (cfg5.win 6).cut (grid5.coords t) ((dat5 V c).after 6 t) = _
  rw [after5_6]
  unfold out5_6
  rw [View.canon_unit_zero zeros_two]
  simp only [View.ld_unit_zero (S := S5000x128) zeros_two, View.ld_unit_zero (S := S5000x1) zeros_two,
    View.ld_unit_zero (S := S128x128) zeros_two, View.ld_unit_zero (S := S128) zeros_one]
  funext j
  obtain ⟨p, q, rfl⟩ : ∃ (p : Fin 5000) (q : Fin 128), j = ix2 p q := ⟨j 0, j 1, eq_ix2 j⟩
  show k5_pay1 (F := Ideal) _ _ _ _ _ _ (ix2 p q) = outG5 V c (((cfg5.win 6).blk t).view.emb (ix2 p q))
  rw [emb5_6]
  refine (payRelu_apply _ _ _ _ _ _ p q).trans ?_
  simp only [sblk5_0_apply, sblk5_1_apply, iblk5_2_apply, iblk5_3_apply, iblk5_4_apply, iblk5_5_apply]
  rfl

-- Row r is row r % 5000 of block r / 5000.
theorem arrAt_out5_apply (c : Dev nD) (r : Fin 100000) (f : Fin 128) :
    (dat5 V c).arrAt 6 cfg5.N (ix2 r f)
      = denseRelu (agg5 V c) (cnt5 V c) (xin5 V c) (wl5 V c) (bl5 V c) (wr5 V c) r f := by
  have ht : r.val / 5000 < cfg5.N := by have := r.isLt; have := N5_eq; omega
  obtain ⟨t, p, rfl⟩ : ∃ t p, r = row5 t p :=
    ⟨⟨r.val / 5000, ht⟩, ⟨r.val % 5000, Nat.mod_lt _ (by decide)⟩,
      Fin.ext (by show r.val = 5000 * (r.val / 5000) + r.val % 5000; omega)⟩
  rw [← emb5_6]
  exact ((dat5 V c).arrAt_apply_of_mem 6 (outG5 V c) (fun t _ => flushed5_eq V c t) cfg5.N t _ t.isLt (flush5_6 t)
    (View.emb_mem_set _ _)).trans (by rw [emb5_6]; rfl)

end Cert.KernelIdeal.Hand.Linear5Value
-- ==== Proof.Val.PrepTp.lean ====
import proofs.«411563_j39152921870698_3_alg».proof.Proof.Val.PrepTerms
import proofs.«411563_j39152921870698_3_alg».proof.Proof.Val.PrepCarry
import Idealize.ShloMosaic.Lib.StableHlo.Run

set_option maxRecDepth 1648

noncomputable section

namespace Cert.KernelIdeal.Hand.Prep.Tp

open Idealize.ShloMosaic Idealize.ShloMosaic.TcCoe Idealize.ShloMosaic.ValueIdx Idealize.ShloMosaic.StableHlo
open Cert.KernelIdeal Cert.KernelIdeal.Gen Cert.KernelIdeal.Hand.Prep

variable {F : FTy → Type} [FloatOps F]

section Stretches
variable (W : Valuation τ sig (Elt F))

theorem s0_main_v31 : (after hostOps0_9 W main_v31 : IVec S600000 32) = eiRow0 (W main_arg3) := by
  after_results
  rfl

theorem s0_main_v33 : (after hostOps0_9 W main_v33 : IVec S600000 32) = eiRow1 (W main_arg3) := by
  after_results
  rfl

theorem s0_main_c_7 : (after hostOps0_9 W main_c_7 : IVec S_ 32) = constantI S_ 32 0#32 := by
  after_results

theorem s1_main_v34 : (after hostOps0_10 W main_v34 : IVec S600064 32) = padTo (W main_v31) (W main_c_7) := by
  after_results
  rfl

theorem s2_main_c_8 : (after hostOps0_11 W main_c_8 : IVec S_ 32) = constantI S_ 32 100000#32 := by
  after_results

theorem s3_main_v35 : (after hostOps0_12 W main_v35 : IVec S600064 32) = padTo (W main_v33) (W main_c_8) := by
  after_results
  rfl

theorem s4_main_v36 : (after hostOps0_13 W main_v36 : IVec S600064 32) = argsortOf (W main_v35) := by
  after_results
  rfl

set_option maxHeartbeats 1000000 in
theorem s5_main_v43 : (after hostOps0_14 W main_v43 : IVec S600064 32) = takeBy (W main_v34) (W main_v36) := by
  after_results
  rfl

set_option maxHeartbeats 1000000 in
theorem s5_main_v50 : (after hostOps0_14 W main_v50 : IVec S600064 32) = takeBy (W main_v35) (W main_v36) := by
  after_results
  rfl

set_option maxHeartbeats 1000000 in
theorem s5_main_v51 : (after hostOps0_14 W main_v51 : IVec S293x2048 32) = blocksOf (takeBy (W main_v35) (W main_v36)) := by
  after_results
  rfl

set_option maxHeartbeats 1000000 in
theorem s5_main_v53 : (after hostOps0_14 W main_v53 : IVec S293 32)
    = blockFirst (blocksOf (takeBy (W main_v35) (W main_v36))) := by
  after_results
  rfl

theorem s5_main_c_13 : (after hostOps0_14 W main_c_13 : IVec S_ 32) = constantI S_ 32 2000#32 := by
  after_results

set_option maxHeartbeats 1000000 in
theorem s6_main_v54 : (after hostOps0_15 W main_v54 : IVec S293 32) = floorDivVec (W main_v53) (W main_c_13) := by
  after_results
  rfl

theorem s7_main_v56 : (after hostOps0_16 W main_v56 : IVec S293 32) = blockLast (W main_v51) := by
  after_results
  rfl

theorem s7_main_c_14 : (after hostOps0_16 W main_c_14 : IVec S_ 32) = constantI S_ 32 2000#32 := by
  after_results

set_option maxHeartbeats 1000000 in
theorem s8_main_v57 : (after hostOps0_17 W main_v57 : IVec S293 32) = floorDivVec (W main_v56) (W main_c_14) := by
  after_results
  rfl

theorem s9_main_v58 : (after hostOps0_18 W main_v58 : IVec S1x600064 32) = rowOf (W main_v43) := by
  after_results
  rfl

theorem s9_main_v59 : (after hostOps0_18 W main_v59 : IVec S1x600064 32) = rowOf (W main_v50) := by
  after_results
  rfl

end Stretches

variable (m : (ℓ : Loc nD τ sig) → Buf (Elt F) ℓ) (c : Dev nD)

abbrev eiTp : IVec S2x600000 32 := m ((c : Thread nD τ).loc main_arg3)

theorem at2_main_v34 : (V11 m c main_v34 : IVec S600064 32) = srcPv (eiTp m c) := by
  rw [show V11 m c main_v34 = _ from s1_main_v34 _, show V10 m c main_v31 = _ from s0_main_v31 _,
    show V10 m c main_c_7 = _ from s0_main_c_7 _]
  rfl

theorem at4_main_v35 : (V13 m c main_v35 : IVec S600064 32) = dstPv (eiTp m c) := by
  rw [show V13 m c main_v35 = _ from s3_main_v35 _, show V12 m c main_c_8 = _ from s2_main_c_8 _]
  carry m c main_v33
  rw [show V10 m c main_v33 = _ from s0_main_v33 _]
  rfl

theorem at5_main_v36 : (V14 m c main_v36 : IVec S600064 32) = argsortOf (dstPv (eiTp m c)) := by
  rw [show V14 m c main_v36 = _ from s4_main_v36 _, at4_main_v35 m c]

theorem at5_dst : takeBy (V14 m c main_v35) (V14 m c main_v36) = dstSv (eiTp m c) := by
  rw [at5_main_v36 m c]
  carry m c main_v35
  rw [at4_main_v35 m c]
  rfl

theorem V19_main_v58 (p : Fin 600064) :
    (V19 m c main_v58 : IVec S1x600064 32) (ix2 (0 : Fin 1) p) = srcS (eiTp m c) p := by
  carry m c main_v58
  rw [show V19 m c main_v58 = _ from s9_main_v58 _]
  carry m c main_v43
  rw [show V15 m c main_v43 = _ from s5_main_v43 _, at5_main_v36 m c]
  carry m c main_v34
  rw [at2_main_v34 m c, rowOf_apply]
  exact srcSv_apply _ p

theorem V19_main_v59 (p : Fin 600064) :
    (V19 m c main_v59 : IVec S1x600064 32) (ix2 (0 : Fin 1) p) = dstS (eiTp m c) p := by
  carry m c main_v59
  rw [show V19 m c main_v59 = _ from s9_main_v59 _]
  carry m c main_v50
  rw [show V15 m c main_v50 = _ from s5_main_v50 _, at5_dst m c, rowOf_apply, dstSv_apply]

theorem V19_main_v54 (e : Fin 293) : (V19 m c main_v54 : IVec S293 32) (ValueIdx.ix1 e) = lo (eiTp m c) e := by
  carry m c main_v54
  rw [show V16 m c main_v54 = _ from s6_main_v54 _, show V15 m c main_v53 = _ from s5_main_v53 _,
    show V15 m c main_c_13 = _ from s5_main_c_13 _, at5_dst m c, floorDivVec_apply, blockFirst_apply, blocksOf_apply,
    dstSv_apply]
  rfl

theorem V19_main_v57 (e : Fin 293) : (V19 m c main_v57 : IVec S293 32) (ValueIdx.ix1 e) = hi (eiTp m c) e := by
  carry m c main_v57
  rw [show V18 m c main_v57 = _ from s8_main_v57 _, show V17 m c main_v56 = _ from s7_main_v56 _,
    show V17 m c main_c_14 = _ from s7_main_c_14 _]
  carry m c main_v51
  rw [show V15 m c main_v51 = _ from s5_main_v51 _, at5_dst m c, floorDivVec_apply, blockLast_apply, blocksOf_apply,
    dstSv_apply]
  rfl

end Cert.KernelIdeal.Hand.Prep.Tp

end
-- ==== Proof.Val.HostCasts.lean ====
import proofs.«411563_j39152921870698_3_alg».proof.Proof.RegionsKI

set_option maxRecDepth 16384

noncomputable section

namespace Cert.Val.HostCasts

open Idealize.ShloMosaic Idealize.ShloMosaic.TcCoe
open Cert.KernelIdeal Cert.KernelIdeal.Gen

variable {F : FTy → Type} [FloatOps F]

theorem s3_main_v64 (W : Valuation τ sig (Elt F)) :
    (StableHlo.after hostOps3 W main_v64 : FVec F S100000x128 .bf16) = truncf .bf16 (W main_arg1) bitsLt_bf16_f32 := by
  after_results

theorem s6_main_v68 (W : Valuation τ sig (Elt F)) :
    (StableHlo.after hostOps6 W main_v68 : FVec F S100000x128 .bf16) = truncf .bf16 (W main_v67) bitsLt_bf16_f32 := by
  after_results

theorem s9_main_v72 (W : Valuation τ sig (Elt F)) :
    (StableHlo.after hostOps9 W main_v72 : FVec F S100000x128 .bf16) = truncf .bf16 (W main_v63) bitsLt_bf16_f32 := by
  after_results

end Cert.Val.HostCasts

end
-- ==== Proof.Val.Sage345.lean ====
import proofs.«411563_j39152921870698_3_alg».proof.Proof.KI.RunOf
import proofs.«411563_j39152921870698_3_alg».proof.Proof.KI.Gather3Value
import proofs.«411563_j39152921870698_3_alg».proof.Proof.KI.ScatterCnt4Value
import proofs.«411563_j39152921870698_3_alg».proof.Proof.KI.Linear5Value
import proofs.«411563_j39152921870698_3_alg».proof.Proof.Val.PrepTp
import proofs.«411563_j39152921870698_3_alg».proof.Proof.Val.PrepCarry
import proofs.«411563_j39152921870698_3_alg».proof.Proof.Val.HostCasts
import proofs.«411563_j39152921870698_3_alg».proof.Proof.Val.SageStage

set_option maxRecDepth 16384

noncomputable section

open scoped BigOperators

namespace Cert.Val.Sage345

open Idealize.ShloMosaic Idealize.ShloMosaic.TcCoe Idealize.ShloMosaic.ValueIdx
open Cert.KernelIdeal Cert.KernelIdeal.Gen Cert.KernelIdeal.Hand
open Cert.SageSpec Cert.Val.Core Cert.Val.Triple Cert.Val.SageStage
open Cert.KernelIdeal.Hand.LinearOps

variable (m : (ℓ : Loc nD τ sig) → Buf (Elt Ideal) ℓ) (c : Dev nD)

abbrev eiOf : Edges := m ((c : Thread nD τ).loc main_arg3)

abbrev xsOf : Feat := m ((c : Thread nD τ).loc main_arg1)

abbrev xdOf : Feat := m ((c : Thread nD τ).loc main_arg0)

abbrev wlOf : Wt := m ((c : Thread nD τ).loc main_arg7)
abbrev blOf : Bias := m ((c : Thread nD τ).loc main_arg8)
abbrev wrOf : Wt := m ((c : Thread nD τ).loc main_arg9)

theorem tab_eq (i : (⟨2, ![100000, 128]⟩ : Shape).Idx) : (W23 m c main_v64 : Feat) i = xsOf m c i :=
  (congrFun (Cert.Val.HostCasts.s3_main_v64 (W22 m c)) i).trans (congrFun (W22_at_main_arg1 m c) i)

theorem closed (hok : SrcOk (eiOf m c)) :
    (W26 m c main_v67 : Feat) = relu (sage (xsOf m c) (xdOf m c) (eiOf m c) (wlOf m c) (blOf m c) (wrOf m c)) := by
  obtain rfl := dev_eq c
  refine stage (eiOf m c₀) hok (xsOf m c₀) (xdOf m c₀) (wlOf m c₀) (wrOf m c₀) (blOf m c₀)
    (W23 m c₀ main_v58)
    (fun p => (congrFun (W23_at_main_v58 m c₀) (ix2 (0 : Fin 1) p)).trans (Prep.Tp.V19_main_v58 m c₀ p))
    (W23 m c₀ main_v64) (tab_eq m c₀)
    (W24 m c₀ main_v65)
    (fun p q => (congrFun (W24_main_v65 m c₀) (ix2 p q)).trans (arrAt_out3_row (Ve (W23 m)) c₀ p q))
    (W24 m c₀ main_v59)
    (fun p => (congrFun (W24_at_main_v59 m c₀) (ix2 (0 : Fin 1) p)).trans (Prep.Tp.V19_main_v59 m c₀ p))
    ((tbl4 m).1 0) ((tbl4 m).1 1)
    (fun e => (congrFun (congrFun (tbl4_val m) 0) (ValueIdx.ix1 e)).trans (Prep.Tp.V19_main_v54 m c₀ e))
    (fun e => (congrFun (congrFun (tbl4_val m) 1) (ValueIdx.ix1 e)).trans (Prep.Tp.V19_main_v57 m c₀ e))
    (W25 m c₀ main_v66_0)
    (fun n q => congrFun ((W25_main_v66_0 m c₀).trans (ScatterCnt4.arrAt_agg4 (Ve (W24 m)) (tbl4 m) c₀)) (ix2 (rowUp n) q))
    (W24 m c₀ main_v59)
    (fun p => (congrFun (W24_at_main_v59 m c₀) (ix2 (0 : Fin 1) p)).trans (Prep.Tp.V19_main_v59 m c₀ p))
    ((tbl4 m).1 0) ((tbl4 m).1 1)
    (fun e => (congrFun (congrFun (tbl4_val m) 0) (ValueIdx.ix1 e)).trans (Prep.Tp.V19_main_v54 m c₀ e))
    (fun e => (congrFun (congrFun (tbl4_val m) 1) (ValueIdx.ix1 e)).trans (Prep.Tp.V19_main_v57 m c₀ e))
    (W25 m c₀ main_v66_1)
    (fun n => congrFun ((W25_main_v66_1 m c₀).trans (ScatterCnt4.arrAt_cnt4 (Ve (W24 m)) (tbl4 m) c₀)) (ix2 (rowUp n) (0 : Fin 1)))
    (fun z => max z 0) (W26 m c₀ main_v67) fun r f => ?_
  refine (congrFun (W26_main_v67 m c₀) (ix2 r f)).trans ?_
  refine (Linear5Value.arrAt_out5_apply (Ve (W25 m)) c₀ r f).trans ?_
  show denseRelu (W25 m c₀ main_v66_0) (W25 m c₀ main_v66_1) (W25 m c₀ main_arg0) (W25 m c₀ main_arg7)
      (W25 m c₀ main_arg8) (W25 m c₀ main_arg9) r f = _
  rw [W25_at_main_arg0 m c₀, W25_at_main_arg7 m c₀, W25_at_main_arg8 m c₀, W25_at_main_arg9 m c₀]
  unfold denseRelu
  rw [Ideal.ofBits_zero_f32]

end Cert.Val.Sage345

end
-- ==== Proof.KI.Gather6Value.lean ====
import proofs.«411563_j39152921870698_3_alg».proof.Proof.KI.Gather6
import proofs.«411563_j39152921870698_3_alg».proof.Proof.KI.GatherValue

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev tab6 (c : Dev nD) : Vec Ideal S100000x128 .bf16 := V c main_v68
abbrev idx6 (c : Dev nD) : Vec Ideal S1x600064 .i32 := V c main_v28

theorem index6_0 : ∀ t : Fin grid6.N, win6_0.index t 0 = 0 ∧ win6_0.index t 1 = 0 := by decide +kernel
theorem index6_1 : ∀ t : Fin grid6.N, win6_1.index t 0 = 0 ∧ win6_1.index t 1 = t.val := by decide +kernel
theorem index6_2 : ∀ t : Fin grid6.N, win6_2.index t 0 = t.val ∧ win6_2.index t 1 = 0 := by decide +kernel

theorem pos_lt6 (t : Fin cfg6.N) (l : Fin 2048) : 2048 * t.val + l.val < 600064 := by
  have ht : t.val < 293 := lt_of_lt_of_eq t.isLt N_6
  have hl := l.isLt
  omega

-- The table's one block is the table.
theorem iblk6_0_apply (c : Dev nD) (t : Fin cfg6.N) (n : Fin 100000) (f : Fin 128) :
    (iblk6 V c 0 t : Vec Ideal S100000x128 .bf16) (ix2 n f) = tab6 V c (ix2 n f) := by
  unfold iblk6
  rw [View.read_apply]
  refine congrArg (V c main_v68) (Shape.idx_ext₂ ?_ ?_)
  · show win6_0.index t 0 * 100000 + 1 * n.val = n.val; rw [(index6_0 t).1]; omega
  · show win6_0.index t 1 * 128 + 1 * f.val = f.val; rw [(index6_0 t).2]; omega

-- Block t of the index words is words 2048t … 2048t + 2047.
theorem iblk6_1_apply (c : Dev nD) (t : Fin cfg6.N) (l : Fin 2048) :
    (iblk6 V c 1 t : Vec Ideal S1x2048 .i32) (ix2 0 l) = idx6 V c (ix2 0 ⟨2048 * t.val + l.val, pos_lt6 t l⟩) := by
  unfold iblk6
  rw [View.read_apply]
  refine congrArg (V c main_v28) (Shape.idx_ext₂ ?_ ?_)
  · show win6_1.index t 0 * 1 + 1 * 0 = 0; rw [(index6_1 t).1]
  · show win6_1.index t 1 * 2048 + 1 * l.val = 2048 * t.val + l.val; rw [(index6_1 t).2]; omega

-- Block t of the result is rows 2048t … 2048t + 2047.
theorem emb6_2 (t : Fin cfg6.N) (l : Fin 2048) (f : Fin 128) :
    (((cfg6.win 2).blk t).view.emb (ix2 l f) : S600064x128.Idx) = ix2 ⟨2048 * t.val + l.val, pos_lt6 t l⟩ f := by
  refine Shape.idx_ext₂ ?_ ?_
  · show win6_2.index t 0 * 2048 + 1 * l.val = 2048 * t.val + l.val; rw [(index6_2 t).1]; omega
  · show win6_2.index t 1 * 128 + 1 * f.val = f.val; rw [(index6_2 t).2]; omega

-- What a point leaves in the result's block is that block of the gathered rows.
theorem flushed_eq6 (c : Dev nD) (t : Fin cfg6.N) (hf : (cfg6.win 2).flush t = true) :
    (dat6 (F := Ideal) V c).flushed 2 t = ((cfg6.win 2).blk t).view.read (Elt Ideal) (gathered (tab6 V c) (idx6 V c)) := by
  show (cfg6.win 2).cut (grid6.coords t) ((dat6 (F := Ideal) V c).after 2 t) = _
  rw [after6_2]
  refine funext fun (j : S2048x128.Idx) => ?_
  obtain ⟨l, f, rfl⟩ : ∃ (l : Fin 2048) (f : Fin 128), j = ix2 l f := ⟨j 0, j 1, eq_ix2 j⟩
  rw [View.read_apply, emb6_2]
  exact gatherBlock (tab6 V c) (idx6 V c) (iblk6 V c 0 t) (iblk6 V c 1 t) _ l f (fun n => iblk6_0_apply V c t n f) (iblk6_1_apply V c t l)

-- Every row of the result lies in some point's block.
theorem cover6 (c : Dev nD) (i : ((cfg6.win 2).arr.view.loc (c.tc : Thread nD τ)).2.ty.Idx) :
    ∃ t : Fin cfg6.N, (cfg6.win 2).flush t = true ∧ i ∈ ((cfg6.win 2).blk t).view.set := by
  have hi0 : (i 0).val < 600064 := (i 0).isLt
  have ht : (i 0).val / 2048 < cfg6.N := by rw [show cfg6.N = 293 from N_6]; omega
  have e : ((cfg6.win 2).blk ⟨(i 0).val / 2048, ht⟩).view.emb (ix2 ⟨(i 0).val % 2048, Nat.mod_lt _ (by decide)⟩ (i 1)) = i :=
    (emb6_2 ⟨(i 0).val / 2048, ht⟩ ⟨(i 0).val % 2048, Nat.mod_lt _ (by decide)⟩ (i 1)).trans
      (Shape.idx_ext₂ (by show 2048 * ((i 0).val / 2048) + (i 0).val % 2048 = (i 0).val; omega) rfl)
  exact ⟨⟨(i 0).val / 2048, ht⟩, flush6_2 _, Eq.subst (motive := (· ∈ ((cfg6.win 2).blk ⟨(i 0).val / 2048, ht⟩).view.set)) e (View.emb_mem_set _ _)⟩

-- The region's result: row p is the table's row that index word p names (read signed), zero when it names none.
theorem arrAt_out6_row (c : Dev nD) (p : Fin 600064) (q : Fin 128) :
    ((dat6 (F := Ideal) V c).arrAt 2 cfg6.N : Vec Ideal S600064x128 .bf16) (ix2 p q)
      = if h : 0 ≤ (idx6 V c (ix2 0 p) : BitVec 32).toInt ∧ (idx6 V c (ix2 0 p) : BitVec 32).toInt < 100000
          then (tab6 V c (ix2 ⟨(idx6 V c (ix2 0 p) : BitVec 32).toInt.toNat, Cert.Val.Core.toNat_lt h⟩ q) : EReal) else 0 := by
  rw [(dat6 (F := Ideal) V c).arrAt_eq_of_cover 2 (gathered (tab6 V c) (idx6 V c)) (flushed_eq6 V c) (cover6 c)]
  exact gathered_apply _ _ p q

end Cert.KernelIdeal.Hand

end
-- ==== Proof.KI.Scatter7Value.lean ====
import proofs.«411563_j39152921870698_3_alg».proof.Proof.KI.Scatter7Dat
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section ValueS

open Idealize.ShloMosaic.ValueIdx

theorem k7_pay1_apply (i : S2000x128.Idx) : k7_pay1 (F := Ideal) i = 0 := by
  unfold k7_pay1
  simp only [shapeCast_self]
  show Ideal.ofBits .f32 0x00000000#32 = 0
  exact Ideal.ofBits_zero_f32

abbrev dot7 : DotDims S2000x2048 S2048x128 S2000x128 := dot_S2000x2048_S2048x128_S2000x128_1_0_0_1_n_n
theorem dot7_contr_rank : dot7.contr.rank = 1 := rfl
theorem dot7_contr_size : dot7.contr.size ⟨0, by rw [dot7_contr_rank]; exact Nat.one_pos⟩ = 2048 := rfl

theorem dot7_lhsIdx (r : Fin 2000) (q : Fin 128) (k : dot7.contr.Idx) :
    dot7.lhsIdx (ix2 r q) k = ix2 r (contrEquiv1 dot7 2048 dot7_contr_rank dot7_contr_size k) := by
  funext a
  match a with
  | ⟨0, _⟩ => exact Fin.ext rfl
  | ⟨1, _⟩ => exact Fin.ext rfl
theorem dot7_rhsIdx (r : Fin 2000) (q : Fin 128) (k : dot7.contr.Idx) :
    dot7.rhsIdx (ix2 r q) k = ix2 (contrEquiv1 dot7 2048 dot7_contr_rank dot7_contr_size k) q := by
  funext a
  match a with
  | ⟨0, _⟩ => exact Fin.ext rfl
  | ⟨1, _⟩ => exact Fin.ext rfl

theorem onehot_val7 (x y : BitVec 32) :
    (FloatOps.sitofp (F := Ideal) .f32 ((IntOp.cmpi .eq x y).setWidth 32) : EReal) = if x = y then 1 else 0 := by
  by_cases h : x = y
  · subst h
    rw [if_pos rfl]
    have e : (IntOp.cmpi .eq x x).setWidth 32 = 1#32 := by simp [IntOp.cmpi]
    rw [e]
    show ((((1#32 : BitVec 32).toInt : ℤ) : ℝ) : EReal) = 1
    norm_num
  · rw [if_neg h]
    have hb : (x == y) = false := beq_eq_false_iff_ne.mpr h
    have e : (IntOp.cmpi .eq x y).setWidth 32 = 0#32 := by simp [IntOp.cmpi, hb]
    rw [e]
    show ((((0#32 : BitVec 32).toInt : ℤ) : ℝ) : EReal) = 0
    norm_num

set_option maxHeartbeats 800000 in
theorem k7_pay2_apply (i : grid7.Coords) (v19 : Vec Ideal S1x2048 .i32) (v27 : Vec Ideal S2048x128 .bf16) (v29 : Vec Ideal S2000x128 .f32)
    (r : Fin 2000) (q : Fin 128) :
    k7_pay2 i v19 v27 v29 (ix2 r q)
      = v29 (ix2 r q) + ∑ l : Fin 2048, (if BitVec.ofNat 32 (i 0).val * 2000#32 + BitVec.ofNat 32 r.val = v19 (ix2 0 l) then v27 (ix2 l q) else 0) := by
  unfold k7_pay2
  simp only [shapeCast_self, matmul, addf_apply]
  rw [Ideal.matmul_constant_zero_apply]
  refine congrArg (v29 (ix2 r q) + ·) ?_
  rw [← Equiv.sum_comp (contrEquiv1 dot7 2048 dot7_contr_rank dot7_contr_size).symm]
  refine Finset.sum_congr rfl fun l _ => ?_
  rw [dot7_lhsIdx, dot7_rhsIdx, Equiv.apply_symm_apply]
  have hA : ∀ (w : BitVec 32), (broadcastTo S2000x2048 (addi (broadcast S2000x1 w) (iota .tc S2000x1 32 [0] iota_S2000x1_d0_w32)) broadcasts_S2000x1_S2000x2048) (ix2 r l) = w + BitVec.ofNat 32 r.val := by
    intro w
    rw [broadcastTo_apply _ _ (ix2 r l) (ix2 r 0) (fun a => by match a with | ⟨0, _⟩ => rfl | ⟨1, _⟩ => rfl)]
    show IntOp.addi w (iota .tc S2000x1 32 [0] iota_S2000x1_d0_w32 (ix2 r 0)) = _
    rw [iota_single_apply]; rfl
  have hB : (broadcastTo S2000x2048 v19 broadcasts_S1x2048_S2000x2048) (ix2 r l) = v19 (ix2 0 l) :=
    broadcastTo_apply _ _ (ix2 r l) (ix2 0 l) (fun a => by match a with | ⟨0, _⟩ => rfl | ⟨1, _⟩ => rfl)
  show FloatOps.sitofp (F := Ideal) .f32 ((IntOp.cmpi .eq (broadcastTo S2000x2048 (addi (broadcast S2000x1 (Scalar.muli (BitVec.ofNat 32 (i 0).val) 2000#32)) (iota .tc S2000x1 32 [0] iota_S2000x1_d0_w32)) broadcasts_S2000x1_S2000x2048 (ix2 r l)) (broadcastTo S2000x2048 v19 broadcasts_S1x2048_S2000x2048 (ix2 r l))).setWidth 32) * v27 (ix2 l q) = _
  rw [hA, hB, onehot_val7]
  show (if BitVec.ofNat 32 (i 0).val * 2000#32 + BitVec.ofNat 32 r.val = v19 (ix2 0 l) then (1 : EReal) else 0) * v27 (ix2 l q) = _
  split <;> simp

variable (V : (c : Dev nD) → (b : Ref sig .tc) → Buf (Elt Ideal) ((c : Thread nD τ).loc b))

abbrev msgArr7 (c : Dev nD) : Vec Ideal S600064x128 .bf16 := V c main_v69
abbrev idxArr7 (c : Dev nD) : Vec Ideal S1x600064 .i32 := V c main_v29

def M7 (a : (pcfg7 (F := Ideal)).Adm) (c : Dev nD) (n : ℕ) (y : S2000x128.Idx) : EReal :=
  if h : n < (cfg7 a).N then
    if guard7 a c ⟨n, h⟩ then
      ∑ l : Fin 2048, (if BitVec.ofNat 32 (grid7.coords ⟨n, h⟩ 0).val * 2000#32 + BitVec.ofNat 32 (y 0).val = idxBlk7 V a c ⟨n, h⟩ (ix2 0 l)
        then msgBlk7 V a c ⟨n, h⟩ (ix2 l (y 1)) else 0)
    else 0
  else 0

theorem stepN7_apply (a : (pcfg7 (F := Ideal)).Adm) (c : Dev nD) (n : ℕ) (s : Vec Ideal S2000x128 .f32) (y : S2000x128.Idx) :
    stepN7 V a c n s y = s y + M7 V a c n y := by
  unfold stepN7 M7
  by_cases h : n < (cfg7 a).N
  · rw [dif_pos h, dif_pos h]; unfold step7
    by_cases g : guard7 a c ⟨n, h⟩
    · rw [if_pos g, if_pos g]
      obtain ⟨r, q, rfl⟩ : ∃ (r : Fin 2000) (q : Fin 128), y = ix2 r q := ⟨y 0, y 1, eq_ix2 y⟩
      exact k7_pay2_apply _ _ _ _ r q
    · rw [if_neg g, if_neg g, add_zero]
  · rw [dif_neg h, dif_neg h, add_zero]

theorem sAfter7_apply (a : (pcfg7 (F := Ideal)).Adm) (c : Dev nD) (t : ℕ) (ht : t < (cfg7 a).N) (y : S2000x128.Idx) :
    sAfter7 V a c t y = ∑ s ∈ Finset.range (t % 293 + 1), M7 V a c (293 * (t / 293) + s) y := by
  have hlt : 293 * (t / 293) + t % 293 < (cfg7 a).N := by rw [Nat.div_add_mod]; exact ht
  have h := Pipeline.eq_accAt_of_mod (N := (cfg7 a).N) (fun n _ => sAfter7 V a c n) 293
    (fun n _ => stepN7 V a c n (k7_pay1 (F := Ideal))) (fun n _ s => stepN7 V a c n s)
    (fun n _ hn => sAfter7_reset V a c n hn)
    (fun n _ hn => sAfter7_step V a c (n + 1) hn)
    (by decide) t ht hlt
  rw [h]
  have h2 := Pipeline.accAt_add_apply (N := (cfg7 a).N) (fun n _ => stepN7 V a c n (k7_pay1 (F := Ideal))) (fun n _ s => stepN7 V a c n s)
    (fun _ => (0 : EReal)) (M7 V a c) (293 * (t / 293)) 292
    (fun _ i => by rw [stepN7_apply, k7_pay1_apply])
    (fun n _ acc i _ _ => stepN7_apply V a c n acc i)
    (t % 293) (by omega) hlt y
  rw [h2, zero_add]

theorem tr7_0 (t : Fin grid7.N) : cc7_transform_0 (grid7.coords t) = ![t.val % 293, 0] := by
  have h : (BitVec.ofNat 32 (grid7.coords t 1).val).toNat = t.val % 293 := by
    rw [BitVec.toNat_ofNat, coords7_1]; exact Nat.mod_eq_of_lt (by omega)
  show ![(BitVec.ofNat 32 (grid7.coords t 1).val).toNat, (0#32 : BitVec 32).toNat] = _
  rw [h]; rfl
theorem tr7_1 (t : Fin grid7.N) : cc7_transform_1 (grid7.coords t) = ![0, t.val % 293] := by
  have h : (BitVec.ofNat 32 (grid7.coords t 1).val).toNat = t.val % 293 := by
    rw [BitVec.toNat_ofNat, coords7_1]; exact Nat.mod_eq_of_lt (by omega)
  show ![(0#32 : BitVec 32).toNat, (BitVec.ofNat 32 (grid7.coords t 1).val).toNat] = _
  rw [h]; rfl

theorem lt_idx7 (e : Fin 293) (l : Fin 2048) : 2048 * e.val + l.val < 600064 := by
  have := e.isLt; have := l.isLt; omega

set_option maxHeartbeats 1000000 in
theorem msgBlk7_apply (a : (pcfg7 (F := Ideal)).Adm) (c : Dev nD) (t : Fin (cfg7 a).N) (e : Fin 293) (he : t.val % 293 = e.val)
    (l : Fin 2048) (q : Fin 128) :
    msgBlk7 V a c t (ix2 l q) = msgArr7 V c (ix2 ⟨2048 * e.val + l.val, lt_idx7 e l⟩ q) := by
  show iblk7 V a c 0 t (ix2 l q) = _
  unfold iblk7
  show V c main_v69 ((((cfg7 a).win 0).blk t).view.emb (ix2 l q)) = V c main_v69 _
  congr 1
  funext b; apply Fin.ext
  match b with
  | ⟨0, _⟩ =>
    show cc7_transform_0 (grid7.coords t) 0 * 2048 + 1 * l.val = 2048 * e.val + l.val
    rw [tr7_0]; show t.val % 293 * 2048 + 1 * l.val = _; omega
  | ⟨1, _⟩ =>
    show cc7_transform_0 (grid7.coords t) 1 * 128 + 1 * q.val = q.val
    rw [tr7_0]; show 0 * 128 + 1 * q.val = q.val; omega

set_option maxHeartbeats 1000000 in
theorem idxBlk7_apply (a : (pcfg7 (F := Ideal)).Adm) (c : Dev nD) (t : Fin (cfg7 a).N) (e : Fin 293) (he : t.val % 293 = e.val)
    (l : Fin 2048) :
    idxBlk7 V a c t (ix2 0 l) = idxArr7 V c (ix2 0 ⟨2048 * e.val + l.val, lt_idx7 e l⟩) := by
  show iblk7 V a c 1 t (ix2 0 l) = _
  unfold iblk7
  show V c main_v29 ((((cfg7 a).win 1).blk t).view.emb (ix2 0 l)) = V c main_v29 _
  congr 1
  funext b; apply Fin.ext
  match b with
  | ⟨0, _⟩ =>
    show cc7_transform_1 (grid7.coords t) 0 * 1 + 1 * 0 = 0
    rw [tr7_1]; show 0 * 1 + 1 * 0 = 0; omega
  | ⟨1, _⟩ =>
    show cc7_transform_1 (grid7.coords t) 1 * 2048 + 1 * l.val = 2048 * e.val + l.val
    rw [tr7_1]; show t.val % 293 * 2048 + 1 * l.val = _; omega

theorem lo7_eq (a : (pcfg7 (F := Ideal)).Adm) (c : Dev nD) (t : Fin (cfg7 a).N) (e : Fin 293) (he : t.val % 293 = e.val) :
    lo7 a c t = a.1 0 (ValueIdx.ix1 e) := by
  show (a.1 0) _ = (a.1 0) _
  refine congrArg (a.1 0) ?_
  funext b; apply Fin.ext
  match b with
  | ⟨0, _⟩ =>
    show (BitVec.ofNat 32 (grid7.coords t 1).val).toNat + 1 * 0 = e.val
    rw [BitVec.toNat_ofNat, coords7_1, he, Nat.mod_eq_of_lt (lt_trans e.isLt (by decide))]; omega
theorem hi7_eq (a : (pcfg7 (F := Ideal)).Adm) (c : Dev nD) (t : Fin (cfg7 a).N) (e : Fin 293) (he : t.val % 293 = e.val) :
    hi7 a c t = a.1 1 (ValueIdx.ix1 e) := by
  show (a.1 1) _ = (a.1 1) _
  refine congrArg (a.1 1) ?_
  funext b; apply Fin.ext
  match b with
  | ⟨0, _⟩ =>
    show (BitVec.ofNat 32 (grid7.coords t 1).val).toNat + 1 * 0 = e.val
    rw [BitVec.toNat_ofNat, coords7_1, he, Nat.mod_eq_of_lt (lt_trans e.isLt (by decide))]; omega

theorem idx7_2 (a : (pcfg7 (F := Ideal)).Adm) (t : Fin (cfg7 a).N) : ((cfg7 a).win 2).index t = ![t.val / 293, 0] := by
  show cc7_transform_2 (grid7.coords t) = _
  rw [tr7_2, coords7_0]

theorem disjoint7_2 (a : (pcfg7 (F := Ideal)).Adm) : ∀ t t' : Fin (cfg7 a).N, ((cfg7 a).win 2).flush t = true → ((cfg7 a).win 2).flush t' = true → t ≠ t' →
    Disjoint (((cfg7 a).win 2).blk t).view.set (((cfg7 a).win 2).blk t').view.set := fun t t' hf hf' hne =>
  ((cfg7 a).win 2).disjoint_blk fun h => hne (Fin.ext (by
    have h1 := (flush7_2 a t).mp hf
    have h2 := (flush7_2 a t').mp hf'
    rw [idx7_2, idx7_2] at h
    have h0 : t.val / 293 = t'.val / 293 := congrFun h 0
    omega))

set_option maxHeartbeats 2000000 in
theorem arrAt_out7_M (a : (pcfg7 (F := Ideal)).Adm) (c : Dev nD) (j : Fin 51) (r : Fin 2000) (q : Fin 128) (hn : 2000 * j.val + r.val < 102000) :
    ((dat7 V a c).arrAt 2 (cfg7 a).N (ix2 ⟨2000 * j.val + r.val, hn⟩ q) : EReal) = ∑ e : Fin 293, M7 V a c (293 * j.val + e.val) (ix2 r q) := by
  have hN : (cfg7 a).N = 14943 := N_7
  have hj := j.isLt
  have htl : 293 * j.val + 292 < (cfg7 a).N := by rw [hN]; omega
  have hf : ((cfg7 a).win 2).flush ⟨293 * j.val + 292, htl⟩ = true := (flush7_2 a ⟨293 * j.val + 292, htl⟩).mpr (by show (293 * j.val + 292) % 293 = 292; omega)
  have hemb : (((cfg7 a).win 2).blk ⟨293 * j.val + 292, htl⟩).view.emb (ix2 r q) = ix2 ⟨2000 * j.val + r.val, hn⟩ q := by
    funext b; apply Fin.ext
    match b with
    | ⟨0, _⟩ =>
      show cc7_transform_2 (grid7.coords ⟨293 * j.val + 292, htl⟩) 0 * 2000 + 1 * r.val = 2000 * j.val + r.val
      rw [tr7_2, coords7_0]; show (293 * j.val + 292) / 293 * 2000 + 1 * r.val = _; omega
    | ⟨1, _⟩ =>
      show cc7_transform_2 (grid7.coords ⟨293 * j.val + 292, htl⟩) 1 * 128 + 1 * q.val = q.val
      rw [tr7_2]; show 0 * 128 + 1 * q.val = q.val; omega
  rw [← hemb, (dat7 V a c).arrAt_emb_eq_flushed 2 (disjoint7_2 a) ⟨293 * j.val + 292, htl⟩ hf (ix2 r q)]
  show (dat7 V a c).after 2 ⟨293 * j.val + 292, htl⟩ (ix2 r q) = _
  rw [after7_2, sAfter7_apply V a c (293 * j.val + 292) htl]
  rw [show (293 * j.val + 292) % 293 + 1 = 293 from by omega, show (293 * j.val + 292) / 293 = j.val from by omega, Finset.sum_range]

set_option maxHeartbeats 1000000 in
theorem M7_eq (a : (pcfg7 (F := Ideal)).Adm) (c : Dev nD) (j : Fin 51) (e : Fin 293) (r : Fin 2000) (q : Fin 128) :
    M7 V a c (293 * j.val + e.val) (ix2 r q)
      = if guardW7 j.val (a.1 0 (ValueIdx.ix1 e)) (a.1 1 (ValueIdx.ix1 e)) then
          ∑ l : Fin 2048, (if BitVec.ofNat 32 j.val * 2000#32 + BitVec.ofNat 32 r.val = idxArr7 V c (ix2 0 ⟨2048 * e.val + l.val, lt_idx7 e l⟩)
            then msgArr7 V c (ix2 ⟨2048 * e.val + l.val, lt_idx7 e l⟩ q) else 0)
        else 0 := by
  have hN : (cfg7 a).N = 14943 := N_7
  have hj := j.isLt
  have he := e.isLt
  have hlt : 293 * j.val + e.val < (cfg7 a).N := by rw [hN]; omega
  have hmod : (⟨293 * j.val + e.val, hlt⟩ : Fin (cfg7 a).N).val % 293 = e.val := by show (293 * j.val + e.val) % 293 = e.val; omega
  have hc0 : (grid7.coords ⟨293 * j.val + e.val, hlt⟩ 0).val = j.val := by
    rw [coords7_0]; show (293 * j.val + e.val) / 293 = j.val; omega
  unfold M7
  rw [dif_pos hlt]
  show (if guardW7 (grid7.coords ⟨293 * j.val + e.val, hlt⟩ 0).val (lo7 a c ⟨293 * j.val + e.val, hlt⟩) (hi7 a c ⟨293 * j.val + e.val, hlt⟩) then _ else _) = _
  rw [hc0, lo7_eq a c _ e hmod, hi7_eq a c _ e hmod]
  refine if_congr Iff.rfl (Finset.sum_congr rfl fun l _ => ?_) rfl
  rw [idxBlk7_apply V a c _ e hmod l, msgBlk7_apply V a c _ e hmod l]

abbrev aggOf7 (a : (pcfg7 (F := Ideal)).Adm) (c : Dev nD) : Vec Ideal S102000x128 .f32 := (dat7 V a c).arrAt 2 (cfg7 a).N

theorem arrAt_out7 (a : (pcfg7 (F := Ideal)).Adm) (c : Dev nD) (j : Fin 51) (r : Fin 2000) (q : Fin 128) (hn : 2000 * j.val + r.val < 102000) :
    aggOf7 V a c (ix2 ⟨2000 * j.val + r.val, hn⟩ q)
      = (∑ e : Fin 293, (if guardW7 j.val (a.1 0 (ValueIdx.ix1 e)) (a.1 1 (ValueIdx.ix1 e)) then
          ∑ l : Fin 2048, (if BitVec.ofNat 32 j.val * 2000#32 + BitVec.ofNat 32 r.val = idxArr7 V c (ix2 0 ⟨2048 * e.val + l.val, lt_idx7 e l⟩)
            then msgArr7 V c (ix2 ⟨2048 * e.val + l.val, lt_idx7 e l⟩ q) else 0)
        else 0) : EReal) := by
  have h2 : (∑ e : Fin 293, M7 V a c (293 * j.val + e.val) (ix2 r q))
      = ∑ e : Fin 293, (if guardW7 j.val (a.1 0 (ValueIdx.ix1 e)) (a.1 1 (ValueIdx.ix1 e)) then
          ∑ l : Fin 2048, (if BitVec.ofNat 32 j.val * 2000#32 + BitVec.ofNat 32 r.val = idxArr7 V c (ix2 0 ⟨2048 * e.val + l.val, lt_idx7 e l⟩)
            then msgArr7 V c (ix2 ⟨2048 * e.val + l.val, lt_idx7 e l⟩ q) else 0)
        else 0) := Finset.sum_congr rfl fun e _ => M7_eq V a c j e r q
  exact (arrAt_out7_M V a c j r q hn).trans h2

end ValueS

end Cert.KernelIdeal.Hand

end
-- ==== Proof.KI.Linear8Value.lean ====
import proofs.«411563_j39152921870698_3_alg».proof.Proof.KI.Linear8
import proofs.«411563_j39152921870698_3_alg».proof.Proof.KI.LinearOps

set_option maxRecDepth 16384

noncomputable section

open scoped BigOperators

namespace Cert.KernelIdeal.Hand.Linear8Value

open Cert.KernelIdeal Cert.KernelIdeal.Gen Cert.KernelIdeal.Hand Cert.KernelIdeal.Hand.LinearOps
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev agg8 (c : Dev nD) : Vec Ideal S102000x128 .f32 := V c main_v70
abbrev cnt8 (c : Dev nD) : Vec Ideal S102000x1 .f32 := V c main_v62_1
abbrev xin8 (c : Dev nD) : Vec Ideal S100000x128 .f32 := V c main_v63
abbrev wl8 (c : Dev nD) : Vec Ideal S128x128 .f32 := V c main_arg10
abbrev bl8 (c : Dev nD) : Vec Ideal S128 .f32 := V c main_arg11
abbrev wr8 (c : Dev nD) : Vec Ideal S128x128 .f32 := V c main_arg12

def outG8 (c : Dev nD) : Vec Ideal S100000x128 .f32 := fun i =>
  dense (agg8 V c) (cnt8 V c) (xin8 V c) (wl8 V c) (bl8 V c) (wr8 V c) ⟨(i 0).val, (i 0).isLt⟩ ⟨(i 1).val, (i 1).isLt⟩

theorem N8_eq : cfg8.N = 20 := by decide

def row8 (t : Fin cfg8.N) (p : Fin 5000) : Fin 100000 :=
  ⟨5000 * t.val + p.val, by have := t.isLt; have := p.isLt; have h := N8_eq; omega⟩

theorem idx8_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 1) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

-- Row p of block t is row 5000 t + p of the array.
theorem sblk8_0_apply (c : Dev nD) (t : Fin cfg8.N) (p : Fin 5000) (k : Fin 128) :
    sblk8_0 V c t (ix2 p k) = agg8 V c (ix2 (rowUp (row8 t p)) k) := by
  have hm := moved_of_uncut (cfg8.win 0) _ (uncut8_0 t) (ix2 p k)
  obtain ⟨e0, e1, -⟩ := idx8_facts t
  unfold sblk8_0 Pipeline.Window.fill
  rw [dif_pos hm]
  show V c main_v70 (((cfg8.win 0).blk t).view.emb _) = V c main_v70 _
  exact congrArg (V c main_v70) (Shape.idx_ext₂ (row_ix e0) (col_ix e1))

theorem sblk8_1_apply (c : Dev nD) (t : Fin cfg8.N) (p : Fin 5000) :
    sblk8_1 V c t (ix2 p (0 : Fin 1)) = cnt8 V c (ix2 (rowUp (row8 t p)) (0 : Fin 1)) := by
  have hm := moved_of_uncut (cfg8.win 1) _ (uncut8_1 t) (ix2 p (0 : Fin 1))
  obtain ⟨-, -, e0, e1, -⟩ := idx8_facts t
  unfold sblk8_1 Pipeline.Window.fill
  rw [dif_pos hm]
  show V c main_v62_1 (((cfg8.win 1).blk t).view.emb _) = V c main_v62_1 _
  exact congrArg (V c main_v62_1) (Shape.idx_ext₂ (row_ix e0) (col_ix e1))

theorem iblk8_2_apply (c : Dev nD) (t : Fin cfg8.N) (p : Fin 5000) (k : Fin 128) :
    iblk8 V c 2 t (ix2 p k) = xin8 V c (ix2 (row8 t p) k) := by
  obtain ⟨-, -, -, -, e0, e1, -⟩ := idx8_facts t
  show V c main_v63 (((cfg8.win 2).blk t).view.emb (ix2 p k)) = V c main_v63 _
  exact congrArg (V c main_v63) (Shape.idx_ext₂ (row_ix e0) (col_ix e1))

-- Blocks 3, 4 and 5 are the whole arrays.
theorem iblk8_3_apply (c : Dev nD) (t : Fin cfg8.N) (f k : Fin 128) :
    iblk8 V c 3 t (ix2 f k) = wl8 V c (ix2 f k) := by
  obtain ⟨-, -, -, -, -, -, e0, e1, -⟩ := idx8_facts t
  show V c main_arg10 (((cfg8.win 3).blk t).view.emb (ix2 f k)) = V c main_arg10 _
  exact congrArg (V c main_arg10) (Shape.idx_ext₂ (col_ix e0) (col_ix e1))

theorem iblk8_4_apply (c : Dev nD) (t : Fin cfg8.N) (f : Fin 128) :
    iblk8 V c 4 t (ValueIdx.ix1 f) = bl8 V c (ValueIdx.ix1 f) := by
  obtain ⟨-, -, -, -, -, -, -, -, e0, -⟩ := idx8_facts t
  show V c main_arg11 (((cfg8.win 4).blk t).view.emb (ValueIdx.ix1 f)) = V c main_arg11 _
  exact congrArg (V c main_arg11) (funext fun a => Fin.ext (match a with
    | ⟨0, _⟩ => col_ix e0))

theorem iblk8_5_apply (c : Dev nD) (t : Fin cfg8.N) (f k : Fin 128) :
    iblk8 V c 5 t (ix2 f k) = wr8 V c (ix2 f k) := by
  obtain ⟨-, -, -, -, -, -, -, -, -, e0, e1, -⟩ := idx8_facts t
  show V c main_arg12 (((cfg8.win 5).blk t).view.emb (ix2 f k)) = V c main_arg12 _
  exact congrArg (V c main_arg12) (Shape.idx_ext₂ (col_ix e0) (col_ix e1))

-- Entry (p, q) of point t's block of the result lies at row 5000 t + p, column q of the array.
theorem emb8_6 (t : Fin cfg8.N) (p : Fin 5000) (q : Fin 128) :
    ((cfg8.win 6).blk t).view.emb (ix2 p q) = ix2 (row8 t p) q := by
  obtain ⟨-, -, -, -, -, -, -, -, -, -, -, e0, e1⟩ := idx8_facts t
  exact Shape.idx_ext₂ (row_ix e0) (col_ix e1)

-- Block t of the result is block t of the closed form.
theorem flushed8_eq (c : Dev nD) (t : Fin cfg8.N) :
    (dat8 V c).flushed 6 t = ((cfg8.win 6).blk t).view.read (Elt Ideal) (outG8 V c) := by
  show (cfg8.win 6).cut (grid8.coords t) ((dat8 V c).after 6 t) = _
  rw [after8_6]
  unfold out8_6
  rw [View.canon_unit_zero zeros_two]
  simp only [View.ld_unit_zero (S := S5000x128) zeros_two, View.ld_unit_zero (S := S5000x1) zeros_two,
    View.ld_unit_zero (S := S128x128) zeros_two, View.ld_unit_zero (S := S128) zeros_one]
  funext j
  obtain ⟨p, q, rfl⟩ : ∃ (p : Fin 5000) (q : Fin 128), j = ix2 p q := ⟨j 0, j 1, eq_ix2 j⟩
  show k8_pay1 (F := Ideal) _ _ _ _ _ _ (ix2 p q) = outG8 V c (((cfg8.win 6).blk t).view.emb (ix2 p q))
  rw [emb8_6]
  refine (pay_apply _ _ _ _ _ _ p q).trans ?_
  simp only [sblk8_0_apply, sblk8_1_apply, iblk8_2_apply, iblk8_3_apply, iblk8_4_apply, iblk8_5_apply]
  rfl

-- Row r is row r % 5000 of block r / 5000.
theorem arrAt_out8_apply (c : Dev nD) (r : Fin 100000) (f : Fin 128) :
    (dat8 V c).arrAt 6 cfg8.N (ix2 r f)
      = dense (agg8 V c) (cnt8 V c) (xin8 V c) (wl8 V c) (bl8 V c) (wr8 V c) r f := by
  have ht : r.val / 5000 < cfg8.N := by have := r.isLt; have := N8_eq; omega
  obtain ⟨t, p, rfl⟩ : ∃ t p, r = row8 t p :=
    ⟨⟨r.val / 5000, ht⟩, ⟨r.val % 5000, Nat.mod_lt _ (by decide)⟩,
      Fin.ext (by show r.val = 5000 * (r.val / 5000) + r.val % 5000; omega)⟩
  rw [← emb8_6]
  exact ((dat8 V c).arrAt_apply_of_mem 6 (outG8 V c) (fun t _ => flushed8_eq V c t) cfg8.N t _ t.isLt (flush8_6 t)
    (View.emb_mem_set _ _)).trans (by rw [emb8_6]; rfl)

end Cert.KernelIdeal.Hand.Linear8Value
-- ==== Proof.Val.Sage678.lean ====
import proofs.«411563_j39152921870698_3_alg».proof.Proof.KI.RunOf
import proofs.«411563_j39152921870698_3_alg».proof.Proof.KI.Gather6Value
import proofs.«411563_j39152921870698_3_alg».proof.Proof.KI.Scatter7Value
import proofs.«411563_j39152921870698_3_alg».proof.Proof.KI.ScatterCnt1Value
import proofs.«411563_j39152921870698_3_alg».proof.Proof.KI.Linear8Value
import proofs.«411563_j39152921870698_3_alg».proof.Proof.Val.PrepPt
import proofs.«411563_j39152921870698_3_alg».proof.Proof.Val.HostCasts
import proofs.«411563_j39152921870698_3_alg».proof.Proof.Val.SageStage

set_option maxRecDepth 16384

noncomputable section

open scoped BigOperators

namespace Cert.Val.Sage678

open Idealize.ShloMosaic Idealize.ShloMosaic.TcCoe Idealize.ShloMosaic.ValueIdx
open Cert.KernelIdeal Cert.KernelIdeal.Gen Cert.KernelIdeal.Hand
open Cert.SageSpec Cert.Val.Core Cert.Val.Triple Cert.Val.SageStage
open Cert.KernelIdeal.Hand.LinearOps

variable (m : (ℓ : Loc nD τ sig) → Buf (Elt Ideal) ℓ) (c : Dev nD)

abbrev eiOf : Edges := m ((c : Thread nD τ).loc main_arg2)

abbrev xsOf : Feat := W26 m c main_v67

abbrev xdOf : Feat := W22 m c main_v63

abbrev wlOf : Wt := m ((c : Thread nD τ).loc main_arg10)
abbrev blOf : Bias := m ((c : Thread nD τ).loc main_arg11)
abbrev wrOf : Wt := m ((c : Thread nD τ).loc main_arg12)

theorem tab_eq (i : (⟨2, ![100000, 128]⟩ : Shape).Idx) : (W27 m c main_v68 : Feat) i = xsOf m c i :=
  congrFun (Cert.Val.HostCasts.s6_main_v68 (W26 m c)) i

theorem closed (hok : SrcOk (eiOf m c)) :
    (W30 m c main_v71 : Feat) = sage (xsOf m c) (xdOf m c) (eiOf m c) (wlOf m c) (blOf m c) (wrOf m c) := by
  obtain rfl := dev_eq c
  refine stage (eiOf m c₀) hok (xsOf m c₀) (xdOf m c₀) (wlOf m c₀) (wrOf m c₀) (blOf m c₀)
    (W27 m c₀ main_v28)
    (fun p => (congrFun (W27_at_main_v28 m c₀) (ix2 (0 : Fin 1) p)).trans (Prep.Pt.V19_main_v28 m c₀ p))
    (W27 m c₀ main_v68) (tab_eq m c₀)
    (W28 m c₀ main_v69)
    (fun p q => (congrFun (W28_main_v69 m c₀) (ix2 p q)).trans (arrAt_out6_row (Ve (W27 m)) c₀ p q))
    (W28 m c₀ main_v29)
    (fun p => (congrFun (W28_at_main_v29 m c₀) (ix2 (0 : Fin 1) p)).trans (Prep.Pt.V19_main_v29 m c₀ p))
    ((tbl7 m).1 0) ((tbl7 m).1 1)
    (fun e => (congrFun (congrFun (tbl7_val m) 0) (ValueIdx.ix1 e)).trans (Prep.Pt.V19_main_v24 m c₀ e))
    (fun e => (congrFun (congrFun (tbl7_val m) 1) (ValueIdx.ix1 e)).trans (Prep.Pt.V19_main_v27 m c₀ e))
    (W29 m c₀ main_v70)
    (agg_of_block_row (W28 m c₀ main_v69) (W28 m c₀ main_v29) ((tbl7 m).1 0) ((tbl7 m).1 1)
      (W29 m c₀ main_v70) fun j r q hn =>
        (congrFun (W29_main_v70 m c₀) (ix2 ⟨2000 * j.val + r.val, hn⟩ q)).trans
          (arrAt_out7 (Ve (W28 m)) (tbl7 m) c₀ j r q hn))
    (W20 m c₀ main_v29)
    (fun p => (congrFun (W20_at_main_v29 m c₀) (ix2 (0 : Fin 1) p)).trans (Prep.Pt.V19_main_v29 m c₀ p))
    ((tbl1 m).1 0) ((tbl1 m).1 1)
    (fun e => (congrFun (congrFun (tbl1_val m) 0) (ValueIdx.ix1 e)).trans (Prep.Pt.V19_main_v24 m c₀ e))
    (fun e => (congrFun (congrFun (tbl1_val m) 1) (ValueIdx.ix1 e)).trans (Prep.Pt.V19_main_v27 m c₀ e))
    (W29 m c₀ main_v62_1)
    (fun n => congrFun (((W29_at_main_v62_1 m c₀).trans (W21_main_v62_1 m c₀)).trans
      (ScatterCnt1.arrAt_cnt1 (Ve (W20 m)) (tbl1 m) c₀)) (ix2 (rowUp n) (0 : Fin 1)))
    (fun z => z) (W30 m c₀ main_v71) fun r f => ?_
  refine (congrFun (W30_main_v71 m c₀) (ix2 r f)).trans ?_
  refine (Linear8Value.arrAt_out8_apply (Ve (W29 m)) c₀ r f).trans ?_
  show dense (W29 m c₀ main_v70) (W29 m c₀ main_v62_1) (W29 m c₀ main_v63) (W29 m c₀ main_arg10)
      (W29 m c₀ main_arg11) (W29 m c₀ main_arg12) r f = _
  rw [W29_at_main_v63 m c₀, W29_at_main_arg10 m c₀, W29_at_main_arg11 m c₀, W29_at_main_arg12 m c₀]

end Cert.Val.Sage678

end
-- ==== Proof.KI.Gather9Value.lean ====
import proofs.«411563_j39152921870698_3_alg».proof.Proof.KI.Gather9
import proofs.«411563_j39152921870698_3_alg».proof.Proof.KI.GatherValue

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev tab9 (c : Dev nD) : Vec Ideal S100000x128 .bf16 := V c main_v72
abbrev idx9 (c : Dev nD) : Vec Ideal S1x600064 .i32 := V c main_v58

theorem index9_0 : ∀ t : Fin grid9.N, win9_0.index t 0 = 0 ∧ win9_0.index t 1 = 0 := by decide +kernel
theorem index9_1 : ∀ t : Fin grid9.N, win9_1.index t 0 = 0 ∧ win9_1.index t 1 = t.val := by decide +kernel
theorem index9_2 : ∀ t : Fin grid9.N, win9_2.index t 0 = t.val ∧ win9_2.index t 1 = 0 := by decide +kernel

theorem pos_lt9 (t : Fin cfg9.N) (l : Fin 2048) : 2048 * t.val + l.val < 600064 := by
  have ht : t.val < 293 := lt_of_lt_of_eq t.isLt N_9
  have hl := l.isLt
  omega

-- The table's one block is the table.
theorem iblk9_0_apply (c : Dev nD) (t : Fin cfg9.N) (n : Fin 100000) (f : Fin 128) :
    (iblk9 V c 0 t : Vec Ideal S100000x128 .bf16) (ix2 n f) = tab9 V c (ix2 n f) := by
  unfold iblk9
  rw [View.read_apply]
  refine congrArg (V c main_v72) (Shape.idx_ext₂ ?_ ?_)
  · show win9_0.index t 0 * 100000 + 1 * n.val = n.val; rw [(index9_0 t).1]; omega
  · show win9_0.index t 1 * 128 + 1 * f.val = f.val; rw [(index9_0 t).2]; omega

-- Block t of the index words is words 2048t … 2048t + 2047.
theorem iblk9_1_apply (c : Dev nD) (t : Fin cfg9.N) (l : Fin 2048) :
    (iblk9 V c 1 t : Vec Ideal S1x2048 .i32) (ix2 0 l) = idx9 V c (ix2 0 ⟨2048 * t.val + l.val, pos_lt9 t l⟩) := by
  unfold iblk9
  rw [View.read_apply]
  refine congrArg (V c main_v58) (Shape.idx_ext₂ ?_ ?_)
  · show win9_1.index t 0 * 1 + 1 * 0 = 0; rw [(index9_1 t).1]
  · show win9_1.index t 1 * 2048 + 1 * l.val = 2048 * t.val + l.val; rw [(index9_1 t).2]; omega

-- Block t of the result is rows 2048t … 2048t + 2047.
theorem emb9_2 (t : Fin cfg9.N) (l : Fin 2048) (f : Fin 128) :
    (((cfg9.win 2).blk t).view.emb (ix2 l f) : S600064x128.Idx) = ix2 ⟨2048 * t.val + l.val, pos_lt9 t l⟩ f := by
  refine Shape.idx_ext₂ ?_ ?_
  · show win9_2.index t 0 * 2048 + 1 * l.val = 2048 * t.val + l.val; rw [(index9_2 t).1]; omega
  · show win9_2.index t 1 * 128 + 1 * f.val = f.val; rw [(index9_2 t).2]; omega

-- What a point leaves in the result's block is that block of the gathered rows.
theorem flushed_eq9 (c : Dev nD) (t : Fin cfg9.N) (hf : (cfg9.win 2).flush t = true) :
    (dat9 (F := Ideal) V c).flushed 2 t = ((cfg9.win 2).blk t).view.read (Elt Ideal) (gathered (tab9 V c) (idx9 V c)) := by
  show (cfg9.win 2).cut (grid9.coords t) ((dat9 (F := Ideal) V c).after 2 t) = _
  rw [after9_2]
  refine funext fun (j : S2048x128.Idx) => ?_
  obtain ⟨l, f, rfl⟩ : ∃ (l : Fin 2048) (f : Fin 128), j = ix2 l f := ⟨j 0, j 1, eq_ix2 j⟩
  rw [View.read_apply, emb9_2]
  exact gatherBlock (tab9 V c) (idx9 V c) (iblk9 V c 0 t) (iblk9 V c 1 t) _ l f (fun n => iblk9_0_apply V c t n f) (iblk9_1_apply V c t l)

-- Every row of the result lies in some point's block.
theorem cover9 (c : Dev nD) (i : ((cfg9.win 2).arr.view.loc (c.tc : Thread nD τ)).2.ty.Idx) :
    ∃ t : Fin cfg9.N, (cfg9.win 2).flush t = true ∧ i ∈ ((cfg9.win 2).blk t).view.set := by
  have hi0 : (i 0).val < 600064 := (i 0).isLt
  have ht : (i 0).val / 2048 < cfg9.N := by rw [show cfg9.N = 293 from N_9]; omega
  have e : ((cfg9.win 2).blk ⟨(i 0).val / 2048, ht⟩).view.emb (ix2 ⟨(i 0).val % 2048, Nat.mod_lt _ (by decide)⟩ (i 1)) = i :=
    (emb9_2 ⟨(i 0).val / 2048, ht⟩ ⟨(i 0).val % 2048, Nat.mod_lt _ (by decide)⟩ (i 1)).trans
      (Shape.idx_ext₂ (by show 2048 * ((i 0).val / 2048) + (i 0).val % 2048 = (i 0).val; omega) rfl)
  exact ⟨⟨(i 0).val / 2048, ht⟩, flush9_2 _, Eq.subst (motive := (· ∈ ((cfg9.win 2).blk ⟨(i 0).val / 2048, ht⟩).view.set)) e (View.emb_mem_set _ _)⟩

-- The region's result: row p is the table's row that index word p names (read signed), zero when it names none.
theorem arrAt_out9_row (c : Dev nD) (p : Fin 600064) (q : Fin 128) :
    ((dat9 (F := Ideal) V c).arrAt 2 cfg9.N : Vec Ideal S600064x128 .bf16) (ix2 p q)
      = if h : 0 ≤ (idx9 V c (ix2 0 p) : BitVec 32).toInt ∧ (idx9 V c (ix2 0 p) : BitVec 32).toInt < 100000
          then (tab9 V c (ix2 ⟨(idx9 V c (ix2 0 p) : BitVec 32).toInt.toNat, Cert.Val.Core.toNat_lt h⟩ q) : EReal) else 0 := by
  rw [(dat9 (F := Ideal) V c).arrAt_eq_of_cover 2 (gathered (tab9 V c) (idx9 V c)) (flushed_eq9 V c) (cover9 c)]
  exact gathered_apply _ _ p q

end Cert.KernelIdeal.Hand

end
-- ==== Proof.KI.Scatter10Value.lean ====
import proofs.«411563_j39152921870698_3_alg».proof.Proof.KI.Scatter10Dat
import proofs.«411563_j39152921870698_3_alg».proof.Proof.KI.Scatter7Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section ValueS

open Idealize.ShloMosaic.ValueIdx

theorem k10_pay1_apply (i : S2000x128.Idx) : k10_pay1 (F := Ideal) i = 0 := k7_pay1_apply i

variable (V : (c : Dev nD) → (b : Ref sig .tc) → Buf (Elt Ideal) ((c : Thread nD τ).loc b))

abbrev msgArr10 (c : Dev nD) : Vec Ideal S600064x128 .bf16 := V c main_v73
abbrev idxArr10 (c : Dev nD) : Vec Ideal S1x600064 .i32 := V c main_v59

def M10 (a : (pcfg10 (F := Ideal)).Adm) (c : Dev nD) (n : ℕ) (y : S2000x128.Idx) : EReal :=
  if h : n < (cfg10 a).N then
    if guard10 a c ⟨n, h⟩ then
      ∑ l : Fin 2048, (if BitVec.ofNat 32 (grid10.coords ⟨n, h⟩ 0).val * 2000#32 + BitVec.ofNat 32 (y 0).val = idxBlk10 V a c ⟨n, h⟩ (ix2 0 l)
        then msgBlk10 V a c ⟨n, h⟩ (ix2 l (y 1)) else 0)
    else 0
  else 0

theorem stepN10_apply (a : (pcfg10 (F := Ideal)).Adm) (c : Dev nD) (n : ℕ) (s : Vec Ideal S2000x128 .f32) (y : S2000x128.Idx) :
    stepN10 V a c n s y = s y + M10 V a c n y := by
  unfold stepN10 M10
  by_cases h : n < (cfg10 a).N
  · rw [dif_pos h, dif_pos h]; unfold step10
    by_cases g : guard10 a c ⟨n, h⟩
    · rw [if_pos g, if_pos g]
      obtain ⟨r, q, rfl⟩ : ∃ (r : Fin 2000) (q : Fin 128), y = ix2 r q := ⟨y 0, y 1, eq_ix2 y⟩
      exact k7_pay2_apply _ _ _ _ r q
    · rw [if_neg g, if_neg g, add_zero]
  · rw [dif_neg h, dif_neg h, add_zero]

theorem sAfter10_apply (a : (pcfg10 (F := Ideal)).Adm) (c : Dev nD) (t : ℕ) (ht : t < (cfg10 a).N) (y : S2000x128.Idx) :
    sAfter10 V a c t y = ∑ s ∈ Finset.range (t % 293 + 1), M10 V a c (293 * (t / 293) + s) y := by
  have hlt : 293 * (t / 293) + t % 293 < (cfg10 a).N := by rw [Nat.div_add_mod]; exact ht
  have h := Pipeline.eq_accAt_of_mod (N := (cfg10 a).N) (fun n _ => sAfter10 V a c n) 293
    (fun n _ => stepN10 V a c n (k10_pay1 (F := Ideal))) (fun n _ s => stepN10 V a c n s)
    (fun n _ hn => sAfter10_reset V a c n hn)
    (fun n _ hn => sAfter10_step V a c (n + 1) hn)
    (by decide) t ht hlt
  rw [h]
  have h2 := Pipeline.accAt_add_apply (N := (cfg10 a).N) (fun n _ => stepN10 V a c n (k10_pay1 (F := Ideal))) (fun n _ s => stepN10 V a c n s)
    (fun _ => (0 : EReal)) (M10 V a c) (293 * (t / 293)) 292
    (fun _ i => by rw [stepN10_apply, k10_pay1_apply])
    (fun n _ acc i _ _ => stepN10_apply V a c n acc i)
    (t % 293) (by omega) hlt y
  rw [h2, zero_add]

theorem tr10_0 (t : Fin grid10.N) : cc10_transform_0 (grid10.coords t) = ![t.val % 293, 0] := by
  have h : (BitVec.ofNat 32 (grid10.coords t 1).val).toNat = t.val % 293 := by
    rw [BitVec.toNat_ofNat, coords10_1]; exact Nat.mod_eq_of_lt (by omega)
  show ![(BitVec.ofNat 32 (grid10.coords t 1).val).toNat, (0#32 : BitVec 32).toNat] = _
  rw [h]; rfl
theorem tr10_1 (t : Fin grid10.N) : cc10_transform_1 (grid10.coords t) = ![0, t.val % 293] := by
  have h : (BitVec.ofNat 32 (grid10.coords t 1).val).toNat = t.val % 293 := by
    rw [BitVec.toNat_ofNat, coords10_1]; exact Nat.mod_eq_of_lt (by omega)
  show ![(0#32 : BitVec 32).toNat, (BitVec.ofNat 32 (grid10.coords t 1).val).toNat] = _
  rw [h]; rfl

theorem lt_idx10 (e : Fin 293) (l : Fin 2048) : 2048 * e.val + l.val < 600064 := by
  have := e.isLt; have := l.isLt; omega

set_option maxHeartbeats 1000000 in
theorem msgBlk10_apply (a : (pcfg10 (F := Ideal)).Adm) (c : Dev nD) (t : Fin (cfg10 a).N) (e : Fin 293) (he : t.val % 293 = e.val)
    (l : Fin 2048) (q : Fin 128) :
    msgBlk10 V a c t (ix2 l q) = msgArr10 V c (ix2 ⟨2048 * e.val + l.val, lt_idx10 e l⟩ q) := by
  show iblk10 V a c 0 t (ix2 l q) = _
  unfold iblk10
  show V c main_v73 ((((cfg10 a).win 0).blk t).view.emb (ix2 l q)) = V c main_v73 _
  congr 1
  funext b; apply Fin.ext
  match b with
  | ⟨0, _⟩ =>
    show cc10_transform_0 (grid10.coords t) 0 * 2048 + 1 * l.val = 2048 * e.val + l.val
    rw [tr10_0]; show t.val % 293 * 2048 + 1 * l.val = _; omega
  | ⟨1, _⟩ =>
    show cc10_transform_0 (grid10.coords t) 1 * 128 + 1 * q.val = q.val
    rw [tr10_0]; show 0 * 128 + 1 * q.val = q.val; omega

set_option maxHeartbeats 1000000 in
theorem idxBlk10_apply (a : (pcfg10 (F := Ideal)).Adm) (c : Dev nD) (t : Fin (cfg10 a).N) (e : Fin 293) (he : t.val % 293 = e.val)
    (l : Fin 2048) :
    idxBlk10 V a c t (ix2 0 l) = idxArr10 V c (ix2 0 ⟨2048 * e.val + l.val, lt_idx10 e l⟩) := by
  show iblk10 V a c 1 t (ix2 0 l) = _
  unfold iblk10
  show V c main_v59 ((((cfg10 a).win 1).blk t).view.emb (ix2 0 l)) = V c main_v59 _
  congr 1
  funext b; apply Fin.ext
  match b with
  | ⟨0, _⟩ =>
    show cc10_transform_1 (grid10.coords t) 0 * 1 + 1 * 0 = 0
    rw [tr10_1]; show 0 * 1 + 1 * 0 = 0; omega
  | ⟨1, _⟩ =>
    show cc10_transform_1 (grid10.coords t) 1 * 2048 + 1 * l.val = 2048 * e.val + l.val
    rw [tr10_1]; show t.val % 293 * 2048 + 1 * l.val = _; omega

theorem lo10_eq (a : (pcfg10 (F := Ideal)).Adm) (c : Dev nD) (t : Fin (cfg10 a).N) (e : Fin 293) (he : t.val % 293 = e.val) :
    lo10 a c t = a.1 0 (ValueIdx.ix1 e) := by
  show (a.1 0) _ = (a.1 0) _
  refine congrArg (a.1 0) ?_
  funext b; apply Fin.ext
  match b with
  | ⟨0, _⟩ =>
    show (BitVec.ofNat 32 (grid10.coords t 1).val).toNat + 1 * 0 = e.val
    rw [BitVec.toNat_ofNat, coords10_1, he, Nat.mod_eq_of_lt (lt_trans e.isLt (by decide))]; omega
theorem hi10_eq (a : (pcfg10 (F := Ideal)).Adm) (c : Dev nD) (t : Fin (cfg10 a).N) (e : Fin 293) (he : t.val % 293 = e.val) :
    hi10 a c t = a.1 1 (ValueIdx.ix1 e) := by
  show (a.1 1) _ = (a.1 1) _
  refine congrArg (a.1 1) ?_
  funext b; apply Fin.ext
  match b with
  | ⟨0, _⟩ =>
    show (BitVec.ofNat 32 (grid10.coords t 1).val).toNat + 1 * 0 = e.val
    rw [BitVec.toNat_ofNat, coords10_1, he, Nat.mod_eq_of_lt (lt_trans e.isLt (by decide))]; omega

theorem idx10_2 (a : (pcfg10 (F := Ideal)).Adm) (t : Fin (cfg10 a).N) : ((cfg10 a).win 2).index t = ![t.val / 293, 0] := by
  show cc10_transform_2 (grid10.coords t) = _
  rw [tr10_2, coords10_0]

theorem disjoint10_2 (a : (pcfg10 (F := Ideal)).Adm) : ∀ t t' : Fin (cfg10 a).N, ((cfg10 a).win 2).flush t = true → ((cfg10 a).win 2).flush t' = true → t ≠ t' →
    Disjoint (((cfg10 a).win 2).blk t).view.set (((cfg10 a).win 2).blk t').view.set := fun t t' hf hf' hne =>
  ((cfg10 a).win 2).disjoint_blk fun h => hne (Fin.ext (by
    have h1 := (flush10_2 a t).mp hf
    have h2 := (flush10_2 a t').mp hf'
    rw [idx10_2, idx10_2] at h
    have h0 : t.val / 293 = t'.val / 293 := congrFun h 0
    omega))

set_option maxHeartbeats 2000000 in
theorem arrAt_out10_M (a : (pcfg10 (F := Ideal)).Adm) (c : Dev nD) (j : Fin 51) (r : Fin 2000) (q : Fin 128) (hn : 2000 * j.val + r.val < 102000) :
    ((dat10 V a c).arrAt 2 (cfg10 a).N (ix2 ⟨2000 * j.val + r.val, hn⟩ q) : EReal) = ∑ e : Fin 293, M10 V a c (293 * j.val + e.val) (ix2 r q) := by
  have hN : (cfg10 a).N = 14943 := N_10
  have hj := j.isLt
  have htl : 293 * j.val + 292 < (cfg10 a).N := by rw [hN]; omega
  have hf : ((cfg10 a).win 2).flush ⟨293 * j.val + 292, htl⟩ = true := (flush10_2 a ⟨293 * j.val + 292, htl⟩).mpr (by show (293 * j.val + 292) % 293 = 292; omega)
  have hemb : (((cfg10 a).win 2).blk ⟨293 * j.val + 292, htl⟩).view.emb (ix2 r q) = ix2 ⟨2000 * j.val + r.val, hn⟩ q := by
    funext b; apply Fin.ext
    match b with
    | ⟨0, _⟩ =>
      show cc10_transform_2 (grid10.coords ⟨293 * j.val + 292, htl⟩) 0 * 2000 + 1 * r.val = 2000 * j.val + r.val
      rw [tr10_2, coords10_0]; show (293 * j.val + 292) / 293 * 2000 + 1 * r.val = _; omega
    | ⟨1, _⟩ =>
      show cc10_transform_2 (grid10.coords ⟨293 * j.val + 292, htl⟩) 1 * 128 + 1 * q.val = q.val
      rw [tr10_2]; show 0 * 128 + 1 * q.val = q.val; omega
  rw [← hemb, (dat10 V a c).arrAt_emb_eq_flushed 2 (disjoint10_2 a) ⟨293 * j.val + 292, htl⟩ hf (ix2 r q)]
  show (dat10 V a c).after 2 ⟨293 * j.val + 292, htl⟩ (ix2 r q) = _
  rw [after10_2, sAfter10_apply V a c (293 * j.val + 292) htl]
  rw [show (293 * j.val + 292) % 293 + 1 = 293 from by omega, show (293 * j.val + 292) / 293 = j.val from by omega, Finset.sum_range]

set_option maxHeartbeats 1000000 in
theorem M10_eq (a : (pcfg10 (F := Ideal)).Adm) (c : Dev nD) (j : Fin 51) (e : Fin 293) (r : Fin 2000) (q : Fin 128) :
    M10 V a c (293 * j.val + e.val) (ix2 r q)
      = if guardW10 j.val (a.1 0 (ValueIdx.ix1 e)) (a.1 1 (ValueIdx.ix1 e)) then
          ∑ l : Fin 2048, (if BitVec.ofNat 32 j.val * 2000#32 + BitVec.ofNat 32 r.val = idxArr10 V c (ix2 0 ⟨2048 * e.val + l.val, lt_idx10 e l⟩)
            then msgArr10 V c (ix2 ⟨2048 * e.val + l.val, lt_idx10 e l⟩ q) else 0)
        else 0 := by
  have hN : (cfg10 a).N = 14943 := N_10
  have hj := j.isLt
  have he := e.isLt
  have hlt : 293 * j.val + e.val < (cfg10 a).N := by rw [hN]; omega
  have hmod : (⟨293 * j.val + e.val, hlt⟩ : Fin (cfg10 a).N).val % 293 = e.val := by show (293 * j.val + e.val) % 293 = e.val; omega
  have hc0 : (grid10.coords ⟨293 * j.val + e.val, hlt⟩ 0).val = j.val := by
    rw [coords10_0]; show (293 * j.val + e.val) / 293 = j.val; omega
  unfold M10
  rw [dif_pos hlt]
  show (if guardW10 (grid10.coords ⟨293 * j.val + e.val, hlt⟩ 0).val (lo10 a c ⟨293 * j.val + e.val, hlt⟩) (hi10 a c ⟨293 * j.val + e.val, hlt⟩) then _ else _) = _
  rw [hc0, lo10_eq a c _ e hmod, hi10_eq a c _ e hmod]
  refine if_congr Iff.rfl (Finset.sum_congr rfl fun l _ => ?_) rfl
  rw [idxBlk10_apply V a c _ e hmod l, msgBlk10_apply V a c _ e hmod l]

abbrev aggOf10 (a : (pcfg10 (F := Ideal)).Adm) (c : Dev nD) : Vec Ideal S102000x128 .f32 := (dat10 V a c).arrAt 2 (cfg10 a).N

theorem arrAt_out10 (a : (pcfg10 (F := Ideal)).Adm) (c : Dev nD) (j : Fin 51) (r : Fin 2000) (q : Fin 128) (hn : 2000 * j.val + r.val < 102000) :
    aggOf10 V a c (ix2 ⟨2000 * j.val + r.val, hn⟩ q)
      = (∑ e : Fin 293, (if guardW10 j.val (a.1 0 (ValueIdx.ix1 e)) (a.1 1 (ValueIdx.ix1 e)) then
          ∑ l : Fin 2048, (if BitVec.ofNat 32 j.val * 2000#32 + BitVec.ofNat 32 r.val = idxArr10 V c (ix2 0 ⟨2048 * e.val + l.val, lt_idx10 e l⟩)
            then msgArr10 V c (ix2 ⟨2048 * e.val + l.val, lt_idx10 e l⟩ q) else 0)
        else 0) : EReal) := by
  have h2 : (∑ e : Fin 293, M10 V a c (293 * j.val + e.val) (ix2 r q))
      = ∑ e : Fin 293, (if guardW10 j.val (a.1 0 (ValueIdx.ix1 e)) (a.1 1 (ValueIdx.ix1 e)) then
          ∑ l : Fin 2048, (if BitVec.ofNat 32 j.val * 2000#32 + BitVec.ofNat 32 r.val = idxArr10 V c (ix2 0 ⟨2048 * e.val + l.val, lt_idx10 e l⟩)
            then msgArr10 V c (ix2 ⟨2048 * e.val + l.val, lt_idx10 e l⟩ q) else 0)
        else 0) := Finset.sum_congr rfl fun e _ => M10_eq V a c j e r q
  exact (arrAt_out10_M V a c j r q hn).trans h2

end ValueS

end Cert.KernelIdeal.Hand

end
-- ==== Proof.KI.Linear11Value.lean ====
import proofs.«411563_j39152921870698_3_alg».proof.Proof.KI.Linear11
import proofs.«411563_j39152921870698_3_alg».proof.Proof.KI.LinearOps

set_option maxRecDepth 16384

noncomputable section

open scoped BigOperators

namespace Cert.KernelIdeal.Hand.Linear11Value

open Cert.KernelIdeal Cert.KernelIdeal.Gen Cert.KernelIdeal.Hand Cert.KernelIdeal.Hand.LinearOps
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev agg11 (c : Dev nD) : Vec Ideal S102000x128 .f32 := V c main_v74
abbrev cnt11 (c : Dev nD) : Vec Ideal S102000x1 .f32 := V c main_v66_1
abbrev xin11 (c : Dev nD) : Vec Ideal S100000x128 .f32 := V c main_v67
abbrev wl11 (c : Dev nD) : Vec Ideal S128x128 .f32 := V c main_arg13
abbrev bl11 (c : Dev nD) : Vec Ideal S128 .f32 := V c main_arg14
abbrev wr11 (c : Dev nD) : Vec Ideal S128x128 .f32 := V c main_arg15

def outG11 (c : Dev nD) : Vec Ideal S100000x128 .f32 := fun i =>
  dense (agg11 V c) (cnt11 V c) (xin11 V c) (wl11 V c) (bl11 V c) (wr11 V c) ⟨(i 0).val, (i 0).isLt⟩ ⟨(i 1).val, (i 1).isLt⟩

theorem N11_eq : cfg11.N = 20 := by decide

def row11 (t : Fin cfg11.N) (p : Fin 5000) : Fin 100000 :=
  ⟨5000 * t.val + p.val, by have := t.isLt; have := p.isLt; have h := N11_eq; omega⟩

theorem idx11_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 1) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

-- Row p of block t is row 5000 t + p of the array.
theorem sblk11_0_apply (c : Dev nD) (t : Fin cfg11.N) (p : Fin 5000) (k : Fin 128) :
    sblk11_0 V c t (ix2 p k) = agg11 V c (ix2 (rowUp (row11 t p)) k) := by
  have hm := moved_of_uncut (cfg11.win 0) _ (uncut11_0 t) (ix2 p k)
  obtain ⟨e0, e1, -⟩ := idx11_facts t
  unfold sblk11_0 Pipeline.Window.fill
  rw [dif_pos hm]
  show V c main_v74 (((cfg11.win 0).blk t).view.emb _) = V c main_v74 _
  exact congrArg (V c main_v74) (Shape.idx_ext₂ (row_ix e0) (col_ix e1))

theorem sblk11_1_apply (c : Dev nD) (t : Fin cfg11.N) (p : Fin 5000) :
    sblk11_1 V c t (ix2 p (0 : Fin 1)) = cnt11 V c (ix2 (rowUp (row11 t p)) (0 : Fin 1)) := by
  have hm := moved_of_uncut (cfg11.win 1) _ (uncut11_1 t) (ix2 p (0 : Fin 1))
  obtain ⟨-, -, e0, e1, -⟩ := idx11_facts t
  unfold sblk11_1 Pipeline.Window.fill
  rw [dif_pos hm]
  show V c main_v66_1 (((cfg11.win 1).blk t).view.emb _) = V c main_v66_1 _
  exact congrArg (V c main_v66_1) (Shape.idx_ext₂ (row_ix e0) (col_ix e1))

theorem iblk11_2_apply (c : Dev nD) (t : Fin cfg11.N) (p : Fin 5000) (k : Fin 128) :
    iblk11 V c 2 t (ix2 p k) = xin11 V c (ix2 (row11 t p) k) := by
  obtain ⟨-, -, -, -, e0, e1, -⟩ := idx11_facts t
  show V c main_v67 (((cfg11.win 2).blk t).view.emb (ix2 p k)) = V c main_v67 _
  exact congrArg (V c main_v67) (Shape.idx_ext₂ (row_ix e0) (col_ix e1))

-- Blocks 3, 4 and 5 are the whole arrays.
theorem iblk11_3_apply (c : Dev nD) (t : Fin cfg11.N) (f k : Fin 128) :
    iblk11 V c 3 t (ix2 f k) = wl11 V c (ix2 f k) := by
  obtain ⟨-, -, -, -, -, -, e0, e1, -⟩ := idx11_facts t
  show V c main_arg13 (((cfg11.win 3).blk t).view.emb (ix2 f k)) = V c main_arg13 _
  exact congrArg (V c main_arg13) (Shape.idx_ext₂ (col_ix e0) (col_ix e1))

theorem iblk11_4_apply (c : Dev nD) (t : Fin cfg11.N) (f : Fin 128) :
    iblk11 V c 4 t (ValueIdx.ix1 f) = bl11 V c (ValueIdx.ix1 f) := by
  obtain ⟨-, -, -, -, -, -, -, -, e0, -⟩ := idx11_facts t
  show V c main_arg14 (((cfg11.win 4).blk t).view.emb (ValueIdx.ix1 f)) = V c main_arg14 _
  exact congrArg (V c main_arg14) (funext fun a => Fin.ext (match a with
    | ⟨0, _⟩ => col_ix e0))

theorem iblk11_5_apply (c : Dev nD) (t : Fin cfg11.N) (f k : Fin 128) :
    iblk11 V c 5 t (ix2 f k) = wr11 V c (ix2 f k) := by
  obtain ⟨-, -, -, -, -, -, -, -, -, e0, e1, -⟩ := idx11_facts t
  show V c main_arg15 (((cfg11.win 5).blk t).view.emb (ix2 f k)) = V c main_arg15 _
  exact congrArg (V c main_arg15) (Shape.idx_ext₂ (col_ix e0) (col_ix e1))

-- Entry (p, q) of point t's block of the result lies at row 5000 t + p, column q of the array.
theorem emb11_6 (t : Fin cfg11.N) (p : Fin 5000) (q : Fin 128) :
    ((cfg11.win 6).blk t).view.emb (ix2 p q) = ix2 (row11 t p) q := by
  obtain ⟨-, -, -, -, -, -, -, -, -, -, -, e0, e1⟩ := idx11_facts t
  exact Shape.idx_ext₂ (row_ix e0) (col_ix e1)

-- Block t of the result is block t of the closed form.
theorem flushed11_eq (c : Dev nD) (t : Fin cfg11.N) :
    (dat11 V c).flushed 6 t = ((cfg11.win 6).blk t).view.read (Elt Ideal) (outG11 V c) := by
  show (cfg11.win 6).cut (grid11.coords t) ((dat11 V c).after 6 t) = _
  rw [after11_6]
  unfold out11_6
  rw [View.canon_unit_zero zeros_two]
  simp only [View.ld_unit_zero (S := S5000x128) zeros_two, View.ld_unit_zero (S := S5000x1) zeros_two,
    View.ld_unit_zero (S := S128x128) zeros_two, View.ld_unit_zero (S := S128) zeros_one]
  funext j
  obtain ⟨p, q, rfl⟩ : ∃ (p : Fin 5000) (q : Fin 128), j = ix2 p q := ⟨j 0, j 1, eq_ix2 j⟩
  show k11_pay1 (F := Ideal) _ _ _ _ _ _ (ix2 p q) = outG11 V c (((cfg11.win 6).blk t).view.emb (ix2 p q))
  rw [emb11_6]
  refine (pay_apply _ _ _ _ _ _ p q).trans ?_
  simp only [sblk11_0_apply, sblk11_1_apply, iblk11_2_apply, iblk11_3_apply, iblk11_4_apply, iblk11_5_apply]
  rfl

-- Row r is row r % 5000 of block r / 5000.
theorem arrAt_out11_apply (c : Dev nD) (r : Fin 100000) (f : Fin 128) :
    (dat11 V c).arrAt 6 cfg11.N (ix2 r f)
      = dense (agg11 V c) (cnt11 V c) (xin11 V c) (wl11 V c) (bl11 V c) (wr11 V c) r f := by
  have ht : r.val / 5000 < cfg11.N := by have := r.isLt; have := N11_eq; omega
  obtain ⟨t, p, rfl⟩ : ∃ t p, r = row11 t p :=
    ⟨⟨r.val / 5000, ht⟩, ⟨r.val % 5000, Nat.mod_lt _ (by decide)⟩,
      Fin.ext (by show r.val = 5000 * (r.val / 5000) + r.val % 5000; omega)⟩
  rw [← emb11_6]
  exact ((dat11 V c).arrAt_apply_of_mem 6 (outG11 V c) (fun t _ => flushed11_eq V c t) cfg11.N t _ t.isLt (flush11_6 t)
    (View.emb_mem_set _ _)).trans (by rw [emb11_6]; rfl)

end Cert.KernelIdeal.Hand.Linear11Value
-- ==== Proof.Val.Sage91011.lean ====
import proofs.«411563_j39152921870698_3_alg».proof.Proof.KI.RunOf
import proofs.«411563_j39152921870698_3_alg».proof.Proof.KI.Gather9Value
import proofs.«411563_j39152921870698_3_alg».proof.Proof.KI.Scatter10Value
import proofs.«411563_j39152921870698_3_alg».proof.Proof.KI.ScatterCnt4Value
import proofs.«411563_j39152921870698_3_alg».proof.Proof.KI.Linear11Value
import proofs.«411563_j39152921870698_3_alg».proof.Proof.Val.PrepTp
import proofs.«411563_j39152921870698_3_alg».proof.Proof.Val.HostCasts
import proofs.«411563_j39152921870698_3_alg».proof.Proof.Val.SageStage

set_option maxRecDepth 16384

noncomputable section

open scoped BigOperators

namespace Cert.Val.Sage91011

open Idealize.ShloMosaic Idealize.ShloMosaic.TcCoe Idealize.ShloMosaic.ValueIdx
open Cert.KernelIdeal Cert.KernelIdeal.Gen Cert.KernelIdeal.Hand
open Cert.SageSpec Cert.Val.Core Cert.Val.Triple Cert.Val.SageStage
open Cert.KernelIdeal.Hand.LinearOps

variable (m : (ℓ : Loc nD τ sig) → Buf (Elt Ideal) ℓ) (c : Dev nD)

abbrev eiOf : Edges := m ((c : Thread nD τ).loc main_arg3)

abbrev xsOf : Feat := W22 m c main_v63

abbrev xdOf : Feat := W26 m c main_v67

abbrev wlOf : Wt := m ((c : Thread nD τ).loc main_arg13)
abbrev blOf : Bias := m ((c : Thread nD τ).loc main_arg14)
abbrev wrOf : Wt := m ((c : Thread nD τ).loc main_arg15)

theorem tab_eq (i : (⟨2, ![100000, 128]⟩ : Shape).Idx) : (W31 m c main_v72 : Feat) i = xsOf m c i :=
  (congrFun (Cert.Val.HostCasts.s9_main_v72 (W30 m c)) i).trans (congrFun (W30_at_main_v63 m c) i)

theorem closed (hok : SrcOk (eiOf m c)) :
    (W34 m c main_v75 : Feat) = sage (xsOf m c) (xdOf m c) (eiOf m c) (wlOf m c) (blOf m c) (wrOf m c) := by
  obtain rfl := dev_eq c
  refine stage (eiOf m c₀) hok (xsOf m c₀) (xdOf m c₀) (wlOf m c₀) (wrOf m c₀) (blOf m c₀)
    (W31 m c₀ main_v58)
    (fun p => (congrFun (W31_at_main_v58 m c₀) (ix2 (0 : Fin 1) p)).trans (Prep.Tp.V19_main_v58 m c₀ p))
    (W31 m c₀ main_v72) (tab_eq m c₀)
    (W32 m c₀ main_v73)
    (fun p q => (congrFun (W32_main_v73 m c₀) (ix2 p q)).trans (arrAt_out9_row (Ve (W31 m)) c₀ p q))
    (W32 m c₀ main_v59)
    (fun p => (congrFun (W32_at_main_v59 m c₀) (ix2 (0 : Fin 1) p)).trans (Prep.Tp.V19_main_v59 m c₀ p))
    ((tbl10 m).1 0) ((tbl10 m).1 1)
    (fun e => (congrFun (congrFun (tbl10_val m) 0) (ValueIdx.ix1 e)).trans (Prep.Tp.V19_main_v54 m c₀ e))
    (fun e => (congrFun (congrFun (tbl10_val m) 1) (ValueIdx.ix1 e)).trans (Prep.Tp.V19_main_v57 m c₀ e))
    (W33 m c₀ main_v74)
    (agg_of_block_row (W32 m c₀ main_v73) (W32 m c₀ main_v59) ((tbl10 m).1 0) ((tbl10 m).1 1)
      (W33 m c₀ main_v74) fun j r q hn =>
        (congrFun (W33_main_v74 m c₀) (ix2 ⟨2000 * j.val + r.val, hn⟩ q)).trans
          (arrAt_out10 (Ve (W32 m)) (tbl10 m) c₀ j r q hn))
    (W24 m c₀ main_v59)
    (fun p => (congrFun (W24_at_main_v59 m c₀) (ix2 (0 : Fin 1) p)).trans (Prep.Tp.V19_main_v59 m c₀ p))
    ((tbl4 m).1 0) ((tbl4 m).1 1)
    (fun e => (congrFun (congrFun (tbl4_val m) 0) (ValueIdx.ix1 e)).trans (Prep.Tp.V19_main_v54 m c₀ e))
    (fun e => (congrFun (congrFun (tbl4_val m) 1) (ValueIdx.ix1 e)).trans (Prep.Tp.V19_main_v57 m c₀ e))
    (W33 m c₀ main_v66_1)
    (fun n => congrFun (((W33_at_main_v66_1 m c₀).trans (W25_main_v66_1 m c₀)).trans
      (ScatterCnt4.arrAt_cnt4 (Ve (W24 m)) (tbl4 m) c₀)) (ix2 (rowUp n) (0 : Fin 1)))
    (fun z => z) (W34 m c₀ main_v75) fun r f => ?_
  refine (congrFun (W34_main_v75 m c₀) (ix2 r f)).trans ?_
  refine (Linear11Value.arrAt_out11_apply (Ve (W33 m)) c₀ r f).trans ?_
  show dense (W33 m c₀ main_v74) (W33 m c₀ main_v66_1) (W33 m c₀ main_v67) (W33 m c₀ main_arg13)
      (W33 m c₀ main_arg14) (W33 m c₀ main_arg15) r f = _
  rw [W33_at_main_v67 m c₀, W33_at_main_arg13 m c₀, W33_at_main_arg14 m c₀, W33_at_main_arg15 m c₀]

end Cert.Val.Sage91011

end
-- ==== Proof.Val.KernelClosed.lean ====
import proofs.«411563_j39152921870698_3_alg».proof.Proof.KI.RunOf
import proofs.«411563_j39152921870698_3_alg».proof.Proof.Val.Sage012
import proofs.«411563_j39152921870698_3_alg».proof.Proof.Val.Sage345
import proofs.«411563_j39152921870698_3_alg».proof.Proof.Val.Sage678
import proofs.«411563_j39152921870698_3_alg».proof.Proof.Val.Sage91011

set_option maxRecDepth 16384

noncomputable section

namespace Cert.Val.KernelClosed

open Idealize.ShloMosaic Idealize.ShloMosaic.TcCoe Idealize.ShloMosaic.ValueIdx
open Cert.KernelIdeal Cert.KernelIdeal.Gen Cert.KernelIdeal.Hand
open Cert.SageSpec

variable (m : (ℓ : Loc nD τ sig) → Buf (Elt Ideal) ℓ) (c : Dev nD)

-- The four region triples are the four convolutions; the second layer reads the first layer's two results.
theorem kernel_closed (h2 : SrcOk (V0 m c main_arg2)) (h3 : SrcOk (V0 m c main_arg3)) :
    (Wlast m c main_v75 : Feat)
        = oPlayer (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg13) (V0 m c main_arg14) (V0 m c main_arg15)
      ∧ (Wlast m c main_v71 : Feat)
        = oTeam (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) := by
  refine ⟨(Sage91011.closed m c h3).trans ?_,
    ((Wlast_main_v71 m c).trans (W30_main_v71 m c).symm).trans ((Sage678.closed m c h2).trans ?_)⟩
  · show sage (W22 m c main_v63) (W26 m c main_v67) _ _ _ _ = _
    rw [Sage012.closed m c h2, Sage345.closed m c h3]
    rfl
  · show sage (W26 m c main_v67) (W22 m c main_v63) _ _ _ _ = _
    rw [Sage345.closed m c h3, Sage012.closed m c h2]
    rfl

end Cert.Val.KernelClosed

end
-- ==== Proof.Val.PreDecode.lean ====
import proofs.«411563_j39152921870698_3_alg».proof.Defs
import proofs.«411563_j39152921870698_3_alg».proof.Proof.Val.SageSpec
import Idealize.ShloMosaic.Lib.ReduceAll
import Idealize.ShloMosaic.Lib.Pipeline.Value

noncomputable section

namespace Cert.Val.PreDecode

open Idealize.ShloMosaic Idealize.ShloMosaic.ValueIdx Cert.SageSpec Cert.Pre_finite_inputs

instance : Subsingleton S_.Idx := ⟨fun a b => funext fun d => d.elim0⟩

theorem andi_at {s : Shape} (X Y : IVec s 1) (i : s.Idx) :
    Idealize.ShloMosaic.andi X Y i = 1#1 ↔ X i = 1#1 ∧ Y i = 1#1 :=
  IntOp.andi_eq_one

variable [hF : Cert.Pre_finite_inputs.Facts]

theorem row0_at (a : IVec S2x600000 32) (e : Fin 600000) :
    shapeCast S600000 (extractStridedSlice S1x600000 ![0, 0] a hF.slices_S2x600000_S1x600000_0_0)
        hF.shapeCasts_S1x600000_S600000 (ix1 e)
      = a (ix2 (0 : Fin 2) e) := by
  refine (shapeCast_apply _ _ (ix1 e) (ix2 (0 : Fin 1) e) (by
    rw [Shape.rowMajor_val_two, Shape.rowMajor_val_one]; show 0 * 600000 + e.val = e.val; omega)).trans ?_
  exact extractStridedSlice_apply _ _ _ (ix2 (0 : Fin 1) e) (ix2 (0 : Fin 2) e) (by
    intro d
    match d with
    | ⟨0, _⟩ => rfl
    | ⟨1, _⟩ => show e.val = 0 + e.val; omega)

theorem cmp_of_all (p : CmpIPredicate) (a : IVec S2x600000 32) (k : BitVec 32)
    (h : Host.reduce IntOp.andi
        (cmpi p
          (shapeCast S600000 (extractStridedSlice S1x600000 ![0, 0] a hF.slices_S2x600000_S1x600000_0_0)
            hF.shapeCasts_S1x600000_S600000)
          (broadcastInDim S600000 ![] hF.bcast_S_S600000 (constantI S_ 32 k)))
        (constantI S_ 1 1#1) hF.reducesTo_S600000_S_d0 hF.h_S_ ix0 = 1#1)
    (e : Fin 600000) : IntOp.cmpi p (a (ix2 (0 : Fin 2) e)) k = 1#1 :=
  (congrArg (fun w => IntOp.cmpi p w k) (row0_at a e)).symm.trans (Host.reduce_andi_all _ _ _ _ _ h (ix1 e))

theorem toInt_zero32 : (0#32 : BitVec 32).toInt = 0 := by decide

theorem toInt_node32 : (100000#32 : BitVec 32).toInt = 100000 := by decide

theorem part4_srcOk {F : FTy → Type} [FloatOps F] (a2 a3 : IVec S2x600000 32) (v63 v67 : IVec S_ 1)
    (h : fn_part4 (F := F) a2 a3 v63 v67 ix0 = 1#1) : SrcOk a2 ∧ SrcOk a3 := by
  dsimp only [fn_part4, fn_part5] at h
  obtain ⟨h86, h91⟩ := (andi_at _ _ _).1 h
  obtain ⟨h80, h85⟩ := (andi_at _ _ _).1 h86
  obtain ⟨h74, h79⟩ := (andi_at _ _ _).1 h80
  obtain ⟨-, h73⟩ := (andi_at _ _ _).1 h74
  exact ⟨fun e => ⟨toInt_zero32 ▸ IntOp.cmpi_sge.1 (cmp_of_all .sge a2 0#32 h73 e), toInt_node32 ▸ IntOp.cmpi_slt.1 (cmp_of_all .slt a2 100000#32 h79 e)⟩,
    fun e => ⟨toInt_zero32 ▸ IntOp.cmpi_sge.1 (cmp_of_all .sge a3 0#32 h85 e), toInt_node32 ▸ IntOp.cmpi_slt.1 (cmp_of_all .slt a3 100000#32 h91 e)⟩⟩

theorem fn_srcOk {F : FTy → Type} [FloatOps F]
    (a0 a1 : FVec F S100000x128 .f32) (a2 a3 : IVec S2x600000 32)
    (a4 : FVec F S128x128 .f32) (a5 : FVec F S128 .f32) (a6 a7 : FVec F S128x128 .f32) (a8 : FVec F S128 .f32)
    (a9 a10 : FVec F S128x128 .f32) (a11 : FVec F S128 .f32) (a12 a13 : FVec F S128x128 .f32)
    (a14 : FVec F S128 .f32) (a15 : FVec F S128x128 .f32)
    (h : fn (F := F) a0 a1 a2 a3 a4 a5 a6 a7 a8 a9 a10 a11 a12 a13 a14 a15 ix0 = 1#1) :
    SrcOk a2 ∧ SrcOk a3 := by
  dsimp only [fn, fn_part1, fn_part2, fn_part3] at h
  exact part4_srcOk a2 a3 _ _ h

theorem srcOk_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) :
    SrcOk (m ((c.tc : Thread Cert.KernelIdeal.nD Cert.KernelIdeal.τ).loc Cert.KernelIdeal.main_arg2))
      ∧ SrcOk (m ((c.tc : Thread Cert.KernelIdeal.nD Cert.KernelIdeal.τ).loc Cert.KernelIdeal.main_arg3)) :=
  fn_srcOk _ _ _ _ _ _ _ _ _ _ _ _ _ _ _ _ (congrFun (hpre c) ix0)

end Cert.Val.PreDecode

end
-- ==== Proof.Val.Algebraic.lean ====
import proofs.«411563_j39152921870698_3_alg».proof.Defs
import proofs.«411563_j39152921870698_3_alg».proof.Proof.Gen.KernelIdeal
import proofs.«411563_j39152921870698_3_alg».proof.Proof.Gen.ReferenceIdeal
import proofs.«411563_j39152921870698_3_alg».proof.Proof.Gen.Pre_finite_inputs
import proofs.«411563_j39152921870698_3_alg».proof.Proof.KI.Run
import proofs.«411563_j39152921870698_3_alg».proof.Proof.Val.KernelClosed
import proofs.«411563_j39152921870698_3_alg».proof.Proof.Val.Ref
import proofs.«411563_j39152921870698_3_alg».proof.Proof.Val.PreDecode

noncomputable section

namespace Cert.Val.Algebraic

open Idealize.ShloMosaic Idealize.ShloMosaic.TcCoe Idealize.SL.Sem Cert.SageSpec

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  have hok := fun c => Cert.Val.PreDecode.srcOk_of_pre (hF := Cert.Pre_finite_inputs.Gen.facts) m hpre c
  have h2' : ∀ c : Dev Cert.ReferenceIdeal.nD, SrcOk (m' ((c.tc : Thread Cert.ReferenceIdeal.nD Cert.ReferenceIdeal.τ).loc Cert.ReferenceIdeal.main_arg2)) :=
    fun c => by rw [(hagree c).2.2.1]; exact (hok c).1
  have h3' : ∀ c : Dev Cert.ReferenceIdeal.nD, SrcOk (m' ((c.tc : Thread Cert.ReferenceIdeal.nD Cert.ReferenceIdeal.τ).loc Cert.ReferenceIdeal.main_arg3)) :=
    fun c => by rw [(hagree c).2.2.2.1]; exact (hok c).2
  refine ⟨fun c => Cert.KernelIdeal.Hand.Wlast m c Cert.KernelIdeal.main_v75,
    fun c => Cert.KernelIdeal.Hand.Wlast m c Cert.KernelIdeal.main_v71, ?_, ?_⟩
  · refine (θ_run (Cert.KernelIdeal.defs (F := Ideal)) _ _).mono (fun r h c => ?_) (Cert.KernelIdeal.Hand.run_all (F := Ideal) m ρ)
    refine ⟨h c _ (Cert.KernelIdeal.Hand.mem_uc Cert.KernelIdeal.main_v75 (by decide)),
      h c _ (Cert.KernelIdeal.Hand.mem_uc Cert.KernelIdeal.main_v71 (by decide)),
      (h c _ (Cert.KernelIdeal.Hand.mem_uc Cert.KernelIdeal.main_arg0 (by decide))).trans (Cert.KernelIdeal.Hand.Wlast_main_arg0 m c),
      (h c _ (Cert.KernelIdeal.Hand.mem_uc Cert.KernelIdeal.main_arg1 (by decide))).trans (Cert.KernelIdeal.Hand.Wlast_main_arg1 m c),
      (h c _ (Cert.KernelIdeal.Hand.mem_uc Cert.KernelIdeal.main_arg2 (by decide))).trans (Cert.KernelIdeal.Hand.Wlast_main_arg2 m c),
      (h c _ (Cert.KernelIdeal.Hand.mem_uc Cert.KernelIdeal.main_arg3 (by decide))).trans (Cert.KernelIdeal.Hand.Wlast_main_arg3 m c),
      (h c _ (Cert.KernelIdeal.Hand.mem_uc Cert.KernelIdeal.main_arg4 (by decide))).trans (Cert.KernelIdeal.Hand.Wlast_main_arg4 m c),
      (h c _ (Cert.KernelIdeal.Hand.mem_uc Cert.KernelIdeal.main_arg5 (by decide))).trans (Cert.KernelIdeal.Hand.Wlast_main_arg5 m c),
      (h c _ (Cert.KernelIdeal.Hand.mem_uc Cert.KernelIdeal.main_arg6 (by decide))).trans (Cert.KernelIdeal.Hand.Wlast_main_arg6 m c),
      (h c _ (Cert.KernelIdeal.Hand.mem_uc Cert.KernelIdeal.main_arg7 (by decide))).trans (Cert.KernelIdeal.Hand.Wlast_main_arg7 m c),
      (h c _ (Cert.KernelIdeal.Hand.mem_uc Cert.KernelIdeal.main_arg8 (by decide))).trans (Cert.KernelIdeal.Hand.Wlast_main_arg8 m c),
      (h c _ (Cert.KernelIdeal.Hand.mem_uc Cert.KernelIdeal.main_arg9 (by decide))).trans (Cert.KernelIdeal.Hand.Wlast_main_arg9 m c),
      (h c _ (Cert.KernelIdeal.Hand.mem_uc Cert.KernelIdeal.main_arg10 (by decide))).trans (Cert.KernelIdeal.Hand.Wlast_main_arg10 m c),
      (h c _ (Cert.KernelIdeal.Hand.mem_uc Cert.KernelIdeal.main_arg11 (by decide))).trans (Cert.KernelIdeal.Hand.Wlast_main_arg11 m c),
      (h c _ (Cert.KernelIdeal.Hand.mem_uc Cert.KernelIdeal.main_arg12 (by decide))).trans (Cert.KernelIdeal.Hand.Wlast_main_arg12 m c),
      (h c _ (Cert.KernelIdeal.Hand.mem_uc Cert.KernelIdeal.main_arg13 (by decide))).trans (Cert.KernelIdeal.Hand.Wlast_main_arg13 m c),
      (h c _ (Cert.KernelIdeal.Hand.mem_uc Cert.KernelIdeal.main_arg14 (by decide))).trans (Cert.KernelIdeal.Hand.Wlast_main_arg14 m c),
      (h c _ (Cert.KernelIdeal.Hand.mem_uc Cert.KernelIdeal.main_arg15 (by decide))).trans (Cert.KernelIdeal.Hand.Wlast_main_arg15 m c)⟩
  · refine (θ_run (Cert.ReferenceIdeal.defs (F := Ideal)) _ _).mono (fun r h c => ?_)
      (Cert.ReferenceIdeal.Value.run (F := Ideal) m' ρ')
    obtain ⟨h121, h91, hargs⟩ := h c
    have hk := Cert.Val.KernelClosed.kernel_closed m c (hok c).1 (hok c).2
    obtain ⟨ha0, ha1, ha2, ha3, ha4, ha5, ha6, ha7, ha8, ha9, ha10, ha11, ha12, ha13, ha14, ha15⟩ := hagree c
    refine ⟨h121.trans ?_, h91.trans ?_, hargs⟩
    · rw [Cert.ReferenceIdeal.Read.val_main_v121_eq, Cert.ReferenceIdeal.RefValue.oPlayer_read _ _ _ _ (h2' c) (h3' c),
        ha0, ha1, ha2, ha3, ha4, ha5, ha6, ha7, ha8, ha9, ha13, ha14, ha15]
      exact hk.1.symm
    · rw [Cert.ReferenceIdeal.Read.val_main_v91_eq, Cert.ReferenceIdeal.RefValue.oTeam_read _ _ _ _ (h2' c) (h3' c),
        ha0, ha1, ha2, ha3, ha4, ha5, ha6, ha7, ha8, ha9, ha10, ha11, ha12]
      exact hk.2.symm

end Cert.Val.Algebraic

end
-- ==== Proof.lean ====
import proofs.«411563_j39152921870698_3_alg».proof.Defs
import proofs.«411563_j39152921870698_3_alg».proof.Proof.Gen.Kernel
import proofs.«411563_j39152921870698_3_alg».proof.Proof.Gen.KernelIdeal
import proofs.«411563_j39152921870698_3_alg».proof.Proof.Gen.ReferenceIdeal
import proofs.«411563_j39152921870698_3_alg».proof.Proof.Gen.Pre_finite_inputs
import proofs.«411563_j39152921870698_3_alg».proof.Proof.K.Run
import proofs.«411563_j39152921870698_3_alg».proof.Proof.KI.Run
import proofs.«411563_j39152921870698_3_alg».proof.Proof.Val.Ref
import proofs.«411563_j39152921870698_3_alg».proof.Proof.Val.Algebraic
import Idealize.ShloMosaic.PureOps.IdealRules

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.RefValue.frame_holds,
    ⟨IdealRules.truncf_extf.statement _ _ _, IdealRules.truncf_extf.statement _ _ _⟩,
    Cert.Val.Algebraic.algebraic⟩

end Cert.Proof

end
